-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  IdealRules.named_const.Statement Cert.KernelIdeal.κ "inv_temp" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v177)) (v1 : (c : Dev Cert.KernelIdeal.nD) → Buf (Elt Ideal) ((c.tc : Thread Cert.KernelIdeal.nD Cert.KernelIdeal.τ).loc Cert.KernelIdeal.main_v167)) (v2 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_v167) = v1 c
          ∧ r.2.mem ((c.tc : Thread Cert.KernelIdeal.nD Cert.KernelIdeal.τ).loc Cert.KernelIdeal.main_v140) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v346) = v0 c
          ∧ r.2.mem ((c.tc : Thread Cert.ReferenceIdeal.nD Cert.ReferenceIdeal.τ).loc Cert.ReferenceIdeal.main_v321) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10001x64 : Shape := ⟨2, ![10001, 64]⟩
abbrev S8000x64 : Shape := ⟨2, ![8000, 64]⟩
abbrev S64x64 : Shape := ⟨2, ![64, 64]⟩
abbrev S1x64 : Shape := ⟨2, ![1, 64]⟩
abbrev S448x64 : Shape := ⟨2, ![448, 64]⟩
abbrev S64 : Shape := ⟨1, ![64]⟩
abbrev S320000 : Shape := ⟨1, ![320000]⟩
abbrev S400000 : Shape := ⟨1, ![400000]⟩
abbrev S4096 : Shape := ⟨1, ![4096]⟩
abbrev S_ : Shape := ⟨0, ![]⟩

class Facts : Prop where
  bcast_S_S10001x64 : S_.BroadcastsInDim S10001x64 (![] : Fin 0 → Fin S10001x64.rank)
  reducesTo_S10001x64_S_d0_1 : S10001x64.ReducesTo [0, 1] S_
  h_S_ : 0 < S_.numel
  bcast_S_S8000x64 : S_.BroadcastsInDim S8000x64 (![] : Fin 0 → Fin S8000x64.rank)
  reducesTo_S8000x64_S_d0_1 : S8000x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S448x64 : S_.BroadcastsInDim S448x64 (![] : Fin 0 → Fin S448x64.rank)
  reducesTo_S448x64_S_d0_1 : S448x64.ReducesTo [0, 1] S_
  bcast_S_S64 : S_.BroadcastsInDim S64 (![] : Fin 0 → Fin S64.rank)
  reducesTo_S64_S_d0 : S64.ReducesTo [0] S_
  bcast_S_S320000 : S_.BroadcastsInDim S320000 (![] : Fin 0 → Fin S320000.rank)
  reducesTo_S320000_S_d0 : S320000.ReducesTo [0] S_
  bcast_S_S400000 : S_.BroadcastsInDim S400000 (![] : Fin 0 → Fin S400000.rank)
  reducesTo_S400000_S_d0 : S400000.ReducesTo [0] S_

variable [Facts]

def fn_part8 {F : FTy → Type} [FloatOps F] (main_arg24 : IVec S400000 32) (main_v129 : IVec S_ 1) (main_v134 : IVec S400000 1) (main_c_54 : IVec S_ 1) : IVec S_ 1 :=
  let main_v135 : IVec S_ 1 := (fun x v => Host.reduce IntOp.andi x v reducesTo_S400000_S_d0 h_S_) main_v134 main_c_54
  let main_v136 : IVec S_ 1 := andi main_v129 main_v135
  let main_c_55 : IVec S_ 32 := constantI S_ 32 0#32
  let main_v137 : IVec S400000 32 := broadcastInDim S400000 ![] bcast_S_S400000 main_c_55
  let main_v138 : IVec S400000 1 := cmpi .sge main_arg24 main_v137
  let main_c_56 : IVec S_ 32 := constantI S_ 32 8000#32
  let main_v139 : IVec S400000 32 := broadcastInDim S400000 ![] bcast_S_S400000 main_c_56
  let main_v140 : IVec S400000 1 := cmpi .slt main_arg24 main_v139
  let main_v141 : IVec S400000 1 := andi main_v138 main_v140
  let main_c_57 : IVec S_ 1 := constantI S_ 1 1#1
  let main_v142 : IVec S_ 1 := (fun x v => Host.reduce IntOp.andi x v reducesTo_S400000_S_d0 h_S_) main_v141 main_c_57
  let main_v143 : IVec S_ 1 := andi main_v136 main_v142
  main_v143

def fn_part7 {F : FTy → Type} [FloatOps F] (main_arg21 : IVec S400000 32) (main_arg22 : IVec S400000 32) (main_arg23 : IVec S400000 32) (main_arg24 : IVec S400000 32) (main_v115 : IVec S_ 1) (main_v117 : IVec S400000 1) (main_c_47 : IVec S_ 32) : IVec S_ 1 :=
  let main_v118 : IVec S400000 32 := broadcastInDim S400000 ![] bcast_S_S400000 main_c_47
  let main_v119 : IVec S400000 1 := cmpi .slt main_arg21 main_v118
  let main_v120 : IVec S400000 1 := andi main_v117 main_v119
  let main_c_48 : IVec S_ 1 := constantI S_ 1 1#1
  let main_v121 : IVec S_ 1 := (fun x v => Host.reduce IntOp.andi x v reducesTo_S400000_S_d0 h_S_) main_v120 main_c_48
  let main_v122 : IVec S_ 1 := andi main_v115 main_v121
  let main_c_49 : IVec S_ 32 := constantI S_ 32 0#32
  let main_v123 : IVec S400000 32 := broadcastInDim S400000 ![] bcast_S_S400000 main_c_49
  let main_v124 : IVec S400000 1 := cmpi .sge main_arg22 main_v123
  let main_c_50 : IVec S_ 32 := constantI S_ 32 10000#32
  let main_v125 : IVec S400000 32 := broadcastInDim S400000 ![] bcast_S_S400000 main_c_50
  let main_v126 : IVec S400000 1 := cmpi .slt main_arg22 main_v125
  let main_v127 : IVec S400000 1 := andi main_v124 main_v126
  let main_c_51 : IVec S_ 1 := constantI S_ 1 1#1
  let main_v128 : IVec S_ 1 := (fun x v => Host.reduce IntOp.andi x v reducesTo_S400000_S_d0 h_S_) main_v127 main_c_51
  let main_v129 : IVec S_ 1 := andi main_v122 main_v128
  let main_c_52 : IVec S_ 32 := constantI S_ 32 0#32
  let main_v130 : IVec S400000 32 := broadcastInDim S400000 ![] bcast_S_S400000 main_c_52
  let main_v131 : IVec S400000 1 := cmpi .sge main_arg23 main_v130
  let main_c_53 : IVec S_ 32 := constantI S_ 32 10000#32
  let main_v132 : IVec S400000 32 := broadcastInDim S400000 ![] bcast_S_S400000 main_c_53
  let main_v133 : IVec S400000 1 := cmpi .slt main_arg23 main_v132
  let main_v134 : IVec S400000 1 := andi main_v131 main_v133
  let main_c_54 : IVec S_ 1 := constantI S_ 1 1#1
  fn_part8 (F := F) main_arg24 main_v129 main_v134 main_c_54

def fn_part6 {F : FTy → Type} [FloatOps F] (main_arg19 : IVec S320000 32) (main_arg20 : IVec S320000 32) (main_arg21 : IVec S400000 32) (main_arg22 : IVec S400000 32) (main_arg23 : IVec S400000 32) (main_arg24 : IVec S400000 32) (main_v101 : IVec S_ 1) : IVec S_ 1 :=
  let main_c_40 : IVec S_ 32 := constantI S_ 32 0#32
  let main_v102 : IVec S320000 32 := broadcastInDim S320000 ![] bcast_S_S320000 main_c_40
  let main_v103 : IVec S320000 1 := cmpi .sge main_arg19 main_v102
  let main_c_41 : IVec S_ 32 := constantI S_ 32 10000#32
  let main_v104 : IVec S320000 32 := broadcastInDim S320000 ![] bcast_S_S320000 main_c_41
  let main_v105 : IVec S320000 1 := cmpi .slt main_arg19 main_v104
  let main_v106 : IVec S320000 1 := andi main_v103 main_v105
  let main_c_42 : IVec S_ 1 := constantI S_ 1 1#1
  let main_v107 : IVec S_ 1 := (fun x v => Host.reduce IntOp.andi x v reducesTo_S320000_S_d0 h_S_) main_v106 main_c_42
  let main_v108 : IVec S_ 1 := andi main_v101 main_v107
  let main_c_43 : IVec S_ 32 := constantI S_ 32 0#32
  let main_v109 : IVec S320000 32 := broadcastInDim S320000 ![] bcast_S_S320000 main_c_43
  let main_v110 : IVec S320000 1 := cmpi .sge main_arg20 main_v109
  let main_c_44 : IVec S_ 32 := constantI S_ 32 10000#32
  let main_v111 : IVec S320000 32 := broadcastInDim S320000 ![] bcast_S_S320000 main_c_44
  let main_v112 : IVec S320000 1 := cmpi .slt main_arg20 main_v111
  let main_v113 : IVec S320000 1 := andi main_v110 main_v112
  let main_c_45 : IVec S_ 1 := constantI S_ 1 1#1
  let main_v114 : IVec S_ 1 := (fun x v => Host.reduce IntOp.andi x v reducesTo_S320000_S_d0 h_S_) main_v113 main_c_45
  let main_v115 : IVec S_ 1 := andi main_v108 main_v114
  let main_c_46 : IVec S_ 32 := constantI S_ 32 0#32
  let main_v116 : IVec S400000 32 := broadcastInDim S400000 ![] bcast_S_S400000 main_c_46
  let main_v117 : IVec S400000 1 := cmpi .sge main_arg21 main_v116
  let main_c_47 : IVec S_ 32 := constantI S_ 32 8000#32
  fn_part7 (F := F) main_arg21 main_arg22 main_arg23 main_arg24 main_v115 main_v117 main_c_47

def fn_part5 {F : FTy → Type} [FloatOps F] (main_arg17 : IVec S320000 32) (main_arg18 : IVec S320000 32) (main_arg19 : IVec S320000 32) (main_arg20 : IVec S320000 32) (main_arg21 : IVec S400000 32) (main_arg22 : IVec S400000 32) (main_arg23 : IVec S400000 32) (main_arg24 : IVec S400000 32) (main_v80 : IVec S_ 1) (main_v82 : IVec S320000 1) (main_v84 : IVec S320000 1) : IVec S_ 1 :=
  let main_v85 : IVec S320000 1 := andi main_v82 main_v84
  let main_c_33 : IVec S_ 1 := constantI S_ 1 1#1
  let main_v86 : IVec S_ 1 := (fun x v => Host.reduce IntOp.andi x v reducesTo_S320000_S_d0 h_S_) main_v85 main_c_33
  let main_v87 : IVec S_ 1 := andi main_v80 main_v86
  let main_c_34 : IVec S_ 32 := constantI S_ 32 0#32
  let main_v88 : IVec S320000 32 := broadcastInDim S320000 ![] bcast_S_S320000 main_c_34
  let main_v89 : IVec S320000 1 := cmpi .sge main_arg17 main_v88
  let main_c_35 : IVec S_ 32 := constantI S_ 32 10000#32
  let main_v90 : IVec S320000 32 := broadcastInDim S320000 ![] bcast_S_S320000 main_c_35
  let main_v91 : IVec S320000 1 := cmpi .slt main_arg17 main_v90
  let main_v92 : IVec S320000 1 := andi main_v89 main_v91
  let main_c_36 : IVec S_ 1 := constantI S_ 1 1#1
  let main_v93 : IVec S_ 1 := (fun x v => Host.reduce IntOp.andi x v reducesTo_S320000_S_d0 h_S_) main_v92 main_c_36
  let main_v94 : IVec S_ 1 := andi main_v87 main_v93
  let main_c_37 : IVec S_ 32 := constantI S_ 32 0#32
  let main_v95 : IVec S320000 32 := broadcastInDim S320000 ![] bcast_S_S320000 main_c_37
  let main_v96 : IVec S320000 1 := cmpi .sge main_arg18 main_v95
  let main_c_38 : IVec S_ 32 := constantI S_ 32 10000#32
  let main_v97 : IVec S320000 32 := broadcastInDim S320000 ![] bcast_S_S320000 main_c_38
  let main_v98 : IVec S320000 1 := cmpi .slt main_arg18 main_v97
  let main_v99 : IVec S320000 1 := andi main_v96 main_v98
  let main_c_39 : IVec S_ 1 := constantI S_ 1 1#1
  let main_v100 : IVec S_ 1 := (fun x v => Host.reduce IntOp.andi x v reducesTo_S320000_S_d0 h_S_) main_v99 main_c_39
  let main_v101 : IVec S_ 1 := andi main_v94 main_v100
  fn_part6 (F := F) main_arg19 main_arg20 main_arg21 main_arg22 main_arg23 main_arg24 main_v101

def fn_part4 {F : FTy → Type} [FloatOps F] (main_arg14 : FVec F S400000 .f32) (main_arg15 : IVec S320000 32) (main_arg16 : IVec S320000 32) (main_arg17 : IVec S320000 32) (main_arg18 : IVec S320000 32) (main_arg19 : IVec S320000 32) (main_arg20 : IVec S320000 32) (main_arg21 : IVec S400000 32) (main_arg22 : IVec S400000 32) (main_arg23 : IVec S400000 32) (main_arg24 : IVec S400000 32) (main_v63 : IVec S_ 1) (main_v67 : IVec S_ 1) : IVec S_ 1 :=
  let main_v68 : IVec S_ 1 := andi main_v63 main_v67
  let main_v69 : FVec F S400000 .f32 := Host.absf main_arg14
  let main_cst_26 : FVec F S_ .f32 := constant S_ .f32 0x7F800000#32
  let main_v70 : FVec F S400000 .f32 := broadcastInDim S400000 ![] bcast_S_S400000 main_cst_26
  let main_v71 : IVec S400000 1 := cmpf .olt main_v69 main_v70
  let main_c_27 : IVec S_ 1 := constantI S_ 1 1#1
  let main_v72 : IVec S_ 1 := (fun x v => Host.reduce IntOp.andi x v reducesTo_S400000_S_d0 h_S_) main_v71 main_c_27
  let main_v73 : IVec S_ 1 := andi main_v68 main_v72
  let main_c_28 : IVec S_ 32 := constantI S_ 32 0#32
  let main_v74 : IVec S320000 32 := broadcastInDim S320000 ![] bcast_S_S320000 main_c_28
  let main_v75 : IVec S320000 1 := cmpi .sge main_arg15 main_v74
  let main_c_29 : IVec S_ 32 := constantI S_ 32 10000#32
  let main_v76 : IVec S320000 32 := broadcastInDim S320000 ![] bcast_S_S320000 main_c_29
  let main_v77 : IVec S320000 1 := cmpi .slt main_arg15 main_v76
  let main_v78 : IVec S320000 1 := andi main_v75 main_v77
  let main_c_30 : IVec S_ 1 := constantI S_ 1 1#1
  let main_v79 : IVec S_ 1 := (fun x v => Host.reduce IntOp.andi x v reducesTo_S320000_S_d0 h_S_) main_v78 main_c_30
  let main_v80 : IVec S_ 1 := andi main_v73 main_v79
  let main_c_31 : IVec S_ 32 := constantI S_ 32 0#32
  let main_v81 : IVec S320000 32 := broadcastInDim S320000 ![] bcast_S_S320000 main_c_31
  let main_v82 : IVec S320000 1 := cmpi .sge main_arg16 main_v81
  let main_c_32 : IVec S_ 32 := constantI S_ 32 10000#32
  let main_v83 : IVec S320000 32 := broadcastInDim S320000 ![] bcast_S_S320000 main_c_32
  let main_v84 : IVec S320000 1 := cmpi .slt main_arg16 main_v83
  fn_part5 (F := F) main_arg17 main_arg18 main_arg19 main_arg20 main_arg21 main_arg22 main_arg23 main_arg24 main_v80 main_v82 main_v84

def fn_part3 {F : FTy → Type} [FloatOps F] (main_arg11 : FVec F S320000 .f32) (main_arg12 : FVec F S320000 .f32) (main_arg13 : FVec F S400000 .f32) (main_arg14 : FVec F S400000 .f32) (main_arg15 : IVec S320000 32) (main_arg16 : IVec S320000 32) (main_arg17 : IVec S320000 32) (main_arg18 : IVec S320000 32) (main_arg19 : IVec S320000 32) (main_arg20 : IVec S320000 32) (main_arg21 : IVec S400000 32) (main_arg22 : IVec S400000 32) (main_arg23 : IVec S400000 32) (main_arg24 : IVec S400000 32) (main_v48 : IVec S_ 1) (main_v49 : FVec F S320000 .f32) (main_v50 : FVec F S320000 .f32) : IVec S_ 1 :=
  let main_v51 : IVec S320000 1 := cmpf .olt main_v49 main_v50
  let main_c_19 : IVec S_ 1 := constantI S_ 1 1#1
  let main_v52 : IVec S_ 1 := (fun x v => Host.reduce IntOp.andi x v reducesTo_S320000_S_d0 h_S_) main_v51 main_c_19
  let main_v53 : IVec S_ 1 := andi main_v48 main_v52
  let main_v54 : FVec F S320000 .f32 := Host.absf main_arg11
  let main_cst_20 : FVec F S_ .f32 := constant S_ .f32 0x7F800000#32
  let main_v55 : FVec F S320000 .f32 := broadcastInDim S320000 ![] bcast_S_S320000 main_cst_20
  let main_v56 : IVec S320000 1 := cmpf .olt main_v54 main_v55
  let main_c_21 : IVec S_ 1 := constantI S_ 1 1#1
  let main_v57 : IVec S_ 1 := (fun x v => Host.reduce IntOp.andi x v reducesTo_S320000_S_d0 h_S_) main_v56 main_c_21
  let main_v58 : IVec S_ 1 := andi main_v53 main_v57
  let main_v59 : FVec F S320000 .f32 := Host.absf main_arg12
  let main_cst_22 : FVec F S_ .f32 := constant S_ .f32 0x7F800000#32
  let main_v60 : FVec F S320000 .f32 := broadcastInDim S320000 ![] bcast_S_S320000 main_cst_22
  let main_v61 : IVec S320000 1 := cmpf .olt main_v59 main_v60
  let main_c_23 : IVec S_ 1 := constantI S_ 1 1#1
  let main_v62 : IVec S_ 1 := (fun x v => Host.reduce IntOp.andi x v reducesTo_S320000_S_d0 h_S_) main_v61 main_c_23
  let main_v63 : IVec S_ 1 := andi main_v58 main_v62
  let main_v64 : FVec F S400000 .f32 := Host.absf main_arg13
  let main_cst_24 : FVec F S_ .f32 := constant S_ .f32 0x7F800000#32
  let main_v65 : FVec F S400000 .f32 := broadcastInDim S400000 ![] bcast_S_S400000 main_cst_24
  let main_v66 : IVec S400000 1 := cmpf .olt main_v64 main_v65
  let main_c_25 : IVec S_ 1 := constantI S_ 1 1#1
  let main_v67 : IVec S_ 1 := (fun x v => Host.reduce IntOp.andi x v reducesTo_S400000_S_d0 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S1x64 .f32) (main_arg8 : FVec F S448x64 .f32) (main_arg9 : FVec F S64 .f32) (main_arg10 : FVec F S320000 .f32) (main_arg11 : FVec F S320000 .f32) (main_arg12 : FVec F S320000 .f32) (main_arg13 : FVec F S400000 .f32) (main_arg14 : FVec F S400000 .f32) (main_arg15 : IVec S320000 32) (main_arg16 : IVec S320000 32) (main_arg17 : IVec S320000 32) (main_arg18 : IVec S320000 32) (main_arg19 : IVec S320000 32) (main_arg20 : IVec S320000 32) (main_arg21 : IVec S400000 32) (main_arg22 : IVec S400000 32) (main_arg23 : IVec S400000 32) (main_arg24 : IVec S400000 32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S448x64 .f32 := Host.absf main_arg8
  let main_cst_14 : FVec F S_ .f32 := constant S_ .f32 0x7F800000#32
  let main_v40 : FVec F S448x64 .f32 := broadcastInDim S448x64 ![] bcast_S_S448x64 main_cst_14
  let main_v41 : IVec S448x64 1 := cmpf .olt main_v39 main_v40
  let main_c_15 : IVec S_ 1 := constantI S_ 1 1#1
  let main_v42 : IVec S_ 1 := (fun x v => Host.reduce IntOp.andi x v reducesTo_S448x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S320000 .f32 := Host.absf main_arg10
  let main_cst_18 : FVec F S_ .f32 := constant S_ .f32 0x7F800000#32
  let main_v50 : FVec F S320000 .f32 := broadcastInDim S320000 ![] bcast_S_S320000 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S64x64 .f32) (main_arg5 : FVec F S1x64 .f32) (main_arg6 : FVec F S64x64 .f32) (main_arg7 : FVec F S1x64 .f32) (main_arg8 : FVec F S448x64 .f32) (main_arg9 : FVec F S64 .f32) (main_arg10 : FVec F S320000 .f32) (main_arg11 : FVec F S320000 .f32) (main_arg12 : FVec F S320000 .f32) (main_arg13 : FVec F S400000 .f32) (main_arg14 : FVec F S400000 .f32) (main_arg15 : IVec S320000 32) (main_arg16 : IVec S320000 32) (main_arg17 : IVec S320000 32) (main_arg18 : IVec S320000 32) (main_arg19 : IVec S320000 32) (main_arg20 : IVec S320000 32) (main_arg21 : IVec S400000 32) (main_arg22 : IVec S400000 32) (main_arg23 : IVec S400000 32) (main_arg24 : IVec S400000 32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S10001x64 .f32) (main_arg1 : FVec F S8000x64 .f32) (main_arg2 : FVec F S64x64 .f32) (main_arg3 : FVec F S1x64 .f32) (main_arg4 : FVec F S64x64 .f32) (main_arg5 : FVec F S1x64 .f32) (main_arg6 : FVec F S64x64 .f32) (main_arg7 : FVec F S1x64 .f32) (main_arg8 : FVec F S448x64 .f32) (main_arg9 : FVec F S64 .f32) (main_arg10 : FVec F S320000 .f32) (main_arg11 : FVec F S320000 .f32) (main_arg12 : FVec F S320000 .f32) (main_arg13 : FVec F S400000 .f32) (main_arg14 : FVec F S400000 .f32) (main_arg15 : IVec S320000 32) (main_arg16 : IVec S320000 32) (main_arg17 : IVec S320000 32) (main_arg18 : IVec S320000 32) (main_arg19 : IVec S320000 32) (main_arg20 : IVec S320000 32) (main_arg21 : IVec S400000 32) (main_arg22 : IVec S400000 32) (main_arg23 : IVec S400000 32) (main_arg24 : IVec S400000 32) (main_arg25 : IVec S4096 32) : IVec S_ 1 :=
  let main_v0 : FVec F S10001x64 .f32 := Host.absf main_arg0
  let main_cst : FVec F S_ .f32 := constant S_ .f32 0x7F800000#32
  let main_v1 : FVec F S10001x64 .f32 := broadcastInDim S10001x64 ![] bcast_S_S10001x64 main_cst
  let main_v2 : IVec S10001x64 1 := cmpf .olt main_v0 main_v1
  let main_c : IVec S_ 1 := constantI S_ 1 1#1
  let main_v3 : IVec S_ 1 := (fun x v => Host.reduce IntOp.andi x v reducesTo_S10001x64_S_d0_1 h_S_) main_v2 main_c
  let main_v4 : FVec F S8000x64 .f32 := Host.absf main_arg1
  let main_cst_0 : FVec F S_ .f32 := constant S_ .f32 0x7F800000#32
  let main_v5 : FVec F S8000x64 .f32 := broadcastInDim S8000x64 ![] bcast_S_S8000x64 main_cst_0
  let main_v6 : IVec S8000x64 1 := cmpf .olt main_v4 main_v5
  let main_c_1 : IVec S_ 1 := constantI S_ 1 1#1
  let main_v7 : IVec S_ 1 := (fun x v => Host.reduce IntOp.andi x v reducesTo_S8000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S10001x64 : Shape := ⟨2, ![10001, 64]⟩
abbrev S8000x64 : Shape := ⟨2, ![8000, 64]⟩
abbrev S64x64 : Shape := ⟨2, ![64, 64]⟩
abbrev S1x64 : Shape := ⟨2, ![1, 64]⟩
abbrev S448x64 : Shape := ⟨2, ![448, 64]⟩
abbrev S64 : Shape := ⟨1, ![64]⟩
abbrev S320000 : Shape := ⟨1, ![320000]⟩
abbrev S400000 : Shape := ⟨1, ![400000]⟩
abbrev S4096 : Shape := ⟨1, ![4096]⟩
abbrev S10000x64 : Shape := ⟨2, ![10000, 64]⟩
abbrev S_ : Shape := ⟨0, ![]⟩
abbrev S10000x10000 : Shape := ⟨2, ![10000, 10000]⟩
abbrev S320000x1 : Shape := ⟨2, ![320000, 1]⟩
abbrev S320000x2 : Shape := ⟨2, ![320000, 2]⟩
abbrev S8000x10000 : Shape := ⟨2, ![8000, 10000]⟩
abbrev S400000x1 : Shape := ⟨2, ![400000, 1]⟩
abbrev S400000x2 : Shape := ⟨2, ![400000, 2]⟩
abbrev S10000x8000 : Shape := ⟨2, ![10000, 8000]⟩
abbrev S400x10000 : Shape := ⟨2, ![400, 10000]⟩
abbrev S400x64 : Shape := ⟨2, ![400, 64]⟩
abbrev S10000 : Shape := ⟨1, ![10000]⟩
abbrev S10000x1 : Shape := ⟨2, ![10000, 1]⟩
abbrev S400x1 : Shape := ⟨2, ![400, 1]⟩
abbrev S400x400 : Shape := ⟨2, ![400, 400]⟩
abbrev S400 : Shape := ⟨1, ![400]⟩
abbrev S1x400 : Shape := ⟨2, ![1, 400]⟩
abbrev S10000x192 : Shape := ⟨2, ![10000, 192]⟩
abbrev S8000x192 : Shape := ⟨2, ![8000, 192]⟩
abbrev S400x192 : Shape := ⟨2, ![400, 192]⟩
abbrev S8000x448 : Shape := ⟨2, ![8000, 448]⟩
abbrev S400x8000 : Shape := ⟨2, ![400, 8000]⟩
abbrev S4096x1 : Shape := ⟨2, ![4096, 1]⟩
abbrev S4096x64 : Shape := ⟨2, ![4096, 64]⟩

abbrev nBuf : Space → Nat
  | .hbm => 248
  | .vmem => 81
  | .smem => 0
  | _ => 0

abbrev hbmTy0_0 (i : Nat) : BufTy := match i % 128 with
  | 0 => ⟨S10001x64, .f32⟩
  | 1 => ⟨S8000x64, .f32⟩
  | 2 => ⟨S64x64, .f32⟩
  | 3 => ⟨S1x64, .f32⟩
  | 4 => ⟨S64x64, .f32⟩
  | 5 => ⟨S1x64, .f32⟩
  | 6 => ⟨S64x64, .f32⟩
  | 7 => ⟨S1x64, .f32⟩
  | 8 => ⟨S448x64, .f32⟩
  | 9 => ⟨S64, .f32⟩
  | 10 => ⟨S320000, .f32⟩
  | 11 => ⟨S320000, .f32⟩
  | 12 => ⟨S320000, .f32⟩
  | 13 => ⟨S400000, .f32⟩
  | 14 => ⟨S400000, .f32⟩
  | 15 => ⟨S320000, .i32⟩
  | 16 => ⟨S320000, .i32⟩
  | 17 => ⟨S320000, .i32⟩
  | 18 => ⟨S320000, .i32⟩
  | 19 => ⟨S320000, .i32⟩
  | 20 => ⟨S320000, .i32⟩
  | 21 => ⟨S400000, .i32⟩
  | 22 => ⟨S400000, .i32⟩
  | 23 => ⟨S400000, .i32⟩
  | 24 => ⟨S400000, .i32⟩
  | 25 => ⟨S4096, .i32⟩
  | 26 => ⟨S10000x64, .f32⟩
  | 27 => ⟨S10000x64, .f32⟩
  | 28 => ⟨S10000x64, .f32⟩
  | 29 => ⟨S10000x64, .f32⟩
  | 30 => ⟨S_, .f32⟩
  | 31 => ⟨S10000x10000, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x1, .i32⟩
  | 48 => ⟨S320000x2, .i32⟩
  | 49 => ⟨S10000x10000, .f32⟩
  | 50 => ⟨S10000x10000, .bf16⟩
  | 51 => ⟨S_, .f32⟩
  | 52 => ⟨S10000x10000, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x1, .i32⟩
  | 69 => ⟨S320000x2, .i32⟩
  | 70 => ⟨S10000x10000, .f32⟩
  | 71 => ⟨S10000x10000, .bf16⟩
  | 72 => ⟨S_, .f32⟩
  | 73 => ⟨S10000x10000, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x1, .i32⟩
  | 90 => ⟨S320000x2, .i32⟩
  | 91 => ⟨S10000x10000, .f32⟩
  | 92 => ⟨S10000x10000, .bf16⟩
  | 93 => ⟨S_, .f32⟩
  | 94 => ⟨S8000x10000, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x1, .i32⟩
  | 111 => ⟨S400000x2, .i32⟩
  | 112 => ⟨S8000x10000, .f32⟩
  | 113 => ⟨S8000x10000, .bf16⟩
  | 114 => ⟨S_, .f32⟩
  | 115 => ⟨S10000x8000, .f32⟩
  | 116 => ⟨S_, .i32⟩
  | 117 => ⟨S400000, .i32⟩
  | 118 => ⟨S400000, .i1⟩
  | 119 => ⟨S_, .i32⟩
  | 120 => ⟨S400000, .i32⟩
  | 121 => ⟨S400000, .i32⟩
  | 122 => ⟨S400000, .i32⟩
  | 123 => ⟨S_, .i32⟩
  | 124 => ⟨S400000, .i32⟩
  | 125 => ⟨S400000, .i1⟩
  | 126 => ⟨S_, .i32⟩
  | 127 => ⟨S400000, .i32⟩
  | _ => ⟨S10001x64, .f32⟩

abbrev hbmTy0_1 (i : Nat) : BufTy := match i % 128 with
  | 0 => ⟨S400000, .i32⟩
  | 1 => ⟨S400000, .i32⟩
  | 2 => ⟨S400000x1, .i32⟩
  | 3 => ⟨S400000x1, .i32⟩
  | 4 => ⟨S400000x2, .i32⟩
  | 5 => ⟨S10000x8000, .f32⟩
  | 6 => ⟨S10000x8000, .bf16⟩
  | 7 => ⟨S10000x64, .bf16⟩
  | 8 => ⟨S10000x64, .f32⟩
  | 9 => ⟨S10000x64, .f32⟩
  | 10 => ⟨S10000x64, .bf16⟩
  | 11 => ⟨S10000x64, .f32⟩
  | 12 => ⟨S10000x64, .f32⟩
  | 13 => ⟨S_, .f32⟩
  | 14 => ⟨S10000x64, .f32⟩
  | 15 => ⟨S10000x64, .f32⟩
  | 16 => ⟨S10000x64, .bf16⟩
  | 17 => ⟨S10000x64, .f32⟩
  | 18 => ⟨S10000x64, .bf16⟩
  | 19 => ⟨S10000x64, .f32⟩
  | 20 => ⟨S10000x64, .f32⟩
  | 21 => ⟨S10000x64, .bf16⟩
  | 22 => ⟨S10000x64, .f32⟩
  | 23 => ⟨S10000x64, .bf16⟩
  | 24 => ⟨S10000x64, .f32⟩
  | 25 => ⟨S10000x64, .f32⟩
  | 26 => ⟨S_, .f32⟩
  | 27 => ⟨S10000x64, .f32⟩
  | 28 => ⟨S10000x64, .f32⟩
  | 29 => ⟨S10000x64, .f32⟩
  | 30 => ⟨S10000x64, .f32⟩
  | 31 => ⟨S10000x64, .bf16⟩
  | 32 => ⟨S10000x64, .bf16⟩
  | 33 => ⟨S10000x1, .f32⟩
  | 34 => ⟨S10000x1, .f32⟩
  | 35 => ⟨S10000, .f32⟩
  | 36 => ⟨S10000, .f32⟩
  | 37 => ⟨S10000x64, .f32⟩
  | 38 => ⟨S_, .f32⟩
  | 39 => ⟨S10000, .f32⟩
  | 40 => ⟨S_, .f32⟩
  | 41 => ⟨S10000, .f32⟩
  | 42 => ⟨S10000, .f32⟩
  | 43 => ⟨S10000, .f32⟩
  | 44 => ⟨S_, .f32⟩
  | 45 => ⟨S10000, .f32⟩
  | 46 => ⟨S10000, .f32⟩
  | 47 => ⟨S10000, .f32⟩
  | 48 => ⟨S_, .f32⟩
  | 49 => ⟨S10000, .f32⟩
  | 50 => ⟨S10000, .f32⟩
  | 51 => ⟨S10000, .f32⟩
  | 52 => ⟨S10000, .f32⟩
  | 53 => ⟨S_, .f32⟩
  | 54 => ⟨S_, .f32⟩
  | 55 => ⟨S_, .f32⟩
  | 56 => ⟨S_, .f32⟩
  | 57 => ⟨S10000x64, .f32⟩
  | 58 => ⟨S_, .f32⟩
  | 59 => ⟨S10000, .f32⟩
  | 60 => ⟨S_, .f32⟩
  | 61 => ⟨S10000, .f32⟩
  | 62 => ⟨S10000, .f32⟩
  | 63 => ⟨S10000, .f32⟩
  | 64 => ⟨S_, .f32⟩
  | 65 => ⟨S10000, .f32⟩
  | 66 => ⟨S10000, .f32⟩
  | 67 => ⟨S10000, .f32⟩
  | 68 => ⟨S_, .f32⟩
  | 69 => ⟨S10000, .f32⟩
  | 70 => ⟨S10000, .f32⟩
  | 71 => ⟨S10000, .f32⟩
  | 72 => ⟨S10000, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S10000x192, .f32⟩
  | 81 => ⟨S10000x192, .bf16⟩
  | 82 => ⟨S8000x192, .f32⟩
  | 83 => ⟨S8000x64, .f32⟩
  | 84 => ⟨S8000x64, .f32⟩
  | 85 => ⟨S8000x64, .f32⟩
  | 86 => ⟨S8000x64, .f32⟩
  | 87 => ⟨S8000x64, .f32⟩
  | 88 => ⟨S8000x64, .f32⟩
  | 89 => ⟨S8000x64, .f32⟩
  | 90 => ⟨S8000x64, .f32⟩
  | 91 => ⟨S8000x448, .f32⟩
  | 92 => ⟨S8000x64, .f32⟩
  | 93 => ⟨S1x64, .f32⟩
  | 94 => ⟨S8000x64, .f32⟩
  | 95 => ⟨S8000x64, .f32⟩
  | 96 => ⟨S8000x64, .f32⟩
  | 97 => ⟨S8000x64, .f32⟩
  | 98 => ⟨S8000x64, .f32⟩
  | 99 => ⟨S8000x64, .bf16⟩
  | 100 => ⟨S10000x64, .f32⟩
  | 101 => ⟨S_, .f32⟩
  | 102 => ⟨S10000x64, .f32⟩
  | 103 => ⟨S10000x64, .f32⟩
  | 104 => ⟨S10000x64, .f32⟩
  | 105 => ⟨S10000x64, .f32⟩
  | 106 => ⟨S10000x64, .f32⟩
  | 107 => ⟨S10000x64, .f32⟩
  | 108 => ⟨S10000x64, .bf16⟩
  | 109 => ⟨S8000x64, .f32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x64, .f32⟩
  | 119 => ⟨S4096x64, .f32⟩
  | _ => ⟨S10001x64, .f32⟩

abbrev hbmTy (i : Nat) : BufTy := match i / 128 with
  | 0 => hbmTy0_0 i
  | 1 => hbmTy0_1 i
  | _ => ⟨S10001x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S64x64, .f32⟩
  | .local _ .vmem, ⟨2, _⟩ => ⟨S1x64, .f32⟩
  | .local _ .vmem, ⟨3, _⟩ => ⟨S10000x64, .f32⟩
  | .local _ .vmem, ⟨4, _⟩ => ⟨S10000x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S64x64, .f32⟩
  | .local _ .vmem, ⟨10, _⟩ => ⟨S1x64, .f32⟩
  | .local _ .vmem, ⟨11, _⟩ => ⟨S10000x64, .f32⟩
  | .local _ .vmem, ⟨12, _⟩ => ⟨S400x10000, .bf16⟩
  | .local _ .vmem, ⟨13, _⟩ => ⟨S400x10000, .bf16⟩
  | .local _ .vmem, ⟨14, _⟩ => ⟨S10000x64, .bf16⟩
  | .local _ .vmem, ⟨15, _⟩ => ⟨S400x64, .f32⟩
  | .local _ .vmem, ⟨16, _⟩ => ⟨S400x64, .f32⟩
  | .local _ .vmem, ⟨17, _⟩ => ⟨S400x64, .f32⟩
  | .local _ .vmem, ⟨18, _⟩ => ⟨S400x64, .f32⟩
  | .local _ .vmem, ⟨19, _⟩ => ⟨S400x10000, .bf16⟩
  | .local _ .vmem, ⟨20, _⟩ => ⟨S400x10000, .bf16⟩
  | .local _ .vmem, ⟨21, _⟩ => ⟨S10000x64, .bf16⟩
  | .local _ .vmem, ⟨22, _⟩ => ⟨S400x64, .f32⟩
  | .local _ .vmem, ⟨23, _⟩ => ⟨S400x64, .f32⟩
  | .local _ .vmem, ⟨24, _⟩ => ⟨S400x64, .f32⟩
  | .local _ .vmem, ⟨25, _⟩ => ⟨S400x64, .f32⟩
  | .local _ .vmem, ⟨26, _⟩ => ⟨S400x10000, .bf16⟩
  | .local _ .vmem, ⟨27, _⟩ => ⟨S400x10000, .bf16⟩
  | .local _ .vmem, ⟨28, _⟩ => ⟨S10000x64, .bf16⟩
  | .local _ .vmem, ⟨29, _⟩ => ⟨S400x64, .f32⟩
  | .local _ .vmem, ⟨30, _⟩ => ⟨S400x64, .f32⟩
  | .local _ .vmem, ⟨31, _⟩ => ⟨S400x10000, .bf16⟩
  | .local _ .vmem, ⟨32, _⟩ => ⟨S400x10000, .bf16⟩
  | .local _ .vmem, ⟨33, _⟩ => ⟨S10000x64, .bf16⟩
  | .local _ .vmem, ⟨34, _⟩ => ⟨S400x64, .f32⟩
  | .local _ .vmem, ⟨35, _⟩ => ⟨S400x64, .f32⟩
  | .local _ .vmem, ⟨36, _⟩ => ⟨S400x64, .f32⟩
  | .local _ .vmem, ⟨37, _⟩ => ⟨S400x64, .f32⟩
  | .local _ .vmem, ⟨38, _⟩ => ⟨S400x10000, .bf16⟩
  | .local _ .vmem, ⟨39, _⟩ => ⟨S400x10000, .bf16⟩
  | .local _ .vmem, ⟨40, _⟩ => ⟨S10000x64, .bf16⟩
  | .local _ .vmem, ⟨41, _⟩ => ⟨S400x64, .f32⟩
  | .local _ .vmem, ⟨42, _⟩ => ⟨S400x64, .f32⟩
  | .local _ .vmem, ⟨43, _⟩ => ⟨S400x10000, .bf16⟩
  | .local _ .vmem, ⟨44, _⟩ => ⟨S400x10000, .bf16⟩
  | .local _ .vmem, ⟨45, _⟩ => ⟨S10000x64, .bf16⟩
  | .local _ .vmem, ⟨46, _⟩ => ⟨S400x64, .f32⟩
  | .local _ .vmem, ⟨47, _⟩ => ⟨S400x64, .f32⟩
  | .local _ .vmem, ⟨48, _⟩ => ⟨S400x64, .f32⟩
  | .local _ .vmem, ⟨49, _⟩ => ⟨S400x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S400x64, .bf16⟩
  | .local _ .vmem, ⟨55, _⟩ => ⟨S400x64, .bf16⟩
  | .local _ .vmem, ⟨56, _⟩ => ⟨S400x64, .bf16⟩
  | .local _ .vmem, ⟨57, _⟩ => ⟨S400x64, .bf16⟩
  | .local _ .vmem, ⟨58, _⟩ => ⟨S400x1, .f32⟩
  | .local _ .vmem, ⟨59, _⟩ => ⟨S400x1, .f32⟩
  | .local _ .vmem, ⟨60, _⟩ => ⟨S10000x1, .f32⟩
  | .local _ .vmem, ⟨61, _⟩ => ⟨S400x1, .f32⟩
  | .local _ .vmem, ⟨62, _⟩ => ⟨S400x10000, .bf16⟩
  | .local _ .vmem, ⟨63, _⟩ => ⟨S400x10000, .bf16⟩
  | .local _ .vmem, ⟨64, _⟩ => ⟨S10000x192, .bf16⟩
  | .local _ .vmem, ⟨65, _⟩ => ⟨S400x192, .f32⟩
  | .local _ .vmem, ⟨66, _⟩ => ⟨S400x192, .f32⟩
  | .local _ .vmem, ⟨67, _⟩ => ⟨S400x8000, .bf16⟩
  | .local _ .vmem, ⟨68, _⟩ => ⟨S400x8000, .bf16⟩
  | .local _ .vmem, ⟨69, _⟩ => ⟨S8000x64, .bf16⟩
  | .local _ .vmem, ⟨70, _⟩ => ⟨S400x64, .f32⟩
  | .local _ .vmem, ⟨71, _⟩ => ⟨S400x64, .f32⟩
  | .local _ .vmem, ⟨72, _⟩ => ⟨S10000x64, .f32⟩
  | .local _ .vmem, ⟨73, _⟩ => ⟨S10000x64, .f32⟩
  | .local _ .vmem, ⟨74, _⟩ => ⟨S400x10000, .bf16⟩
  | .local _ .vmem, ⟨75, _⟩ => ⟨S400x10000, .bf16⟩
  | .local _ .vmem, ⟨76, _⟩ => ⟨S10000x64, .bf16⟩
  | .local _ .vmem, ⟨77, _⟩ => ⟨S400x64, .f32⟩
  | .local _ .vmem, ⟨78, _⟩ => ⟨S400x64, .f32⟩
  | .local _ .vmem, ⟨79, _⟩ => ⟨S4096x64, .f32⟩
  | .local _ .vmem, ⟨80, _⟩ => ⟨S4096x64, .f32⟩
  | _, _ => ⟨S10001x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_c : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_1 : Ref sig .tc := ⟨.hbm, 39, rfl⟩
abbrev main_v10 : Ref sig .tc := ⟨.hbm, 40, rfl⟩
abbrev main_v11 : Ref sig .tc := ⟨.hbm, 41, rfl⟩
abbrev main_c_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_c_4 : Ref sig .tc := ⟨.hbm, 53, rfl⟩
abbrev main_v21 : Ref sig .tc := ⟨.hbm, 54, rfl⟩
abbrev main_v22 : Ref sig .tc := ⟨.hbm, 55, rfl⟩
abbrev main_c_5 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_6 : Ref sig .tc := ⟨.hbm, 60, rfl⟩
abbrev main_v26 : Ref sig .tc := ⟨.hbm, 61, rfl⟩
abbrev main_v27 : Ref sig .tc := ⟨.hbm, 62, rfl⟩
abbrev main_c_7 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_8 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_c_10 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_11 : Ref sig .tc := ⟨.hbm, 81, rfl⟩
abbrev main_v42 : Ref sig .tc := ⟨.hbm, 82, rfl⟩
abbrev main_v43 : Ref sig .tc := ⟨.hbm, 83, rfl⟩
abbrev main_c_12 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_13 : Ref sig .tc := ⟨.hbm, 93, rfl⟩
abbrev main_v52 : Ref sig .tc := ⟨.hbm, 94, rfl⟩
abbrev main_c_14 : Ref sig .tc := ⟨.hbm, 95, rfl⟩
abbrev main_v53 : Ref sig .tc := ⟨.hbm, 96, rfl⟩
abbrev main_v54 : Ref sig .tc := ⟨.hbm, 97, rfl⟩
abbrev main_c_15 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_c_16 : Ref sig .tc := ⟨.hbm, 102, rfl⟩
abbrev main_v58 : Ref sig .tc := ⟨.hbm, 103, rfl⟩
abbrev main_v59 : Ref sig .tc := ⟨.hbm, 104, rfl⟩
abbrev main_c_17 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_18 : Ref sig .tc := ⟨.hbm, 114, rfl⟩
abbrev main_v68 : Ref sig .tc := ⟨.hbm, 115, rfl⟩
abbrev main_c_19 : Ref sig .tc := ⟨.hbm, 116, rfl⟩
abbrev main_v69 : Ref sig .tc := ⟨.hbm, 117, rfl⟩
abbrev main_v70 : Ref sig .tc := ⟨.hbm, 118, rfl⟩
abbrev main_c_20 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_21 : Ref sig .tc := ⟨.hbm, 123, rfl⟩
abbrev main_v74 : Ref sig .tc := ⟨.hbm, 124, rfl⟩
abbrev main_v75 : Ref sig .tc := ⟨.hbm, 125, rfl⟩
abbrev main_c_22 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_23 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_24 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108_0 : Ref sig .tc := ⟨.hbm, 161, rfl⟩
abbrev main_v108_1 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_25 : Ref sig .tc := ⟨.hbm, 166, rfl⟩
abbrev main_v112 : Ref sig .tc := ⟨.hbm, 167, rfl⟩
abbrev main_cst_26 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_27 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_28 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_cst_29 : Ref sig .tc := ⟨.hbm, 181, rfl⟩
abbrev main_v123 : Ref sig .tc := ⟨.hbm, 182, rfl⟩
abbrev main_cst_30 : Ref sig .tc := ⟨.hbm, 183, rfl⟩
abbrev main_v124 : Ref sig .tc := ⟨.hbm, 184, rfl⟩
abbrev main_v125 : Ref sig .tc := ⟨.hbm, 185, rfl⟩
abbrev main_cst_31 : Ref sig .tc := ⟨.hbm, 186, rfl⟩
abbrev main_v126 : Ref sig .tc := ⟨.hbm, 187, rfl⟩
abbrev main_cst_32 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_33 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_cst_34 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_cst_35 : Ref sig .tc := ⟨.hbm, 201, rfl⟩
abbrev main_v137 : Ref sig .tc := ⟨.hbm, 202, rfl⟩
abbrev main_cst_36 : Ref sig .tc := ⟨.hbm, 203, rfl⟩
abbrev main_v138 : Ref sig .tc := ⟨.hbm, 204, rfl⟩
abbrev main_v139 : Ref sig .tc := ⟨.hbm, 205, rfl⟩
abbrev main_cst_37 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_38 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_c_39 : Ref sig .tc := ⟨.hbm, 238, rfl⟩
abbrev main_v170 : Ref sig .tc := ⟨.hbm, 239, rfl⟩
abbrev main_v171 : Ref sig .tc := ⟨.hbm, 240, rfl⟩
abbrev main_c_40 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc4_stg0_0 : Ref sig .tc := ⟨.vmem, 19, rfl⟩
abbrev cc4_stg0_1 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg2_1 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc6_stg3_0 : Ref sig .tc := ⟨.vmem, 36, rfl⟩
abbrev cc6_stg3_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc8_stg3_0 : Ref sig .tc := ⟨.vmem, 48, rfl⟩
abbrev cc8_stg3_1 : Ref sig .tc := ⟨.vmem, 49, rfl⟩
abbrev cc9_stg0_0 : Ref sig .tc := ⟨.vmem, 50, rfl⟩
abbrev cc9_stg1_0 : Ref sig .tc := ⟨.vmem, 51, rfl⟩
abbrev cc10_stg0_0 : Ref sig .tc := ⟨.vmem, 52, rfl⟩
abbrev cc10_stg1_0 : Ref sig .tc := ⟨.vmem, 53, rfl⟩
abbrev cc11_stg0_0 : Ref sig .tc := ⟨.vmem, 54, rfl⟩
abbrev cc11_stg0_1 : Ref sig .tc := ⟨.vmem, 55, rfl⟩
abbrev cc11_stg1_0 : Ref sig .tc := ⟨.vmem, 56, rfl⟩
abbrev cc11_stg1_1 : Ref sig .tc := ⟨.vmem, 57, rfl⟩
abbrev cc11_stg2_0 : Ref sig .tc := ⟨.vmem, 58, rfl⟩
abbrev cc11_stg2_1 : Ref sig .tc := ⟨.vmem, 59, rfl⟩
abbrev cc11_stg3_0 : Ref sig .tc := ⟨.vmem, 60, rfl⟩
abbrev cc11_scratch0 : Ref sig .tc := ⟨.vmem, 61, rfl⟩
abbrev cc12_stg0_0 : Ref sig .tc := ⟨.vmem, 62, rfl⟩
abbrev cc12_stg0_1 : Ref sig .tc := ⟨.vmem, 63, rfl⟩
abbrev cc12_stg1_0 : Ref sig .tc := ⟨.vmem, 64, rfl⟩
abbrev cc12_stg2_0 : Ref sig .tc := ⟨.vmem, 65, rfl⟩
abbrev cc12_stg2_1 : Ref sig .tc := ⟨.vmem, 66, rfl⟩
abbrev cc13_stg0_0 : Ref sig .tc := ⟨.vmem, 67, rfl⟩
abbrev cc13_stg0_1 : Ref sig .tc := ⟨.vmem, 68, rfl⟩
abbrev cc13_stg1_0 : Ref sig .tc := ⟨.vmem, 69, rfl⟩
abbrev cc13_stg2_0 : Ref sig .tc := ⟨.vmem, 70, rfl⟩
abbrev cc13_stg2_1 : Ref sig .tc := ⟨.vmem, 71, rfl⟩
abbrev cc14_stg0_0 : Ref sig .tc := ⟨.vmem, 72, rfl⟩
abbrev cc14_stg1_0 : Ref sig .tc := ⟨.vmem, 73, rfl⟩
abbrev cc15_stg0_0 : Ref sig .tc := ⟨.vmem, 74, rfl⟩
abbrev cc15_stg0_1 : Ref sig .tc := ⟨.vmem, 75, rfl⟩
abbrev cc15_stg1_0 : Ref sig .tc := ⟨.vmem, 76, rfl⟩
abbrev cc15_stg2_0 : Ref sig .tc := ⟨.vmem, 77, rfl⟩
abbrev cc15_stg2_1 : Ref sig .tc := ⟨.vmem, 78, rfl⟩
abbrev cc16_stg0_0 : Ref sig .tc := ⟨.vmem, 79, rfl⟩
abbrev cc16_stg1_0 : Ref sig .tc := ⟨.vmem, 80, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc3_sem3_0 : DmaSem sig := 17
abbrev cc3_sem3_1 : DmaSem sig := 18
abbrev cc4_sem0_0 : DmaSem sig := 19
abbrev cc4_sem0_1 : DmaSem sig := 20
abbrev cc4_sem1_0 : DmaSem sig := 21
abbrev cc4_sem2_0 : DmaSem sig := 22
abbrev cc4_sem2_1 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc6_sem3_0 : DmaSem sig := 36
abbrev cc6_sem3_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc8_sem3_0 : DmaSem sig := 48
abbrev cc8_sem3_1 : DmaSem sig := 49
abbrev cc9_sem0_0 : DmaSem sig := 50
abbrev cc9_sem1_0 : DmaSem sig := 51
abbrev cc10_sem0_0 : DmaSem sig := 52
abbrev cc10_sem1_0 : DmaSem sig := 53
abbrev cc11_sem0_0 : DmaSem sig := 54
abbrev cc11_sem0_1 : DmaSem sig := 55
abbrev cc11_sem1_0 : DmaSem sig := 56
abbrev cc11_sem1_1 : DmaSem sig := 57
abbrev cc11_sem2_0 : DmaSem sig := 58
abbrev cc11_sem2_1 : DmaSem sig := 59
abbrev cc11_sem3_0 : DmaSem sig := 60
abbrev cc12_sem0_0 : DmaSem sig := 61
abbrev cc12_sem0_1 : DmaSem sig := 62
abbrev cc12_sem1_0 : DmaSem sig := 63
abbrev cc12_sem2_0 : DmaSem sig := 64
abbrev cc12_sem2_1 : DmaSem sig := 65
abbrev cc13_sem0_0 : DmaSem sig := 66
abbrev cc13_sem0_1 : DmaSem sig := 67
abbrev cc13_sem1_0 : DmaSem sig := 68
abbrev cc13_sem2_0 : DmaSem sig := 69
abbrev cc13_sem2_1 : DmaSem sig := 70
abbrev cc14_sem0_0 : DmaSem sig := 71
abbrev cc14_sem1_0 : DmaSem sig := 72
abbrev cc15_sem0_0 : DmaSem sig := 73
abbrev cc15_sem0_1 : DmaSem sig := 74
abbrev cc15_sem1_0 : DmaSem sig := 75
abbrev cc15_sem2_0 : DmaSem sig := 76
abbrev cc15_sem2_1 : DmaSem sig := 77
abbrev cc16_sem0_0 : DmaSem sig := 78
abbrev cc16_sem1_0 : DmaSem sig := 79

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x64 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S400x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S400x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S400x10000 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S10000x64 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S400x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S400x10000 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S10000x64 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S400x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S400x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S10000x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S10000x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S10000x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S10000x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev grid11 : Pipeline.Grid := ⟨2, ![25, 25], ![false, false]⟩

def k11_mult1 (i : grid11.Coords) : BitVec 32 :=
  let arg1 : BitVec 32 := BitVec.ofNat 32 (i 1).val
  let c400_i32 : BitVec 32 := 400#32
  let v26 : BitVec 32 := Scalar.muli arg1 c400_i32
  v26
def k11_off1 (i : grid11.Coords) : Fin 2 → Nat :=
  let arg1 : BitVec 32 := BitVec.ofNat 32 (i 1).val
  let c400_i32 : BitVec 32 := 400#32
  let v26 : BitVec 32 := Scalar.muli arg1 c400_i32
  let v27 : BitVec 32 := v26
  let v28 : Index := Scalar.indexCast v27
  let c0_14 : Index := 0#32
  ![v28.toNat, 0]
def k11_cond3 (i : grid11.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_16 : BitVec 32 := 0#32
  let v36 : BitVec 1 := Scalar.cmpi .ne v35 c0_i32_16
  v36

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S400x64 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S400x64 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S400x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, false]

abbrev stage11_3 : Fin 1 → Memref sig .tc .vmem S10000x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false, false]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S400x10000 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S10000x192 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S400x192 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S400x8000 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S8000x64 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S400x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S10000x64 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 1 → Memref sig .tc .vmem S10000x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S400x10000 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S10000x64 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S400x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S4096x64 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S4096x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

class Facts₀ : Prop where
  slices_S10001x64_S10000x64_0_0 : S10001x64.Slices ![0, 0] S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  broadcasts_S1x64_S10000x64 : S1x64.Broadcasts S10000x64
  bcast_S_S10000x10000 : S_.BroadcastsInDim S10000x10000 (![] : Fin 0 → Fin S10000x10000.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  bcast_S_S8000x10000 : S_.BroadcastsInDim S8000x10000 (![] : Fin 0 → Fin S8000x10000.rank)
  bcast_S_S400000 : S_.BroadcastsInDim S400000 (![] : Fin 0 → Fin S400000.rank)
  bcast_S400000_S400000x1_0 : S400000.BroadcastsInDim S400000x1 (![0] : Fin 1 → Fin S400000x1.rank)
  concatenates_S400000x1_S400000x1_S400000x2_d1 : Shape.Concatenates [S400000x1, S400000x1] S400000x2 1
  bcast_S_S10000x8000 : S_.BroadcastsInDim S10000x8000 (![] : Fin 0 → Fin S10000x8000.rank)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S400x64_S400x64_0_0 : ∀ a, (![0, 0] : Fin 2 → Nat) a + S400x64.size a ≤ S400x64.size a
  h_S400x64 : 0 < S400x64.numel
  shapeCasts_S400x64_S400x64 : S400x64.ShapeCasts S400x64
  bcast_S_S10000x64 : S_.BroadcastsInDim S10000x64 (![] : Fin 0 → Fin S10000x64.rank)
  reduces_S10000x64_S10000 : S10000x64.Reduces [1] S10000
  shapeCasts_S10000_S10000x1 : S10000.ShapeCasts S10000x1
  broadcasts_S10000x1_S10000x64 : S10000x1.Broadcasts S10000x64
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S10000x1_S10000x1_0_0 : ∀ a, (![0, 0] : Fin 2 → Nat) a + S10000x1.size a ≤ S10000x1.size a
  h_S10000x1 : 0 < S10000x1.numel
  reduces_S400x400_S400 : S400x400.Reduces [1] S400
  shapeCasts_S400_S400x1 : S400.ShapeCasts S400x1
  reduces_S400x400_S400_2 : S400x400.Reduces [0] S400
  shapeCasts_S400_S1x400 : S400.ShapeCasts S1x400
  transposes_S1x400_p1_0_S400x1 : S1x400.Transposes [1, 0] S400x1
  shapeCasts_S10000x1_S10000 : S10000x1.ShapeCasts S10000
  reducesTo_S10000x64_S10000_d1 : S10000x64.ReducesTo [1] S10000
  h_S_ : 0 < S_.numel
  bcast_S_S10000 : S_.BroadcastsInDim S10000 (![] : Fin 0 → Fin S10000.rank)
  reducesTo_S10000_S_d0 : S10000.ReducesTo [0] S_
  concatenates_S10000x64_S10000x64_S10000x64_S10000x192_d1 : Shape.Concatenates [S10000x64, S10000x64, S10000x64] S10000x192 1
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S400x192_S400x192_0_0 : ∀ a, (![0, 0] : Fin 2 → Nat) a + S400x192.size a ≤ S400x192.size a
  h_S400x192 : 0 < S400x192.numel
  slices_S8000x192_S8000x64_0_0 : S8000x192.Slices ![0, 0] S8000x64
  slices_S8000x192_S8000x64_0_64 : S8000x192.Slices ![0, 64] S8000x64
  slices_S8000x192_S8000x64_0_128 : S8000x192.Slices ![0, 128] S8000x64
  concatenates_S8000x64_S8000x64_S8000x64_S8000x64_S8000x64_S8000x64_S8000x64_S8000x448_d1 : Shape.Concatenates [S8000x64, S8000x64, S8000x64, S8000x64, S8000x64, S8000x64, S8000x64] S8000x448 1
  bcast_S64_S1x64_1 : S64.BroadcastsInDim S1x64 (![1] : Fin 1 → Fin S1x64.rank)
  bcast_S1x64_S8000x64_0_1 : S1x64.BroadcastsInDim S8000x64 (![0, 1] : Fin 2 → Fin S8000x64.rank)
  inb_S400x8000_S400x8000_0_0 : ∀ a, (![0, 0] : Fin 2 → Nat) a + S400x8000.size a ≤ S400x8000.size a
  h_S400x8000 : 0 < S400x8000.numel
  shapeCasts_S400x8000_S400x8000 : S400x8000.ShapeCasts S400x8000
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S4096 : S_.BroadcastsInDim S4096 (![] : Fin 0 → Fin S4096.rank)
  bcast_S4096_S4096x1_0 : S4096.BroadcastsInDim S4096x1 (![0] : Fin 1 → Fin S4096x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  dot_S10000x64_S64x64_S10000x64_1_0_0_1_n_n_wf : DotDims.WF S10000x64 S64x64 S10000x64 [1] [0] [0] [1] [] []
  scatter_S10000x10000_S320000x2_S320000_n_01_01_1_wf : ScatterDims.WF S10000x10000 S320000x2 S320000 [] [0, 1] [0, 1] 1
  scatter_S8000x10000_S400000x2_S400000_n_01_01_1_wf : ScatterDims.WF S8000x10000 S400000x2 S400000 [] [0, 1] [0, 1] 1
  scatter_S10000x8000_S400000x2_S400000_n_01_01_1_wf : ScatterDims.WF S10000x8000 S400000x2 S400000 [] [0, 1] [0, 1] 1
  dot_S400x10000_S10000x64_S400x64_1_0_0_1_n_n_wf : DotDims.WF S400x10000 S10000x64 S400x64 [1] [0] [0] [1] [] []
  dot_S400x64_S400x64_S400x400_1_1_0_0_n_n_wf : DotDims.WF S400x64 S400x64 S400x400 [1] [1] [0] [0] [] []
  dot_S400x10000_S10000x192_S400x192_1_0_0_1_n_n_wf : DotDims.WF S400x10000 S10000x192 S400x192 [1] [0] [0] [1] [] []
  dot_S8000x448_S448x64_S8000x64_1_0_0_1_n_n_wf : DotDims.WF S8000x448 S448x64 S8000x64 [1] [0] [0] [1] [] []
  dot_S400x8000_S8000x64_S400x64_1_0_0_1_n_n_wf : DotDims.WF S400x8000 S8000x64 S400x64 [1] [0] [0] [1] [] []
  gather_S8000x64_S4096x1_S4096x64_1_0_n_n_0_1_164_wf : GatherDims.WF S8000x64 S4096x1 S4096x64 [1] [0] [] [0] [] 1 ![1, 64]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S10000x64.size a
  hwx0_0 : ∀ i : grid0.Coords, EltTy.bits .f32 = 32 ∨ (Rect.block (s := S10000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S10000x64.size a
  hwx0_3 : ∀ i : grid0.Coords, EltTy.bits .f32 = 32 ∨ (Rect.block (s := S10000x64) S10000x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S10000x64.size a
  hwx1_3 : ∀ i : grid1.Coords, EltTy.bits .f32 = 32 ∨ (Rect.block (s := S10000x64) S10000x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S10000x64.size a
  hwx2_0 : ∀ i : grid2.Coords, EltTy.bits .f32 = 32 ∨ (Rect.block (s := S10000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S10000x64.size a
  hwx2_3 : ∀ i : grid2.Coords, EltTy.bits .f32 = 32 ∨ (Rect.block (s := S10000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x64.size a ≤ S10000x64.size a
  hwx3_2 : ∀ i : grid3.Coords, EltTy.bits .f32 = 32 ∨ (Rect.block (s := S10000x64) S400x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S10000x64.size a
  hwx4_1 : ∀ i : grid4.Coords, EltTy.bits .bf16 = 32 ∨ (Rect.block (s := S10000x64) S10000x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x64.size a ≤ S10000x64.size a
  hwx4_2 : ∀ i : grid4.Coords, EltTy.bits .f32 = 32 ∨ (Rect.block (s := S10000x64) S400x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x64.size a ≤ S10000x64.size a
  hwx4_3 : ∀ i : grid4.Coords, EltTy.bits .f32 = 32 ∨ (Rect.block (s := S10000x64) S400x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .bf16 = 32 ∨ (Rect.block (s := S10000x10000) S400x10000.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .bf16 = 32 ∨ (Rect.block (s := S10000x64) S10000x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x64.size a ≤ S10000x64.size a
  hwx5_2 : ∀ i : grid5.Coords, EltTy.bits .f32 = 32 ∨ (Rect.block (s := S10000x64) S400x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S10000x64.size a
  hwx6_1 : ∀ i : grid6.Coords, EltTy.bits .bf16 = 32 ∨ (Rect.block (s := S10000x64) S10000x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x64.size a ≤ S10000x64.size a
  hwx6_2 : ∀ i : grid6.Coords, EltTy.bits .f32 = 32 ∨ (Rect.block (s := S10000x64) S400x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S400x64.size a ≤ S10000x64.size a
  hwx6_3 : ∀ i : grid6.Coords, EltTy.bits .f32 = 32 ∨ (Rect.block (s := S10000x64) S400x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S400x10000.size a ≤ S10000x10000.size a
  hwx7_0 : ∀ i : grid7.Coords, EltTy.bits .bf16 = 32 ∨ (Rect.block (s := S10000x10000) S400x10000.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S10000x64.size a
  hwx7_1 : ∀ i : grid7.Coords, EltTy.bits .bf16 = 32 ∨ (Rect.block (s := S10000x64) S10000x64.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S400x64.size a ≤ S10000x64.size a
  hwx7_2 : ∀ i : grid7.Coords, EltTy.bits .f32 = 32 ∨ (Rect.block (s := S10000x64) S400x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S400x10000.size a ≤ S10000x10000.size a
  hwx8_0 : ∀ i : grid8.Coords, EltTy.bits .bf16 = 32 ∨ (Rect.block (s := S10000x10000) S400x10000.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S10000x64.size a
  hwx8_1 : ∀ i : grid8.Coords, EltTy.bits .bf16 = 32 ∨ (Rect.block (s := S10000x64) S10000x64.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S400x64.size a ≤ S10000x64.size a
  hwx8_2 : ∀ i : grid8.Coords, EltTy.bits .f32 = 32 ∨ (Rect.block (s := S10000x64) S400x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S400x64.size a ≤ S10000x64.size a
  hwx8_3 : ∀ i : grid8.Coords, EltTy.bits .f32 = 32 ∨ (Rect.block (s := S10000x64) S400x64.size (cc8_transform_3 i) (hinb8_3 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S10000x64.size a
  hwx9_0 : ∀ i : grid9.Coords, EltTy.bits .f32 = 32 ∨ (Rect.block (s := S10000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S10000x64.size a
  hwx9_1 : ∀ i : grid9.Coords, EltTy.bits .f32 = 32 ∨ (Rect.block (s := S10000x64) S10000x64.size (cc9_transform_1 i) (hinb9_1 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S10000x64.size a
  hwx10_0 : ∀ i : grid10.Coords, EltTy.bits .f32 = 32 ∨ (Rect.block (s := S10000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S10000x64.size a
  hwx10_1 : ∀ i : grid10.Coords, EltTy.bits .f32 = 32 ∨ (Rect.block (s := S10000x64) S10000x64.size (cc10_transform_1 i) (hinb10_1 i)).WholeWords (EltTy.packing .f32)
  hrank11 : 0 < grid11.rank
  k11_mult1_dvd : ∀ i : grid11.Coords, 8 ∣ (k11_mult1 i).toNat
  k11_off1_inb : ∀ i : grid11.Coords, ∀ a, (k11_off1 i) a + S400x1.size a ≤ S10000x1.size a
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S400x64.size a ≤ S10000x64.size a
  hwx11_0 : ∀ i : grid11.Coords, EltTy.bits .bf16 = 32 ∨ (Rect.block (s := S10000x64) S400x64.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S400x64.size a ≤ S10000x64.size a
  hwx11_1 : ∀ i : grid11.Coords, EltTy.bits .bf16 = 32 ∨ (Rect.block (s := S10000x64) S400x64.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S400x1.size a ≤ S10000x1.size a
  hwx11_2 : ∀ i : grid11.Coords, EltTy.bits .f32 = 32 ∨ (Rect.block (s := S10000x1) S400x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S10000x1.size a ≤ S10000x1.size a
  hwx11_3 : ∀ i : grid11.Coords, EltTy.bits .f32 = 32 ∨ (Rect.block (s := S10000x1) S10000x1.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S400x10000.size a ≤ S8000x10000.size a
  hwx12_0 : ∀ i : grid12.Coords, EltTy.bits .bf16 = 32 ∨ (Rect.block (s := S8000x10000) S400x10000.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S10000x192.size a ≤ S10000x192.size a
  hwx12_1 : ∀ i : grid12.Coords, EltTy.bits .bf16 = 32 ∨ (Rect.block (s := S10000x192) S10000x192.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S400x192.size a ≤ S8000x192.size a
  hwx12_2 : ∀ i : grid12.Coords, EltTy.bits .f32 = 32 ∨ (Rect.block (s := S8000x192) S400x192.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S400x8000.size a ≤ S10000x8000.size a
  hwx13_0 : ∀ i : grid13.Coords, EltTy.bits .bf16 = 32 ∨ (Rect.block (s := S10000x8000) S400x8000.size (cc13_transform_0 i) (hinb13_0 i)).WholeWords (EltTy.packing .bf16)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S8000x64.size a ≤ S8000x64.size a
  hwx13_1 : ∀ i : grid13.Coords, EltTy.bits .bf16 = 32 ∨ (Rect.block (s := S8000x64) S8000x64.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S400x64.size a ≤ S10000x64.size a
  hwx13_2 : ∀ i : grid13.Coords, EltTy.bits .f32 = 32 ∨ (Rect.block (s := S10000x64) S400x64.size (cc13_transform_2 i) (hinb13_2 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S10000x64.size a
  hwx14_0 : ∀ i : grid14.Coords, EltTy.bits .f32 = 32 ∨ (Rect.block (s := S10000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S10000x64.size a ≤ S10000x64.size a
  hwx14_1 : ∀ i : grid14.Coords, EltTy.bits .f32 = 32 ∨ (Rect.block (s := S10000x64) S10000x64.size (cc14_transform_1 i) (hinb14_1 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S400x10000.size a ≤ S8000x10000.size a
  hwx15_0 : ∀ i : grid15.Coords, EltTy.bits .bf16 = 32 ∨ (Rect.block (s := S8000x10000) S400x10000.size (cc15_transform_0 i) (hinb15_0 i)).WholeWords (EltTy.packing .bf16)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S10000x64.size a ≤ S10000x64.size a
  hwx15_1 : ∀ i : grid15.Coords, EltTy.bits .bf16 = 32 ∨ (Rect.block (s := S10000x64) S10000x64.size (cc15_transform_1 i) (hinb15_1 i)).WholeWords (EltTy.packing .bf16)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S400x64.size a ≤ S8000x64.size a
  hwx15_2 : ∀ i : grid15.Coords, EltTy.bits .f32 = 32 ∨ (Rect.block (s := S8000x64) S400x64.size (cc15_transform_2 i) (hinb15_2 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S4096x64.size a ≤ S4096x64.size a
  hwx16_0 : ∀ i : grid16.Coords, EltTy.bits .f32 = 32 ∨ (Rect.block (s := S4096x64) S4096x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S4096x64.size a ≤ S4096x64.size a
  hwx16_1 : ∀ i : grid16.Coords, EltTy.bits .f32 = 32 ∨ (Rect.block (s := S4096x64) S4096x64.size (cc16_transform_1 i) (hinb16_1 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def scatter_S8000x10000_S400000x2_S400000_n_01_01_1 : ScatterDims S8000x10000 S400000x2 S400000 where
  updateWindowDims := []
  insertedWindowDims := [0, 1]
  scatterDimsToOperandDims := [0, 1]
  indexVectorDim := 1
  wf := scatter_S8000x10000_S400000x2_S400000_n_01_01_1_wf
def scatter_S10000x8000_S400000x2_S400000_n_01_01_1 : ScatterDims S10000x8000 S400000x2 S400000 where
  updateWindowDims := []
  insertedWindowDims := [0, 1]
  scatterDimsToOperandDims := [0, 1]
  indexVectorDim := 1
  wf := scatter_S10000x8000_S400000x2_S400000_n_01_01_1_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S400x64_S400x400_1_1_0_0_n_n : DotDims S400x64 S400x64 S400x400 where
  lhsContracting := [1]
  rhsContracting := [1]
  lhsNonContracting := [0]
  rhsNonContracting := [0]
  lhsBatch := []
  rhsBatch := []
  wf := dot_S400x64_S400x64_S400x400_1_1_0_0_n_n_wf
def dot_S400x10000_S10000x192_S400x192_1_0_0_1_n_n : DotDims S400x10000 S10000x192 S400x192 where
  lhsContracting := [1]
  rhsContracting := [0]
  lhsNonContracting := [0]
  rhsNonContracting := [1]
  lhsBatch := []
  rhsBatch := []
  wf := dot_S400x10000_S10000x192_S400x192_1_0_0_1_n_n_wf
def dot_S8000x448_S448x64_S8000x64_1_0_0_1_n_n : DotDims S8000x448 S448x64 S8000x64 where
  lhsContracting := [1]
  rhsContracting := [0]
  lhsNonContracting := [0]
  rhsNonContracting := [1]
  lhsBatch := []
  rhsBatch := []
  wf := dot_S8000x448_S448x64_S8000x64_1_0_0_1_n_n_wf
def dot_S400x8000_S8000x64_S400x64_1_0_0_1_n_n : DotDims S400x8000 S8000x64 S400x64 where
  lhsContracting := [1]
  rhsContracting := [0]
  lhsNonContracting := [0]
  rhsNonContracting := [1]
  lhsBatch := []
  rhsBatch := []
  wf := dot_S400x8000_S8000x64_S400x64_1_0_0_1_n_n_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf

abbrev win0_0 : Pipeline.Window sig grid0 :=
  Pipeline.Window.ofSpec (Memref.whole main_v0) S10000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S10000x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S10000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S10000x64.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1) S400x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v85) S400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v19) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87) S10000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v85) S400x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v88) S400x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v35) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S400x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v51) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S10000x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S400x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v95) S400x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v35) S400x10000.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v97) S10000x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v98) S400x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v51) S400x10000.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S10000x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v95) S400x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v100) S400x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v91) S10000x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v104) S10000x64.size cc9_transform_1 reads9_1 true true 1 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

abbrev win10_0 : Pipeline.Window sig grid10 :=
  Pipeline.Window.ofSpec (Memref.whole main_v103) S10000x64.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_v105) S10000x64.size cc10_transform_1 reads10_1 true true 1 stage10_1 sem10_1
    hrank10 hreads10_1 hinb10_1 nbuf10_1 (Memref.isWhole_whole _) hwx10_1 hstage10_1

abbrev win10 : Fin 2 → Pipeline.Window sig grid10 := fun | 0 => win10_0 | 1 => win10_1 | ⟨_ + 2, h⟩ => absurd h (Nat.not_lt.2 (Nat.le_add_left _ _))
abbrev spec10 : Fin 2 → Pipeline.WinSpec sig grid10.rank := fun w => (win10 w).toWinSpec

abbrev win11_0 : Pipeline.Window sig grid11 :=
  Pipeline.Window.ofSpec (Memref.whole main_v106) S400x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v107) S400x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v108_0) S400x1.size cc11_transform_2 reads11_2 true false 2 stage11_2 sem11_2
    hrank11 hreads11_2 hinb11_2 nbuf11_2 (Memref.isWhole_whole _) hwx11_2 hstage11_2

abbrev win11_3 : Pipeline.Window sig grid11 :=
  Pipeline.Window.ofSpec (Memref.whole main_v108_1) S10000x1.size cc11_transform_3 reads11_3 true true 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev idle11 : Fin 4 → grid11.Coords → Bool := fun | 0 => fun _ => false | 1 => fun _ => false | 2 => fun i => !(k11_cond3 i == 1#1) | 3 => fun _ => false | ⟨_ + 4, h⟩ => absurd h (Nat.not_lt.2 (Nat.le_add_left _ _))

abbrev win12_0 : Pipeline.Window sig grid12 :=
  Pipeline.Window.ofSpec (Memref.whole main_v67) S400x10000.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v142) S10000x192.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v143) S400x192.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v83) S400x8000.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v160) S8000x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v161) S400x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v164) S10000x64.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_v165) S10000x64.size cc14_transform_1 reads14_1 true true 1 stage14_1 sem14_1
    hrank14 hreads14_1 hinb14_1 nbuf14_1 (Memref.isWhole_whole _) hwx14_1 hstage14_1

abbrev win14 : Fin 2 → Pipeline.Window sig grid14 := fun | 0 => win14_0 | 1 => win14_1 | ⟨_ + 2, h⟩ => absurd h (Nat.not_lt.2 (Nat.le_add_left _ _))
abbrev spec14 : Fin 2 → Pipeline.WinSpec sig grid14.rank := fun w => (win14 w).toWinSpec

abbrev win15_0 : Pipeline.Window sig grid15 :=
  Pipeline.Window.ofSpec (Memref.whole main_v67) S400x10000.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v168) S10000x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v169) S400x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v176) S4096x64.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_v177) S4096x64.size cc16_transform_1 reads16_1 true true 1 stage16_1 sem16_1
    hrank16 hreads16_1 hinb16_1 nbuf16_1 (Memref.isWhole_whole _) hwx16_1 hstage16_1

abbrev win16 : Fin 2 → Pipeline.Window sig grid16 := fun | 0 => win16_0 | 1 => win16_1 | ⟨_ + 2, h⟩ => absurd h (Nat.not_lt.2 (Nat.le_add_left _ _))
abbrev spec16 : Fin 2 → Pipeline.WinSpec sig grid16.rank := fun w => (win16 w).toWinSpec

class Facts : Prop extends Facts₀ where

variable [Facts]
-- ==== ReferenceIdeal.lean ====
abbrev S10001x64 : Shape := ⟨2, ![10001, 64]⟩
abbrev S8000x64 : Shape := ⟨2, ![8000, 64]⟩
abbrev S64x64 : Shape := ⟨2, ![64, 64]⟩
abbrev S1x64 : Shape := ⟨2, ![1, 64]⟩
abbrev S448x64 : Shape := ⟨2, ![448, 64]⟩
abbrev S64 : Shape := ⟨1, ![64]⟩
abbrev S320000 : Shape := ⟨1, ![320000]⟩
abbrev S400000 : Shape := ⟨1, ![400000]⟩
abbrev S4096 : Shape := ⟨1, ![4096]⟩
abbrev S10000x64 : Shape := ⟨2, ![10000, 64]⟩
abbrev S_ : Shape := ⟨0, ![]⟩
abbrev S320000x1 : Shape := ⟨2, ![320000, 1]⟩
abbrev S320000x64 : Shape := ⟨2, ![320000, 64]⟩
abbrev S10000 : Shape := ⟨1, ![10000]⟩
abbrev S10000x1 : Shape := ⟨2, ![10000, 1]⟩
abbrev S64x10000 : Shape := ⟨2, ![64, 10000]⟩
abbrev S10000x10000 : Shape := ⟨2, ![10000, 10000]⟩
abbrev S400000x1 : Shape := ⟨2, ![400000, 1]⟩
abbrev S400000x64 : Shape := ⟨2, ![400000, 64]⟩
abbrev S8000x448 : Shape := ⟨2, ![8000, 448]⟩
abbrev S4096x1 : Shape := ⟨2, ![4096, 1]⟩
abbrev S4096x64 : Shape := ⟨2, ![4096, 64]⟩

abbrev nBuf : Space → Nat
  | .hbm => 469
  | .vmem => 0
  | .smem => 0
  | _ => 0

abbrev hbmTy0_0 (i : Nat) : BufTy := match i % 128 with
  | 0 => ⟨S10001x64, .f32⟩
  | 1 => ⟨S8000x64, .f32⟩
  | 2 => ⟨S64x64, .f32⟩
  | 3 => ⟨S1x64, .f32⟩
  | 4 => ⟨S64x64, .f32⟩
  | 5 => ⟨S1x64, .f32⟩
  | 6 => ⟨S64x64, .f32⟩
  | 7 => ⟨S1x64, .f32⟩
  | 8 => ⟨S448x64, .f32⟩
  | 9 => ⟨S64, .f32⟩
  | 10 => ⟨S320000, .f32⟩
  | 11 => ⟨S320000, .f32⟩
  | 12 => ⟨S320000, .f32⟩
  | 13 => ⟨S400000, .f32⟩
  | 14 => ⟨S400000, .f32⟩
  | 15 => ⟨S320000, .i32⟩
  | 16 => ⟨S320000, .i32⟩
  | 17 => ⟨S320000, .i32⟩
  | 18 => ⟨S320000, .i32⟩
  | 19 => ⟨S320000, .i32⟩
  | 20 => ⟨S320000, .i32⟩
  | 21 => ⟨S400000, .i32⟩
  | 22 => ⟨S400000, .i32⟩
  | 23 => ⟨S400000, .i32⟩
  | 24 => ⟨S400000, .i32⟩
  | 25 => ⟨S4096, .i32⟩
  | 26 => ⟨S10000x64, .f32⟩
  | 27 => ⟨S10000x64, .f32⟩
  | 28 => ⟨S10000x64, .f32⟩
  | 29 => ⟨S10000x64, .f32⟩
  | 30 => ⟨S10000x64, .f32⟩
  | 31 => ⟨S10000x64, .f32⟩
  | 32 => ⟨S_, .f32⟩
  | 33 => ⟨S10000x64, .f32⟩
  | 34 => ⟨S10000x64, .f32⟩
  | 35 => ⟨S_, .f32⟩
  | 36 => ⟨S10000x64, .f32⟩
  | 37 => ⟨S10000x64, .f32⟩
  | 38 => ⟨S10000x64, .f32⟩
  | 39 => ⟨S10000x64, .f32⟩
  | 40 => ⟨S10000x64, .f32⟩
  | 41 => ⟨S10000x64, .f32⟩
  | 42 => ⟨S10000x64, .f32⟩
  | 43 => ⟨S10000x64, .f32⟩
  | 44 => ⟨S_, .f32⟩
  | 45 => ⟨S10000x64, .f32⟩
  | 46 => ⟨S10000x64, .f32⟩
  | 47 => ⟨S_, .f32⟩
  | 48 => ⟨S10000x64, .f32⟩
  | 49 => ⟨S10000x64, .f32⟩
  | 50 => ⟨S10000x64, .f32⟩
  | 51 => ⟨S10000x64, .f32⟩
  | 52 => ⟨S10000x64, .f32⟩
  | 53 => ⟨S10000x64, .f32⟩
  | 54 => ⟨S10000x64, .f32⟩
  | 55 => ⟨S10000x64, .f32⟩
  | 56 => ⟨S_, .f32⟩
  | 57 => ⟨S10000x64, .f32⟩
  | 58 => ⟨S10000x64, .f32⟩
  | 59 => ⟨S_, .f32⟩
  | 60 => ⟨S10000x64, .f32⟩
  | 61 => ⟨S10000x64, .f32⟩
  | 62 => ⟨S10000x64, .f32⟩
  | 63 => ⟨S320000x1, .f32⟩
  | 64 => ⟨S_, .i32⟩
  | 65 => ⟨S320000, .i32⟩
  | 66 => ⟨S320000, .i1⟩
  | 67 => ⟨S_, .i32⟩
  | 68 => ⟨S320000, .i32⟩
  | 69 => ⟨S320000, .i32⟩
  | 70 => ⟨S320000, .i32⟩
  | 71 => ⟨S320000x1, .i32⟩
  | 72 => ⟨S320000x64, .f32⟩
  | 73 => ⟨S320000x64, .f32⟩
  | 74 => ⟨S320000x64, .f32⟩
  | 75 => ⟨S_, .f32⟩
  | 76 => ⟨S10000x64, .f32⟩
  | 77 => ⟨S320000x1, .i32⟩
  | 78 => ⟨S10000x64, .f32⟩
  | 79 => ⟨S10000x64, .f32⟩
  | 80 => ⟨S320000x1, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x64, .f32⟩
  | 90 => ⟨S320000x64, .f32⟩
  | 91 => ⟨S320000x64, .f32⟩
  | 92 => ⟨S_, .f32⟩
  | 93 => ⟨S10000x64, .f32⟩
  | 94 => ⟨S320000x1, .i32⟩
  | 95 => ⟨S10000x64, .f32⟩
  | 96 => ⟨S10000x64, .f32⟩
  | 97 => ⟨S_, .f32⟩
  | 98 => ⟨S10000x64, .f32⟩
  | 99 => ⟨S10000x64, .f32⟩
  | 100 => ⟨S10000x64, .f32⟩
  | 101 => ⟨S10000x64, .f32⟩
  | 102 => ⟨S_, .f32⟩
  | 103 => ⟨S10000x64, .f32⟩
  | 104 => ⟨S10000x64, .f32⟩
  | 105 => ⟨S320000x1, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x64, .f32⟩
  | 115 => ⟨S320000x64, .f32⟩
  | 116 => ⟨S320000x64, .f32⟩
  | 117 => ⟨S_, .f32⟩
  | 118 => ⟨S10000x64, .f32⟩
  | 119 => ⟨S320000x1, .i32⟩
  | 120 => ⟨S10000x64, .f32⟩
  | 121 => ⟨S320000x1, .f32⟩
  | 122 => ⟨S_, .i32⟩
  | 123 => ⟨S320000, .i32⟩
  | 124 => ⟨S320000, .i1⟩
  | 125 => ⟨S_, .i32⟩
  | 126 => ⟨S320000, .i32⟩
  | 127 => ⟨S320000, .i32⟩
  | _ => ⟨S10001x64, .f32⟩

abbrev hbmTy0_1 (i : Nat) : BufTy := match i % 128 with
  | 0 => ⟨S320000, .i32⟩
  | 1 => ⟨S320000x1, .i32⟩
  | 2 => ⟨S320000x64, .f32⟩
  | 3 => ⟨S320000x64, .f32⟩
  | 4 => ⟨S320000x64, .f32⟩
  | 5 => ⟨S_, .f32⟩
  | 6 => ⟨S10000x64, .f32⟩
  | 7 => ⟨S320000x1, .i32⟩
  | 8 => ⟨S10000x64, .f32⟩
  | 9 => ⟨S10000x64, .f32⟩
  | 10 => ⟨S320000x1, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x64, .f32⟩
  | 20 => ⟨S320000x64, .f32⟩
  | 21 => ⟨S320000x64, .f32⟩
  | 22 => ⟨S_, .f32⟩
  | 23 => ⟨S10000x64, .f32⟩
  | 24 => ⟨S320000x1, .i32⟩
  | 25 => ⟨S10000x64, .f32⟩
  | 26 => ⟨S320000x1, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x64, .f32⟩
  | 36 => ⟨S320000x64, .f32⟩
  | 37 => ⟨S320000x64, .f32⟩
  | 38 => ⟨S_, .f32⟩
  | 39 => ⟨S10000x64, .f32⟩
  | 40 => ⟨S320000x1, .i32⟩
  | 41 => ⟨S10000x64, .f32⟩
  | 42 => ⟨S10000x64, .f32⟩
  | 43 => ⟨S_, .f32⟩
  | 44 => ⟨S10000x64, .f32⟩
  | 45 => ⟨S10000x64, .f32⟩
  | 46 => ⟨S10000x64, .f32⟩
  | 47 => ⟨S10000x64, .f32⟩
  | 48 => ⟨S_, .f32⟩
  | 49 => ⟨S10000x64, .f32⟩
  | 50 => ⟨S10000x64, .f32⟩
  | 51 => ⟨S10000x64, .f32⟩
  | 52 => ⟨S_, .f32⟩
  | 53 => ⟨S10000, .f32⟩
  | 54 => ⟨S10000x1, .f32⟩
  | 55 => ⟨S10000x1, .f32⟩
  | 56 => ⟨S_, .f32⟩
  | 57 => ⟨S10000x1, .f32⟩
  | 58 => ⟨S10000x1, .f32⟩
  | 59 => ⟨S10000x64, .f32⟩
  | 60 => ⟨S10000x64, .f32⟩
  | 61 => ⟨S10000x64, .f32⟩
  | 62 => ⟨S_, .f32⟩
  | 63 => ⟨S10000, .f32⟩
  | 64 => ⟨S10000x1, .f32⟩
  | 65 => ⟨S10000x1, .f32⟩
  | 66 => ⟨S_, .f32⟩
  | 67 => ⟨S10000x1, .f32⟩
  | 68 => ⟨S10000x1, .f32⟩
  | 69 => ⟨S10000x64, .f32⟩
  | 70 => ⟨S10000x64, .f32⟩
  | 71 => ⟨S10000x64, .f32⟩
  | 72 => ⟨S_, .f32⟩
  | 73 => ⟨S10000, .f32⟩
  | 74 => ⟨S_, .f32⟩
  | 75 => ⟨S10000, .f32⟩
  | 76 => ⟨S10000, .f32⟩
  | 77 => ⟨S10000, .f32⟩
  | 78 => ⟨S64x10000, .f32⟩
  | 79 => ⟨S10000x10000, .f32⟩
  | 80 => ⟨S_, .f32⟩
  | 81 => ⟨S10000x10000, .f32⟩
  | 82 => ⟨S10000x10000, .f32⟩
  | 83 => ⟨S10000x10000, .f32⟩
  | 84 => ⟨S_, .f32⟩
  | 85 => ⟨S10000, .f32⟩
  | 86 => ⟨S_, .f32⟩
  | 87 => ⟨S10000, .f32⟩
  | 88 => ⟨S10000, .f32⟩
  | 89 => ⟨S10000, .f32⟩
  | 90 => ⟨S_, .f32⟩
  | 91 => ⟨S10000, .f32⟩
  | 92 => ⟨S10000, .f32⟩
  | 93 => ⟨S10000, .f32⟩
  | 94 => ⟨S10000, .f32⟩
  | 95 => ⟨S_, .f32⟩
  | 96 => ⟨S_, .f32⟩
  | 97 => ⟨S_, .f32⟩
  | 98 => ⟨S_, .f32⟩
  | 99 => ⟨S10000x64, .f32⟩
  | 100 => ⟨S_, .f32⟩
  | 101 => ⟨S10000, .f32⟩
  | 102 => ⟨S_, .f32⟩
  | 103 => ⟨S10000, .f32⟩
  | 104 => ⟨S10000, .f32⟩
  | 105 => ⟨S10000, .f32⟩
  | 106 => ⟨S64x10000, .f32⟩
  | 107 => ⟨S10000x10000, .f32⟩
  | 108 => ⟨S_, .f32⟩
  | 109 => ⟨S10000x10000, .f32⟩
  | 110 => ⟨S10000x10000, .f32⟩
  | 111 => ⟨S10000x10000, .f32⟩
  | 112 => ⟨S_, .f32⟩
  | 113 => ⟨S10000, .f32⟩
  | 114 => ⟨S_, .f32⟩
  | 115 => ⟨S10000, .f32⟩
  | 116 => ⟨S10000, .f32⟩
  | 117 => ⟨S10000, .f32⟩
  | 118 => ⟨S_, .f32⟩
  | 119 => ⟨S10000, .f32⟩
  | 120 => ⟨S10000, .f32⟩
  | 121 => ⟨S10000, .f32⟩
  | 122 => ⟨S10000, .f32⟩
  | 123 => ⟨S_, .f32⟩
  | 124 => ⟨S_, .f32⟩
  | 125 => ⟨S_, .f32⟩
  | 126 => ⟨S_, .f32⟩
  | 127 => ⟨S_, .f32⟩
  | _ => ⟨S10001x64, .f32⟩

abbrev hbmTy0_2 (i : Nat) : BufTy := match i % 128 with
  | 0 => ⟨S_, .f32⟩
  | 1 => ⟨S_, .f32⟩
  | 2 => ⟨S400000x1, .f32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000x64, .f32⟩
  | 12 => ⟨S400000x64, .f32⟩
  | 13 => ⟨S400000x64, .f32⟩
  | 14 => ⟨S_, .f32⟩
  | 15 => ⟨S8000x64, .f32⟩
  | 16 => ⟨S400000x1, .i32⟩
  | 17 => ⟨S8000x64, .f32⟩
  | 18 => ⟨S400000x1, .f32⟩
  | 19 => ⟨S_, .i32⟩
  | 20 => ⟨S400000, .i32⟩
  | 21 => ⟨S400000, .i1⟩
  | 22 => ⟨S_, .i32⟩
  | 23 => ⟨S400000, .i32⟩
  | 24 => ⟨S400000, .i32⟩
  | 25 => ⟨S400000, .i32⟩
  | 26 => ⟨S400000x1, .i32⟩
  | 27 => ⟨S400000x64, .f32⟩
  | 28 => ⟨S400000x64, .f32⟩
  | 29 => ⟨S400000x64, .f32⟩
  | 30 => ⟨S_, .f32⟩
  | 31 => ⟨S8000x64, .f32⟩
  | 32 => ⟨S400000x1, .i32⟩
  | 33 => ⟨S8000x64, .f32⟩
  | 34 => ⟨S400000x1, .f32⟩
  | 35 => ⟨S_, .i32⟩
  | 36 => ⟨S400000, .i32⟩
  | 37 => ⟨S400000, .i1⟩
  | 38 => ⟨S_, .i32⟩
  | 39 => ⟨S400000, .i32⟩
  | 40 => ⟨S400000, .i32⟩
  | 41 => ⟨S400000, .i32⟩
  | 42 => ⟨S400000x1, .i32⟩
  | 43 => ⟨S400000x64, .f32⟩
  | 44 => ⟨S400000x64, .f32⟩
  | 45 => ⟨S400000x64, .f32⟩
  | 46 => ⟨S_, .f32⟩
  | 47 => ⟨S8000x64, .f32⟩
  | 48 => ⟨S400000x1, .i32⟩
  | 49 => ⟨S8000x64, .f32⟩
  | 50 => ⟨S8000x64, .f32⟩
  | 51 => ⟨S8000x64, .f32⟩
  | 52 => ⟨S8000x64, .f32⟩
  | 53 => ⟨S8000x64, .f32⟩
  | 54 => ⟨S8000x64, .f32⟩
  | 55 => ⟨S8000x448, .f32⟩
  | 56 => ⟨S8000x64, .f32⟩
  | 57 => ⟨S1x64, .f32⟩
  | 58 => ⟨S8000x64, .f32⟩
  | 59 => ⟨S8000x64, .f32⟩
  | 60 => ⟨S8000x64, .f32⟩
  | 61 => ⟨S8000x64, .f32⟩
  | 62 => ⟨S8000x64, .f32⟩
  | 63 => ⟨S400000x1, .f32⟩
  | 64 => ⟨S_, .i32⟩
  | 65 => ⟨S400000, .i32⟩
  | 66 => ⟨S400000, .i1⟩
  | 67 => ⟨S_, .i32⟩
  | 68 => ⟨S400000, .i32⟩
  | 69 => ⟨S400000, .i32⟩
  | 70 => ⟨S400000, .i32⟩
  | 71 => ⟨S400000x1, .i32⟩
  | 72 => ⟨S400000x64, .f32⟩
  | 73 => ⟨S400000x64, .f32⟩
  | 74 => ⟨S400000x64, .f32⟩
  | 75 => ⟨S_, .f32⟩
  | 76 => ⟨S10000x64, .f32⟩
  | 77 => ⟨S400000x1, .i32⟩
  | 78 => ⟨S10000x64, .f32⟩
  | 79 => ⟨S10000x64, .f32⟩
  | 80 => ⟨S400000x1, .f32⟩
  | 81 => ⟨S_, .i32⟩
  | 82 => ⟨S400000, .i32⟩
  | 83 => ⟨S400000, .i1⟩
  | 84 => ⟨S_, .i32⟩
  | 85 => ⟨S400000, .i32⟩
  | 86 => ⟨S400000, .i32⟩
  | 87 => ⟨S400000, .i32⟩
  | 88 => ⟨S400000x1, .i32⟩
  | 89 => ⟨S400000x64, .f32⟩
  | 90 => ⟨S400000x64, .f32⟩
  | 91 => ⟨S400000x64, .f32⟩
  | 92 => ⟨S_, .f32⟩
  | 93 => ⟨S8000x64, .f32⟩
  | 94 => ⟨S400000x1, .i32⟩
  | 95 => ⟨S8000x64, .f32⟩
  | 96 => ⟨S400000x1, .f32⟩
  | 97 => ⟨S_, .i32⟩
  | 98 => ⟨S400000, .i32⟩
  | 99 => ⟨S400000, .i1⟩
  | 100 => ⟨S_, .i32⟩
  | 101 => ⟨S400000, .i32⟩
  | 102 => ⟨S400000, .i32⟩
  | 103 => ⟨S400000, .i32⟩
  | 104 => ⟨S400000x1, .i32⟩
  | 105 => ⟨S400000x64, .f32⟩
  | 106 => ⟨S400000x64, .f32⟩
  | 107 => ⟨S400000x64, .f32⟩
  | 108 => ⟨S_, .f32⟩
  | 109 => ⟨S8000x64, .f32⟩
  | 110 => ⟨S400000x1, .i32⟩
  | 111 => ⟨S8000x64, .f32⟩
  | 112 => ⟨S400000x1, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000x64, .f32⟩
  | 122 => ⟨S400000x64, .f32⟩
  | 123 => ⟨S400000x64, .f32⟩
  | 124 => ⟨S_, .f32⟩
  | 125 => ⟨S8000x64, .f32⟩
  | 126 => ⟨S400000x1, .i32⟩
  | 127 => ⟨S8000x64, .f32⟩
  | _ => ⟨S10001x64, .f32⟩

abbrev hbmTy0_3 (i : Nat) : BufTy := match i % 128 with
  | 0 => ⟨S8000x64, .f32⟩
  | 1 => ⟨S8000x64, .f32⟩
  | 2 => ⟨S8000x64, .f32⟩
  | 3 => ⟨S8000x64, .f32⟩
  | 4 => ⟨S8000x64, .f32⟩
  | 5 => ⟨S8000x448, .f32⟩
  | 6 => ⟨S8000x64, .f32⟩
  | 7 => ⟨S1x64, .f32⟩
  | 8 => ⟨S8000x64, .f32⟩
  | 9 => ⟨S8000x64, .f32⟩
  | 10 => ⟨S8000x64, .f32⟩
  | 11 => ⟨S8000x64, .f32⟩
  | 12 => ⟨S8000x64, .f32⟩
  | 13 => ⟨S400000x1, .f32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x64, .f32⟩
  | 23 => ⟨S400000x64, .f32⟩
  | 24 => ⟨S400000x64, .f32⟩
  | 25 => ⟨S_, .f32⟩
  | 26 => ⟨S10000x64, .f32⟩
  | 27 => ⟨S400000x1, .i32⟩
  | 28 => ⟨S10000x64, .f32⟩
  | 29 => ⟨S10000x64, .f32⟩
  | 30 => ⟨S_, .f32⟩
  | 31 => ⟨S10000x64, .f32⟩
  | 32 => ⟨S10000x64, .f32⟩
  | 33 => ⟨S10000x64, .f32⟩
  | 34 => ⟨S10000x64, .f32⟩
  | 35 => ⟨S_, .f32⟩
  | 36 => ⟨S10000x64, .f32⟩
  | 37 => ⟨S10000x64, .f32⟩
  | 38 => ⟨S10000x64, .f32⟩
  | 39 => ⟨S_, .f32⟩
  | 40 => ⟨S10000, .f32⟩
  | 41 => ⟨S10000x1, .f32⟩
  | 42 => ⟨S10000x1, .f32⟩
  | 43 => ⟨S_, .f32⟩
  | 44 => ⟨S10000x1, .f32⟩
  | 45 => ⟨S10000x1, .f32⟩
  | 46 => ⟨S10000x64, .f32⟩
  | 47 => ⟨S10000x64, .f32⟩
  | 48 => ⟨S10000x64, .f32⟩
  | 49 => ⟨S10000x64, .f32⟩
  | 50 => ⟨S400000x1, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x64, .f32⟩
  | 60 => ⟨S400000x64, .f32⟩
  | 61 => ⟨S400000x64, .f32⟩
  | 62 => ⟨S_, .f32⟩
  | 63 => ⟨S8000x64, .f32⟩
  | 64 => ⟨S400000x1, .i32⟩
  | 65 => ⟨S8000x64, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096x64, .f32⟩
  | 75 => ⟨S4096x64, .f32⟩
  | 76 => ⟨S_, .f32⟩
  | 77 => ⟨S4096, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x64, .f32⟩
  | 84 => ⟨S4096x64, .f32⟩
  | _ => ⟨S10001x64, .f32⟩

abbrev hbmTy (i : Nat) : BufTy := match i / 128 with
  | 0 => hbmTy0_0 i
  | 1 => hbmTy0_1 i
  | 2 => hbmTy0_2 i
  | 3 => hbmTy0_3 i
  | _ => ⟨S10001x64, .f32⟩

abbrev bufTy : (tb : Table) → Fin (tcTables nBuf tb) → BufTy
  | .hbm, ⟨i, _⟩ => hbmTy i
  | _, _ => ⟨S10001x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_3 : Ref sig .tc := ⟨.hbm, 56, rfl⟩
abbrev main_v26 : Ref sig .tc := ⟨.hbm, 57, rfl⟩
abbrev main_v27 : Ref sig .tc := ⟨.hbm, 58, rfl⟩
abbrev main_cst_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c : Ref sig .tc := ⟨.hbm, 64, rfl⟩
abbrev main_v32 : Ref sig .tc := ⟨.hbm, 65, rfl⟩
abbrev main_v33 : Ref sig .tc := ⟨.hbm, 66, rfl⟩
abbrev main_c_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_7 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_9 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_10 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_12 : Ref sig .tc := ⟨.hbm, 106, rfl⟩
abbrev main_v66 : Ref sig .tc := ⟨.hbm, 107, rfl⟩
abbrev main_v67 : Ref sig .tc := ⟨.hbm, 108, rfl⟩
abbrev main_c_13 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_14 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_c_15 : Ref sig .tc := ⟨.hbm, 122, rfl⟩
abbrev main_v79 : Ref sig .tc := ⟨.hbm, 123, rfl⟩
abbrev main_v80 : Ref sig .tc := ⟨.hbm, 124, rfl⟩
abbrev main_c_16 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_17 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_18 : Ref sig .tc := ⟨.hbm, 139, rfl⟩
abbrev main_v93 : Ref sig .tc := ⟨.hbm, 140, rfl⟩
abbrev main_v94 : Ref sig .tc := ⟨.hbm, 141, rfl⟩
abbrev main_c_19 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_20 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_c_21 : Ref sig .tc := ⟨.hbm, 155, rfl⟩
abbrev main_v106 : Ref sig .tc := ⟨.hbm, 156, rfl⟩
abbrev main_v107 : Ref sig .tc := ⟨.hbm, 157, rfl⟩
abbrev main_c_22 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_23 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_24 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_25 : Ref sig .tc := ⟨.hbm, 176, rfl⟩
abbrev main_v123 : Ref sig .tc := ⟨.hbm, 177, rfl⟩
abbrev main_v124 : Ref sig .tc := ⟨.hbm, 178, rfl⟩
abbrev main_call0_v0 : Ref sig .tc := ⟨.hbm, 179, rfl⟩
abbrev main_call0_cst : Ref sig .tc := ⟨.hbm, 180, rfl⟩
abbrev main_call0_v1 : Ref sig .tc := ⟨.hbm, 181, rfl⟩
abbrev main_call0_v2 : Ref sig .tc := ⟨.hbm, 182, rfl⟩
abbrev main_v125 : Ref sig .tc := ⟨.hbm, 183, rfl⟩
abbrev main_cst_26 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_call1_v0 : Ref sig .tc := ⟨.hbm, 189, rfl⟩
abbrev main_call1_cst : Ref sig .tc := ⟨.hbm, 190, rfl⟩
abbrev main_call1_v1 : Ref sig .tc := ⟨.hbm, 191, rfl⟩
abbrev main_call1_v2 : Ref sig .tc := ⟨.hbm, 192, rfl⟩
abbrev main_v130 : Ref sig .tc := ⟨.hbm, 193, rfl⟩
abbrev main_cst_27 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_28 : Ref sig .tc := ⟨.hbm, 200, rfl⟩
abbrev main_v136 : Ref sig .tc := ⟨.hbm, 201, rfl⟩
abbrev main_cst_29 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_cst_30 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_31 : Ref sig .tc := ⟨.hbm, 212, rfl⟩
abbrev main_v145 : Ref sig .tc := ⟨.hbm, 213, rfl⟩
abbrev main_cst_32 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_cst_33 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_cst_34 : Ref sig .tc := ⟨.hbm, 223, rfl⟩
abbrev main_v153 : Ref sig .tc := ⟨.hbm, 224, rfl⟩
abbrev main_cst_35 : Ref sig .tc := ⟨.hbm, 225, rfl⟩
abbrev main_v154 : Ref sig .tc := ⟨.hbm, 226, rfl⟩
abbrev main_v155 : Ref sig .tc := ⟨.hbm, 227, rfl⟩
abbrev main_cst_36 : Ref sig .tc := ⟨.hbm, 228, rfl⟩
abbrev main_v156 : Ref sig .tc := ⟨.hbm, 229, rfl⟩
abbrev main_cst_37 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_cst_38 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_cst_39 : Ref sig .tc := ⟨.hbm, 240, rfl⟩
abbrev main_v165 : Ref sig .tc := ⟨.hbm, 241, rfl⟩
abbrev main_cst_40 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_41 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_cst_42 : Ref sig .tc := ⟨.hbm, 251, rfl⟩
abbrev main_v173 : Ref sig .tc := ⟨.hbm, 252, rfl⟩
abbrev main_cst_43 : Ref sig .tc := ⟨.hbm, 253, rfl⟩
abbrev main_v174 : Ref sig .tc := ⟨.hbm, 254, rfl⟩
abbrev main_v175 : Ref sig .tc := ⟨.hbm, 255, rfl⟩
abbrev main_cst_44 : Ref sig .tc := ⟨.hbm, 256, rfl⟩
abbrev main_v176 : Ref sig .tc := ⟨.hbm, 257, rfl⟩
abbrev main_v177 : Ref sig .tc := ⟨.hbm, 258, rfl⟩
abbrev main_c_45 : Ref sig .tc := ⟨.hbm, 259, rfl⟩
abbrev main_v178 : Ref sig .tc := ⟨.hbm, 260, rfl⟩
abbrev main_v179 : Ref sig .tc := ⟨.hbm, 261, rfl⟩
abbrev main_c_46 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_cst_47 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_c_48 : Ref sig .tc := ⟨.hbm, 275, rfl⟩
abbrev main_v191 : Ref sig .tc := ⟨.hbm, 276, rfl⟩
abbrev main_v192 : Ref sig .tc := ⟨.hbm, 277, rfl⟩
abbrev main_c_49 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_cst_50 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_c_51 : Ref sig .tc := ⟨.hbm, 291, rfl⟩
abbrev main_v204 : Ref sig .tc := ⟨.hbm, 292, rfl⟩
abbrev main_v205 : Ref sig .tc := ⟨.hbm, 293, rfl⟩
abbrev main_c_52 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_cst_53 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_c_54 : Ref sig .tc := ⟨.hbm, 320, rfl⟩
abbrev main_v230 : Ref sig .tc := ⟨.hbm, 321, rfl⟩
abbrev main_v231 : Ref sig .tc := ⟨.hbm, 322, rfl⟩
abbrev main_c_55 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_v235 : Ref sig .tc := ⟨.hbm, 327, rfl⟩
abbrev main_v236 : Ref sig .tc := ⟨.hbm, 328, rfl⟩
abbrev main_v237 : Ref sig .tc := ⟨.hbm, 329, rfl⟩
abbrev main_v238 : Ref sig .tc := ⟨.hbm, 330, rfl⟩
abbrev main_cst_56 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_c_57 : Ref sig .tc := ⟨.hbm, 337, rfl⟩
abbrev main_v244 : Ref sig .tc := ⟨.hbm, 338, rfl⟩
abbrev main_v245 : Ref sig .tc := ⟨.hbm, 339, rfl⟩
abbrev main_c_58 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_cst_59 : Ref sig .tc := ⟨.hbm, 348, rfl⟩
abbrev main_v253 : Ref sig .tc := ⟨.hbm, 349, rfl⟩
abbrev main_v254 : Ref sig .tc := ⟨.hbm, 350, rfl⟩
abbrev main_v255 : Ref sig .tc := ⟨.hbm, 351, rfl⟩
abbrev main_v256 : Ref sig .tc := ⟨.hbm, 352, rfl⟩
abbrev main_c_60 : Ref sig .tc := ⟨.hbm, 353, rfl⟩
abbrev main_v257 : Ref sig .tc := ⟨.hbm, 354, rfl⟩
abbrev main_v258 : Ref sig .tc := ⟨.hbm, 355, rfl⟩
abbrev main_c_61 : Ref sig .tc := ⟨.hbm, 356, rfl⟩
abbrev main_v259 : Ref sig .tc := ⟨.hbm, 357, rfl⟩
abbrev main_v260 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_cst_62 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_c_63 : Ref sig .tc := ⟨.hbm, 369, rfl⟩
abbrev main_v270 : Ref sig .tc := ⟨.hbm, 370, rfl⟩
abbrev main_v271 : Ref sig .tc := ⟨.hbm, 371, rfl⟩
abbrev main_c_64 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_cst_65 : Ref sig .tc := ⟨.hbm, 380, rfl⟩
abbrev main_v279 : Ref sig .tc := ⟨.hbm, 381, rfl⟩
abbrev main_v280 : Ref sig .tc := ⟨.hbm, 382, rfl⟩
abbrev main_v281 : Ref sig .tc := ⟨.hbm, 383, rfl⟩
abbrev main_v282 : Ref sig .tc := ⟨.hbm, 384, rfl⟩
abbrev main_v283 : Ref sig .tc := ⟨.hbm, 385, rfl⟩
abbrev main_v284 : Ref sig .tc := ⟨.hbm, 386, rfl⟩
abbrev main_v285 : Ref sig .tc := ⟨.hbm, 387, rfl⟩
abbrev main_v286 : Ref sig .tc := ⟨.hbm, 388, rfl⟩
abbrev main_v287 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_v294 : Ref sig .tc := ⟨.hbm, 396, rfl⟩
abbrev main_v295 : Ref sig .tc := ⟨.hbm, 397, rfl⟩
abbrev main_c_66 : Ref sig .tc := ⟨.hbm, 398, rfl⟩
abbrev main_v296 : Ref sig .tc := ⟨.hbm, 399, rfl⟩
abbrev main_v297 : Ref sig .tc := ⟨.hbm, 400, rfl⟩
abbrev main_c_67 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_v304 : Ref sig .tc := ⟨.hbm, 408, rfl⟩
abbrev main_cst_68 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_cst_69 : Ref sig .tc := ⟨.hbm, 414, rfl⟩
abbrev main_v309 : Ref sig .tc := ⟨.hbm, 415, rfl⟩
abbrev main_v310 : Ref sig .tc := ⟨.hbm, 416, rfl⟩
abbrev main_v311 : Ref sig .tc := ⟨.hbm, 417, rfl⟩
abbrev main_v312 : Ref sig .tc := ⟨.hbm, 418, rfl⟩
abbrev main_cst_70 : Ref sig .tc := ⟨.hbm, 419, rfl⟩
abbrev main_v313 : Ref sig .tc := ⟨.hbm, 420, rfl⟩
abbrev main_v314 : Ref sig .tc := ⟨.hbm, 421, rfl⟩
abbrev main_call2_v0 : Ref sig .tc := ⟨.hbm, 422, rfl⟩
abbrev main_call2_cst : Ref sig .tc := ⟨.hbm, 423, rfl⟩
abbrev main_call2_v1 : Ref sig .tc := ⟨.hbm, 424, rfl⟩
abbrev main_call2_v2 : Ref sig .tc := ⟨.hbm, 425, rfl⟩
abbrev main_v315 : Ref sig .tc := ⟨.hbm, 426, rfl⟩
abbrev main_cst_71 : Ref sig .tc := ⟨.hbm, 427, rfl⟩
abbrev main_v316 : Ref sig .tc := ⟨.hbm, 428, rfl⟩
abbrev main_v317 : Ref sig .tc := ⟨.hbm, 429, rfl⟩
abbrev main_v318 : Ref sig .tc := ⟨.hbm, 430, rfl⟩
abbrev main_v319 : Ref sig .tc := ⟨.hbm, 431, rfl⟩
abbrev main_v320 : Ref sig .tc := ⟨.hbm, 432, rfl⟩
abbrev main_v321 : Ref sig .tc := ⟨.hbm, 433, rfl⟩
abbrev main_v322 : Ref sig .tc := ⟨.hbm, 434, rfl⟩
abbrev main_c_72 : Ref sig .tc := ⟨.hbm, 435, rfl⟩
abbrev main_v323 : Ref sig .tc := ⟨.hbm, 436, rfl⟩
abbrev main_v324 : Ref sig .tc := ⟨.hbm, 437, rfl⟩
abbrev main_c_73 : Ref sig .tc := ⟨.hbm, 438, rfl⟩
abbrev main_v325 : Ref sig .tc := ⟨.hbm, 439, rfl⟩
abbrev main_v326 : Ref sig .tc := ⟨.hbm, 440, rfl⟩
abbrev main_v327 : Ref sig .tc := ⟨.hbm, 441, rfl⟩
abbrev main_v328 : Ref sig .tc := ⟨.hbm, 442, rfl⟩
abbrev main_v329 : Ref sig .tc := ⟨.hbm, 443, rfl⟩
abbrev main_v330 : Ref sig .tc := ⟨.hbm, 444, rfl⟩
abbrev main_v331 : Ref sig .tc := ⟨.hbm, 445, rfl⟩
abbrev main_cst_74 : Ref sig .tc := ⟨.hbm, 446, rfl⟩
abbrev main_v332 : Ref sig .tc := ⟨.hbm, 447, rfl⟩
abbrev main_v333 : Ref sig .tc := ⟨.hbm, 448, rfl⟩
abbrev main_v334 : Ref sig .tc := ⟨.hbm, 449, rfl⟩
abbrev main_c_75 : Ref sig .tc := ⟨.hbm, 450, rfl⟩
abbrev main_v335 : Ref sig .tc := ⟨.hbm, 451, rfl⟩
abbrev main_v336 : Ref sig .tc := ⟨.hbm, 452, rfl⟩
abbrev main_c_76 : Ref sig .tc := ⟨.hbm, 453, rfl⟩
abbrev main_v337 : Ref sig .tc := ⟨.hbm, 454, rfl⟩
abbrev main_v338 : Ref sig .tc := ⟨.hbm, 455, rfl⟩
abbrev main_v339 : Ref sig .tc := ⟨.hbm, 456, rfl⟩
abbrev main_v340 : Ref sig .tc := ⟨.hbm, 457, rfl⟩
abbrev main_v341 : Ref sig .tc := ⟨.hbm, 458, rfl⟩
abbrev main_call3_v0 : Ref sig .tc := ⟨.hbm, 459, rfl⟩
abbrev main_call3_cst : Ref sig .tc := ⟨.hbm, 460, rfl⟩
abbrev main_call3_v1 : Ref sig .tc := ⟨.hbm, 461, rfl⟩
abbrev main_call3_v2 : Ref sig .tc := ⟨.hbm, 462, rfl⟩
abbrev main_v342 : Ref sig .tc := ⟨.hbm, 463, rfl⟩
abbrev main_cst_77 : Ref sig .tc := ⟨.hbm, 464, rfl⟩
abbrev main_v343 : Ref sig .tc := ⟨.hbm, 465, rfl⟩
abbrev main_v344 : Ref sig .tc := ⟨.hbm, 466, rfl⟩
abbrev main_v345 : Ref sig .tc := ⟨.hbm, 467, rfl⟩
abbrev main_v346 : Ref sig .tc := ⟨.hbm, 468, rfl⟩

abbrev nD : Nat := 1
abbrev τ : Topo := Topo.v7x

variable {F : FTy → Type} [FloatOps F]

class Facts₀ : Prop where
  slices_S10001x64_S10000x64_0_0 : S10001x64.Slices ![0, 0] S10000x64
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x64_0_1 : S320000x1.BroadcastsInDim S320000x64 (![0, 1] : Fin 2 → Fin S320000x64.rank)
  reducesTo_S10000x64_S10000_d1 : S10000x64.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  bcast_S_S10000 : S_.BroadcastsInDim S10000 (![] : Fin 0 → Fin S10000.rank)
  transposes_S10000x64_S64x10000_1_0 : S10000x64.Transposes [1, 0] S64x10000
  bcast_S_S10000x10000 : S_.BroadcastsInDim S10000x10000 (![] : Fin 0 → Fin S10000x10000.rank)
  reducesTo_S10000x10000_S10000_d1 : S10000x10000.ReducesTo [1] S10000
  reducesTo_S10000_S_d0 : S10000.ReducesTo [0] S_
  bcast_S400000_S400000x1_0 : S400000.BroadcastsInDim S400000x1 (![0] : Fin 1 → Fin S400000x1.rank)
  bcast_S_S400000 : S_.BroadcastsInDim S400000 (![] : Fin 0 → Fin S400000.rank)
  bcast_S400000x1_S400000x64_0_1 : S400000x1.BroadcastsInDim S400000x64 (![0, 1] : Fin 2 → Fin S400000x64.rank)
  bcast_S_S8000x64 : S_.BroadcastsInDim S8000x64 (![] : Fin 0 → Fin S8000x64.rank)
  concatenates_S8000x64_S8000x64_S8000x64_S8000x64_S8000x64_S8000x64_S8000x64_S8000x448_d1 : Shape.Concatenates [S8000x64, S8000x64, S8000x64, S8000x64, S8000x64, S8000x64, S8000x64] S8000x448 1
  bcast_S64_S1x64_1 : S64.BroadcastsInDim S1x64 (![1] : Fin 1 → Fin S1x64.rank)
  bcast_S1x64_S8000x64_0_1 : S1x64.BroadcastsInDim S8000x64 (![0, 1] : Fin 2 → Fin S8000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  dot_S10000x64_S64x64_S10000x64_1_0_0_1_n_n_wf : DotDims.WF S10000x64 S64x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x10000_S10000x10000_1_0_0_1_n_n_wf : DotDims.WF S10000x64 S64x10000 S10000x10000 [1] [0] [0] [1] [] []
  gather_S10000x64_S400000x1_S400000x64_1_0_n_n_0_1_164_wf : GatherDims.WF S10000x64 S400000x1 S400000x64 [1] [0] [] [0] [] 1 ![1, 64]
  scatter_S8000x64_S400000x1_S400000x64_1_0_0_1_wf : ScatterDims.WF S8000x64 S400000x1 S400000x64 [1] [0] [0] 1
  dot_S8000x448_S448x64_S8000x64_1_0_0_1_n_n_wf : DotDims.WF S8000x448 S448x64 S8000x64 [1] [0] [0] [1] [] []
  gather_S8000x64_S400000x1_S400000x64_1_0_n_n_0_1_164_wf : GatherDims.WF S8000x64 S400000x1 S400000x64 [1] [0] [] [0] [] 1 ![1, 64]
  scatter_S10000x64_S400000x1_S400000x64_1_0_0_1_wf : ScatterDims.WF S10000x64 S400000x1 S400000x64 [1] [0] [0] 1
  gather_S8000x64_S4096x1_S4096x64_1_0_n_n_0_1_164_wf : GatherDims.WF S8000x64 S4096x1 S4096x64 [1] [0] [] [0] [] 1 ![1, 64]

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf
def gather_S10000x64_S400000x1_S400000x64_1_0_n_n_0_1_164 : GatherDims S10000x64 S400000x1 S400000x64 where
  offsetDims := [1]
  collapsedSliceDims := [0]
  operandBatchingDims := []
  startIndicesBatchingDims := []
  startIndexMap := [0]
  indexVectorDim := 1
  sliceSizes := ![1, 64]
  wf := gather_S10000x64_S400000x1_S400000x64_1_0_n_n_0_1_164_wf
def scatter_S8000x64_S400000x1_S400000x64_1_0_0_1 : ScatterDims S8000x64 S400000x1 S400000x64 where
  updateWindowDims := [1]
  insertedWindowDims := [0]
  scatterDimsToOperandDims := [0]
  indexVectorDim := 1
  wf := scatter_S8000x64_S400000x1_S400000x64_1_0_0_1_wf
def dot_S8000x448_S448x64_S8000x64_1_0_0_1_n_n : DotDims S8000x448 S448x64 S8000x64 where
  lhsContracting := [1]
  rhsContracting := [0]
  lhsNonContracting := [0]
  rhsNonContracting := [1]
  lhsBatch := []
  rhsBatch := []
  wf := dot_S8000x448_S448x64_S8000x64_1_0_0_1_n_n_wf
def gather_S8000x64_S400000x1_S400000x64_1_0_n_n_0_1_164 : GatherDims S8000x64 S400000x1 S400000x64 where
  offsetDims := [1]
  collapsedSliceDims := [0]
  operandBatchingDims := []
  startIndicesBatchingDims := []
  startIndexMap := [0]
  indexVectorDim := 1
  sliceSizes := ![1, 64]
  wf := gather_S8000x64_S400000x1_S400000x64_1_0_n_n_0_1_164_wf
def scatter_S10000x64_S400000x1_S400000x64_1_0_0_1 : ScatterDims S10000x64 S400000x1 S400000x64 where
  updateWindowDims := [1]
  insertedWindowDims := [0]
  scatterDimsToOperandDims := [0]
  indexVectorDim := 1
  wf := scatter_S10000x64_S400000x1_S400000x64_1_0_0_1_wf
def gather_S8000x64_S4096x1_S4096x64_1_0_n_n_0_1_164 : GatherDims S8000x64 S4096x1 S4096x64 where
  offsetDims := [1]
  collapsedSliceDims := [0]
  operandBatchingDims := []
  startIndicesBatchingDims := []
  startIndexMap := [0]
  indexVectorDim := 1
  sliceSizes := ![1, 64]
  wf := gather_S8000x64_S4096x1_S4096x64_1_0_n_n_0_1_164_wf

class Facts : Prop extends Facts₀ where

variable [Facts]
-- ==== Proof.KB.R00.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

theorem hz0 : (![0, 0] : Fin 2 → Nat) = fun _ => 0 := funext fun a => by fin_cases a <;> rfl

def out0_3 (x0 : Vec F S10000x64 .f32) (x1 : Vec F S64x64 .f32) (x2 : Vec F S1x64 .f32) : Vec F S10000x64 .f32 :=
  View.canon [⟨r0_0, k0_pay1 (View.ld x0 r0_0) (View.ld x1 r0_1) (View.ld x2 r0_2)⟩]

theorem cover0_3 (p0 : Vec F S10000x64 .f32) (y : S10000x64.Idx) :
    ∃ pc ∈ ([⟨r0_0, p0⟩] : List (View.Piece (Elt F) S10000x64 .f32)), y ∈ pc.1.set :=
  ⟨_, List.mem_singleton_self _, View.mem_set_unit_zero hz0 inb_S10000x64_S10000x64_0_0 y⟩

set_option maxHeartbeats 1000000 in
theorem sound_kernel0 (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gate_kernel i arg1 harg1 arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KB.R01.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

theorem hz1 : (![0, 0] : Fin 2 → Nat) = fun _ => 0 := funext fun a => by fin_cases a <;> rfl

def out1_3 (x0 : Vec F S10000x64 .f32) (x1 : Vec F S64x64 .f32) (x2 : Vec F S1x64 .f32) : Vec F S10000x64 .f32 :=
  View.canon [⟨r1_0, k1_pay1 (View.ld x0 r1_0) (View.ld x1 r1_1) (View.ld x2 r1_2)⟩]

theorem cover1_3 (p0 : Vec F S10000x64 .f32) (y : S10000x64.Idx) :
    ∃ pc ∈ ([⟨r1_0, p0⟩] : List (View.Piece (Elt F) S10000x64 .f32)), y ∈ pc.1.set :=
  ⟨_, List.mem_singleton_self _, View.mem_set_unit_zero hz1 inb_S10000x64_S10000x64_0_0 y⟩

set_option maxHeartbeats 1000000 in
theorem sound_kernel1 (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gate_kernel i arg1 harg1 arg2 harg2 arg3 harg3 arg4 harg4) K := by
  simp only [cc1__gate_kernel_eq_skeleton]; unfold cc1__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand
-- ==== Proof.KB.R02.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

theorem hz2 : (![0, 0] : Fin 2 → Nat) = fun _ => 0 := funext fun a => by fin_cases a <;> rfl

def out2_3 (x0 : Vec F S10000x64 .f32) (x1 : Vec F S64x64 .f32) (x2 : Vec F S1x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  ⟨_, List.mem_singleton_self _, View.mem_set_unit_zero hz2 inb_S10000x64_S10000x64_0_0 y⟩

set_option maxHeartbeats 1000000 in
theorem sound_kernel2 (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gate_kernel i arg1 harg1 arg2 harg2 arg3 harg3 arg4 harg4) K := by
  simp only [cc2__gate_kernel_eq_skeleton]; unfold cc2__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand
-- ==== Proof.KB.R03.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S400x10000 := Rect.unit (s := S400x10000) ![0, 0] S400x10000.size inb_S400x10000_S400x10000_0_0
abbrev r3_1 : Rect S10000x64 := Rect.unit (s := S10000x64) ![0, 0] S10000x64.size inb_S10000x64_S10000x64_0_0
abbrev r3_2 : Rect S400x64 := Rect.unit (s := S400x64) ![0, 0] S400x64.size inb_S400x64_S400x64_0_0

def out3_3 (x0 : Vec F S400x10000 .bf16) (x1 : Vec F S10000x64 .bf16) (x2 : Vec F S400x64 .f32) : Vec F S400x64 .f32 :=
  View.canon [⟨r3_2, k3_pay1 (View.ld x0 r3_0) (View.ld x1 r3_1) (View.ld x2 r3_2)⟩]

theorem cover3_3 (p0 : Vec F S400x64 .f32) (y : S400x64.Idx) :
    ∃ pc ∈ ([⟨r3_2, p0⟩] : List (View.Piece (Elt F) S400x64 .f32)), y ∈ pc.1.set :=
  View.cover_of_tiled [⟨r3_2, p0⟩] S400x64.size (by rfl) y

set_option maxHeartbeats 1000000 in
theorem sound_kernel3 (c : Dev nD) (E : Set ℕ) (i : grid3.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_res_kernel i arg1 harg1 arg2 harg2 arg3 harg3 arg4 harg4) K := by
  simp only [cc3__matmul_res_kernel_eq_skeleton]; unfold cc3__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

open Idealize.ShloMosaic.ValueIdx

end Cert.Kernel.Hand
-- ==== Proof.KB.R04.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S400x10000 := Rect.unit (s := S400x10000) ![0, 0] S400x10000.size inb_S400x10000_S400x10000_0_0
abbrev r4_1 : Rect S10000x64 := Rect.unit (s := S10000x64) ![0, 0] S10000x64.size inb_S10000x64_S10000x64_0_0
abbrev r4_2 : Rect S400x64 := Rect.unit (s := S400x64) ![0, 0] S400x64.size inb_S400x64_S400x64_0_0

def out4_3 (x0 : Vec F S400x10000 .bf16) (x1 : Vec F S10000x64 .bf16) (x2 : Vec F S400x64 .f32) : Vec F S400x64 .f32 :=
  View.canon [⟨r4_2, k4_pay1 (View.ld x0 r4_0) (View.ld x1 r4_1) (View.ld x2 r4_2)⟩]

theorem cover4_3 (p0 : Vec F S400x64 .f32) (y : S400x64.Idx) :
    ∃ pc ∈ ([⟨r4_2, p0⟩] : List (View.Piece (Elt F) S400x64 .f32)), y ∈ pc.1.set :=
  View.cover_of_tiled [⟨r4_2, p0⟩] S400x64.size (by rfl) y

set_option maxHeartbeats 1000000 in
theorem sound_kernel4 (c : Dev nD) (E : Set ℕ) (i : grid4.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_res_kernel i arg1 harg1 arg2 harg2 arg3 harg3 arg4 harg4) K := by
  simp only [cc4__matmul_res_kernel_eq_skeleton]; unfold cc4__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

open Idealize.ShloMosaic.ValueIdx

end Cert.Kernel.Hand
-- ==== Proof.KB.R05.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_A : Rect S400x10000 := Rect.unit (s := S400x10000) ![0, 0] S400x10000.size inb_S400x10000_S400x10000_0_0
abbrev r5_X : Rect S10000x64 := Rect.unit (s := S10000x64) ![0, 0] S10000x64.size inb_S10000x64_S10000x64_0_0
abbrev r5_O : Rect S400x64 := Rect.unit (s := S400x64) ![0, 0] S400x64.size inb_S400x64_S400x64_0_0

def out5_2 (x0 : Vec F S400x10000 .bf16) (x1 : Vec F S10000x64 .bf16) : Vec F S400x64 .f32 :=
  View.canon [⟨r5_O, k5_pay1 (View.ld x0 r5_A) (View.ld x1 r5_X)⟩]

theorem cover5_2 (p0 : Vec F S400x64 .f32) (y : S400x64.Idx) :
    ∃ pc ∈ ([⟨r5_O, p0⟩] : List (View.Piece (Elt F) S400x64 .f32)), y ∈ pc.1.set :=
  View.cover_of_tiled [⟨r5_O, p0⟩] S400x64.size (by rfl) y

set_option maxHeartbeats 1000000 in
theorem sound_kernel5 (c : Dev nD) (E : Set ℕ) (i : grid5.Coords) (arg1 : Memref sig .tc .vmem S400x10000 .bf16) (harg1 : arg1.IsWhole)
    (arg2 : Memref sig .tc .vmem S10000x64 .bf16) (harg2 : arg2.IsWhole) (arg3 : Memref sig .tc .vmem S400x64 .f32) (harg3 : arg3.IsWhole)
    (x0 : Vec F S400x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

open ValueIdx

end Cert.Kernel.Hand

end
-- ==== Proof.KB.R06.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S400x10000 := Rect.unit (s := S400x10000) ![0, 0] S400x10000.size inb_S400x10000_S400x10000_0_0
abbrev r6_1 : Rect S10000x64 := Rect.unit (s := S10000x64) ![0, 0] S10000x64.size inb_S10000x64_S10000x64_0_0
abbrev r6_2 : Rect S400x64 := Rect.unit (s := S400x64) ![0, 0] S400x64.size inb_S400x64_S400x64_0_0

def out6_3 (x0 : Vec F S400x10000 .bf16) (x1 : Vec F S10000x64 .bf16) (x2 : Vec F S400x64 .f32) : Vec F S400x64 .f32 :=
  View.canon [⟨r6_2, k6_pay1 (View.ld x0 r6_0) (View.ld x1 r6_1) (View.ld x2 r6_2)⟩]

theorem cover6_3 (p0 : Vec F S400x64 .f32) (y : S400x64.Idx) :
    ∃ pc ∈ ([⟨r6_2, p0⟩] : List (View.Piece (Elt F) S400x64 .f32)), y ∈ pc.1.set :=
  View.cover_of_tiled [⟨r6_2, p0⟩] S400x64.size (by rfl) y

set_option maxHeartbeats 1000000 in
theorem sound_kernel6 (c : Dev nD) (E : Set ℕ) (i : grid6.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_res_kernel i arg1 harg1 arg2 harg2 arg3 harg3 arg4 harg4) K := by
  simp only [cc6__matmul_res_kernel_eq_skeleton]; unfold cc6__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

open Idealize.ShloMosaic.ValueIdx

end Cert.Kernel.Hand
-- ==== Proof.KB.R07.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_A : Rect S400x10000 := Rect.unit (s := S400x10000) ![0, 0] S400x10000.size inb_S400x10000_S400x10000_0_0
abbrev r7_X : Rect S10000x64 := Rect.unit (s := S10000x64) ![0, 0] S10000x64.size inb_S10000x64_S10000x64_0_0
abbrev r7_O : Rect S400x64 := Rect.unit (s := S400x64) ![0, 0] S400x64.size inb_S400x64_S400x64_0_0

def out7_2 (x0 : Vec F S400x10000 .bf16) (x1 : Vec F S10000x64 .bf16) : Vec F S400x64 .f32 :=
  View.canon [⟨r7_O, k7_pay1 (View.ld x0 r7_A) (View.ld x1 r7_X)⟩]

theorem cover7_2 (p0 : Vec F S400x64 .f32) (y : S400x64.Idx) :
    ∃ pc ∈ ([⟨r7_O, p0⟩] : List (View.Piece (Elt F) S400x64 .f32)), y ∈ pc.1.set :=
  View.cover_of_tiled [⟨r7_O, p0⟩] S400x64.size (by rfl) y

set_option maxHeartbeats 1000000 in
theorem sound_kernel7 (c : Dev nD) (E : Set ℕ) (i : grid7.Coords) (arg1 : Memref sig .tc .vmem S400x10000 .bf16) (harg1 : arg1.IsWhole)
    (arg2 : Memref sig .tc .vmem S10000x64 .bf16) (harg2 : arg2.IsWhole) (arg3 : Memref sig .tc .vmem S400x64 .f32) (harg3 : arg3.IsWhole)
    (x0 : Vec F S400x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__matmul_kernel i arg1 harg1 arg2 harg2 arg3 harg3) K := by
  simp only [cc7__matmul_kernel_eq_skeleton]; unfold cc7__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

open ValueIdx

end Cert.Kernel.Hand

end
-- ==== Proof.KB.R08.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S400x10000 := Rect.unit (s := S400x10000) ![0, 0] S400x10000.size inb_S400x10000_S400x10000_0_0
abbrev r8_1 : Rect S10000x64 := Rect.unit (s := S10000x64) ![0, 0] S10000x64.size inb_S10000x64_S10000x64_0_0
abbrev r8_2 : Rect S400x64 := Rect.unit (s := S400x64) ![0, 0] S400x64.size inb_S400x64_S400x64_0_0

def out8_3 (x0 : Vec F S400x10000 .bf16) (x1 : Vec F S10000x64 .bf16) (x2 : Vec F S400x64 .f32) : Vec F S400x64 .f32 :=
  View.canon [⟨r8_2, k8_pay1 (View.ld x0 r8_0) (View.ld x1 r8_1) (View.ld x2 r8_2)⟩]

theorem cover8_3 (p0 : Vec F S400x64 .f32) (y : S400x64.Idx) :
    ∃ pc ∈ ([⟨r8_2, p0⟩] : List (View.Piece (Elt F) S400x64 .f32)), y ∈ pc.1.set :=
  View.cover_of_tiled [⟨r8_2, p0⟩] S400x64.size (by rfl) y

set_option maxHeartbeats 1000000 in
theorem sound_kernel8 (c : Dev nD) (E : Set ℕ) (i : grid8.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_res_kernel i arg1 harg1 arg2 harg2 arg3 harg3 arg4 harg4) K := by
  simp only [cc8__matmul_res_kernel_eq_skeleton]; unfold cc8__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

open Idealize.ShloMosaic.ValueIdx

end Cert.Kernel.Hand
-- ==== Proof.KB.R09.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0

def out9_1 (x0 : Vec F S10000x64 .f32) : Vec F S10000x64 .f32 :=
  View.canon [⟨r9_0, k9_pay1 (View.ld x0 r9_0)⟩]

theorem cover9_1 (p0 : Vec F S10000x64 .f32) (y : S10000x64.Idx) :
    ∃ pc ∈ ([⟨r9_0, p0⟩] : List (View.Piece (Elt F) S10000x64 .f32)), y ∈ pc.1.set :=
  View.cover_of_tiled [⟨r9_0, p0⟩] S10000x64.size (by rfl) y

set_option maxHeartbeats 1000000 in
theorem sound_kernel9 (c : Dev nD) (E : Set ℕ) (i : grid9.Coords) (arg0 : Memref sig .tc .vmem S10000x64 .f32) (harg0 : arg0.IsWhole) (arg1 : Memref sig .tc .vmem S10000x64 .f32) (harg1 : arg1.IsWhole)
    (x0 : Vec F S10000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out9_1 x0)) -∗ K ⟨⟩))
      ⊢ wp frame (wpE (defs₀ (F := F)) Variants.none c none) E (cc9__l2norm_kernel i arg0 harg0 arg1 harg1) K := by
  simp only [cc9__l2norm_kernel_eq_skeleton]; unfold cc9__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ _ _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.KB.R10.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S10000x64 := Rect.unit (s := S10000x64) ![0, 0] S10000x64.size inb_S10000x64_S10000x64_0_0

def out10_1 (x0 : Vec F S10000x64 .f32) : Vec F S10000x64 .f32 :=
  View.canon [⟨r10_0, k10_pay1 (View.ld x0 r10_0)⟩]

theorem cover10_1 (p0 : Vec F S10000x64 .f32) (y : S10000x64.Idx) :
    ∃ pc ∈ ([⟨r10_0, p0⟩] : List (View.Piece (Elt F) S10000x64 .f32)), y ∈ pc.1.set :=
  View.cover_of_tiled [⟨r10_0, p0⟩] S10000x64.size (by rfl) y

set_option maxHeartbeats 1000000 in
theorem sound_kernel10 (c : Dev nD) (E : Set ℕ) (i : grid10.Coords) (arg0 : Memref sig .tc .vmem S10000x64 .f32) (harg0 : arg0.IsWhole) (arg1 : Memref sig .tc .vmem S10000x64 .f32) (harg1 : arg1.IsWhole)
    (x0 : Vec F S10000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out10_1 x0)) -∗ K ⟨⟩))
      ⊢ wp frame (wpE (defs₀ (F := F)) Variants.none c none) E (cc10__l2norm_kernel i arg0 harg0 arg1 harg1) K := by
  simp only [cc10__l2norm_kernel_eq_skeleton]; unfold cc10__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover10_1 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => out10_1 (iblk10 V c 0 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = out10_1 (iblk10 V c 0 t) := by dsimp only [dat10]

theorem before10_0 (c : Dev nD) (t : Fin cfg10.N) (d) : (dat10 V c).before 0 t d = iblk10 V c 0 t :=
  before10_0_of V (dat10 V c) (A_eq10 V c 0) (after10_0 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).Φ t.succ = (dat10 V c).Φ t.castSucc from rfl,
    show (dat10 V c).owesAt () t.succ = (dat10 V c).owesAt () t.castSucc from rfl,
    after10_0, after10_1]
  iintro ⟨HΦ, Ho, ⟨%d0, H0⟩, ⟨%d1, H1⟩⟩
  iapply (sound_kernel10 c Set.univ _ _ _ _ _ (iblk10 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation10 (c : Dev nD) : BodyObligation (dat10 (F := F) V c) (defs₀ (F := F)) Variants.none () Set.univ := fun t => by
  rw [bigSep_W10, bigSep_W10]
  exact sound_body10 V c t

end Cert.Kernel.Hand
-- ==== Proof.KB.R11Defs.lean ====
import proofs.«417009_j23742579212955_2_alg».proof.Proof.Gen.Kernel.Skeleton
import Idealize.ShloMosaic.Lib.Pipeline.FrameBody
import Idealize.ShloMosaic.Lib.ValueIdx

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

def E11 (s : F .f32) (v8 : Vec F S400x64 .bf16) (v10 : Vec F S400x64 .bf16) : FVec F S400x400 .f32 :=
  have v9 : FVec F S400x64 .bf16 := shapeCast S400x64 v8 shapeCasts_S400x64_S400x64
  have v11 : FVec F S400x64 .bf16 := shapeCast S400x64 v10 shapeCasts_S400x64_S400x64
  have cst : FVec F S400x400 .f32 := constant S400x400 .f32 0x00000000#32
  have v12 : FVec F S400x400 .f32 := matmul dot_S400x64_S400x64_S400x400_1_1_0_0_n_n none v9 v11 cst
  have v13 : FVec F S400x400 .f32 := broadcast S400x400 s
  have v14 : FVec F S400x400 .f32 := mulf v12 v13
  have v15 : FVec F S400x400 .f32 := exp v14
  v15

def rowStep11 (s : F .f32) (v8 : Vec F S400x64 .bf16) (v10 : Vec F S400x64 .bf16) (v16 : Vec F S400x1 .f32) : FVec F S400x1 .f32 :=
  have v17 : FVec F S400 .f32 := multiReduction .add [1] S400 (E11 s v8 v10) 0x00000000#32 reduces_S400x400_S400 (.inl rfl) rfl
  have v18 : FVec F S400x1 .f32 := shapeCast S400x1 v17 shapeCasts_S400_S400x1
  have v19 : FVec F S400x1 .f32 := addf v16 v18
  have v22 : FVec F S400x1 .f32 := shapeCast S400x1 v19 shapeCasts_S400x1_S400x1
  v22

def colStep11 (s : F .f32) (v8 : Vec F S400x64 .bf16) (v10 : Vec F S400x64 .bf16) (v29 : Vec F S400x1 .f32) : FVec F S400x1 .f32 :=
  have v23 : FVec F S400 .f32 := multiReduction .add [0] S400 (E11 s v8 v10) 0x00000000#32 reduces_S400x400_S400_2 (.inl rfl) rfl
  have v24 : FVec F S1x400 .f32 := shapeCast S1x400 v23 shapeCasts_S400_S1x400
  have v25 : FVec F S400x1 .f32 := transpose S400x1 [1, 0] v24 transposes_S1x400_p1_0_S400x1
  have v30 : FVec F S400x1 .f32 := shapeCast S400x1 v29 shapeCasts_S400x1_S400x1
  have v31 : FVec F S400x1 .f32 := addf v30 v25
  v31

abbrev r11_sl (i : grid11.Coords) : Rect S10000x1 := Rect.unit (s := S10000x1) (k11_off1 i) S400x1.size (k11_off1_inb i)

def o2Step11 (s : F .f32) (i : grid11.Coords) (x y : Vec F S400x64 .bf16) (o : Vec F S10000x1 .f32) : Vec F S10000x1 .f32 :=
  (r11_sl i).overlay o (colStep11 s x y (View.ld o (r11_sl i)))

def tile11 (A : Vec F S10000x64 .bf16) (k : ℕ) : Vec F S400x64 .bf16 :=
  fun y => A (ValueIdx.ix2 (⟨min (400 * k + (y 0).val) 9999, by omega⟩ : Fin 10000) (y 1))

def acc11 (s : F .f32) (A B : Vec F S10000x64 .bf16) (i : ℕ) : ℕ → Vec F S400x1 .f32
  | 0 => rowStep11 s (tile11 A i) (tile11 B 0) k11_pay1
  | j + 1 => rowStep11 s (tile11 A i) (tile11 B (j + 1)) (acc11 s A B i j)

def accAfter11 (s : F .f32) (A B : Vec F S10000x64 .bf16) (n : ℕ) : Vec F S400x1 .f32 := acc11 s A B (n / 25) (n % 25)

def o2At11 (s : F .f32) (A B : Vec F S10000x64 .bf16) : (n : ℕ) → n < cfg11.N → Vec F S10000x1 .f32
  | 0, h => o2Step11 s (grid11.coords ⟨0, h⟩) (tile11 A (0 / 25)) (tile11 B (0 % 25)) k11_pay2
  | n + 1, h => o2Step11 s (grid11.coords ⟨n + 1, h⟩) (tile11 A ((n + 1) / 25)) (tile11 B ((n + 1) % 25)) (o2At11 s A B n (Nat.lt_of_succ_lt h))

end Cert.Kernel.Hand

end
-- ==== Proof.KB.R11.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import proofs.«417009_j23742579212955_2_alg».proof.Proof.KB.R11Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev scale11 : F .f32 := Scalar.ofBits .f32 0x40A00000#32

theorem hz11 : (![0, 0] : Fin 2 → Nat) = fun _ => 0 := funext fun a => by fin_cases a <;> rfl

theorem read_writes_cons_overlay {sg : RefSig} {k : Kind} {sp : Space} {s : Shape} {e : EltTy} (v : View sg k sp s e)
    (f : v.ty.Contents (Elt F)) (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

abbrev cond11_1 (i : grid11.Coords) : Prop := (Scalar.cmpi .ne (Scalar.extui (Scalar.cmpi .eq (BitVec.ofNat 32 (i 1).val) 0#32)) 0#32) = 1#1
abbrev cond11_2 (i : grid11.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem read_writes_cons_whole {sg : RefSig} {k : Kind} {sp : Space} {S : Shape} {e : EltTy} (v : View sg k sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

set_option maxHeartbeats 1000000 in
theorem sound_kernel11_A (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : cond11_1 i) (h2 : cond11_2 i) (h3 : ¬ k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ (∃ d, owns (c : Thread nD τ) arg5 fullShare d) ∗ (∃ d, owns (c : Thread nD τ) arg6 fullShare d)
        ∗ (iprop(owns (c : Thread nD τ) arg2 fullShare x ∗ owns (c : Thread nD τ) arg3 fullShare y ∗ owns (c : Thread nD τ) arg5 fullShare (o2Step11 scale11 i x y k11_pay2) ∗ owns (c : Thread nD τ) arg6 fullShare (rowStep11 scale11 x y k11_pay1)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%o5, %f5, -, H5⟩, ⟨%a6, %f6, -, H6⟩, Hk⟩
  subst hf2; subst hf3
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    simp only [View.readAt_eq_ld]
    rw [read_writes_cons_overlay, read_writes_cons_whole (h := hz11)]
    simp only [View.ld_unit_zero (S := S400x64) hz11]
    rfl
  · iexists _; isplitr
    swap; · iexact H6
    ipureintro
    sl_unfold_words
    simp only [View.readAt_eq_ld]
    rw [read_writes_cons_whole (h := hz11), View.readCov_unit_zero _ hz11]
    simp only [View.ld_unit_zero (S := S400x64) hz11]
    rfl

set_option maxHeartbeats 1000000 in
theorem sound_kernel11_B (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : cond11_1 i) (h2 : ¬ cond11_2 i) (h3 : ¬ k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ owns (c : Thread nD τ) arg5 fullShare o ∗ (∃ d, owns (c : Thread nD τ) arg6 fullShare d)
        ∗ (iprop(owns (c : Thread nD τ) arg2 fullShare x ∗ owns (c : Thread nD τ) arg3 fullShare y ∗ owns (c : Thread nD τ) arg5 fullShare (o2Step11 scale11 i x y o) ∗ owns (c : Thread nD τ) arg6 fullShare (rowStep11 scale11 x y k11_pay1)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%f5, %hf5, H5⟩, ⟨%a6, %f6, -, H6⟩, Hk⟩
  subst hf2; subst hf3; subst hf5
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    simp only [View.readAt_eq_ld]
    rw [read_writes_cons_overlay, View.writes_nil]
    simp only [View.ld_unit_zero (S := S400x64) hz11]
    rfl
  · iexists _; isplitr
    swap; · iexact H6
    ipureintro
    sl_unfold_words
    simp only [View.readAt_eq_ld]
    rw [read_writes_cons_whole (h := hz11), View.readCov_unit_zero _ hz11]
    simp only [View.ld_unit_zero (S := S400x64) hz11]
    rfl

set_option maxHeartbeats 1000000 in
theorem sound_kernel11_C (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : ¬ cond11_1 i) (h2 : ¬ cond11_2 i) (h3 : ¬ k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ owns (c : Thread nD τ) arg5 fullShare o ∗ owns (c : Thread nD τ) arg6 fullShare a
        ∗ (iprop(owns (c : Thread nD τ) arg2 fullShare x ∗ owns (c : Thread nD τ) arg3 fullShare y ∗ owns (c : Thread nD τ) arg5 fullShare (o2Step11 scale11 i x y o) ∗ owns (c : Thread nD τ) arg6 fullShare (rowStep11 scale11 x y a)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%f5, %hf5, H5⟩, ⟨%f6, %hf6, H6⟩, Hk⟩
  subst hf2; subst hf3; subst hf5; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    simp only [View.readAt_eq_ld]
    rw [read_writes_cons_overlay, View.writes_nil]
    simp only [View.ld_unit_zero (S := S400x64) hz11]
    rfl
  · iexists _; isplitr
    swap; · iexact H6
    ipureintro
    sl_unfold_words
    simp only [View.readAt_eq_ld]
    rw [read_writes_cons_whole (h := hz11)]
    simp only [View.ld_unit_zero (S := S400x64) hz11, View.ld_unit_zero (S := S400x1) hz11]
    rfl

set_option maxHeartbeats 1000000 in
theorem sound_kernel11_D (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : ¬ cond11_1 i) (h2 : ¬ cond11_2 i) (h3 : k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare o ∗ owns (c : Thread nD τ) arg6 fullShare a
        ∗ (iprop(owns (c : Thread nD τ) arg2 fullShare x ∗ owns (c : Thread nD τ) arg3 fullShare y ∗ owns (c : Thread nD τ) arg4 fullShare (rowStep11 scale11 x y a) ∗ owns (c : Thread nD τ) arg5 fullShare (o2Step11 scale11 i x y o) ∗ owns (c : Thread nD τ) arg6 fullShare (rowStep11 scale11 x y a)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2; subst hf3; subst hf5; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    simp only [View.readAt_eq_ld]
    rw [read_writes_cons_whole (S := S400x1) (h := hz11), View.readCov_unit_zero (S := S400x1) _ hz11]
    simp only [View.ld_unit_zero (S := S400x64) hz11, View.ld_unit_zero (S := S400x1) hz11]
    rfl
  isplitl [H5]
  · iexists _; isplitr
    swap; · iexact H5
    ipureintro
    sl_unfold_words
    simp only [View.readAt_eq_ld]
    rw [read_writes_cons_overlay, View.writes_nil]
    simp only [View.ld_unit_zero (S := S400x64) hz11]
    rfl
  · iexists _; isplitr
    swap; · iexact H6
    ipureintro
    sl_unfold_words
    simp only [View.readAt_eq_ld]
    rw [read_writes_cons_whole (h := hz11)]
    simp only [View.ld_unit_zero (S := S400x64) hz11, View.ld_unit_zero (S := S400x1) hz11]
    rfl

theorem hcond11_1 : ∀ t : Fin cfg11.N, cond11_1 (grid11.coords t) ↔ t.val % 25 = 0 :=
  (by decide +kernel : ∀ t : Fin grid11.N, cond11_1 (grid11.coords t) ↔ t.val % 25 = 0)
theorem hcond11_2 : ∀ t : Fin cfg11.N, cond11_2 (grid11.coords t) ↔ t.val = 0 :=
  (by decide +kernel : ∀ t : Fin grid11.N, cond11_2 (grid11.coords t) ↔ t.val = 0)
theorem hcond11_3 : ∀ t : Fin cfg11.N, k11_cond3 (grid11.coords t) = 1#1 ↔ t.val % 25 = 24 :=
  (by decide +kernel : ∀ t : Fin grid11.N, k11_cond3 (grid11.coords t) = 1#1 ↔ t.val % 25 = 24)

theorem idx_facts11 : ∀ t : Fin cfg11.N, win11_0.index t (0 : Fin 2) = t.val / 25 ∧ win11_0.index t (1 : Fin 2) = 0
    ∧ win11_1.index t (0 : Fin 2) = t.val % 25 ∧ win11_1.index t (1 : Fin 2) = 0
    ∧ win11_2.index t (0 : Fin 2) = t.val / 25 ∧ win11_2.index t (1 : Fin 2) = 0
    ∧ win11_3.index t (0 : Fin 2) = 0 ∧ win11_3.index t (1 : Fin 2) = 0 :=
  (by decide +kernel : ∀ t : Fin grid11.N, _)

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem accAfter11_reset (s : F .f32) (A B : Vec F S10000x64 .bf16) (n : ℕ) (h : n % 25 = 0) :
    accAfter11 s A B n = rowStep11 s (tile11 A (n / 25)) (tile11 B (n % 25)) k11_pay1 := by
  unfold accAfter11; rw [h]; rfl

theorem accAfter11_step (s : F .f32) (A B : Vec F S10000x64 .bf16) (n : ℕ) (h : n % 25 ≠ 0) :
    accAfter11 s A B n = rowStep11 s (tile11 A (n / 25)) (tile11 B (n % 25)) (accAfter11 s A B (n - 1)) := by
  unfold accAfter11
  obtain ⟨j, hj⟩ : ∃ j, n % 25 = j + 1 := ⟨n % 25 - 1, by omega⟩
  have e1 : (n - 1) / 25 = n / 25 := by omega
  have e2 : (n - 1) % 25 = j := by omega
  rw [e1, e2, hj]; rfl

theorem o2At11_zero (s : F .f32) (A B : Vec F S10000x64 .bf16) (t : Fin cfg11.N) (h0 : t.val = 0) :
    o2At11 s A B t.val t.isLt = o2Step11 s (grid11.coords t) (tile11 A (t.val / 25)) (tile11 B (t.val % 25)) k11_pay2 := by
  obtain ⟨n, hn⟩ := t
  cases n with
  | zero => rfl
  | succ n => exact absurd h0 (Nat.succ_ne_zero n)

theorem o2At11_pos (s : F .f32) (A B : Vec F S10000x64 .bf16) (t : Fin cfg11.N) (h0 : t.val ≠ 0) :
    o2At11 s A B t.val t.isLt = o2Step11 s (grid11.coords t) (tile11 A (t.val / 25)) (tile11 B (t.val % 25))
      (o2At11 s A B (t.val - 1) (Nat.lt_of_le_of_lt (Nat.sub_le _ _) t.isLt)) := by
  obtain ⟨n, hn⟩ := t
  cases n with
  | zero => exact absurd rfl h0
  | succ n => rfl

abbrev arrA11 (c : Dev nD) : Vec F S10000x64 .bf16 := V c (Pipeline.arrRef spec11 0)
abbrev arrB11 (c : Dev nD) : Vec F S10000x64 .bf16 := V c (Pipeline.arrRef spec11 1)

theorem iblk11_0_eq (c : Dev nD) (t : Fin cfg11.N) : iblk11 V c 0 t = tile11 (arrA11 V c) (t.val / 25) := by
  obtain ⟨e0, e1, -⟩ := idx_facts11 t
  have hN : t.val < 625 := lt_of_lt_of_eq t.isLt (show cfg11.N = 625 from N_11)
  funext y
  show V c (Pipeline.arrRef spec11 0) (((cfg11.win 0).blk t).view.emb y) = V c (Pipeline.arrRef spec11 0) _
  refine congrArg _ ?_
  funext a; apply Fin.ext
  match a with
  | ⟨0, _⟩ => show win11_0.index t (0 : Fin 2) * 400 + 1 * (y 0).val = min (400 * (t.val / 25) + (y 0).val) 9999; have hy : (y 0).val < 400 := (y 0).isLt; omega
  | ⟨1, _⟩ => show win11_0.index t (1 : Fin 2) * 64 + 1 * (y 1).val = (y 1).val; omega

theorem iblk11_1_eq (c : Dev nD) (t : Fin cfg11.N) : iblk11 V c 1 t = tile11 (arrB11 V c) (t.val % 25) := by
  obtain ⟨-, -, e0, e1, -⟩ := idx_facts11 t
  funext y
  show V c (Pipeline.arrRef spec11 1) (((cfg11.win 1).blk t).view.emb y) = V c (Pipeline.arrRef spec11 1) _
  refine congrArg _ ?_
  funext a; apply Fin.ext
  match a with
  | ⟨0, _⟩ => show win11_1.index t (0 : Fin 2) * 400 + 1 * (y 0).val = min (400 * (t.val % 25) + (y 0).val) 9999; have hy : (y 0).val < 400 := (y 0).isLt; omega
  | ⟨1, _⟩ => show win11_1.index t (1 : Fin 2) * 64 + 1 * (y 1).val = (y 1).val; omega

abbrev scM11 : Memref sig .tc .vmem S400x1 .f32 := Memref.whole cc11_scratch0

def Φ11 (c : Dev nD) (n : ℕ) : sProp 𝕄 :=
  iprop((∃ a : Vec F S400x1 .f32, ⌜n % 25 ≠ 0 → a = accAfter11 scale11 (arrA11 V c) (arrB11 V c) (n - 1)⌝ ∗ owns (c : Thread nD τ) scM11 fullShare a)
    ∗ Pipeline.scopedRestBut (Ix := Unit) (Name := ℕ) (U := UR sig nD τ) (Lvl := ℕ) (Val := Elt F) spec11 c [cc11_scratch0]
    ∗ ∃ r, prngReg c r)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => accAfter11 scale11 (arrA11 V c) (arrB11 V c) t.val
    | ⟨3, _⟩ => o2At11 scale11 (arrA11 V c) (arrB11 V c) t.val t.isLt
  Φ t := Φ11 V c t.val
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = accAfter11 scale11 (arrA11 V c) (arrB11 V c) t.val := by dsimp only [dat11]
theorem after11_3 (c : Dev nD) (t : Fin cfg11.N) : (dat11 V c).after 3 t = o2At11 scale11 (arrA11 V c) (arrB11 V c) t.val t.isLt := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

theorem before11_3_pos (c : Dev nD) (t : Fin cfg11.N) (h0 : t.val ≠ 0) (d) :
    (dat11 V c).before 3 t d = o2At11 scale11 (arrA11 V c) (arrB11 V c) (t.val - 1) (Nat.lt_of_le_of_lt (Nat.sub_le _ _) t.isLt) := by
  have hN : t.val < 625 := lt_of_lt_of_eq t.isLt (show cfg11.N = 625 from N_11)
  rw [Dat.before_out_kept _ 3 rfl t h0 (Bool.eq_false_iff.mpr fun h => by have := (flush11_3 _).mp h; dsimp only at this; omega)
    (fun _ => rfl) (fun _ _ => rfl)]
  dsimp only [dat11]

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ (dat11 V c).leavesExact 2 t
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  have hN : t.val < 625 := lt_of_lt_of_eq t.isLt (show cfg11.N = 625 from N_11)
  unfold bodyPre11 bodyPost11 bodyAt11
  simp only [before11_0, before11_1]
  rw [show (dat11 V c).Φ t.succ = Φ11 V c (t.val + 1) from rfl, show (dat11 V c).Φ t.castSucc = Φ11 V c t.val from rfl,
    show (dat11 V c).owesAt () t.succ = (dat11 V c).owesAt () t.castSucc from rfl,
    after11_0, after11_1, after11_3, iblk11_0_eq, iblk11_1_eq]
  unfold Φ11
  rw [Nat.add_sub_cancel]
  by_cases h24 : t.val % 25 = 24
  ·
    have hi : cfg11.idle 2 (cfg11.grid.coords t) = false := by
      show (!(k11_cond3 (grid11.coords t) == 1#1)) = false
      rw [(hcond11_3 t).mpr h24]; rfl
    have hle : (dat11 V c).leavesExact 2 t = owns (c : Thread nD τ) (st11_2 t) fullShare ((dat11 V c).after 2 t) := by
      unfold Dat.leavesExact; rw [hi]
    rw [hle, after11_2, o2At11_pos _ _ _ t (by omega), accAfter11_step _ _ _ t.val (by omega)]
    simp only [before11_3_pos V c t (by omega)]
    iintro ⟨⟨⟨%a, %ha, Hs⟩, Hrest, Hp⟩, Ho, ⟨%d0, H0⟩, ⟨%d1, H1⟩, ⟨%d2, H2⟩, ⟨%d3, H3⟩⟩
    obtain rfl := ha (by omega)
    iapply (sound_kernel11_D c Set.univ (grid11.coords t) _ _ _ _ _ _ _ _ _ _
      (fun h => by have := (hcond11_1 t).mp h; omega) (fun h => by have := (hcond11_2 t).mp h; omega) ((hcond11_3 t).mpr h24)
      (tile11 (arrA11 V c) (t.val / 25)) (tile11 (arrB11 V c) (t.val % 25)) _ _ _)
    isplitl [H0]; · iexact H0
    isplitl [H1]; · iexact H1
    isplitl [H2]; · iexists _; iexact H2
    isplitl [H3]; · iexact H3
    isplitl [Hs]; · iexact Hs
    iintro ⟨H0, H1, H2, H3, Hs⟩
    isplitl [Hs Hrest Hp]
    · isplitl [Hs]
      · iexists _; isplitr
        swap; · iexact Hs
        ipureintro; intro h; omega
      isplitl [Hrest]; · iexact Hrest
      iexact Hp
    isplitl [Ho]; · iexact Ho
    isplitl [H0]; · iexact H0
    isplitl [H1]; · iexact H1
    isplitl [H2]; · iexact H2
    iexact H3
  ·
    have h3 : ¬ k11_cond3 (grid11.coords t) = 1#1 := fun h => h24 ((hcond11_3 t).mp h)
    have hi : cfg11.idle 2 (cfg11.grid.coords t) = true := by
      show (!(k11_cond3 (grid11.coords t) == 1#1)) = true
      simp only [Bool.not_eq_true', beq_eq_false_iff_ne, ne_eq]; exact h3
    have hf : (cfg11.win 2).flush t = false := Bool.eq_false_iff.mpr fun h => h24 ((flush11_2 t).mp h)
    rw [Dat.leavesExact_idle _ 2 t hi hf]
    by_cases h0 : t.val % 25 = 0
    · by_cases h00 : t.val = 0
      ·
        rw [o2At11_zero _ _ _ t h00, accAfter11_reset _ _ _ t.val h0]
        simp only [Dat.before_out_reset _ 3 rfl t (.inl h00)]
        iintro ⟨⟨⟨%a, %ha, Hs⟩, Hrest, Hp⟩, Ho, ⟨%d0, H0⟩, ⟨%d1, H1⟩, H2, ⟨%d3, H3⟩⟩
        iapply (sound_kernel11_A c Set.univ (grid11.coords t) _ _ _ _ _ _ _ _ _ _
          ((hcond11_1 t).mpr h0) ((hcond11_2 t).mpr h00) h3
          (tile11 (arrA11 V c) (t.val / 25)) (tile11 (arrB11 V c) (t.val % 25)) k11_pay1 k11_pay2 _)
        isplitl [H0]; · iexact H0
        isplitl [H1]; · iexact H1
        isplitl [H3]; · iexists _; iexact H3
        isplitl [Hs]; · iexists _; iexact Hs
        iintro ⟨H0, H1, H3, Hs⟩
        isplitl [Hs Hrest Hp]
        · isplitl [Hs]
          · iexists _; isplitr
            swap; · iexact Hs
            ipureintro; intro _; rfl
          isplitl [Hrest]; · iexact Hrest
          iexact Hp
        isplitl [Ho]; · iexact Ho
        isplitl [H0]; · iexact H0
        isplitl [H1]; · iexact H1
        isplitl [H2]; · iexact H2
        iexact H3
      ·
        rw [o2At11_pos _ _ _ t h00, accAfter11_reset _ _ _ t.val h0]
        simp only [before11_3_pos V c t h00]
        iintro ⟨⟨⟨%a, %ha, Hs⟩, Hrest, Hp⟩, Ho, ⟨%d0, H0⟩, ⟨%d1, H1⟩, H2, ⟨%d3, H3⟩⟩
        iapply (sound_kernel11_B c Set.univ (grid11.coords t) _ _ _ _ _ _ _ _ _ _
          ((hcond11_1 t).mpr h0) (fun h => h00 ((hcond11_2 t).mp h)) h3
          (tile11 (arrA11 V c) (t.val / 25)) (tile11 (arrB11 V c) (t.val % 25)) k11_pay1 _ _)
        isplitl [H0]; · iexact H0
        isplitl [H1]; · iexact H1
        isplitl [H3]; · iexact H3
        isplitl [Hs]; · iexists _; iexact Hs
        iintro ⟨H0, H1, H3, Hs⟩
        isplitl [Hs Hrest Hp]
        · isplitl [Hs]
          · iexists _; isplitr
            swap; · iexact Hs
            ipureintro; intro _; rfl
          isplitl [Hrest]; · iexact Hrest
          iexact Hp
        isplitl [Ho]; · iexact Ho
        isplitl [H0]; · iexact H0
        isplitl [H1]; · iexact H1
        isplitl [H2]; · iexact H2
        iexact H3
    ·
      rw [o2At11_pos _ _ _ t (by omega), accAfter11_step _ _ _ t.val h0]
      simp only [before11_3_pos V c t (by omega)]
      iintro ⟨⟨⟨%a, %ha, Hs⟩, Hrest, Hp⟩, Ho, ⟨%d0, H0⟩, ⟨%d1, H1⟩, H2, ⟨%d3, H3⟩⟩
      obtain rfl := ha h0
      iapply (sound_kernel11_C c Set.univ (grid11.coords t) _ _ _ _ _ _ _ _ _ _
        (fun h => h0 ((hcond11_1 t).mp h)) (fun h => by have := (hcond11_2 t).mp h; omega) h3
        (tile11 (arrA11 V c) (t.val / 25)) (tile11 (arrB11 V c) (t.val % 25)) _ _ _)
      isplitl [H0]; · iexact H0
      isplitl [H1]; · iexact H1
      isplitl [H3]; · iexact H3
      isplitl [Hs]; · iexact Hs
      iintro ⟨H0, H1, H3, Hs⟩
      isplitl [Hs Hrest Hp]
      · isplitl [Hs]
        · iexists _; isplitr
          swap; · iexact Hs
          ipureintro; intro _; rfl
        isplitl [Hrest]; · iexact Hrest
        iexact Hp
      isplitl [Ho]; · iexact Ho
      isplitl [H0]; · iexact H0
      isplitl [H1]; · iexact H1
      isplitl [H2]; · iexact H2
      iexact H3

theorem body_obligation11 (c : Dev nD) : BodyObligation (dat11 (F := F) V c) (defs₀ (F := F)) Variants.none () Set.univ := fun t => by
  rw [bigSep_W11, bigSep_W11]
  exact sound_body11 V c t

theorem hin11 (c : Dev nD) : iprop((∃ r, prngReg c r) ∗ Pipeline.scopedRest (Ix := Unit) (Name := ℕ) (U := UR sig nD τ) (Lvl := ℕ) (Val := Elt F) spec11 c) ⊢ (dat11 V c).Φ 0 := by
  rw [show (dat11 V c).Φ 0 = Φ11 V c 0 from rfl, scopedRest11_split]
  unfold Φ11
  simp only [scM11, owns_whole]
  iintro ⟨Hp, ⟨%f, Hs⟩, Hrest⟩
  isplitl [Hs]
  · iexists f; isplitr; · ipureintro; intro h; exact absurd rfl h
    iexact Hs
  isplitl [Hrest]; · iexact Hrest
  iexact Hp

theorem hout11 (c : Dev nD) : (dat11 V c).Φ (Fin.last cfg11.N) ⊢ iprop((∃ r, prngReg c r) ∗ Pipeline.scopedRest (Ix := Unit) (Name := ℕ) (U := UR sig nD τ) (Lvl := ℕ) (Val := Elt F) spec11 c) := by
  rw [show (dat11 V c).Φ (Fin.last cfg11.N) = Φ11 V c (Fin.last cfg11.N).val from rfl, scopedRest11_split]
  unfold Φ11
  simp only [scM11, owns_whole]
  iintro ⟨⟨%a, -, Hs⟩, Hrest, Hp⟩
  isplitl [Hp]; · iexact Hp
  isplitl [Hs]
  · iexists a; iexact Hs
  iexact Hrest

end Cert.Kernel.Hand

end
-- ==== Proof.KB.R12.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

abbrev r12_A : Rect S400x10000 := Rect.unit (s := S400x10000) ![0, 0] S400x10000.size inb_S400x10000_S400x10000_0_0
abbrev r12_X : Rect S10000x192 := Rect.unit (s := S10000x192) ![0, 0] S10000x192.size inb_S10000x192_S10000x192_0_0
abbrev r12_O : Rect S400x192 := Rect.unit (s := S400x192) ![0, 0] S400x192.size inb_S400x192_S400x192_0_0

def out12_2 (x0 : Vec F S400x10000 .bf16) (x1 : Vec F S10000x192 .bf16) : Vec F S400x192 .f32 :=
  View.canon [⟨r12_O, k12_pay1 (View.ld x0 r12_A) (View.ld x1 r12_X)⟩]

theorem cover12_2 (p0 : Vec F S400x192 .f32) (y : S400x192.Idx) :
    ∃ pc ∈ ([⟨r12_O, p0⟩] : List (View.Piece (Elt F) S400x192 .f32)), y ∈ pc.1.set :=
  View.cover_of_tiled [⟨r12_O, p0⟩] S400x192.size (by rfl) y

set_option maxHeartbeats 1000000 in
theorem sound_kernel12 (c : Dev nD) (E : Set ℕ) (i : grid12.Coords) (arg1 : Memref sig .tc .vmem S400x10000 .bf16) (harg1 : arg1.IsWhole)
    (arg2 : Memref sig .tc .vmem S10000x192 .bf16) (harg2 : arg2.IsWhole) (arg3 : Memref sig .tc .vmem S400x192 .f32) (harg3 : arg3.IsWhole)
    (x0 : Vec F S400x10000 .bf16) (x1 : Vec F S10000x192 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

open ValueIdx

end Cert.Kernel.Hand

end
-- ==== Proof.KB.R13.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_A : Rect S400x8000 := Rect.unit (s := S400x8000) ![0, 0] S400x8000.size inb_S400x8000_S400x8000_0_0
abbrev r13_X : Rect S8000x64 := Rect.unit (s := S8000x64) ![0, 0] S8000x64.size inb_S8000x64_S8000x64_0_0
abbrev r13_O : Rect S400x64 := Rect.unit (s := S400x64) ![0, 0] S400x64.size inb_S400x64_S400x64_0_0

def out13_2 (x0 : Vec F S400x8000 .bf16) (x1 : Vec F S8000x64 .bf16) : Vec F S400x64 .f32 :=
  View.canon [⟨r13_O, k13_pay1 (View.ld x0 r13_A) (View.ld x1 r13_X)⟩]

theorem cover13_2 (p0 : Vec F S400x64 .f32) (y : S400x64.Idx) :
    ∃ pc ∈ ([⟨r13_O, p0⟩] : List (View.Piece (Elt F) S400x64 .f32)), y ∈ pc.1.set :=
  View.cover_of_tiled [⟨r13_O, p0⟩] S400x64.size (by rfl) y

set_option maxHeartbeats 1000000 in
theorem sound_kernel13 (c : Dev nD) (E : Set ℕ) (i : grid13.Coords) (arg1 : Memref sig .tc .vmem S400x8000 .bf16) (harg1 : arg1.IsWhole)
    (arg2 : Memref sig .tc .vmem S8000x64 .bf16) (harg2 : arg2.IsWhole) (arg3 : Memref sig .tc .vmem S400x64 .f32) (harg3 : arg3.IsWhole)
    (x0 : Vec F S400x8000 .bf16) (x1 : Vec F S8000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__matmul_kernel i arg1 harg1 arg2 harg2 arg3 harg3) K := by
  simp only [cc13__matmul_kernel_eq_skeleton]; unfold cc13__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

open ValueIdx

end Cert.Kernel.Hand

end
-- ==== Proof.KB.R14.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S10000x64 := Rect.unit (s := S10000x64) ![0, 0] S10000x64.size inb_S10000x64_S10000x64_0_0

def out14_1 (x0 : Vec F S10000x64 .f32) : Vec F S10000x64 .f32 :=
  View.canon [⟨r14_0, k14_pay1 (View.ld x0 r14_0)⟩]

theorem cover14_1 (p0 : Vec F S10000x64 .f32) (y : S10000x64.Idx) :
    ∃ pc ∈ ([⟨r14_0, p0⟩] : List (View.Piece (Elt F) S10000x64 .f32)), y ∈ pc.1.set :=
  View.cover_of_tiled [⟨r14_0, p0⟩] S10000x64.size (by rfl) y

set_option maxHeartbeats 1000000 in
theorem sound_kernel14 (c : Dev nD) (E : Set ℕ) (i : grid14.Coords) (arg0 : Memref sig .tc .vmem S10000x64 .f32) (harg0 : arg0.IsWhole) (arg1 : Memref sig .tc .vmem S10000x64 .f32) (harg1 : arg1.IsWhole)
    (x0 : Vec F S10000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out14_1 x0)) -∗ K ⟨⟩))
      ⊢ wp frame (wpE (defs₀ (F := F)) Variants.none c none) E (cc14__l2norm_kernel i arg0 harg0 arg1 harg1) K := by
  simp only [cc14__l2norm_kernel_eq_skeleton]; unfold cc14__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover14_1 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => out14_1 (iblk14 V c 0 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = out14_1 (iblk14 V c 0 t) := by dsimp only [dat14]

theorem before14_0 (c : Dev nD) (t : Fin cfg14.N) (d) : (dat14 V c).before 0 t d = iblk14 V c 0 t :=
  before14_0_of V (dat14 V c) (A_eq14 V c 0) (after14_0 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0]
  rw [show (dat14 V c).Φ t.succ = (dat14 V c).Φ t.castSucc from rfl,
    show (dat14 V c).owesAt () t.succ = (dat14 V c).owesAt () t.castSucc from rfl,
    after14_0, after14_1]
  iintro ⟨HΦ, Ho, ⟨%d0, H0⟩, ⟨%d1, H1⟩⟩
  iapply (sound_kernel14 c Set.univ _ _ _ _ _ (iblk14 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation14 (c : Dev nD) : BodyObligation (dat14 (F := F) V c) (defs₀ (F := F)) Variants.none () Set.univ := fun t => by
  rw [bigSep_W14, bigSep_W14]
  exact sound_body14 V c t

end Cert.Kernel.Hand
-- ==== Proof.KB.R15.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_A : Rect S400x10000 := Rect.unit (s := S400x10000) ![0, 0] S400x10000.size inb_S400x10000_S400x10000_0_0
abbrev r15_X : Rect S10000x64 := Rect.unit (s := S10000x64) ![0, 0] S10000x64.size inb_S10000x64_S10000x64_0_0
abbrev r15_O : Rect S400x64 := Rect.unit (s := S400x64) ![0, 0] S400x64.size inb_S400x64_S400x64_0_0

def out15_2 (x0 : Vec F S400x10000 .bf16) (x1 : Vec F S10000x64 .bf16) : Vec F S400x64 .f32 :=
  View.canon [⟨r15_O, k15_pay1 (View.ld x0 r15_A) (View.ld x1 r15_X)⟩]

theorem cover15_2 (p0 : Vec F S400x64 .f32) (y : S400x64.Idx) :
    ∃ pc ∈ ([⟨r15_O, p0⟩] : List (View.Piece (Elt F) S400x64 .f32)), y ∈ pc.1.set :=
  View.cover_of_tiled [⟨r15_O, p0⟩] S400x64.size (by rfl) y

set_option maxHeartbeats 1000000 in
theorem sound_kernel15 (c : Dev nD) (E : Set ℕ) (i : grid15.Coords) (arg1 : Memref sig .tc .vmem S400x10000 .bf16) (harg1 : arg1.IsWhole)
    (arg2 : Memref sig .tc .vmem S10000x64 .bf16) (harg2 : arg2.IsWhole) (arg3 : Memref sig .tc .vmem S400x64 .f32) (harg3 : arg3.IsWhole)
    (x0 : Vec F S400x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

open ValueIdx

end Cert.Kernel.Hand

end
-- ==== Proof.KB.R16.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S4096x64 := Rect.unit (s := S4096x64) ![0, 0] S4096x64.size inb_S4096x64_S4096x64_0_0

def out16_1 (x0 : Vec F S4096x64 .f32) : Vec F S4096x64 .f32 :=
  View.canon [⟨r16_0, k16_pay1 (View.ld x0 r16_0)⟩]

theorem cover16_1 (p0 : Vec F S4096x64 .f32) (y : S4096x64.Idx) :
    ∃ pc ∈ ([⟨r16_0, p0⟩] : List (View.Piece (Elt F) S4096x64 .f32)), y ∈ pc.1.set :=
  View.cover_of_tiled [⟨r16_0, p0⟩] S4096x64.size (by rfl) y

set_option maxHeartbeats 1000000 in
theorem sound_kernel16 (c : Dev nD) (E : Set ℕ) (i : grid16.Coords) (arg0 : Memref sig .tc .vmem S4096x64 .f32) (harg0 : arg0.IsWhole) (arg1 : Memref sig .tc .vmem S4096x64 .f32) (harg1 : arg1.IsWhole)
    (x0 : Vec F S4096x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out16_1 x0)) -∗ K ⟨⟩))
      ⊢ wp frame (wpE (defs₀ (F := F)) Variants.none c none) E (cc16__l2norm_kernel i arg0 harg0 arg1 harg1) K := by
  simp only [cc16__l2norm_kernel_eq_skeleton]; unfold cc16__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover16_1 _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => out16_1 (iblk16 V c 0 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = out16_1 (iblk16 V c 0 t) := by dsimp only [dat16]

theorem before16_0 (c : Dev nD) (t : Fin cfg16.N) (d) : (dat16 V c).before 0 t d = iblk16 V c 0 t :=
  before16_0_of V (dat16 V c) (A_eq16 V c 0) (after16_0 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0]
  rw [show (dat16 V c).Φ t.succ = (dat16 V c).Φ t.castSucc from rfl,
    show (dat16 V c).owesAt () t.succ = (dat16 V c).owesAt () t.castSucc from rfl,
    after16_0, after16_1]
  iintro ⟨HΦ, Ho, ⟨%d0, H0⟩, ⟨%d1, H1⟩⟩
  iapply (sound_kernel16 c Set.univ _ _ _ _ _ (iblk16 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation16 (c : Dev nD) : BodyObligation (dat16 (F := F) V c) (defs₀ (F := F)) Variants.none () Set.univ := fun t => by
  rw [bigSep_W16, bigSep_W16]
  exact sound_body16 V c t

end Cert.Kernel.Hand
-- ==== Proof.KB.ChainW.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import proofs.«417009_j23742579212955_2_alg».proof.Proof.KB.R00
import proofs.«417009_j23742579212955_2_alg».proof.Proof.KB.R01
import proofs.«417009_j23742579212955_2_alg».proof.Proof.KB.R02
import proofs.«417009_j23742579212955_2_alg».proof.Proof.KB.R03
import proofs.«417009_j23742579212955_2_alg».proof.Proof.KB.R04
import proofs.«417009_j23742579212955_2_alg».proof.Proof.KB.R05
import proofs.«417009_j23742579212955_2_alg».proof.Proof.KB.R06
import proofs.«417009_j23742579212955_2_alg».proof.Proof.KB.R07
import proofs.«417009_j23742579212955_2_alg».proof.Proof.KB.R08
import proofs.«417009_j23742579212955_2_alg».proof.Proof.KB.R09
import proofs.«417009_j23742579212955_2_alg».proof.Proof.KB.R10
import proofs.«417009_j23742579212955_2_alg».proof.Proof.KB.R11
import proofs.«417009_j23742579212955_2_alg».proof.Proof.KB.R12
import proofs.«417009_j23742579212955_2_alg».proof.Proof.KB.R13
import proofs.«417009_j23742579212955_2_alg».proof.Proof.KB.R14
import proofs.«417009_j23742579212955_2_alg».proof.Proof.KB.R15
import proofs.«417009_j23742579212955_2_alg».proof.Proof.KB.R16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

theorem not_arg {y : Ref sig .tc} (h : y ∉ argRefs) :
    ∀ r ∈ argRefs, Proc.devRef (τ := τ) .tc r ∉ ({Proc.devRef (τ := τ) .tc y} : Finset (DevRef τ sig)) :=
  fun r hr hm => h ((Proc.devRef_injective _ (Finset.mem_singleton.mp hm)) ▸ hr)

theorem hostOps0_fresh : (hostOps0 : List (HloOp τ sig (Elt F))).Forall fun op => op.fresh = ∅ :=
  rfl
theorem hostOps0_args : (hostOps0 : List (HloOp τ sig (Elt F))).Forall fun op => ∀ r ∈ argRefs, Proc.devRef (τ := τ) .tc r ∉ op.writes :=
  not_arg (y := main_v0) (by decide)

theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps3_args : (hostOps3 : List (HloOp τ sig (Elt F))).Forall fun op => ∀ r ∈ argRefs, Proc.devRef (τ := τ) .tc r ∉ op.writes :=
  ⟨not_arg (y := main_cst) (by decide), not_arg (y := main_v4) (by decide), not_arg (y := main_c) (by decide), not_arg (y := main_v5) (by decide), not_arg (y := main_v6) (by decide), not_arg (y := main_c_0) (by decide), not_arg (y := main_v7) (by decide), not_arg (y := main_v8) (by decide), not_arg (y := main_v9) (by decide), not_arg (y := main_c_1) (by decide), not_arg (y := main_v10) (by decide), not_arg (y := main_v11) (by decide), not_arg (y := main_c_2) (by decide), not_arg (y := main_v12) (by decide), not_arg (y := main_v13) (by decide), not_arg (y := main_v14) (by decide), not_arg (y := main_v15) (by decide), not_arg (y := main_v16) (by decide), not_arg (y := main_v17) (by decide), not_arg (y := main_v18) (by decide), not_arg (y := main_v19) (by decide), not_arg (y := main_cst_3) (by decide), not_arg (y := main_v20) (by decide), not_arg (y := main_c_4) (by decide), not_arg (y := main_v21) (by decide), not_arg (y := main_v22) (by decide), not_arg (y := main_c_5) (by decide), not_arg (y := main_v23) (by decide), not_arg (y := main_v24) (by decide), not_arg (y := main_v25) (by decide), not_arg (y := main_c_6) (by decide), not_arg (y := main_v26) (by decide), not_arg (y := main_v27) (by decide), not_arg (y := main_c_7) (by decide), not_arg (y := main_v28) (by decide), not_arg (y := main_v29) (by decide), not_arg (y := main_v30) (by decide), not_arg (y := main_v31) (by decide), not_arg (y := main_v32) (by decide), not_arg (y := main_v33) (by decide), not_arg (y := main_v34) (by decide), not_arg (y := main_v35) (by decide), not_arg (y := main_cst_8) (by decide), not_arg (y := main_v36) (by decide), not_arg (y := main_c_9) (by decide), not_arg (y := main_v37) (by decide), not_arg (y := main_v38) (by decide), not_arg (y := main_c_10) (by decide), not_arg (y := main_v39) (by decide), not_arg (y := main_v40) (by decide), not_arg (y := main_v41) (by decide), not_arg (y := main_c_11) (by decide), not_arg (y := main_v42) (by decide), not_arg (y := main_v43) (by decide), not_arg (y := main_c_12) (by decide), not_arg (y := main_v44) (by decide), not_arg (y := main_v45) (by decide), not_arg (y := main_v46) (by decide), not_arg (y := main_v47) (by decide), not_arg (y := main_v48) (by decide), not_arg (y := main_v49) (by decide), not_arg (y := main_v50) (by decide), not_arg (y := main_v51) (by decide), not_arg (y := main_cst_13) (by decide), not_arg (y := main_v52) (by decide), not_arg (y := main_c_14) (by decide), not_arg (y := main_v53) (by decide), not_arg (y := main_v54) (by decide), not_arg (y := main_c_15) (by decide), not_arg (y := main_v55) (by decide), not_arg (y := main_v56) (by decide), not_arg (y := main_v57) (by decide), not_arg (y := main_c_16) (by decide), not_arg (y := main_v58) (by decide), not_arg (y := main_v59) (by decide), not_arg (y := main_c_17) (by decide), not_arg (y := main_v60) (by decide), not_arg (y := main_v61) (by decide), not_arg (y := main_v62) (by decide), not_arg (y := main_v63) (by decide), not_arg (y := main_v64) (by decide), not_arg (y := main_v65) (by decide), not_arg (y := main_v66) (by decide), not_arg (y := main_v67) (by decide), not_arg (y := main_cst_18) (by decide), not_arg (y := main_v68) (by decide), not_arg (y := main_c_19) (by decide), not_arg (y := main_v69) (by decide), not_arg (y := main_v70) (by decide), not_arg (y := main_c_20) (by decide), not_arg (y := main_v71) (by decide), not_arg (y := main_v72) (by decide), not_arg (y := main_v73) (by decide), not_arg (y := main_c_21) (by decide), not_arg (y := main_v74) (by decide), not_arg (y := main_v75) (by decide), not_arg (y := main_c_22) (by decide), not_arg (y := main_v76) (by decide), not_arg (y := main_v77) (by decide), not_arg (y := main_v78) (by decide), not_arg (y := main_v79) (by decide), not_arg (y := main_v80) (by decide), not_arg (y := main_v81) (by decide), not_arg (y := main_v82) (by decide), not_arg (y := main_v83) (by decide), not_arg (y := main_v84) (by decide)⟩

theorem hostOps4_fresh : (hostOps4 : List (HloOp τ sig (Elt F))).Forall fun op => op.fresh = ∅ :=
  ⟨rfl, rfl⟩
theorem hostOps4_args : (hostOps4 : List (HloOp τ sig (Elt F))).Forall fun op => ∀ r ∈ argRefs, Proc.devRef (τ := τ) .tc r ∉ op.writes :=
  ⟨not_arg (y := main_v86) (by decide), not_arg (y := main_v87) (by decide)⟩

theorem hostOps5_fresh : (hostOps5 : List (HloOp τ sig (Elt F))).Forall fun op => op.fresh = ∅ :=
  ⟨rfl, rfl, rfl, rfl, rfl⟩
theorem hostOps5_args : (hostOps5 : List (HloOp τ sig (Elt F))).Forall fun op => ∀ r ∈ argRefs, Proc.devRef (τ := τ) .tc r ∉ op.writes :=
  ⟨not_arg (y := main_v89) (by decide), not_arg (y := main_cst_23) (by decide), not_arg (y := main_v90) (by decide), not_arg (y := main_v91) (by decide), not_arg (y := main_v92) (by decide)⟩

theorem hostOps6_fresh : (hostOps6 : List (HloOp τ sig (Elt F))).Forall fun op => op.fresh = ∅ :=
  rfl
theorem hostOps6_args : (hostOps6 : List (HloOp τ sig (Elt F))).Forall fun op => ∀ r ∈ argRefs, Proc.devRef (τ := τ) .tc r ∉ op.writes :=
  not_arg (y := main_v94) (by decide)

theorem hostOps7_fresh : (hostOps7 : List (HloOp τ sig (Elt F))).Forall fun op => op.fresh = ∅ :=
  ⟨rfl, rfl⟩
theorem hostOps7_args : (hostOps7 : List (HloOp τ sig (Elt F))).Forall fun op => ∀ r ∈ argRefs, Proc.devRef (τ := τ) .tc r ∉ op.writes :=
  ⟨not_arg (y := main_v96) (by decide), not_arg (y := main_v97) (by decide)⟩

theorem hostOps8_fresh : (hostOps8 : List (HloOp τ sig (Elt F))).Forall fun op => op.fresh = ∅ :=
  rfl
theorem hostOps8_args : (hostOps8 : List (HloOp τ sig (Elt F))).Forall fun op => ∀ r ∈ argRefs, Proc.devRef (τ := τ) .tc r ∉ op.writes :=
  not_arg (y := main_v99) (by decide)

theorem hostOps9_fresh : (hostOps9 : List (HloOp τ sig (Elt F))).Forall fun op => op.fresh = ∅ :=
  ⟨rfl, rfl, rfl, rfl⟩
theorem hostOps9_args : (hostOps9 : List (HloOp τ sig (Elt F))).Forall fun op => ∀ r ∈ argRefs, Proc.devRef (τ := τ) .tc r ∉ op.writes :=
  ⟨not_arg (y := main_v101) (by decide), not_arg (y := main_cst_24) (by decide), not_arg (y := main_v102) (by decide), not_arg (y := main_v103) (by decide)⟩

theorem hostOps11_fresh : (hostOps11 : List (HloOp τ sig (Elt F))).Forall fun op => op.fresh = ∅ :=
  ⟨rfl, rfl⟩
theorem hostOps11_args : (hostOps11 : List (HloOp τ sig (Elt F))).Forall fun op => ∀ r ∈ argRefs, Proc.devRef (τ := τ) .tc r ∉ op.writes :=
  ⟨not_arg (y := main_v106) (by decide), not_arg (y := main_v107) (by decide)⟩

theorem hostOps12_fresh : (hostOps12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps12_args : (hostOps12 : List (HloOp τ sig (Elt F))).Forall fun op => ∀ r ∈ argRefs, Proc.devRef (τ := τ) .tc r ∉ op.writes :=
  ⟨not_arg (y := main_v109) (by decide), not_arg (y := main_v110) (by decide), not_arg (y := main_v111) (by decide), not_arg (y := main_cst_25) (by decide), not_arg (y := main_v112) (by decide), not_arg (y := main_cst_26) (by decide), not_arg (y := main_v113) (by decide), not_arg (y := main_v114) (by decide), not_arg (y := main_v115) (by decide), not_arg (y := main_cst_27) (by decide), not_arg (y := main_v116) (by decide), not_arg (y := main_v117) (by decide), not_arg (y := main_v118) (by decide), not_arg (y := main_cst_28) (by decide), not_arg (y := main_v119) (by decide), not_arg (y := main_v120) (by decide), not_arg (y := main_v121) (by decide), not_arg (y := main_v122) (by decide), not_arg (y := main_cst_29) (by decide), not_arg (y := main_v123) (by decide), not_arg (y := main_cst_30) (by decide), not_arg (y := main_v124) (by decide), not_arg (y := main_v125) (by decide), not_arg (y := main_cst_31) (by decide), not_arg (y := main_v126) (by decide), not_arg (y := main_cst_32) (by decide), not_arg (y := main_v127) (by decide), not_arg (y := main_v128) (by decide), not_arg (y := main_v129) (by decide), not_arg (y := main_cst_33) (by decide), not_arg (y := main_v130) (by decide), not_arg (y := main_v131) (by decide), not_arg (y := main_v132) (by decide), not_arg (y := main_cst_34) (by decide), not_arg (y := main_v133) (by decide), not_arg (y := main_v134) (by decide), not_arg (y := main_v135) (by decide), not_arg (y := main_v136) (by decide), not_arg (y := main_cst_35) (by decide), not_arg (y := main_v137) (by decide), not_arg (y := main_cst_36) (by decide), not_arg (y := main_v138) (by decide), not_arg (y := main_v139) (by decide), not_arg (y := main_cst_37) (by decide), not_arg (y := main_v140) (by decide), not_arg (y := main_v141) (by decide), not_arg (y := main_v142) (by decide)⟩

theorem hostOps13_fresh : (hostOps13 : List (HloOp τ sig (Elt F))).Forall fun op => op.fresh = ∅ :=
  ⟨rfl, rfl, rfl, rfl, rfl, rfl, rfl, rfl, rfl, rfl, rfl, rfl, rfl, rfl, rfl, rfl, rfl⟩
theorem hostOps13_args : (hostOps13 : List (HloOp τ sig (Elt F))).Forall fun op => ∀ r ∈ argRefs, Proc.devRef (τ := τ) .tc r ∉ op.writes :=
  ⟨not_arg (y := main_v144) (by decide), not_arg (y := main_v145) (by decide), not_arg (y := main_v146) (by decide), not_arg (y := main_v147) (by decide), not_arg (y := main_v148) (by decide), not_arg (y := main_v149) (by decide), not_arg (y := main_v150) (by decide), not_arg (y := main_v151) (by decide), not_arg (y := main_v152) (by decide), not_arg (y := main_v153) (by decide), not_arg (y := main_v154) (by decide), not_arg (y := main_v155) (by decide), not_arg (y := main_v156) (by decide), not_arg (y := main_v157) (by decide), not_arg (y := main_v158) (by decide), not_arg (y := main_v159) (by decide), not_arg (y := main_v160) (by decide)⟩

theorem hostOps14_fresh : (hostOps14 : List (HloOp τ sig (Elt F))).Forall fun op => op.fresh = ∅ :=
  ⟨rfl, rfl, rfl, rfl⟩
theorem hostOps14_args : (hostOps14 : List (HloOp τ sig (Elt F))).Forall fun op => ∀ r ∈ argRefs, Proc.devRef (τ := τ) .tc r ∉ op.writes :=
  ⟨not_arg (y := main_cst_38) (by decide), not_arg (y := main_v162) (by decide), not_arg (y := main_v163) (by decide), not_arg (y := main_v164) (by decide)⟩

theorem hostOps15_fresh : (hostOps15 : List (HloOp τ sig (Elt F))).Forall fun op => op.fresh = ∅ :=
  ⟨rfl, rfl, rfl⟩
theorem hostOps15_args : (hostOps15 : List (HloOp τ sig (Elt F))).Forall fun op => ∀ r ∈ argRefs, Proc.devRef (τ := τ) .tc r ∉ op.writes :=
  ⟨not_arg (y := main_v166) (by decide), not_arg (y := main_v167) (by decide), not_arg (y := main_v168) (by decide)⟩

theorem hostOps16_fresh : (hostOps16 : List (HloOp τ sig (Elt F))).Forall fun op => op.fresh = ∅ :=
  ⟨rfl, rfl, rfl, rfl, rfl, rfl, rfl, rfl, rfl⟩
theorem hostOps16_args : (hostOps16 : List (HloOp τ sig (Elt F))).Forall fun op => ∀ r ∈ argRefs, Proc.devRef (τ := τ) .tc r ∉ op.writes :=
  ⟨not_arg (y := main_c_39) (by decide), not_arg (y := main_v170) (by decide), not_arg (y := main_v171) (by decide), not_arg (y := main_c_40) (by decide), not_arg (y := main_v172) (by decide), not_arg (y := main_v173) (by decide), not_arg (y := main_v174) (by decide), not_arg (y := main_v175) (by decide), not_arg (y := main_v176) (by decide)⟩

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_arg (c : Dev nD) (r : Ref sig .tc) (hr : r ∈ argRefs) :
    W1 m ρ c (Proc.devRef .tc r) = W0 m ρ c (Proc.devRef .tc r) :=
  StableHlo.after_of_forall_not_mem (b := Proc.devRef .tc r) _ _ fun op hop =>
    (List.forall_iff_forall_mem.mp hostOps0_args) op hop r hr

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem argwin0 : ∀ w : Fin cfg0.W, Pipeline.arrRef spec0 w ∈ argRefs → (cfg0.win w).isOut = false := by decide
theorem W2_arg (c : Dev nD) (r : Ref sig .tc) (hr : r ∈ argRefs) :
    W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (argwin0 w hr) _).trans (A_eq0 (V1 m ρ) c w))
  · exact W2_of_ne m ρ c r fun w e => h ⟨w, e⟩

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem argwin1 : ∀ w : Fin cfg1.W, Pipeline.arrRef spec1 w ∈ argRefs → (cfg1.win w).isOut = false := by decide
theorem W3_arg (c : Dev nD) (r : Ref sig .tc) (hr : r ∈ argRefs) :
    W3 m ρ c (Proc.devRef .tc r) = W2 m ρ c (Proc.devRef .tc r) := by
  by_cases h : ∃ w, Pipeline.arrRef spec1 w = r
  · obtain ⟨w, rfl⟩ := h
    exact (W3_arr m ρ c w).trans (((dat1 (V2 m ρ) c).arrAt_in w (argwin1 w hr) _).trans (A_eq1 (V2 m ρ) c w))
  · exact W3_of_ne m ρ c r fun w e => h ⟨w, e⟩

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem argwin2 : ∀ w : Fin cfg2.W, Pipeline.arrRef spec2 w ∈ argRefs → (cfg2.win w).isOut = false := by decide
theorem W4_arg (c : Dev nD) (r : Ref sig .tc) (hr : r ∈ argRefs) :
    W4 m ρ c (Proc.devRef .tc r) = W3 m ρ c (Proc.devRef .tc r) := by
  by_cases h : ∃ w, Pipeline.arrRef spec2 w = r
  · obtain ⟨w, rfl⟩ := h
    exact (W4_arr m ρ c w).trans (((dat2 (V3 m ρ) c).arrAt_in w (argwin2 w hr) _).trans (A_eq2 (V3 m ρ) c w))
  · exact W4_of_ne m ρ c r fun w e => h ⟨w, e⟩

abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
theorem W5_arg (c : Dev nD) (r : Ref sig .tc) (hr : r ∈ argRefs) :
    W5 m ρ c (Proc.devRef .tc r) = W4 m ρ c (Proc.devRef .tc r) :=
  StableHlo.after_of_forall_not_mem (b := Proc.devRef .tc r) _ _ fun op hop =>
    (List.forall_iff_forall_mem.mp hostOps3_args) op hop r hr

def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem argwin3 : ∀ w : Fin cfg3.W, Pipeline.arrRef spec3 w ∈ argRefs → (cfg3.win w).isOut = false := by decide
theorem W6_arg (c : Dev nD) (r : Ref sig .tc) (hr : r ∈ argRefs) :
    W6 m ρ c (Proc.devRef .tc r) = W5 m ρ c (Proc.devRef .tc r) := by
  by_cases h : ∃ w, Pipeline.arrRef spec3 w = r
  · obtain ⟨w, rfl⟩ := h
    exact (W6_arr m ρ c w).trans (((dat3 (V5 m ρ) c).arrAt_in w (argwin3 w hr) _).trans (A_eq3 (V5 m ρ) c w))
  · exact W6_of_ne m ρ c r fun w e => h ⟨w, e⟩

abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
theorem W7_arg (c : Dev nD) (r : Ref sig .tc) (hr : r ∈ argRefs) :
    W7 m ρ c (Proc.devRef .tc r) = W6 m ρ c (Proc.devRef .tc r) :=
  StableHlo.after_of_forall_not_mem (b := Proc.devRef .tc r) _ _ fun op hop =>
    (List.forall_iff_forall_mem.mp hostOps4_args) op hop r hr

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem argwin4 : ∀ w : Fin cfg4.W, Pipeline.arrRef spec4 w ∈ argRefs → (cfg4.win w).isOut = false := by decide
theorem W8_arg (c : Dev nD) (r : Ref sig .tc) (hr : r ∈ argRefs) :
    W8 m ρ c (Proc.devRef .tc r) = W7 m ρ c (Proc.devRef .tc r) := by
  by_cases h : ∃ w, Pipeline.arrRef spec4 w = r
  · obtain ⟨w, rfl⟩ := h
    exact (W8_arr m ρ c w).trans (((dat4 (V7 m ρ) c).arrAt_in w (argwin4 w hr) _).trans (A_eq4 (V7 m ρ) c w))
  · exact W8_of_ne m ρ c r fun w e => h ⟨w, e⟩

abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
theorem W9_arg (c : Dev nD) (r : Ref sig .tc) (hr : r ∈ argRefs) :
    W9 m ρ c (Proc.devRef .tc r) = W8 m ρ c (Proc.devRef .tc r) :=
  StableHlo.after_of_forall_not_mem (b := Proc.devRef .tc r) _ _ fun op hop =>
    (List.forall_iff_forall_mem.mp hostOps5_args) op hop r hr

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem argwin5 : ∀ w : Fin cfg5.W, Pipeline.arrRef spec5 w ∈ argRefs → (cfg5.win w).isOut = false := by decide
theorem W10_arg (c : Dev nD) (r : Ref sig .tc) (hr : r ∈ argRefs) :
    W10 m ρ c (Proc.devRef .tc r) = W9 m ρ c (Proc.devRef .tc r) := by
  by_cases h : ∃ w, Pipeline.arrRef spec5 w = r
  · obtain ⟨w, rfl⟩ := h
    exact (W10_arr m ρ c w).trans (((dat5 (V9 m ρ) c).arrAt_in w (argwin5 w hr) _).trans (A_eq5 (V9 m ρ) c w))
  · exact W10_of_ne m ρ c r fun w e => h ⟨w, e⟩

abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
theorem W11_arg (c : Dev nD) (r : Ref sig .tc) (hr : r ∈ argRefs) :
    W11 m ρ c (Proc.devRef .tc r) = W10 m ρ c (Proc.devRef .tc r) :=
  StableHlo.after_of_forall_not_mem (b := Proc.devRef .tc r) _ _ fun op hop =>
    (List.forall_iff_forall_mem.mp hostOps6_args) op hop r hr

def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem argwin6 : ∀ w : Fin cfg6.W, Pipeline.arrRef spec6 w ∈ argRefs → (cfg6.win w).isOut = false := by decide
theorem W12_arg (c : Dev nD) (r : Ref sig .tc) (hr : r ∈ argRefs) :
    W12 m ρ c (Proc.devRef .tc r) = W11 m ρ c (Proc.devRef .tc r) := by
  by_cases h : ∃ w, Pipeline.arrRef spec6 w = r
  · obtain ⟨w, rfl⟩ := h
    exact (W12_arr m ρ c w).trans (((dat6 (V11 m ρ) c).arrAt_in w (argwin6 w hr) _).trans (A_eq6 (V11 m ρ) c w))
  · exact W12_of_ne m ρ c r fun w e => h ⟨w, e⟩

abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
theorem W13_arg (c : Dev nD) (r : Ref sig .tc) (hr : r ∈ argRefs) :
    W13 m ρ c (Proc.devRef .tc r) = W12 m ρ c (Proc.devRef .tc r) :=
  StableHlo.after_of_forall_not_mem (b := Proc.devRef .tc r) _ _ fun op hop =>
    (List.forall_iff_forall_mem.mp hostOps7_args) op hop r hr

def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem argwin7 : ∀ w : Fin cfg7.W, Pipeline.arrRef spec7 w ∈ argRefs → (cfg7.win w).isOut = false := by decide
theorem W14_arg (c : Dev nD) (r : Ref sig .tc) (hr : r ∈ argRefs) :
    W14 m ρ c (Proc.devRef .tc r) = W13 m ρ c (Proc.devRef .tc r) := by
  by_cases h : ∃ w, Pipeline.arrRef spec7 w = r
  · obtain ⟨w, rfl⟩ := h
    exact (W14_arr m ρ c w).trans (((dat7 (V13 m ρ) c).arrAt_in w (argwin7 w hr) _).trans (A_eq7 (V13 m ρ) c w))
  · exact W14_of_ne m ρ c r fun w e => h ⟨w, e⟩

abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b
theorem W15_arg (c : Dev nD) (r : Ref sig .tc) (hr : r ∈ argRefs) :
    W15 m ρ c (Proc.devRef .tc r) = W14 m ρ c (Proc.devRef .tc r) :=
  StableHlo.after_of_forall_not_mem (b := Proc.devRef .tc r) _ _ fun op hop =>
    (List.forall_iff_forall_mem.mp hostOps8_args) op hop r hr

def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev V16 : (c : Dev nD) → (b : Ref sig .tc) → Buf (Elt F) ((c : Thread nD τ).loc b) := fun c b => W16 m ρ c b
theorem argwin8 : ∀ w : Fin cfg8.W, Pipeline.arrRef spec8 w ∈ argRefs → (cfg8.win w).isOut = false := by decide
theorem W16_arg (c : Dev nD) (r : Ref sig .tc) (hr : r ∈ argRefs) :
    W16 m ρ c (Proc.devRef .tc r) = W15 m ρ c (Proc.devRef .tc r) := by
  by_cases h : ∃ w, Pipeline.arrRef spec8 w = r
  · obtain ⟨w, rfl⟩ := h
    exact (W16_arr m ρ c w).trans (((dat8 (V15 m ρ) c).arrAt_in w (argwin8 w hr) _).trans (A_eq8 (V15 m ρ) c w))
  · exact W16_of_ne m ρ c r fun w e => h ⟨w, e⟩

abbrev W17 : Dev nD → Valuation τ sig (Elt F) := fun c => StableHlo.after hostOps9 (W16 m ρ c)
abbrev V17 : (c : Dev nD) → (b : Ref sig .tc) → Buf (Elt F) ((c : Thread nD τ).loc b) := fun c b => W17 m ρ c b
theorem W17_arg (c : Dev nD) (r : Ref sig .tc) (hr : r ∈ argRefs) :
    W17 m ρ c (Proc.devRef .tc r) = W16 m ρ c (Proc.devRef .tc r) :=
  StableHlo.after_of_forall_not_mem (b := Proc.devRef .tc r) _ _ fun op hop =>
    (List.forall_iff_forall_mem.mp hostOps9_args) op hop r hr

def W18 (c : Dev nD) : Valuation τ sig (Elt F) :=
  Pipeline.withArrays spec9 c (W17 m ρ c) fun w => (dat9 (V17 m ρ) c).arrAt w cfg9.N
theorem W18_arr (c : Dev nD) (w : Fin cfg9.W) :
    W18 m ρ c (Proc.devRef .tc (Pipeline.arrRef spec9 w)) = (dat9 (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb
abbrev V18 : (c : Dev nD) → (b : Ref sig .tc) → Buf (Elt F) ((c : Thread nD τ).loc b) := fun c b => W18 m ρ c b
theorem argwin9 : ∀ w : Fin cfg9.W, Pipeline.arrRef spec9 w ∈ argRefs → (cfg9.win w).isOut = false := by decide
theorem W18_arg (c : Dev nD) (r : Ref sig .tc) (hr : r ∈ argRefs) :
    W18 m ρ c (Proc.devRef .tc r) = W17 m ρ c (Proc.devRef .tc r) := by
  by_cases h : ∃ w, Pipeline.arrRef spec9 w = r
  · obtain ⟨w, rfl⟩ := h
    exact (W18_arr m ρ c w).trans (((dat9 (V17 m ρ) c).arrAt_in w (argwin9 w hr) _).trans (A_eq9 (V17 m ρ) c w))
  · exact W18_of_ne m ρ c r fun w e => h ⟨w, e⟩

def W19 (c : Dev nD) : Valuation τ sig (Elt F) :=
  Pipeline.withArrays spec10 c (W18 m ρ c) fun w => (dat10 (V18 m ρ) c).arrAt w cfg10.N
theorem W19_arr (c : Dev nD) (w : Fin cfg10.W) :
    W19 m ρ c (Proc.devRef .tc (Pipeline.arrRef spec10 w)) = (dat10 (V18 m ρ) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m ρ c (Proc.devRef .tc b) = W18 m ρ c (Proc.devRef .tc b) := by
  unfold W19; exact Pipeline.withArrays_of_ne spec10 c _ _ b hb
abbrev V19 : (c : Dev nD) → (b : Ref sig .tc) → Buf (Elt F) ((c : Thread nD τ).loc b) := fun c b => W19 m ρ c b
theorem argwin10 : ∀ w : Fin cfg10.W, Pipeline.arrRef spec10 w ∈ argRefs → (cfg10.win w).isOut = false := by decide
theorem W19_arg (c : Dev nD) (r : Ref sig .tc) (hr : r ∈ argRefs) :
    W19 m ρ c (Proc.devRef .tc r) = W18 m ρ c (Proc.devRef .tc r) := by
  by_cases h : ∃ w, Pipeline.arrRef spec10 w = r
  · obtain ⟨w, rfl⟩ := h
    exact (W19_arr m ρ c w).trans (((dat10 (V18 m ρ) c).arrAt_in w (argwin10 w hr) _).trans (A_eq10 (V18 m ρ) c w))
  · exact W19_of_ne m ρ c r fun w e => h ⟨w, e⟩

abbrev W20 : Dev nD → Valuation τ sig (Elt F) := fun c => StableHlo.after hostOps11 (W19 m ρ c)
abbrev V20 : (c : Dev nD) → (b : Ref sig .tc) → Buf (Elt F) ((c : Thread nD τ).loc b) := fun c b => W20 m ρ c b
theorem W20_arg (c : Dev nD) (r : Ref sig .tc) (hr : r ∈ argRefs) :
    W20 m ρ c (Proc.devRef .tc r) = W19 m ρ c (Proc.devRef .tc r) :=
  StableHlo.after_of_forall_not_mem (b := Proc.devRef .tc r) _ _ fun op hop =>
    (List.forall_iff_forall_mem.mp hostOps11_args) op hop r hr

def W21 (c : Dev nD) : Valuation τ sig (Elt F) :=
  Pipeline.withArrays spec11 c (W20 m ρ c) fun w => (dat11 (V20 m ρ) c).arrAt w cfg11.N
theorem W21_arr (c : Dev nD) (w : Fin cfg11.W) :
    W21 m ρ c (Proc.devRef .tc (Pipeline.arrRef spec11 w)) = (dat11 (V20 m ρ) c).arrAt w cfg11.N := by
  unfold W21; exact Pipeline.withArrays_arr spec11 launch11.win.arr_inj c _ _ w
theorem W21_of_ne (c : Dev nD) (b : Ref sig .tc) (hb : ∀ w, Pipeline.arrRef spec11 w ≠ b) :
    W21 m ρ c (Proc.devRef .tc b) = W20 m ρ c (Proc.devRef .tc b) := by
  unfold W21; exact Pipeline.withArrays_of_ne spec11 c _ _ b hb
abbrev V21 : (c : Dev nD) → (b : Ref sig .tc) → Buf (Elt F) ((c : Thread nD τ).loc b) := fun c b => W21 m ρ c b
theorem argwin11 : ∀ w : Fin cfg11.W, Pipeline.arrRef spec11 w ∈ argRefs → (cfg11.win w).isOut = false := by decide
theorem W21_arg (c : Dev nD) (r : Ref sig .tc) (hr : r ∈ argRefs) :
    W21 m ρ c (Proc.devRef .tc r) = W20 m ρ c (Proc.devRef .tc r) := by
  by_cases h : ∃ w, Pipeline.arrRef spec11 w = r
  · obtain ⟨w, rfl⟩ := h
    exact (W21_arr m ρ c w).trans (((dat11 (V20 m ρ) c).arrAt_in w (argwin11 w hr) _).trans (A_eq11 (V20 m ρ) c w))
  · exact W21_of_ne m ρ c r fun w e => h ⟨w, e⟩

abbrev W22 : Dev nD → Valuation τ sig (Elt F) := fun c => StableHlo.after hostOps12 (W21 m ρ c)
abbrev V22 : (c : Dev nD) → (b : Ref sig .tc) → Buf (Elt F) ((c : Thread nD τ).loc b) := fun c b => W22 m ρ c b
theorem W22_arg (c : Dev nD) (r : Ref sig .tc) (hr : r ∈ argRefs) :
    W22 m ρ c (Proc.devRef .tc r) = W21 m ρ c (Proc.devRef .tc r) :=
  StableHlo.after_of_forall_not_mem (b := Proc.devRef .tc r) _ _ fun op hop =>
    (List.forall_iff_forall_mem.mp hostOps12_args) op hop r hr

def W23 (c : Dev nD) : Valuation τ sig (Elt F) :=
  Pipeline.withArrays spec12 c (W22 m ρ c) fun w => (dat12 (V22 m ρ) c).arrAt w cfg12.N
theorem W23_arr (c : Dev nD) (w : Fin cfg12.W) :
    W23 m ρ c (Proc.devRef .tc (Pipeline.arrRef spec12 w)) = (dat12 (V22 m ρ) c).arrAt w cfg12.N := by
  unfold W23; exact Pipeline.withArrays_arr spec12 launch12.win.arr_inj c _ _ w
theorem W23_of_ne (c : Dev nD) (b : Ref sig .tc) (hb : ∀ w, Pipeline.arrRef spec12 w ≠ b) :
    W23 m ρ c (Proc.devRef .tc b) = W22 m ρ c (Proc.devRef .tc b) := by
  unfold W23; exact Pipeline.withArrays_of_ne spec12 c _ _ b hb
abbrev V23 : (c : Dev nD) → (b : Ref sig .tc) → Buf (Elt F) ((c : Thread nD τ).loc b) := fun c b => W23 m ρ c b
theorem argwin12 : ∀ w : Fin cfg12.W, Pipeline.arrRef spec12 w ∈ argRefs → (cfg12.win w).isOut = false := by decide
theorem W23_arg (c : Dev nD) (r : Ref sig .tc) (hr : r ∈ argRefs) :
    W23 m ρ c (Proc.devRef .tc r) = W22 m ρ c (Proc.devRef .tc r) := by
  by_cases h : ∃ w, Pipeline.arrRef spec12 w = r
  · obtain ⟨w, rfl⟩ := h
    exact (W23_arr m ρ c w).trans (((dat12 (V22 m ρ) c).arrAt_in w (argwin12 w hr) _).trans (A_eq12 (V22 m ρ) c w))
  · exact W23_of_ne m ρ c r fun w e => h ⟨w, e⟩

abbrev W24 : Dev nD → Valuation τ sig (Elt F) := fun c => StableHlo.after hostOps13 (W23 m ρ c)
abbrev V24 : (c : Dev nD) → (b : Ref sig .tc) → Buf (Elt F) ((c : Thread nD τ).loc b) := fun c b => W24 m ρ c b
theorem W24_arg (c : Dev nD) (r : Ref sig .tc) (hr : r ∈ argRefs) :
    W24 m ρ c (Proc.devRef .tc r) = W23 m ρ c (Proc.devRef .tc r) :=
  StableHlo.after_of_forall_not_mem (b := Proc.devRef .tc r) _ _ fun op hop =>
    (List.forall_iff_forall_mem.mp hostOps13_args) op hop r hr

def W25 (c : Dev nD) : Valuation τ sig (Elt F) :=
  Pipeline.withArrays spec13 c (W24 m ρ c) fun w => (dat13 (V24 m ρ) c).arrAt w cfg13.N
theorem W25_arr (c : Dev nD) (w : Fin cfg13.W) :
    W25 m ρ c (Proc.devRef .tc (Pipeline.arrRef spec13 w)) = (dat13 (V24 m ρ) c).arrAt w cfg13.N := by
  unfold W25; exact Pipeline.withArrays_arr spec13 launch13.win.arr_inj c _ _ w
theorem W25_of_ne (c : Dev nD) (b : Ref sig .tc) (hb : ∀ w, Pipeline.arrRef spec13 w ≠ b) :
    W25 m ρ c (Proc.devRef .tc b) = W24 m ρ c (Proc.devRef .tc b) := by
  unfold W25; exact Pipeline.withArrays_of_ne spec13 c _ _ b hb
abbrev V25 : (c : Dev nD) → (b : Ref sig .tc) → Buf (Elt F) ((c : Thread nD τ).loc b) := fun c b => W25 m ρ c b
theorem argwin13 : ∀ w : Fin cfg13.W, Pipeline.arrRef spec13 w ∈ argRefs → (cfg13.win w).isOut = false := by decide
theorem W25_arg (c : Dev nD) (r : Ref sig .tc) (hr : r ∈ argRefs) :
    W25 m ρ c (Proc.devRef .tc r) = W24 m ρ c (Proc.devRef .tc r) := by
  by_cases h : ∃ w, Pipeline.arrRef spec13 w = r
  · obtain ⟨w, rfl⟩ := h
    exact (W25_arr m ρ c w).trans (((dat13 (V24 m ρ) c).arrAt_in w (argwin13 w hr) _).trans (A_eq13 (V24 m ρ) c w))
  · exact W25_of_ne m ρ c r fun w e => h ⟨w, e⟩

abbrev W26 : Dev nD → Valuation τ sig (Elt F) := fun c => StableHlo.after hostOps14 (W25 m ρ c)
abbrev V26 : (c : Dev nD) → (b : Ref sig .tc) → Buf (Elt F) ((c : Thread nD τ).loc b) := fun c b => W26 m ρ c b
theorem W26_arg (c : Dev nD) (r : Ref sig .tc) (hr : r ∈ argRefs) :
    W26 m ρ c (Proc.devRef .tc r) = W25 m ρ c (Proc.devRef .tc r) :=
  StableHlo.after_of_forall_not_mem (b := Proc.devRef .tc r) _ _ fun op hop =>
    (List.forall_iff_forall_mem.mp hostOps14_args) op hop r hr

def W27 (c : Dev nD) : Valuation τ sig (Elt F) :=
  Pipeline.withArrays spec14 c (W26 m ρ c) fun w => (dat14 (V26 m ρ) c).arrAt w cfg14.N
theorem W27_arr (c : Dev nD) (w : Fin cfg14.W) :
    W27 m ρ c (Proc.devRef .tc (Pipeline.arrRef spec14 w)) = (dat14 (V26 m ρ) c).arrAt w cfg14.N := by
  unfold W27; exact Pipeline.withArrays_arr spec14 launch14.win.arr_inj c _ _ w
theorem W27_of_ne (c : Dev nD) (b : Ref sig .tc) (hb : ∀ w, Pipeline.arrRef spec14 w ≠ b) :
    W27 m ρ c (Proc.devRef .tc b) = W26 m ρ c (Proc.devRef .tc b) := by
  unfold W27; exact Pipeline.withArrays_of_ne spec14 c _ _ b hb
abbrev V27 : (c : Dev nD) → (b : Ref sig .tc) → Buf (Elt F) ((c : Thread nD τ).loc b) := fun c b => W27 m ρ c b
theorem argwin14 : ∀ w : Fin cfg14.W, Pipeline.arrRef spec14 w ∈ argRefs → (cfg14.win w).isOut = false := by decide
theorem W27_arg (c : Dev nD) (r : Ref sig .tc) (hr : r ∈ argRefs) :
    W27 m ρ c (Proc.devRef .tc r) = W26 m ρ c (Proc.devRef .tc r) := by
  by_cases h : ∃ w, Pipeline.arrRef spec14 w = r
  · obtain ⟨w, rfl⟩ := h
    exact (W27_arr m ρ c w).trans (((dat14 (V26 m ρ) c).arrAt_in w (argwin14 w hr) _).trans (A_eq14 (V26 m ρ) c w))
  · exact W27_of_ne m ρ c r fun w e => h ⟨w, e⟩

abbrev W28 : Dev nD → Valuation τ sig (Elt F) := fun c => StableHlo.after hostOps15 (W27 m ρ c)
abbrev V28 : (c : Dev nD) → (b : Ref sig .tc) → Buf (Elt F) ((c : Thread nD τ).loc b) := fun c b => W28 m ρ c b
theorem W28_arg (c : Dev nD) (r : Ref sig .tc) (hr : r ∈ argRefs) :
    W28 m ρ c (Proc.devRef .tc r) = W27 m ρ c (Proc.devRef .tc r) :=
  StableHlo.after_of_forall_not_mem (b := Proc.devRef .tc r) _ _ fun op hop =>
    (List.forall_iff_forall_mem.mp hostOps15_args) op hop r hr

def W29 (c : Dev nD) : Valuation τ sig (Elt F) :=
  Pipeline.withArrays spec15 c (W28 m ρ c) fun w => (dat15 (V28 m ρ) c).arrAt w cfg15.N
theorem W29_arr (c : Dev nD) (w : Fin cfg15.W) :
    W29 m ρ c (Proc.devRef .tc (Pipeline.arrRef spec15 w)) = (dat15 (V28 m ρ) c).arrAt w cfg15.N := by
  unfold W29; exact Pipeline.withArrays_arr spec15 launch15.win.arr_inj c _ _ w
theorem W29_of_ne (c : Dev nD) (b : Ref sig .tc) (hb : ∀ w, Pipeline.arrRef spec15 w ≠ b) :
    W29 m ρ c (Proc.devRef .tc b) = W28 m ρ c (Proc.devRef .tc b) := by
  unfold W29; exact Pipeline.withArrays_of_ne spec15 c _ _ b hb
abbrev V29 : (c : Dev nD) → (b : Ref sig .tc) → Buf (Elt F) ((c : Thread nD τ).loc b) := fun c b => W29 m ρ c b
theorem argwin15 : ∀ w : Fin cfg15.W, Pipeline.arrRef spec15 w ∈ argRefs → (cfg15.win w).isOut = false := by decide
theorem W29_arg (c : Dev nD) (r : Ref sig .tc) (hr : r ∈ argRefs) :
    W29 m ρ c (Proc.devRef .tc r) = W28 m ρ c (Proc.devRef .tc r) := by
  by_cases h : ∃ w, Pipeline.arrRef spec15 w = r
  · obtain ⟨w, rfl⟩ := h
    exact (W29_arr m ρ c w).trans (((dat15 (V28 m ρ) c).arrAt_in w (argwin15 w hr) _).trans (A_eq15 (V28 m ρ) c w))
  · exact W29_of_ne m ρ c r fun w e => h ⟨w, e⟩

abbrev W30 : Dev nD → Valuation τ sig (Elt F) := fun c => StableHlo.after hostOps16 (W29 m ρ c)
abbrev V30 : (c : Dev nD) → (b : Ref sig .tc) → Buf (Elt F) ((c : Thread nD τ).loc b) := fun c b => W30 m ρ c b
theorem W30_arg (c : Dev nD) (r : Ref sig .tc) (hr : r ∈ argRefs) :
    W30 m ρ c (Proc.devRef .tc r) = W29 m ρ c (Proc.devRef .tc r) :=
  StableHlo.after_of_forall_not_mem (b := Proc.devRef .tc r) _ _ fun op hop =>
    (List.forall_iff_forall_mem.mp hostOps16_args) op hop r hr

def W31 (c : Dev nD) : Valuation τ sig (Elt F) :=
  Pipeline.withArrays spec16 c (W30 m ρ c) fun w => (dat16 (V30 m ρ) c).arrAt w cfg16.N
theorem W31_arr (c : Dev nD) (w : Fin cfg16.W) :
    W31 m ρ c (Proc.devRef .tc (Pipeline.arrRef spec16 w)) = (dat16 (V30 m ρ) c).arrAt w cfg16.N := by
  unfold W31; exact Pipeline.withArrays_arr spec16 launch16.win.arr_inj c _ _ w
theorem W31_of_ne (c : Dev nD) (b : Ref sig .tc) (hb : ∀ w, Pipeline.arrRef spec16 w ≠ b) :
    W31 m ρ c (Proc.devRef .tc b) = W30 m ρ c (Proc.devRef .tc b) := by
  unfold W31; exact Pipeline.withArrays_of_ne spec16 c _ _ b hb
abbrev V31 : (c : Dev nD) → (b : Ref sig .tc) → Buf (Elt F) ((c : Thread nD τ).loc b) := fun c b => W31 m ρ c b
theorem argwin16 : ∀ w : Fin cfg16.W, Pipeline.arrRef spec16 w ∈ argRefs → (cfg16.win w).isOut = false := by decide
theorem W31_arg (c : Dev nD) (r : Ref sig .tc) (hr : r ∈ argRefs) :
    W31 m ρ c (Proc.devRef .tc r) = W30 m ρ c (Proc.devRef .tc r) := by
  by_cases h : ∃ w, Pipeline.arrRef spec16 w = r
  · obtain ⟨w, rfl⟩ := h
    exact (W31_arr m ρ c w).trans (((dat16 (V30 m ρ) c).arrAt_in w (argwin16 w hr) _).trans (A_eq16 (V30 m ρ) c w))
  · exact W31_of_ne m ρ c r fun w e => h ⟨w, e⟩

abbrev Wlast : Dev nD → Valuation τ sig (Elt F) := W31 m ρ

theorem Wlast_arg (c : Dev nD) (r : Ref sig .tc) (hr : r ∈ argRefs) :
    Wlast m ρ c (Proc.devRef .tc r) = m ((c : Thread nD τ).loc r) :=
  calc Wlast m ρ c (Proc.devRef .tc r)
    _ = W31 m ρ c (Proc.devRef .tc r) := rfl
    _ = W30 m ρ c (Proc.devRef .tc r) := W31_arg m ρ c r hr
    _ = W29 m ρ c (Proc.devRef .tc r) := W30_arg m ρ c r hr
    _ = W28 m ρ c (Proc.devRef .tc r) := W29_arg m ρ c r hr
    _ = W27 m ρ c (Proc.devRef .tc r) := W28_arg m ρ c r hr
    _ = W26 m ρ c (Proc.devRef .tc r) := W27_arg m ρ c r hr
    _ = W25 m ρ c (Proc.devRef .tc r) := W26_arg m ρ c r hr
    _ = W24 m ρ c (Proc.devRef .tc r) := W25_arg m ρ c r hr
    _ = W23 m ρ c (Proc.devRef .tc r) := W24_arg m ρ c r hr
    _ = W22 m ρ c (Proc.devRef .tc r) := W23_arg m ρ c r hr
    _ = W21 m ρ c (Proc.devRef .tc r) := W22_arg m ρ c r hr
    _ = W20 m ρ c (Proc.devRef .tc r) := W21_arg m ρ c r hr
    _ = W19 m ρ c (Proc.devRef .tc r) := W20_arg m ρ c r hr
    _ = W18 m ρ c (Proc.devRef .tc r) := W19_arg m ρ c r hr
    _ = W17 m ρ c (Proc.devRef .tc r) := W18_arg m ρ c r hr
    _ = W16 m ρ c (Proc.devRef .tc r) := W17_arg m ρ c r hr
    _ = W15 m ρ c (Proc.devRef .tc r) := W16_arg m ρ c r hr
    _ = W14 m ρ c (Proc.devRef .tc r) := W15_arg m ρ c r hr
    _ = W13 m ρ c (Proc.devRef .tc r) := W14_arg m ρ c r hr
    _ = W12 m ρ c (Proc.devRef .tc r) := W13_arg m ρ c r hr
    _ = W11 m ρ c (Proc.devRef .tc r) := W12_arg m ρ c r hr
    _ = W10 m ρ c (Proc.devRef .tc r) := W11_arg m ρ c r hr
    _ = W9 m ρ c (Proc.devRef .tc r) := W10_arg m ρ c r hr
    _ = W8 m ρ c (Proc.devRef .tc r) := W9_arg m ρ c r hr
    _ = W7 m ρ c (Proc.devRef .tc r) := W8_arg m ρ c r hr
    _ = W6 m ρ c (Proc.devRef .tc r) := W7_arg m ρ c r hr
    _ = W5 m ρ c (Proc.devRef .tc r) := W6_arg m ρ c r hr
    _ = W4 m ρ c (Proc.devRef .tc r) := W5_arg m ρ c r hr
    _ = W3 m ρ c (Proc.devRef .tc r) := W4_arg m ρ c r hr
    _ = W2 m ρ c (Proc.devRef .tc r) := W3_arg m ρ c r hr
    _ = W1 m ρ c (Proc.devRef .tc r) := W2_arg m ρ c r hr
    _ = W0 m ρ c (Proc.devRef .tc r) := W1_arg m ρ c r hr
    _ = m ((c : Thread nD τ).loc r) := rfl

end Cert.Kernel.Hand

end
-- ==== Proof.KB.Chain.lean ====
import proofs.«417009_j23742579212955_2_alg».proof.Proof.Gen.Kernel.Launch
import proofs.«417009_j23742579212955_2_alg».proof.Proof.Gen.Kernel.Skeleton
import proofs.«417009_j23742579212955_2_alg».proof.Proof.Gen.Kernel.Points
import proofs.«417009_j23742579212955_2_alg».proof.Proof.KB.ChainW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 17) → (pcfgs (F := F) p).Adm := fun p => (cfgs p).toPCfg_adm
def pdats : (p : Fin 17) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V13 m ρ) c
  | ⟨8, _⟩ => fun c => dat8 (V15 m ρ) c
  | ⟨9, _⟩ => fun c => dat9 (V17 m ρ) c
  | ⟨10, _⟩ => fun c => dat10 (V18 m ρ) c
  | ⟨11, _⟩ => fun c => dat11 (V20 m ρ) c
  | ⟨12, _⟩ => fun c => dat12 (V22 m ρ) c
  | ⟨13, _⟩ => fun c => dat13 (V24 m ρ) c
  | ⟨14, _⟩ => fun c => dat14 (V26 m ρ) c
  | ⟨15, _⟩ => fun c => dat15 (V28 m ρ) c
  | ⟨16, _⟩ => fun c => dat16 (V30 m ρ) c
  | ⟨_ + 17, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W31 m ρ c) ∗ ∃ r, prngReg c r)

/- One statement for all seventeen regions of the run: a region takes the unscoped contents `Wi` to `Wi` updated at the
   region's own arrays, which then hold their final contents. -/
theorem ΦA_in {gr W : Nat} (win : Fin W → Pipeline.WinSpec sig gr) (c : Dev nD) :
    iprop((∃ r, prngReg c r) ∗ Pipeline.scopedRest (Ix := Unit) (Name := ℕ) (U := UR sig nD τ) (Lvl := ℕ) (Val := Elt F) win c)
      ⊢ (Pipeline.ΦA (U := UR sig nD τ) (Val := Elt F) win c : sProp 𝕄) := by
  unfold Pipeline.ΦA
  iintro ⟨Hp, Hr⟩
  isplitl [Hr]; · iexact Hr
  iexact Hp

theorem ΦA_out {gr W : Nat} (win : Fin W → Pipeline.WinSpec sig gr) (c : Dev nD) :
    (Pipeline.ΦA (U := UR sig nD τ) (Val := Elt F) win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

set_option backward.isDefEq.respectTransparency.types false in
def regOf (p : Fin 17) (kit : Pipeline.LaunchFacts (nD := nD) (τ := τ) cfgs p)
    (Wi : Dev nD → Valuation τ sig (Elt F))
    (hbody : ∀ c, BodyObligation (pdats m ρ p c) (defs₀ (F := F)) 𝒱₀ () Set.univ)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Wi c (Pipeline.arrRef (cfgs p).spec w))
    (hin : ∀ c, iprop((∃ r, prngReg c r) ∗ Pipeline.scopedRest (Ix := Unit) (Name := ℕ) (U := UR sig nD τ) (Lvl := ℕ) (Val := Elt F) (cfgs p).spec c) ⊢ (pdats m ρ p c).Φ 0)
    (hout : ∀ c, (pdats m ρ p c).Φ (Fin.last _) ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) kit.win kit.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H2 := (hout c) $$ H
    icases H2 with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Wi c b) (fun b => (Pipeline.withArrays (cfgs p).spec c (Wi c) fun w => (pdats m ρ p c).arrAt w (cfgs p).N) b) ((pdats m ρ p c).arrAt · (cfgs p).N)
      (fun w => (Pipeline.withArrays_arr (cfgs p).spec kit.win.arr_inj c (Wi c) (fun w => (pdats m ρ p c).arrAt w (cfgs p).N) w).symm)
      (fun b hb => Pipeline.withArrays_of_ne (cfgs p).spec c (Wi c) (fun w => (pdats m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (body_obligation0 (V1 m ρ)) (fun _ _ => rfl) (fun _ _ => rfl) (fun _ _ => rfl) (fun _ _ => rfl)
    (fun c => ΦA_in _ c) (fun c => ΦA_out _ c)

set_option backward.isDefEq.respectTransparency.types false in
def reg1 : Pipeline.RegionSeg (pcfgs (F := F)) adm (pdats m ρ) () defs₀ 𝒱₀ L lv 1 :=
  regOf m ρ 1 launch1 (W2 m ρ) (body_obligation1 (V2 m ρ)) (fun _ _ => rfl) (fun _ _ => rfl) (fun _ _ => rfl) (fun _ _ => rfl)
    (fun c => ΦA_in _ c) (fun c => ΦA_out _ c)

set_option backward.isDefEq.respectTransparency.types false in
def reg2 : Pipeline.RegionSeg (pcfgs (F := F)) adm (pdats m ρ) () defs₀ 𝒱₀ L lv 2 :=
  regOf m ρ 2 launch2 (W3 m ρ) (body_obligation2 (V3 m ρ)) (fun _ _ => rfl) (fun _ _ => rfl) (fun _ _ => rfl) (fun _ _ => rfl)
    (fun c => ΦA_in _ c) (fun c => ΦA_out _ c)

set_option backward.isDefEq.respectTransparency.types false in
def reg3 : Pipeline.RegionSeg (pcfgs (F := F)) adm (pdats m ρ) () defs₀ 𝒱₀ L lv 3 :=
  regOf m ρ 3 launch3 (W5 m ρ) (body_obligation3 (V5 m ρ)) (fun _ _ => rfl) (fun _ _ => rfl) (fun _ _ => rfl) (fun _ _ => rfl)
    (fun c => ΦA_in _ c) (fun c => ΦA_out _ c)

set_option backward.isDefEq.respectTransparency.types false in
def reg4 : Pipeline.RegionSeg (pcfgs (F := F)) adm (pdats m ρ) () defs₀ 𝒱₀ L lv 4 :=
  regOf m ρ 4 launch4 (W7 m ρ) (body_obligation4 (V7 m ρ)) (fun _ _ => rfl) (fun _ _ => rfl) (fun _ _ => rfl) (fun _ _ => rfl)
    (fun c => ΦA_in _ c) (fun c => ΦA_out _ c)

set_option backward.isDefEq.respectTransparency.types false in
def reg5 : Pipeline.RegionSeg (pcfgs (F := F)) adm (pdats m ρ) () defs₀ 𝒱₀ L lv 5 :=
  regOf m ρ 5 launch5 (W9 m ρ) (body_obligation5 (V9 m ρ)) (fun _ _ => rfl) (fun _ _ => rfl) (fun _ _ => rfl) (fun _ _ => rfl)
    (fun c => ΦA_in _ c) (fun c => ΦA_out _ c)

set_option backward.isDefEq.respectTransparency.types false in
def reg6 : Pipeline.RegionSeg (pcfgs (F := F)) adm (pdats m ρ) () defs₀ 𝒱₀ L lv 6 :=
  regOf m ρ 6 launch6 (W11 m ρ) (body_obligation6 (V11 m ρ)) (fun _ _ => rfl) (fun _ _ => rfl) (fun _ _ => rfl) (fun _ _ => rfl)
    (fun c => ΦA_in _ c) (fun c => ΦA_out _ c)

set_option backward.isDefEq.respectTransparency.types false in
def reg7 : Pipeline.RegionSeg (pcfgs (F := F)) adm (pdats m ρ) () defs₀ 𝒱₀ L lv 7 :=
  regOf m ρ 7 launch7 (W13 m ρ) (body_obligation7 (V13 m ρ)) (fun _ _ => rfl) (fun _ _ => rfl) (fun _ _ => rfl) (fun _ _ => rfl)
    (fun c => ΦA_in _ c) (fun c => ΦA_out _ c)

set_option backward.isDefEq.respectTransparency.types false in
def reg8 : Pipeline.RegionSeg (pcfgs (F := F)) adm (pdats m ρ) () defs₀ 𝒱₀ L lv 8 :=
  regOf m ρ 8 launch8 (W15 m ρ) (body_obligation8 (V15 m ρ)) (fun _ _ => rfl) (fun _ _ => rfl) (fun _ _ => rfl) (fun _ _ => rfl)
    (fun c => ΦA_in _ c) (fun c => ΦA_out _ c)

set_option backward.isDefEq.respectTransparency.types false in
def reg9 : Pipeline.RegionSeg (pcfgs (F := F)) adm (pdats m ρ) () defs₀ 𝒱₀ L lv 9 :=
  regOf m ρ 9 launch9 (W17 m ρ) (body_obligation9 (V17 m ρ)) (fun _ _ => rfl) (fun _ _ => rfl) (fun _ _ => rfl) (fun _ _ => rfl)
    (fun c => ΦA_in _ c) (fun c => ΦA_out _ c)

set_option backward.isDefEq.respectTransparency.types false in
def reg10 : Pipeline.RegionSeg (pcfgs (F := F)) adm (pdats m ρ) () defs₀ 𝒱₀ L lv 10 :=
  regOf m ρ 10 launch10 (W18 m ρ) (body_obligation10 (V18 m ρ)) (fun _ _ => rfl) (fun _ _ => rfl) (fun _ _ => rfl) (fun _ _ => rfl)
    (fun c => ΦA_in _ c) (fun c => ΦA_out _ c)

set_option backward.isDefEq.respectTransparency.types false in
def reg11 : Pipeline.RegionSeg (pcfgs (F := F)) adm (pdats m ρ) () defs₀ 𝒱₀ L lv 11 :=
  regOf m ρ 11 launch11 (W20 m ρ) (body_obligation11 (V20 m ρ)) (fun _ _ => rfl) (fun _ _ => rfl) (fun _ _ => rfl) (fun _ _ => rfl)
    (hin11 (V20 m ρ)) (hout11 (V20 m ρ))

set_option backward.isDefEq.respectTransparency.types false in
def reg12 : Pipeline.RegionSeg (pcfgs (F := F)) adm (pdats m ρ) () defs₀ 𝒱₀ L lv 12 :=
  regOf m ρ 12 launch12 (W22 m ρ) (body_obligation12 (V22 m ρ)) (fun _ _ => rfl) (fun _ _ => rfl) (fun _ _ => rfl) (fun _ _ => rfl)
    (fun c => ΦA_in _ c) (fun c => ΦA_out _ c)

set_option backward.isDefEq.respectTransparency.types false in
def reg13 : Pipeline.RegionSeg (pcfgs (F := F)) adm (pdats m ρ) () defs₀ 𝒱₀ L lv 13 :=
  regOf m ρ 13 launch13 (W24 m ρ) (body_obligation13 (V24 m ρ)) (fun _ _ => rfl) (fun _ _ => rfl) (fun _ _ => rfl) (fun _ _ => rfl)
    (fun c => ΦA_in _ c) (fun c => ΦA_out _ c)

set_option backward.isDefEq.respectTransparency.types false in
def reg14 : Pipeline.RegionSeg (pcfgs (F := F)) adm (pdats m ρ) () defs₀ 𝒱₀ L lv 14 :=
  regOf m ρ 14 launch14 (W26 m ρ) (body_obligation14 (V26 m ρ)) (fun _ _ => rfl) (fun _ _ => rfl) (fun _ _ => rfl) (fun _ _ => rfl)
    (fun c => ΦA_in _ c) (fun c => ΦA_out _ c)

set_option backward.isDefEq.respectTransparency.types false in
def reg15 : Pipeline.RegionSeg (pcfgs (F := F)) adm (pdats m ρ) () defs₀ 𝒱₀ L lv 15 :=
  regOf m ρ 15 launch15 (W28 m ρ) (body_obligation15 (V28 m ρ)) (fun _ _ => rfl) (fun _ _ => rfl) (fun _ _ => rfl) (fun _ _ => rfl)
    (fun c => ΦA_in _ c) (fun c => ΦA_out _ c)

set_option backward.isDefEq.respectTransparency.types false in
def reg16 : Pipeline.RegionSeg (pcfgs (F := F)) adm (pdats m ρ) () defs₀ 𝒱₀ L lv 16 :=
  regOf m ρ 16 launch16 (W30 m ρ) (body_obligation16 (V30 m ρ)) (fun _ _ => rfl) (fun _ _ => rfl) (fun _ _ => rfl) (fun _ _ => rfl)
    (fun c => ΦA_in _ c) (fun c => ΦA_out _ c)

theorem last_link (c : Dev nD) :
    iprop(StableHlo.held (c : Thread nD τ) (Pipeline.ucRefs τ sig) (W31 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

abbrev segs : List (Pipeline.Seg (pcfgs (F := F)) adm (pdats m ρ) () defs₀ 𝒱₀ L lv) :=
  [
    .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .region (reg9 m ρ),
    .region (reg10 m ρ),
    .host (hseg hostOps11 hostOps11_sub hostOps11_fresh (W19 m ρ)),
    .region (reg11 m ρ),
    .host (hseg hostOps12 hostOps12_sub hostOps12_fresh (W21 m ρ)),
    .region (reg12 m ρ),
    .host (hseg hostOps13 hostOps13_sub hostOps13_fresh (W23 m ρ)),
    .region (reg13 m ρ),
    .host (hseg hostOps14 hostOps14_sub hostOps14_fresh (W25 m ρ)),
    .region (reg14 m ρ),
    .host (hseg hostOps15 hostOps15_sub hostOps15_fresh (W27 m ρ)),
    .region (reg15 m ρ),
    .host (hseg hostOps16 hostOps16_sub hostOps16_fresh (W29 m ρ)),
    .region (reg16 m ρ) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wlast m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_link m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c b hb => h c _ (mem_uc b hb))

end Cert.Kernel.Hand

end
-- ==== Proof.KB.Frame.lean ====
import proofs.«417009_j23742579212955_2_alg».proof.Defs
import proofs.«417009_j23742579212955_2_alg».proof.Proof.Gen.Kernel
import proofs.«417009_j23742579212955_2_alg».proof.Proof.Gen.Pre_finite_inputs
import proofs.«417009_j23742579212955_2_alg».proof.Proof.KB.Chain

set_option maxRecDepth 16384

noncomputable section

namespace Cert.Kernel.Hand

open Cert.Kernel Cert.Kernel.Gen
open Idealize.ShloMosaic Idealize.ShloMosaic.TcCoe Idealize.SL.Sem

theorem frame_p : Cert.frame_Kernel (hKernel := Cert.Kernel.Gen.facts) (hPre_finite_inputs := Cert.Pre_finite_inputs.Gen.facts) := by
  intro m g _
  refine (θ_run defs _ _).mono (fun r h c => ?_) (run_main (F := Bits) m g)
  exact ⟨(h c main_arg0 (by decide)).trans (Wlast_arg m g c main_arg0 (by decide)),
    (h c main_arg1 (by decide)).trans (Wlast_arg m g c main_arg1 (by decide)),
    (h c main_arg2 (by decide)).trans (Wlast_arg m g c main_arg2 (by decide)),
    (h c main_arg3 (by decide)).trans (Wlast_arg m g c main_arg3 (by decide)),
    (h c main_arg4 (by decide)).trans (Wlast_arg m g c main_arg4 (by decide)),
    (h c main_arg5 (by decide)).trans (Wlast_arg m g c main_arg5 (by decide)),
    (h c main_arg6 (by decide)).trans (Wlast_arg m g c main_arg6 (by decide)),
    (h c main_arg7 (by decide)).trans (Wlast_arg m g c main_arg7 (by decide)),
    (h c main_arg8 (by decide)).trans (Wlast_arg m g c main_arg8 (by decide)),
    (h c main_arg9 (by decide)).trans (Wlast_arg m g c main_arg9 (by decide)),
    (h c main_arg10 (by decide)).trans (Wlast_arg m g c main_arg10 (by decide)),
    (h c main_arg11 (by decide)).trans (Wlast_arg m g c main_arg11 (by decide)),
    (h c main_arg12 (by decide)).trans (Wlast_arg m g c main_arg12 (by decide)),
    (h c main_arg13 (by decide)).trans (Wlast_arg m g c main_arg13 (by decide)),
    (h c main_arg14 (by decide)).trans (Wlast_arg m g c main_arg14 (by decide)),
    (h c main_arg15 (by decide)).trans (Wlast_arg m g c main_arg15 (by decide)),
    (h c main_arg16 (by decide)).trans (Wlast_arg m g c main_arg16 (by decide)),
    (h c main_arg17 (by decide)).trans (Wlast_arg m g c main_arg17 (by decide)),
    (h c main_arg18 (by decide)).trans (Wlast_arg m g c main_arg18 (by decide)),
    (h c main_arg19 (by decide)).trans (Wlast_arg m g c main_arg19 (by decide)),
    (h c main_arg20 (by decide)).trans (Wlast_arg m g c main_arg20 (by decide)),
    (h c main_arg21 (by decide)).trans (Wlast_arg m g c main_arg21 (by decide)),
    (h c main_arg22 (by decide)).trans (Wlast_arg m g c main_arg22 (by decide)),
    (h c main_arg23 (by decide)).trans (Wlast_arg m g c main_arg23 (by decide)),
    (h c main_arg24 (by decide)).trans (Wlast_arg m g c main_arg24 (by decide)),
    (h c main_arg25 (by decide)).trans (Wlast_arg m g c main_arg25 (by decide))⟩

end Cert.Kernel.Hand

end
-- ==== Proof.KI.R00.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

theorem hz0 : (![0, 0] : Fin 2 → Nat) = fun _ => 0 := funext fun a => by fin_cases a <;> rfl

def out0_3 (x0 : Vec F S10000x64 .f32) (x1 : Vec F S64x64 .f32) (x2 : Vec F S1x64 .f32) : Vec F S10000x64 .f32 :=
  View.canon [⟨r0_0, k0_pay1 (View.ld x0 r0_0) (View.ld x1 r0_1) (View.ld x2 r0_2)⟩]

theorem cover0_3 (p0 : Vec F S10000x64 .f32) (y : S10000x64.Idx) :
    ∃ pc ∈ ([⟨r0_0, p0⟩] : List (View.Piece (Elt F) S10000x64 .f32)), y ∈ pc.1.set :=
  ⟨_, List.mem_singleton_self _, View.mem_set_unit_zero hz0 inb_S10000x64_S10000x64_0_0 y⟩

set_option maxHeartbeats 1000000 in
theorem sound_kernel0 (c : Dev nD) (E : Set ℕ) (i : grid0.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gate_kernel i arg1 harg1 arg2 harg2 arg3 harg3 arg4 harg4) K := by
  simp only [cc0__gate_kernel_eq_skeleton]; unfold cc0__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

def G0_3 (a0 : Vec F S10000x64 .f32) (a1 : Vec F S64x64 .f32) (a2 : Vec F S1x64 .f32) : Vec F S10000x64 .f32 :=
  k0_pay1 a0 a1 a2

theorem origin0_0 (t : Fin cfg0.N) : (fun a => win0_0.index t a * S10000x64.size a) = fun _ => 0 := by
  rw [fin_N0 t]; exact funext fun a => by fin_cases a <;> decide
theorem origin0_1 (t : Fin cfg0.N) : (fun a => win0_1.index t a * S64x64.size a) = fun _ => 0 := by
  rw [fin_N0 t]; exact funext fun a => by fin_cases a <;> decide
theorem origin0_2 (t : Fin cfg0.N) : (fun a => win0_2.index t a * S1x64.size a) = fun _ => 0 := by
  rw [fin_N0 t]; exact funext fun a => by fin_cases a <;> decide
theorem origin0_3 (t : Fin cfg0.N) : (fun a => win0_3.index t a * S10000x64.size a) = fun _ => 0 := by
  rw [fin_N0 t]; exact funext fun a => by fin_cases a <;> decide

theorem read_blk0_0 (t : Fin cfg0.N) (X : Vec F S10000x64 .f32) : ((cfg0.win 0).blk t).view.read (Elt F) X = X :=
  Memref.read_access_unit_zero (Elt F) (Pipeline.arrRef spec0 0) (origin0_0 t) (fun a => by rw [congrFun (origin0_0 t) a]; simp) X
theorem read_blk0_1 (t : Fin cfg0.N) (X : Vec F S64x64 .f32) : ((cfg0.win 1).blk t).view.read (Elt F) X = X :=
  Memref.read_access_unit_zero (Elt F) (Pipeline.arrRef spec0 1) (origin0_1 t) (fun a => by rw [congrFun (origin0_1 t) a]; simp) X
theorem read_blk0_2 (t : Fin cfg0.N) (X : Vec F S1x64 .f32) : ((cfg0.win 2).blk t).view.read (Elt F) X = X :=
  Memref.read_access_unit_zero (Elt F) (Pipeline.arrRef spec0 2) (origin0_2 t) (fun a => by rw [congrFun (origin0_2 t) a]; simp) X
theorem read_blk0_3 (t : Fin cfg0.N) (X : Vec F S10000x64 .f32) : ((cfg0.win 3).blk t).view.read (Elt F) X = X :=
  Memref.read_access_unit_zero (Elt F) (Pipeline.arrRef spec0 3) (origin0_3 t) (fun a => by rw [congrFun (origin0_3 t) a]; simp) X

theorem iblk0_0_eq (c : Dev nD) (t : Fin cfg0.N) : (iblk0 V c 0 t : Vec F S10000x64 .f32) = V c (Pipeline.arrRef spec0 0) := by
  unfold iblk0; exact read_blk0_0 t _
theorem iblk0_1_eq (c : Dev nD) (t : Fin cfg0.N) : (iblk0 V c 1 t : Vec F S64x64 .f32) = V c (Pipeline.arrRef spec0 1) := by
  unfold iblk0; exact read_blk0_1 t _
theorem iblk0_2_eq (c : Dev nD) (t : Fin cfg0.N) : (iblk0 V c 2 t : Vec F S1x64 .f32) = V c (Pipeline.arrRef spec0 2) := by
  unfold iblk0; exact read_blk0_2 t _

theorem flushed0_3_eq (c : Dev nD) (t : Fin cfg0.N) :
    (dat0 V c).flushed 3 t = ((cfg0.win 3).blk t).view.read (Elt F)
      (G0_3 (V c (Pipeline.arrRef spec0 0)) (V c (Pipeline.arrRef spec0 1)) (V c (Pipeline.arrRef spec0 2))) := by
  show (cfg0.win 3).cut (grid0.coords t) ((dat0 V c).after 3 t) = _
  rw [after0_3, read_blk0_3]
  unfold out0_3 G0_3
  rw [View.canon_unit_zero hz0]
  simp only [View.ld_unit_zero (S := S10000x64) hz0, View.ld_unit_zero (S := S64x64) hz0, View.ld_unit_zero (S := S1x64) hz0]
  rw [iblk0_0_eq, iblk0_1_eq, iblk0_2_eq]
  rfl

theorem cover_arr0_3 (i : S10000x64.Idx) :
    ∃ t : Fin cfg0.N, (cfg0.win 3).flush t = true ∧ i ∈ ((cfg0.win 3).blk t).view.set :=
  ⟨t0_0, flush0_3 t0_0, by
    show i ∈ ((View.whole (Pipeline.arrRef spec0 3)).slice (win0_3.rect t0_0)).set
    rw [View.set_slice_whole]
    exact View.mem_set_unit_zero (origin0_3 t0_0) _ i⟩

theorem final0_3 (c : Dev nD) :
    (dat0 V c).arrAt 3 cfg0.N
      = G0_3 (V c (Pipeline.arrRef spec0 0)) (V c (Pipeline.arrRef spec0 1)) (V c (Pipeline.arrRef spec0 2)) :=
  (dat0 V c).arrAt_eq_of_cover 3 _ (fun t _ => flushed0_3_eq V c t) cover_arr0_3

end Cert.KernelIdeal.Hand
-- ==== Proof.KI.R01.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x64 := Rect.unit (s := S10000x64) ![0, 0] S10000x64.size inb_S10000x64_S10000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

theorem hz1 : (![0, 0] : Fin 2 → Nat) = fun _ => 0 := funext fun a => by fin_cases a <;> rfl

def out1_3 (x0 : Vec F S10000x64 .f32) (x1 : Vec F S64x64 .f32) (x2 : Vec F S1x64 .f32) : Vec F S10000x64 .f32 :=
  View.canon [⟨r1_0, k1_pay1 (View.ld x0 r1_0) (View.ld x1 r1_1) (View.ld x2 r1_2)⟩]

theorem cover1_3 (p0 : Vec F S10000x64 .f32) (y : S10000x64.Idx) :
    ∃ pc ∈ ([⟨r1_0, p0⟩] : List (View.Piece (Elt F) S10000x64 .f32)), y ∈ pc.1.set :=
  ⟨_, List.mem_singleton_self _, View.mem_set_unit_zero hz1 inb_S10000x64_S10000x64_0_0 y⟩

set_option maxHeartbeats 1000000 in
theorem sound_kernel1 (c : Dev nD) (E : Set ℕ) (i : grid1.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gate_kernel i arg1 harg1 arg2 harg2 arg3 harg3 arg4 harg4) K := by
  simp only [cc1__gate_kernel_eq_skeleton]; unfold cc1__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

def G1_3 (a0 : Vec F S10000x64 .f32) (a1 : Vec F S64x64 .f32) (a2 : Vec F S1x64 .f32) : Vec F S10000x64 .f32 :=
  k1_pay1 a0 a1 a2

theorem origin1_0 (t : Fin cfg1.N) : (fun a => win1_0.index t a * S10000x64.size a) = fun _ => 0 := by
  rw [fin_N1 t]; exact funext fun a => by fin_cases a <;> decide
theorem origin1_1 (t : Fin cfg1.N) : (fun a => win1_1.index t a * S64x64.size a) = fun _ => 0 := by
  rw [fin_N1 t]; exact funext fun a => by fin_cases a <;> decide
theorem origin1_2 (t : Fin cfg1.N) : (fun a => win1_2.index t a * S1x64.size a) = fun _ => 0 := by
  rw [fin_N1 t]; exact funext fun a => by fin_cases a <;> decide
theorem origin1_3 (t : Fin cfg1.N) : (fun a => win1_3.index t a * S10000x64.size a) = fun _ => 0 := by
  rw [fin_N1 t]; exact funext fun a => by fin_cases a <;> decide

theorem read_blk1_0 (t : Fin cfg1.N) (X : Vec F S10000x64 .f32) : ((cfg1.win 0).blk t).view.read (Elt F) X = X :=
  Memref.read_access_unit_zero (Elt F) (Pipeline.arrRef spec1 0) (origin1_0 t) (fun a => by rw [congrFun (origin1_0 t) a]; simp) X
theorem read_blk1_1 (t : Fin cfg1.N) (X : Vec F S64x64 .f32) : ((cfg1.win 1).blk t).view.read (Elt F) X = X :=
  Memref.read_access_unit_zero (Elt F) (Pipeline.arrRef spec1 1) (origin1_1 t) (fun a => by rw [congrFun (origin1_1 t) a]; simp) X
theorem read_blk1_2 (t : Fin cfg1.N) (X : Vec F S1x64 .f32) : ((cfg1.win 2).blk t).view.read (Elt F) X = X :=
  Memref.read_access_unit_zero (Elt F) (Pipeline.arrRef spec1 2) (origin1_2 t) (fun a => by rw [congrFun (origin1_2 t) a]; simp) X
theorem read_blk1_3 (t : Fin cfg1.N) (X : Vec F S10000x64 .f32) : ((cfg1.win 3).blk t).view.read (Elt F) X = X :=
  Memref.read_access_unit_zero (Elt F) (Pipeline.arrRef spec1 3) (origin1_3 t) (fun a => by rw [congrFun (origin1_3 t) a]; simp) X

theorem iblk1_0_eq (c : Dev nD) (t : Fin cfg1.N) : (iblk1 V c 0 t : Vec F S10000x64 .f32) = V c (Pipeline.arrRef spec1 0) := by
  unfold iblk1; exact read_blk1_0 t _
theorem iblk1_1_eq (c : Dev nD) (t : Fin cfg1.N) : (iblk1 V c 1 t : Vec F S64x64 .f32) = V c (Pipeline.arrRef spec1 1) := by
  unfold iblk1; exact read_blk1_1 t _
theorem iblk1_2_eq (c : Dev nD) (t : Fin cfg1.N) : (iblk1 V c 2 t : Vec F S1x64 .f32) = V c (Pipeline.arrRef spec1 2) := by
  unfold iblk1; exact read_blk1_2 t _

theorem flushed1_3_eq (c : Dev nD) (t : Fin cfg1.N) :
    (dat1 V c).flushed 3 t = ((cfg1.win 3).blk t).view.read (Elt F)
      (G1_3 (V c (Pipeline.arrRef spec1 0)) (V c (Pipeline.arrRef spec1 1)) (V c (Pipeline.arrRef spec1 2))) := by
  show (cfg1.win 3).cut (grid1.coords t) ((dat1 V c).after 3 t) = _
  rw [after1_3, read_blk1_3]
  unfold out1_3 G1_3
  rw [View.canon_unit_zero hz1]
  simp only [View.ld_unit_zero (S := S10000x64) hz1, View.ld_unit_zero (S := S64x64) hz1, View.ld_unit_zero (S := S1x64) hz1]
  rw [iblk1_0_eq, iblk1_1_eq, iblk1_2_eq]
  rfl

theorem cover_arr1_3 (i : S10000x64.Idx) :
    ∃ t : Fin cfg1.N, (cfg1.win 3).flush t = true ∧ i ∈ ((cfg1.win 3).blk t).view.set :=
  ⟨t1_0, flush1_3 t1_0, by
    show i ∈ ((View.whole (Pipeline.arrRef spec1 3)).slice (win1_3.rect t1_0)).set
    rw [View.set_slice_whole]
    exact View.mem_set_unit_zero (origin1_3 t1_0) _ i⟩

theorem final1_3 (c : Dev nD) :
    (dat1 V c).arrAt 3 cfg1.N
      = G1_3 (V c (Pipeline.arrRef spec1 0)) (V c (Pipeline.arrRef spec1 1)) (V c (Pipeline.arrRef spec1 2)) :=
  (dat1 V c).arrAt_eq_of_cover 3 _ (fun t _ => flushed1_3_eq V c t) cover_arr1_3

end Cert.KernelIdeal.Hand
-- ==== Proof.KI.R02.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

theorem hz2 : (![0, 0] : Fin 2 → Nat) = fun _ => 0 := funext fun a => by fin_cases a <;> rfl

def out2_3 (x0 : Vec F S10000x64 .f32) (x1 : Vec F S64x64 .f32) (x2 : Vec F S1x64 .f32) : Vec F S10000x64 .f32 :=
  View.canon [⟨r2_0, k2_pay1 (View.ld x0 r2_0) (View.ld x1 r2_1) (View.ld x2 r2_2)⟩]

theorem cover2_3 (p0 : Vec F S10000x64 .f32) (y : S10000x64.Idx) :
    ∃ pc ∈ ([⟨r2_0, p0⟩] : List (View.Piece (Elt F) S10000x64 .f32)), y ∈ pc.1.set :=
  ⟨_, List.mem_singleton_self _, View.mem_set_unit_zero hz2 inb_S10000x64_S10000x64_0_0 y⟩

set_option maxHeartbeats 1000000 in
theorem sound_kernel2 (c : Dev nD) (E : Set ℕ) (i : grid2.Coords)
    (arg1 : Memref sig .tc .vmem S10000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S10000x64 .f32) (harg4 : arg4.IsWhole)
    (x0 : Vec F S10000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__gate_kernel i arg1 harg1 arg2 harg2 arg3 harg3 arg4 harg4) K := by
  simp only [cc2__gate_kernel_eq_skeleton]; unfold cc2__gate_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

def G2_3 (a0 : Vec F S10000x64 .f32) (a1 : Vec F S64x64 .f32) (a2 : Vec F S1x64 .f32) : Vec F S10000x64 .f32 :=
  k2_pay1 a0 a1 a2

theorem origin2_0 (t : Fin cfg2.N) : (fun a => win2_0.index t a * S10000x64.size a) = fun _ => 0 := by
  rw [fin_N2 t]; exact funext fun a => by fin_cases a <;> decide
theorem origin2_1 (t : Fin cfg2.N) : (fun a => win2_1.index t a * S64x64.size a) = fun _ => 0 := by
  rw [fin_N2 t]; exact funext fun a => by fin_cases a <;> decide
theorem origin2_2 (t : Fin cfg2.N) : (fun a => win2_2.index t a * S1x64.size a) = fun _ => 0 := by
  rw [fin_N2 t]; exact funext fun a => by fin_cases a <;> decide
theorem origin2_3 (t : Fin cfg2.N) : (fun a => win2_3.index t a * S10000x64.size a) = fun _ => 0 := by
  rw [fin_N2 t]; exact funext fun a => by fin_cases a <;> decide

theorem read_blk2_0 (t : Fin cfg2.N) (X : Vec F S10000x64 .f32) : ((cfg2.win 0).blk t).view.read (Elt F) X = X :=
  Memref.read_access_unit_zero (Elt F) (Pipeline.arrRef spec2 0) (origin2_0 t) (fun a => by rw [congrFun (origin2_0 t) a]; simp) X
theorem read_blk2_1 (t : Fin cfg2.N) (X : Vec F S64x64 .f32) : ((cfg2.win 1).blk t).view.read (Elt F) X = X :=
  Memref.read_access_unit_zero (Elt F) (Pipeline.arrRef spec2 1) (origin2_1 t) (fun a => by rw [congrFun (origin2_1 t) a]; simp) X
theorem read_blk2_2 (t : Fin cfg2.N) (X : Vec F S1x64 .f32) : ((cfg2.win 2).blk t).view.read (Elt F) X = X :=
  Memref.read_access_unit_zero (Elt F) (Pipeline.arrRef spec2 2) (origin2_2 t) (fun a => by rw [congrFun (origin2_2 t) a]; simp) X
theorem read_blk2_3 (t : Fin cfg2.N) (X : Vec F S10000x64 .f32) : ((cfg2.win 3).blk t).view.read (Elt F) X = X :=
  Memref.read_access_unit_zero (Elt F) (Pipeline.arrRef spec2 3) (origin2_3 t) (fun a => by rw [congrFun (origin2_3 t) a]; simp) X

theorem iblk2_0_eq (c : Dev nD) (t : Fin cfg2.N) : (iblk2 V c 0 t : Vec F S10000x64 .f32) = V c (Pipeline.arrRef spec2 0) := by
  unfold iblk2; exact read_blk2_0 t _
theorem iblk2_1_eq (c : Dev nD) (t : Fin cfg2.N) : (iblk2 V c 1 t : Vec F S64x64 .f32) = V c (Pipeline.arrRef spec2 1) := by
  unfold iblk2; exact read_blk2_1 t _
theorem iblk2_2_eq (c : Dev nD) (t : Fin cfg2.N) : (iblk2 V c 2 t : Vec F S1x64 .f32) = V c (Pipeline.arrRef spec2 2) := by
  unfold iblk2; exact read_blk2_2 t _

theorem flushed2_3_eq (c : Dev nD) (t : Fin cfg2.N) :
    (dat2 V c).flushed 3 t = ((cfg2.win 3).blk t).view.read (Elt F)
      (G2_3 (V c (Pipeline.arrRef spec2 0)) (V c (Pipeline.arrRef spec2 1)) (V c (Pipeline.arrRef spec2 2))) := by
  show (cfg2.win 3).cut (grid2.coords t) ((dat2 V c).after 3 t) = _
  rw [after2_3, read_blk2_3]
  unfold out2_3 G2_3
  rw [View.canon_unit_zero hz2]
  simp only [View.ld_unit_zero (S := S10000x64) hz2, View.ld_unit_zero (S := S64x64) hz2, View.ld_unit_zero (S := S1x64) hz2]
  rw [iblk2_0_eq, iblk2_1_eq, iblk2_2_eq]
  rfl

theorem cover_arr2_3 (i : S10000x64.Idx) :
    ∃ t : Fin cfg2.N, (cfg2.win 3).flush t = true ∧ i ∈ ((cfg2.win 3).blk t).view.set :=
  ⟨t2_0, flush2_3 t2_0, by
    show i ∈ ((View.whole (Pipeline.arrRef spec2 3)).slice (win2_3.rect t2_0)).set
    rw [View.set_slice_whole]
    exact View.mem_set_unit_zero (origin2_3 t2_0) _ i⟩

theorem final2_3 (c : Dev nD) :
    (dat2 V c).arrAt 3 cfg2.N
      = G2_3 (V c (Pipeline.arrRef spec2 0)) (V c (Pipeline.arrRef spec2 1)) (V c (Pipeline.arrRef spec2 2)) :=
  (dat2 V c).arrAt_eq_of_cover 3 _ (fun t _ => flushed2_3_eq V c t) cover_arr2_3

end Cert.KernelIdeal.Hand
-- ==== Proof.KI.R03.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S400x10000 := Rect.unit (s := S400x10000) ![0, 0] S400x10000.size inb_S400x10000_S400x10000_0_0
abbrev r3_1 : Rect S10000x64 := Rect.unit (s := S10000x64) ![0, 0] S10000x64.size inb_S10000x64_S10000x64_0_0
abbrev r3_2 : Rect S400x64 := Rect.unit (s := S400x64) ![0, 0] S400x64.size inb_S400x64_S400x64_0_0

def out3_3 (x0 : Vec F S400x10000 .bf16) (x1 : Vec F S10000x64 .bf16) (x2 : Vec F S400x64 .f32) : Vec F S400x64 .f32 :=
  View.canon [⟨r3_2, k3_pay1 (View.ld x0 r3_0) (View.ld x1 r3_1) (View.ld x2 r3_2)⟩]

theorem cover3_3 (p0 : Vec F S400x64 .f32) (y : S400x64.Idx) :
    ∃ pc ∈ ([⟨r3_2, p0⟩] : List (View.Piece (Elt F) S400x64 .f32)), y ∈ pc.1.set :=
  View.cover_of_tiled [⟨r3_2, p0⟩] S400x64.size (by rfl) y

set_option maxHeartbeats 1000000 in
theorem sound_kernel3 (c : Dev nD) (E : Set ℕ) (i : grid3.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__matmul_res_kernel i arg1 harg1 arg2 harg2 arg3 harg3 arg4 harg4) K := by
  simp only [cc3__matmul_res_kernel_eq_skeleton]; unfold cc3__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (c : Dev nD) : BodyObligation (dat3 (F := F) V c) (defs₀ (F := F)) Variants.none () Set.univ := fun t => by
  rw [bigSep_W3, bigSep_W3]
  exact sound_body3 V c t

open Idealize.ShloMosaic.ValueIdx

theorem zero_off3 : (![0, 0] : Fin 2 → Nat) = fun _ => 0 := funext fun a => by fin_cases a <;> rfl

def rowBlock3 {α : Type} {n : Nat} (a : (⟨2, ![10000, n]⟩ : Shape).Idx → α) (r : Fin 10000) : (⟨2, ![400, n]⟩ : Shape).Idx → α :=
  fun j => a (ix2 ⟨r.val / 400 * 400 + (j 0).val, by have h := idx2_lt0 j; have h' := r.isLt; omega⟩ (j 1))

def G3_3 (a0 : Vec F S10000x10000 .bf16) (a1 : Vec F S10000x64 .bf16) (a2 : Vec F S10000x64 .f32) : Vec F S10000x64 .f32 :=
  fun i => k3_pay1 (rowBlock3 a0 (i 0)) a1 (rowBlock3 a2 (i 0)) (ix2 ⟨(i 0).val % 400, Nat.mod_lt _ (by decide)⟩ (i 1))

theorem G3_3_block (a0 : Vec F S10000x10000 .bf16) (a1 : Vec F S10000x64 .bf16) (a2 : Vec F S10000x64 .f32) (b : ℕ)
    (x0 : Vec F S400x10000 .bf16) (x1 : Vec F S10000x64 .bf16) (x2 : Vec F S400x64 .f32)
    (h0 : ∀ (j : S400x10000.Idx) (i : S10000x10000.Idx), (i 0).val = b * 400 + (j 0).val → (i 1).val = (j 1).val → x0 j = a0 i)
    (h1 : x1 = a1)
    (h2 : ∀ (j : S400x64.Idx) (i : S10000x64.Idx), (i 0).val = b * 400 + (j 0).val → (i 1).val = (j 1).val → x2 j = a2 i)
    (j : S400x64.Idx) (i : S10000x64.Idx) (hi0 : (i 0).val = b * 400 + (j 0).val) (hi1 : (i 1).val = (j 1).val) :
    k3_pay1 x0 x1 x2 j = G3_3 a0 a1 a2 i := by
  have hj0 : (j 0).val < 400 := idx2_lt0 j
  unfold G3_3
  have e0 : rowBlock3 a0 (i 0) = x0 := funext fun j' => by
    have hj' : (j' 0).val < 400 := idx2_lt0 j'
    exact (h0 j' _ (by show (i 0).val / 400 * 400 + (j' 0).val = _; omega) rfl).symm
  have e2 : rowBlock3 a2 (i 0) = x2 := funext fun j' => by
    have hj' : (j' 0).val < 400 := idx2_lt0 j'
    exact (h2 j' _ (by show (i 0).val / 400 * 400 + (j' 0).val = _; omega) rfl).symm
  have ej : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  rw [e0, e2, ej, h1]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem flushed3_3_eq (c : Dev nD) (t : Fin cfg3.N) :
    (dat3 V c).flushed 3 t = ((cfg3.win 3).blk t).view.read (Elt F)
      (G3_3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_off3]
  simp only [View.ld_unit_zero (S := S400x10000) zero_off3, View.ld_unit_zero (S := S10000x64) zero_off3, View.ld_unit_zero (S := S400x64) zero_off3]
  obtain ⟨e00, e01, e10, e11, e20, e21, e30, e31⟩ := idx_facts3 t
  funext j
  show k3_pay1 (iblk3 V c 0 t) (iblk3 V c 1 t) (iblk3 V c 2 t) j
    = G3_3 (V c (Pipeline.arrRef spec3 0)) (V c (Pipeline.arrRef spec3 1)) (V c (Pipeline.arrRef spec3 2)) (((cfg3.win 3).blk t).view.emb j)
  refine G3_3_block _ _ _ t.val _ _ _ ?_ ?_ ?_ j _ ?_ ?_
  · intro j' i hi0 hi1
    show V c (Pipeline.arrRef spec3 0) (((cfg3.win 0).blk t).view.emb j') = V c (Pipeline.arrRef spec3 0) i
    refine congrArg _ ?_
    funext a; apply Fin.ext
    match a with
    | ⟨0, _⟩ => show win3_0.index t (0 : Fin 2) * 400 + 1 * (j' 0).val = (i 0).val; omega
    | ⟨1, _⟩ => show win3_0.index t (1 : Fin 2) * 10000 + 1 * (j' 1).val = (i 1).val; omega
  · funext j'
    show V c (Pipeline.arrRef spec3 1) (((cfg3.win 1).blk t).view.emb j') = V c (Pipeline.arrRef spec3 1) j'
    refine congrArg _ ?_
    funext a; apply Fin.ext
    match a with
    | ⟨0, _⟩ => show win3_1.index t (0 : Fin 2) * 10000 + 1 * (j' 0).val = (j' 0).val; omega
    | ⟨1, _⟩ => show win3_1.index t (1 : Fin 2) * 64 + 1 * (j' 1).val = (j' 1).val; omega
  · intro j' i hi0 hi1
    show V c (Pipeline.arrRef spec3 2) (((cfg3.win 2).blk t).view.emb j') = V c (Pipeline.arrRef spec3 2) i
    refine congrArg _ ?_
    funext a; apply Fin.ext
    match a with
    | ⟨0, _⟩ => show win3_2.index t (0 : Fin 2) * 400 + 1 * (j' 0).val = (i 0).val; omega
    | ⟨1, _⟩ => show win3_2.index t (1 : Fin 2) * 64 + 1 * (j' 1).val = (i 1).val; omega
  · show win3_3.index t (0 : Fin 2) * 400 + 1 * (j 0).val = t.val * 400 + (j 0).val; omega
  · show win3_3.index t (1 : Fin 2) * 64 + 1 * (j 1).val = (j 1).val; omega

theorem mem_blk3_3 (t : Fin cfg3.N) (i : S10000x64.Idx) :
    i ∈ ((cfg3.win 3).blk t).view.set ↔ ∀ a : Fin 2, win3_3.index t a * S400x64.size a ≤ (i a).val ∧ (i a).val < win3_3.index t a * S400x64.size a + S400x64.size a := by
  show i ∈ ((View.whole (Pipeline.arrRef spec3 3)).slice (win3_3.rect t)).set ↔ _
  rw [View.set_slice_whole, Rect.mem_set_unit]
  exact Iff.rfl

theorem idx_onto3 : ∀ q : Fin 25, ∃ t : Fin cfg3.N, win3_3.index t = ![q.val, 0] :=
  (by decide +kernel : ∀ q : Fin 25, ∃ t : Fin grid3.N, win3_3.index t = ![q.val, 0])

theorem covered3_3 (i : S10000x64.Idx) : ∃ t : Fin cfg3.N, (cfg3.win 3).flush t = true ∧ i ∈ ((cfg3.win 3).blk t).view.set := by
  have hi0 : (i 0).val < 10000 := idx2_lt0 i
  have hi1 : (i 1).val < 64 := idx2_lt1 i
  obtain ⟨t, ht⟩ := idx_onto3 ⟨(i 0).val / 400, by omega⟩
  have q0 : win3_3.index t (0 : Fin 2) = (i 0).val / 400 := congrFun ht 0
  have q1 : win3_3.index t (1 : Fin 2) = 0 := congrFun ht 1
  refine ⟨t, flush3_3 t, ?_⟩
  rw [mem_blk3_3]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 64 ≤ (i 1).val ∧ (i 1).val < win3_3.index t (1 : Fin 2) * 64 + 64; omega

theorem final3_3 (c : Dev nD) : (dat3 V c).arrAt 3 cfg3.N
    = G3_3 (V c (Pipeline.arrRef spec3 0)) (V c (Pipeline.arrRef spec3 1)) (V c (Pipeline.arrRef spec3 2)) :=
  (dat3 V c).arrAt_eq_of_cover 3 _ (fun t _ => flushed3_3_eq V c t) covered3_3

theorem rowBlock3_apply {α : Type} {n : Nat} (a : (⟨2, ![10000, n]⟩ : Shape).Idx → α) (r : Fin 10000) (h : r.val % 400 < 400) (k : Fin n) :
    rowBlock3 a r (ix2 ⟨r.val % 400, h⟩ k) = a (ix2 r k) := by
  unfold rowBlock3
  refine congrArg a ?_
  funext ax; apply Fin.ext
  match ax with
  | ⟨0, _⟩ => show r.val / 400 * 400 + r.val % 400 = r.val; omega
  | ⟨1, _⟩ => rfl

theorem dot3_lhs (r : Fin 400) (d : Fin 64) (k : Fin 10000) :
    dot_S400x10000_S10000x64_S400x64_1_0_0_1_n_n.lhsIdx (ix2 r d)
      ((contrEquiv1 dot_S400x10000_S10000x64_S400x64_1_0_0_1_n_n 10000 rfl rfl).symm k) = ix2 r k := by
  have ck := contrEquiv1_symm_val dot_S400x10000_S10000x64_S400x64_1_0_0_1_n_n 10000 rfl rfl k
  funext ax; apply Fin.ext
  match ax with
  | ⟨0, _⟩ => simp [DotDims.lhsIdx, dot_S400x10000_S10000x64_S400x64_1_0_0_1_n_n]; rfl
  | ⟨1, _⟩ => simp [DotDims.lhsIdx, dot_S400x10000_S10000x64_S400x64_1_0_0_1_n_n]; exact ck

theorem dot3_rhs (r : Fin 400) (d : Fin 64) (k : Fin 10000) :
    dot_S400x10000_S10000x64_S400x64_1_0_0_1_n_n.rhsIdx (ix2 r d)
      ((contrEquiv1 dot_S400x10000_S10000x64_S400x64_1_0_0_1_n_n 10000 rfl rfl).symm k) = ix2 k d := by
  have ck := contrEquiv1_symm_val dot_S400x10000_S10000x64_S400x64_1_0_0_1_n_n 10000 rfl rfl k
  funext ax; apply Fin.ext
  match ax with
  | ⟨0, _⟩ => simp [DotDims.rhsIdx, dot_S400x10000_S10000x64_S400x64_1_0_0_1_n_n]; exact ck
  | ⟨1, _⟩ => simp [DotDims.rhsIdx, dot_S400x10000_S10000x64_S400x64_1_0_0_1_n_n]; rfl

theorem G3_3_apply (a0 : Vec Ideal S10000x10000 .bf16) (a1 : Vec Ideal S10000x64 .bf16) (a2 : Vec Ideal S10000x64 .f32)
    (r : Fin 10000) (d : Fin 64) :
    G3_3 (F := Ideal) a0 a1 a2 (ix2 r d) = (∑ k : Fin 10000, a0 (ix2 r k) * a1 (ix2 k d)) + a2 (ix2 r d) := by
  have hr : r.val % 400 < 400 := Nat.mod_lt _ (by decide)
  show k3_pay1 (F := Ideal) (rowBlock3 a0 r) a1 (rowBlock3 a2 r) (ix2 ⟨r.val % 400, hr⟩ d) = _
  unfold k3_pay1
  simp only [matmul, shapeCast_self]
  rw [addf_apply, Ideal.matmul_constant_zero_apply,
    ← Equiv.sum_comp (contrEquiv1 dot_S400x10000_S10000x64_S400x64_1_0_0_1_n_n 10000 rfl rfl).symm]
  rw [rowBlock3_apply a2 r hr d]
  refine congrArg (· + a2 (ix2 r d)) (Finset.sum_congr rfl fun k _ => ?_)
  rw [dot3_lhs, dot3_rhs, rowBlock3_apply a0 r hr k]

end Cert.KernelIdeal.Hand
-- ==== Proof.KI.R04.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S400x10000 := Rect.unit (s := S400x10000) ![0, 0] S400x10000.size inb_S400x10000_S400x10000_0_0
abbrev r4_1 : Rect S10000x64 := Rect.unit (s := S10000x64) ![0, 0] S10000x64.size inb_S10000x64_S10000x64_0_0
abbrev r4_2 : Rect S400x64 := Rect.unit (s := S400x64) ![0, 0] S400x64.size inb_S400x64_S400x64_0_0

def out4_3 (x0 : Vec F S400x10000 .bf16) (x1 : Vec F S10000x64 .bf16) (x2 : Vec F S400x64 .f32) : Vec F S400x64 .f32 :=
  View.canon [⟨r4_2, k4_pay1 (View.ld x0 r4_0) (View.ld x1 r4_1) (View.ld x2 r4_2)⟩]

theorem cover4_3 (p0 : Vec F S400x64 .f32) (y : S400x64.Idx) :
    ∃ pc ∈ ([⟨r4_2, p0⟩] : List (View.Piece (Elt F) S400x64 .f32)), y ∈ pc.1.set :=
  View.cover_of_tiled [⟨r4_2, p0⟩] S400x64.size (by rfl) y

set_option maxHeartbeats 1000000 in
theorem sound_kernel4 (c : Dev nD) (E : Set ℕ) (i : grid4.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__matmul_res_kernel i arg1 harg1 arg2 harg2 arg3 harg3 arg4 harg4) K := by
  simp only [cc4__matmul_res_kernel_eq_skeleton]; unfold cc4__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation4 (c : Dev nD) : BodyObligation (dat4 (F := F) V c) (defs₀ (F := F)) Variants.none () Set.univ := fun t => by
  rw [bigSep_W4, bigSep_W4]
  exact sound_body4 V c t

open Idealize.ShloMosaic.ValueIdx

theorem zero_off4 : (![0, 0] : Fin 2 → Nat) = fun _ => 0 := funext fun a => by fin_cases a <;> rfl

def rowBlock4 {α : Type} {n : Nat} (a : (⟨2, ![10000, n]⟩ : Shape).Idx → α) (r : Fin 10000) : (⟨2, ![400, n]⟩ : Shape).Idx → α :=
  fun j => a (ix2 ⟨r.val / 400 * 400 + (j 0).val, by have h := idx2_lt0 j; have h' := r.isLt; omega⟩ (j 1))

def G4_3 (a0 : Vec F S10000x10000 .bf16) (a1 : Vec F S10000x64 .bf16) (a2 : Vec F S10000x64 .f32) : Vec F S10000x64 .f32 :=
  fun i => k4_pay1 (rowBlock4 a0 (i 0)) a1 (rowBlock4 a2 (i 0)) (ix2 ⟨(i 0).val % 400, Nat.mod_lt _ (by decide)⟩ (i 1))

theorem G4_3_block (a0 : Vec F S10000x10000 .bf16) (a1 : Vec F S10000x64 .bf16) (a2 : Vec F S10000x64 .f32) (b : ℕ)
    (x0 : Vec F S400x10000 .bf16) (x1 : Vec F S10000x64 .bf16) (x2 : Vec F S400x64 .f32)
    (h0 : ∀ (j : S400x10000.Idx) (i : S10000x10000.Idx), (i 0).val = b * 400 + (j 0).val → (i 1).val = (j 1).val → x0 j = a0 i)
    (h1 : x1 = a1)
    (h2 : ∀ (j : S400x64.Idx) (i : S10000x64.Idx), (i 0).val = b * 400 + (j 0).val → (i 1).val = (j 1).val → x2 j = a2 i)
    (j : S400x64.Idx) (i : S10000x64.Idx) (hi0 : (i 0).val = b * 400 + (j 0).val) (hi1 : (i 1).val = (j 1).val) :
    k4_pay1 x0 x1 x2 j = G4_3 a0 a1 a2 i := by
  have hj0 : (j 0).val < 400 := idx2_lt0 j
  unfold G4_3
  have e0 : rowBlock4 a0 (i 0) = x0 := funext fun j' => by
    have hj' : (j' 0).val < 400 := idx2_lt0 j'
    exact (h0 j' _ (by show (i 0).val / 400 * 400 + (j' 0).val = _; omega) rfl).symm
  have e2 : rowBlock4 a2 (i 0) = x2 := funext fun j' => by
    have hj' : (j' 0).val < 400 := idx2_lt0 j'
    exact (h2 j' _ (by show (i 0).val / 400 * 400 + (j' 0).val = _; omega) rfl).symm
  have ej : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  rw [e0, e2, ej, h1]

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

theorem flushed4_3_eq (c : Dev nD) (t : Fin cfg4.N) :
    (dat4 V c).flushed 3 t = ((cfg4.win 3).blk t).view.read (Elt F)
      (G4_3 (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero_off4]
  simp only [View.ld_unit_zero (S := S400x10000) zero_off4, View.ld_unit_zero (S := S10000x64) zero_off4, View.ld_unit_zero (S := S400x64) zero_off4]
  obtain ⟨e00, e01, e10, e11, e20, e21, e30, e31⟩ := idx_facts4 t
  funext j
  show k4_pay1 (iblk4 V c 0 t) (iblk4 V c 1 t) (iblk4 V c 2 t) j
    = G4_3 (V c (Pipeline.arrRef spec4 0)) (V c (Pipeline.arrRef spec4 1)) (V c (Pipeline.arrRef spec4 2)) (((cfg4.win 3).blk t).view.emb j)
  refine G4_3_block _ _ _ t.val _ _ _ ?_ ?_ ?_ j _ ?_ ?_
  · intro j' i hi0 hi1
    show V c (Pipeline.arrRef spec4 0) (((cfg4.win 0).blk t).view.emb j') = V c (Pipeline.arrRef spec4 0) i
    refine congrArg _ ?_
    funext a; apply Fin.ext
    match a with
    | ⟨0, _⟩ => show win4_0.index t (0 : Fin 2) * 400 + 1 * (j' 0).val = (i 0).val; omega
    | ⟨1, _⟩ => show win4_0.index t (1 : Fin 2) * 10000 + 1 * (j' 1).val = (i 1).val; omega
  · funext j'
    show V c (Pipeline.arrRef spec4 1) (((cfg4.win 1).blk t).view.emb j') = V c (Pipeline.arrRef spec4 1) j'
    refine congrArg _ ?_
    funext a; apply Fin.ext
    match a with
    | ⟨0, _⟩ => show win4_1.index t (0 : Fin 2) * 10000 + 1 * (j' 0).val = (j' 0).val; omega
    | ⟨1, _⟩ => show win4_1.index t (1 : Fin 2) * 64 + 1 * (j' 1).val = (j' 1).val; omega
  · intro j' i hi0 hi1
    show V c (Pipeline.arrRef spec4 2) (((cfg4.win 2).blk t).view.emb j') = V c (Pipeline.arrRef spec4 2) i
    refine congrArg _ ?_
    funext a; apply Fin.ext
    match a with
    | ⟨0, _⟩ => show win4_2.index t (0 : Fin 2) * 400 + 1 * (j' 0).val = (i 0).val; omega
    | ⟨1, _⟩ => show win4_2.index t (1 : Fin 2) * 64 + 1 * (j' 1).val = (i 1).val; omega
  · show win4_3.index t (0 : Fin 2) * 400 + 1 * (j 0).val = t.val * 400 + (j 0).val; omega
  · show win4_3.index t (1 : Fin 2) * 64 + 1 * (j 1).val = (j 1).val; omega

theorem mem_blk4_3 (t : Fin cfg4.N) (i : S10000x64.Idx) :
    i ∈ ((cfg4.win 3).blk t).view.set ↔ ∀ a : Fin 2, win4_3.index t a * S400x64.size a ≤ (i a).val ∧ (i a).val < win4_3.index t a * S400x64.size a + S400x64.size a := by
  show i ∈ ((View.whole (Pipeline.arrRef spec4 3)).slice (win4_3.rect t)).set ↔ _
  rw [View.set_slice_whole, Rect.mem_set_unit]
  exact Iff.rfl

theorem idx_onto4 : ∀ q : Fin 25, ∃ t : Fin cfg4.N, win4_3.index t = ![q.val, 0] :=
  (by decide +kernel : ∀ q : Fin 25, ∃ t : Fin grid4.N, win4_3.index t = ![q.val, 0])

theorem covered4_3 (i : S10000x64.Idx) : ∃ t : Fin cfg4.N, (cfg4.win 3).flush t = true ∧ i ∈ ((cfg4.win 3).blk t).view.set := by
  have hi0 : (i 0).val < 10000 := idx2_lt0 i
  have hi1 : (i 1).val < 64 := idx2_lt1 i
  obtain ⟨t, ht⟩ := idx_onto4 ⟨(i 0).val / 400, by omega⟩
  have q0 : win4_3.index t (0 : Fin 2) = (i 0).val / 400 := congrFun ht 0
  have q1 : win4_3.index t (1 : Fin 2) = 0 := congrFun ht 1
  refine ⟨t, flush4_3 t, ?_⟩
  rw [mem_blk4_3]
  intro a
  match a with
  | ⟨0, _⟩ => show win4_3.index t (0 : Fin 2) * 400 ≤ (i 0).val ∧ (i 0).val < win4_3.index t (0 : Fin 2) * 400 + 400; omega
  | ⟨1, _⟩ => show win4_3.index t (1 : Fin 2) * 64 ≤ (i 1).val ∧ (i 1).val < win4_3.index t (1 : Fin 2) * 64 + 64; omega

theorem final4_3 (c : Dev nD) : (dat4 V c).arrAt 3 cfg4.N
    = G4_3 (V c (Pipeline.arrRef spec4 0)) (V c (Pipeline.arrRef spec4 1)) (V c (Pipeline.arrRef spec4 2)) :=
  (dat4 V c).arrAt_eq_of_cover 3 _ (fun t _ => flushed4_3_eq V c t) covered4_3

theorem rowBlock4_apply {α : Type} {n : Nat} (a : (⟨2, ![10000, n]⟩ : Shape).Idx → α) (r : Fin 10000) (h : r.val % 400 < 400) (k : Fin n) :
    rowBlock4 a r (ix2 ⟨r.val % 400, h⟩ k) = a (ix2 r k) := by
  unfold rowBlock4
  refine congrArg a ?_
  funext ax; apply Fin.ext
  match ax with
  | ⟨0, _⟩ => show r.val / 400 * 400 + r.val % 400 = r.val; omega
  | ⟨1, _⟩ => rfl

theorem dot4_lhs (r : Fin 400) (d : Fin 64) (k : Fin 10000) :
    dot_S400x10000_S10000x64_S400x64_1_0_0_1_n_n.lhsIdx (ix2 r d)
      ((contrEquiv1 dot_S400x10000_S10000x64_S400x64_1_0_0_1_n_n 10000 rfl rfl).symm k) = ix2 r k := by
  have ck := contrEquiv1_symm_val dot_S400x10000_S10000x64_S400x64_1_0_0_1_n_n 10000 rfl rfl k
  funext ax; apply Fin.ext
  match ax with
  | ⟨0, _⟩ => simp [DotDims.lhsIdx, dot_S400x10000_S10000x64_S400x64_1_0_0_1_n_n]; rfl
  | ⟨1, _⟩ => simp [DotDims.lhsIdx, dot_S400x10000_S10000x64_S400x64_1_0_0_1_n_n]; exact ck

theorem dot4_rhs (r : Fin 400) (d : Fin 64) (k : Fin 10000) :
    dot_S400x10000_S10000x64_S400x64_1_0_0_1_n_n.rhsIdx (ix2 r d)
      ((contrEquiv1 dot_S400x10000_S10000x64_S400x64_1_0_0_1_n_n 10000 rfl rfl).symm k) = ix2 k d := by
  have ck := contrEquiv1_symm_val dot_S400x10000_S10000x64_S400x64_1_0_0_1_n_n 10000 rfl rfl k
  funext ax; apply Fin.ext
  match ax with
  | ⟨0, _⟩ => simp [DotDims.rhsIdx, dot_S400x10000_S10000x64_S400x64_1_0_0_1_n_n]; exact ck
  | ⟨1, _⟩ => simp [DotDims.rhsIdx, dot_S400x10000_S10000x64_S400x64_1_0_0_1_n_n]; rfl

theorem G4_3_apply (a0 : Vec Ideal S10000x10000 .bf16) (a1 : Vec Ideal S10000x64 .bf16) (a2 : Vec Ideal S10000x64 .f32)
    (r : Fin 10000) (d : Fin 64) :
    G4_3 (F := Ideal) a0 a1 a2 (ix2 r d) = (∑ k : Fin 10000, a0 (ix2 r k) * a1 (ix2 k d)) + a2 (ix2 r d) := by
  have hr : r.val % 400 < 400 := Nat.mod_lt _ (by decide)
  show k4_pay1 (F := Ideal) (rowBlock4 a0 r) a1 (rowBlock4 a2 r) (ix2 ⟨r.val % 400, hr⟩ d) = _
  unfold k4_pay1
  simp only [matmul, shapeCast_self]
  rw [addf_apply, Ideal.matmul_constant_zero_apply,
    ← Equiv.sum_comp (contrEquiv1 dot_S400x10000_S10000x64_S400x64_1_0_0_1_n_n 10000 rfl rfl).symm]
  rw [rowBlock4_apply a2 r hr d]
  refine congrArg (· + a2 (ix2 r d)) (Finset.sum_congr rfl fun k _ => ?_)
  rw [dot4_lhs, dot4_rhs, rowBlock4_apply a0 r hr k]

end Cert.KernelIdeal.Hand
-- ==== Proof.KI.R05.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

abbrev r5_A : Rect S400x10000 := Rect.unit (s := S400x10000) ![0, 0] S400x10000.size inb_S400x10000_S400x10000_0_0
abbrev r5_X : Rect S10000x64 := Rect.unit (s := S10000x64) ![0, 0] S10000x64.size inb_S10000x64_S10000x64_0_0
abbrev r5_O : Rect S400x64 := Rect.unit (s := S400x64) ![0, 0] S400x64.size inb_S400x64_S400x64_0_0

def out5_2 (x0 : Vec F S400x10000 .bf16) (x1 : Vec F S10000x64 .bf16) : Vec F S400x64 .f32 :=
  View.canon [⟨r5_O, k5_pay1 (View.ld x0 r5_A) (View.ld x1 r5_X)⟩]

theorem cover5_2 (p0 : Vec F S400x64 .f32) (y : S400x64.Idx) :
    ∃ pc ∈ ([⟨r5_O, p0⟩] : List (View.Piece (Elt F) S400x64 .f32)), y ∈ pc.1.set :=
  View.cover_of_tiled [⟨r5_O, p0⟩] S400x64.size (by rfl) y

set_option maxHeartbeats 1000000 in
theorem sound_kernel5 (c : Dev nD) (E : Set ℕ) (i : grid5.Coords) (arg1 : Memref sig .tc .vmem S400x10000 .bf16) (harg1 : arg1.IsWhole)
    (arg2 : Memref sig .tc .vmem S10000x64 .bf16) (harg2 : arg2.IsWhole) (arg3 : Memref sig .tc .vmem S400x64 .f32) (harg3 : arg3.IsWhole)
    (x0 : Vec F S400x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__matmul_kernel i arg1 harg1 arg2 harg2 arg3 harg3) K := by
  simp only [cc5__matmul_kernel_eq_skeleton]; unfold cc5__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation5 (c : Dev nD) : BodyObligation (dat5 (F := F) V c) (defs₀ (F := F)) Variants.none () Set.univ := fun t => by
  rw [bigSep_W5, bigSep_W5]
  exact sound_body5 V c t

open ValueIdx

theorem hz5 : (![0, 0] : Fin 2 → Nat) = fun _ => 0 := funext fun a => by fin_cases a <;> rfl

def rows5 (A : Vec F S10000x10000 .bf16) (q : Nat) : Vec F S400x10000 .bf16 :=
  fun y => A (ix2 ⟨(q * 400 + (y 0).val) % 10000, Nat.mod_lt _ (by decide)⟩ (y 1))

def G5_2 (A : Vec F S10000x10000 .bf16) (X : Vec F S10000x64 .bf16) : Vec F S10000x64 .f32 :=
  fun i => k5_pay1 (rows5 A ((i 0).val / 400)) X (ix2 ⟨(i 0).val % 400, Nat.mod_lt _ (by decide)⟩ (i 1))

theorem G5_2_block (A : Vec F S10000x10000 .bf16) (X : Vec F S10000x64 .bf16) (q : Nat)
    (xA : Vec F S400x10000 .bf16) (xX : Vec F S10000x64 .bf16) (hA : xA = rows5 A q) (hX : xX = X)
    (j : S400x64.Idx) (i : S10000x64.Idx) (hi0 : (i 0).val = q * 400 + (j 0).val) (hi1 : (i 1).val = (j 1).val) :
    k5_pay1 xA xX j = G5_2 A X i := by
  subst hA hX
  have hj0 : (j 0).val < 400 := idx2_lt0 j
  have hq : (i 0).val / 400 = q := by omega
  have hj : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  show _ = k5_pay1 (rows5 A ((i 0).val / 400)) xX (ix2 ⟨(i 0).val % 400, Nat.mod_lt _ (by decide)⟩ (i 1))
  rw [hq, hj]

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem iblk5_0_eq (c : Dev nD) (t : Fin cfg5.N) :
    (iblk5 V c 0 t : Vec F S400x10000 .bf16) = rows5 (V c (Pipeline.arrRef spec5 0)) t.val := by
  obtain ⟨eA0, eA1, eX0, eX1, eO0, eO1⟩ := idx_facts5 t
  have ht : t.val < 25 := by have h := t.isLt; have hN : cfg5.N = 25 := N_5; omega
  funext y
  show V c (Pipeline.arrRef spec5 0) (((cfg5.win 0).blk t).view.emb y) = V c (Pipeline.arrRef spec5 0) _
  congr 1; funext a; apply Fin.ext
  have hy : (y 0).val < 400 := idx2_lt0 y
  match a with
  | ⟨0, _⟩ => show win5_0.index t (0 : Fin 2) * 400 + 1 * (y 0).val = (t.val * 400 + (y 0).val) % 10000; omega
  | ⟨1, _⟩ => show win5_0.index t (1 : Fin 2) * 10000 + 1 * (y 1).val = (y 1).val; omega

theorem iblk5_1_eq (c : Dev nD) (t : Fin cfg5.N) :
    (iblk5 V c 1 t : Vec F S10000x64 .bf16) = V c (Pipeline.arrRef spec5 1) := by
  obtain ⟨eA0, eA1, eX0, eX1, eO0, eO1⟩ := idx_facts5 t
  funext y
  show V c (Pipeline.arrRef spec5 1) (((cfg5.win 1).blk t).view.emb y) = V c (Pipeline.arrRef spec5 1) y
  congr 1; funext a; apply Fin.ext
  match a with
  | ⟨0, _⟩ => show win5_1.index t (0 : Fin 2) * 10000 + 1 * (y 0).val = (y 0).val; omega
  | ⟨1, _⟩ => show win5_1.index t (1 : Fin 2) * 64 + 1 * (y 1).val = (y 1).val; omega

set_option maxHeartbeats 1000000 in
theorem flushed5_2 (c : Dev nD) (t : Fin cfg5.N) :
    (dat5 V c).flushed 2 t = ((cfg5.win 2).blk t).view.read (Elt F) (G5_2 (V c (Pipeline.arrRef spec5 0)) (V c (Pipeline.arrRef spec5 1))) := by
  show (cfg5.win 2).cut (grid5.coords t) ((dat5 V c).after 2 t) = _
  rw [after5_2]
  unfold out5_2
  rw [View.canon_unit_zero hz5]
  simp only [View.ld_unit_zero (S := S400x10000) hz5, View.ld_unit_zero (S := S10000x64) hz5]
  obtain ⟨eA0, eA1, eX0, eX1, eO0, eO1⟩ := idx_facts5 t
  funext j
  show k5_pay1 (iblk5 V c 0 t) (iblk5 V c 1 t) j = G5_2 (V c (Pipeline.arrRef spec5 0)) (V c (Pipeline.arrRef spec5 1)) (((cfg5.win 2).blk t).view.emb j)
  refine G5_2_block _ _ t.val _ _ (iblk5_0_eq V c t) (iblk5_1_eq V c t) j _ ?_ ?_
  · show win5_2.index t (0 : Fin 2) * 400 + 1 * (j 0).val = t.val * 400 + (j 0).val; omega
  · show win5_2.index t (1 : Fin 2) * 64 + 1 * (j 1).val = (j 1).val; omega

theorem mem_blk5_2 (t : Fin cfg5.N) (i : S10000x64.Idx) :
    i ∈ ((cfg5.win 2).blk t).view.set ↔ ∀ a : Fin 2, win5_2.index t a * S400x64.size a ≤ (i a).val ∧ (i a).val < win5_2.index t a * S400x64.size a + S400x64.size a := by
  show i ∈ ((View.whole (Pipeline.arrRef spec5 2)).slice (win5_2.rect t)).set ↔ _
  rw [View.set_slice_whole, Rect.mem_set_unit]
  exact Iff.rfl

theorem cover5_out (i : S10000x64.Idx) : ∃ t : Fin cfg5.N, (cfg5.win 2).flush t = true ∧ i ∈ ((cfg5.win 2).blk t).view.set := by
  have hi0 : (i 0).val < 10000 := idx2_lt0 i
  have hi1 : (i 1).val < 64 := idx2_lt1 i
  have hN : cfg5.N = 25 := N_5
  obtain ⟨t, ht⟩ : ∃ t : Fin cfg5.N, t.val = (i 0).val / 400 := ⟨⟨(i 0).val / 400, by rw [hN]; omega⟩, rfl⟩
  obtain ⟨eA0, eA1, eX0, eX1, eO0, eO1⟩ := idx_facts5 t
  refine ⟨t, flush5_2 t, ?_⟩
  rw [mem_blk5_2]
  intro a
  match a with
  | ⟨0, _⟩ => show win5_2.index t (0 : Fin 2) * 400 ≤ (i 0).val ∧ (i 0).val < win5_2.index t (0 : Fin 2) * 400 + 400; omega
  | ⟨1, _⟩ => show win5_2.index t (1 : Fin 2) * 64 ≤ (i 1).val ∧ (i 1).val < win5_2.index t (1 : Fin 2) * 64 + 64; omega

theorem final5_2 (c : Dev nD) : (dat5 V c).arrAt 2 cfg5.N = G5_2 (V c (Pipeline.arrRef spec5 0)) (V c (Pipeline.arrRef spec5 1)) :=
  (dat5 V c).arrAt_eq_of_cover 2 _ (fun t _ => flushed5_2 V c t) cover5_out

theorem lhs5_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs5_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs5_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs5_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem G5_2_apply (A : S10000x10000.Idx → EReal) (X : S10000x64.Idx → EReal) (r : Fin 10000) (d : Fin 64) :
    G5_2 (F := Ideal) A X (ix2 r d) = ∑ k : Fin 10000, A (ix2 r k) * X (ix2 k d) := by
  have hr : r.val < 10000 := r.isLt
  unfold G5_2 k5_pay1
  simp only [matmul, shapeCast_self]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  congr 1
  · unfold rows5
    congr 1; funext a; apply Fin.ext
    match a with
    | ⟨0, _⟩ =>
      show ((r.val / 400) * 400 + (dot_S400x10000_S10000x64_S400x64_1_0_0_1_n_n.lhsIdx _ _ 0).val) % 10000 = r.val
      rw [lhs5_0]
      show ((r.val / 400) * 400 + r.val % 400) % 10000 = r.val
      omega
    | ⟨1, _⟩ => exact (lhs5_1 _ _).trans hk
  · congr 1; funext a; apply Fin.ext
    match a with
    | ⟨0, _⟩ => exact (rhs5_0 _ _).trans hk
    | ⟨1, _⟩ => exact rhs5_1 _ _

end Cert.KernelIdeal.Hand

end
-- ==== Proof.KI.R06.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_0 : Rect S400x10000 := Rect.unit (s := S400x10000) ![0, 0] S400x10000.size inb_S400x10000_S400x10000_0_0
abbrev r6_1 : Rect S10000x64 := Rect.unit (s := S10000x64) ![0, 0] S10000x64.size inb_S10000x64_S10000x64_0_0
abbrev r6_2 : Rect S400x64 := Rect.unit (s := S400x64) ![0, 0] S400x64.size inb_S400x64_S400x64_0_0

def out6_3 (x0 : Vec F S400x10000 .bf16) (x1 : Vec F S10000x64 .bf16) (x2 : Vec F S400x64 .f32) : Vec F S400x64 .f32 :=
  View.canon [⟨r6_2, k6_pay1 (View.ld x0 r6_0) (View.ld x1 r6_1) (View.ld x2 r6_2)⟩]

theorem cover6_3 (p0 : Vec F S400x64 .f32) (y : S400x64.Idx) :
    ∃ pc ∈ ([⟨r6_2, p0⟩] : List (View.Piece (Elt F) S400x64 .f32)), y ∈ pc.1.set :=
  View.cover_of_tiled [⟨r6_2, p0⟩] S400x64.size (by rfl) y

set_option maxHeartbeats 1000000 in
theorem sound_kernel6 (c : Dev nD) (E : Set ℕ) (i : grid6.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__matmul_res_kernel i arg1 harg1 arg2 harg2 arg3 harg3 arg4 harg4) K := by
  simp only [cc6__matmul_res_kernel_eq_skeleton]; unfold cc6__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation6 (c : Dev nD) : BodyObligation (dat6 (F := F) V c) (defs₀ (F := F)) Variants.none () Set.univ := fun t => by
  rw [bigSep_W6, bigSep_W6]
  exact sound_body6 V c t

open Idealize.ShloMosaic.ValueIdx

theorem zero_off6 : (![0, 0] : Fin 2 → Nat) = fun _ => 0 := funext fun a => by fin_cases a <;> rfl

def rowBlock6 {α : Type} {n : Nat} (a : (⟨2, ![10000, n]⟩ : Shape).Idx → α) (r : Fin 10000) : (⟨2, ![400, n]⟩ : Shape).Idx → α :=
  fun j => a (ix2 ⟨r.val / 400 * 400 + (j 0).val, by have h := idx2_lt0 j; have h' := r.isLt; omega⟩ (j 1))

def G6_3 (a0 : Vec F S10000x10000 .bf16) (a1 : Vec F S10000x64 .bf16) (a2 : Vec F S10000x64 .f32) : Vec F S10000x64 .f32 :=
  fun i => k6_pay1 (rowBlock6 a0 (i 0)) a1 (rowBlock6 a2 (i 0)) (ix2 ⟨(i 0).val % 400, Nat.mod_lt _ (by decide)⟩ (i 1))

theorem G6_3_block (a0 : Vec F S10000x10000 .bf16) (a1 : Vec F S10000x64 .bf16) (a2 : Vec F S10000x64 .f32) (b : ℕ)
    (x0 : Vec F S400x10000 .bf16) (x1 : Vec F S10000x64 .bf16) (x2 : Vec F S400x64 .f32)
    (h0 : ∀ (j : S400x10000.Idx) (i : S10000x10000.Idx), (i 0).val = b * 400 + (j 0).val → (i 1).val = (j 1).val → x0 j = a0 i)
    (h1 : x1 = a1)
    (h2 : ∀ (j : S400x64.Idx) (i : S10000x64.Idx), (i 0).val = b * 400 + (j 0).val → (i 1).val = (j 1).val → x2 j = a2 i)
    (j : S400x64.Idx) (i : S10000x64.Idx) (hi0 : (i 0).val = b * 400 + (j 0).val) (hi1 : (i 1).val = (j 1).val) :
    k6_pay1 x0 x1 x2 j = G6_3 a0 a1 a2 i := by
  have hj0 : (j 0).val < 400 := idx2_lt0 j
  unfold G6_3
  have e0 : rowBlock6 a0 (i 0) = x0 := funext fun j' => by
    have hj' : (j' 0).val < 400 := idx2_lt0 j'
    exact (h0 j' _ (by show (i 0).val / 400 * 400 + (j' 0).val = _; omega) rfl).symm
  have e2 : rowBlock6 a2 (i 0) = x2 := funext fun j' => by
    have hj' : (j' 0).val < 400 := idx2_lt0 j'
    exact (h2 j' _ (by show (i 0).val / 400 * 400 + (j' 0).val = _; omega) rfl).symm
  have ej : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  rw [e0, e2, ej, h1]

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem flushed6_3_eq (c : Dev nD) (t : Fin cfg6.N) :
    (dat6 V c).flushed 3 t = ((cfg6.win 3).blk t).view.read (Elt F)
      (G6_3 (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zero_off6]
  simp only [View.ld_unit_zero (S := S400x10000) zero_off6, View.ld_unit_zero (S := S10000x64) zero_off6, View.ld_unit_zero (S := S400x64) zero_off6]
  obtain ⟨e00, e01, e10, e11, e20, e21, e30, e31⟩ := idx_facts6 t
  funext j
  show k6_pay1 (iblk6 V c 0 t) (iblk6 V c 1 t) (iblk6 V c 2 t) j
    = G6_3 (V c (Pipeline.arrRef spec6 0)) (V c (Pipeline.arrRef spec6 1)) (V c (Pipeline.arrRef spec6 2)) (((cfg6.win 3).blk t).view.emb j)
  refine G6_3_block _ _ _ t.val _ _ _ ?_ ?_ ?_ j _ ?_ ?_
  · intro j' i hi0 hi1
    show V c (Pipeline.arrRef spec6 0) (((cfg6.win 0).blk t).view.emb j') = V c (Pipeline.arrRef spec6 0) i
    refine congrArg _ ?_
    funext a; apply Fin.ext
    match a with
    | ⟨0, _⟩ => show win6_0.index t (0 : Fin 2) * 400 + 1 * (j' 0).val = (i 0).val; omega
    | ⟨1, _⟩ => show win6_0.index t (1 : Fin 2) * 10000 + 1 * (j' 1).val = (i 1).val; omega
  · funext j'
    show V c (Pipeline.arrRef spec6 1) (((cfg6.win 1).blk t).view.emb j') = V c (Pipeline.arrRef spec6 1) j'
    refine congrArg _ ?_
    funext a; apply Fin.ext
    match a with
    | ⟨0, _⟩ => show win6_1.index t (0 : Fin 2) * 10000 + 1 * (j' 0).val = (j' 0).val; omega
    | ⟨1, _⟩ => show win6_1.index t (1 : Fin 2) * 64 + 1 * (j' 1).val = (j' 1).val; omega
  · intro j' i hi0 hi1
    show V c (Pipeline.arrRef spec6 2) (((cfg6.win 2).blk t).view.emb j') = V c (Pipeline.arrRef spec6 2) i
    refine congrArg _ ?_
    funext a; apply Fin.ext
    match a with
    | ⟨0, _⟩ => show win6_2.index t (0 : Fin 2) * 400 + 1 * (j' 0).val = (i 0).val; omega
    | ⟨1, _⟩ => show win6_2.index t (1 : Fin 2) * 64 + 1 * (j' 1).val = (i 1).val; omega
  · show win6_3.index t (0 : Fin 2) * 400 + 1 * (j 0).val = t.val * 400 + (j 0).val; omega
  · show win6_3.index t (1 : Fin 2) * 64 + 1 * (j 1).val = (j 1).val; omega

theorem mem_blk6_3 (t : Fin cfg6.N) (i : S10000x64.Idx) :
    i ∈ ((cfg6.win 3).blk t).view.set ↔ ∀ a : Fin 2, win6_3.index t a * S400x64.size a ≤ (i a).val ∧ (i a).val < win6_3.index t a * S400x64.size a + S400x64.size a := by
  show i ∈ ((View.whole (Pipeline.arrRef spec6 3)).slice (win6_3.rect t)).set ↔ _
  rw [View.set_slice_whole, Rect.mem_set_unit]
  exact Iff.rfl

theorem idx_onto6 : ∀ q : Fin 25, ∃ t : Fin cfg6.N, win6_3.index t = ![q.val, 0] :=
  (by decide +kernel : ∀ q : Fin 25, ∃ t : Fin grid6.N, win6_3.index t = ![q.val, 0])

theorem covered6_3 (i : S10000x64.Idx) : ∃ t : Fin cfg6.N, (cfg6.win 3).flush t = true ∧ i ∈ ((cfg6.win 3).blk t).view.set := by
  have hi0 : (i 0).val < 10000 := idx2_lt0 i
  have hi1 : (i 1).val < 64 := idx2_lt1 i
  obtain ⟨t, ht⟩ := idx_onto6 ⟨(i 0).val / 400, by omega⟩
  have q0 : win6_3.index t (0 : Fin 2) = (i 0).val / 400 := congrFun ht 0
  have q1 : win6_3.index t (1 : Fin 2) = 0 := congrFun ht 1
  refine ⟨t, flush6_3 t, ?_⟩
  rw [mem_blk6_3]
  intro a
  match a with
  | ⟨0, _⟩ => show win6_3.index t (0 : Fin 2) * 400 ≤ (i 0).val ∧ (i 0).val < win6_3.index t (0 : Fin 2) * 400 + 400; omega
  | ⟨1, _⟩ => show win6_3.index t (1 : Fin 2) * 64 ≤ (i 1).val ∧ (i 1).val < win6_3.index t (1 : Fin 2) * 64 + 64; omega

theorem final6_3 (c : Dev nD) : (dat6 V c).arrAt 3 cfg6.N
    = G6_3 (V c (Pipeline.arrRef spec6 0)) (V c (Pipeline.arrRef spec6 1)) (V c (Pipeline.arrRef spec6 2)) :=
  (dat6 V c).arrAt_eq_of_cover 3 _ (fun t _ => flushed6_3_eq V c t) covered6_3

theorem rowBlock6_apply {α : Type} {n : Nat} (a : (⟨2, ![10000, n]⟩ : Shape).Idx → α) (r : Fin 10000) (h : r.val % 400 < 400) (k : Fin n) :
    rowBlock6 a r (ix2 ⟨r.val % 400, h⟩ k) = a (ix2 r k) := by
  unfold rowBlock6
  refine congrArg a ?_
  funext ax; apply Fin.ext
  match ax with
  | ⟨0, _⟩ => show r.val / 400 * 400 + r.val % 400 = r.val; omega
  | ⟨1, _⟩ => rfl

theorem dot6_lhs (r : Fin 400) (d : Fin 64) (k : Fin 10000) :
    dot_S400x10000_S10000x64_S400x64_1_0_0_1_n_n.lhsIdx (ix2 r d)
      ((contrEquiv1 dot_S400x10000_S10000x64_S400x64_1_0_0_1_n_n 10000 rfl rfl).symm k) = ix2 r k := by
  have ck := contrEquiv1_symm_val dot_S400x10000_S10000x64_S400x64_1_0_0_1_n_n 10000 rfl rfl k
  funext ax; apply Fin.ext
  match ax with
  | ⟨0, _⟩ => simp [DotDims.lhsIdx, dot_S400x10000_S10000x64_S400x64_1_0_0_1_n_n]; rfl
  | ⟨1, _⟩ => simp [DotDims.lhsIdx, dot_S400x10000_S10000x64_S400x64_1_0_0_1_n_n]; exact ck

theorem dot6_rhs (r : Fin 400) (d : Fin 64) (k : Fin 10000) :
    dot_S400x10000_S10000x64_S400x64_1_0_0_1_n_n.rhsIdx (ix2 r d)
      ((contrEquiv1 dot_S400x10000_S10000x64_S400x64_1_0_0_1_n_n 10000 rfl rfl).symm k) = ix2 k d := by
  have ck := contrEquiv1_symm_val dot_S400x10000_S10000x64_S400x64_1_0_0_1_n_n 10000 rfl rfl k
  funext ax; apply Fin.ext
  match ax with
  | ⟨0, _⟩ => simp [DotDims.rhsIdx, dot_S400x10000_S10000x64_S400x64_1_0_0_1_n_n]; exact ck
  | ⟨1, _⟩ => simp [DotDims.rhsIdx, dot_S400x10000_S10000x64_S400x64_1_0_0_1_n_n]; rfl

theorem G6_3_apply (a0 : Vec Ideal S10000x10000 .bf16) (a1 : Vec Ideal S10000x64 .bf16) (a2 : Vec Ideal S10000x64 .f32)
    (r : Fin 10000) (d : Fin 64) :
    G6_3 (F := Ideal) a0 a1 a2 (ix2 r d) = (∑ k : Fin 10000, a0 (ix2 r k) * a1 (ix2 k d)) + a2 (ix2 r d) := by
  have hr : r.val % 400 < 400 := Nat.mod_lt _ (by decide)
  show k6_pay1 (F := Ideal) (rowBlock6 a0 r) a1 (rowBlock6 a2 r) (ix2 ⟨r.val % 400, hr⟩ d) = _
  unfold k6_pay1
  simp only [matmul, shapeCast_self]
  rw [addf_apply, Ideal.matmul_constant_zero_apply,
    ← Equiv.sum_comp (contrEquiv1 dot_S400x10000_S10000x64_S400x64_1_0_0_1_n_n 10000 rfl rfl).symm]
  rw [rowBlock6_apply a2 r hr d]
  refine congrArg (· + a2 (ix2 r d)) (Finset.sum_congr rfl fun k _ => ?_)
  rw [dot6_lhs, dot6_rhs, rowBlock6_apply a0 r hr k]

end Cert.KernelIdeal.Hand
-- ==== Proof.KI.R07.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

abbrev r7_A : Rect S400x10000 := Rect.unit (s := S400x10000) ![0, 0] S400x10000.size inb_S400x10000_S400x10000_0_0
abbrev r7_X : Rect S10000x64 := Rect.unit (s := S10000x64) ![0, 0] S10000x64.size inb_S10000x64_S10000x64_0_0
abbrev r7_O : Rect S400x64 := Rect.unit (s := S400x64) ![0, 0] S400x64.size inb_S400x64_S400x64_0_0

def out7_2 (x0 : Vec F S400x10000 .bf16) (x1 : Vec F S10000x64 .bf16) : Vec F S400x64 .f32 :=
  View.canon [⟨r7_O, k7_pay1 (View.ld x0 r7_A) (View.ld x1 r7_X)⟩]

theorem cover7_2 (p0 : Vec F S400x64 .f32) (y : S400x64.Idx) :
    ∃ pc ∈ ([⟨r7_O, p0⟩] : List (View.Piece (Elt F) S400x64 .f32)), y ∈ pc.1.set :=
  View.cover_of_tiled [⟨r7_O, p0⟩] S400x64.size (by rfl) y

set_option maxHeartbeats 1000000 in
theorem sound_kernel7 (c : Dev nD) (E : Set ℕ) (i : grid7.Coords) (arg1 : Memref sig .tc .vmem S400x10000 .bf16) (harg1 : arg1.IsWhole)
    (arg2 : Memref sig .tc .vmem S10000x64 .bf16) (harg2 : arg2.IsWhole) (arg3 : Memref sig .tc .vmem S400x64 .f32) (harg3 : arg3.IsWhole)
    (x0 : Vec F S400x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__matmul_kernel i arg1 harg1 arg2 harg2 arg3 harg3) K := by
  simp only [cc7__matmul_kernel_eq_skeleton]; unfold cc7__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation7 (c : Dev nD) : BodyObligation (dat7 (F := F) V c) (defs₀ (F := F)) Variants.none () Set.univ := fun t => by
  rw [bigSep_W7, bigSep_W7]
  exact sound_body7 V c t

open ValueIdx

theorem hz7 : (![0, 0] : Fin 2 → Nat) = fun _ => 0 := funext fun a => by fin_cases a <;> rfl

def rows7 (A : Vec F S10000x10000 .bf16) (q : Nat) : Vec F S400x10000 .bf16 :=
  fun y => A (ix2 ⟨(q * 400 + (y 0).val) % 10000, Nat.mod_lt _ (by decide)⟩ (y 1))

def G7_2 (A : Vec F S10000x10000 .bf16) (X : Vec F S10000x64 .bf16) : Vec F S10000x64 .f32 :=
  fun i => k7_pay1 (rows7 A ((i 0).val / 400)) X (ix2 ⟨(i 0).val % 400, Nat.mod_lt _ (by decide)⟩ (i 1))

theorem G7_2_block (A : Vec F S10000x10000 .bf16) (X : Vec F S10000x64 .bf16) (q : Nat)
    (xA : Vec F S400x10000 .bf16) (xX : Vec F S10000x64 .bf16) (hA : xA = rows7 A q) (hX : xX = X)
    (j : S400x64.Idx) (i : S10000x64.Idx) (hi0 : (i 0).val = q * 400 + (j 0).val) (hi1 : (i 1).val = (j 1).val) :
    k7_pay1 xA xX j = G7_2 A X i := by
  subst hA hX
  have hj0 : (j 0).val < 400 := idx2_lt0 j
  have hq : (i 0).val / 400 = q := by omega
  have hj : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  show _ = k7_pay1 (rows7 A ((i 0).val / 400)) xX (ix2 ⟨(i 0).val % 400, Nat.mod_lt _ (by decide)⟩ (i 1))
  rw [hq, hj]

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

theorem iblk7_0_eq (c : Dev nD) (t : Fin cfg7.N) :
    (iblk7 V c 0 t : Vec F S400x10000 .bf16) = rows7 (V c (Pipeline.arrRef spec7 0)) t.val := by
  obtain ⟨eA0, eA1, eX0, eX1, eO0, eO1⟩ := idx_facts7 t
  have ht : t.val < 25 := by have h := t.isLt; have hN : cfg7.N = 25 := N_7; omega
  funext y
  show V c (Pipeline.arrRef spec7 0) (((cfg7.win 0).blk t).view.emb y) = V c (Pipeline.arrRef spec7 0) _
  congr 1; funext a; apply Fin.ext
  have hy : (y 0).val < 400 := idx2_lt0 y
  match a with
  | ⟨0, _⟩ => show win7_0.index t (0 : Fin 2) * 400 + 1 * (y 0).val = (t.val * 400 + (y 0).val) % 10000; omega
  | ⟨1, _⟩ => show win7_0.index t (1 : Fin 2) * 10000 + 1 * (y 1).val = (y 1).val; omega

theorem iblk7_1_eq (c : Dev nD) (t : Fin cfg7.N) :
    (iblk7 V c 1 t : Vec F S10000x64 .bf16) = V c (Pipeline.arrRef spec7 1) := by
  obtain ⟨eA0, eA1, eX0, eX1, eO0, eO1⟩ := idx_facts7 t
  funext y
  show V c (Pipeline.arrRef spec7 1) (((cfg7.win 1).blk t).view.emb y) = V c (Pipeline.arrRef spec7 1) y
  congr 1; funext a; apply Fin.ext
  match a with
  | ⟨0, _⟩ => show win7_1.index t (0 : Fin 2) * 10000 + 1 * (y 0).val = (y 0).val; omega
  | ⟨1, _⟩ => show win7_1.index t (1 : Fin 2) * 64 + 1 * (y 1).val = (y 1).val; omega

set_option maxHeartbeats 1000000 in
theorem flushed7_2 (c : Dev nD) (t : Fin cfg7.N) :
    (dat7 V c).flushed 2 t = ((cfg7.win 2).blk t).view.read (Elt F) (G7_2 (V c (Pipeline.arrRef spec7 0)) (V c (Pipeline.arrRef spec7 1))) := by
  show (cfg7.win 2).cut (grid7.coords t) ((dat7 V c).after 2 t) = _
  rw [after7_2]
  unfold out7_2
  rw [View.canon_unit_zero hz7]
  simp only [View.ld_unit_zero (S := S400x10000) hz7, View.ld_unit_zero (S := S10000x64) hz7]
  obtain ⟨eA0, eA1, eX0, eX1, eO0, eO1⟩ := idx_facts7 t
  funext j
  show k7_pay1 (iblk7 V c 0 t) (iblk7 V c 1 t) j = G7_2 (V c (Pipeline.arrRef spec7 0)) (V c (Pipeline.arrRef spec7 1)) (((cfg7.win 2).blk t).view.emb j)
  refine G7_2_block _ _ t.val _ _ (iblk7_0_eq V c t) (iblk7_1_eq V c t) j _ ?_ ?_
  · show win7_2.index t (0 : Fin 2) * 400 + 1 * (j 0).val = t.val * 400 + (j 0).val; omega
  · show win7_2.index t (1 : Fin 2) * 64 + 1 * (j 1).val = (j 1).val; omega

theorem mem_blk7_2 (t : Fin cfg7.N) (i : S10000x64.Idx) :
    i ∈ ((cfg7.win 2).blk t).view.set ↔ ∀ a : Fin 2, win7_2.index t a * S400x64.size a ≤ (i a).val ∧ (i a).val < win7_2.index t a * S400x64.size a + S400x64.size a := by
  show i ∈ ((View.whole (Pipeline.arrRef spec7 2)).slice (win7_2.rect t)).set ↔ _
  rw [View.set_slice_whole, Rect.mem_set_unit]
  exact Iff.rfl

theorem cover7_out (i : S10000x64.Idx) : ∃ t : Fin cfg7.N, (cfg7.win 2).flush t = true ∧ i ∈ ((cfg7.win 2).blk t).view.set := by
  have hi0 : (i 0).val < 10000 := idx2_lt0 i
  have hi1 : (i 1).val < 64 := idx2_lt1 i
  have hN : cfg7.N = 25 := N_7
  obtain ⟨t, ht⟩ : ∃ t : Fin cfg7.N, t.val = (i 0).val / 400 := ⟨⟨(i 0).val / 400, by rw [hN]; omega⟩, rfl⟩
  obtain ⟨eA0, eA1, eX0, eX1, eO0, eO1⟩ := idx_facts7 t
  refine ⟨t, flush7_2 t, ?_⟩
  rw [mem_blk7_2]
  intro a
  match a with
  | ⟨0, _⟩ => show win7_2.index t (0 : Fin 2) * 400 ≤ (i 0).val ∧ (i 0).val < win7_2.index t (0 : Fin 2) * 400 + 400; omega
  | ⟨1, _⟩ => show win7_2.index t (1 : Fin 2) * 64 ≤ (i 1).val ∧ (i 1).val < win7_2.index t (1 : Fin 2) * 64 + 64; omega

theorem final7_2 (c : Dev nD) : (dat7 V c).arrAt 2 cfg7.N = G7_2 (V c (Pipeline.arrRef spec7 0)) (V c (Pipeline.arrRef spec7 1)) :=
  (dat7 V c).arrAt_eq_of_cover 2 _ (fun t _ => flushed7_2 V c t) cover7_out

theorem lhs7_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs7_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs7_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs7_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem G7_2_apply (A : S10000x10000.Idx → EReal) (X : S10000x64.Idx → EReal) (r : Fin 10000) (d : Fin 64) :
    G7_2 (F := Ideal) A X (ix2 r d) = ∑ k : Fin 10000, A (ix2 r k) * X (ix2 k d) := by
  have hr : r.val < 10000 := r.isLt
  unfold G7_2 k7_pay1
  simp only [matmul, shapeCast_self]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  congr 1
  · unfold rows7
    congr 1; funext a; apply Fin.ext
    match a with
    | ⟨0, _⟩ =>
      show ((r.val / 400) * 400 + (dot_S400x10000_S10000x64_S400x64_1_0_0_1_n_n.lhsIdx _ _ 0).val) % 10000 = r.val
      rw [lhs7_0]
      show ((r.val / 400) * 400 + r.val % 400) % 10000 = r.val
      omega
    | ⟨1, _⟩ => exact (lhs7_1 _ _).trans hk
  · congr 1; funext a; apply Fin.ext
    match a with
    | ⟨0, _⟩ => exact (rhs7_0 _ _).trans hk
    | ⟨1, _⟩ => exact rhs7_1 _ _

end Cert.KernelIdeal.Hand

end
-- ==== Proof.KI.R08.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

abbrev r8_0 : Rect S400x10000 := Rect.unit (s := S400x10000) ![0, 0] S400x10000.size inb_S400x10000_S400x10000_0_0
abbrev r8_1 : Rect S10000x64 := Rect.unit (s := S10000x64) ![0, 0] S10000x64.size inb_S10000x64_S10000x64_0_0
abbrev r8_2 : Rect S400x64 := Rect.unit (s := S400x64) ![0, 0] S400x64.size inb_S400x64_S400x64_0_0

def out8_3 (x0 : Vec F S400x10000 .bf16) (x1 : Vec F S10000x64 .bf16) (x2 : Vec F S400x64 .f32) : Vec F S400x64 .f32 :=
  View.canon [⟨r8_2, k8_pay1 (View.ld x0 r8_0) (View.ld x1 r8_1) (View.ld x2 r8_2)⟩]

theorem cover8_3 (p0 : Vec F S400x64 .f32) (y : S400x64.Idx) :
    ∃ pc ∈ ([⟨r8_2, p0⟩] : List (View.Piece (Elt F) S400x64 .f32)), y ∈ pc.1.set :=
  View.cover_of_tiled [⟨r8_2, p0⟩] S400x64.size (by rfl) y

set_option maxHeartbeats 1000000 in
theorem sound_kernel8 (c : Dev nD) (E : Set ℕ) (i : grid8.Coords) (arg1 : Memref sig .tc .vmem S400x10000 .bf16) (harg1 : arg1.IsWhole) (arg2 : Memref sig .tc .vmem S10000x64 .bf16) (harg2 : arg2.IsWhole) (arg3 : Memref sig .tc .vmem S400x64 .f32) (harg3 : arg3.IsWhole) (arg4 : Memref sig .tc .vmem S400x64 .f32) (harg4 : arg4.IsWhole)
    (x0 : Vec F S400x10000 .bf16) (x1 : Vec F S10000x64 .bf16) (x2 : Vec F S400x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__matmul_res_kernel i arg1 harg1 arg2 harg2 arg3 harg3 arg4 harg4) K := by
  simp only [cc8__matmul_res_kernel_eq_skeleton]; unfold cc8__matmul_res_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation8 (c : Dev nD) : BodyObligation (dat8 (F := F) V c) (defs₀ (F := F)) Variants.none () Set.univ := fun t => by
  rw [bigSep_W8, bigSep_W8]
  exact sound_body8 V c t

open Idealize.ShloMosaic.ValueIdx

theorem zero_off8 : (![0, 0] : Fin 2 → Nat) = fun _ => 0 := funext fun a => by fin_cases a <;> rfl

def rowBlock8 {α : Type} {n : Nat} (a : (⟨2, ![10000, n]⟩ : Shape).Idx → α) (r : Fin 10000) : (⟨2, ![400, n]⟩ : Shape).Idx → α :=
  fun j => a (ix2 ⟨r.val / 400 * 400 + (j 0).val, by have h := idx2_lt0 j; have h' := r.isLt; omega⟩ (j 1))

def G8_3 (a0 : Vec F S10000x10000 .bf16) (a1 : Vec F S10000x64 .bf16) (a2 : Vec F S10000x64 .f32) : Vec F S10000x64 .f32 :=
  fun i => k8_pay1 (rowBlock8 a0 (i 0)) a1 (rowBlock8 a2 (i 0)) (ix2 ⟨(i 0).val % 400, Nat.mod_lt _ (by decide)⟩ (i 1))

theorem G8_3_block (a0 : Vec F S10000x10000 .bf16) (a1 : Vec F S10000x64 .bf16) (a2 : Vec F S10000x64 .f32) (b : ℕ)
    (x0 : Vec F S400x10000 .bf16) (x1 : Vec F S10000x64 .bf16) (x2 : Vec F S400x64 .f32)
    (h0 : ∀ (j : S400x10000.Idx) (i : S10000x10000.Idx), (i 0).val = b * 400 + (j 0).val → (i 1).val = (j 1).val → x0 j = a0 i)
    (h1 : x1 = a1)
    (h2 : ∀ (j : S400x64.Idx) (i : S10000x64.Idx), (i 0).val = b * 400 + (j 0).val → (i 1).val = (j 1).val → x2 j = a2 i)
    (j : S400x64.Idx) (i : S10000x64.Idx) (hi0 : (i 0).val = b * 400 + (j 0).val) (hi1 : (i 1).val = (j 1).val) :
    k8_pay1 x0 x1 x2 j = G8_3 a0 a1 a2 i := by
  have hj0 : (j 0).val < 400 := idx2_lt0 j
  unfold G8_3
  have e0 : rowBlock8 a0 (i 0) = x0 := funext fun j' => by
    have hj' : (j' 0).val < 400 := idx2_lt0 j'
    exact (h0 j' _ (by show (i 0).val / 400 * 400 + (j' 0).val = _; omega) rfl).symm
  have e2 : rowBlock8 a2 (i 0) = x2 := funext fun j' => by
    have hj' : (j' 0).val < 400 := idx2_lt0 j'
    exact (h2 j' _ (by show (i 0).val / 400 * 400 + (j' 0).val = _; omega) rfl).symm
  have ej : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  rw [e0, e2, ej, h1]

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

theorem flushed8_3_eq (c : Dev nD) (t : Fin cfg8.N) :
    (dat8 V c).flushed 3 t = ((cfg8.win 3).blk t).view.read (Elt F)
      (G8_3 (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero zero_off8]
  simp only [View.ld_unit_zero (S := S400x10000) zero_off8, View.ld_unit_zero (S := S10000x64) zero_off8, View.ld_unit_zero (S := S400x64) zero_off8]
  obtain ⟨e00, e01, e10, e11, e20, e21, e30, e31⟩ := idx_facts8 t
  funext j
  show k8_pay1 (iblk8 V c 0 t) (iblk8 V c 1 t) (iblk8 V c 2 t) j
    = G8_3 (V c (Pipeline.arrRef spec8 0)) (V c (Pipeline.arrRef spec8 1)) (V c (Pipeline.arrRef spec8 2)) (((cfg8.win 3).blk t).view.emb j)
  refine G8_3_block _ _ _ t.val _ _ _ ?_ ?_ ?_ j _ ?_ ?_
  · intro j' i hi0 hi1
    show V c (Pipeline.arrRef spec8 0) (((cfg8.win 0).blk t).view.emb j') = V c (Pipeline.arrRef spec8 0) i
    refine congrArg _ ?_
    funext a; apply Fin.ext
    match a with
    | ⟨0, _⟩ => show win8_0.index t (0 : Fin 2) * 400 + 1 * (j' 0).val = (i 0).val; omega
    | ⟨1, _⟩ => show win8_0.index t (1 : Fin 2) * 10000 + 1 * (j' 1).val = (i 1).val; omega
  · funext j'
    show V c (Pipeline.arrRef spec8 1) (((cfg8.win 1).blk t).view.emb j') = V c (Pipeline.arrRef spec8 1) j'
    refine congrArg _ ?_
    funext a; apply Fin.ext
    match a with
    | ⟨0, _⟩ => show win8_1.index t (0 : Fin 2) * 10000 + 1 * (j' 0).val = (j' 0).val; omega
    | ⟨1, _⟩ => show win8_1.index t (1 : Fin 2) * 64 + 1 * (j' 1).val = (j' 1).val; omega
  · intro j' i hi0 hi1
    show V c (Pipeline.arrRef spec8 2) (((cfg8.win 2).blk t).view.emb j') = V c (Pipeline.arrRef spec8 2) i
    refine congrArg _ ?_
    funext a; apply Fin.ext
    match a with
    | ⟨0, _⟩ => show win8_2.index t (0 : Fin 2) * 400 + 1 * (j' 0).val = (i 0).val; omega
    | ⟨1, _⟩ => show win8_2.index t (1 : Fin 2) * 64 + 1 * (j' 1).val = (i 1).val; omega
  · show win8_3.index t (0 : Fin 2) * 400 + 1 * (j 0).val = t.val * 400 + (j 0).val; omega
  · show win8_3.index t (1 : Fin 2) * 64 + 1 * (j 1).val = (j 1).val; omega

theorem mem_blk8_3 (t : Fin cfg8.N) (i : S10000x64.Idx) :
    i ∈ ((cfg8.win 3).blk t).view.set ↔ ∀ a : Fin 2, win8_3.index t a * S400x64.size a ≤ (i a).val ∧ (i a).val < win8_3.index t a * S400x64.size a + S400x64.size a := by
  show i ∈ ((View.whole (Pipeline.arrRef spec8 3)).slice (win8_3.rect t)).set ↔ _
  rw [View.set_slice_whole, Rect.mem_set_unit]
  exact Iff.rfl

theorem idx_onto8 : ∀ q : Fin 25, ∃ t : Fin cfg8.N, win8_3.index t = ![q.val, 0] :=
  (by decide +kernel : ∀ q : Fin 25, ∃ t : Fin grid8.N, win8_3.index t = ![q.val, 0])

theorem covered8_3 (i : S10000x64.Idx) : ∃ t : Fin cfg8.N, (cfg8.win 3).flush t = true ∧ i ∈ ((cfg8.win 3).blk t).view.set := by
  have hi0 : (i 0).val < 10000 := idx2_lt0 i
  have hi1 : (i 1).val < 64 := idx2_lt1 i
  obtain ⟨t, ht⟩ := idx_onto8 ⟨(i 0).val / 400, by omega⟩
  have q0 : win8_3.index t (0 : Fin 2) = (i 0).val / 400 := congrFun ht 0
  have q1 : win8_3.index t (1 : Fin 2) = 0 := congrFun ht 1
  refine ⟨t, flush8_3 t, ?_⟩
  rw [mem_blk8_3]
  intro a
  match a with
  | ⟨0, _⟩ => show win8_3.index t (0 : Fin 2) * 400 ≤ (i 0).val ∧ (i 0).val < win8_3.index t (0 : Fin 2) * 400 + 400; omega
  | ⟨1, _⟩ => show win8_3.index t (1 : Fin 2) * 64 ≤ (i 1).val ∧ (i 1).val < win8_3.index t (1 : Fin 2) * 64 + 64; omega

theorem final8_3 (c : Dev nD) : (dat8 V c).arrAt 3 cfg8.N
    = G8_3 (V c (Pipeline.arrRef spec8 0)) (V c (Pipeline.arrRef spec8 1)) (V c (Pipeline.arrRef spec8 2)) :=
  (dat8 V c).arrAt_eq_of_cover 3 _ (fun t _ => flushed8_3_eq V c t) covered8_3

theorem rowBlock8_apply {α : Type} {n : Nat} (a : (⟨2, ![10000, n]⟩ : Shape).Idx → α) (r : Fin 10000) (h : r.val % 400 < 400) (k : Fin n) :
    rowBlock8 a r (ix2 ⟨r.val % 400, h⟩ k) = a (ix2 r k) := by
  unfold rowBlock8
  refine congrArg a ?_
  funext ax; apply Fin.ext
  match ax with
  | ⟨0, _⟩ => show r.val / 400 * 400 + r.val % 400 = r.val; omega
  | ⟨1, _⟩ => rfl

theorem dot8_lhs (r : Fin 400) (d : Fin 64) (k : Fin 10000) :
    dot_S400x10000_S10000x64_S400x64_1_0_0_1_n_n.lhsIdx (ix2 r d)
      ((contrEquiv1 dot_S400x10000_S10000x64_S400x64_1_0_0_1_n_n 10000 rfl rfl).symm k) = ix2 r k := by
  have ck := contrEquiv1_symm_val dot_S400x10000_S10000x64_S400x64_1_0_0_1_n_n 10000 rfl rfl k
  funext ax; apply Fin.ext
  match ax with
  | ⟨0, _⟩ => simp [DotDims.lhsIdx, dot_S400x10000_S10000x64_S400x64_1_0_0_1_n_n]; rfl
  | ⟨1, _⟩ => simp [DotDims.lhsIdx, dot_S400x10000_S10000x64_S400x64_1_0_0_1_n_n]; exact ck

theorem dot8_rhs (r : Fin 400) (d : Fin 64) (k : Fin 10000) :
    dot_S400x10000_S10000x64_S400x64_1_0_0_1_n_n.rhsIdx (ix2 r d)
      ((contrEquiv1 dot_S400x10000_S10000x64_S400x64_1_0_0_1_n_n 10000 rfl rfl).symm k) = ix2 k d := by
  have ck := contrEquiv1_symm_val dot_S400x10000_S10000x64_S400x64_1_0_0_1_n_n 10000 rfl rfl k
  funext ax; apply Fin.ext
  match ax with
  | ⟨0, _⟩ => simp [DotDims.rhsIdx, dot_S400x10000_S10000x64_S400x64_1_0_0_1_n_n]; exact ck
  | ⟨1, _⟩ => simp [DotDims.rhsIdx, dot_S400x10000_S10000x64_S400x64_1_0_0_1_n_n]; rfl

theorem G8_3_apply (a0 : Vec Ideal S10000x10000 .bf16) (a1 : Vec Ideal S10000x64 .bf16) (a2 : Vec Ideal S10000x64 .f32)
    (r : Fin 10000) (d : Fin 64) :
    G8_3 (F := Ideal) a0 a1 a2 (ix2 r d) = (∑ k : Fin 10000, a0 (ix2 r k) * a1 (ix2 k d)) + a2 (ix2 r d) := by
  have hr : r.val % 400 < 400 := Nat.mod_lt _ (by decide)
  show k8_pay1 (F := Ideal) (rowBlock8 a0 r) a1 (rowBlock8 a2 r) (ix2 ⟨r.val % 400, hr⟩ d) = _
  unfold k8_pay1
  simp only [matmul, shapeCast_self]
  rw [addf_apply, Ideal.matmul_constant_zero_apply,
    ← Equiv.sum_comp (contrEquiv1 dot_S400x10000_S10000x64_S400x64_1_0_0_1_n_n 10000 rfl rfl).symm]
  rw [rowBlock8_apply a2 r hr d]
  refine congrArg (· + a2 (ix2 r d)) (Finset.sum_congr rfl fun k _ => ?_)
  rw [dot8_lhs, dot8_rhs, rowBlock8_apply a0 r hr k]

end Cert.KernelIdeal.Hand
-- ==== Proof.KI.R09.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

abbrev r9_0 : Rect S10000x64 := Rect.unit (s := S10000x64) ![0, 0] S10000x64.size inb_S10000x64_S10000x64_0_0

def out9_1 (x0 : Vec F S10000x64 .f32) : Vec F S10000x64 .f32 :=
  View.canon [⟨r9_0, k9_pay1 (View.ld x0 r9_0)⟩]

theorem cover9_1 (p0 : Vec F S10000x64 .f32) (y : S10000x64.Idx) :
    ∃ pc ∈ ([⟨r9_0, p0⟩] : List (View.Piece (Elt F) S10000x64 .f32)), y ∈ pc.1.set :=
  View.cover_of_tiled [⟨r9_0, p0⟩] S10000x64.size (by rfl) y

set_option maxHeartbeats 1000000 in
theorem sound_kernel9 (c : Dev nD) (E : Set ℕ) (i : grid9.Coords) (arg0 : Memref sig .tc .vmem S10000x64 .f32) (harg0 : arg0.IsWhole) (arg1 : Memref sig .tc .vmem S10000x64 .f32) (harg1 : arg1.IsWhole)
    (x0 : Vec F S10000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out9_1 x0)) -∗ K ⟨⟩))
      ⊢ wp frame (wpE (defs₀ (F := F)) Variants.none c none) E (cc9__l2norm_kernel i arg0 harg0 arg1 harg1) K := by
  simp only [cc9__l2norm_kernel_eq_skeleton]; unfold cc9__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover9_1 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => out9_1 (iblk9 V c 0 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = out9_1 (iblk9 V c 0 t) := by dsimp only [dat9]

theorem before9_0 (c : Dev nD) (t : Fin cfg9.N) (d) : (dat9 V c).before 0 t d = iblk9 V c 0 t :=
  before9_0_of V (dat9 V c) (A_eq9 V c 0) (after9_0 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0]
  rw [show (dat9 V c).Φ t.succ = (dat9 V c).Φ t.castSucc from rfl,
    show (dat9 V c).owesAt () t.succ = (dat9 V c).owesAt () t.castSucc from rfl,
    after9_0, after9_1]
  iintro ⟨HΦ, Ho, ⟨%d0, H0⟩, ⟨%d1, H1⟩⟩
  iapply (sound_kernel9 c Set.univ _ _ _ _ _ (iblk9 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation9 (c : Dev nD) : BodyObligation (dat9 (F := F) V c) (defs₀ (F := F)) Variants.none () Set.univ := fun t => by
  rw [bigSep_W9, bigSep_W9]
  exact sound_body9 V c t

theorem zero_offsets9 : (![0, 0] : Fin 2 → Nat) = fun _ => 0 := funext fun a => by fin_cases a <;> rfl

def G9_1 (x : Vec F S10000x64 .f32) : Vec F S10000x64 .f32 := k9_pay1 x

theorem index_zero9 : ∀ t : Fin cfg9.N, win9_0.index t (0 : Fin 2) = 0 ∧ win9_0.index t (1 : Fin 2) = 0
    ∧ win9_1.index t (0 : Fin 2) = 0 ∧ win9_1.index t (1 : Fin 2) = 0 :=
  (by decide +kernel : ∀ t : Fin grid9.N, _)

theorem emb9_0 (t : Fin cfg9.N) (j : S10000x64.Idx) : ((cfg9.win 0).blk t).view.emb j = j := by
  obtain ⟨e0, e1, -, -⟩ := index_zero9 t
  funext a; apply Fin.ext
  match a with
  | ⟨0, _⟩ => show win9_0.index t (0 : Fin 2) * 10000 + 1 * (j 0).val = (j 0).val; omega
  | ⟨1, _⟩ => show win9_0.index t (1 : Fin 2) * 64 + 1 * (j 1).val = (j 1).val; omega

theorem emb9_1 (t : Fin cfg9.N) (j : S10000x64.Idx) : ((cfg9.win 1).blk t).view.emb j = j := by
  obtain ⟨-, -, e0, e1⟩ := index_zero9 t
  funext a; apply Fin.ext
  match a with
  | ⟨0, _⟩ => show win9_1.index t (0 : Fin 2) * 10000 + 1 * (j 0).val = (j 0).val; omega
  | ⟨1, _⟩ => show win9_1.index t (1 : Fin 2) * 64 + 1 * (j 1).val = (j 1).val; omega

theorem iblk9_0_eq (c : Dev nD) (t : Fin cfg9.N) : iblk9 V c 0 t = V c (Pipeline.arrRef spec9 0) := by
  funext j
  show V c (Pipeline.arrRef spec9 0) (((cfg9.win 0).blk t).view.emb j) = V c (Pipeline.arrRef spec9 0) j
  rw [emb9_0]

theorem flushed9_1_eq (c : Dev nD) (t : Fin cfg9.N) :
    (dat9 V c).flushed 1 t = ((cfg9.win 1).blk t).view.read (Elt F) (G9_1 (V c (Pipeline.arrRef spec9 0))) := by
  show (cfg9.win 1).cut (grid9.coords t) ((dat9 V c).after 1 t) = _
  rw [after9_1]
  unfold out9_1
  rw [View.canon_unit_zero zero_offsets9]
  simp only [View.ld_unit_zero (S := S10000x64) zero_offsets9]
  rw [iblk9_0_eq]
  funext j
  show k9_pay1 (V c (Pipeline.arrRef spec9 0)) j = k9_pay1 (V c (Pipeline.arrRef spec9 0)) (((cfg9.win 1).blk t).view.emb j)
  rw [emb9_1]

theorem mem_blk9_1 (t : Fin cfg9.N) (i : S10000x64.Idx) :
    i ∈ ((cfg9.win 1).blk t).view.set ↔ ∀ a : Fin 2, win9_1.index t a * S10000x64.size a ≤ (i a).val ∧ (i a).val < win9_1.index t a * S10000x64.size a + S10000x64.size a := by
  show i ∈ ((View.whole main_v104).slice (win9_1.rect t)).set ↔ _
  rw [View.set_slice_whole, Rect.mem_set_unit]
  exact Iff.rfl

theorem cover_arr9_1 (i : S10000x64.Idx) : ∃ t : Fin cfg9.N, (cfg9.win 1).flush t = true ∧ i ∈ ((cfg9.win 1).blk t).view.set := by
  refine ⟨t9_0, flush9_1 t9_0, ?_⟩
  rw [mem_blk9_1]
  obtain ⟨-, -, e0, e1⟩ := index_zero9 t9_0
  intro a
  match a with
  | ⟨0, _⟩ => show win9_1.index t9_0 (0 : Fin 2) * 10000 ≤ (i 0).val ∧ (i 0).val < win9_1.index t9_0 (0 : Fin 2) * 10000 + 10000; have hi : (i 0).val < 10000 := (i 0).isLt; omega
  | ⟨1, _⟩ => show win9_1.index t9_0 (1 : Fin 2) * 64 ≤ (i 1).val ∧ (i 1).val < win9_1.index t9_0 (1 : Fin 2) * 64 + 64; have hi : (i 1).val < 64 := (i 1).isLt; omega

theorem final9_1 (c : Dev nD) : (dat9 V c).arrAt 1 cfg9.N = G9_1 (V c (Pipeline.arrRef spec9 0)) :=
  (dat9 V c).arrAt_eq_of_cover 1 (G9_1 (V c (Pipeline.arrRef spec9 0))) (fun t _ => flushed9_1_eq V c t) cover_arr9_1

open Idealize.ShloMosaic.ValueIdx in
theorem G9_1_apply (x : Vec Ideal S10000x64 .f32) (r : Fin 10000) (d : Fin 64) :
    G9_1 (F := Ideal) x (ix2 r d) = Ideal.div (x (ix2 r d))
      (max (Ideal.sqrt (∑ k : Fin 64, x (ix2 r k) * x (ix2 r k))) (Ideal.ofBits .f32 0x2B8CBCCC#32)) := by
  unfold G9_1 k9_pay1
  dsimp only []
  rw [divf_apply, shapeCast_apply x shapeCasts_S10000x64_S10000x64 (ix2 r d) (ix2 r d) rfl]
  rw [broadcastTo_apply _ broadcasts_S10000x1_S10000x64 (ix2 r d) (ix2 r (0 : Fin 1)) (by
    intro a; match a with
    | ⟨0, _⟩ => rfl
    | ⟨1, _⟩ => rfl)]
  rw [maximumf_apply, broadcast_apply]
  show Ideal.div _ (max (Ideal.sqrt (shapeCast S10000x1 _ shapeCasts_S10000_S10000x1 (ix2 r 0))) (Ideal.ofBits .f32 0x2B8CBCCC#32)) = _
  rw [shapeCast_apply _ shapeCasts_S10000_S10000x1 (ix2 r (0 : Fin 1)) (ix1 r) (by
    rw [Shape.rowMajor_val_one, Shape.rowMajor_val_two]
    show r.val = r.val * 1 + 0
    omega)]
  have hsum := Ideal.multiReduction_add_single (φ := .f32)
    (mulf (shapeCast S10000x64 x shapeCasts_S10000x64_S10000x64) (shapeCast S10000x64 x shapeCasts_S10000x64_S10000x64))
    (0x00000000#32) reduces_S10000x64_S10000 (.inl rfl) rfl (ix1 r)
  refine congrArg (fun s => Ideal.div (x (ix2 r d)) (max (Ideal.sqrt s) (Ideal.ofBits .f32 0x2B8CBCCC#32))) (hsum.trans ?_)
  refine Finset.sum_congr rfl fun (k : Fin 64) _ => ?_
  have hl : reduces_S10000x64_S10000.lift (ix1 r) k = ix2 r k := by
    funext a; apply Fin.ext
    match a with
    | ⟨0, _⟩ => rfl
    | ⟨1, _⟩ => rfl
  rw [hl]
  show shapeCast S10000x64 x shapeCasts_S10000x64_S10000x64 (ix2 r k) * shapeCast S10000x64 x shapeCasts_S10000x64_S10000x64 (ix2 r k) = _
  rw [shapeCast_apply x shapeCasts_S10000x64_S10000x64 (ix2 r k) (ix2 r k) rfl]

end Cert.KernelIdeal.Hand
-- ==== Proof.KI.R10.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

abbrev r10_0 : Rect S10000x64 := Rect.unit (s := S10000x64) ![0, 0] S10000x64.size inb_S10000x64_S10000x64_0_0

def out10_1 (x0 : Vec F S10000x64 .f32) : Vec F S10000x64 .f32 :=
  View.canon [⟨r10_0, k10_pay1 (View.ld x0 r10_0)⟩]

theorem cover10_1 (p0 : Vec F S10000x64 .f32) (y : S10000x64.Idx) :
    ∃ pc ∈ ([⟨r10_0, p0⟩] : List (View.Piece (Elt F) S10000x64 .f32)), y ∈ pc.1.set :=
  View.cover_of_tiled [⟨r10_0, p0⟩] S10000x64.size (by rfl) y

set_option maxHeartbeats 1000000 in
theorem sound_kernel10 (c : Dev nD) (E : Set ℕ) (i : grid10.Coords) (arg0 : Memref sig .tc .vmem S10000x64 .f32) (harg0 : arg0.IsWhole) (arg1 : Memref sig .tc .vmem S10000x64 .f32) (harg1 : arg1.IsWhole)
    (x0 : Vec F S10000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out10_1 x0)) -∗ K ⟨⟩))
      ⊢ wp frame (wpE (defs₀ (F := F)) Variants.none c none) E (cc10__l2norm_kernel i arg0 harg0 arg1 harg1) K := by
  simp only [cc10__l2norm_kernel_eq_skeleton]; unfold cc10__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover10_1 _)

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => out10_1 (iblk10 V c 0 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = out10_1 (iblk10 V c 0 t) := by dsimp only [dat10]

theorem before10_0 (c : Dev nD) (t : Fin cfg10.N) (d) : (dat10 V c).before 0 t d = iblk10 V c 0 t :=
  before10_0_of V (dat10 V c) (A_eq10 V c 0) (after10_0 V c) t d

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d)))

def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).Φ t.succ = (dat10 V c).Φ t.castSucc from rfl,
    show (dat10 V c).owesAt () t.succ = (dat10 V c).owesAt () t.castSucc from rfl,
    after10_0, after10_1]
  iintro ⟨HΦ, Ho, ⟨%d0, H0⟩, ⟨%d1, H1⟩⟩
  iapply (sound_kernel10 c Set.univ _ _ _ _ _ (iblk10 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation10 (c : Dev nD) : BodyObligation (dat10 (F := F) V c) (defs₀ (F := F)) Variants.none () Set.univ := fun t => by
  rw [bigSep_W10, bigSep_W10]
  exact sound_body10 V c t

theorem zero_offsets10 : (![0, 0] : Fin 2 → Nat) = fun _ => 0 := funext fun a => by fin_cases a <;> rfl

def G10_1 (x : Vec F S10000x64 .f32) : Vec F S10000x64 .f32 := k10_pay1 x

theorem index_zero10 : ∀ t : Fin cfg10.N, win10_0.index t (0 : Fin 2) = 0 ∧ win10_0.index t (1 : Fin 2) = 0
    ∧ win10_1.index t (0 : Fin 2) = 0 ∧ win10_1.index t (1 : Fin 2) = 0 :=
  (by decide +kernel : ∀ t : Fin grid10.N, _)

theorem emb10_0 (t : Fin cfg10.N) (j : S10000x64.Idx) : ((cfg10.win 0).blk t).view.emb j = j := by
  obtain ⟨e0, e1, -, -⟩ := index_zero10 t
  funext a; apply Fin.ext
  match a with
  | ⟨0, _⟩ => show win10_0.index t (0 : Fin 2) * 10000 + 1 * (j 0).val = (j 0).val; omega
  | ⟨1, _⟩ => show win10_0.index t (1 : Fin 2) * 64 + 1 * (j 1).val = (j 1).val; omega

theorem emb10_1 (t : Fin cfg10.N) (j : S10000x64.Idx) : ((cfg10.win 1).blk t).view.emb j = j := by
  obtain ⟨-, -, e0, e1⟩ := index_zero10 t
  funext a; apply Fin.ext
  match a with
  | ⟨0, _⟩ => show win10_1.index t (0 : Fin 2) * 10000 + 1 * (j 0).val = (j 0).val; omega
  | ⟨1, _⟩ => show win10_1.index t (1 : Fin 2) * 64 + 1 * (j 1).val = (j 1).val; omega

theorem iblk10_0_eq (c : Dev nD) (t : Fin cfg10.N) : iblk10 V c 0 t = V c (Pipeline.arrRef spec10 0) := by
  funext j
  show V c (Pipeline.arrRef spec10 0) (((cfg10.win 0).blk t).view.emb j) = V c (Pipeline.arrRef spec10 0) j
  rw [emb10_0]

theorem flushed10_1_eq (c : Dev nD) (t : Fin cfg10.N) :
    (dat10 V c).flushed 1 t = ((cfg10.win 1).blk t).view.read (Elt F) (G10_1 (V c (Pipeline.arrRef spec10 0))) := by
  show (cfg10.win 1).cut (grid10.coords t) ((dat10 V c).after 1 t) = _
  rw [after10_1]
  unfold out10_1
  rw [View.canon_unit_zero zero_offsets10]
  simp only [View.ld_unit_zero (S := S10000x64) zero_offsets10]
  rw [iblk10_0_eq]
  funext j
  show k10_pay1 (V c (Pipeline.arrRef spec10 0)) j = k10_pay1 (V c (Pipeline.arrRef spec10 0)) (((cfg10.win 1).blk t).view.emb j)
  rw [emb10_1]

theorem mem_blk10_1 (t : Fin cfg10.N) (i : S10000x64.Idx) :
    i ∈ ((cfg10.win 1).blk t).view.set ↔ ∀ a : Fin 2, win10_1.index t a * S10000x64.size a ≤ (i a).val ∧ (i a).val < win10_1.index t a * S10000x64.size a + S10000x64.size a := by
  show i ∈ ((View.whole main_v105).slice (win10_1.rect t)).set ↔ _
  rw [View.set_slice_whole, Rect.mem_set_unit]
  exact Iff.rfl

theorem cover_arr10_1 (i : S10000x64.Idx) : ∃ t : Fin cfg10.N, (cfg10.win 1).flush t = true ∧ i ∈ ((cfg10.win 1).blk t).view.set := by
  refine ⟨t10_0, flush10_1 t10_0, ?_⟩
  rw [mem_blk10_1]
  obtain ⟨-, -, e0, e1⟩ := index_zero10 t10_0
  intro a
  match a with
  | ⟨0, _⟩ => show win10_1.index t10_0 (0 : Fin 2) * 10000 ≤ (i 0).val ∧ (i 0).val < win10_1.index t10_0 (0 : Fin 2) * 10000 + 10000; have hi : (i 0).val < 10000 := (i 0).isLt; omega
  | ⟨1, _⟩ => show win10_1.index t10_0 (1 : Fin 2) * 64 ≤ (i 1).val ∧ (i 1).val < win10_1.index t10_0 (1 : Fin 2) * 64 + 64; have hi : (i 1).val < 64 := (i 1).isLt; omega

theorem final10_1 (c : Dev nD) : (dat10 V c).arrAt 1 cfg10.N = G10_1 (V c (Pipeline.arrRef spec10 0)) :=
  (dat10 V c).arrAt_eq_of_cover 1 (G10_1 (V c (Pipeline.arrRef spec10 0))) (fun t _ => flushed10_1_eq V c t) cover_arr10_1

end Cert.KernelIdeal.Hand
-- ==== Proof.KI.R11Defs.lean ====
import proofs.«417009_j23742579212955_2_alg».proof.Proof.Gen.KernelIdeal.Skeleton
import Idealize.ShloMosaic.Lib.Pipeline.FrameBody
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

def E11 (s : F .f32) (v8 : Vec F S400x64 .bf16) (v10 : Vec F S400x64 .bf16) : FVec F S400x400 .f32 :=
  have v9 : FVec F S400x64 .bf16 := shapeCast S400x64 v8 shapeCasts_S400x64_S400x64
  have v11 : FVec F S400x64 .bf16 := shapeCast S400x64 v10 shapeCasts_S400x64_S400x64
  have cst : FVec F S400x400 .f32 := constant S400x400 .f32 0x00000000#32
  have v12 : FVec F S400x400 .f32 := matmul dot_S400x64_S400x64_S400x400_1_1_0_0_n_n none v9 v11 cst
  have v13 : FVec F S400x400 .f32 := broadcast S400x400 s
  have v14 : FVec F S400x400 .f32 := mulf v12 v13
  have v15 : FVec F S400x400 .f32 := exp v14
  v15

def rowStep11 (s : F .f32) (v8 : Vec F S400x64 .bf16) (v10 : Vec F S400x64 .bf16) (v16 : Vec F S400x1 .f32) : FVec F S400x1 .f32 :=
  have v17 : FVec F S400 .f32 := multiReduction .add [1] S400 (E11 s v8 v10) 0x00000000#32 reduces_S400x400_S400 (.inl rfl) rfl
  have v18 : FVec F S400x1 .f32 := shapeCast S400x1 v17 shapeCasts_S400_S400x1
  have v19 : FVec F S400x1 .f32 := addf v16 v18
  have v22 : FVec F S400x1 .f32 := shapeCast S400x1 v19 shapeCasts_S400x1_S400x1
  v22

def colStep11 (s : F .f32) (v8 : Vec F S400x64 .bf16) (v10 : Vec F S400x64 .bf16) (v29 : Vec F S400x1 .f32) : FVec F S400x1 .f32 :=
  have v23 : FVec F S400 .f32 := multiReduction .add [0] S400 (E11 s v8 v10) 0x00000000#32 reduces_S400x400_S400_2 (.inl rfl) rfl
  have v24 : FVec F S1x400 .f32 := shapeCast S1x400 v23 shapeCasts_S400_S1x400
  have v25 : FVec F S400x1 .f32 := transpose S400x1 [1, 0] v24 transposes_S1x400_p1_0_S400x1
  have v30 : FVec F S400x1 .f32 := shapeCast S400x1 v29 shapeCasts_S400x1_S400x1
  have v31 : FVec F S400x1 .f32 := addf v30 v25
  v31

abbrev r11_sl (i : grid11.Coords) : Rect S10000x1 := Rect.unit (s := S10000x1) (k11_off1 i) S400x1.size (k11_off1_inb i)

theorem off_facts11 : ∀ t : Fin cfg11.N, k11_off1 (grid11.coords t) = ![400 * (t.val % 25), 0] :=
  (by decide +kernel : ∀ t : Fin grid11.N, k11_off1 (grid11.coords t) = ![400 * (t.val % 25), 0])

def o2Step11 (s : F .f32) (i : grid11.Coords) (x y : Vec F S400x64 .bf16) (o : Vec F S10000x1 .f32) : Vec F S10000x1 .f32 :=
  (r11_sl i).overlay o (colStep11 s x y (View.ld o (r11_sl i)))

def tile11 (A : Vec F S10000x64 .bf16) (k : ℕ) : Vec F S400x64 .bf16 :=
  fun y => A (ValueIdx.ix2 (⟨min (400 * k + (y 0).val) 9999, by omega⟩ : Fin 10000) (y 1))

def acc11 (s : F .f32) (A B : Vec F S10000x64 .bf16) (i : ℕ) : ℕ → Vec F S400x1 .f32
  | 0 => rowStep11 s (tile11 A i) (tile11 B 0) k11_pay1
  | j + 1 => rowStep11 s (tile11 A i) (tile11 B (j + 1)) (acc11 s A B i j)

def accAfter11 (s : F .f32) (A B : Vec F S10000x64 .bf16) (n : ℕ) : Vec F S400x1 .f32 := acc11 s A B (n / 25) (n % 25)

def o2At11 (s : F .f32) (A B : Vec F S10000x64 .bf16) : (n : ℕ) → n < cfg11.N → Vec F S10000x1 .f32
  | 0, h => o2Step11 s (grid11.coords ⟨0, h⟩) (tile11 A (0 / 25)) (tile11 B (0 % 25)) k11_pay2
  | n + 1, h => o2Step11 s (grid11.coords ⟨n + 1, h⟩) (tile11 A ((n + 1) / 25)) (tile11 B ((n + 1) % 25)) (o2At11 s A B n (Nat.lt_of_succ_lt h))

def G11_2 (s : F .f32) (A B : Vec F S10000x64 .bf16) : Vec F S10000x1 .f32 :=
  fun idx => acc11 s A B ((idx 0).val / 400) 24 (ValueIdx.ix2 (⟨(idx 0).val % 400, Nat.mod_lt _ (by decide)⟩ : Fin 400) (idx 1))

def G11_3 (s : F .f32) (A B : Vec F S10000x64 .bf16) : Vec F S10000x1 .f32 :=
  o2At11 s A B 624 (by decide)

end Cert.KernelIdeal.Hand

end
-- ==== Proof.KI.R11.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import proofs.«417009_j23742579212955_2_alg».proof.Proof.KI.R11Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev scale11 : F .f32 := Named.named κ "inv_temp" 0x40A00000#32

theorem hz11 : (![0, 0] : Fin 2 → Nat) = fun _ => 0 := funext fun a => by fin_cases a <;> rfl

theorem read_writes_cons_overlay {sg : RefSig} {k : Kind} {sp : Space} {s : Shape} {e : EltTy} (v : View sg k sp s e)
    (f : v.ty.Contents (Elt F)) (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

abbrev cond11_1 (i : grid11.Coords) : Prop := (Scalar.cmpi .ne (Scalar.extui (Scalar.cmpi .eq (BitVec.ofNat 32 (i 1).val) 0#32)) 0#32) = 1#1
abbrev cond11_2 (i : grid11.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem read_writes_cons_whole {sg : RefSig} {k : Kind} {sp : Space} {S : Shape} {e : EltTy} (v : View sg k sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

set_option maxHeartbeats 1000000 in
theorem sound_kernel11_A (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : cond11_1 i) (h2 : cond11_2 i) (h3 : ¬ k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ (∃ d, owns (c : Thread nD τ) arg5 fullShare d) ∗ (∃ d, owns (c : Thread nD τ) arg6 fullShare d)
        ∗ (iprop(owns (c : Thread nD τ) arg2 fullShare x ∗ owns (c : Thread nD τ) arg3 fullShare y ∗ owns (c : Thread nD τ) arg5 fullShare (o2Step11 scale11 i x y k11_pay2) ∗ owns (c : Thread nD τ) arg6 fullShare (rowStep11 scale11 x y k11_pay1)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%o5, %f5, -, H5⟩, ⟨%a6, %f6, -, H6⟩, Hk⟩
  subst hf2; subst hf3
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    simp only [View.readAt_eq_ld]
    rw [read_writes_cons_overlay, read_writes_cons_whole (h := hz11)]
    simp only [View.ld_unit_zero (S := S400x64) hz11]
    rfl
  · iexists _; isplitr
    swap; · iexact H6
    ipureintro
    sl_unfold_words
    simp only [View.readAt_eq_ld]
    rw [read_writes_cons_whole (h := hz11), View.readCov_unit_zero _ hz11]
    simp only [View.ld_unit_zero (S := S400x64) hz11]
    rfl

set_option maxHeartbeats 1000000 in
theorem sound_kernel11_B (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : cond11_1 i) (h2 : ¬ cond11_2 i) (h3 : ¬ k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ owns (c : Thread nD τ) arg5 fullShare o ∗ (∃ d, owns (c : Thread nD τ) arg6 fullShare d)
        ∗ (iprop(owns (c : Thread nD τ) arg2 fullShare x ∗ owns (c : Thread nD τ) arg3 fullShare y ∗ owns (c : Thread nD τ) arg5 fullShare (o2Step11 scale11 i x y o) ∗ owns (c : Thread nD τ) arg6 fullShare (rowStep11 scale11 x y k11_pay1)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%f5, %hf5, H5⟩, ⟨%a6, %f6, -, H6⟩, Hk⟩
  subst hf2; subst hf3; subst hf5
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    simp only [View.readAt_eq_ld]
    rw [read_writes_cons_overlay, View.writes_nil]
    simp only [View.ld_unit_zero (S := S400x64) hz11]
    rfl
  · iexists _; isplitr
    swap; · iexact H6
    ipureintro
    sl_unfold_words
    simp only [View.readAt_eq_ld]
    rw [read_writes_cons_whole (h := hz11), View.readCov_unit_zero _ hz11]
    simp only [View.ld_unit_zero (S := S400x64) hz11]
    rfl

set_option maxHeartbeats 1000000 in
theorem sound_kernel11_C (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : ¬ cond11_1 i) (h2 : ¬ cond11_2 i) (h3 : ¬ k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ owns (c : Thread nD τ) arg5 fullShare o ∗ owns (c : Thread nD τ) arg6 fullShare a
        ∗ (iprop(owns (c : Thread nD τ) arg2 fullShare x ∗ owns (c : Thread nD τ) arg3 fullShare y ∗ owns (c : Thread nD τ) arg5 fullShare (o2Step11 scale11 i x y o) ∗ owns (c : Thread nD τ) arg6 fullShare (rowStep11 scale11 x y a)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%f5, %hf5, H5⟩, ⟨%f6, %hf6, H6⟩, Hk⟩
  subst hf2; subst hf3; subst hf5; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H5]
  · iexists _; isplitr
    swap; · iexact H5
    ipureintro
    sl_unfold_words
    simp only [View.readAt_eq_ld]
    rw [read_writes_cons_overlay, View.writes_nil]
    simp only [View.ld_unit_zero (S := S400x64) hz11]
    rfl
  · iexists _; isplitr
    swap; · iexact H6
    ipureintro
    sl_unfold_words
    simp only [View.readAt_eq_ld]
    rw [read_writes_cons_whole (h := hz11)]
    simp only [View.ld_unit_zero (S := S400x64) hz11, View.ld_unit_zero (S := S400x1) hz11]
    rfl

set_option maxHeartbeats 1000000 in
theorem sound_kernel11_D (c : Dev nD) (E : Set ℕ) (i : grid11.Coords)
    (arg2 : Memref sig .tc .vmem S400x64 .bf16) (harg2 : arg2.IsWhole) (arg3 : Memref sig .tc .vmem S400x64 .bf16) (harg3 : arg3.IsWhole)
    (arg4 : Memref sig .tc .vmem S400x1 .f32) (harg4 : arg4.IsWhole) (arg5 : Memref sig .tc .vmem S10000x1 .f32) (harg5 : arg5.IsWhole)
    (arg6 : Memref sig .tc .vmem S400x1 .f32) (harg6 : arg6.IsWhole)
    (h1 : ¬ cond11_1 i) (h2 : ¬ cond11_2 i) (h3 : k11_cond3 i = 1#1)
    (x y : Vec F S400x64 .bf16) (a : Vec F S400x1 .f32) (o : Vec F S10000x1 .f32) (K : PUnit → sProp 𝕄) :
    iprop(owns (c : Thread nD τ) arg2 fullShare x ∗ owns (c : Thread nD τ) arg3 fullShare y ∗ (∃ d, owns (c : Thread nD τ) arg4 fullShare d) ∗ owns (c : Thread nD τ) arg5 fullShare o ∗ owns (c : Thread nD τ) arg6 fullShare a
        ∗ (iprop(owns (c : Thread nD τ) arg2 fullShare x ∗ owns (c : Thread nD τ) arg3 fullShare y ∗ owns (c : Thread nD τ) arg4 fullShare (rowStep11 scale11 x y a) ∗ owns (c : Thread nD τ) arg5 fullShare (o2Step11 scale11 i x y o) ∗ owns (c : Thread nD τ) arg6 fullShare (rowStep11 scale11 x y a)) -∗ K ⟨⟩))
      ⊢ wp frame (wpE (defs₀ (F := F)) Variants.none c none) E (cc11__infonce_both_kernel i arg2 harg2 arg3 harg3 arg4 harg4 arg5 harg5 arg6 harg6) K := by
  simp only [cc11__infonce_both_kernel_eq_skeleton]; unfold cc11__infonce_both_kernel_skel
  simp only [k11_part1_eq_skeleton]; unfold k11_part1_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2; subst hf3; subst hf5; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    simp only [View.readAt_eq_ld]
    rw [read_writes_cons_whole (S := S400x1) (h := hz11), View.readCov_unit_zero (S := S400x1) _ hz11]
    simp only [View.ld_unit_zero (S := S400x64) hz11, View.ld_unit_zero (S := S400x1) hz11]
    rfl
  isplitl [H5]
  · iexists _; isplitr
    swap; · iexact H5
    ipureintro
    sl_unfold_words
    simp only [View.readAt_eq_ld]
    rw [read_writes_cons_overlay, View.writes_nil]
    simp only [View.ld_unit_zero (S := S400x64) hz11]
    rfl
  · iexists _; isplitr
    swap; · iexact H6
    ipureintro
    sl_unfold_words
    simp only [View.readAt_eq_ld]
    rw [read_writes_cons_whole (h := hz11)]
    simp only [View.ld_unit_zero (S := S400x64) hz11, View.ld_unit_zero (S := S400x1) hz11]
    rfl

theorem hcond11_1 : ∀ t : Fin cfg11.N, cond11_1 (grid11.coords t) ↔ t.val % 25 = 0 :=
  (by decide +kernel : ∀ t : Fin grid11.N, cond11_1 (grid11.coords t) ↔ t.val % 25 = 0)
theorem hcond11_2 : ∀ t : Fin cfg11.N, cond11_2 (grid11.coords t) ↔ t.val = 0 :=
  (by decide +kernel : ∀ t : Fin grid11.N, cond11_2 (grid11.coords t) ↔ t.val = 0)
theorem hcond11_3 : ∀ t : Fin cfg11.N, k11_cond3 (grid11.coords t) = 1#1 ↔ t.val % 25 = 24 :=
  (by decide +kernel : ∀ t : Fin grid11.N, k11_cond3 (grid11.coords t) = 1#1 ↔ t.val % 25 = 24)

theorem idx_facts11 : ∀ t : Fin cfg11.N, win11_0.index t (0 : Fin 2) = t.val / 25 ∧ win11_0.index t (1 : Fin 2) = 0
    ∧ win11_1.index t (0 : Fin 2) = t.val % 25 ∧ win11_1.index t (1 : Fin 2) = 0
    ∧ win11_2.index t (0 : Fin 2) = t.val / 25 ∧ win11_2.index t (1 : Fin 2) = 0
    ∧ win11_3.index t (0 : Fin 2) = 0 ∧ win11_3.index t (1 : Fin 2) = 0 :=
  (by decide +kernel : ∀ t : Fin grid11.N, _)

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

theorem accAfter11_reset (s : F .f32) (A B : Vec F S10000x64 .bf16) (n : ℕ) (h : n % 25 = 0) :
    accAfter11 s A B n = rowStep11 s (tile11 A (n / 25)) (tile11 B (n % 25)) k11_pay1 := by
  unfold accAfter11; rw [h]; rfl

theorem accAfter11_step (s : F .f32) (A B : Vec F S10000x64 .bf16) (n : ℕ) (h : n % 25 ≠ 0) :
    accAfter11 s A B n = rowStep11 s (tile11 A (n / 25)) (tile11 B (n % 25)) (accAfter11 s A B (n - 1)) := by
  unfold accAfter11
  obtain ⟨j, hj⟩ : ∃ j, n % 25 = j + 1 := ⟨n % 25 - 1, by omega⟩
  have e1 : (n - 1) / 25 = n / 25 := by omega
  have e2 : (n - 1) % 25 = j := by omega
  rw [e1, e2, hj]; rfl

theorem o2At11_zero (s : F .f32) (A B : Vec F S10000x64 .bf16) (t : Fin cfg11.N) (h0 : t.val = 0) :
    o2At11 s A B t.val t.isLt = o2Step11 s (grid11.coords t) (tile11 A (t.val / 25)) (tile11 B (t.val % 25)) k11_pay2 := by
  obtain ⟨n, hn⟩ := t
  cases n with
  | zero => rfl
  | succ n => exact absurd h0 (Nat.succ_ne_zero n)

theorem o2At11_pos (s : F .f32) (A B : Vec F S10000x64 .bf16) (t : Fin cfg11.N) (h0 : t.val ≠ 0) :
    o2At11 s A B t.val t.isLt = o2Step11 s (grid11.coords t) (tile11 A (t.val / 25)) (tile11 B (t.val % 25))
      (o2At11 s A B (t.val - 1) (Nat.lt_of_le_of_lt (Nat.sub_le _ _) t.isLt)) := by
  obtain ⟨n, hn⟩ := t
  cases n with
  | zero => exact absurd rfl h0
  | succ n => rfl

abbrev arrA11 (c : Dev nD) : Vec F S10000x64 .bf16 := V c (Pipeline.arrRef spec11 0)
abbrev arrB11 (c : Dev nD) : Vec F S10000x64 .bf16 := V c (Pipeline.arrRef spec11 1)

theorem iblk11_0_eq (c : Dev nD) (t : Fin cfg11.N) : iblk11 V c 0 t = tile11 (arrA11 V c) (t.val / 25) := by
  obtain ⟨e0, e1, -⟩ := idx_facts11 t
  have hN : t.val < 625 := lt_of_lt_of_eq t.isLt (show cfg11.N = 625 from N_11)
  funext y
  show V c (Pipeline.arrRef spec11 0) (((cfg11.win 0).blk t).view.emb y) = V c (Pipeline.arrRef spec11 0) _
  refine congrArg _ ?_
  funext a; apply Fin.ext
  match a with
  | ⟨0, _⟩ => show win11_0.index t (0 : Fin 2) * 400 + 1 * (y 0).val = min (400 * (t.val / 25) + (y 0).val) 9999; have hy : (y 0).val < 400 := (y 0).isLt; omega
  | ⟨1, _⟩ => show win11_0.index t (1 : Fin 2) * 64 + 1 * (y 1).val = (y 1).val; omega

theorem iblk11_1_eq (c : Dev nD) (t : Fin cfg11.N) : iblk11 V c 1 t = tile11 (arrB11 V c) (t.val % 25) := by
  obtain ⟨-, -, e0, e1, -⟩ := idx_facts11 t
  funext y
  show V c (Pipeline.arrRef spec11 1) (((cfg11.win 1).blk t).view.emb y) = V c (Pipeline.arrRef spec11 1) _
  refine congrArg _ ?_
  funext a; apply Fin.ext
  match a with
  | ⟨0, _⟩ => show win11_1.index t (0 : Fin 2) * 400 + 1 * (y 0).val = min (400 * (t.val % 25) + (y 0).val) 9999; have hy : (y 0).val < 400 := (y 0).isLt; omega
  | ⟨1, _⟩ => show win11_1.index t (1 : Fin 2) * 64 + 1 * (y 1).val = (y 1).val; omega

abbrev scM11 : Memref sig .tc .vmem S400x1 .f32 := Memref.whole cc11_scratch0

def Φ11 (c : Dev nD) (n : ℕ) : sProp 𝕄 :=
  iprop((∃ a : Vec F S400x1 .f32, ⌜n % 25 ≠ 0 → a = accAfter11 scale11 (arrA11 V c) (arrB11 V c) (n - 1)⌝ ∗ owns (c : Thread nD τ) scM11 fullShare a)
    ∗ Pipeline.scopedRestBut (Ix := Unit) (Name := ℕ) (U := UR sig nD τ) (Lvl := ℕ) (Val := Elt F) spec11 c [cc11_scratch0]
    ∗ ∃ r, prngReg c r)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => accAfter11 scale11 (arrA11 V c) (arrB11 V c) t.val
    | ⟨3, _⟩ => o2At11 scale11 (arrA11 V c) (arrB11 V c) t.val t.isLt
  Φ t := Φ11 V c t.val
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = accAfter11 scale11 (arrA11 V c) (arrB11 V c) t.val := by dsimp only [dat11]
theorem after11_3 (c : Dev nD) (t : Fin cfg11.N) : (dat11 V c).after 3 t = o2At11 scale11 (arrA11 V c) (arrB11 V c) t.val t.isLt := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

theorem before11_3_pos (c : Dev nD) (t : Fin cfg11.N) (h0 : t.val ≠ 0) (d) :
    (dat11 V c).before 3 t d = o2At11 scale11 (arrA11 V c) (arrB11 V c) (t.val - 1) (Nat.lt_of_le_of_lt (Nat.sub_le _ _) t.isLt) := by
  have hN : t.val < 625 := lt_of_lt_of_eq t.isLt (show cfg11.N = 625 from N_11)
  rw [Dat.before_out_kept _ 3 rfl t h0 (Bool.eq_false_iff.mpr fun h => by have := (flush11_3 _).mp h; dsimp only at this; omega)
    (fun _ => rfl) (fun _ _ => rfl)]
  dsimp only [dat11]

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ (dat11 V c).leavesExact 2 t
    ∗ owns (c : Thread nD τ) (st11_3 t) fullShare ((dat11 V c).after 3 t))

theorem sound_body11 (c : Dev nD) (t : Fin cfg11.N) :
    bodyPre11 V c t ⊢ wp frame (wpE (defs₀ (F := F)) Variants.none c none) Set.univ (bodyAt11 t) (fun _ => bodyPost11 V c t) := by
  have hN : t.val < 625 := lt_of_lt_of_eq t.isLt (show cfg11.N = 625 from N_11)
  unfold bodyPre11 bodyPost11 bodyAt11
  simp only [before11_0, before11_1]
  rw [show (dat11 V c).Φ t.succ = Φ11 V c (t.val + 1) from rfl, show (dat11 V c).Φ t.castSucc = Φ11 V c t.val from rfl,
    show (dat11 V c).owesAt () t.succ = (dat11 V c).owesAt () t.castSucc from rfl,
    after11_0, after11_1, after11_3, iblk11_0_eq, iblk11_1_eq]
  unfold Φ11
  rw [Nat.add_sub_cancel]
  by_cases h24 : t.val % 25 = 24
  ·
    have hi : cfg11.idle 2 (cfg11.grid.coords t) = false := by
      show (!(k11_cond3 (grid11.coords t) == 1#1)) = false
      rw [(hcond11_3 t).mpr h24]; rfl
    have hle : (dat11 V c).leavesExact 2 t = owns (c : Thread nD τ) (st11_2 t) fullShare ((dat11 V c).after 2 t) := by
      unfold Dat.leavesExact; rw [hi]
    rw [hle, after11_2, o2At11_pos _ _ _ t (by omega), accAfter11_step _ _ _ t.val (by omega)]
    simp only [before11_3_pos V c t (by omega)]
    iintro ⟨⟨⟨%a, %ha, Hs⟩, Hrest, Hp⟩, Ho, ⟨%d0, H0⟩, ⟨%d1, H1⟩, ⟨%d2, H2⟩, ⟨%d3, H3⟩⟩
    obtain rfl := ha (by omega)
    iapply (sound_kernel11_D c Set.univ (grid11.coords t) _ _ _ _ _ _ _ _ _ _
      (fun h => by have := (hcond11_1 t).mp h; omega) (fun h => by have := (hcond11_2 t).mp h; omega) ((hcond11_3 t).mpr h24)
      (tile11 (arrA11 V c) (t.val / 25)) (tile11 (arrB11 V c) (t.val % 25)) _ _ _)
    isplitl [H0]; · iexact H0
    isplitl [H1]; · iexact H1
    isplitl [H2]; · iexists _; iexact H2
    isplitl [H3]; · iexact H3
    isplitl [Hs]; · iexact Hs
    iintro ⟨H0, H1, H2, H3, Hs⟩
    isplitl [Hs Hrest Hp]
    · isplitl [Hs]
      · iexists _; isplitr
        swap; · iexact Hs
        ipureintro; intro h; omega
      isplitl [Hrest]; · iexact Hrest
      iexact Hp
    isplitl [Ho]; · iexact Ho
    isplitl [H0]; · iexact H0
    isplitl [H1]; · iexact H1
    isplitl [H2]; · iexact H2
    iexact H3
  ·
    have h3 : ¬ k11_cond3 (grid11.coords t) = 1#1 := fun h => h24 ((hcond11_3 t).mp h)
    have hi : cfg11.idle 2 (cfg11.grid.coords t) = true := by
      show (!(k11_cond3 (grid11.coords t) == 1#1)) = true
      simp only [Bool.not_eq_true', beq_eq_false_iff_ne, ne_eq]; exact h3
    have hf : (cfg11.win 2).flush t = false := Bool.eq_false_iff.mpr fun h => h24 ((flush11_2 t).mp h)
    rw [Dat.leavesExact_idle _ 2 t hi hf]
    by_cases h0 : t.val % 25 = 0
    · by_cases h00 : t.val = 0
      ·
        rw [o2At11_zero _ _ _ t h00, accAfter11_reset _ _ _ t.val h0]
        simp only [Dat.before_out_reset _ 3 rfl t (.inl h00)]
        iintro ⟨⟨⟨%a, %ha, Hs⟩, Hrest, Hp⟩, Ho, ⟨%d0, H0⟩, ⟨%d1, H1⟩, H2, ⟨%d3, H3⟩⟩
        iapply (sound_kernel11_A c Set.univ (grid11.coords t) _ _ _ _ _ _ _ _ _ _
          ((hcond11_1 t).mpr h0) ((hcond11_2 t).mpr h00) h3
          (tile11 (arrA11 V c) (t.val / 25)) (tile11 (arrB11 V c) (t.val % 25)) k11_pay1 k11_pay2 _)
        isplitl [H0]; · iexact H0
        isplitl [H1]; · iexact H1
        isplitl [H3]; · iexists _; iexact H3
        isplitl [Hs]; · iexists _; iexact Hs
        iintro ⟨H0, H1, H3, Hs⟩
        isplitl [Hs Hrest Hp]
        · isplitl [Hs]
          · iexists _; isplitr
            swap; · iexact Hs
            ipureintro; intro _; rfl
          isplitl [Hrest]; · iexact Hrest
          iexact Hp
        isplitl [Ho]; · iexact Ho
        isplitl [H0]; · iexact H0
        isplitl [H1]; · iexact H1
        isplitl [H2]; · iexact H2
        iexact H3
      ·
        rw [o2At11_pos _ _ _ t h00, accAfter11_reset _ _ _ t.val h0]
        simp only [before11_3_pos V c t h00]
        iintro ⟨⟨⟨%a, %ha, Hs⟩, Hrest, Hp⟩, Ho, ⟨%d0, H0⟩, ⟨%d1, H1⟩, H2, ⟨%d3, H3⟩⟩
        iapply (sound_kernel11_B c Set.univ (grid11.coords t) _ _ _ _ _ _ _ _ _ _
          ((hcond11_1 t).mpr h0) (fun h => h00 ((hcond11_2 t).mp h)) h3
          (tile11 (arrA11 V c) (t.val / 25)) (tile11 (arrB11 V c) (t.val % 25)) k11_pay1 _ _)
        isplitl [H0]; · iexact H0
        isplitl [H1]; · iexact H1
        isplitl [H3]; · iexact H3
        isplitl [Hs]; · iexists _; iexact Hs
        iintro ⟨H0, H1, H3, Hs⟩
        isplitl [Hs Hrest Hp]
        · isplitl [Hs]
          · iexists _; isplitr
            swap; · iexact Hs
            ipureintro; intro _; rfl
          isplitl [Hrest]; · iexact Hrest
          iexact Hp
        isplitl [Ho]; · iexact Ho
        isplitl [H0]; · iexact H0
        isplitl [H1]; · iexact H1
        isplitl [H2]; · iexact H2
        iexact H3
    ·
      rw [o2At11_pos _ _ _ t (by omega), accAfter11_step _ _ _ t.val h0]
      simp only [before11_3_pos V c t (by omega)]
      iintro ⟨⟨⟨%a, %ha, Hs⟩, Hrest, Hp⟩, Ho, ⟨%d0, H0⟩, ⟨%d1, H1⟩, H2, ⟨%d3, H3⟩⟩
      obtain rfl := ha h0
      iapply (sound_kernel11_C c Set.univ (grid11.coords t) _ _ _ _ _ _ _ _ _ _
        (fun h => h0 ((hcond11_1 t).mp h)) (fun h => by have := (hcond11_2 t).mp h; omega) h3
        (tile11 (arrA11 V c) (t.val / 25)) (tile11 (arrB11 V c) (t.val % 25)) _ _ _)
      isplitl [H0]; · iexact H0
      isplitl [H1]; · iexact H1
      isplitl [H3]; · iexact H3
      isplitl [Hs]; · iexact Hs
      iintro ⟨H0, H1, H3, Hs⟩
      isplitl [Hs Hrest Hp]
      · isplitl [Hs]
        · iexists _; isplitr
          swap; · iexact Hs
          ipureintro; intro _; rfl
        isplitl [Hrest]; · iexact Hrest
        iexact Hp
      isplitl [Ho]; · iexact Ho
      isplitl [H0]; · iexact H0
      isplitl [H1]; · iexact H1
      isplitl [H2]; · iexact H2
      iexact H3

theorem body_obligation11 (c : Dev nD) : BodyObligation (dat11 (F := F) V c) (defs₀ (F := F)) Variants.none () Set.univ := fun t => by
  rw [bigSep_W11, bigSep_W11]
  exact sound_body11 V c t

theorem hin11 (c : Dev nD) : iprop((∃ r, prngReg c r) ∗ Pipeline.scopedRest (Ix := Unit) (Name := ℕ) (U := UR sig nD τ) (Lvl := ℕ) (Val := Elt F) spec11 c) ⊢ (dat11 V c).Φ 0 := by
  rw [show (dat11 V c).Φ 0 = Φ11 V c 0 from rfl, scopedRest11_split]
  unfold Φ11
  simp only [scM11, owns_whole]
  iintro ⟨Hp, ⟨%f, Hs⟩, Hrest⟩
  isplitl [Hs]
  · iexists f; isplitr; · ipureintro; intro h; exact absurd rfl h
    iexact Hs
  isplitl [Hrest]; · iexact Hrest
  iexact Hp

theorem hout11 (c : Dev nD) : (dat11 V c).Φ (Fin.last cfg11.N) ⊢ iprop((∃ r, prngReg c r) ∗ Pipeline.scopedRest (Ix := Unit) (Name := ℕ) (U := UR sig nD τ) (Lvl := ℕ) (Val := Elt F) spec11 c) := by
  rw [show (dat11 V c).Φ (Fin.last cfg11.N) = Φ11 V c (Fin.last cfg11.N).val from rfl, scopedRest11_split]
  unfold Φ11
  simp only [scM11, owns_whole]
  iintro ⟨⟨%a, -, Hs⟩, Hrest, Hp⟩
  isplitl [Hp]; · iexact Hp
  isplitl [Hs]
  · iexists a; iexact Hs
  iexact Hrest

theorem G11_2_at (s : F .f32) (A B : Vec F S10000x64 .bf16) (k : ℕ) (idx : S10000x1.Idx) (y : S400x1.Idx)
    (h0 : (idx 0).val = 400 * k + (y 0).val) : G11_2 s A B idx = acc11 s A B k 24 y := by
  have hy : (y 0).val < 400 := (y 0).isLt
  have e1 : (idx 0).val / 400 = k := by omega
  have e2 : (ValueIdx.ix2 (⟨(idx 0).val % 400, Nat.mod_lt _ (by decide)⟩ : Fin 400) (idx 1) : S400x1.Idx) = y := by
    funext a
    match a with
    | ⟨0, _⟩ => exact Fin.ext (by show (idx 0).val % 400 = (y 0).val; omega)
    | ⟨1, _⟩ => exact Fin.ext (by
        have h1 : (idx 1).val < 1 := (idx 1).isLt
        have h2 : (y 1).val < 1 := (y 1).isLt
        show (idx 1).val = (y 1).val; omega)
  unfold G11_2; rw [e1, e2]

theorem mem_blk11_2 (t : Fin cfg11.N) (i : S10000x1.Idx) :
    i ∈ ((cfg11.win 2).blk t).view.set ↔ ∀ a : Fin 2, win11_2.index t a * S400x1.size a ≤ (i a).val ∧ (i a).val < win11_2.index t a * S400x1.size a + S400x1.size a := by
  show i ∈ ((View.whole main_v108_0).slice (win11_2.rect t)).set ↔ _
  rw [View.set_slice_whole, Rect.mem_set_unit]
  exact Iff.rfl

theorem mem_blk11_3 (t : Fin cfg11.N) (i : S10000x1.Idx) :
    i ∈ ((cfg11.win 3).blk t).view.set ↔ ∀ a : Fin 2, win11_3.index t a * S10000x1.size a ≤ (i a).val ∧ (i a).val < win11_3.index t a * S10000x1.size a + S10000x1.size a := by
  show i ∈ ((View.whole main_v108_1).slice (win11_3.rect t)).set ↔ _
  rw [View.set_slice_whole, Rect.mem_set_unit]
  exact Iff.rfl

theorem flushed11_2_eq (c : Dev nD) (t : Fin cfg11.N) (hf : (cfg11.win 2).flush t = true) :
    (dat11 V c).flushed 2 t = ((cfg11.win 2).blk t).view.read (Elt F) (G11_2 scale11 (arrA11 V c) (arrB11 V c)) := by
  have h24 := (flush11_2 t).mp hf
  obtain ⟨-, -, -, -, e0, e1, -⟩ := idx_facts11 t
  show (cfg11.win 2).cut (grid11.coords t) ((dat11 V c).after 2 t) = _
  rw [after11_2]
  funext y
  show accAfter11 scale11 (arrA11 V c) (arrB11 V c) t.val y = G11_2 scale11 (arrA11 V c) (arrB11 V c) (((cfg11.win 2).blk t).view.emb y)
  rw [G11_2_at scale11 _ _ (t.val / 25) _ y (by show win11_2.index t (0 : Fin 2) * 400 + 1 * (y 0).val = 400 * (t.val / 25) + (y 0).val; omega)]
  unfold accAfter11; rw [h24]

theorem cover11_2 (i : S10000x1.Idx) : ∃ t : Fin cfg11.N, (cfg11.win 2).flush t = true ∧ i ∈ ((cfg11.win 2).blk t).view.set := by
  have hi0 : (i 0).val < 10000 := (i 0).isLt
  have hi1 : (i 1).val < 1 := (i 1).isLt
  have ht : 25 * ((i 0).val / 400) + 24 < cfg11.N := by rw [show cfg11.N = 625 from N_11]; omega
  obtain ⟨-, -, -, -, e0, e1, -⟩ := idx_facts11 ⟨25 * ((i 0).val / 400) + 24, ht⟩
  refine ⟨⟨25 * ((i 0).val / 400) + 24, ht⟩, (flush11_2 _).mpr (by show (25 * ((i 0).val / 400) + 24) % 25 = 24; omega), ?_⟩
  rw [mem_blk11_2]
  have hq : (25 * ((i 0).val / 400) + 24) / 25 = (i 0).val / 400 := by omega
  intro a
  match a with
  | ⟨0, _⟩ =>
    show win11_2.index ⟨25 * ((i 0).val / 400) + 24, ht⟩ (0 : Fin 2) * 400 ≤ (i 0).val ∧ (i 0).val < win11_2.index ⟨25 * ((i 0).val / 400) + 24, ht⟩ (0 : Fin 2) * 400 + 400
    rw [e0]; show (25 * ((i 0).val / 400) + 24) / 25 * 400 ≤ (i 0).val ∧ (i 0).val < (25 * ((i 0).val / 400) + 24) / 25 * 400 + 400
    rw [hq]; omega
  | ⟨1, _⟩ =>
    show win11_2.index ⟨25 * ((i 0).val / 400) + 24, ht⟩ (1 : Fin 2) * 1 ≤ (i 1).val ∧ (i 1).val < win11_2.index ⟨25 * ((i 0).val / 400) + 24, ht⟩ (1 : Fin 2) * 1 + 1
    rw [e1]; omega

theorem final11_2 (c : Dev nD) : (dat11 V c).arrAt 2 cfg11.N = G11_2 scale11 (V c (Pipeline.arrRef spec11 0)) (V c (Pipeline.arrRef spec11 1)) :=
  (dat11 V c).arrAt_eq_of_cover 2 (G11_2 scale11 (arrA11 V c) (arrB11 V c)) (fun t hf => flushed11_2_eq V c t hf) cover11_2

theorem flushed11_3_eq (c : Dev nD) (t : Fin cfg11.N) (hf : (cfg11.win 3).flush t = true) :
    (dat11 V c).flushed 3 t = ((cfg11.win 3).blk t).view.read (Elt F) (G11_3 scale11 (arrA11 V c) (arrB11 V c)) := by
  have hN : t.val < 625 := lt_of_lt_of_eq t.isLt (show cfg11.N = 625 from N_11)
  have h624 : t.val = 624 := by have := (flush11_3 t).mp hf; omega
  obtain ⟨-, -, -, -, -, -, e0, e1⟩ := idx_facts11 t
  show (cfg11.win 3).cut (grid11.coords t) ((dat11 V c).after 3 t) = _
  rw [after11_3]
  funext y
  show o2At11 scale11 (arrA11 V c) (arrB11 V c) t.val t.isLt y = G11_3 scale11 (arrA11 V c) (arrB11 V c) (((cfg11.win 3).blk t).view.emb y)
  have hy : ((cfg11.win 3).blk t).view.emb y = y := by
    funext a; apply Fin.ext
    match a with
    | ⟨0, _⟩ => show win11_3.index t (0 : Fin 2) * 10000 + 1 * (y 0).val = (y 0).val; omega
    | ⟨1, _⟩ => show win11_3.index t (1 : Fin 2) * 1 + 1 * (y 1).val = (y 1).val; omega
  rw [hy]; unfold G11_3
  obtain ⟨n, hn⟩ := t
  obtain rfl : n = 624 := h624
  rfl

theorem cover11_3 (i : S10000x1.Idx) : ∃ t : Fin cfg11.N, (cfg11.win 3).flush t = true ∧ i ∈ ((cfg11.win 3).blk t).view.set := by
  have hi0 : (i 0).val < 10000 := (i 0).isLt
  have hi1 : (i 1).val < 1 := (i 1).isLt
  have ht : 624 < cfg11.N := by rw [show cfg11.N = 625 from N_11]; omega
  obtain ⟨-, -, -, -, -, -, e0, e1⟩ := idx_facts11 ⟨624, ht⟩
  refine ⟨⟨624, ht⟩, (flush11_3 _).mpr (by show 624 % 625 = 624; omega), ?_⟩
  rw [mem_blk11_3]
  intro a
  match a with
  | ⟨0, _⟩ =>
    show win11_3.index ⟨624, ht⟩ (0 : Fin 2) * 10000 ≤ (i 0).val ∧ (i 0).val < win11_3.index ⟨624, ht⟩ (0 : Fin 2) * 10000 + 10000
    rw [e0]; omega
  | ⟨1, _⟩ =>
    show win11_3.index ⟨624, ht⟩ (1 : Fin 2) * 1 ≤ (i 1).val ∧ (i 1).val < win11_3.index ⟨624, ht⟩ (1 : Fin 2) * 1 + 1
    rw [e1]; omega

theorem final11_3 (c : Dev nD) : (dat11 V c).arrAt 3 cfg11.N = G11_3 scale11 (V c (Pipeline.arrRef spec11 0)) (V c (Pipeline.arrRef spec11 1)) :=
  (dat11 V c).arrAt_eq_of_cover 3 (G11_3 scale11 (arrA11 V c) (arrB11 V c)) (fun t hf => flushed11_3_eq V c t hf) cover11_3

end Cert.KernelIdeal.Hand

end
-- ==== Proof.KI.R12.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

abbrev r12_A : Rect S400x10000 := Rect.unit (s := S400x10000) ![0, 0] S400x10000.size inb_S400x10000_S400x10000_0_0
abbrev r12_X : Rect S10000x192 := Rect.unit (s := S10000x192) ![0, 0] S10000x192.size inb_S10000x192_S10000x192_0_0
abbrev r12_O : Rect S400x192 := Rect.unit (s := S400x192) ![0, 0] S400x192.size inb_S400x192_S400x192_0_0

def out12_2 (x0 : Vec F S400x10000 .bf16) (x1 : Vec F S10000x192 .bf16) : Vec F S400x192 .f32 :=
  View.canon [⟨r12_O, k12_pay1 (View.ld x0 r12_A) (View.ld x1 r12_X)⟩]

theorem cover12_2 (p0 : Vec F S400x192 .f32) (y : S400x192.Idx) :
    ∃ pc ∈ ([⟨r12_O, p0⟩] : List (View.Piece (Elt F) S400x192 .f32)), y ∈ pc.1.set :=
  View.cover_of_tiled [⟨r12_O, p0⟩] S400x192.size (by rfl) y

set_option maxHeartbeats 1000000 in
theorem sound_kernel12 (c : Dev nD) (E : Set ℕ) (i : grid12.Coords) (arg1 : Memref sig .tc .vmem S400x10000 .bf16) (harg1 : arg1.IsWhole)
    (arg2 : Memref sig .tc .vmem S10000x192 .bf16) (harg2 : arg2.IsWhole) (arg3 : Memref sig .tc .vmem S400x192 .f32) (harg3 : arg3.IsWhole)
    (x0 : Vec F S400x10000 .bf16) (x1 : Vec F S10000x192 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation12 (c : Dev nD) : BodyObligation (dat12 (F := F) V c) (defs₀ (F := F)) Variants.none () Set.univ := fun t => by
  rw [bigSep_W12, bigSep_W12]
  exact sound_body12 V c t

open ValueIdx

theorem hz12 : (![0, 0] : Fin 2 → Nat) = fun _ => 0 := funext fun a => by fin_cases a <;> rfl

def rows12 (A : Vec F S8000x10000 .bf16) (q : Nat) : Vec F S400x10000 .bf16 :=
  fun y => A (ix2 ⟨(q * 400 + (y 0).val) % 8000, Nat.mod_lt _ (by decide)⟩ (y 1))

def G12_2 (A : Vec F S8000x10000 .bf16) (X : Vec F S10000x192 .bf16) : Vec F S8000x192 .f32 :=
  fun i => k12_pay1 (rows12 A ((i 0).val / 400)) X (ix2 ⟨(i 0).val % 400, Nat.mod_lt _ (by decide)⟩ (i 1))

theorem G12_2_block (A : Vec F S8000x10000 .bf16) (X : Vec F S10000x192 .bf16) (q : Nat)
    (xA : Vec F S400x10000 .bf16) (xX : Vec F S10000x192 .bf16) (hA : xA = rows12 A q) (hX : xX = X)
    (j : S400x192.Idx) (i : S8000x192.Idx) (hi0 : (i 0).val = q * 400 + (j 0).val) (hi1 : (i 1).val = (j 1).val) :
    k12_pay1 xA xX j = G12_2 A X i := by
  subst hA hX
  have hj0 : (j 0).val < 400 := idx2_lt0 j
  have hq : (i 0).val / 400 = q := by omega
  have hj : (ix2 ⟨(i 0).val % 400, Nat.mod_lt _ (by decide)⟩ (i 1) : S400x192.Idx) = j := by
    funext a; apply Fin.ext
    match a with
    | ⟨0, _⟩ => show (i 0).val % 400 = (j 0).val; omega
    | ⟨1, _⟩ => exact hi1
  show _ = k12_pay1 (rows12 A ((i 0).val / 400)) xX (ix2 ⟨(i 0).val % 400, Nat.mod_lt _ (by decide)⟩ (i 1))
  rw [hq, hj]

theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

theorem iblk12_0_eq (c : Dev nD) (t : Fin cfg12.N) :
    (iblk12 V c 0 t : Vec F S400x10000 .bf16) = rows12 (V c (Pipeline.arrRef spec12 0)) t.val := by
  obtain ⟨eA0, eA1, eX0, eX1, eO0, eO1⟩ := idx_facts12 t
  have ht : t.val < 20 := by have h := t.isLt; have hN : cfg12.N = 20 := N_12; omega
  funext y
  show V c (Pipeline.arrRef spec12 0) (((cfg12.win 0).blk t).view.emb y) = V c (Pipeline.arrRef spec12 0) _
  congr 1; funext a; apply Fin.ext
  have hy : (y 0).val < 400 := idx2_lt0 y
  match a with
  | ⟨0, _⟩ => show win12_0.index t (0 : Fin 2) * 400 + 1 * (y 0).val = (t.val * 400 + (y 0).val) % 8000; omega
  | ⟨1, _⟩ => show win12_0.index t (1 : Fin 2) * 10000 + 1 * (y 1).val = (y 1).val; omega

theorem iblk12_1_eq (c : Dev nD) (t : Fin cfg12.N) :
    (iblk12 V c 1 t : Vec F S10000x192 .bf16) = V c (Pipeline.arrRef spec12 1) := by
  obtain ⟨eA0, eA1, eX0, eX1, eO0, eO1⟩ := idx_facts12 t
  funext y
  show V c (Pipeline.arrRef spec12 1) (((cfg12.win 1).blk t).view.emb y) = V c (Pipeline.arrRef spec12 1) y
  congr 1; funext a; apply Fin.ext
  match a with
  | ⟨0, _⟩ => show win12_1.index t (0 : Fin 2) * 10000 + 1 * (y 0).val = (y 0).val; omega
  | ⟨1, _⟩ => show win12_1.index t (1 : Fin 2) * 192 + 1 * (y 1).val = (y 1).val; omega

set_option maxHeartbeats 1000000 in
theorem flushed12_2 (c : Dev nD) (t : Fin cfg12.N) :
    (dat12 V c).flushed 2 t = ((cfg12.win 2).blk t).view.read (Elt F) (G12_2 (V c (Pipeline.arrRef spec12 0)) (V c (Pipeline.arrRef spec12 1))) := by
  show (cfg12.win 2).cut (grid12.coords t) ((dat12 V c).after 2 t) = _
  rw [after12_2]
  unfold out12_2
  rw [View.canon_unit_zero hz12]
  simp only [View.ld_unit_zero (S := S400x10000) hz12, View.ld_unit_zero (S := S10000x192) hz12]
  obtain ⟨eA0, eA1, eX0, eX1, eO0, eO1⟩ := idx_facts12 t
  funext j
  show k12_pay1 (iblk12 V c 0 t) (iblk12 V c 1 t) j = G12_2 (V c (Pipeline.arrRef spec12 0)) (V c (Pipeline.arrRef spec12 1)) (((cfg12.win 2).blk t).view.emb j)
  refine G12_2_block _ _ t.val _ _ (iblk12_0_eq V c t) (iblk12_1_eq V c t) j _ ?_ ?_
  · show win12_2.index t (0 : Fin 2) * 400 + 1 * (j 0).val = t.val * 400 + (j 0).val; omega
  · show win12_2.index t (1 : Fin 2) * 192 + 1 * (j 1).val = (j 1).val; omega

theorem mem_blk12_2 (t : Fin cfg12.N) (i : S8000x192.Idx) :
    i ∈ ((cfg12.win 2).blk t).view.set ↔ ∀ a : Fin 2, win12_2.index t a * S400x192.size a ≤ (i a).val ∧ (i a).val < win12_2.index t a * S400x192.size a + S400x192.size a := by
  show i ∈ ((View.whole (Pipeline.arrRef spec12 2)).slice (win12_2.rect t)).set ↔ _
  rw [View.set_slice_whole, Rect.mem_set_unit]
  exact Iff.rfl

theorem cover12_out (i : S8000x192.Idx) : ∃ t : Fin cfg12.N, (cfg12.win 2).flush t = true ∧ i ∈ ((cfg12.win 2).blk t).view.set := by
  have hi0 : (i 0).val < 8000 := idx2_lt0 i
  have hi1 : (i 1).val < 192 := idx2_lt1 i
  have hN : cfg12.N = 20 := N_12
  obtain ⟨t, ht⟩ : ∃ t : Fin cfg12.N, t.val = (i 0).val / 400 := ⟨⟨(i 0).val / 400, by rw [hN]; omega⟩, rfl⟩
  obtain ⟨eA0, eA1, eX0, eX1, eO0, eO1⟩ := idx_facts12 t
  refine ⟨t, flush12_2 t, ?_⟩
  rw [mem_blk12_2]
  intro a
  match a with
  | ⟨0, _⟩ => show win12_2.index t (0 : Fin 2) * 400 ≤ (i 0).val ∧ (i 0).val < win12_2.index t (0 : Fin 2) * 400 + 400; omega
  | ⟨1, _⟩ => show win12_2.index t (1 : Fin 2) * 192 ≤ (i 1).val ∧ (i 1).val < win12_2.index t (1 : Fin 2) * 192 + 192; omega

theorem final12_2 (c : Dev nD) : (dat12 V c).arrAt 2 cfg12.N = G12_2 (V c (Pipeline.arrRef spec12 0)) (V c (Pipeline.arrRef spec12 1)) :=
  (dat12 V c).arrAt_eq_of_cover 2 _ (fun t _ => flushed12_2 V c t) cover12_out

theorem lhs12_0 (i : S400x192.Idx) (q : dot_S400x10000_S10000x192_S400x192_1_0_0_1_n_n.contr.Idx) :
    (dot_S400x10000_S10000x192_S400x192_1_0_0_1_n_n.lhsIdx i q 0).val = (i 0).val := by
  unfold DotDims.lhsIdx
  rw [dif_neg (show ¬(0 : Fin S400x10000.rank) ∈ dot_S400x10000_S10000x192_S400x192_1_0_0_1_n_n.lhsBatch by decide), dif_pos (show (0 : Fin S400x10000.rank) ∈ dot_S400x10000_S10000x192_S400x192_1_0_0_1_n_n.lhsNonContracting by decide)]
  rfl
theorem lhs12_1 (i : S400x192.Idx) (q : dot_S400x10000_S10000x192_S400x192_1_0_0_1_n_n.contr.Idx) :
    (dot_S400x10000_S10000x192_S400x192_1_0_0_1_n_n.lhsIdx i q 1).val = (q ⟨0, by decide⟩).val :=
  dot_S400x10000_S10000x192_S400x192_1_0_0_1_n_n.lhsIdx_val_of_single rfl i q
theorem rhs12_0 (i : S400x192.Idx) (q : dot_S400x10000_S10000x192_S400x192_1_0_0_1_n_n.contr.Idx) :
    (dot_S400x10000_S10000x192_S400x192_1_0_0_1_n_n.rhsIdx i q 0).val = (q ⟨0, by decide⟩).val :=
  dot_S400x10000_S10000x192_S400x192_1_0_0_1_n_n.rhsIdx_val_of_single rfl i q
theorem rhs12_1 (i : S400x192.Idx) (q : dot_S400x10000_S10000x192_S400x192_1_0_0_1_n_n.contr.Idx) :
    (dot_S400x10000_S10000x192_S400x192_1_0_0_1_n_n.rhsIdx i q 1).val = (i 1).val := by
  unfold DotDims.rhsIdx
  rw [dif_neg (show ¬(1 : Fin S10000x192.rank) ∈ dot_S400x10000_S10000x192_S400x192_1_0_0_1_n_n.rhsBatch by decide), dif_pos (show (1 : Fin S10000x192.rank) ∈ dot_S400x10000_S10000x192_S400x192_1_0_0_1_n_n.rhsNonContracting by decide)]
  rfl

theorem G12_2_apply (A : S8000x10000.Idx → EReal) (X : S10000x192.Idx → EReal) (r : Fin 8000) (d : Fin 192) :
    G12_2 (F := Ideal) A X (ix2 r d) = ∑ k : Fin 10000, A (ix2 r k) * X (ix2 k d) := by
  have hr : r.val < 8000 := r.isLt
  unfold G12_2 k12_pay1
  simp only [matmul, shapeCast_self]
  rw [Ideal.matmul_constant_zero_apply, ← Equiv.sum_comp (contrEquiv1 dot_S400x10000_S10000x192_S400x192_1_0_0_1_n_n 10000 rfl rfl).symm]
  refine Finset.sum_congr rfl fun k _ => ?_
  have hk := contrEquiv1_symm_val dot_S400x10000_S10000x192_S400x192_1_0_0_1_n_n 10000 rfl rfl k
  congr 1
  · unfold rows12
    congr 1; funext a; apply Fin.ext
    match a with
    | ⟨0, _⟩ =>
      show ((r.val / 400) * 400 + (dot_S400x10000_S10000x192_S400x192_1_0_0_1_n_n.lhsIdx _ _ 0).val) % 8000 = r.val
      rw [lhs12_0]
      show ((r.val / 400) * 400 + r.val % 400) % 8000 = r.val
      omega
    | ⟨1, _⟩ => exact (lhs12_1 _ _).trans hk
  · congr 1; funext a; apply Fin.ext
    match a with
    | ⟨0, _⟩ => exact (rhs12_0 _ _).trans hk
    | ⟨1, _⟩ => exact rhs12_1 _ _

end Cert.KernelIdeal.Hand

end
-- ==== Proof.KI.R13.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

abbrev r13_A : Rect S400x8000 := Rect.unit (s := S400x8000) ![0, 0] S400x8000.size inb_S400x8000_S400x8000_0_0
abbrev r13_X : Rect S8000x64 := Rect.unit (s := S8000x64) ![0, 0] S8000x64.size inb_S8000x64_S8000x64_0_0
abbrev r13_O : Rect S400x64 := Rect.unit (s := S400x64) ![0, 0] S400x64.size inb_S400x64_S400x64_0_0

def out13_2 (x0 : Vec F S400x8000 .bf16) (x1 : Vec F S8000x64 .bf16) : Vec F S400x64 .f32 :=
  View.canon [⟨r13_O, k13_pay1 (View.ld x0 r13_A) (View.ld x1 r13_X)⟩]

theorem cover13_2 (p0 : Vec F S400x64 .f32) (y : S400x64.Idx) :
    ∃ pc ∈ ([⟨r13_O, p0⟩] : List (View.Piece (Elt F) S400x64 .f32)), y ∈ pc.1.set :=
  View.cover_of_tiled [⟨r13_O, p0⟩] S400x64.size (by rfl) y

set_option maxHeartbeats 1000000 in
theorem sound_kernel13 (c : Dev nD) (E : Set ℕ) (i : grid13.Coords) (arg1 : Memref sig .tc .vmem S400x8000 .bf16) (harg1 : arg1.IsWhole)
    (arg2 : Memref sig .tc .vmem S8000x64 .bf16) (harg2 : arg2.IsWhole) (arg3 : Memref sig .tc .vmem S400x64 .f32) (harg3 : arg3.IsWhole)
    (x0 : Vec F S400x8000 .bf16) (x1 : Vec F S8000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__matmul_kernel i arg1 harg1 arg2 harg2 arg3 harg3) K := by
  simp only [cc13__matmul_kernel_eq_skeleton]; unfold cc13__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ _ _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation13 (c : Dev nD) : BodyObligation (dat13 (F := F) V c) (defs₀ (F := F)) Variants.none () Set.univ := fun t => by
  rw [bigSep_W13, bigSep_W13]
  exact sound_body13 V c t

open ValueIdx

theorem hz13 : (![0, 0] : Fin 2 → Nat) = fun _ => 0 := funext fun a => by fin_cases a <;> rfl

def rows13 (A : Vec F S10000x8000 .bf16) (q : Nat) : Vec F S400x8000 .bf16 :=
  fun y => A (ix2 ⟨(q * 400 + (y 0).val) % 10000, Nat.mod_lt _ (by decide)⟩ (y 1))

def G13_2 (A : Vec F S10000x8000 .bf16) (X : Vec F S8000x64 .bf16) : Vec F S10000x64 .f32 :=
  fun i => k13_pay1 (rows13 A ((i 0).val / 400)) X (ix2 ⟨(i 0).val % 400, Nat.mod_lt _ (by decide)⟩ (i 1))

theorem G13_2_block (A : Vec F S10000x8000 .bf16) (X : Vec F S8000x64 .bf16) (q : Nat)
    (xA : Vec F S400x8000 .bf16) (xX : Vec F S8000x64 .bf16) (hA : xA = rows13 A q) (hX : xX = X)
    (j : S400x64.Idx) (i : S10000x64.Idx) (hi0 : (i 0).val = q * 400 + (j 0).val) (hi1 : (i 1).val = (j 1).val) :
    k13_pay1 xA xX j = G13_2 A X i := by
  subst hA hX
  have hj0 : (j 0).val < 400 := idx2_lt0 j
  have hq : (i 0).val / 400 = q := by omega
  have hj : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  show _ = k13_pay1 (rows13 A ((i 0).val / 400)) xX (ix2 ⟨(i 0).val % 400, Nat.mod_lt _ (by decide)⟩ (i 1))
  rw [hq, hj]

theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = t.val ∧ win13_2.index t (1 : Fin 2) = 0 :=
  (by decide +kernel : ∀ t : Fin grid13.N, _)

theorem iblk13_0_eq (c : Dev nD) (t : Fin cfg13.N) :
    (iblk13 V c 0 t : Vec F S400x8000 .bf16) = rows13 (V c (Pipeline.arrRef spec13 0)) t.val := by
  obtain ⟨eA0, eA1, eX0, eX1, eO0, eO1⟩ := idx_facts13 t
  have ht : t.val < 25 := by have h := t.isLt; have hN : cfg13.N = 25 := N_13; omega
  funext y
  show V c (Pipeline.arrRef spec13 0) (((cfg13.win 0).blk t).view.emb y) = V c (Pipeline.arrRef spec13 0) _
  congr 1; funext a; apply Fin.ext
  have hy : (y 0).val < 400 := idx2_lt0 y
  match a with
  | ⟨0, _⟩ => show win13_0.index t (0 : Fin 2) * 400 + 1 * (y 0).val = (t.val * 400 + (y 0).val) % 10000; omega
  | ⟨1, _⟩ => show win13_0.index t (1 : Fin 2) * 8000 + 1 * (y 1).val = (y 1).val; omega

theorem iblk13_1_eq (c : Dev nD) (t : Fin cfg13.N) :
    (iblk13 V c 1 t : Vec F S8000x64 .bf16) = V c (Pipeline.arrRef spec13 1) := by
  obtain ⟨eA0, eA1, eX0, eX1, eO0, eO1⟩ := idx_facts13 t
  funext y
  show V c (Pipeline.arrRef spec13 1) (((cfg13.win 1).blk t).view.emb y) = V c (Pipeline.arrRef spec13 1) y
  congr 1; funext a; apply Fin.ext
  match a with
  | ⟨0, _⟩ => show win13_1.index t (0 : Fin 2) * 8000 + 1 * (y 0).val = (y 0).val; omega
  | ⟨1, _⟩ => show win13_1.index t (1 : Fin 2) * 64 + 1 * (y 1).val = (y 1).val; omega

set_option maxHeartbeats 1000000 in
theorem flushed13_2 (c : Dev nD) (t : Fin cfg13.N) :
    (dat13 V c).flushed 2 t = ((cfg13.win 2).blk t).view.read (Elt F) (G13_2 (V c (Pipeline.arrRef spec13 0)) (V c (Pipeline.arrRef spec13 1))) := by
  show (cfg13.win 2).cut (grid13.coords t) ((dat13 V c).after 2 t) = _
  rw [after13_2]
  unfold out13_2
  rw [View.canon_unit_zero hz13]
  simp only [View.ld_unit_zero (S := S400x8000) hz13, View.ld_unit_zero (S := S8000x64) hz13]
  obtain ⟨eA0, eA1, eX0, eX1, eO0, eO1⟩ := idx_facts13 t
  funext j
  show k13_pay1 (iblk13 V c 0 t) (iblk13 V c 1 t) j = G13_2 (V c (Pipeline.arrRef spec13 0)) (V c (Pipeline.arrRef spec13 1)) (((cfg13.win 2).blk t).view.emb j)
  refine G13_2_block _ _ t.val _ _ (iblk13_0_eq V c t) (iblk13_1_eq V c t) j _ ?_ ?_
  · show win13_2.index t (0 : Fin 2) * 400 + 1 * (j 0).val = t.val * 400 + (j 0).val; omega
  · show win13_2.index t (1 : Fin 2) * 64 + 1 * (j 1).val = (j 1).val; omega

theorem mem_blk13_2 (t : Fin cfg13.N) (i : S10000x64.Idx) :
    i ∈ ((cfg13.win 2).blk t).view.set ↔ ∀ a : Fin 2, win13_2.index t a * S400x64.size a ≤ (i a).val ∧ (i a).val < win13_2.index t a * S400x64.size a + S400x64.size a := by
  show i ∈ ((View.whole (Pipeline.arrRef spec13 2)).slice (win13_2.rect t)).set ↔ _
  rw [View.set_slice_whole, Rect.mem_set_unit]
  exact Iff.rfl

theorem cover13_out (i : S10000x64.Idx) : ∃ t : Fin cfg13.N, (cfg13.win 2).flush t = true ∧ i ∈ ((cfg13.win 2).blk t).view.set := by
  have hi0 : (i 0).val < 10000 := idx2_lt0 i
  have hi1 : (i 1).val < 64 := idx2_lt1 i
  have hN : cfg13.N = 25 := N_13
  obtain ⟨t, ht⟩ : ∃ t : Fin cfg13.N, t.val = (i 0).val / 400 := ⟨⟨(i 0).val / 400, by rw [hN]; omega⟩, rfl⟩
  obtain ⟨eA0, eA1, eX0, eX1, eO0, eO1⟩ := idx_facts13 t
  refine ⟨t, flush13_2 t, ?_⟩
  rw [mem_blk13_2]
  intro a
  match a with
  | ⟨0, _⟩ => show win13_2.index t (0 : Fin 2) * 400 ≤ (i 0).val ∧ (i 0).val < win13_2.index t (0 : Fin 2) * 400 + 400; omega
  | ⟨1, _⟩ => show win13_2.index t (1 : Fin 2) * 64 ≤ (i 1).val ∧ (i 1).val < win13_2.index t (1 : Fin 2) * 64 + 64; omega

theorem final13_2 (c : Dev nD) : (dat13 V c).arrAt 2 cfg13.N = G13_2 (V c (Pipeline.arrRef spec13 0)) (V c (Pipeline.arrRef spec13 1)) :=
  (dat13 V c).arrAt_eq_of_cover 2 _ (fun t _ => flushed13_2 V c t) cover13_out

theorem lhs13_0 (i : S400x64.Idx) (q : dot_S400x8000_S8000x64_S400x64_1_0_0_1_n_n.contr.Idx) :
    (dot_S400x8000_S8000x64_S400x64_1_0_0_1_n_n.lhsIdx i q 0).val = (i 0).val := by
  unfold DotDims.lhsIdx
  rw [dif_neg (show ¬(0 : Fin S400x8000.rank) ∈ dot_S400x8000_S8000x64_S400x64_1_0_0_1_n_n.lhsBatch by decide), dif_pos (show (0 : Fin S400x8000.rank) ∈ dot_S400x8000_S8000x64_S400x64_1_0_0_1_n_n.lhsNonContracting by decide)]
  rfl
theorem lhs13_1 (i : S400x64.Idx) (q : dot_S400x8000_S8000x64_S400x64_1_0_0_1_n_n.contr.Idx) :
    (dot_S400x8000_S8000x64_S400x64_1_0_0_1_n_n.lhsIdx i q 1).val = (q ⟨0, by decide⟩).val :=
  dot_S400x8000_S8000x64_S400x64_1_0_0_1_n_n.lhsIdx_val_of_single rfl i q
theorem rhs13_0 (i : S400x64.Idx) (q : dot_S400x8000_S8000x64_S400x64_1_0_0_1_n_n.contr.Idx) :
    (dot_S400x8000_S8000x64_S400x64_1_0_0_1_n_n.rhsIdx i q 0).val = (q ⟨0, by decide⟩).val :=
  dot_S400x8000_S8000x64_S400x64_1_0_0_1_n_n.rhsIdx_val_of_single rfl i q
theorem rhs13_1 (i : S400x64.Idx) (q : dot_S400x8000_S8000x64_S400x64_1_0_0_1_n_n.contr.Idx) :
    (dot_S400x8000_S8000x64_S400x64_1_0_0_1_n_n.rhsIdx i q 1).val = (i 1).val := by
  unfold DotDims.rhsIdx
  rw [dif_neg (show ¬(1 : Fin S8000x64.rank) ∈ dot_S400x8000_S8000x64_S400x64_1_0_0_1_n_n.rhsBatch by decide), dif_pos (show (1 : Fin S8000x64.rank) ∈ dot_S400x8000_S8000x64_S400x64_1_0_0_1_n_n.rhsNonContracting by decide)]
  rfl

theorem G13_2_apply (A : S10000x8000.Idx → EReal) (X : S8000x64.Idx → EReal) (r : Fin 10000) (d : Fin 64) :
    G13_2 (F := Ideal) A X (ix2 r d) = ∑ k : Fin 8000, A (ix2 r k) * X (ix2 k d) := by
  have hr : r.val < 10000 := r.isLt
  unfold G13_2 k13_pay1
  simp only [matmul, shapeCast_self]
  rw [Ideal.matmul_constant_zero_apply, ← Equiv.sum_comp (contrEquiv1 dot_S400x8000_S8000x64_S400x64_1_0_0_1_n_n 8000 rfl rfl).symm]
  refine Finset.sum_congr rfl fun k _ => ?_
  have hk := contrEquiv1_symm_val dot_S400x8000_S8000x64_S400x64_1_0_0_1_n_n 8000 rfl rfl k
  congr 1
  · unfold rows13
    congr 1; funext a; apply Fin.ext
    match a with
    | ⟨0, _⟩ =>
      show ((r.val / 400) * 400 + (dot_S400x8000_S8000x64_S400x64_1_0_0_1_n_n.lhsIdx _ _ 0).val) % 10000 = r.val
      rw [lhs13_0]
      show ((r.val / 400) * 400 + r.val % 400) % 10000 = r.val
      omega
    | ⟨1, _⟩ => exact (lhs13_1 _ _).trans hk
  · congr 1; funext a; apply Fin.ext
    match a with
    | ⟨0, _⟩ => exact (rhs13_0 _ _).trans hk
    | ⟨1, _⟩ => exact rhs13_1 _ _

end Cert.KernelIdeal.Hand

end
-- ==== Proof.KI.R14.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

abbrev r14_0 : Rect S10000x64 := Rect.unit (s := S10000x64) ![0, 0] S10000x64.size inb_S10000x64_S10000x64_0_0

def out14_1 (x0 : Vec F S10000x64 .f32) : Vec F S10000x64 .f32 :=
  View.canon [⟨r14_0, k14_pay1 (View.ld x0 r14_0)⟩]

theorem cover14_1 (p0 : Vec F S10000x64 .f32) (y : S10000x64.Idx) :
    ∃ pc ∈ ([⟨r14_0, p0⟩] : List (View.Piece (Elt F) S10000x64 .f32)), y ∈ pc.1.set :=
  View.cover_of_tiled [⟨r14_0, p0⟩] S10000x64.size (by rfl) y

set_option maxHeartbeats 1000000 in
theorem sound_kernel14 (c : Dev nD) (E : Set ℕ) (i : grid14.Coords) (arg0 : Memref sig .tc .vmem S10000x64 .f32) (harg0 : arg0.IsWhole) (arg1 : Memref sig .tc .vmem S10000x64 .f32) (harg1 : arg1.IsWhole)
    (x0 : Vec F S10000x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out14_1 x0)) -∗ K ⟨⟩))
      ⊢ wp frame (wpE (defs₀ (F := F)) Variants.none c none) E (cc14__l2norm_kernel i arg0 harg0 arg1 harg1) K := by
  simp only [cc14__l2norm_kernel_eq_skeleton]; unfold cc14__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover14_1 _)

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => out14_1 (iblk14 V c 0 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = out14_1 (iblk14 V c 0 t) := by dsimp only [dat14]

theorem before14_0 (c : Dev nD) (t : Fin cfg14.N) (d) : (dat14 V c).before 0 t d = iblk14 V c 0 t :=
  before14_0_of V (dat14 V c) (A_eq14 V c 0) (after14_0 V c) t d

def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d)))

def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0]
  rw [show (dat14 V c).Φ t.succ = (dat14 V c).Φ t.castSucc from rfl,
    show (dat14 V c).owesAt () t.succ = (dat14 V c).owesAt () t.castSucc from rfl,
    after14_0, after14_1]
  iintro ⟨HΦ, Ho, ⟨%d0, H0⟩, ⟨%d1, H1⟩⟩
  iapply (sound_kernel14 c Set.univ _ _ _ _ _ (iblk14 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation14 (c : Dev nD) : BodyObligation (dat14 (F := F) V c) (defs₀ (F := F)) Variants.none () Set.univ := fun t => by
  rw [bigSep_W14, bigSep_W14]
  exact sound_body14 V c t

theorem zero_offsets14 : (![0, 0] : Fin 2 → Nat) = fun _ => 0 := funext fun a => by fin_cases a <;> rfl

def G14_1 (x : Vec F S10000x64 .f32) : Vec F S10000x64 .f32 := k14_pay1 x

theorem index_zero14 : ∀ t : Fin cfg14.N, win14_0.index t (0 : Fin 2) = 0 ∧ win14_0.index t (1 : Fin 2) = 0
    ∧ win14_1.index t (0 : Fin 2) = 0 ∧ win14_1.index t (1 : Fin 2) = 0 :=
  (by decide +kernel : ∀ t : Fin grid14.N, _)

theorem emb14_0 (t : Fin cfg14.N) (j : S10000x64.Idx) : ((cfg14.win 0).blk t).view.emb j = j := by
  obtain ⟨e0, e1, -, -⟩ := index_zero14 t
  funext a; apply Fin.ext
  match a with
  | ⟨0, _⟩ => show win14_0.index t (0 : Fin 2) * 10000 + 1 * (j 0).val = (j 0).val; omega
  | ⟨1, _⟩ => show win14_0.index t (1 : Fin 2) * 64 + 1 * (j 1).val = (j 1).val; omega

theorem emb14_1 (t : Fin cfg14.N) (j : S10000x64.Idx) : ((cfg14.win 1).blk t).view.emb j = j := by
  obtain ⟨-, -, e0, e1⟩ := index_zero14 t
  funext a; apply Fin.ext
  match a with
  | ⟨0, _⟩ => show win14_1.index t (0 : Fin 2) * 10000 + 1 * (j 0).val = (j 0).val; omega
  | ⟨1, _⟩ => show win14_1.index t (1 : Fin 2) * 64 + 1 * (j 1).val = (j 1).val; omega

theorem iblk14_0_eq (c : Dev nD) (t : Fin cfg14.N) : iblk14 V c 0 t = V c (Pipeline.arrRef spec14 0) := by
  funext j
  show V c (Pipeline.arrRef spec14 0) (((cfg14.win 0).blk t).view.emb j) = V c (Pipeline.arrRef spec14 0) j
  rw [emb14_0]

theorem flushed14_1_eq (c : Dev nD) (t : Fin cfg14.N) :
    (dat14 V c).flushed 1 t = ((cfg14.win 1).blk t).view.read (Elt F) (G14_1 (V c (Pipeline.arrRef spec14 0))) := by
  show (cfg14.win 1).cut (grid14.coords t) ((dat14 V c).after 1 t) = _
  rw [after14_1]
  unfold out14_1
  rw [View.canon_unit_zero zero_offsets14]
  simp only [View.ld_unit_zero (S := S10000x64) zero_offsets14]
  rw [iblk14_0_eq]
  funext j
  show k14_pay1 (V c (Pipeline.arrRef spec14 0)) j = k14_pay1 (V c (Pipeline.arrRef spec14 0)) (((cfg14.win 1).blk t).view.emb j)
  rw [emb14_1]

theorem mem_blk14_1 (t : Fin cfg14.N) (i : S10000x64.Idx) :
    i ∈ ((cfg14.win 1).blk t).view.set ↔ ∀ a : Fin 2, win14_1.index t a * S10000x64.size a ≤ (i a).val ∧ (i a).val < win14_1.index t a * S10000x64.size a + S10000x64.size a := by
  show i ∈ ((View.whole main_v165).slice (win14_1.rect t)).set ↔ _
  rw [View.set_slice_whole, Rect.mem_set_unit]
  exact Iff.rfl

theorem cover_arr14_1 (i : S10000x64.Idx) : ∃ t : Fin cfg14.N, (cfg14.win 1).flush t = true ∧ i ∈ ((cfg14.win 1).blk t).view.set := by
  refine ⟨t14_0, flush14_1 t14_0, ?_⟩
  rw [mem_blk14_1]
  obtain ⟨-, -, e0, e1⟩ := index_zero14 t14_0
  intro a
  match a with
  | ⟨0, _⟩ => show win14_1.index t14_0 (0 : Fin 2) * 10000 ≤ (i 0).val ∧ (i 0).val < win14_1.index t14_0 (0 : Fin 2) * 10000 + 10000; have hi : (i 0).val < 10000 := (i 0).isLt; omega
  | ⟨1, _⟩ => show win14_1.index t14_0 (1 : Fin 2) * 64 ≤ (i 1).val ∧ (i 1).val < win14_1.index t14_0 (1 : Fin 2) * 64 + 64; have hi : (i 1).val < 64 := (i 1).isLt; omega

theorem final14_1 (c : Dev nD) : (dat14 V c).arrAt 1 cfg14.N = G14_1 (V c (Pipeline.arrRef spec14 0)) :=
  (dat14 V c).arrAt_eq_of_cover 1 (G14_1 (V c (Pipeline.arrRef spec14 0))) (fun t _ => flushed14_1_eq V c t) cover_arr14_1

end Cert.KernelIdeal.Hand
-- ==== Proof.KI.R15.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)

theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

abbrev r15_A : Rect S400x10000 := Rect.unit (s := S400x10000) ![0, 0] S400x10000.size inb_S400x10000_S400x10000_0_0
abbrev r15_X : Rect S10000x64 := Rect.unit (s := S10000x64) ![0, 0] S10000x64.size inb_S10000x64_S10000x64_0_0
abbrev r15_O : Rect S400x64 := Rect.unit (s := S400x64) ![0, 0] S400x64.size inb_S400x64_S400x64_0_0

def out15_2 (x0 : Vec F S400x10000 .bf16) (x1 : Vec F S10000x64 .bf16) : Vec F S400x64 .f32 :=
  View.canon [⟨r15_O, k15_pay1 (View.ld x0 r15_A) (View.ld x1 r15_X)⟩]

theorem cover15_2 (p0 : Vec F S400x64 .f32) (y : S400x64.Idx) :
    ∃ pc ∈ ([⟨r15_O, p0⟩] : List (View.Piece (Elt F) S400x64 .f32)), y ∈ pc.1.set :=
  View.cover_of_tiled [⟨r15_O, p0⟩] S400x64.size (by rfl) y

set_option maxHeartbeats 1000000 in
theorem sound_kernel15 (c : Dev nD) (E : Set ℕ) (i : grid15.Coords) (arg1 : Memref sig .tc .vmem S400x10000 .bf16) (harg1 : arg1.IsWhole)
    (arg2 : Memref sig .tc .vmem S10000x64 .bf16) (harg2 : arg2.IsWhole) (arg3 : Memref sig .tc .vmem S400x64 .f32) (harg3 : arg3.IsWhole)
    (x0 : Vec F S400x10000 .bf16) (x1 : Vec F S10000x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ _ _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation15 (c : Dev nD) : BodyObligation (dat15 (F := F) V c) (defs₀ (F := F)) Variants.none () Set.univ := fun t => by
  rw [bigSep_W15, bigSep_W15]
  exact sound_body15 V c t

open ValueIdx

theorem hz15 : (![0, 0] : Fin 2 → Nat) = fun _ => 0 := funext fun a => by fin_cases a <;> rfl

def rows15 (A : Vec F S8000x10000 .bf16) (q : Nat) : Vec F S400x10000 .bf16 :=
  fun y => A (ix2 ⟨(q * 400 + (y 0).val) % 8000, Nat.mod_lt _ (by decide)⟩ (y 1))

def G15_2 (A : Vec F S8000x10000 .bf16) (X : Vec F S10000x64 .bf16) : Vec F S8000x64 .f32 :=
  fun i => k15_pay1 (rows15 A ((i 0).val / 400)) X (ix2 ⟨(i 0).val % 400, Nat.mod_lt _ (by decide)⟩ (i 1))

theorem G15_2_block (A : Vec F S8000x10000 .bf16) (X : Vec F S10000x64 .bf16) (q : Nat)
    (xA : Vec F S400x10000 .bf16) (xX : Vec F S10000x64 .bf16) (hA : xA = rows15 A q) (hX : xX = X)
    (j : S400x64.Idx) (i : S8000x64.Idx) (hi0 : (i 0).val = q * 400 + (j 0).val) (hi1 : (i 1).val = (j 1).val) :
    k15_pay1 xA xX j = G15_2 A X i := by
  subst hA hX
  have hj0 : (j 0).val < 400 := idx2_lt0 j
  have hq : (i 0).val / 400 = q := by omega
  have hj : (ix2 ⟨(i 0).val % 400, Nat.mod_lt _ (by decide)⟩ (i 1) : S400x64.Idx) = j := by
    funext a; apply Fin.ext
    match a with
    | ⟨0, _⟩ => show (i 0).val % 400 = (j 0).val; omega
    | ⟨1, _⟩ => exact hi1
  show _ = k15_pay1 (rows15 A ((i 0).val / 400)) xX (ix2 ⟨(i 0).val % 400, Nat.mod_lt _ (by decide)⟩ (i 1))
  rw [hq, hj]

theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

theorem iblk15_0_eq (c : Dev nD) (t : Fin cfg15.N) :
    (iblk15 V c 0 t : Vec F S400x10000 .bf16) = rows15 (V c (Pipeline.arrRef spec15 0)) t.val := by
  obtain ⟨eA0, eA1, eX0, eX1, eO0, eO1⟩ := idx_facts15 t
  have ht : t.val < 20 := by have h := t.isLt; have hN : cfg15.N = 20 := N_15; omega
  funext y
  show V c (Pipeline.arrRef spec15 0) (((cfg15.win 0).blk t).view.emb y) = V c (Pipeline.arrRef spec15 0) _
  congr 1; funext a; apply Fin.ext
  have hy : (y 0).val < 400 := idx2_lt0 y
  match a with
  | ⟨0, _⟩ => show win15_0.index t (0 : Fin 2) * 400 + 1 * (y 0).val = (t.val * 400 + (y 0).val) % 8000; omega
  | ⟨1, _⟩ => show win15_0.index t (1 : Fin 2) * 10000 + 1 * (y 1).val = (y 1).val; omega

theorem iblk15_1_eq (c : Dev nD) (t : Fin cfg15.N) :
    (iblk15 V c 1 t : Vec F S10000x64 .bf16) = V c (Pipeline.arrRef spec15 1) := by
  obtain ⟨eA0, eA1, eX0, eX1, eO0, eO1⟩ := idx_facts15 t
  funext y
  show V c (Pipeline.arrRef spec15 1) (((cfg15.win 1).blk t).view.emb y) = V c (Pipeline.arrRef spec15 1) y
  congr 1; funext a; apply Fin.ext
  match a with
  | ⟨0, _⟩ => show win15_1.index t (0 : Fin 2) * 10000 + 1 * (y 0).val = (y 0).val; omega
  | ⟨1, _⟩ => show win15_1.index t (1 : Fin 2) * 64 + 1 * (y 1).val = (y 1).val; omega

set_option maxHeartbeats 1000000 in
theorem flushed15_2 (c : Dev nD) (t : Fin cfg15.N) :
    (dat15 V c).flushed 2 t = ((cfg15.win 2).blk t).view.read (Elt F) (G15_2 (V c (Pipeline.arrRef spec15 0)) (V c (Pipeline.arrRef spec15 1))) := by
  show (cfg15.win 2).cut (grid15.coords t) ((dat15 V c).after 2 t) = _
  rw [after15_2]
  unfold out15_2
  rw [View.canon_unit_zero hz15]
  simp only [View.ld_unit_zero (S := S400x10000) hz15, View.ld_unit_zero (S := S10000x64) hz15]
  obtain ⟨eA0, eA1, eX0, eX1, eO0, eO1⟩ := idx_facts15 t
  funext j
  show k15_pay1 (iblk15 V c 0 t) (iblk15 V c 1 t) j = G15_2 (V c (Pipeline.arrRef spec15 0)) (V c (Pipeline.arrRef spec15 1)) (((cfg15.win 2).blk t).view.emb j)
  refine G15_2_block _ _ t.val _ _ (iblk15_0_eq V c t) (iblk15_1_eq V c t) j _ ?_ ?_
  · show win15_2.index t (0 : Fin 2) * 400 + 1 * (j 0).val = t.val * 400 + (j 0).val; omega
  · show win15_2.index t (1 : Fin 2) * 64 + 1 * (j 1).val = (j 1).val; omega

theorem mem_blk15_2 (t : Fin cfg15.N) (i : S8000x64.Idx) :
    i ∈ ((cfg15.win 2).blk t).view.set ↔ ∀ a : Fin 2, win15_2.index t a * S400x64.size a ≤ (i a).val ∧ (i a).val < win15_2.index t a * S400x64.size a + S400x64.size a := by
  show i ∈ ((View.whole (Pipeline.arrRef spec15 2)).slice (win15_2.rect t)).set ↔ _
  rw [View.set_slice_whole, Rect.mem_set_unit]
  exact Iff.rfl

theorem cover15_out (i : S8000x64.Idx) : ∃ t : Fin cfg15.N, (cfg15.win 2).flush t = true ∧ i ∈ ((cfg15.win 2).blk t).view.set := by
  have hi0 : (i 0).val < 8000 := idx2_lt0 i
  have hi1 : (i 1).val < 64 := idx2_lt1 i
  have hN : cfg15.N = 20 := N_15
  obtain ⟨t, ht⟩ : ∃ t : Fin cfg15.N, t.val = (i 0).val / 400 := ⟨⟨(i 0).val / 400, by rw [hN]; omega⟩, rfl⟩
  obtain ⟨eA0, eA1, eX0, eX1, eO0, eO1⟩ := idx_facts15 t
  refine ⟨t, flush15_2 t, ?_⟩
  rw [mem_blk15_2]
  intro a
  match a with
  | ⟨0, _⟩ => show win15_2.index t (0 : Fin 2) * 400 ≤ (i 0).val ∧ (i 0).val < win15_2.index t (0 : Fin 2) * 400 + 400; omega
  | ⟨1, _⟩ => show win15_2.index t (1 : Fin 2) * 64 ≤ (i 1).val ∧ (i 1).val < win15_2.index t (1 : Fin 2) * 64 + 64; omega

theorem final15_2 (c : Dev nD) : (dat15 V c).arrAt 2 cfg15.N = G15_2 (V c (Pipeline.arrRef spec15 0)) (V c (Pipeline.arrRef spec15 1)) :=
  (dat15 V c).arrAt_eq_of_cover 2 _ (fun t _ => flushed15_2 V c t) cover15_out

theorem lhs15_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs15_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs15_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs15_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

theorem G15_2_apply (A : S8000x10000.Idx → EReal) (X : S10000x64.Idx → EReal) (r : Fin 8000) (d : Fin 64) :
    G15_2 (F := Ideal) A X (ix2 r d) = ∑ k : Fin 10000, A (ix2 r k) * X (ix2 k d) := by
  have hr : r.val < 8000 := r.isLt
  unfold G15_2 k15_pay1
  simp only [matmul, shapeCast_self]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  congr 1
  · unfold rows15
    congr 1; funext a; apply Fin.ext
    match a with
    | ⟨0, _⟩ =>
      show ((r.val / 400) * 400 + (dot_S400x10000_S10000x64_S400x64_1_0_0_1_n_n.lhsIdx _ _ 0).val) % 8000 = r.val
      rw [lhs15_0]
      show ((r.val / 400) * 400 + r.val % 400) % 8000 = r.val
      omega
    | ⟨1, _⟩ => exact (lhs15_1 _ _).trans hk
  · congr 1; funext a; apply Fin.ext
    match a with
    | ⟨0, _⟩ => exact (rhs15_0 _ _).trans hk
    | ⟨1, _⟩ => exact rhs15_1 _ _

end Cert.KernelIdeal.Hand

end
-- ==== Proof.KI.R16.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)

abbrev r16_0 : Rect S4096x64 := Rect.unit (s := S4096x64) ![0, 0] S4096x64.size inb_S4096x64_S4096x64_0_0

def out16_1 (x0 : Vec F S4096x64 .f32) : Vec F S4096x64 .f32 :=
  View.canon [⟨r16_0, k16_pay1 (View.ld x0 r16_0)⟩]

theorem cover16_1 (p0 : Vec F S4096x64 .f32) (y : S4096x64.Idx) :
    ∃ pc ∈ ([⟨r16_0, p0⟩] : List (View.Piece (Elt F) S4096x64 .f32)), y ∈ pc.1.set :=
  View.cover_of_tiled [⟨r16_0, p0⟩] S4096x64.size (by rfl) y

set_option maxHeartbeats 1000000 in
theorem sound_kernel16 (c : Dev nD) (E : Set ℕ) (i : grid16.Coords) (arg0 : Memref sig .tc .vmem S4096x64 .f32) (harg0 : arg0.IsWhole) (arg1 : Memref sig .tc .vmem S4096x64 .f32) (harg1 : arg1.IsWhole)
    (x0 : Vec F S4096x64 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out16_1 x0)) -∗ K ⟨⟩))
      ⊢ wp frame (wpE (defs₀ (F := F)) Variants.none c none) E (cc16__l2norm_kernel i arg0 harg0 arg1 harg1) K := by
  simp only [cc16__l2norm_kernel_eq_skeleton]; unfold cc16__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover16_1 _)

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => out16_1 (iblk16 V c 0 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = out16_1 (iblk16 V c 0 t) := by dsimp only [dat16]

theorem before16_0 (c : Dev nD) (t : Fin cfg16.N) (d) : (dat16 V c).before 0 t d = iblk16 V c 0 t :=
  before16_0_of V (dat16 V c) (A_eq16 V c 0) (after16_0 V c) t d

def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d)))

def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0]
  rw [show (dat16 V c).Φ t.succ = (dat16 V c).Φ t.castSucc from rfl,
    show (dat16 V c).owesAt () t.succ = (dat16 V c).owesAt () t.castSucc from rfl,
    after16_0, after16_1]
  iintro ⟨HΦ, Ho, ⟨%d0, H0⟩, ⟨%d1, H1⟩⟩
  iapply (sound_kernel16 c Set.univ _ _ _ _ _ (iblk16 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation16 (c : Dev nD) : BodyObligation (dat16 (F := F) V c) (defs₀ (F := F)) Variants.none () Set.univ := fun t => by
  rw [bigSep_W16, bigSep_W16]
  exact sound_body16 V c t

theorem zero_offsets16 : (![0, 0] : Fin 2 → Nat) = fun _ => 0 := funext fun a => by fin_cases a <;> rfl

def G16_1 (x : Vec F S4096x64 .f32) : Vec F S4096x64 .f32 := k16_pay1 x

theorem index_zero16 : ∀ t : Fin cfg16.N, win16_0.index t (0 : Fin 2) = 0 ∧ win16_0.index t (1 : Fin 2) = 0
    ∧ win16_1.index t (0 : Fin 2) = 0 ∧ win16_1.index t (1 : Fin 2) = 0 :=
  (by decide +kernel : ∀ t : Fin grid16.N, _)

theorem emb16_0 (t : Fin cfg16.N) (j : S4096x64.Idx) : ((cfg16.win 0).blk t).view.emb j = j := by
  obtain ⟨e0, e1, -, -⟩ := index_zero16 t
  funext a; apply Fin.ext
  match a with
  | ⟨0, _⟩ => show win16_0.index t (0 : Fin 2) * 4096 + 1 * (j 0).val = (j 0).val; omega
  | ⟨1, _⟩ => show win16_0.index t (1 : Fin 2) * 64 + 1 * (j 1).val = (j 1).val; omega

theorem emb16_1 (t : Fin cfg16.N) (j : S4096x64.Idx) : ((cfg16.win 1).blk t).view.emb j = j := by
  obtain ⟨-, -, e0, e1⟩ := index_zero16 t
  funext a; apply Fin.ext
  match a with
  | ⟨0, _⟩ => show win16_1.index t (0 : Fin 2) * 4096 + 1 * (j 0).val = (j 0).val; omega
  | ⟨1, _⟩ => show win16_1.index t (1 : Fin 2) * 64 + 1 * (j 1).val = (j 1).val; omega

theorem iblk16_0_eq (c : Dev nD) (t : Fin cfg16.N) : iblk16 V c 0 t = V c (Pipeline.arrRef spec16 0) := by
  funext j
  show V c (Pipeline.arrRef spec16 0) (((cfg16.win 0).blk t).view.emb j) = V c (Pipeline.arrRef spec16 0) j
  rw [emb16_0]

theorem flushed16_1_eq (c : Dev nD) (t : Fin cfg16.N) :
    (dat16 V c).flushed 1 t = ((cfg16.win 1).blk t).view.read (Elt F) (G16_1 (V c (Pipeline.arrRef spec16 0))) := by
  show (cfg16.win 1).cut (grid16.coords t) ((dat16 V c).after 1 t) = _
  rw [after16_1]
  unfold out16_1
  rw [View.canon_unit_zero zero_offsets16]
  simp only [View.ld_unit_zero (S := S4096x64) zero_offsets16]
  rw [iblk16_0_eq]
  funext j
  show k16_pay1 (V c (Pipeline.arrRef spec16 0)) j = k16_pay1 (V c (Pipeline.arrRef spec16 0)) (((cfg16.win 1).blk t).view.emb j)
  rw [emb16_1]

theorem mem_blk16_1 (t : Fin cfg16.N) (i : S4096x64.Idx) :
    i ∈ ((cfg16.win 1).blk t).view.set ↔ ∀ a : Fin 2, win16_1.index t a * S4096x64.size a ≤ (i a).val ∧ (i a).val < win16_1.index t a * S4096x64.size a + S4096x64.size a := by
  show i ∈ ((View.whole main_v177).slice (win16_1.rect t)).set ↔ _
  rw [View.set_slice_whole, Rect.mem_set_unit]
  exact Iff.rfl

theorem cover_arr16_1 (i : S4096x64.Idx) : ∃ t : Fin cfg16.N, (cfg16.win 1).flush t = true ∧ i ∈ ((cfg16.win 1).blk t).view.set := by
  refine ⟨t16_0, flush16_1 t16_0, ?_⟩
  rw [mem_blk16_1]
  obtain ⟨-, -, e0, e1⟩ := index_zero16 t16_0
  intro a
  match a with
  | ⟨0, _⟩ => show win16_1.index t16_0 (0 : Fin 2) * 4096 ≤ (i 0).val ∧ (i 0).val < win16_1.index t16_0 (0 : Fin 2) * 4096 + 4096; have hi : (i 0).val < 4096 := (i 0).isLt; omega
  | ⟨1, _⟩ => show win16_1.index t16_0 (1 : Fin 2) * 64 ≤ (i 1).val ∧ (i 1).val < win16_1.index t16_0 (1 : Fin 2) * 64 + 64; have hi : (i 1).val < 64 := (i 1).isLt; omega

theorem final16_1 (c : Dev nD) : (dat16 V c).arrAt 1 cfg16.N = G16_1 (V c (Pipeline.arrRef spec16 0)) :=
  (dat16 V c).arrAt_eq_of_cover 1 (G16_1 (V c (Pipeline.arrRef spec16 0))) (fun t _ => flushed16_1_eq V c t) cover_arr16_1

open Idealize.ShloMosaic.ValueIdx in
theorem G16_1_apply (x : Vec Ideal S4096x64 .f32) (r : Fin 4096) (d : Fin 64) :
    G16_1 (F := Ideal) x (ix2 r d) = Ideal.div (x (ix2 r d))
      (max (Ideal.sqrt (∑ k : Fin 64, x (ix2 r k) * x (ix2 r k))) (Ideal.ofBits .f32 0x2B8CBCCC#32)) := by
  unfold G16_1 k16_pay1
  dsimp only []
  rw [divf_apply, shapeCast_apply x shapeCasts_S4096x64_S4096x64 (ix2 r d) (ix2 r d) rfl]
  rw [broadcastTo_apply _ broadcasts_S4096x1_S4096x64 (ix2 r d) (ix2 r (0 : Fin 1)) (by
    intro a; match a with
    | ⟨0, _⟩ => rfl
    | ⟨1, _⟩ => rfl)]
  rw [maximumf_apply, broadcast_apply]
  show Ideal.div _ (max (Ideal.sqrt (shapeCast S4096x1 _ shapeCasts_S4096_S4096x1 (ix2 r 0))) (Ideal.ofBits .f32 0x2B8CBCCC#32)) = _
  rw [shapeCast_apply _ shapeCasts_S4096_S4096x1 (ix2 r (0 : Fin 1)) (ix1 r) (by
    rw [Shape.rowMajor_val_one, Shape.rowMajor_val_two]
    show r.val = r.val * 1 + 0
    omega)]
  have hsum := Ideal.multiReduction_add_single (φ := .f32)
    (mulf (shapeCast S4096x64 x shapeCasts_S4096x64_S4096x64) (shapeCast S4096x64 x shapeCasts_S4096x64_S4096x64))
    (0x00000000#32) reduces_S4096x64_S4096 (.inl rfl) rfl (ix1 r)
  refine congrArg (fun s => Ideal.div (x (ix2 r d)) (max (Ideal.sqrt s) (Ideal.ofBits .f32 0x2B8CBCCC#32))) (hsum.trans ?_)
  refine Finset.sum_congr rfl fun (k : Fin 64) _ => ?_
  have hl : reduces_S4096x64_S4096.lift (ix1 r) k = ix2 r k := by
    funext a; apply Fin.ext
    match a with
    | ⟨0, _⟩ => rfl
    | ⟨1, _⟩ => rfl
  rw [hl]
  show shapeCast S4096x64 x shapeCasts_S4096x64_S4096x64 (ix2 r k) * shapeCast S4096x64 x shapeCasts_S4096x64_S4096x64 (ix2 r k) = _
  rw [shapeCast_apply x shapeCasts_S4096x64_S4096x64 (ix2 r k) (ix2 r k) rfl]

end Cert.KernelIdeal.Hand
-- ==== Proof.KI.ChainW.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import proofs.«417009_j23742579212955_2_alg».proof.Proof.KI.R00
import proofs.«417009_j23742579212955_2_alg».proof.Proof.KI.R01
import proofs.«417009_j23742579212955_2_alg».proof.Proof.KI.R02
import proofs.«417009_j23742579212955_2_alg».proof.Proof.KI.R03
import proofs.«417009_j23742579212955_2_alg».proof.Proof.KI.R04
import proofs.«417009_j23742579212955_2_alg».proof.Proof.KI.R05
import proofs.«417009_j23742579212955_2_alg».proof.Proof.KI.R06
import proofs.«417009_j23742579212955_2_alg».proof.Proof.KI.R07
import proofs.«417009_j23742579212955_2_alg».proof.Proof.KI.R08
import proofs.«417009_j23742579212955_2_alg».proof.Proof.KI.R09
import proofs.«417009_j23742579212955_2_alg».proof.Proof.KI.R10
import proofs.«417009_j23742579212955_2_alg».proof.Proof.KI.R11
import proofs.«417009_j23742579212955_2_alg».proof.Proof.KI.R12
import proofs.«417009_j23742579212955_2_alg».proof.Proof.KI.R13
import proofs.«417009_j23742579212955_2_alg».proof.Proof.KI.R14
import proofs.«417009_j23742579212955_2_alg».proof.Proof.KI.R15
import proofs.«417009_j23742579212955_2_alg».proof.Proof.KI.R16
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

theorem not_arg {y : Ref sig .tc} (h : y ∉ argRefs) :
    ∀ r ∈ argRefs, Proc.devRef (τ := τ) .tc r ∉ ({Proc.devRef (τ := τ) .tc y} : Finset (DevRef τ sig)) :=
  fun r hr hm => h ((Proc.devRef_injective _ (Finset.mem_singleton.mp hm)) ▸ hr)

theorem hostOps0_fresh : (hostOps0 : List (HloOp τ sig (Elt F))).Forall fun op => op.fresh = ∅ :=
  rfl
theorem hostOps0_args : (hostOps0 : List (HloOp τ sig (Elt F))).Forall fun op => ∀ r ∈ argRefs, Proc.devRef (τ := τ) .tc r ∉ op.writes :=
  not_arg (y := main_v0) (by decide)

theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps3_args : (hostOps3 : List (HloOp τ sig (Elt F))).Forall fun op => ∀ r ∈ argRefs, Proc.devRef (τ := τ) .tc r ∉ op.writes :=
  ⟨not_arg (y := main_cst) (by decide), not_arg (y := main_v4) (by decide), not_arg (y := main_c) (by decide), not_arg (y := main_v5) (by decide), not_arg (y := main_v6) (by decide), not_arg (y := main_c_0) (by decide), not_arg (y := main_v7) (by decide), not_arg (y := main_v8) (by decide), not_arg (y := main_v9) (by decide), not_arg (y := main_c_1) (by decide), not_arg (y := main_v10) (by decide), not_arg (y := main_v11) (by decide), not_arg (y := main_c_2) (by decide), not_arg (y := main_v12) (by decide), not_arg (y := main_v13) (by decide), not_arg (y := main_v14) (by decide), not_arg (y := main_v15) (by decide), not_arg (y := main_v16) (by decide), not_arg (y := main_v17) (by decide), not_arg (y := main_v18) (by decide), not_arg (y := main_v19) (by decide), not_arg (y := main_cst_3) (by decide), not_arg (y := main_v20) (by decide), not_arg (y := main_c_4) (by decide), not_arg (y := main_v21) (by decide), not_arg (y := main_v22) (by decide), not_arg (y := main_c_5) (by decide), not_arg (y := main_v23) (by decide), not_arg (y := main_v24) (by decide), not_arg (y := main_v25) (by decide), not_arg (y := main_c_6) (by decide), not_arg (y := main_v26) (by decide), not_arg (y := main_v27) (by decide), not_arg (y := main_c_7) (by decide), not_arg (y := main_v28) (by decide), not_arg (y := main_v29) (by decide), not_arg (y := main_v30) (by decide), not_arg (y := main_v31) (by decide), not_arg (y := main_v32) (by decide), not_arg (y := main_v33) (by decide), not_arg (y := main_v34) (by decide), not_arg (y := main_v35) (by decide), not_arg (y := main_cst_8) (by decide), not_arg (y := main_v36) (by decide), not_arg (y := main_c_9) (by decide), not_arg (y := main_v37) (by decide), not_arg (y := main_v38) (by decide), not_arg (y := main_c_10) (by decide), not_arg (y := main_v39) (by decide), not_arg (y := main_v40) (by decide), not_arg (y := main_v41) (by decide), not_arg (y := main_c_11) (by decide), not_arg (y := main_v42) (by decide), not_arg (y := main_v43) (by decide), not_arg (y := main_c_12) (by decide), not_arg (y := main_v44) (by decide), not_arg (y := main_v45) (by decide), not_arg (y := main_v46) (by decide), not_arg (y := main_v47) (by decide), not_arg (y := main_v48) (by decide), not_arg (y := main_v49) (by decide), not_arg (y := main_v50) (by decide), not_arg (y := main_v51) (by decide), not_arg (y := main_cst_13) (by decide), not_arg (y := main_v52) (by decide), not_arg (y := main_c_14) (by decide), not_arg (y := main_v53) (by decide), not_arg (y := main_v54) (by decide), not_arg (y := main_c_15) (by decide), not_arg (y := main_v55) (by decide), not_arg (y := main_v56) (by decide), not_arg (y := main_v57) (by decide), not_arg (y := main_c_16) (by decide), not_arg (y := main_v58) (by decide), not_arg (y := main_v59) (by decide), not_arg (y := main_c_17) (by decide), not_arg (y := main_v60) (by decide), not_arg (y := main_v61) (by decide), not_arg (y := main_v62) (by decide), not_arg (y := main_v63) (by decide), not_arg (y := main_v64) (by decide), not_arg (y := main_v65) (by decide), not_arg (y := main_v66) (by decide), not_arg (y := main_v67) (by decide), not_arg (y := main_cst_18) (by decide), not_arg (y := main_v68) (by decide), not_arg (y := main_c_19) (by decide), not_arg (y := main_v69) (by decide), not_arg (y := main_v70) (by decide), not_arg (y := main_c_20) (by decide), not_arg (y := main_v71) (by decide), not_arg (y := main_v72) (by decide), not_arg (y := main_v73) (by decide), not_arg (y := main_c_21) (by decide), not_arg (y := main_v74) (by decide), not_arg (y := main_v75) (by decide), not_arg (y := main_c_22) (by decide), not_arg (y := main_v76) (by decide), not_arg (y := main_v77) (by decide), not_arg (y := main_v78) (by decide), not_arg (y := main_v79) (by decide), not_arg (y := main_v80) (by decide), not_arg (y := main_v81) (by decide), not_arg (y := main_v82) (by decide), not_arg (y := main_v83) (by decide), not_arg (y := main_v84) (by decide)⟩

theorem hostOps4_fresh : (hostOps4 : List (HloOp τ sig (Elt F))).Forall fun op => op.fresh = ∅ :=
  ⟨rfl, rfl⟩
theorem hostOps4_args : (hostOps4 : List (HloOp τ sig (Elt F))).Forall fun op => ∀ r ∈ argRefs, Proc.devRef (τ := τ) .tc r ∉ op.writes :=
  ⟨not_arg (y := main_v86) (by decide), not_arg (y := main_v87) (by decide)⟩

theorem hostOps5_fresh : (hostOps5 : List (HloOp τ sig (Elt F))).Forall fun op => op.fresh = ∅ :=
  ⟨rfl, rfl, rfl, rfl, rfl⟩
theorem hostOps5_args : (hostOps5 : List (HloOp τ sig (Elt F))).Forall fun op => ∀ r ∈ argRefs, Proc.devRef (τ := τ) .tc r ∉ op.writes :=
  ⟨not_arg (y := main_v89) (by decide), not_arg (y := main_cst_23) (by decide), not_arg (y := main_v90) (by decide), not_arg (y := main_v91) (by decide), not_arg (y := main_v92) (by decide)⟩

theorem hostOps6_fresh : (hostOps6 : List (HloOp τ sig (Elt F))).Forall fun op => op.fresh = ∅ :=
  rfl
theorem hostOps6_args : (hostOps6 : List (HloOp τ sig (Elt F))).Forall fun op => ∀ r ∈ argRefs, Proc.devRef (τ := τ) .tc r ∉ op.writes :=
  not_arg (y := main_v94) (by decide)

theorem hostOps7_fresh : (hostOps7 : List (HloOp τ sig (Elt F))).Forall fun op => op.fresh = ∅ :=
  ⟨rfl, rfl⟩
theorem hostOps7_args : (hostOps7 : List (HloOp τ sig (Elt F))).Forall fun op => ∀ r ∈ argRefs, Proc.devRef (τ := τ) .tc r ∉ op.writes :=
  ⟨not_arg (y := main_v96) (by decide), not_arg (y := main_v97) (by decide)⟩

theorem hostOps8_fresh : (hostOps8 : List (HloOp τ sig (Elt F))).Forall fun op => op.fresh = ∅ :=
  rfl
theorem hostOps8_args : (hostOps8 : List (HloOp τ sig (Elt F))).Forall fun op => ∀ r ∈ argRefs, Proc.devRef (τ := τ) .tc r ∉ op.writes :=
  not_arg (y := main_v99) (by decide)

theorem hostOps9_fresh : (hostOps9 : List (HloOp τ sig (Elt F))).Forall fun op => op.fresh = ∅ :=
  ⟨rfl, rfl, rfl, rfl⟩
theorem hostOps9_args : (hostOps9 : List (HloOp τ sig (Elt F))).Forall fun op => ∀ r ∈ argRefs, Proc.devRef (τ := τ) .tc r ∉ op.writes :=
  ⟨not_arg (y := main_v101) (by decide), not_arg (y := main_cst_24) (by decide), not_arg (y := main_v102) (by decide), not_arg (y := main_v103) (by decide)⟩

theorem hostOps11_fresh : (hostOps11 : List (HloOp τ sig (Elt F))).Forall fun op => op.fresh = ∅ :=
  ⟨rfl, rfl⟩
theorem hostOps11_args : (hostOps11 : List (HloOp τ sig (Elt F))).Forall fun op => ∀ r ∈ argRefs, Proc.devRef (τ := τ) .tc r ∉ op.writes :=
  ⟨not_arg (y := main_v106) (by decide), not_arg (y := main_v107) (by decide)⟩

theorem hostOps12_fresh : (hostOps12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps12_args : (hostOps12 : List (HloOp τ sig (Elt F))).Forall fun op => ∀ r ∈ argRefs, Proc.devRef (τ := τ) .tc r ∉ op.writes :=
  ⟨not_arg (y := main_v109) (by decide), not_arg (y := main_v110) (by decide), not_arg (y := main_v111) (by decide), not_arg (y := main_cst_25) (by decide), not_arg (y := main_v112) (by decide), not_arg (y := main_cst_26) (by decide), not_arg (y := main_v113) (by decide), not_arg (y := main_v114) (by decide), not_arg (y := main_v115) (by decide), not_arg (y := main_cst_27) (by decide), not_arg (y := main_v116) (by decide), not_arg (y := main_v117) (by decide), not_arg (y := main_v118) (by decide), not_arg (y := main_cst_28) (by decide), not_arg (y := main_v119) (by decide), not_arg (y := main_v120) (by decide), not_arg (y := main_v121) (by decide), not_arg (y := main_v122) (by decide), not_arg (y := main_cst_29) (by decide), not_arg (y := main_v123) (by decide), not_arg (y := main_cst_30) (by decide), not_arg (y := main_v124) (by decide), not_arg (y := main_v125) (by decide), not_arg (y := main_cst_31) (by decide), not_arg (y := main_v126) (by decide), not_arg (y := main_cst_32) (by decide), not_arg (y := main_v127) (by decide), not_arg (y := main_v128) (by decide), not_arg (y := main_v129) (by decide), not_arg (y := main_cst_33) (by decide), not_arg (y := main_v130) (by decide), not_arg (y := main_v131) (by decide), not_arg (y := main_v132) (by decide), not_arg (y := main_cst_34) (by decide), not_arg (y := main_v133) (by decide), not_arg (y := main_v134) (by decide), not_arg (y := main_v135) (by decide), not_arg (y := main_v136) (by decide), not_arg (y := main_cst_35) (by decide), not_arg (y := main_v137) (by decide), not_arg (y := main_cst_36) (by decide), not_arg (y := main_v138) (by decide), not_arg (y := main_v139) (by decide), not_arg (y := main_cst_37) (by decide), not_arg (y := main_v140) (by decide), not_arg (y := main_v141) (by decide), not_arg (y := main_v142) (by decide)⟩

theorem hostOps13_fresh : (hostOps13 : List (HloOp τ sig (Elt F))).Forall fun op => op.fresh = ∅ :=
  ⟨rfl, rfl, rfl, rfl, rfl, rfl, rfl, rfl, rfl, rfl, rfl, rfl, rfl, rfl, rfl, rfl, rfl⟩
theorem hostOps13_args : (hostOps13 : List (HloOp τ sig (Elt F))).Forall fun op => ∀ r ∈ argRefs, Proc.devRef (τ := τ) .tc r ∉ op.writes :=
  ⟨not_arg (y := main_v144) (by decide), not_arg (y := main_v145) (by decide), not_arg (y := main_v146) (by decide), not_arg (y := main_v147) (by decide), not_arg (y := main_v148) (by decide), not_arg (y := main_v149) (by decide), not_arg (y := main_v150) (by decide), not_arg (y := main_v151) (by decide), not_arg (y := main_v152) (by decide), not_arg (y := main_v153) (by decide), not_arg (y := main_v154) (by decide), not_arg (y := main_v155) (by decide), not_arg (y := main_v156) (by decide), not_arg (y := main_v157) (by decide), not_arg (y := main_v158) (by decide), not_arg (y := main_v159) (by decide), not_arg (y := main_v160) (by decide)⟩

theorem hostOps14_fresh : (hostOps14 : List (HloOp τ sig (Elt F))).Forall fun op => op.fresh = ∅ :=
  ⟨rfl, rfl, rfl, rfl⟩
theorem hostOps14_args : (hostOps14 : List (HloOp τ sig (Elt F))).Forall fun op => ∀ r ∈ argRefs, Proc.devRef (τ := τ) .tc r ∉ op.writes :=
  ⟨not_arg (y := main_cst_38) (by decide), not_arg (y := main_v162) (by decide), not_arg (y := main_v163) (by decide), not_arg (y := main_v164) (by decide)⟩

theorem hostOps15_fresh : (hostOps15 : List (HloOp τ sig (Elt F))).Forall fun op => op.fresh = ∅ :=
  ⟨rfl, rfl, rfl⟩
theorem hostOps15_args : (hostOps15 : List (HloOp τ sig (Elt F))).Forall fun op => ∀ r ∈ argRefs, Proc.devRef (τ := τ) .tc r ∉ op.writes :=
  ⟨not_arg (y := main_v166) (by decide), not_arg (y := main_v167) (by decide), not_arg (y := main_v168) (by decide)⟩

theorem hostOps16_fresh : (hostOps16 : List (HloOp τ sig (Elt F))).Forall fun op => op.fresh = ∅ :=
  ⟨rfl, rfl, rfl, rfl, rfl, rfl, rfl, rfl, rfl⟩
theorem hostOps16_args : (hostOps16 : List (HloOp τ sig (Elt F))).Forall fun op => ∀ r ∈ argRefs, Proc.devRef (τ := τ) .tc r ∉ op.writes :=
  ⟨not_arg (y := main_c_39) (by decide), not_arg (y := main_v170) (by decide), not_arg (y := main_v171) (by decide), not_arg (y := main_c_40) (by decide), not_arg (y := main_v172) (by decide), not_arg (y := main_v173) (by decide), not_arg (y := main_v174) (by decide), not_arg (y := main_v175) (by decide), not_arg (y := main_v176) (by decide)⟩

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_arg (c : Dev nD) (r : Ref sig .tc) (hr : r ∈ argRefs) :
    W1 m ρ c (Proc.devRef .tc r) = W0 m ρ c (Proc.devRef .tc r) :=
  StableHlo.after_of_forall_not_mem (b := Proc.devRef .tc r) _ _ fun op hop =>
    (List.forall_iff_forall_mem.mp hostOps0_args) op hop r hr

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem argwin0 : ∀ w : Fin cfg0.W, Pipeline.arrRef spec0 w ∈ argRefs → (cfg0.win w).isOut = false := by decide
theorem W2_arg (c : Dev nD) (r : Ref sig .tc) (hr : r ∈ argRefs) :
    W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (argwin0 w hr) _).trans (A_eq0 (V1 m ρ) c w))
  · exact W2_of_ne m ρ c r fun w e => h ⟨w, e⟩

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem argwin1 : ∀ w : Fin cfg1.W, Pipeline.arrRef spec1 w ∈ argRefs → (cfg1.win w).isOut = false := by decide
theorem W3_arg (c : Dev nD) (r : Ref sig .tc) (hr : r ∈ argRefs) :
    W3 m ρ c (Proc.devRef .tc r) = W2 m ρ c (Proc.devRef .tc r) := by
  by_cases h : ∃ w, Pipeline.arrRef spec1 w = r
  · obtain ⟨w, rfl⟩ := h
    exact (W3_arr m ρ c w).trans (((dat1 (V2 m ρ) c).arrAt_in w (argwin1 w hr) _).trans (A_eq1 (V2 m ρ) c w))
  · exact W3_of_ne m ρ c r fun w e => h ⟨w, e⟩

def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem argwin2 : ∀ w : Fin cfg2.W, Pipeline.arrRef spec2 w ∈ argRefs → (cfg2.win w).isOut = false := by decide
theorem W4_arg (c : Dev nD) (r : Ref sig .tc) (hr : r ∈ argRefs) :
    W4 m ρ c (Proc.devRef .tc r) = W3 m ρ c (Proc.devRef .tc r) := by
  by_cases h : ∃ w, Pipeline.arrRef spec2 w = r
  · obtain ⟨w, rfl⟩ := h
    exact (W4_arr m ρ c w).trans (((dat2 (V3 m ρ) c).arrAt_in w (argwin2 w hr) _).trans (A_eq2 (V3 m ρ) c w))
  · exact W4_of_ne m ρ c r fun w e => h ⟨w, e⟩

abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
theorem W5_arg (c : Dev nD) (r : Ref sig .tc) (hr : r ∈ argRefs) :
    W5 m ρ c (Proc.devRef .tc r) = W4 m ρ c (Proc.devRef .tc r) :=
  StableHlo.after_of_forall_not_mem (b := Proc.devRef .tc r) _ _ fun op hop =>
    (List.forall_iff_forall_mem.mp hostOps3_args) op hop r hr

def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
abbrev V6 : (c : Dev nD) → (b : Ref sig .tc) → Buf (Elt F) ((c : Thread nD τ).loc b) := fun c b => W6 m ρ c b
theorem argwin3 : ∀ w : Fin cfg3.W, Pipeline.arrRef spec3 w ∈ argRefs → (cfg3.win w).isOut = false := by decide
theorem W6_arg (c : Dev nD) (r : Ref sig .tc) (hr : r ∈ argRefs) :
    W6 m ρ c (Proc.devRef .tc r) = W5 m ρ c (Proc.devRef .tc r) := by
  by_cases h : ∃ w, Pipeline.arrRef spec3 w = r
  · obtain ⟨w, rfl⟩ := h
    exact (W6_arr m ρ c w).trans (((dat3 (V5 m ρ) c).arrAt_in w (argwin3 w hr) _).trans (A_eq3 (V5 m ρ) c w))
  · exact W6_of_ne m ρ c r fun w e => h ⟨w, e⟩

abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
theorem W7_arg (c : Dev nD) (r : Ref sig .tc) (hr : r ∈ argRefs) :
    W7 m ρ c (Proc.devRef .tc r) = W6 m ρ c (Proc.devRef .tc r) :=
  StableHlo.after_of_forall_not_mem (b := Proc.devRef .tc r) _ _ fun op hop =>
    (List.forall_iff_forall_mem.mp hostOps4_args) op hop r hr

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem argwin4 : ∀ w : Fin cfg4.W, Pipeline.arrRef spec4 w ∈ argRefs → (cfg4.win w).isOut = false := by decide
theorem W8_arg (c : Dev nD) (r : Ref sig .tc) (hr : r ∈ argRefs) :
    W8 m ρ c (Proc.devRef .tc r) = W7 m ρ c (Proc.devRef .tc r) := by
  by_cases h : ∃ w, Pipeline.arrRef spec4 w = r
  · obtain ⟨w, rfl⟩ := h
    exact (W8_arr m ρ c w).trans (((dat4 (V7 m ρ) c).arrAt_in w (argwin4 w hr) _).trans (A_eq4 (V7 m ρ) c w))
  · exact W8_of_ne m ρ c r fun w e => h ⟨w, e⟩

abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
theorem W9_arg (c : Dev nD) (r : Ref sig .tc) (hr : r ∈ argRefs) :
    W9 m ρ c (Proc.devRef .tc r) = W8 m ρ c (Proc.devRef .tc r) :=
  StableHlo.after_of_forall_not_mem (b := Proc.devRef .tc r) _ _ fun op hop =>
    (List.forall_iff_forall_mem.mp hostOps5_args) op hop r hr

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem argwin5 : ∀ w : Fin cfg5.W, Pipeline.arrRef spec5 w ∈ argRefs → (cfg5.win w).isOut = false := by decide
theorem W10_arg (c : Dev nD) (r : Ref sig .tc) (hr : r ∈ argRefs) :
    W10 m ρ c (Proc.devRef .tc r) = W9 m ρ c (Proc.devRef .tc r) := by
  by_cases h : ∃ w, Pipeline.arrRef spec5 w = r
  · obtain ⟨w, rfl⟩ := h
    exact (W10_arr m ρ c w).trans (((dat5 (V9 m ρ) c).arrAt_in w (argwin5 w hr) _).trans (A_eq5 (V9 m ρ) c w))
  · exact W10_of_ne m ρ c r fun w e => h ⟨w, e⟩

abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
theorem W11_arg (c : Dev nD) (r : Ref sig .tc) (hr : r ∈ argRefs) :
    W11 m ρ c (Proc.devRef .tc r) = W10 m ρ c (Proc.devRef .tc r) :=
  StableHlo.after_of_forall_not_mem (b := Proc.devRef .tc r) _ _ fun op hop =>
    (List.forall_iff_forall_mem.mp hostOps6_args) op hop r hr

def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev V12 : (c : Dev nD) → (b : Ref sig .tc) → Buf (Elt F) ((c : Thread nD τ).loc b) := fun c b => W12 m ρ c b
theorem argwin6 : ∀ w : Fin cfg6.W, Pipeline.arrRef spec6 w ∈ argRefs → (cfg6.win w).isOut = false := by decide
theorem W12_arg (c : Dev nD) (r : Ref sig .tc) (hr : r ∈ argRefs) :
    W12 m ρ c (Proc.devRef .tc r) = W11 m ρ c (Proc.devRef .tc r) := by
  by_cases h : ∃ w, Pipeline.arrRef spec6 w = r
  · obtain ⟨w, rfl⟩ := h
    exact (W12_arr m ρ c w).trans (((dat6 (V11 m ρ) c).arrAt_in w (argwin6 w hr) _).trans (A_eq6 (V11 m ρ) c w))
  · exact W12_of_ne m ρ c r fun w e => h ⟨w, e⟩

abbrev W13 : Dev nD → Valuation τ sig (Elt F) := fun c => StableHlo.after hostOps7 (W12 m ρ c)
abbrev V13 : (c : Dev nD) → (b : Ref sig .tc) → Buf (Elt F) ((c : Thread nD τ).loc b) := fun c b => W13 m ρ c b
theorem W13_arg (c : Dev nD) (r : Ref sig .tc) (hr : r ∈ argRefs) :
    W13 m ρ c (Proc.devRef .tc r) = W12 m ρ c (Proc.devRef .tc r) :=
  StableHlo.after_of_forall_not_mem (b := Proc.devRef .tc r) _ _ fun op hop =>
    (List.forall_iff_forall_mem.mp hostOps7_args) op hop r hr

def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev V14 : (c : Dev nD) → (b : Ref sig .tc) → Buf (Elt F) ((c : Thread nD τ).loc b) := fun c b => W14 m ρ c b
theorem argwin7 : ∀ w : Fin cfg7.W, Pipeline.arrRef spec7 w ∈ argRefs → (cfg7.win w).isOut = false := by decide
theorem W14_arg (c : Dev nD) (r : Ref sig .tc) (hr : r ∈ argRefs) :
    W14 m ρ c (Proc.devRef .tc r) = W13 m ρ c (Proc.devRef .tc r) := by
  by_cases h : ∃ w, Pipeline.arrRef spec7 w = r
  · obtain ⟨w, rfl⟩ := h
    exact (W14_arr m ρ c w).trans (((dat7 (V13 m ρ) c).arrAt_in w (argwin7 w hr) _).trans (A_eq7 (V13 m ρ) c w))
  · exact W14_of_ne m ρ c r fun w e => h ⟨w, e⟩

abbrev W15 : Dev nD → Valuation τ sig (Elt F) := fun c => StableHlo.after hostOps8 (W14 m ρ c)
abbrev V15 : (c : Dev nD) → (b : Ref sig .tc) → Buf (Elt F) ((c : Thread nD τ).loc b) := fun c b => W15 m ρ c b
theorem W15_arg (c : Dev nD) (r : Ref sig .tc) (hr : r ∈ argRefs) :
    W15 m ρ c (Proc.devRef .tc r) = W14 m ρ c (Proc.devRef .tc r) :=
  StableHlo.after_of_forall_not_mem (b := Proc.devRef .tc r) _ _ fun op hop =>
    (List.forall_iff_forall_mem.mp hostOps8_args) op hop r hr

def W16 (c : Dev nD) : Valuation τ sig (Elt F) :=
  Pipeline.withArrays spec8 c (W15 m ρ c) fun w => (dat8 (V15 m ρ) c).arrAt w cfg8.N
theorem W16_arr (c : Dev nD) (w : Fin cfg8.W) :
    W16 m ρ c (Proc.devRef .tc (Pipeline.arrRef spec8 w)) = (dat8 (V15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev V16 : (c : Dev nD) → (b : Ref sig .tc) → Buf (Elt F) ((c : Thread nD τ).loc b) := fun c b => W16 m ρ c b
theorem argwin8 : ∀ w : Fin cfg8.W, Pipeline.arrRef spec8 w ∈ argRefs → (cfg8.win w).isOut = false := by decide
theorem W16_arg (c : Dev nD) (r : Ref sig .tc) (hr : r ∈ argRefs) :
    W16 m ρ c (Proc.devRef .tc r) = W15 m ρ c (Proc.devRef .tc r) := by
  by_cases h : ∃ w, Pipeline.arrRef spec8 w = r
  · obtain ⟨w, rfl⟩ := h
    exact (W16_arr m ρ c w).trans (((dat8 (V15 m ρ) c).arrAt_in w (argwin8 w hr) _).trans (A_eq8 (V15 m ρ) c w))
  · exact W16_of_ne m ρ c r fun w e => h ⟨w, e⟩

abbrev W17 : Dev nD → Valuation τ sig (Elt F) := fun c => StableHlo.after hostOps9 (W16 m ρ c)
abbrev V17 : (c : Dev nD) → (b : Ref sig .tc) → Buf (Elt F) ((c : Thread nD τ).loc b) := fun c b => W17 m ρ c b
theorem W17_arg (c : Dev nD) (r : Ref sig .tc) (hr : r ∈ argRefs) :
    W17 m ρ c (Proc.devRef .tc r) = W16 m ρ c (Proc.devRef .tc r) :=
  StableHlo.after_of_forall_not_mem (b := Proc.devRef .tc r) _ _ fun op hop =>
    (List.forall_iff_forall_mem.mp hostOps9_args) op hop r hr

def W18 (c : Dev nD) : Valuation τ sig (Elt F) :=
  Pipeline.withArrays spec9 c (W17 m ρ c) fun w => (dat9 (V17 m ρ) c).arrAt w cfg9.N
theorem W18_arr (c : Dev nD) (w : Fin cfg9.W) :
    W18 m ρ c (Proc.devRef .tc (Pipeline.arrRef spec9 w)) = (dat9 (V17 m ρ) c).arrAt w cfg9.N := by
  unfold W18; exact Pipeline.withArrays_arr spec9 launch9.win.arr_inj c _ _ w
theorem W18_of_ne (c : Dev nD) (b : Ref sig .tc) (hb : ∀ w, Pipeline.arrRef spec9 w ≠ b) :
    W18 m ρ c (Proc.devRef .tc b) = W17 m ρ c (Proc.devRef .tc b) := by
  unfold W18; exact Pipeline.withArrays_of_ne spec9 c _ _ b hb
abbrev V18 : (c : Dev nD) → (b : Ref sig .tc) → Buf (Elt F) ((c : Thread nD τ).loc b) := fun c b => W18 m ρ c b
theorem argwin9 : ∀ w : Fin cfg9.W, Pipeline.arrRef spec9 w ∈ argRefs → (cfg9.win w).isOut = false := by decide
theorem W18_arg (c : Dev nD) (r : Ref sig .tc) (hr : r ∈ argRefs) :
    W18 m ρ c (Proc.devRef .tc r) = W17 m ρ c (Proc.devRef .tc r) := by
  by_cases h : ∃ w, Pipeline.arrRef spec9 w = r
  · obtain ⟨w, rfl⟩ := h
    exact (W18_arr m ρ c w).trans (((dat9 (V17 m ρ) c).arrAt_in w (argwin9 w hr) _).trans (A_eq9 (V17 m ρ) c w))
  · exact W18_of_ne m ρ c r fun w e => h ⟨w, e⟩

def W19 (c : Dev nD) : Valuation τ sig (Elt F) :=
  Pipeline.withArrays spec10 c (W18 m ρ c) fun w => (dat10 (V18 m ρ) c).arrAt w cfg10.N
theorem W19_arr (c : Dev nD) (w : Fin cfg10.W) :
    W19 m ρ c (Proc.devRef .tc (Pipeline.arrRef spec10 w)) = (dat10 (V18 m ρ) c).arrAt w cfg10.N := by
  unfold W19; exact Pipeline.withArrays_arr spec10 launch10.win.arr_inj c _ _ w
theorem W19_of_ne (c : Dev nD) (b : Ref sig .tc) (hb : ∀ w, Pipeline.arrRef spec10 w ≠ b) :
    W19 m ρ c (Proc.devRef .tc b) = W18 m ρ c (Proc.devRef .tc b) := by
  unfold W19; exact Pipeline.withArrays_of_ne spec10 c _ _ b hb
abbrev V19 : (c : Dev nD) → (b : Ref sig .tc) → Buf (Elt F) ((c : Thread nD τ).loc b) := fun c b => W19 m ρ c b
theorem argwin10 : ∀ w : Fin cfg10.W, Pipeline.arrRef spec10 w ∈ argRefs → (cfg10.win w).isOut = false := by decide
theorem W19_arg (c : Dev nD) (r : Ref sig .tc) (hr : r ∈ argRefs) :
    W19 m ρ c (Proc.devRef .tc r) = W18 m ρ c (Proc.devRef .tc r) := by
  by_cases h : ∃ w, Pipeline.arrRef spec10 w = r
  · obtain ⟨w, rfl⟩ := h
    exact (W19_arr m ρ c w).trans (((dat10 (V18 m ρ) c).arrAt_in w (argwin10 w hr) _).trans (A_eq10 (V18 m ρ) c w))
  · exact W19_of_ne m ρ c r fun w e => h ⟨w, e⟩

abbrev W20 : Dev nD → Valuation τ sig (Elt F) := fun c => StableHlo.after hostOps11 (W19 m ρ c)
abbrev V20 : (c : Dev nD) → (b : Ref sig .tc) → Buf (Elt F) ((c : Thread nD τ).loc b) := fun c b => W20 m ρ c b
theorem W20_arg (c : Dev nD) (r : Ref sig .tc) (hr : r ∈ argRefs) :
    W20 m ρ c (Proc.devRef .tc r) = W19 m ρ c (Proc.devRef .tc r) :=
  StableHlo.after_of_forall_not_mem (b := Proc.devRef .tc r) _ _ fun op hop =>
    (List.forall_iff_forall_mem.mp hostOps11_args) op hop r hr

def W21 (c : Dev nD) : Valuation τ sig (Elt F) :=
  Pipeline.withArrays spec11 c (W20 m ρ c) fun w => (dat11 (V20 m ρ) c).arrAt w cfg11.N
theorem W21_arr (c : Dev nD) (w : Fin cfg11.W) :
    W21 m ρ c (Proc.devRef .tc (Pipeline.arrRef spec11 w)) = (dat11 (V20 m ρ) c).arrAt w cfg11.N := by
  unfold W21; exact Pipeline.withArrays_arr spec11 launch11.win.arr_inj c _ _ w
theorem W21_of_ne (c : Dev nD) (b : Ref sig .tc) (hb : ∀ w, Pipeline.arrRef spec11 w ≠ b) :
    W21 m ρ c (Proc.devRef .tc b) = W20 m ρ c (Proc.devRef .tc b) := by
  unfold W21; exact Pipeline.withArrays_of_ne spec11 c _ _ b hb
abbrev V21 : (c : Dev nD) → (b : Ref sig .tc) → Buf (Elt F) ((c : Thread nD τ).loc b) := fun c b => W21 m ρ c b
theorem argwin11 : ∀ w : Fin cfg11.W, Pipeline.arrRef spec11 w ∈ argRefs → (cfg11.win w).isOut = false := by decide
theorem W21_arg (c : Dev nD) (r : Ref sig .tc) (hr : r ∈ argRefs) :
    W21 m ρ c (Proc.devRef .tc r) = W20 m ρ c (Proc.devRef .tc r) := by
  by_cases h : ∃ w, Pipeline.arrRef spec11 w = r
  · obtain ⟨w, rfl⟩ := h
    exact (W21_arr m ρ c w).trans (((dat11 (V20 m ρ) c).arrAt_in w (argwin11 w hr) _).trans (A_eq11 (V20 m ρ) c w))
  · exact W21_of_ne m ρ c r fun w e => h ⟨w, e⟩

abbrev W22 : Dev nD → Valuation τ sig (Elt F) := fun c => StableHlo.after hostOps12 (W21 m ρ c)
abbrev V22 : (c : Dev nD) → (b : Ref sig .tc) → Buf (Elt F) ((c : Thread nD τ).loc b) := fun c b => W22 m ρ c b
theorem W22_arg (c : Dev nD) (r : Ref sig .tc) (hr : r ∈ argRefs) :
    W22 m ρ c (Proc.devRef .tc r) = W21 m ρ c (Proc.devRef .tc r) :=
  StableHlo.after_of_forall_not_mem (b := Proc.devRef .tc r) _ _ fun op hop =>
    (List.forall_iff_forall_mem.mp hostOps12_args) op hop r hr

def W23 (c : Dev nD) : Valuation τ sig (Elt F) :=
  Pipeline.withArrays spec12 c (W22 m ρ c) fun w => (dat12 (V22 m ρ) c).arrAt w cfg12.N
theorem W23_arr (c : Dev nD) (w : Fin cfg12.W) :
    W23 m ρ c (Proc.devRef .tc (Pipeline.arrRef spec12 w)) = (dat12 (V22 m ρ) c).arrAt w cfg12.N := by
  unfold W23; exact Pipeline.withArrays_arr spec12 launch12.win.arr_inj c _ _ w
theorem W23_of_ne (c : Dev nD) (b : Ref sig .tc) (hb : ∀ w, Pipeline.arrRef spec12 w ≠ b) :
    W23 m ρ c (Proc.devRef .tc b) = W22 m ρ c (Proc.devRef .tc b) := by
  unfold W23; exact Pipeline.withArrays_of_ne spec12 c _ _ b hb
abbrev V23 : (c : Dev nD) → (b : Ref sig .tc) → Buf (Elt F) ((c : Thread nD τ).loc b) := fun c b => W23 m ρ c b
theorem argwin12 : ∀ w : Fin cfg12.W, Pipeline.arrRef spec12 w ∈ argRefs → (cfg12.win w).isOut = false := by decide
theorem W23_arg (c : Dev nD) (r : Ref sig .tc) (hr : r ∈ argRefs) :
    W23 m ρ c (Proc.devRef .tc r) = W22 m ρ c (Proc.devRef .tc r) := by
  by_cases h : ∃ w, Pipeline.arrRef spec12 w = r
  · obtain ⟨w, rfl⟩ := h
    exact (W23_arr m ρ c w).trans (((dat12 (V22 m ρ) c).arrAt_in w (argwin12 w hr) _).trans (A_eq12 (V22 m ρ) c w))
  · exact W23_of_ne m ρ c r fun w e => h ⟨w, e⟩

abbrev W24 : Dev nD → Valuation τ sig (Elt F) := fun c => StableHlo.after hostOps13 (W23 m ρ c)
abbrev V24 : (c : Dev nD) → (b : Ref sig .tc) → Buf (Elt F) ((c : Thread nD τ).loc b) := fun c b => W24 m ρ c b
theorem W24_arg (c : Dev nD) (r : Ref sig .tc) (hr : r ∈ argRefs) :
    W24 m ρ c (Proc.devRef .tc r) = W23 m ρ c (Proc.devRef .tc r) :=
  StableHlo.after_of_forall_not_mem (b := Proc.devRef .tc r) _ _ fun op hop =>
    (List.forall_iff_forall_mem.mp hostOps13_args) op hop r hr

def W25 (c : Dev nD) : Valuation τ sig (Elt F) :=
  Pipeline.withArrays spec13 c (W24 m ρ c) fun w => (dat13 (V24 m ρ) c).arrAt w cfg13.N
theorem W25_arr (c : Dev nD) (w : Fin cfg13.W) :
    W25 m ρ c (Proc.devRef .tc (Pipeline.arrRef spec13 w)) = (dat13 (V24 m ρ) c).arrAt w cfg13.N := by
  unfold W25; exact Pipeline.withArrays_arr spec13 launch13.win.arr_inj c _ _ w
theorem W25_of_ne (c : Dev nD) (b : Ref sig .tc) (hb : ∀ w, Pipeline.arrRef spec13 w ≠ b) :
    W25 m ρ c (Proc.devRef .tc b) = W24 m ρ c (Proc.devRef .tc b) := by
  unfold W25; exact Pipeline.withArrays_of_ne spec13 c _ _ b hb
abbrev V25 : (c : Dev nD) → (b : Ref sig .tc) → Buf (Elt F) ((c : Thread nD τ).loc b) := fun c b => W25 m ρ c b
theorem argwin13 : ∀ w : Fin cfg13.W, Pipeline.arrRef spec13 w ∈ argRefs → (cfg13.win w).isOut = false := by decide
theorem W25_arg (c : Dev nD) (r : Ref sig .tc) (hr : r ∈ argRefs) :
    W25 m ρ c (Proc.devRef .tc r) = W24 m ρ c (Proc.devRef .tc r) := by
  by_cases h : ∃ w, Pipeline.arrRef spec13 w = r
  · obtain ⟨w, rfl⟩ := h
    exact (W25_arr m ρ c w).trans (((dat13 (V24 m ρ) c).arrAt_in w (argwin13 w hr) _).trans (A_eq13 (V24 m ρ) c w))
  · exact W25_of_ne m ρ c r fun w e => h ⟨w, e⟩

abbrev W26 : Dev nD → Valuation τ sig (Elt F) := fun c => StableHlo.after hostOps14 (W25 m ρ c)
abbrev V26 : (c : Dev nD) → (b : Ref sig .tc) → Buf (Elt F) ((c : Thread nD τ).loc b) := fun c b => W26 m ρ c b
theorem W26_arg (c : Dev nD) (r : Ref sig .tc) (hr : r ∈ argRefs) :
    W26 m ρ c (Proc.devRef .tc r) = W25 m ρ c (Proc.devRef .tc r) :=
  StableHlo.after_of_forall_not_mem (b := Proc.devRef .tc r) _ _ fun op hop =>
    (List.forall_iff_forall_mem.mp hostOps14_args) op hop r hr

def W27 (c : Dev nD) : Valuation τ sig (Elt F) :=
  Pipeline.withArrays spec14 c (W26 m ρ c) fun w => (dat14 (V26 m ρ) c).arrAt w cfg14.N
theorem W27_arr (c : Dev nD) (w : Fin cfg14.W) :
    W27 m ρ c (Proc.devRef .tc (Pipeline.arrRef spec14 w)) = (dat14 (V26 m ρ) c).arrAt w cfg14.N := by
  unfold W27; exact Pipeline.withArrays_arr spec14 launch14.win.arr_inj c _ _ w
theorem W27_of_ne (c : Dev nD) (b : Ref sig .tc) (hb : ∀ w, Pipeline.arrRef spec14 w ≠ b) :
    W27 m ρ c (Proc.devRef .tc b) = W26 m ρ c (Proc.devRef .tc b) := by
  unfold W27; exact Pipeline.withArrays_of_ne spec14 c _ _ b hb
abbrev V27 : (c : Dev nD) → (b : Ref sig .tc) → Buf (Elt F) ((c : Thread nD τ).loc b) := fun c b => W27 m ρ c b
theorem argwin14 : ∀ w : Fin cfg14.W, Pipeline.arrRef spec14 w ∈ argRefs → (cfg14.win w).isOut = false := by decide
theorem W27_arg (c : Dev nD) (r : Ref sig .tc) (hr : r ∈ argRefs) :
    W27 m ρ c (Proc.devRef .tc r) = W26 m ρ c (Proc.devRef .tc r) := by
  by_cases h : ∃ w, Pipeline.arrRef spec14 w = r
  · obtain ⟨w, rfl⟩ := h
    exact (W27_arr m ρ c w).trans (((dat14 (V26 m ρ) c).arrAt_in w (argwin14 w hr) _).trans (A_eq14 (V26 m ρ) c w))
  · exact W27_of_ne m ρ c r fun w e => h ⟨w, e⟩

abbrev W28 : Dev nD → Valuation τ sig (Elt F) := fun c => StableHlo.after hostOps15 (W27 m ρ c)
abbrev V28 : (c : Dev nD) → (b : Ref sig .tc) → Buf (Elt F) ((c : Thread nD τ).loc b) := fun c b => W28 m ρ c b
theorem W28_arg (c : Dev nD) (r : Ref sig .tc) (hr : r ∈ argRefs) :
    W28 m ρ c (Proc.devRef .tc r) = W27 m ρ c (Proc.devRef .tc r) :=
  StableHlo.after_of_forall_not_mem (b := Proc.devRef .tc r) _ _ fun op hop =>
    (List.forall_iff_forall_mem.mp hostOps15_args) op hop r hr

def W29 (c : Dev nD) : Valuation τ sig (Elt F) :=
  Pipeline.withArrays spec15 c (W28 m ρ c) fun w => (dat15 (V28 m ρ) c).arrAt w cfg15.N
theorem W29_arr (c : Dev nD) (w : Fin cfg15.W) :
    W29 m ρ c (Proc.devRef .tc (Pipeline.arrRef spec15 w)) = (dat15 (V28 m ρ) c).arrAt w cfg15.N := by
  unfold W29; exact Pipeline.withArrays_arr spec15 launch15.win.arr_inj c _ _ w
theorem W29_of_ne (c : Dev nD) (b : Ref sig .tc) (hb : ∀ w, Pipeline.arrRef spec15 w ≠ b) :
    W29 m ρ c (Proc.devRef .tc b) = W28 m ρ c (Proc.devRef .tc b) := by
  unfold W29; exact Pipeline.withArrays_of_ne spec15 c _ _ b hb
abbrev V29 : (c : Dev nD) → (b : Ref sig .tc) → Buf (Elt F) ((c : Thread nD τ).loc b) := fun c b => W29 m ρ c b
theorem argwin15 : ∀ w : Fin cfg15.W, Pipeline.arrRef spec15 w ∈ argRefs → (cfg15.win w).isOut = false := by decide
theorem W29_arg (c : Dev nD) (r : Ref sig .tc) (hr : r ∈ argRefs) :
    W29 m ρ c (Proc.devRef .tc r) = W28 m ρ c (Proc.devRef .tc r) := by
  by_cases h : ∃ w, Pipeline.arrRef spec15 w = r
  · obtain ⟨w, rfl⟩ := h
    exact (W29_arr m ρ c w).trans (((dat15 (V28 m ρ) c).arrAt_in w (argwin15 w hr) _).trans (A_eq15 (V28 m ρ) c w))
  · exact W29_of_ne m ρ c r fun w e => h ⟨w, e⟩

abbrev W30 : Dev nD → Valuation τ sig (Elt F) := fun c => StableHlo.after hostOps16 (W29 m ρ c)
abbrev V30 : (c : Dev nD) → (b : Ref sig .tc) → Buf (Elt F) ((c : Thread nD τ).loc b) := fun c b => W30 m ρ c b
theorem W30_arg (c : Dev nD) (r : Ref sig .tc) (hr : r ∈ argRefs) :
    W30 m ρ c (Proc.devRef .tc r) = W29 m ρ c (Proc.devRef .tc r) :=
  StableHlo.after_of_forall_not_mem (b := Proc.devRef .tc r) _ _ fun op hop =>
    (List.forall_iff_forall_mem.mp hostOps16_args) op hop r hr

def W31 (c : Dev nD) : Valuation τ sig (Elt F) :=
  Pipeline.withArrays spec16 c (W30 m ρ c) fun w => (dat16 (V30 m ρ) c).arrAt w cfg16.N
theorem W31_arr (c : Dev nD) (w : Fin cfg16.W) :
    W31 m ρ c (Proc.devRef .tc (Pipeline.arrRef spec16 w)) = (dat16 (V30 m ρ) c).arrAt w cfg16.N := by
  unfold W31; exact Pipeline.withArrays_arr spec16 launch16.win.arr_inj c _ _ w
theorem W31_of_ne (c : Dev nD) (b : Ref sig .tc) (hb : ∀ w, Pipeline.arrRef spec16 w ≠ b) :
    W31 m ρ c (Proc.devRef .tc b) = W30 m ρ c (Proc.devRef .tc b) := by
  unfold W31; exact Pipeline.withArrays_of_ne spec16 c _ _ b hb
abbrev V31 : (c : Dev nD) → (b : Ref sig .tc) → Buf (Elt F) ((c : Thread nD τ).loc b) := fun c b => W31 m ρ c b
theorem argwin16 : ∀ w : Fin cfg16.W, Pipeline.arrRef spec16 w ∈ argRefs → (cfg16.win w).isOut = false := by decide
theorem W31_arg (c : Dev nD) (r : Ref sig .tc) (hr : r ∈ argRefs) :
    W31 m ρ c (Proc.devRef .tc r) = W30 m ρ c (Proc.devRef .tc r) := by
  by_cases h : ∃ w, Pipeline.arrRef spec16 w = r
  · obtain ⟨w, rfl⟩ := h
    exact (W31_arr m ρ c w).trans (((dat16 (V30 m ρ) c).arrAt_in w (argwin16 w hr) _).trans (A_eq16 (V30 m ρ) c w))
  · exact W31_of_ne m ρ c r fun w e => h ⟨w, e⟩

abbrev Wlast : Dev nD → Valuation τ sig (Elt F) := W31 m ρ

theorem Wlast_arg (c : Dev nD) (r : Ref sig .tc) (hr : r ∈ argRefs) :
    Wlast m ρ c (Proc.devRef .tc r) = m ((c : Thread nD τ).loc r) :=
  calc Wlast m ρ c (Proc.devRef .tc r)
    _ = W31 m ρ c (Proc.devRef .tc r) := rfl
    _ = W30 m ρ c (Proc.devRef .tc r) := W31_arg m ρ c r hr
    _ = W29 m ρ c (Proc.devRef .tc r) := W30_arg m ρ c r hr
    _ = W28 m ρ c (Proc.devRef .tc r) := W29_arg m ρ c r hr
    _ = W27 m ρ c (Proc.devRef .tc r) := W28_arg m ρ c r hr
    _ = W26 m ρ c (Proc.devRef .tc r) := W27_arg m ρ c r hr
    _ = W25 m ρ c (Proc.devRef .tc r) := W26_arg m ρ c r hr
    _ = W24 m ρ c (Proc.devRef .tc r) := W25_arg m ρ c r hr
    _ = W23 m ρ c (Proc.devRef .tc r) := W24_arg m ρ c r hr
    _ = W22 m ρ c (Proc.devRef .tc r) := W23_arg m ρ c r hr
    _ = W21 m ρ c (Proc.devRef .tc r) := W22_arg m ρ c r hr
    _ = W20 m ρ c (Proc.devRef .tc r) := W21_arg m ρ c r hr
    _ = W19 m ρ c (Proc.devRef .tc r) := W20_arg m ρ c r hr
    _ = W18 m ρ c (Proc.devRef .tc r) := W19_arg m ρ c r hr
    _ = W17 m ρ c (Proc.devRef .tc r) := W18_arg m ρ c r hr
    _ = W16 m ρ c (Proc.devRef .tc r) := W17_arg m ρ c r hr
    _ = W15 m ρ c (Proc.devRef .tc r) := W16_arg m ρ c r hr
    _ = W14 m ρ c (Proc.devRef .tc r) := W15_arg m ρ c r hr
    _ = W13 m ρ c (Proc.devRef .tc r) := W14_arg m ρ c r hr
    _ = W12 m ρ c (Proc.devRef .tc r) := W13_arg m ρ c r hr
    _ = W11 m ρ c (Proc.devRef .tc r) := W12_arg m ρ c r hr
    _ = W10 m ρ c (Proc.devRef .tc r) := W11_arg m ρ c r hr
    _ = W9 m ρ c (Proc.devRef .tc r) := W10_arg m ρ c r hr
    _ = W8 m ρ c (Proc.devRef .tc r) := W9_arg m ρ c r hr
    _ = W7 m ρ c (Proc.devRef .tc r) := W8_arg m ρ c r hr
    _ = W6 m ρ c (Proc.devRef .tc r) := W7_arg m ρ c r hr
    _ = W5 m ρ c (Proc.devRef .tc r) := W6_arg m ρ c r hr
    _ = W4 m ρ c (Proc.devRef .tc r) := W5_arg m ρ c r hr
    _ = W3 m ρ c (Proc.devRef .tc r) := W4_arg m ρ c r hr
    _ = W2 m ρ c (Proc.devRef .tc r) := W3_arg m ρ c r hr
    _ = W1 m ρ c (Proc.devRef .tc r) := W2_arg m ρ c r hr
    _ = W0 m ρ c (Proc.devRef .tc r) := W1_arg m ρ c r hr
    _ = m ((c : Thread nD τ).loc r) := rfl

end Cert.KernelIdeal.Hand

end
-- ==== Proof.KI.Chain.lean ====
import proofs.«417009_j23742579212955_2_alg».proof.Proof.Gen.KernelIdeal.Launch
import proofs.«417009_j23742579212955_2_alg».proof.Proof.Gen.KernelIdeal.Skeleton
import proofs.«417009_j23742579212955_2_alg».proof.Proof.Gen.KernelIdeal.Points
import proofs.«417009_j23742579212955_2_alg».proof.Proof.KI.ChainW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev adm : (p : Fin 17) → (pcfgs (F := F) p).Adm := fun p => (cfgs p).toPCfg_adm
def pdats : (p : Fin 17) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V5 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V13 m ρ) c
  | ⟨8, _⟩ => fun c => dat8 (V15 m ρ) c
  | ⟨9, _⟩ => fun c => dat9 (V17 m ρ) c
  | ⟨10, _⟩ => fun c => dat10 (V18 m ρ) c
  | ⟨11, _⟩ => fun c => dat11 (V20 m ρ) c
  | ⟨12, _⟩ => fun c => dat12 (V22 m ρ) c
  | ⟨13, _⟩ => fun c => dat13 (V24 m ρ) c
  | ⟨14, _⟩ => fun c => dat14 (V26 m ρ) c
  | ⟨15, _⟩ => fun c => dat15 (V28 m ρ) c
  | ⟨16, _⟩ => fun c => dat16 (V30 m ρ) c
  | ⟨_ + 17, h⟩ => absurd h (Nat.not_lt.2 (Nat.le_add_left _ _))
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W31 m ρ c) ∗ ∃ r, prngReg c r)

/- One statement for all seventeen regions of the run: a region takes the unscoped contents `Wi` to `Wi` updated at the
   region's own arrays, which then hold their final contents. -/
theorem ΦA_in {gr W : Nat} (win : Fin W → Pipeline.WinSpec sig gr) (c : Dev nD) :
    iprop((∃ r, prngReg c r) ∗ Pipeline.scopedRest (Ix := Unit) (Name := ℕ) (U := UR sig nD τ) (Lvl := ℕ) (Val := Elt F) win c)
      ⊢ (Pipeline.ΦA (U := UR sig nD τ) (Val := Elt F) win c : sProp 𝕄) := by
  unfold Pipeline.ΦA
  iintro ⟨Hp, Hr⟩
  isplitl [Hr]; · iexact Hr
  iexact Hp

theorem ΦA_out {gr W : Nat} (win : Fin W → Pipeline.WinSpec sig gr) (c : Dev nD) :
    (Pipeline.ΦA (U := UR sig nD τ) (Val := Elt F) win c : sProp 𝕄)
      ⊢ iprop((∃ r, prngReg c r) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  iexact Hr

set_option backward.isDefEq.respectTransparency.types false in
def regOf (p : Fin 17) (kit : Pipeline.LaunchFacts (nD := nD) (τ := τ) cfgs p)
    (Wi : Dev nD → Valuation τ sig (Elt F))
    (hbody : ∀ c, BodyObligation (pdats m ρ p c) (defs₀ (F := F)) 𝒱₀ () Set.univ)
    (hq : ∀ c w, (pdats m ρ p c).q w = fullShare)
    (howed : ∀ c t, (pdats m ρ p c).owed t = 0)
    (hrec : ∀ c t, (pdats m ρ p c).recorded t = Set.univ)
    (hA : ∀ c w, (pdats m ρ p c).A w = Wi c (Pipeline.arrRef (cfgs p).spec w))
    (hin : ∀ c, iprop((∃ r, prngReg c r) ∗ Pipeline.scopedRest (Ix := Unit) (Name := ℕ) (U := UR sig nD τ) (Lvl := ℕ) (Val := Elt F) (cfgs p).spec c) ⊢ (pdats m ρ p c).Φ 0)
    (hout : ∀ c, (pdats m ρ p c).Φ (Fin.last _) ⊢ iprop((∃ r, prngReg c r) ∗ Pipeline.scopedRest (Ix := Unit) (Name := ℕ) (U := UR sig nD τ) (Lvl := ℕ) (Val := Elt F) (cfgs p).spec c)) :
    Pipeline.RegionSeg (pcfgs (F := F)) adm (pdats m ρ) () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Pipeline.withArrays (cfgs p).spec c (Wi c) fun w => (pdats m ρ p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs (p := p) (pcfgs (F := F)) adm (pdats m ρ) kit.win kit.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c]
      icases HO with ⟨%W, HO⟩; iexists W; isplitr; · ipureintro; exact fun _ _ => Or.inl (by rw [hrec c]; exact Set.mem_univ _)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    iintro H
    ihave H2 := (hout c) $$ H
    icases H2 with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c (pdats m ρ) ((pdats m ρ p c).share_full (hq c))
      (fun b => Wi c b) (fun b => (Pipeline.withArrays (cfgs p).spec c (Wi c) fun w => (pdats m ρ p c).arrAt w (cfgs p).N) b) ((pdats m ρ p c).arrAt · (cfgs p).N)
      (fun w => (Pipeline.withArrays_arr (cfgs p).spec kit.win.arr_inj c (Wi c) (fun w => (pdats m ρ p c).arrAt w (cfgs p).N) w).symm)
      (fun b hb => Pipeline.withArrays_of_ne (cfgs p).spec c (Wi c) (fun w => (pdats m ρ p c).arrAt w (cfgs p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (body_obligation0 (V1 m ρ)) (fun _ _ => rfl) (fun _ _ => rfl) (fun _ _ => rfl) (fun _ _ => rfl)
    (fun c => ΦA_in _ c) (fun c => ΦA_out _ c)

set_option backward.isDefEq.respectTransparency.types false in
def reg1 : Pipeline.RegionSeg (pcfgs (F := F)) adm (pdats m ρ) () defs₀ 𝒱₀ L lv 1 :=
  regOf m ρ 1 launch1 (W2 m ρ) (body_obligation1 (V2 m ρ)) (fun _ _ => rfl) (fun _ _ => rfl) (fun _ _ => rfl) (fun _ _ => rfl)
    (fun c => ΦA_in _ c) (fun c => ΦA_out _ c)

set_option backward.isDefEq.respectTransparency.types false in
def reg2 : Pipeline.RegionSeg (pcfgs (F := F)) adm (pdats m ρ) () defs₀ 𝒱₀ L lv 2 :=
  regOf m ρ 2 launch2 (W3 m ρ) (body_obligation2 (V3 m ρ)) (fun _ _ => rfl) (fun _ _ => rfl) (fun _ _ => rfl) (fun _ _ => rfl)
    (fun c => ΦA_in _ c) (fun c => ΦA_out _ c)

set_option backward.isDefEq.respectTransparency.types false in
def reg3 : Pipeline.RegionSeg (pcfgs (F := F)) adm (pdats m ρ) () defs₀ 𝒱₀ L lv 3 :=
  regOf m ρ 3 launch3 (W5 m ρ) (body_obligation3 (V5 m ρ)) (fun _ _ => rfl) (fun _ _ => rfl) (fun _ _ => rfl) (fun _ _ => rfl)
    (fun c => ΦA_in _ c) (fun c => ΦA_out _ c)

set_option backward.isDefEq.respectTransparency.types false in
def reg4 : Pipeline.RegionSeg (pcfgs (F := F)) adm (pdats m ρ) () defs₀ 𝒱₀ L lv 4 :=
  regOf m ρ 4 launch4 (W7 m ρ) (body_obligation4 (V7 m ρ)) (fun _ _ => rfl) (fun _ _ => rfl) (fun _ _ => rfl) (fun _ _ => rfl)
    (fun c => ΦA_in _ c) (fun c => ΦA_out _ c)

set_option backward.isDefEq.respectTransparency.types false in
def reg5 : Pipeline.RegionSeg (pcfgs (F := F)) adm (pdats m ρ) () defs₀ 𝒱₀ L lv 5 :=
  regOf m ρ 5 launch5 (W9 m ρ) (body_obligation5 (V9 m ρ)) (fun _ _ => rfl) (fun _ _ => rfl) (fun _ _ => rfl) (fun _ _ => rfl)
    (fun c => ΦA_in _ c) (fun c => ΦA_out _ c)

set_option backward.isDefEq.respectTransparency.types false in
def reg6 : Pipeline.RegionSeg (pcfgs (F := F)) adm (pdats m ρ) () defs₀ 𝒱₀ L lv 6 :=
  regOf m ρ 6 launch6 (W11 m ρ) (body_obligation6 (V11 m ρ)) (fun _ _ => rfl) (fun _ _ => rfl) (fun _ _ => rfl) (fun _ _ => rfl)
    (fun c => ΦA_in _ c) (fun c => ΦA_out _ c)

set_option backward.isDefEq.respectTransparency.types false in
def reg7 : Pipeline.RegionSeg (pcfgs (F := F)) adm (pdats m ρ) () defs₀ 𝒱₀ L lv 7 :=
  regOf m ρ 7 launch7 (W13 m ρ) (body_obligation7 (V13 m ρ)) (fun _ _ => rfl) (fun _ _ => rfl) (fun _ _ => rfl) (fun _ _ => rfl)
    (fun c => ΦA_in _ c) (fun c => ΦA_out _ c)

set_option backward.isDefEq.respectTransparency.types false in
def reg8 : Pipeline.RegionSeg (pcfgs (F := F)) adm (pdats m ρ) () defs₀ 𝒱₀ L lv 8 :=
  regOf m ρ 8 launch8 (W15 m ρ) (body_obligation8 (V15 m ρ)) (fun _ _ => rfl) (fun _ _ => rfl) (fun _ _ => rfl) (fun _ _ => rfl)
    (fun c => ΦA_in _ c) (fun c => ΦA_out _ c)

set_option backward.isDefEq.respectTransparency.types false in
def reg9 : Pipeline.RegionSeg (pcfgs (F := F)) adm (pdats m ρ) () defs₀ 𝒱₀ L lv 9 :=
  regOf m ρ 9 launch9 (W17 m ρ) (body_obligation9 (V17 m ρ)) (fun _ _ => rfl) (fun _ _ => rfl) (fun _ _ => rfl) (fun _ _ => rfl)
    (fun c => ΦA_in _ c) (fun c => ΦA_out _ c)

set_option backward.isDefEq.respectTransparency.types false in
def reg10 : Pipeline.RegionSeg (pcfgs (F := F)) adm (pdats m ρ) () defs₀ 𝒱₀ L lv 10 :=
  regOf m ρ 10 launch10 (W18 m ρ) (body_obligation10 (V18 m ρ)) (fun _ _ => rfl) (fun _ _ => rfl) (fun _ _ => rfl) (fun _ _ => rfl)
    (fun c => ΦA_in _ c) (fun c => ΦA_out _ c)

set_option backward.isDefEq.respectTransparency.types false in
def reg11 : Pipeline.RegionSeg (pcfgs (F := F)) adm (pdats m ρ) () defs₀ 𝒱₀ L lv 11 :=
  regOf m ρ 11 launch11 (W20 m ρ) (body_obligation11 (V20 m ρ)) (fun _ _ => rfl) (fun _ _ => rfl) (fun _ _ => rfl) (fun _ _ => rfl)
    (hin11 (V20 m ρ)) (hout11 (V20 m ρ))

set_option backward.isDefEq.respectTransparency.types false in
def reg12 : Pipeline.RegionSeg (pcfgs (F := F)) adm (pdats m ρ) () defs₀ 𝒱₀ L lv 12 :=
  regOf m ρ 12 launch12 (W22 m ρ) (body_obligation12 (V22 m ρ)) (fun _ _ => rfl) (fun _ _ => rfl) (fun _ _ => rfl) (fun _ _ => rfl)
    (fun c => ΦA_in _ c) (fun c => ΦA_out _ c)

set_option backward.isDefEq.respectTransparency.types false in
def reg13 : Pipeline.RegionSeg (pcfgs (F := F)) adm (pdats m ρ) () defs₀ 𝒱₀ L lv 13 :=
  regOf m ρ 13 launch13 (W24 m ρ) (body_obligation13 (V24 m ρ)) (fun _ _ => rfl) (fun _ _ => rfl) (fun _ _ => rfl) (fun _ _ => rfl)
    (fun c => ΦA_in _ c) (fun c => ΦA_out _ c)

set_option backward.isDefEq.respectTransparency.types false in
def reg14 : Pipeline.RegionSeg (pcfgs (F := F)) adm (pdats m ρ) () defs₀ 𝒱₀ L lv 14 :=
  regOf m ρ 14 launch14 (W26 m ρ) (body_obligation14 (V26 m ρ)) (fun _ _ => rfl) (fun _ _ => rfl) (fun _ _ => rfl) (fun _ _ => rfl)
    (fun c => ΦA_in _ c) (fun c => ΦA_out _ c)

set_option backward.isDefEq.respectTransparency.types false in
def reg15 : Pipeline.RegionSeg (pcfgs (F := F)) adm (pdats m ρ) () defs₀ 𝒱₀ L lv 15 :=
  regOf m ρ 15 launch15 (W28 m ρ) (body_obligation15 (V28 m ρ)) (fun _ _ => rfl) (fun _ _ => rfl) (fun _ _ => rfl) (fun _ _ => rfl)
    (fun c => ΦA_in _ c) (fun c => ΦA_out _ c)

set_option backward.isDefEq.respectTransparency.types false in
def reg16 : Pipeline.RegionSeg (pcfgs (F := F)) adm (pdats m ρ) () defs₀ 𝒱₀ L lv 16 :=
  regOf m ρ 16 launch16 (W30 m ρ) (body_obligation16 (V30 m ρ)) (fun _ _ => rfl) (fun _ _ => rfl) (fun _ _ => rfl) (fun _ _ => rfl)
    (fun c => ΦA_in _ c) (fun c => ΦA_out _ c)

theorem last_link (c : Dev nD) :
    iprop(StableHlo.held (c : Thread nD τ) (Pipeline.ucRefs τ sig) (W31 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh] <;> iassumption
  iexact HO

abbrev segs : List (Pipeline.Seg (pcfgs (F := F)) adm (pdats m ρ) () defs₀ 𝒱₀ L lv) :=
  [
    .host (hseg hostOps0 hostOps0_sub hostOps0_fresh (W0 m ρ)),
    .region (reg0 m ρ),
    .region (reg1 m ρ),
    .region (reg2 m ρ),
    .host (hseg hostOps3 hostOps3_sub hostOps3_fresh (W4 m ρ)),
    .region (reg3 m ρ),
    .host (hseg hostOps4 hostOps4_sub hostOps4_fresh (W6 m ρ)),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .host (hseg hostOps9 hostOps9_sub hostOps9_fresh (W16 m ρ)),
    .region (reg9 m ρ),
    .region (reg10 m ρ),
    .host (hseg hostOps11 hostOps11_sub hostOps11_fresh (W19 m ρ)),
    .region (reg11 m ρ),
    .host (hseg hostOps12 hostOps12_sub hostOps12_fresh (W21 m ρ)),
    .region (reg12 m ρ),
    .host (hseg hostOps13 hostOps13_sub hostOps13_fresh (W23 m ρ)),
    .region (reg13 m ρ),
    .host (hseg hostOps14 hostOps14_sub hostOps14_fresh (W25 m ρ)),
    .region (reg14 m ρ),
    .host (hseg hostOps15 hostOps15_sub hostOps15_fresh (W27 m ρ)),
    .region (reg15 m ρ),
    .host (hseg hostOps16 hostOps16_sub hostOps16_fresh (W29 m ρ)),
    .region (reg16 m ρ) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = Wlast m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, last_link m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W31 m ρ c b)
    (hfin := fun c s' => by
      iintro ⟨⟨Hh, -⟩, HSI⟩
      unfold StableHlo.held
      imodintro
      iapply (pointsTo_read_all (Pipeline.ucRefs τ sig) (fun b => (((c : Thread nD τ)).1, b)) (W31 m ρ c) s')
      isplitl [Hh] <;> iassumption)
    (hQ := fun s h c b hb => h c _ (mem_uc b hb))

end Cert.KernelIdeal.Hand

end
-- ==== Proof.KI.Frame.lean ====
import proofs.«417009_j23742579212955_2_alg».proof.Defs
import proofs.«417009_j23742579212955_2_alg».proof.Proof.Gen.Pre_finite_inputs
import proofs.«417009_j23742579212955_2_alg».proof.Proof.KI.Chain

noncomputable section

namespace Cert.KernelIdeal.Hand

open Cert.KernelIdeal Cert.KernelIdeal.Gen
open Idealize.ShloMosaic Idealize.ShloMosaic.TcCoe Idealize.SL.Sem

theorem frame_pi : Cert.frame_KernelIdeal (hKernelIdeal := Cert.KernelIdeal.Gen.facts) (hPre_finite_inputs := Cert.Pre_finite_inputs.Gen.facts) :=
  fun m ρ _ => (θ_run _ _ _).mono (fun r h c => ⟨
    (h c main_arg0 (by decide)).trans (Wlast_arg m ρ c main_arg0 (by decide)),
    (h c main_arg1 (by decide)).trans (Wlast_arg m ρ c main_arg1 (by decide)),
    (h c main_arg2 (by decide)).trans (Wlast_arg m ρ c main_arg2 (by decide)),
    (h c main_arg3 (by decide)).trans (Wlast_arg m ρ c main_arg3 (by decide)),
    (h c main_arg4 (by decide)).trans (Wlast_arg m ρ c main_arg4 (by decide)),
    (h c main_arg5 (by decide)).trans (Wlast_arg m ρ c main_arg5 (by decide)),
    (h c main_arg6 (by decide)).trans (Wlast_arg m ρ c main_arg6 (by decide)),
    (h c main_arg7 (by decide)).trans (Wlast_arg m ρ c main_arg7 (by decide)),
    (h c main_arg8 (by decide)).trans (Wlast_arg m ρ c main_arg8 (by decide)),
    (h c main_arg9 (by decide)).trans (Wlast_arg m ρ c main_arg9 (by decide)),
    (h c main_arg10 (by decide)).trans (Wlast_arg m ρ c main_arg10 (by decide)),
    (h c main_arg11 (by decide)).trans (Wlast_arg m ρ c main_arg11 (by decide)),
    (h c main_arg12 (by decide)).trans (Wlast_arg m ρ c main_arg12 (by decide)),
    (h c main_arg13 (by decide)).trans (Wlast_arg m ρ c main_arg13 (by decide)),
    (h c main_arg14 (by decide)).trans (Wlast_arg m ρ c main_arg14 (by decide)),
    (h c main_arg15 (by decide)).trans (Wlast_arg m ρ c main_arg15 (by decide)),
    (h c main_arg16 (by decide)).trans (Wlast_arg m ρ c main_arg16 (by decide)),
    (h c main_arg17 (by decide)).trans (Wlast_arg m ρ c main_arg17 (by decide)),
    (h c main_arg18 (by decide)).trans (Wlast_arg m ρ c main_arg18 (by decide)),
    (h c main_arg19 (by decide)).trans (Wlast_arg m ρ c main_arg19 (by decide)),
    (h c main_arg20 (by decide)).trans (Wlast_arg m ρ c main_arg20 (by decide)),
    (h c main_arg21 (by decide)).trans (Wlast_arg m ρ c main_arg21 (by decide)),
    (h c main_arg22 (by decide)).trans (Wlast_arg m ρ c main_arg22 (by decide)),
    (h c main_arg23 (by decide)).trans (Wlast_arg m ρ c main_arg23 (by decide)),
    (h c main_arg24 (by decide)).trans (Wlast_arg m ρ c main_arg24 (by decide)),
    (h c main_arg25 (by decide)).trans (Wlast_arg m ρ c main_arg25 (by decide))⟩) (run_main (F := Ideal) m ρ)

end Cert.KernelIdeal.Hand

end
-- ==== Proof.Ref.Live.lean ====
/- Between two chunks of the reference's operation list: each argument's buffer at its launch contents, and each buffer written so far that a later
   operation (or the result) reads at its stage function of the arguments. -/
import proofs.«417009_j23742579212955_2_alg».proof.Proof.Ref.Read

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- What holds of the contents W at launch. -/
def Live0 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25

/-- What holds of the contents W after the first 1 chunk. -/
def Live1 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v10) = val_main_v10 (F := F) x0 x2 x3
  ∧ W (Proc.devRef .tc main_v20) = val_main_v20 (F := F) x0 x4 x5
  ∧ W (Proc.devRef .tc main_v30) = val_main_v30 (F := F) x0 x6 x7

/-- What holds of the contents W after the first 2 chunks. -/
def Live2 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v10) = val_main_v10 (F := F) x0 x2 x3
  ∧ W (Proc.devRef .tc main_v20) = val_main_v20 (F := F) x0 x4 x5
  ∧ W (Proc.devRef .tc main_v30) = val_main_v30 (F := F) x0 x6 x7
  ∧ W (Proc.devRef .tc main_v44) = val_main_v44 (F := F) x0 x2 x3 x10 x15 x16
  ∧ W (Proc.devRef .tc main_v45) = val_main_v45 (F := F) x10
  ∧ W (Proc.devRef .tc main_v47) = val_main_v47 (F := F) x16
  ∧ W (Proc.devRef .tc main_v48) = val_main_v48 (F := F)

/-- What holds of the contents W after the first 3 chunks. -/
def Live3 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v20) = val_main_v20 (F := F) x0 x4 x5
  ∧ W (Proc.devRef .tc main_v30) = val_main_v30 (F := F) x0 x6 x7
  ∧ W (Proc.devRef .tc main_v64) = val_main_v64 (F := F) x0 x2 x3 x10 x15 x16

/-- What holds of the contents W after the first 4 chunks. -/
def Live4 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v20) = val_main_v20 (F := F) x0 x4 x5
  ∧ W (Proc.devRef .tc main_v30) = val_main_v30 (F := F) x0 x6 x7
  ∧ W (Proc.devRef .tc main_v64) = val_main_v64 (F := F) x0 x2 x3 x10 x15 x16
  ∧ W (Proc.devRef .tc main_v91) = val_main_v91 (F := F) x0 x4 x5 x11 x12 x17 x18 x19 x20
  ∧ W (Proc.devRef .tc main_v92) = val_main_v92 (F := F) x12
  ∧ W (Proc.devRef .tc main_v97) = val_main_v97 (F := F) x20

/-- What holds of the contents W after the first 5 chunks. -/
def Live5 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v64) = val_main_v64 (F := F) x0 x2 x3 x10 x15 x16
  ∧ W (Proc.devRef .tc main_v124) = val_main_v124 (F := F) x0 x4 x5 x11 x12 x17 x18 x19 x20

/-- What holds of the contents W after the first 6 chunks. -/
def Live6 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v139) = val_main_v139 (F := F) x0 x2 x3 x4 x5 x10 x11 x12 x15 x16 x17 x18 x19 x20
  ∧ W (Proc.devRef .tc main_v145) = val_main_v145 (F := F) x0 x2 x3 x4 x5 x10 x11 x12 x15 x16 x17 x18 x19 x20

/-- What holds of the contents W after the first 7 chunks. -/
def Live7 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20

/-- What holds of the contents W after the first 8 chunks. -/
def Live8 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v189) = val_main_v189 (F := F) x0 x2 x3 x10 x13 x15 x16 x21 x22

/-- What holds of the contents W after the first 9 chunks. -/
def Live9 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v189) = val_main_v189 (F := F) x0 x2 x3 x10 x13 x15 x16 x21 x22
  ∧ W (Proc.devRef .tc main_v202) = val_main_v202 (F := F) x0 x4 x5 x11 x12 x13 x17 x18 x19 x20 x21 x22
  ∧ W (Proc.devRef .tc main_v215) = val_main_v215 (F := F) x0 x6 x7 x13 x21 x22
  ∧ W (Proc.devRef .tc main_v216) = val_main_v216 (F := F) x0 x2 x3 x4 x5 x10 x11 x12 x13 x15 x16 x17 x18 x19 x20 x21 x22
  ∧ W (Proc.devRef .tc main_v217) = val_main_v217 (F := F) x0 x2 x3 x6 x7 x10 x13 x15 x16 x21 x22
  ∧ W (Proc.devRef .tc main_v218) = val_main_v218 (F := F) x0 x4 x5 x6 x7 x11 x12 x13 x17 x18 x19 x20 x21 x22
  ∧ W (Proc.devRef .tc main_v220) = val_main_v220 (F := F) x0 x2 x3 x4 x5 x6 x7 x10 x11 x12 x13 x15 x16 x17 x18 x19 x20 x21 x22

/-- What holds of the contents W after the first 10 chunks. -/
def Live10 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v238) = val_main_v238 (F := F) x0 x1 x2 x3 x4 x5 x6 x7 x8 x9 x10 x11 x12 x13 x14 x15 x16 x17 x18 x19 x20 x21 x22 x24
  ∧ W (Proc.devRef .tc main_v239) = val_main_v239 (F := F)
  ∧ W (Proc.devRef .tc main_v240) = val_main_v240 (F := F) x23

/-- What holds of the contents W after the first 11 chunks. -/
def Live11 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v242) = val_main_v242 (F := F) x0 x1 x2 x3 x4 x5 x6 x7 x8 x9 x10 x11 x12 x13 x14 x15 x16 x17 x18 x19 x20 x21 x22 x23 x24
  ∧ W (Proc.devRef .tc main_v255) = val_main_v255 (F := F) x0 x2 x3 x10 x13 x15 x16 x21 x22
  ∧ W (Proc.devRef .tc main_v268) = val_main_v268 (F := F) x0 x4 x5 x11 x12 x13 x17 x18 x19 x20 x21 x22

/-- What holds of the contents W after the first 12 chunks. -/
def Live12 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v242) = val_main_v242 (F := F) x0 x1 x2 x3 x4 x5 x6 x7 x8 x9 x10 x11 x12 x13 x14 x15 x16 x17 x18 x19 x20 x21 x22 x23 x24
  ∧ W (Proc.devRef .tc main_v255) = val_main_v255 (F := F) x0 x2 x3 x10 x13 x15 x16 x21 x22
  ∧ W (Proc.devRef .tc main_v268) = val_main_v268 (F := F) x0 x4 x5 x11 x12 x13 x17 x18 x19 x20 x21 x22
  ∧ W (Proc.devRef .tc main_v281) = val_main_v281 (F := F) x0 x6 x7 x13 x21 x22
  ∧ W (Proc.devRef .tc main_v282) = val_main_v282 (F := F) x0 x2 x3 x4 x5 x10 x11 x12 x13 x15 x16 x17 x18 x19 x20 x21 x22
  ∧ W (Proc.devRef .tc main_v283) = val_main_v283 (F := F) x0 x2 x3 x6 x7 x10 x13 x15 x16 x21 x22
  ∧ W (Proc.devRef .tc main_v284) = val_main_v284 (F := F) x0 x4 x5 x6 x7 x11 x12 x13 x17 x18 x19 x20 x21 x22
  ∧ W (Proc.devRef .tc main_v286) = val_main_v286 (F := F) x0 x2 x3 x4 x5 x6 x7 x10 x11 x12 x13 x15 x16 x17 x18 x19 x20 x21 x22

/-- What holds of the contents W after the first 13 chunks. -/
def Live13 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v30) = val_main_v30 (F := F) x0 x6 x7
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v242) = val_main_v242 (F := F) x0 x1 x2 x3 x4 x5 x6 x7 x8 x9 x10 x11 x12 x13 x14 x15 x16 x17 x18 x19 x20 x21 x22 x23 x24
  ∧ W (Proc.devRef .tc main_v291) = val_main_v291 (F := F) x0 x2 x3 x4 x5 x6 x7 x8 x9 x10 x11 x12 x13 x15 x16 x17 x18 x19 x20 x21 x22

/-- What holds of the contents W after the first 14 chunks. -/
def Live14 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v129) = val_main_v129 (F := F) x0 x2 x3 x10 x15 x16
  ∧ W (Proc.devRef .tc main_v134) = val_main_v134 (F := F) x0 x4 x5 x11 x12 x17 x18 x19 x20
  ∧ W (Proc.devRef .tc main_v176) = val_main_v176 (F := F) x0 x2 x3 x4 x5 x10 x11 x12 x15 x16 x17 x18 x19 x20
  ∧ W (Proc.devRef .tc main_v314) = val_main_v314 (F := F) x0 x1 x2 x3 x4 x5 x6 x7 x8 x9 x10 x11 x12 x13 x14 x15 x16 x17 x18 x19 x20 x21 x22 x23 x24

/-- What holds of the contents W after the first 15 chunks. -/
def Live15 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v176) = val_main_v176 (F := F) x0 x2 x3 x4 x5 x10 x11 x12 x15 x16 x17 x18 x19 x20
  ∧ W (Proc.devRef .tc main_v321) = val_main_v321 (F := F) x0 x1 x2 x3 x4 x5 x6 x7 x8 x9 x10 x11 x12 x13 x14 x15 x16 x17 x18 x19 x20 x21 x22 x23 x24
  ∧ W (Proc.devRef .tc main_v334) = val_main_v334 (F := F) x0 x1 x2 x3 x4 x5 x6 x7 x8 x9 x10 x11 x12 x13 x14 x15 x16 x17 x18 x19 x20 x21 x22 x23 x24
  ∧ W (Proc.devRef .tc main_v340) = val_main_v340 (F := F) x25

/-- What holds of the contents W after the first 16 chunks. -/
def Live16 (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16
  ∧ W (Proc.devRef .tc main_arg17) = x17
  ∧ W (Proc.devRef .tc main_arg18) = x18
  ∧ W (Proc.devRef .tc main_arg19) = x19
  ∧ W (Proc.devRef .tc main_arg20) = x20
  ∧ W (Proc.devRef .tc main_arg21) = x21
  ∧ W (Proc.devRef .tc main_arg22) = x22
  ∧ W (Proc.devRef .tc main_arg23) = x23
  ∧ W (Proc.devRef .tc main_arg24) = x24
  ∧ W (Proc.devRef .tc main_arg25) = x25
  ∧ W (Proc.devRef .tc main_v176) = val_main_v176 (F := F) x0 x2 x3 x4 x5 x10 x11 x12 x15 x16 x17 x18 x19 x20
  ∧ W (Proc.devRef .tc main_v321) = val_main_v321 (F := F) x0 x1 x2 x3 x4 x5 x6 x7 x8 x9 x10 x11 x12 x13 x14 x15 x16 x17 x18 x19 x20 x21 x22 x23 x24
  ∧ W (Proc.devRef .tc main_v346) = val_main_v346 (F := F) x0 x1 x2 x3 x4 x5 x6 x7 x8 x9 x10 x11 x12 x13 x14 x15 x16 x17 x18 x19 x20 x21 x22 x23 x24 x25

end Cert.ReferenceIdeal.RefRun

end
-- ==== Proof.Ref.Step00.lean ====
/- Chunk c00 (operations 1 … 37): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step0_v10 (h : Live0 W x0 x1 x2 x3 x4 x5 x6 x7 x8 x9 x10 x11 x12 x13 x14 x15 x16 x17 x18 x19 x20 x21 x22 x23 x24 x25) :
    after c00 W (Proc.devRef .tc main_v10) = val_main_v10 (F := F) x0 x2 x3 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25⟩ := h
  simp only [c00]
  after_results_simp
  try simp only [h_arg3, h_arg2, h_arg0, TRef.ofBuf, TRef.toBuf, cast_eq]
  rfl
set_option maxRecDepth 8192 in
set_option maxHeartbeats 2000000 in
theorem step0_v20 (h : Live0 W x0 x1 x2 x3 x4 x5 x6 x7 x8 x9 x10 x11 x12 x13 x14 x15 x16 x17 x18 x19 x20 x21 x22 x23 x24 x25) :
    after c00 W (Proc.devRef .tc main_v20) = val_main_v20 (F := F) x0 x4 x5 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25⟩ := h
  simp only [c00]
  after_results_simp
  try simp only [h_arg5, h_arg4, h_arg0, TRef.ofBuf, TRef.toBuf, cast_eq]
  rfl
set_option maxRecDepth 8192 in
set_option maxHeartbeats 2000000 in
theorem step0_v30 (h : Live0 W x0 x1 x2 x3 x4 x5 x6 x7 x8 x9 x10 x11 x12 x13 x14 x15 x16 x17 x18 x19 x20 x21 x22 x23 x24 x25) :
    after c00 W (Proc.devRef .tc main_v30) = val_main_v30 (F := F) x0 x6 x7 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25⟩ := h
  simp only [c00]
  after_results_simp
  try simp only [h_arg7, h_arg6, h_arg0, TRef.ofBuf, TRef.toBuf, cast_eq]
  rfl

/-- The chunk's step. -/
theorem step0 (h : Live0 W x0 x1 x2 x3 x4 x5 x6 x7 x8 x9 x10 x11 x12 x13 x14 x15 x16 x17 x18 x19 x20 x21 x22 x23 x24 x25) : Live1 (after c00 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25⟩ := hh
  exact ⟨(c00_keep W main_arg0 (by decide)).trans h_arg0,
    (c00_keep W main_arg1 (by decide)).trans h_arg1,
    (c00_keep W main_arg2 (by decide)).trans h_arg2,
    (c00_keep W main_arg3 (by decide)).trans h_arg3,
    (c00_keep W main_arg4 (by decide)).trans h_arg4,
    (c00_keep W main_arg5 (by decide)).trans h_arg5,
    (c00_keep W main_arg6 (by decide)).trans h_arg6,
    (c00_keep W main_arg7 (by decide)).trans h_arg7,
    (c00_keep W main_arg8 (by decide)).trans h_arg8,
    (c00_keep W main_arg9 (by decide)).trans h_arg9,
    (c00_keep W main_arg10 (by decide)).trans h_arg10,
    (c00_keep W main_arg11 (by decide)).trans h_arg11,
    (c00_keep W main_arg12 (by decide)).trans h_arg12,
    (c00_keep W main_arg13 (by decide)).trans h_arg13,
    (c00_keep W main_arg14 (by decide)).trans h_arg14,
    (c00_keep W main_arg15 (by decide)).trans h_arg15,
    (c00_keep W main_arg16 (by decide)).trans h_arg16,
    (c00_keep W main_arg17 (by decide)).trans h_arg17,
    (c00_keep W main_arg18 (by decide)).trans h_arg18,
    (c00_keep W main_arg19 (by decide)).trans h_arg19,
    (c00_keep W main_arg20 (by decide)).trans h_arg20,
    (c00_keep W main_arg21 (by decide)).trans h_arg21,
    (c00_keep W main_arg22 (by decide)).trans h_arg22,
    (c00_keep W main_arg23 (by decide)).trans h_arg23,
    (c00_keep W main_arg24 (by decide)).trans h_arg24,
    (c00_keep W main_arg25 (by decide)).trans h_arg25,
    step0_v10 W x0 x1 x2 x3 x4 x5 x6 x7 x8 x9 x10 x11 x12 x13 x14 x15 x16 x17 x18 x19 x20 x21 x22 x23 x24 x25 h,
    step0_v20 W x0 x1 x2 x3 x4 x5 x6 x7 x8 x9 x10 x11 x12 x13 x14 x15 x16 x17 x18 x19 x20 x21 x22 x23 x24 x25 h,
    step0_v30 W x0 x1 x2 x3 x4 x5 x6 x7 x8 x9 x10 x11 x12 x13 x14 x15 x16 x17 x18 x19 x20 x21 x22 x23 x24 x25 h⟩

end Cert.ReferenceIdeal.RefRun

end
-- ==== Proof.Ref.Step01.lean ====
/- Chunk c01 (operations 38 … 60): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step1_v44 (h : Live1 W x0 x1 x2 x3 x4 x5 x6 x7 x8 x9 x10 x11 x12 x13 x14 x15 x16 x17 x18 x19 x20 x21 x22 x23 x24 x25) :
    after c01 W (Proc.devRef .tc main_v44) = val_main_v44 (F := F) x0 x2 x3 x10 x15 x16 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30⟩ := h
  simp only [c01]
  after_results_simp
  try simp only [h_v10, h_arg16, h_arg10, h_arg15, TRef.ofBuf, TRef.toBuf, cast_eq]
  rfl
set_option maxRecDepth 8192 in
set_option maxHeartbeats 2000000 in
theorem step1_v45 (h : Live1 W x0 x1 x2 x3 x4 x5 x6 x7 x8 x9 x10 x11 x12 x13 x14 x15 x16 x17 x18 x19 x20 x21 x22 x23 x24 x25) :
    after c01 W (Proc.devRef .tc main_v45) = val_main_v45 (F := F) x10 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30⟩ := h
  simp only [c01]
  after_results_simp
  try simp only [h_arg10, TRef.ofBuf, TRef.toBuf, cast_eq]
  rfl
set_option maxRecDepth 8192 in
set_option maxHeartbeats 2000000 in
theorem step1_v47 (h : Live1 W x0 x1 x2 x3 x4 x5 x6 x7 x8 x9 x10 x11 x12 x13 x14 x15 x16 x17 x18 x19 x20 x21 x22 x23 x24 x25) :
    after c01 W (Proc.devRef .tc main_v47) = val_main_v47 (F := F) x16 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30⟩ := h
  simp only [c01]
  after_results_simp
  try simp only [h_arg16, TRef.ofBuf, TRef.toBuf, cast_eq]
  rfl
set_option maxRecDepth 8192 in
set_option maxHeartbeats 2000000 in
theorem step1_v48 (h : Live1 W x0 x1 x2 x3 x4 x5 x6 x7 x8 x9 x10 x11 x12 x13 x14 x15 x16 x17 x18 x19 x20 x21 x22 x23 x24 x25) :
    after c01 W (Proc.devRef .tc main_v48) = val_main_v48 (F := F) := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30⟩ := h
  simp only [c01]
  after_results_simp
  try simp only [TRef.ofBuf, TRef.toBuf, cast_eq]
  rfl

/-- The chunk's step. -/
theorem step1 (h : Live1 W x0 x1 x2 x3 x4 x5 x6 x7 x8 x9 x10 x11 x12 x13 x14 x15 x16 x17 x18 x19 x20 x21 x22 x23 x24 x25) : Live2 (after c01 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30⟩ := hh
  exact ⟨(c01_keep W main_arg0 (by decide)).trans h_arg0,
    (c01_keep W main_arg1 (by decide)).trans h_arg1,
    (c01_keep W main_arg2 (by decide)).trans h_arg2,
    (c01_keep W main_arg3 (by decide)).trans h_arg3,
    (c01_keep W main_arg4 (by decide)).trans h_arg4,
    (c01_keep W main_arg5 (by decide)).trans h_arg5,
    (c01_keep W main_arg6 (by decide)).trans h_arg6,
    (c01_keep W main_arg7 (by decide)).trans h_arg7,
    (c01_keep W main_arg8 (by decide)).trans h_arg8,
    (c01_keep W main_arg9 (by decide)).trans h_arg9,
    (c01_keep W main_arg10 (by decide)).trans h_arg10,
    (c01_keep W main_arg11 (by decide)).trans h_arg11,
    (c01_keep W main_arg12 (by decide)).trans h_arg12,
    (c01_keep W main_arg13 (by decide)).trans h_arg13,
    (c01_keep W main_arg14 (by decide)).trans h_arg14,
    (c01_keep W main_arg15 (by decide)).trans h_arg15,
    (c01_keep W main_arg16 (by decide)).trans h_arg16,
    (c01_keep W main_arg17 (by decide)).trans h_arg17,
    (c01_keep W main_arg18 (by decide)).trans h_arg18,
    (c01_keep W main_arg19 (by decide)).trans h_arg19,
    (c01_keep W main_arg20 (by decide)).trans h_arg20,
    (c01_keep W main_arg21 (by decide)).trans h_arg21,
    (c01_keep W main_arg22 (by decide)).trans h_arg22,
    (c01_keep W main_arg23 (by decide)).trans h_arg23,
    (c01_keep W main_arg24 (by decide)).trans h_arg24,
    (c01_keep W main_arg25 (by decide)).trans h_arg25,
    (c01_keep W main_v10 (by decide)).trans h_v10,
    (c01_keep W main_v20 (by decide)).trans h_v20,
    (c01_keep W main_v30 (by decide)).trans h_v30,
    step1_v44 W x0 x1 x2 x3 x4 x5 x6 x7 x8 x9 x10 x11 x12 x13 x14 x15 x16 x17 x18 x19 x20 x21 x22 x23 x24 x25 h,
    step1_v45 W x0 x1 x2 x3 x4 x5 x6 x7 x8 x9 x10 x11 x12 x13 x14 x15 x16 x17 x18 x19 x20 x21 x22 x23 x24 x25 h,
    step1_v47 W x0 x1 x2 x3 x4 x5 x6 x7 x8 x9 x10 x11 x12 x13 x14 x15 x16 x17 x18 x19 x20 x21 x22 x23 x24 x25 h,
    step1_v48 W x0 x1 x2 x3 x4 x5 x6 x7 x8 x9 x10 x11 x12 x13 x14 x15 x16 x17 x18 x19 x20 x21 x22 x23 x24 x25 h⟩

end Cert.ReferenceIdeal.RefRun

end
-- ==== Proof.Ref.Step02.lean ====
/- Chunk c02 (operations 61 … 79): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 1900000 in
theorem step2_v64 (h : Live2 W x0 x1 x2 x3 x4 x5 x6 x7 x8 x9 x10 x11 x12 x13 x14 x15 x16 x17 x18 x19 x20 x21 x22 x23 x24 x25) :
    after c02 W (Proc.devRef .tc main_v64) = val_main_v64 (F := F) x0 x2 x3 x10 x15 x16 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30, h_v44, h_v45, h_v47, h_v48⟩ := h
  simp only [c02]
  after_results_simp
  try simp only [h_v44, h_arg16, h_v48, h_v47, h_v45, h_arg15, h_v10, TRef.ofBuf, TRef.toBuf, cast_eq]
  rfl

/-- The chunk's step. -/
theorem step2 (h : Live2 W x0 x1 x2 x3 x4 x5 x6 x7 x8 x9 x10 x11 x12 x13 x14 x15 x16 x17 x18 x19 x20 x21 x22 x23 x24 x25) : Live3 (after c02 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v10, h_v20, h_v30, h_v44, h_v45, h_v47, h_v48⟩ := hh
  exact ⟨(c02_keep W main_arg0 (by decide)).trans h_arg0,
    (c02_keep W main_arg1 (by decide)).trans h_arg1,
    (c02_keep W main_arg2 (by decide)).trans h_arg2,
    (c02_keep W main_arg3 (by decide)).trans h_arg3,
    (c02_keep W main_arg4 (by decide)).trans h_arg4,
    (c02_keep W main_arg5 (by decide)).trans h_arg5,
    (c02_keep W main_arg6 (by decide)).trans h_arg6,
    (c02_keep W main_arg7 (by decide)).trans h_arg7,
    (c02_keep W main_arg8 (by decide)).trans h_arg8,
    (c02_keep W main_arg9 (by decide)).trans h_arg9,
    (c02_keep W main_arg10 (by decide)).trans h_arg10,
    (c02_keep W main_arg11 (by decide)).trans h_arg11,
    (c02_keep W main_arg12 (by decide)).trans h_arg12,
    (c02_keep W main_arg13 (by decide)).trans h_arg13,
    (c02_keep W main_arg14 (by decide)).trans h_arg14,
    (c02_keep W main_arg15 (by decide)).trans h_arg15,
    (c02_keep W main_arg16 (by decide)).trans h_arg16,
    (c02_keep W main_arg17 (by decide)).trans h_arg17,
    (c02_keep W main_arg18 (by decide)).trans h_arg18,
    (c02_keep W main_arg19 (by decide)).trans h_arg19,
    (c02_keep W main_arg20 (by decide)).trans h_arg20,
    (c02_keep W main_arg21 (by decide)).trans h_arg21,
    (c02_keep W main_arg22 (by decide)).trans h_arg22,
    (c02_keep W main_arg23 (by decide)).trans h_arg23,
    (c02_keep W main_arg24 (by decide)).trans h_arg24,
    (c02_keep W main_arg25 (by decide)).trans h_arg25,
    (c02_keep W main_v20 (by decide)).trans h_v20,
    (c02_keep W main_v30 (by decide)).trans h_v30,
    step2_v64 W x0 x1 x2 x3 x4 x5 x6 x7 x8 x9 x10 x11 x12 x13 x14 x15 x16 x17 x18 x19 x20 x21 x22 x23 x24 x25 h⟩

end Cert.ReferenceIdeal.RefRun

end
-- ==== Proof.Ref.Step03.lean ====
/- Chunk c03 (operations 80 … 120): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step3_v91 (h : Live3 W x0 x1 x2 x3 x4 x5 x6 x7 x8 x9 x10 x11 x12 x13 x14 x15 x16 x17 x18 x19 x20 x21 x22 x23 x24 x25) :
    after c03 W (Proc.devRef .tc main_v91) = val_main_v91 (F := F) x0 x4 x5 x11 x12 x17 x18 x19 x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v20, h_v30, h_v64⟩ := h
  simp only [c03]
  after_results_simp
  try simp only [h_v20, h_arg18, h_arg20, h_arg12, h_arg19, h_arg11, h_arg17, TRef.ofBuf, TRef.toBuf, cast_eq]
  rfl
set_option maxRecDepth 8192 in
set_option maxHeartbeats 2000000 in
theorem step3_v92 (h : Live3 W x0 x1 x2 x3 x4 x5 x6 x7 x8 x9 x10 x11 x12 x13 x14 x15 x16 x17 x18 x19 x20 x21 x22 x23 x24 x25) :
    after c03 W (Proc.devRef .tc main_v92) = val_main_v92 (F := F) x12 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v20, h_v30, h_v64⟩ := h
  simp only [c03]
  after_results_simp
  try simp only [h_arg12, TRef.ofBuf, TRef.toBuf, cast_eq]
  rfl
set_option maxRecDepth 8192 in
set_option maxHeartbeats 2000000 in
theorem step3_v97 (h : Live3 W x0 x1 x2 x3 x4 x5 x6 x7 x8 x9 x10 x11 x12 x13 x14 x15 x16 x17 x18 x19 x20 x21 x22 x23 x24 x25) :
    after c03 W (Proc.devRef .tc main_v97) = val_main_v97 (F := F) x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v20, h_v30, h_v64⟩ := h
  simp only [c03]
  after_results_simp
  try simp only [h_arg20, TRef.ofBuf, TRef.toBuf, cast_eq]
  rfl

/-- The chunk's step. -/
theorem step3 (h : Live3 W x0 x1 x2 x3 x4 x5 x6 x7 x8 x9 x10 x11 x12 x13 x14 x15 x16 x17 x18 x19 x20 x21 x22 x23 x24 x25) : Live4 (after c03 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v20, h_v30, h_v64⟩ := hh
  exact ⟨(c03_keep W main_arg0 (by decide)).trans h_arg0,
    (c03_keep W main_arg1 (by decide)).trans h_arg1,
    (c03_keep W main_arg2 (by decide)).trans h_arg2,
    (c03_keep W main_arg3 (by decide)).trans h_arg3,
    (c03_keep W main_arg4 (by decide)).trans h_arg4,
    (c03_keep W main_arg5 (by decide)).trans h_arg5,
    (c03_keep W main_arg6 (by decide)).trans h_arg6,
    (c03_keep W main_arg7 (by decide)).trans h_arg7,
    (c03_keep W main_arg8 (by decide)).trans h_arg8,
    (c03_keep W main_arg9 (by decide)).trans h_arg9,
    (c03_keep W main_arg10 (by decide)).trans h_arg10,
    (c03_keep W main_arg11 (by decide)).trans h_arg11,
    (c03_keep W main_arg12 (by decide)).trans h_arg12,
    (c03_keep W main_arg13 (by decide)).trans h_arg13,
    (c03_keep W main_arg14 (by decide)).trans h_arg14,
    (c03_keep W main_arg15 (by decide)).trans h_arg15,
    (c03_keep W main_arg16 (by decide)).trans h_arg16,
    (c03_keep W main_arg17 (by decide)).trans h_arg17,
    (c03_keep W main_arg18 (by decide)).trans h_arg18,
    (c03_keep W main_arg19 (by decide)).trans h_arg19,
    (c03_keep W main_arg20 (by decide)).trans h_arg20,
    (c03_keep W main_arg21 (by decide)).trans h_arg21,
    (c03_keep W main_arg22 (by decide)).trans h_arg22,
    (c03_keep W main_arg23 (by decide)).trans h_arg23,
    (c03_keep W main_arg24 (by decide)).trans h_arg24,
    (c03_keep W main_arg25 (by decide)).trans h_arg25,
    (c03_keep W main_v20 (by decide)).trans h_v20,
    (c03_keep W main_v30 (by decide)).trans h_v30,
    (c03_keep W main_v64 (by decide)).trans h_v64,
    step3_v91 W x0 x1 x2 x3 x4 x5 x6 x7 x8 x9 x10 x11 x12 x13 x14 x15 x16 x17 x18 x19 x20 x21 x22 x23 x24 x25 h,
    step3_v92 W x0 x1 x2 x3 x4 x5 x6 x7 x8 x9 x10 x11 x12 x13 x14 x15 x16 x17 x18 x19 x20 x21 x22 x23 x24 x25 h,
    step3_v97 W x0 x1 x2 x3 x4 x5 x6 x7 x8 x9 x10 x11 x12 x13 x14 x15 x16 x17 x18 x19 x20 x21 x22 x23 x24 x25 h⟩

end Cert.ReferenceIdeal.RefRun

end
-- ==== Proof.Ref.Step04.lean ====
/- Chunk c04 (operations 121 … 153): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step4_v124 (h : Live4 W x0 x1 x2 x3 x4 x5 x6 x7 x8 x9 x10 x11 x12 x13 x14 x15 x16 x17 x18 x19 x20 x21 x22 x23 x24 x25) :
    after c04 W (Proc.devRef .tc main_v124) = val_main_v124 (F := F) x0 x4 x5 x11 x12 x17 x18 x19 x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v20, h_v30, h_v64, h_v91, h_v92, h_v97⟩ := h
  simp only [c04]
  after_results_simp
  try simp only [h_v91, h_arg18, h_v97, h_v92, h_arg19, h_arg11, h_arg17, h_v20, TRef.ofBuf, TRef.toBuf, cast_eq]
  rfl

/-- The chunk's step. -/
theorem step4 (h : Live4 W x0 x1 x2 x3 x4 x5 x6 x7 x8 x9 x10 x11 x12 x13 x14 x15 x16 x17 x18 x19 x20 x21 x22 x23 x24 x25) : Live5 (after c04 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v20, h_v30, h_v64, h_v91, h_v92, h_v97⟩ := hh
  exact ⟨(c04_keep W main_arg0 (by decide)).trans h_arg0,
    (c04_keep W main_arg1 (by decide)).trans h_arg1,
    (c04_keep W main_arg2 (by decide)).trans h_arg2,
    (c04_keep W main_arg3 (by decide)).trans h_arg3,
    (c04_keep W main_arg4 (by decide)).trans h_arg4,
    (c04_keep W main_arg5 (by decide)).trans h_arg5,
    (c04_keep W main_arg6 (by decide)).trans h_arg6,
    (c04_keep W main_arg7 (by decide)).trans h_arg7,
    (c04_keep W main_arg8 (by decide)).trans h_arg8,
    (c04_keep W main_arg9 (by decide)).trans h_arg9,
    (c04_keep W main_arg10 (by decide)).trans h_arg10,
    (c04_keep W main_arg11 (by decide)).trans h_arg11,
    (c04_keep W main_arg12 (by decide)).trans h_arg12,
    (c04_keep W main_arg13 (by decide)).trans h_arg13,
    (c04_keep W main_arg14 (by decide)).trans h_arg14,
    (c04_keep W main_arg15 (by decide)).trans h_arg15,
    (c04_keep W main_arg16 (by decide)).trans h_arg16,
    (c04_keep W main_arg17 (by decide)).trans h_arg17,
    (c04_keep W main_arg18 (by decide)).trans h_arg18,
    (c04_keep W main_arg19 (by decide)).trans h_arg19,
    (c04_keep W main_arg20 (by decide)).trans h_arg20,
    (c04_keep W main_arg21 (by decide)).trans h_arg21,
    (c04_keep W main_arg22 (by decide)).trans h_arg22,
    (c04_keep W main_arg23 (by decide)).trans h_arg23,
    (c04_keep W main_arg24 (by decide)).trans h_arg24,
    (c04_keep W main_arg25 (by decide)).trans h_arg25,
    (c04_keep W main_v30 (by decide)).trans h_v30,
    (c04_keep W main_v64 (by decide)).trans h_v64,
    step4_v124 W x0 x1 x2 x3 x4 x5 x6 x7 x8 x9 x10 x11 x12 x13 x14 x15 x16 x17 x18 x19 x20 x21 x22 x23 x24 x25 h⟩

end Cert.ReferenceIdeal.RefRun

end
-- ==== Proof.Ref.Step05.lean ====
/- Chunk c05 (operations 154 … 188): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step5_v129 (h : Live5 W x0 x1 x2 x3 x4 x5 x6 x7 x8 x9 x10 x11 x12 x13 x14 x15 x16 x17 x18 x19 x20 x21 x22 x23 x24 x25) :
    after c05 W (Proc.devRef .tc main_v129) = val_main_v129 (F := F) x0 x2 x3 x10 x15 x16 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v64, h_v124⟩ := h
  simp only [c05]
  after_results_simp
  try simp only [h_v64, TRef.ofBuf, TRef.toBuf, cast_eq]
  rfl
set_option maxRecDepth 8192 in
set_option maxHeartbeats 2000000 in
theorem step5_v134 (h : Live5 W x0 x1 x2 x3 x4 x5 x6 x7 x8 x9 x10 x11 x12 x13 x14 x15 x16 x17 x18 x19 x20 x21 x22 x23 x24 x25) :
    after c05 W (Proc.devRef .tc main_v134) = val_main_v134 (F := F) x0 x4 x5 x11 x12 x17 x18 x19 x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v64, h_v124⟩ := h
  simp only [c05]
  after_results_simp
  try simp only [h_v124, TRef.ofBuf, TRef.toBuf, cast_eq]
  rfl
set_option maxRecDepth 8192 in
set_option maxHeartbeats 2000000 in
theorem step5_v139 (h : Live5 W x0 x1 x2 x3 x4 x5 x6 x7 x8 x9 x10 x11 x12 x13 x14 x15 x16 x17 x18 x19 x20 x21 x22 x23 x24 x25) :
    after c05 W (Proc.devRef .tc main_v139) = val_main_v139 (F := F) x0 x2 x3 x4 x5 x10 x11 x12 x15 x16 x17 x18 x19 x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v64, h_v124⟩ := h
  simp only [c05]
  after_results_simp
  try simp only [h_v124, h_v64, TRef.ofBuf, TRef.toBuf, cast_eq]
  rfl
set_option maxRecDepth 8192 in
set_option maxHeartbeats 2000000 in
theorem step5_v145 (h : Live5 W x0 x1 x2 x3 x4 x5 x6 x7 x8 x9 x10 x11 x12 x13 x14 x15 x16 x17 x18 x19 x20 x21 x22 x23 x24 x25) :
    after c05 W (Proc.devRef .tc main_v145) = val_main_v145 (F := F) x0 x2 x3 x4 x5 x10 x11 x12 x15 x16 x17 x18 x19 x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v64, h_v124⟩ := h
  simp only [c05]
  after_results_simp
  try simp only [h_v124, h_v64, TRef.ofBuf, TRef.toBuf, cast_eq]
  rfl

/-- The chunk's step. -/
theorem step5 (h : Live5 W x0 x1 x2 x3 x4 x5 x6 x7 x8 x9 x10 x11 x12 x13 x14 x15 x16 x17 x18 x19 x20 x21 x22 x23 x24 x25) : Live6 (after c05 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v64, h_v124⟩ := hh
  exact ⟨(c05_keep W main_arg0 (by decide)).trans h_arg0,
    (c05_keep W main_arg1 (by decide)).trans h_arg1,
    (c05_keep W main_arg2 (by decide)).trans h_arg2,
    (c05_keep W main_arg3 (by decide)).trans h_arg3,
    (c05_keep W main_arg4 (by decide)).trans h_arg4,
    (c05_keep W main_arg5 (by decide)).trans h_arg5,
    (c05_keep W main_arg6 (by decide)).trans h_arg6,
    (c05_keep W main_arg7 (by decide)).trans h_arg7,
    (c05_keep W main_arg8 (by decide)).trans h_arg8,
    (c05_keep W main_arg9 (by decide)).trans h_arg9,
    (c05_keep W main_arg10 (by decide)).trans h_arg10,
    (c05_keep W main_arg11 (by decide)).trans h_arg11,
    (c05_keep W main_arg12 (by decide)).trans h_arg12,
    (c05_keep W main_arg13 (by decide)).trans h_arg13,
    (c05_keep W main_arg14 (by decide)).trans h_arg14,
    (c05_keep W main_arg15 (by decide)).trans h_arg15,
    (c05_keep W main_arg16 (by decide)).trans h_arg16,
    (c05_keep W main_arg17 (by decide)).trans h_arg17,
    (c05_keep W main_arg18 (by decide)).trans h_arg18,
    (c05_keep W main_arg19 (by decide)).trans h_arg19,
    (c05_keep W main_arg20 (by decide)).trans h_arg20,
    (c05_keep W main_arg21 (by decide)).trans h_arg21,
    (c05_keep W main_arg22 (by decide)).trans h_arg22,
    (c05_keep W main_arg23 (by decide)).trans h_arg23,
    (c05_keep W main_arg24 (by decide)).trans h_arg24,
    (c05_keep W main_arg25 (by decide)).trans h_arg25,
    (c05_keep W main_v30 (by decide)).trans h_v30,
    step5_v129 W x0 x1 x2 x3 x4 x5 x6 x7 x8 x9 x10 x11 x12 x13 x14 x15 x16 x17 x18 x19 x20 x21 x22 x23 x24 x25 h,
    step5_v134 W x0 x1 x2 x3 x4 x5 x6 x7 x8 x9 x10 x11 x12 x13 x14 x15 x16 x17 x18 x19 x20 x21 x22 x23 x24 x25 h,
    step5_v139 W x0 x1 x2 x3 x4 x5 x6 x7 x8 x9 x10 x11 x12 x13 x14 x15 x16 x17 x18 x19 x20 x21 x22 x23 x24 x25 h,
    step5_v145 W x0 x1 x2 x3 x4 x5 x6 x7 x8 x9 x10 x11 x12 x13 x14 x15 x16 x17 x18 x19 x20 x21 x22 x23 x24 x25 h⟩

end Cert.ReferenceIdeal.RefRun

end
-- ==== Proof.Ref.Step06.lean ====
/- Chunk c06 (operations 189 … 232): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step6_v176 (h : Live6 W x0 x1 x2 x3 x4 x5 x6 x7 x8 x9 x10 x11 x12 x13 x14 x15 x16 x17 x18 x19 x20 x21 x22 x23 x24 x25) :
    after c06 W (Proc.devRef .tc main_v176) = val_main_v176 (F := F) x0 x2 x3 x4 x5 x10 x11 x12 x15 x16 x17 x18 x19 x20 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v139, h_v145⟩ := h
  simp only [c06]
  after_results_simp
  try simp only [h_v129, h_v134, h_v145, h_v139, TRef.ofBuf, TRef.toBuf, cast_eq]
  rfl

/-- The chunk's step. -/
theorem step6 (h : Live6 W x0 x1 x2 x3 x4 x5 x6 x7 x8 x9 x10 x11 x12 x13 x14 x15 x16 x17 x18 x19 x20 x21 x22 x23 x24 x25) : Live7 (after c06 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v139, h_v145⟩ := hh
  exact ⟨(c06_keep W main_arg0 (by decide)).trans h_arg0,
    (c06_keep W main_arg1 (by decide)).trans h_arg1,
    (c06_keep W main_arg2 (by decide)).trans h_arg2,
    (c06_keep W main_arg3 (by decide)).trans h_arg3,
    (c06_keep W main_arg4 (by decide)).trans h_arg4,
    (c06_keep W main_arg5 (by decide)).trans h_arg5,
    (c06_keep W main_arg6 (by decide)).trans h_arg6,
    (c06_keep W main_arg7 (by decide)).trans h_arg7,
    (c06_keep W main_arg8 (by decide)).trans h_arg8,
    (c06_keep W main_arg9 (by decide)).trans h_arg9,
    (c06_keep W main_arg10 (by decide)).trans h_arg10,
    (c06_keep W main_arg11 (by decide)).trans h_arg11,
    (c06_keep W main_arg12 (by decide)).trans h_arg12,
    (c06_keep W main_arg13 (by decide)).trans h_arg13,
    (c06_keep W main_arg14 (by decide)).trans h_arg14,
    (c06_keep W main_arg15 (by decide)).trans h_arg15,
    (c06_keep W main_arg16 (by decide)).trans h_arg16,
    (c06_keep W main_arg17 (by decide)).trans h_arg17,
    (c06_keep W main_arg18 (by decide)).trans h_arg18,
    (c06_keep W main_arg19 (by decide)).trans h_arg19,
    (c06_keep W main_arg20 (by decide)).trans h_arg20,
    (c06_keep W main_arg21 (by decide)).trans h_arg21,
    (c06_keep W main_arg22 (by decide)).trans h_arg22,
    (c06_keep W main_arg23 (by decide)).trans h_arg23,
    (c06_keep W main_arg24 (by decide)).trans h_arg24,
    (c06_keep W main_arg25 (by decide)).trans h_arg25,
    (c06_keep W main_v30 (by decide)).trans h_v30,
    (c06_keep W main_v129 (by decide)).trans h_v129,
    (c06_keep W main_v134 (by decide)).trans h_v134,
    step6_v176 W x0 x1 x2 x3 x4 x5 x6 x7 x8 x9 x10 x11 x12 x13 x14 x15 x16 x17 x18 x19 x20 x21 x22 x23 x24 x25 h⟩

end Cert.ReferenceIdeal.RefRun

end
-- ==== Proof.Ref.Step07.lean ====
/- Chunk c07 (operations 233 … 248): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 1600000 in
theorem step7_v189 (h : Live7 W x0 x1 x2 x3 x4 x5 x6 x7 x8 x9 x10 x11 x12 x13 x14 x15 x16 x17 x18 x19 x20 x21 x22 x23 x24 x25) :
    after c07 W (Proc.devRef .tc main_v189) = val_main_v189 (F := F) x0 x2 x3 x10 x13 x15 x16 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176⟩ := h
  simp only [c07]
  after_results_simp
  try simp only [h_arg22, h_v129, h_arg13, h_arg21, TRef.ofBuf, TRef.toBuf, cast_eq]
  rfl

/-- The chunk's step. -/
theorem step7 (h : Live7 W x0 x1 x2 x3 x4 x5 x6 x7 x8 x9 x10 x11 x12 x13 x14 x15 x16 x17 x18 x19 x20 x21 x22 x23 x24 x25) : Live8 (after c07 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176⟩ := hh
  exact ⟨(c07_keep W main_arg0 (by decide)).trans h_arg0,
    (c07_keep W main_arg1 (by decide)).trans h_arg1,
    (c07_keep W main_arg2 (by decide)).trans h_arg2,
    (c07_keep W main_arg3 (by decide)).trans h_arg3,
    (c07_keep W main_arg4 (by decide)).trans h_arg4,
    (c07_keep W main_arg5 (by decide)).trans h_arg5,
    (c07_keep W main_arg6 (by decide)).trans h_arg6,
    (c07_keep W main_arg7 (by decide)).trans h_arg7,
    (c07_keep W main_arg8 (by decide)).trans h_arg8,
    (c07_keep W main_arg9 (by decide)).trans h_arg9,
    (c07_keep W main_arg10 (by decide)).trans h_arg10,
    (c07_keep W main_arg11 (by decide)).trans h_arg11,
    (c07_keep W main_arg12 (by decide)).trans h_arg12,
    (c07_keep W main_arg13 (by decide)).trans h_arg13,
    (c07_keep W main_arg14 (by decide)).trans h_arg14,
    (c07_keep W main_arg15 (by decide)).trans h_arg15,
    (c07_keep W main_arg16 (by decide)).trans h_arg16,
    (c07_keep W main_arg17 (by decide)).trans h_arg17,
    (c07_keep W main_arg18 (by decide)).trans h_arg18,
    (c07_keep W main_arg19 (by decide)).trans h_arg19,
    (c07_keep W main_arg20 (by decide)).trans h_arg20,
    (c07_keep W main_arg21 (by decide)).trans h_arg21,
    (c07_keep W main_arg22 (by decide)).trans h_arg22,
    (c07_keep W main_arg23 (by decide)).trans h_arg23,
    (c07_keep W main_arg24 (by decide)).trans h_arg24,
    (c07_keep W main_arg25 (by decide)).trans h_arg25,
    (c07_keep W main_v30 (by decide)).trans h_v30,
    (c07_keep W main_v129 (by decide)).trans h_v129,
    (c07_keep W main_v134 (by decide)).trans h_v134,
    (c07_keep W main_v176 (by decide)).trans h_v176,
    step7_v189 W x0 x1 x2 x3 x4 x5 x6 x7 x8 x9 x10 x11 x12 x13 x14 x15 x16 x17 x18 x19 x20 x21 x22 x23 x24 x25 h⟩

end Cert.ReferenceIdeal.RefRun

end
-- ==== Proof.Ref.Step08.lean ====
/- Chunk c08 (operations 249 … 285): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step8_v202 (h : Live8 W x0 x1 x2 x3 x4 x5 x6 x7 x8 x9 x10 x11 x12 x13 x14 x15 x16 x17 x18 x19 x20 x21 x22 x23 x24 x25) :
    after c08 W (Proc.devRef .tc main_v202) = val_main_v202 (F := F) x0 x4 x5 x11 x12 x13 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := h
  simp only [c08]
  after_results_simp
  try simp only [h_arg22, h_v134, h_arg13, h_arg21, TRef.ofBuf, TRef.toBuf, cast_eq]
  rfl
set_option maxRecDepth 8192 in
set_option maxHeartbeats 2000000 in
theorem step8_v215 (h : Live8 W x0 x1 x2 x3 x4 x5 x6 x7 x8 x9 x10 x11 x12 x13 x14 x15 x16 x17 x18 x19 x20 x21 x22 x23 x24 x25) :
    after c08 W (Proc.devRef .tc main_v215) = val_main_v215 (F := F) x0 x6 x7 x13 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := h
  simp only [c08]
  after_results_simp
  try simp only [h_arg22, h_v30, h_arg13, h_arg21, TRef.ofBuf, TRef.toBuf, cast_eq]
  rfl
set_option maxRecDepth 8192 in
set_option maxHeartbeats 2000000 in
theorem step8_v216 (h : Live8 W x0 x1 x2 x3 x4 x5 x6 x7 x8 x9 x10 x11 x12 x13 x14 x15 x16 x17 x18 x19 x20 x21 x22 x23 x24 x25) :
    after c08 W (Proc.devRef .tc main_v216) = val_main_v216 (F := F) x0 x2 x3 x4 x5 x10 x11 x12 x13 x15 x16 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := h
  simp only [c08]
  after_results_simp
  try simp only [h_arg22, h_v134, h_arg13, h_arg21, h_v189, TRef.ofBuf, TRef.toBuf, cast_eq]
  rfl
set_option maxRecDepth 8192 in
set_option maxHeartbeats 2000000 in
theorem step8_v217 (h : Live8 W x0 x1 x2 x3 x4 x5 x6 x7 x8 x9 x10 x11 x12 x13 x14 x15 x16 x17 x18 x19 x20 x21 x22 x23 x24 x25) :
    after c08 W (Proc.devRef .tc main_v217) = val_main_v217 (F := F) x0 x2 x3 x6 x7 x10 x13 x15 x16 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := h
  simp only [c08]
  after_results_simp
  try simp only [h_arg22, h_v30, h_arg13, h_arg21, h_v189, TRef.ofBuf, TRef.toBuf, cast_eq]
  rfl
set_option maxRecDepth 8192 in
set_option maxHeartbeats 2000000 in
theorem step8_v218 (h : Live8 W x0 x1 x2 x3 x4 x5 x6 x7 x8 x9 x10 x11 x12 x13 x14 x15 x16 x17 x18 x19 x20 x21 x22 x23 x24 x25) :
    after c08 W (Proc.devRef .tc main_v218) = val_main_v218 (F := F) x0 x4 x5 x6 x7 x11 x12 x13 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := h
  simp only [c08]
  after_results_simp
  try simp only [h_arg22, h_v30, h_arg13, h_arg21, h_v134, TRef.ofBuf, TRef.toBuf, cast_eq]
  rfl
set_option maxRecDepth 8192 in
set_option maxHeartbeats 2000000 in
theorem step8_v220 (h : Live8 W x0 x1 x2 x3 x4 x5 x6 x7 x8 x9 x10 x11 x12 x13 x14 x15 x16 x17 x18 x19 x20 x21 x22 x23 x24 x25) :
    after c08 W (Proc.devRef .tc main_v220) = val_main_v220 (F := F) x0 x2 x3 x4 x5 x6 x7 x10 x11 x12 x13 x15 x16 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := h
  simp only [c08]
  after_results_simp
  try simp only [h_arg22, h_v30, h_arg13, h_arg21, h_v134, h_v189, TRef.ofBuf, TRef.toBuf, cast_eq]
  rfl

/-- The chunk's step. -/
theorem step8 (h : Live8 W x0 x1 x2 x3 x4 x5 x6 x7 x8 x9 x10 x11 x12 x13 x14 x15 x16 x17 x18 x19 x20 x21 x22 x23 x24 x25) : Live9 (after c08 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189⟩ := hh
  exact ⟨(c08_keep W main_arg0 (by decide)).trans h_arg0,
    (c08_keep W main_arg1 (by decide)).trans h_arg1,
    (c08_keep W main_arg2 (by decide)).trans h_arg2,
    (c08_keep W main_arg3 (by decide)).trans h_arg3,
    (c08_keep W main_arg4 (by decide)).trans h_arg4,
    (c08_keep W main_arg5 (by decide)).trans h_arg5,
    (c08_keep W main_arg6 (by decide)).trans h_arg6,
    (c08_keep W main_arg7 (by decide)).trans h_arg7,
    (c08_keep W main_arg8 (by decide)).trans h_arg8,
    (c08_keep W main_arg9 (by decide)).trans h_arg9,
    (c08_keep W main_arg10 (by decide)).trans h_arg10,
    (c08_keep W main_arg11 (by decide)).trans h_arg11,
    (c08_keep W main_arg12 (by decide)).trans h_arg12,
    (c08_keep W main_arg13 (by decide)).trans h_arg13,
    (c08_keep W main_arg14 (by decide)).trans h_arg14,
    (c08_keep W main_arg15 (by decide)).trans h_arg15,
    (c08_keep W main_arg16 (by decide)).trans h_arg16,
    (c08_keep W main_arg17 (by decide)).trans h_arg17,
    (c08_keep W main_arg18 (by decide)).trans h_arg18,
    (c08_keep W main_arg19 (by decide)).trans h_arg19,
    (c08_keep W main_arg20 (by decide)).trans h_arg20,
    (c08_keep W main_arg21 (by decide)).trans h_arg21,
    (c08_keep W main_arg22 (by decide)).trans h_arg22,
    (c08_keep W main_arg23 (by decide)).trans h_arg23,
    (c08_keep W main_arg24 (by decide)).trans h_arg24,
    (c08_keep W main_arg25 (by decide)).trans h_arg25,
    (c08_keep W main_v30 (by decide)).trans h_v30,
    (c08_keep W main_v129 (by decide)).trans h_v129,
    (c08_keep W main_v134 (by decide)).trans h_v134,
    (c08_keep W main_v176 (by decide)).trans h_v176,
    (c08_keep W main_v189 (by decide)).trans h_v189,
    step8_v202 W x0 x1 x2 x3 x4 x5 x6 x7 x8 x9 x10 x11 x12 x13 x14 x15 x16 x17 x18 x19 x20 x21 x22 x23 x24 x25 h,
    step8_v215 W x0 x1 x2 x3 x4 x5 x6 x7 x8 x9 x10 x11 x12 x13 x14 x15 x16 x17 x18 x19 x20 x21 x22 x23 x24 x25 h,
    step8_v216 W x0 x1 x2 x3 x4 x5 x6 x7 x8 x9 x10 x11 x12 x13 x14 x15 x16 x17 x18 x19 x20 x21 x22 x23 x24 x25 h,
    step8_v217 W x0 x1 x2 x3 x4 x5 x6 x7 x8 x9 x10 x11 x12 x13 x14 x15 x16 x17 x18 x19 x20 x21 x22 x23 x24 x25 h,
    step8_v218 W x0 x1 x2 x3 x4 x5 x6 x7 x8 x9 x10 x11 x12 x13 x14 x15 x16 x17 x18 x19 x20 x21 x22 x23 x24 x25 h,
    step8_v220 W x0 x1 x2 x3 x4 x5 x6 x7 x8 x9 x10 x11 x12 x13 x14 x15 x16 x17 x18 x19 x20 x21 x22 x23 x24 x25 h⟩

end Cert.ReferenceIdeal.RefRun

end
-- ==== Proof.Ref.Step09.lean ====
/- Chunk c09 (operations 286 … 308): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step9_v238 (h : Live9 W x0 x1 x2 x3 x4 x5 x6 x7 x8 x9 x10 x11 x12 x13 x14 x15 x16 x17 x18 x19 x20 x21 x22 x23 x24 x25) :
    after c09 W (Proc.devRef .tc main_v238) = val_main_v238 (F := F) x0 x1 x2 x3 x4 x5 x6 x7 x8 x9 x10 x11 x12 x13 x14 x15 x16 x17 x18 x19 x20 x21 x22 x24 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189, h_v202, h_v215, h_v216, h_v217, h_v218, h_v220⟩ := h
  simp only [c09]
  after_results_simp
  dsimp only [Matrix.cons_val]
  rw [h_v189, h_v202, h_v215, h_v216, h_v217, h_v218, h_v220]
  try simp only [h_arg24, h_arg1, h_arg9, h_arg8, h_v220, h_v218, h_v217, h_v216, h_v215, h_v202, h_v189, h_arg14, TRef.ofBuf, TRef.toBuf, cast_eq]
  rfl
set_option maxRecDepth 8192 in
set_option maxHeartbeats 2000000 in
theorem step9_v239 (h : Live9 W x0 x1 x2 x3 x4 x5 x6 x7 x8 x9 x10 x11 x12 x13 x14 x15 x16 x17 x18 x19 x20 x21 x22 x23 x24 x25) :
    after c09 W (Proc.devRef .tc main_v239) = val_main_v239 (F := F) := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189, h_v202, h_v215, h_v216, h_v217, h_v218, h_v220⟩ := h
  simp only [c09]
  after_results_simp
  try simp only [TRef.ofBuf, TRef.toBuf, cast_eq]
  rfl
set_option maxRecDepth 8192 in
set_option maxHeartbeats 2000000 in
theorem step9_v240 (h : Live9 W x0 x1 x2 x3 x4 x5 x6 x7 x8 x9 x10 x11 x12 x13 x14 x15 x16 x17 x18 x19 x20 x21 x22 x23 x24 x25) :
    after c09 W (Proc.devRef .tc main_v240) = val_main_v240 (F := F) x23 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189, h_v202, h_v215, h_v216, h_v217, h_v218, h_v220⟩ := h
  simp only [c09]
  after_results_simp
  try simp only [h_arg23, TRef.ofBuf, TRef.toBuf, cast_eq]
  rfl

/-- The chunk's step. -/
theorem step9 (h : Live9 W x0 x1 x2 x3 x4 x5 x6 x7 x8 x9 x10 x11 x12 x13 x14 x15 x16 x17 x18 x19 x20 x21 x22 x23 x24 x25) : Live10 (after c09 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v189, h_v202, h_v215, h_v216, h_v217, h_v218, h_v220⟩ := hh
  exact ⟨(c09_keep W main_arg0 (by decide)).trans h_arg0,
    (c09_keep W main_arg1 (by decide)).trans h_arg1,
    (c09_keep W main_arg2 (by decide)).trans h_arg2,
    (c09_keep W main_arg3 (by decide)).trans h_arg3,
    (c09_keep W main_arg4 (by decide)).trans h_arg4,
    (c09_keep W main_arg5 (by decide)).trans h_arg5,
    (c09_keep W main_arg6 (by decide)).trans h_arg6,
    (c09_keep W main_arg7 (by decide)).trans h_arg7,
    (c09_keep W main_arg8 (by decide)).trans h_arg8,
    (c09_keep W main_arg9 (by decide)).trans h_arg9,
    (c09_keep W main_arg10 (by decide)).trans h_arg10,
    (c09_keep W main_arg11 (by decide)).trans h_arg11,
    (c09_keep W main_arg12 (by decide)).trans h_arg12,
    (c09_keep W main_arg13 (by decide)).trans h_arg13,
    (c09_keep W main_arg14 (by decide)).trans h_arg14,
    (c09_keep W main_arg15 (by decide)).trans h_arg15,
    (c09_keep W main_arg16 (by decide)).trans h_arg16,
    (c09_keep W main_arg17 (by decide)).trans h_arg17,
    (c09_keep W main_arg18 (by decide)).trans h_arg18,
    (c09_keep W main_arg19 (by decide)).trans h_arg19,
    (c09_keep W main_arg20 (by decide)).trans h_arg20,
    (c09_keep W main_arg21 (by decide)).trans h_arg21,
    (c09_keep W main_arg22 (by decide)).trans h_arg22,
    (c09_keep W main_arg23 (by decide)).trans h_arg23,
    (c09_keep W main_arg24 (by decide)).trans h_arg24,
    (c09_keep W main_arg25 (by decide)).trans h_arg25,
    (c09_keep W main_v30 (by decide)).trans h_v30,
    (c09_keep W main_v129 (by decide)).trans h_v129,
    (c09_keep W main_v134 (by decide)).trans h_v134,
    (c09_keep W main_v176 (by decide)).trans h_v176,
    step9_v238 W x0 x1 x2 x3 x4 x5 x6 x7 x8 x9 x10 x11 x12 x13 x14 x15 x16 x17 x18 x19 x20 x21 x22 x23 x24 x25 h,
    step9_v239 W x0 x1 x2 x3 x4 x5 x6 x7 x8 x9 x10 x11 x12 x13 x14 x15 x16 x17 x18 x19 x20 x21 x22 x23 x24 x25 h,
    step9_v240 W x0 x1 x2 x3 x4 x5 x6 x7 x8 x9 x10 x11 x12 x13 x14 x15 x16 x17 x18 x19 x20 x21 x22 x23 x24 x25 h⟩

end Cert.ReferenceIdeal.RefRun

end
-- ==== Proof.Ref.Step10.lean ====
/- Chunk c10 (operations 309 … 342): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step10_v242 (h : Live10 W x0 x1 x2 x3 x4 x5 x6 x7 x8 x9 x10 x11 x12 x13 x14 x15 x16 x17 x18 x19 x20 x21 x22 x23 x24 x25) :
    after c10 W (Proc.devRef .tc main_v242) = val_main_v242 (F := F) x0 x1 x2 x3 x4 x5 x6 x7 x8 x9 x10 x11 x12 x13 x14 x15 x16 x17 x18 x19 x20 x21 x22 x23 x24 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v238, h_v239, h_v240⟩ := h
  simp only [c10]
  after_results_simp
  try simp only [h_v30, h_v238, h_v240, h_v239, TRef.ofBuf, TRef.toBuf, cast_eq]
  rfl
set_option maxRecDepth 8192 in
set_option maxHeartbeats 2000000 in
theorem step10_v255 (h : Live10 W x0 x1 x2 x3 x4 x5 x6 x7 x8 x9 x10 x11 x12 x13 x14 x15 x16 x17 x18 x19 x20 x21 x22 x23 x24 x25) :
    after c10 W (Proc.devRef .tc main_v255) = val_main_v255 (F := F) x0 x2 x3 x10 x13 x15 x16 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v238, h_v239, h_v240⟩ := h
  simp only [c10]
  after_results_simp
  try simp only [h_arg22, h_v129, h_arg13, h_arg21, TRef.ofBuf, TRef.toBuf, cast_eq]
  rfl
set_option maxRecDepth 8192 in
set_option maxHeartbeats 2000000 in
theorem step10_v268 (h : Live10 W x0 x1 x2 x3 x4 x5 x6 x7 x8 x9 x10 x11 x12 x13 x14 x15 x16 x17 x18 x19 x20 x21 x22 x23 x24 x25) :
    after c10 W (Proc.devRef .tc main_v268) = val_main_v268 (F := F) x0 x4 x5 x11 x12 x13 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v238, h_v239, h_v240⟩ := h
  simp only [c10]
  after_results_simp
  try simp only [h_arg22, h_v134, h_arg13, h_arg21, TRef.ofBuf, TRef.toBuf, cast_eq]
  rfl

/-- The chunk's step. -/
theorem step10 (h : Live10 W x0 x1 x2 x3 x4 x5 x6 x7 x8 x9 x10 x11 x12 x13 x14 x15 x16 x17 x18 x19 x20 x21 x22 x23 x24 x25) : Live11 (after c10 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v238, h_v239, h_v240⟩ := hh
  exact ⟨(c10_keep W main_arg0 (by decide)).trans h_arg0,
    (c10_keep W main_arg1 (by decide)).trans h_arg1,
    (c10_keep W main_arg2 (by decide)).trans h_arg2,
    (c10_keep W main_arg3 (by decide)).trans h_arg3,
    (c10_keep W main_arg4 (by decide)).trans h_arg4,
    (c10_keep W main_arg5 (by decide)).trans h_arg5,
    (c10_keep W main_arg6 (by decide)).trans h_arg6,
    (c10_keep W main_arg7 (by decide)).trans h_arg7,
    (c10_keep W main_arg8 (by decide)).trans h_arg8,
    (c10_keep W main_arg9 (by decide)).trans h_arg9,
    (c10_keep W main_arg10 (by decide)).trans h_arg10,
    (c10_keep W main_arg11 (by decide)).trans h_arg11,
    (c10_keep W main_arg12 (by decide)).trans h_arg12,
    (c10_keep W main_arg13 (by decide)).trans h_arg13,
    (c10_keep W main_arg14 (by decide)).trans h_arg14,
    (c10_keep W main_arg15 (by decide)).trans h_arg15,
    (c10_keep W main_arg16 (by decide)).trans h_arg16,
    (c10_keep W main_arg17 (by decide)).trans h_arg17,
    (c10_keep W main_arg18 (by decide)).trans h_arg18,
    (c10_keep W main_arg19 (by decide)).trans h_arg19,
    (c10_keep W main_arg20 (by decide)).trans h_arg20,
    (c10_keep W main_arg21 (by decide)).trans h_arg21,
    (c10_keep W main_arg22 (by decide)).trans h_arg22,
    (c10_keep W main_arg23 (by decide)).trans h_arg23,
    (c10_keep W main_arg24 (by decide)).trans h_arg24,
    (c10_keep W main_arg25 (by decide)).trans h_arg25,
    (c10_keep W main_v30 (by decide)).trans h_v30,
    (c10_keep W main_v129 (by decide)).trans h_v129,
    (c10_keep W main_v134 (by decide)).trans h_v134,
    (c10_keep W main_v176 (by decide)).trans h_v176,
    step10_v242 W x0 x1 x2 x3 x4 x5 x6 x7 x8 x9 x10 x11 x12 x13 x14 x15 x16 x17 x18 x19 x20 x21 x22 x23 x24 x25 h,
    step10_v255 W x0 x1 x2 x3 x4 x5 x6 x7 x8 x9 x10 x11 x12 x13 x14 x15 x16 x17 x18 x19 x20 x21 x22 x23 x24 x25 h,
    step10_v268 W x0 x1 x2 x3 x4 x5 x6 x7 x8 x9 x10 x11 x12 x13 x14 x15 x16 x17 x18 x19 x20 x21 x22 x23 x24 x25 h⟩

end Cert.ReferenceIdeal.RefRun

end
-- ==== Proof.Ref.Step11.lean ====
/- Chunk c11 (operations 343 … 363): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step11_v281 (h : Live11 W x0 x1 x2 x3 x4 x5 x6 x7 x8 x9 x10 x11 x12 x13 x14 x15 x16 x17 x18 x19 x20 x21 x22 x23 x24 x25) :
    after c11 W (Proc.devRef .tc main_v281) = val_main_v281 (F := F) x0 x6 x7 x13 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268⟩ := h
  simp only [c11]
  after_results_simp
  try simp only [h_arg22, h_v30, h_arg13, h_arg21, TRef.ofBuf, TRef.toBuf, cast_eq]
  rfl
set_option maxRecDepth 8192 in
set_option maxHeartbeats 2000000 in
theorem step11_v282 (h : Live11 W x0 x1 x2 x3 x4 x5 x6 x7 x8 x9 x10 x11 x12 x13 x14 x15 x16 x17 x18 x19 x20 x21 x22 x23 x24 x25) :
    after c11 W (Proc.devRef .tc main_v282) = val_main_v282 (F := F) x0 x2 x3 x4 x5 x10 x11 x12 x13 x15 x16 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268⟩ := h
  simp only [c11]
  after_results_simp
  try simp only [h_v268, h_v255, TRef.ofBuf, TRef.toBuf, cast_eq]
  rfl
set_option maxRecDepth 8192 in
set_option maxHeartbeats 2000000 in
theorem step11_v283 (h : Live11 W x0 x1 x2 x3 x4 x5 x6 x7 x8 x9 x10 x11 x12 x13 x14 x15 x16 x17 x18 x19 x20 x21 x22 x23 x24 x25) :
    after c11 W (Proc.devRef .tc main_v283) = val_main_v283 (F := F) x0 x2 x3 x6 x7 x10 x13 x15 x16 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268⟩ := h
  simp only [c11]
  after_results_simp
  try simp only [h_arg22, h_v30, h_arg13, h_arg21, h_v255, TRef.ofBuf, TRef.toBuf, cast_eq]
  rfl
set_option maxRecDepth 8192 in
set_option maxHeartbeats 2000000 in
theorem step11_v284 (h : Live11 W x0 x1 x2 x3 x4 x5 x6 x7 x8 x9 x10 x11 x12 x13 x14 x15 x16 x17 x18 x19 x20 x21 x22 x23 x24 x25) :
    after c11 W (Proc.devRef .tc main_v284) = val_main_v284 (F := F) x0 x4 x5 x6 x7 x11 x12 x13 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268⟩ := h
  simp only [c11]
  after_results_simp
  try simp only [h_arg22, h_v30, h_arg13, h_arg21, h_v268, TRef.ofBuf, TRef.toBuf, cast_eq]
  rfl
set_option maxRecDepth 8192 in
set_option maxHeartbeats 2000000 in
theorem step11_v286 (h : Live11 W x0 x1 x2 x3 x4 x5 x6 x7 x8 x9 x10 x11 x12 x13 x14 x15 x16 x17 x18 x19 x20 x21 x22 x23 x24 x25) :
    after c11 W (Proc.devRef .tc main_v286) = val_main_v286 (F := F) x0 x2 x3 x4 x5 x6 x7 x10 x11 x12 x13 x15 x16 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268⟩ := h
  simp only [c11]
  after_results_simp
  try simp only [h_arg22, h_v30, h_arg13, h_arg21, h_v268, h_v255, TRef.ofBuf, TRef.toBuf, cast_eq]
  rfl

/-- The chunk's step. -/
theorem step11 (h : Live11 W x0 x1 x2 x3 x4 x5 x6 x7 x8 x9 x10 x11 x12 x13 x14 x15 x16 x17 x18 x19 x20 x21 x22 x23 x24 x25) : Live12 (after c11 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268⟩ := hh
  exact ⟨(c11_keep W main_arg0 (by decide)).trans h_arg0,
    (c11_keep W main_arg1 (by decide)).trans h_arg1,
    (c11_keep W main_arg2 (by decide)).trans h_arg2,
    (c11_keep W main_arg3 (by decide)).trans h_arg3,
    (c11_keep W main_arg4 (by decide)).trans h_arg4,
    (c11_keep W main_arg5 (by decide)).trans h_arg5,
    (c11_keep W main_arg6 (by decide)).trans h_arg6,
    (c11_keep W main_arg7 (by decide)).trans h_arg7,
    (c11_keep W main_arg8 (by decide)).trans h_arg8,
    (c11_keep W main_arg9 (by decide)).trans h_arg9,
    (c11_keep W main_arg10 (by decide)).trans h_arg10,
    (c11_keep W main_arg11 (by decide)).trans h_arg11,
    (c11_keep W main_arg12 (by decide)).trans h_arg12,
    (c11_keep W main_arg13 (by decide)).trans h_arg13,
    (c11_keep W main_arg14 (by decide)).trans h_arg14,
    (c11_keep W main_arg15 (by decide)).trans h_arg15,
    (c11_keep W main_arg16 (by decide)).trans h_arg16,
    (c11_keep W main_arg17 (by decide)).trans h_arg17,
    (c11_keep W main_arg18 (by decide)).trans h_arg18,
    (c11_keep W main_arg19 (by decide)).trans h_arg19,
    (c11_keep W main_arg20 (by decide)).trans h_arg20,
    (c11_keep W main_arg21 (by decide)).trans h_arg21,
    (c11_keep W main_arg22 (by decide)).trans h_arg22,
    (c11_keep W main_arg23 (by decide)).trans h_arg23,
    (c11_keep W main_arg24 (by decide)).trans h_arg24,
    (c11_keep W main_arg25 (by decide)).trans h_arg25,
    (c11_keep W main_v30 (by decide)).trans h_v30,
    (c11_keep W main_v129 (by decide)).trans h_v129,
    (c11_keep W main_v134 (by decide)).trans h_v134,
    (c11_keep W main_v176 (by decide)).trans h_v176,
    (c11_keep W main_v242 (by decide)).trans h_v242,
    (c11_keep W main_v255 (by decide)).trans h_v255,
    (c11_keep W main_v268 (by decide)).trans h_v268,
    step11_v281 W x0 x1 x2 x3 x4 x5 x6 x7 x8 x9 x10 x11 x12 x13 x14 x15 x16 x17 x18 x19 x20 x21 x22 x23 x24 x25 h,
    step11_v282 W x0 x1 x2 x3 x4 x5 x6 x7 x8 x9 x10 x11 x12 x13 x14 x15 x16 x17 x18 x19 x20 x21 x22 x23 x24 x25 h,
    step11_v283 W x0 x1 x2 x3 x4 x5 x6 x7 x8 x9 x10 x11 x12 x13 x14 x15 x16 x17 x18 x19 x20 x21 x22 x23 x24 x25 h,
    step11_v284 W x0 x1 x2 x3 x4 x5 x6 x7 x8 x9 x10 x11 x12 x13 x14 x15 x16 x17 x18 x19 x20 x21 x22 x23 x24 x25 h,
    step11_v286 W x0 x1 x2 x3 x4 x5 x6 x7 x8 x9 x10 x11 x12 x13 x14 x15 x16 x17 x18 x19 x20 x21 x22 x23 x24 x25 h⟩

end Cert.ReferenceIdeal.RefRun

end
-- ==== Proof.Ref.Step12.lean ====
/- Chunk c12 (operations 364 … 368): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
theorem step12_v291 (h : Live12 W x0 x1 x2 x3 x4 x5 x6 x7 x8 x9 x10 x11 x12 x13 x14 x15 x16 x17 x18 x19 x20 x21 x22 x23 x24 x25) :
    after c12 W (Proc.devRef .tc main_v291) = val_main_v291 (F := F) x0 x2 x3 x4 x5 x6 x7 x8 x9 x10 x11 x12 x13 x15 x16 x17 x18 x19 x20 x21 x22 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268, h_v281, h_v282, h_v283, h_v284, h_v286⟩ := h
  simp only [c12]
  after_results_simp
  dsimp only [Matrix.cons_val]
  rw [h_v255, h_v268, h_v281, h_v282, h_v283, h_v284, h_v286]
  try simp only [h_arg9, h_arg8, h_v286, h_v284, h_v283, h_v282, h_v281, h_v268, h_v255, TRef.ofBuf, TRef.toBuf, cast_eq]
  rfl

/-- The chunk's step. -/
theorem step12 (h : Live12 W x0 x1 x2 x3 x4 x5 x6 x7 x8 x9 x10 x11 x12 x13 x14 x15 x16 x17 x18 x19 x20 x21 x22 x23 x24 x25) : Live13 (after c12 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v255, h_v268, h_v281, h_v282, h_v283, h_v284, h_v286⟩ := hh
  exact ⟨(c12_keep W main_arg0 (by decide)).trans h_arg0,
    (c12_keep W main_arg1 (by decide)).trans h_arg1,
    (c12_keep W main_arg2 (by decide)).trans h_arg2,
    (c12_keep W main_arg3 (by decide)).trans h_arg3,
    (c12_keep W main_arg4 (by decide)).trans h_arg4,
    (c12_keep W main_arg5 (by decide)).trans h_arg5,
    (c12_keep W main_arg6 (by decide)).trans h_arg6,
    (c12_keep W main_arg7 (by decide)).trans h_arg7,
    (c12_keep W main_arg8 (by decide)).trans h_arg8,
    (c12_keep W main_arg9 (by decide)).trans h_arg9,
    (c12_keep W main_arg10 (by decide)).trans h_arg10,
    (c12_keep W main_arg11 (by decide)).trans h_arg11,
    (c12_keep W main_arg12 (by decide)).trans h_arg12,
    (c12_keep W main_arg13 (by decide)).trans h_arg13,
    (c12_keep W main_arg14 (by decide)).trans h_arg14,
    (c12_keep W main_arg15 (by decide)).trans h_arg15,
    (c12_keep W main_arg16 (by decide)).trans h_arg16,
    (c12_keep W main_arg17 (by decide)).trans h_arg17,
    (c12_keep W main_arg18 (by decide)).trans h_arg18,
    (c12_keep W main_arg19 (by decide)).trans h_arg19,
    (c12_keep W main_arg20 (by decide)).trans h_arg20,
    (c12_keep W main_arg21 (by decide)).trans h_arg21,
    (c12_keep W main_arg22 (by decide)).trans h_arg22,
    (c12_keep W main_arg23 (by decide)).trans h_arg23,
    (c12_keep W main_arg24 (by decide)).trans h_arg24,
    (c12_keep W main_arg25 (by decide)).trans h_arg25,
    (c12_keep W main_v30 (by decide)).trans h_v30,
    (c12_keep W main_v129 (by decide)).trans h_v129,
    (c12_keep W main_v134 (by decide)).trans h_v134,
    (c12_keep W main_v176 (by decide)).trans h_v176,
    (c12_keep W main_v242 (by decide)).trans h_v242,
    step12_v291 W x0 x1 x2 x3 x4 x5 x6 x7 x8 x9 x10 x11 x12 x13 x14 x15 x16 x17 x18 x19 x20 x21 x22 x23 x24 x25 h⟩

end Cert.ReferenceIdeal.RefRun

end
-- ==== Proof.Ref.Step13.lean ====
/- Chunk c13 (operations 369 … 396): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step13_v314 (h : Live13 W x0 x1 x2 x3 x4 x5 x6 x7 x8 x9 x10 x11 x12 x13 x14 x15 x16 x17 x18 x19 x20 x21 x22 x23 x24 x25) :
    after c13 W (Proc.devRef .tc main_v314) = val_main_v314 (F := F) x0 x1 x2 x3 x4 x5 x6 x7 x8 x9 x10 x11 x12 x13 x14 x15 x16 x17 x18 x19 x20 x21 x22 x23 x24 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v291⟩ := h
  simp only [c13]
  after_results_simp
  try simp only [h_v242, h_arg24, h_arg1, h_v291, h_arg14, h_arg23, h_v30, TRef.ofBuf, TRef.toBuf, cast_eq]
  rfl

/-- The chunk's step. -/
theorem step13 (h : Live13 W x0 x1 x2 x3 x4 x5 x6 x7 x8 x9 x10 x11 x12 x13 x14 x15 x16 x17 x18 x19 x20 x21 x22 x23 x24 x25) : Live14 (after c13 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v30, h_v129, h_v134, h_v176, h_v242, h_v291⟩ := hh
  exact ⟨(c13_keep W main_arg0 (by decide)).trans h_arg0,
    (c13_keep W main_arg1 (by decide)).trans h_arg1,
    (c13_keep W main_arg2 (by decide)).trans h_arg2,
    (c13_keep W main_arg3 (by decide)).trans h_arg3,
    (c13_keep W main_arg4 (by decide)).trans h_arg4,
    (c13_keep W main_arg5 (by decide)).trans h_arg5,
    (c13_keep W main_arg6 (by decide)).trans h_arg6,
    (c13_keep W main_arg7 (by decide)).trans h_arg7,
    (c13_keep W main_arg8 (by decide)).trans h_arg8,
    (c13_keep W main_arg9 (by decide)).trans h_arg9,
    (c13_keep W main_arg10 (by decide)).trans h_arg10,
    (c13_keep W main_arg11 (by decide)).trans h_arg11,
    (c13_keep W main_arg12 (by decide)).trans h_arg12,
    (c13_keep W main_arg13 (by decide)).trans h_arg13,
    (c13_keep W main_arg14 (by decide)).trans h_arg14,
    (c13_keep W main_arg15 (by decide)).trans h_arg15,
    (c13_keep W main_arg16 (by decide)).trans h_arg16,
    (c13_keep W main_arg17 (by decide)).trans h_arg17,
    (c13_keep W main_arg18 (by decide)).trans h_arg18,
    (c13_keep W main_arg19 (by decide)).trans h_arg19,
    (c13_keep W main_arg20 (by decide)).trans h_arg20,
    (c13_keep W main_arg21 (by decide)).trans h_arg21,
    (c13_keep W main_arg22 (by decide)).trans h_arg22,
    (c13_keep W main_arg23 (by decide)).trans h_arg23,
    (c13_keep W main_arg24 (by decide)).trans h_arg24,
    (c13_keep W main_arg25 (by decide)).trans h_arg25,
    (c13_keep W main_v129 (by decide)).trans h_v129,
    (c13_keep W main_v134 (by decide)).trans h_v134,
    (c13_keep W main_v176 (by decide)).trans h_v176,
    step13_v314 W x0 x1 x2 x3 x4 x5 x6 x7 x8 x9 x10 x11 x12 x13 x14 x15 x16 x17 x18 x19 x20 x21 x22 x23 x24 x25 h⟩

end Cert.ReferenceIdeal.RefRun

end
-- ==== Proof.Ref.Step14.lean ====
/- Chunk c14 (operations 397 … 432): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 2000000 in
theorem step14_v321 (h : Live14 W x0 x1 x2 x3 x4 x5 x6 x7 x8 x9 x10 x11 x12 x13 x14 x15 x16 x17 x18 x19 x20 x21 x22 x23 x24 x25) :
    after c14 W (Proc.devRef .tc main_v321) = val_main_v321 (F := F) x0 x1 x2 x3 x4 x5 x6 x7 x8 x9 x10 x11 x12 x13 x14 x15 x16 x17 x18 x19 x20 x21 x22 x23 x24 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v129, h_v134, h_v176, h_v314⟩ := h
  simp only [c14]
  after_results_simp
  try simp only [h_v134, h_v129, h_v314, TRef.ofBuf, TRef.toBuf, cast_eq]
  rfl
set_option maxRecDepth 8192 in
set_option maxHeartbeats 2000000 in
theorem step14_v334 (h : Live14 W x0 x1 x2 x3 x4 x5 x6 x7 x8 x9 x10 x11 x12 x13 x14 x15 x16 x17 x18 x19 x20 x21 x22 x23 x24 x25) :
    after c14 W (Proc.devRef .tc main_v334) = val_main_v334 (F := F) x0 x1 x2 x3 x4 x5 x6 x7 x8 x9 x10 x11 x12 x13 x14 x15 x16 x17 x18 x19 x20 x21 x22 x23 x24 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v129, h_v134, h_v176, h_v314⟩ := h
  simp only [c14]
  after_results_simp
  try simp only [h_arg22, h_v134, h_v129, h_v314, h_arg13, h_arg21, TRef.ofBuf, TRef.toBuf, cast_eq]
  rfl
set_option maxRecDepth 8192 in
set_option maxHeartbeats 2000000 in
theorem step14_v340 (h : Live14 W x0 x1 x2 x3 x4 x5 x6 x7 x8 x9 x10 x11 x12 x13 x14 x15 x16 x17 x18 x19 x20 x21 x22 x23 x24 x25) :
    after c14 W (Proc.devRef .tc main_v340) = val_main_v340 (F := F) x25 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v129, h_v134, h_v176, h_v314⟩ := h
  simp only [c14]
  after_results_simp
  try simp only [h_arg25, TRef.ofBuf, TRef.toBuf, cast_eq]
  rfl

/-- The chunk's step. -/
theorem step14 (h : Live14 W x0 x1 x2 x3 x4 x5 x6 x7 x8 x9 x10 x11 x12 x13 x14 x15 x16 x17 x18 x19 x20 x21 x22 x23 x24 x25) : Live15 (after c14 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v129, h_v134, h_v176, h_v314⟩ := hh
  exact ⟨(c14_keep W main_arg0 (by decide)).trans h_arg0,
    (c14_keep W main_arg1 (by decide)).trans h_arg1,
    (c14_keep W main_arg2 (by decide)).trans h_arg2,
    (c14_keep W main_arg3 (by decide)).trans h_arg3,
    (c14_keep W main_arg4 (by decide)).trans h_arg4,
    (c14_keep W main_arg5 (by decide)).trans h_arg5,
    (c14_keep W main_arg6 (by decide)).trans h_arg6,
    (c14_keep W main_arg7 (by decide)).trans h_arg7,
    (c14_keep W main_arg8 (by decide)).trans h_arg8,
    (c14_keep W main_arg9 (by decide)).trans h_arg9,
    (c14_keep W main_arg10 (by decide)).trans h_arg10,
    (c14_keep W main_arg11 (by decide)).trans h_arg11,
    (c14_keep W main_arg12 (by decide)).trans h_arg12,
    (c14_keep W main_arg13 (by decide)).trans h_arg13,
    (c14_keep W main_arg14 (by decide)).trans h_arg14,
    (c14_keep W main_arg15 (by decide)).trans h_arg15,
    (c14_keep W main_arg16 (by decide)).trans h_arg16,
    (c14_keep W main_arg17 (by decide)).trans h_arg17,
    (c14_keep W main_arg18 (by decide)).trans h_arg18,
    (c14_keep W main_arg19 (by decide)).trans h_arg19,
    (c14_keep W main_arg20 (by decide)).trans h_arg20,
    (c14_keep W main_arg21 (by decide)).trans h_arg21,
    (c14_keep W main_arg22 (by decide)).trans h_arg22,
    (c14_keep W main_arg23 (by decide)).trans h_arg23,
    (c14_keep W main_arg24 (by decide)).trans h_arg24,
    (c14_keep W main_arg25 (by decide)).trans h_arg25,
    (c14_keep W main_v176 (by decide)).trans h_v176,
    step14_v321 W x0 x1 x2 x3 x4 x5 x6 x7 x8 x9 x10 x11 x12 x13 x14 x15 x16 x17 x18 x19 x20 x21 x22 x23 x24 x25 h,
    step14_v334 W x0 x1 x2 x3 x4 x5 x6 x7 x8 x9 x10 x11 x12 x13 x14 x15 x16 x17 x18 x19 x20 x21 x22 x23 x24 x25 h,
    step14_v340 W x0 x1 x2 x3 x4 x5 x6 x7 x8 x9 x10 x11 x12 x13 x14 x15 x16 x17 x18 x19 x20 x21 x22 x23 x24 x25 h⟩

end Cert.ReferenceIdeal.RefRun

end
-- ==== Proof.Ref.Step15.lean ====
/- Chunk c15 (operations 433 … 443): from what holds before it to what holds after it. A buffer the chunk does not write keeps its
   contents; a buffer it writes is its operation's function of its operands, which is the stage function unfolded once. -/
import proofs.«417009_j23742579212955_2_alg».proof.Proof.Ref.Ops
import proofs.«417009_j23742579212955_2_alg».proof.Proof.Ref.Live

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F))

set_option maxRecDepth 8192 in
set_option maxHeartbeats 1100000 in
theorem step15_v346 (h : Live15 W x0 x1 x2 x3 x4 x5 x6 x7 x8 x9 x10 x11 x12 x13 x14 x15 x16 x17 x18 x19 x20 x21 x22 x23 x24 x25) :
    after c15 W (Proc.devRef .tc main_v346) = val_main_v346 (F := F) x0 x1 x2 x3 x4 x5 x6 x7 x8 x9 x10 x11 x12 x13 x14 x15 x16 x17 x18 x19 x20 x21 x22 x23 x24 x25 := by
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v176, h_v321, h_v334, h_v340⟩ := h
  simp only [c15]
  after_results_simp
  try simp only [h_v340, h_v334, TRef.ofBuf, TRef.toBuf, cast_eq]
  rfl

/-- The chunk's step. -/
theorem step15 (h : Live15 W x0 x1 x2 x3 x4 x5 x6 x7 x8 x9 x10 x11 x12 x13 x14 x15 x16 x17 x18 x19 x20 x21 x22 x23 x24 x25) : Live16 (after c15 W) x0 x1 x2 x3 x4 x5 x6 x7 x8 x9 x10 x11 x12 x13 x14 x15 x16 x17 x18 x19 x20 x21 x22 x23 x24 x25 := by
  have hh := h
  obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v176, h_v321, h_v334, h_v340⟩ := hh
  exact ⟨(c15_keep W main_arg0 (by decide)).trans h_arg0,
    (c15_keep W main_arg1 (by decide)).trans h_arg1,
    (c15_keep W main_arg2 (by decide)).trans h_arg2,
    (c15_keep W main_arg3 (by decide)).trans h_arg3,
    (c15_keep W main_arg4 (by decide)).trans h_arg4,
    (c15_keep W main_arg5 (by decide)).trans h_arg5,
    (c15_keep W main_arg6 (by decide)).trans h_arg6,
    (c15_keep W main_arg7 (by decide)).trans h_arg7,
    (c15_keep W main_arg8 (by decide)).trans h_arg8,
    (c15_keep W main_arg9 (by decide)).trans h_arg9,
    (c15_keep W main_arg10 (by decide)).trans h_arg10,
    (c15_keep W main_arg11 (by decide)).trans h_arg11,
    (c15_keep W main_arg12 (by decide)).trans h_arg12,
    (c15_keep W main_arg13 (by decide)).trans h_arg13,
    (c15_keep W main_arg14 (by decide)).trans h_arg14,
    (c15_keep W main_arg15 (by decide)).trans h_arg15,
    (c15_keep W main_arg16 (by decide)).trans h_arg16,
    (c15_keep W main_arg17 (by decide)).trans h_arg17,
    (c15_keep W main_arg18 (by decide)).trans h_arg18,
    (c15_keep W main_arg19 (by decide)).trans h_arg19,
    (c15_keep W main_arg20 (by decide)).trans h_arg20,
    (c15_keep W main_arg21 (by decide)).trans h_arg21,
    (c15_keep W main_arg22 (by decide)).trans h_arg22,
    (c15_keep W main_arg23 (by decide)).trans h_arg23,
    (c15_keep W main_arg24 (by decide)).trans h_arg24,
    (c15_keep W main_arg25 (by decide)).trans h_arg25,
    (c15_keep W main_v176 (by decide)).trans h_v176,
    (c15_keep W main_v321 (by decide)).trans h_v321,
    step15_v346 W x0 x1 x2 x3 x4 x5 x6 x7 x8 x9 x10 x11 x12 x13 x14 x15 x16 x17 x18 x19 x20 x21 x22 x23 x24 x25 h⟩

end Cert.ReferenceIdeal.RefRun

end
-- ==== Proof.Ref.Run.lean ====
/- The chunks' steps in order, from the launch contents: every weakly fair execution of the reference ends with each result at its stage function of
   the arguments' launch contents and the arguments unchanged; the frame claim is that statement without the results. -/
import proofs.«417009_j23742579212955_2_alg».proof.Proof.Ref.Ops
import proofs.«417009_j23742579212955_2_alg».proof.Proof.Ref.Live
import proofs.«417009_j23742579212955_2_alg».proof.Proof.Ref.Step00
import proofs.«417009_j23742579212955_2_alg».proof.Proof.Ref.Step01
import proofs.«417009_j23742579212955_2_alg».proof.Proof.Ref.Step02
import proofs.«417009_j23742579212955_2_alg».proof.Proof.Ref.Step03
import proofs.«417009_j23742579212955_2_alg».proof.Proof.Ref.Step04
import proofs.«417009_j23742579212955_2_alg».proof.Proof.Ref.Step05
import proofs.«417009_j23742579212955_2_alg».proof.Proof.Ref.Step06
import proofs.«417009_j23742579212955_2_alg».proof.Proof.Ref.Step07
import proofs.«417009_j23742579212955_2_alg».proof.Proof.Ref.Step08
import proofs.«417009_j23742579212955_2_alg».proof.Proof.Ref.Step09
import proofs.«417009_j23742579212955_2_alg».proof.Proof.Ref.Step10
import proofs.«417009_j23742579212955_2_alg».proof.Proof.Ref.Step11
import proofs.«417009_j23742579212955_2_alg».proof.Proof.Ref.Step12
import proofs.«417009_j23742579212955_2_alg».proof.Proof.Ref.Step13
import proofs.«417009_j23742579212955_2_alg».proof.Proof.Ref.Step14
import proofs.«417009_j23742579212955_2_alg».proof.Proof.Ref.Step15
import proofs.«417009_j23742579212955_2_alg».proof.Proof.Gen.Pre_finite_inputs
import proofs.«417009_j23742579212955_2_alg».proof.Defs

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- From contents that hold the arguments, the whole list's fold holds the results at their stage functions. -/
theorem live_end (W : Valuation τ sig (Elt F)) (x0 : (⟨S10001x64, .f32⟩ : BufTy).Contents (Elt F)) (x1 : (⟨S8000x64, .f32⟩ : BufTy).Contents (Elt F)) (x2 : (⟨S64x64, .f32⟩ : BufTy).Contents (Elt F)) (x3 : (⟨S1x64, .f32⟩ : BufTy).Contents (Elt F)) (x4 : (⟨S64x64, .f32⟩ : BufTy).Contents (Elt F)) (x5 : (⟨S1x64, .f32⟩ : BufTy).Contents (Elt F)) (x6 : (⟨S64x64, .f32⟩ : BufTy).Contents (Elt F)) (x7 : (⟨S1x64, .f32⟩ : BufTy).Contents (Elt F)) (x8 : (⟨S448x64, .f32⟩ : BufTy).Contents (Elt F)) (x9 : (⟨S64, .f32⟩ : BufTy).Contents (Elt F)) (x10 : (⟨S320000, .f32⟩ : BufTy).Contents (Elt F)) (x11 : (⟨S320000, .f32⟩ : BufTy).Contents (Elt F)) (x12 : (⟨S320000, .f32⟩ : BufTy).Contents (Elt F)) (x13 : (⟨S400000, .f32⟩ : BufTy).Contents (Elt F)) (x14 : (⟨S400000, .f32⟩ : BufTy).Contents (Elt F)) (x15 : (⟨S320000, .i32⟩ : BufTy).Contents (Elt F)) (x16 : (⟨S320000, .i32⟩ : BufTy).Contents (Elt F)) (x17 : (⟨S320000, .i32⟩ : BufTy).Contents (Elt F)) (x18 : (⟨S320000, .i32⟩ : BufTy).Contents (Elt F)) (x19 : (⟨S320000, .i32⟩ : BufTy).Contents (Elt F)) (x20 : (⟨S320000, .i32⟩ : BufTy).Contents (Elt F)) (x21 : (⟨S400000, .i32⟩ : BufTy).Contents (Elt F)) (x22 : (⟨S400000, .i32⟩ : BufTy).Contents (Elt F)) (x23 : (⟨S400000, .i32⟩ : BufTy).Contents (Elt F)) (x24 : (⟨S400000, .i32⟩ : BufTy).Contents (Elt F)) (x25 : (⟨S4096, .i32⟩ : BufTy).Contents (Elt F)) (h : Live0 W x0 x1 x2 x3 x4 x5 x6 x7 x8 x9 x10 x11 x12 x13 x14 x15 x16 x17 x18 x19 x20 x21 x22 x23 x24 x25) : Live16 (after ops W) x0 x1 x2 x3 x4 x5 x6 x7 x8 x9 x10 x11 x12 x13 x14 x15 x16 x17 x18 x19 x20 x21 x22 x23 x24 x25 := by
  rw [after_ops]
  exact step15 _ x0 x1 x2 x3 x4 x5 x6 x7 x8 x9 x10 x11 x12 x13 x14 x15 x16 x17 x18 x19 x20 x21 x22 x23 x24 x25 (step14 _ x0 x1 x2 x3 x4 x5 x6 x7 x8 x9 x10 x11 x12 x13 x14 x15 x16 x17 x18 x19 x20 x21 x22 x23 x24 x25 (step13 _ x0 x1 x2 x3 x4 x5 x6 x7 x8 x9 x10 x11 x12 x13 x14 x15 x16 x17 x18 x19 x20 x21 x22 x23 x24 x25 (step12 _ x0 x1 x2 x3 x4 x5 x6 x7 x8 x9 x10 x11 x12 x13 x14 x15 x16 x17 x18 x19 x20 x21 x22 x23 x24 x25 (step11 _ x0 x1 x2 x3 x4 x5 x6 x7 x8 x9 x10 x11 x12 x13 x14 x15 x16 x17 x18 x19 x20 x21 x22 x23 x24 x25 (step10 _ x0 x1 x2 x3 x4 x5 x6 x7 x8 x9 x10 x11 x12 x13 x14 x15 x16 x17 x18 x19 x20 x21 x22 x23 x24 x25 (step9 _ x0 x1 x2 x3 x4 x5 x6 x7 x8 x9 x10 x11 x12 x13 x14 x15 x16 x17 x18 x19 x20 x21 x22 x23 x24 x25 (step8 _ x0 x1 x2 x3 x4 x5 x6 x7 x8 x9 x10 x11 x12 x13 x14 x15 x16 x17 x18 x19 x20 x21 x22 x23 x24 x25 (step7 _ x0 x1 x2 x3 x4 x5 x6 x7 x8 x9 x10 x11 x12 x13 x14 x15 x16 x17 x18 x19 x20 x21 x22 x23 x24 x25 (step6 _ x0 x1 x2 x3 x4 x5 x6 x7 x8 x9 x10 x11 x12 x13 x14 x15 x16 x17 x18 x19 x20 x21 x22 x23 x24 x25 (step5 _ x0 x1 x2 x3 x4 x5 x6 x7 x8 x9 x10 x11 x12 x13 x14 x15 x16 x17 x18 x19 x20 x21 x22 x23 x24 x25 (step4 _ x0 x1 x2 x3 x4 x5 x6 x7 x8 x9 x10 x11 x12 x13 x14 x15 x16 x17 x18 x19 x20 x21 x22 x23 x24 x25 (step3 _ x0 x1 x2 x3 x4 x5 x6 x7 x8 x9 x10 x11 x12 x13 x14 x15 x16 x17 x18 x19 x20 x21 x22 x23 x24 x25 (step2 _ x0 x1 x2 x3 x4 x5 x6 x7 x8 x9 x10 x11 x12 x13 x14 x15 x16 x17 x18 x19 x20 x21 x22 x23 x24 x25 (step1 _ x0 x1 x2 x3 x4 x5 x6 x7 x8 x9 x10 x11 x12 x13 x14 x15 x16 x17 x18 x19 x20 x21 x22 x23 x24 x25 (step0 _ x0 x1 x2 x3 x4 x5 x6 x7 x8 x9 x10 x11 x12 x13 x14 x15 x16 x17 x18 x19 x20 x21 x22 x23 x24 x25 h)))))))))))))))

/-- Every weakly fair execution of @main terminates with each result at its stage function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v346) = val_main_v346 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v321) = val_main_v321 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v176) = val_main_v176 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => by
    obtain ⟨h_arg0, h_arg1, h_arg2, h_arg3, h_arg4, h_arg5, h_arg6, h_arg7, h_arg8, h_arg9, h_arg10, h_arg11, h_arg12, h_arg13, h_arg14, h_arg15, h_arg16, h_arg17, h_arg18, h_arg19, h_arg20, h_arg21, h_arg22, h_arg23, h_arg24, h_arg25, h_v176, h_v321, h_v346⟩ := live_end (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ⟨rfl, rfl, rfl, rfl, rfl, rfl, rfl, rfl, rfl, rfl, rfl, rfl, rfl, rfl, rfl, rfl, rfl, rfl, rfl, rfl, rfl, rfl, rfl, rfl, rfl, rfl⟩
    exact ⟨(h c main_v346).trans h_v346, (h c main_v321).trans h_v321, (h c main_v176).trans h_v176, (h c main_arg0).trans h_arg0, (h c main_arg1).trans h_arg1, (h c main_arg2).trans h_arg2, (h c main_arg3).trans h_arg3, (h c main_arg4).trans h_arg4, (h c main_arg5).trans h_arg5, (h c main_arg6).trans h_arg6, (h c main_arg7).trans h_arg7, (h c main_arg8).trans h_arg8, (h c main_arg9).trans h_arg9, (h c main_arg10).trans h_arg10, (h c main_arg11).trans h_arg11, (h c main_arg12).trans h_arg12, (h c main_arg13).trans h_arg13, (h c main_arg14).trans h_arg14, (h c main_arg15).trans h_arg15, (h c main_arg16).trans h_arg16, (h c main_arg17).trans h_arg17, (h c main_arg18).trans h_arg18, (h c main_arg19).trans h_arg19, (h c main_arg20).trans h_arg20, (h c main_arg21).trans h_arg21, (h c main_arg22).trans h_arg22, (h c main_arg23).trans h_arg23, (h c main_arg24).trans h_arg24, (h c main_arg25).trans h_arg25⟩)
    (run_after m ρ)

end Cert.ReferenceIdeal.RefRun

end

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

/-- The reference's run at the ideal instance, stated for the three results and the 26 arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v346) = val_main_v346 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v321) = val_main_v321 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v176) = val_main_v176 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  Cert.ReferenceIdeal.RefRun.run (F := Ideal) m ρ

/-- The reference runs and leaves its arguments unchanged: its run, the results dropped. -/
theorem frame_ri : Cert.frame_ReferenceIdeal := fun m ρ _ =>
  (θ_run Cert.ReferenceIdeal.defs _ _).mono (fun _ h c => (h c).2.2.2) (Cert.ReferenceIdeal.RefRun.run (F := Ideal) m ρ)

end Cert.ReferenceIdeal.RefValue

end
-- ==== Proof.Bridge.Consts.lean ====
import proofs.«417009_j23742579212955_2_alg».proof.Defs

noncomputable section

open Idealize.ShloMosaic

namespace Cert.Bridge

theorem inv_temp_val :
    Named.named (F := Ideal) Cert.KernelIdeal.κ "inv_temp" (φ := .f32) 0x40A00000#32 = ((67108864 / 13421773 : ℝ) : EReal) :=
  IdealRules.named_const.ideal_named_scalar _ _ _ _ rfl

theorem preserves : Cert.preserves_Kernel_KernelIdeal :=
  IdealRules.named_const.statement Cert.KernelIdeal.κ "inv_temp" .f32 0x40A00000#32 ((67108864 / 13421773 : ℝ) : EReal) rfl

end Cert.Bridge

end
-- ==== Proof.KI.Values0.lean ====
import proofs.«417009_j23742579212955_2_alg».proof.Proof.Gen.KernelIdeal.Launch
import Idealize.ShloMosaic.Lib.StableHlo.Run
import Mathlib.Data.List.Forall2

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

def Writes (ops : List (HloOp τ sig (Elt F))) (wr : List (Ref sig .tc)) : Prop :=
  List.Forall₂ (fun op y => op.writes = {Proc.devRef (τ := τ) .tc y}) ops wr

namespace Writes

variable {ops : List (HloOp τ sig (Elt F))} {wr : List (Ref sig .tc)}

theorem keep (h : Writes ops wr) (V : Valuation τ sig (Elt F)) {r : Ref sig .tc} (hr : r ∉ wr) :
    StableHlo.after ops V (Proc.devRef .tc r) = V (Proc.devRef .tc r) := by
  induction h generalizing V with
  | nil => rfl
  | @cons op y ops wr hop _ ih =>
    rw [StableHlo.after_cons, ih _ (fun h' => hr (List.mem_cons_of_mem _ h'))]
    refine op.result_of_not_mem V ?_
    rw [hop, Finset.mem_singleton]
    exact StableHlo.devRef_ne_of_ne (fun e => hr (e ▸ List.mem_cons_self))

theorem drop (h : Writes ops wr) (i : Nat) : Writes (ops.drop i) (wr.drop i) := List.forall₂_drop i h

theorem after_split (ops : List (HloOp τ sig (Elt F))) (i : Nat) (V : Valuation τ sig (Elt F)) :
    StableHlo.after ops V = StableHlo.after (ops.drop i) (StableHlo.after (ops.take i) V) := by
  induction ops generalizing i V with
  | nil => simp only [List.drop_nil, List.take_nil, StableHlo.after_nil]
  | cons op ops ih =>
    cases i with
    | zero => rfl
    | succ i => simp only [List.drop_succ_cons, List.take_succ_cons, StableHlo.after_cons]; exact ih i _

theorem at_opnd (h : Writes ops wr) (V : Valuation τ sig (Elt F)) (i : Nat) {r : Ref sig .tc} (hr : r ∉ wr.drop i) :
    StableHlo.after ops V (Proc.devRef .tc r) = StableHlo.after (ops.take i) V (Proc.devRef .tc r) := by
  rw [after_split ops i V]; exact (h.drop i).keep _ hr

theorem at_res (h : Writes ops wr) (V : Valuation τ sig (Elt F)) (i : Nat) {op : HloOp τ sig (Elt F)} (hop : ops[i]? = some op)
    {r : Ref sig .tc} (hr : r ∉ wr.drop (i + 1)) :
    StableHlo.after ops V (Proc.devRef .tc r) = op.result (StableHlo.after (ops.take i) V) (Proc.devRef .tc r) := by
  rw [after_split ops i V]
  have hd : ops.drop i = op :: ops.drop (i + 1) := by
    have hi : i < ops.length := by
      rcases Nat.lt_or_ge i ops.length with h' | h'
      · exact h'
      · rw [List.getElem?_eq_none h'] at hop; cases hop
    rw [List.getElem?_eq_getElem hi] at hop
    rw [← List.getElem_cons_drop hi]; congr 1; exact Option.some.inj hop
  rw [hd, StableHlo.after_cons]
  exact (h.drop (i + 1)).keep _ hr

end Writes

section Stmt

variable {ops : List (HloOp τ sig (Elt F))} {wr : List (Ref sig .tc)} (h : Writes ops wr) (V X : Valuation τ sig (Elt F))
  (wa : List (Ref sig .tc)) (hX : ∀ r : Ref sig .tc, r ∉ wa → X (Proc.devRef .tc r) = StableHlo.after ops V (Proc.devRef .tc r))
include h hX

theorem stmt_nullary (i : Nat) (y : Ref sig .tc) (v : y.ty.Contents (Elt F)) {hy}
    (hop : ops[i]? = some (StableHlo.nullary y v hy))
    (hy' : y ∉ wr.drop (i + 1) ++ wa) :
    X (Proc.devRef .tc y) = v := by
  rw [hX y (fun m => hy' (List.mem_append_right _ m)),
    h.at_res V i hop (fun m => hy' (List.mem_append_left _ m)), StableHlo.nullary_result]

theorem stmt_unary (i : Nat) (x y : Ref sig .tc) (f : x.ty.Contents (Elt F) → y.ty.Contents (Elt F)) {hx hy}
    (hop : ops[i]? = some (StableHlo.unary x y f hx hy))
    (hy' : y ∉ wr.drop (i + 1) ++ wa) (hx' : x ∉ wr.drop i ++ wa) :
    X (Proc.devRef .tc y) = f (X (Proc.devRef .tc x)) := by
  rw [hX y (fun m => hy' (List.mem_append_right _ m)), hX x (fun m => hx' (List.mem_append_right _ m)),
    h.at_res V i hop (fun m => hy' (List.mem_append_left _ m)), StableHlo.unary_result,
    h.at_opnd V i (fun m => hx' (List.mem_append_left _ m))]

theorem stmt_binary (i : Nat) (a b y : Ref sig .tc)
    (f : a.ty.Contents (Elt F) → b.ty.Contents (Elt F) → y.ty.Contents (Elt F)) {ha hb hy}
    (hop : ops[i]? = some (StableHlo.binary a b y f ha hb hy))
    (hy' : y ∉ wr.drop (i + 1) ++ wa) (ha' : a ∉ wr.drop i ++ wa) (hb' : b ∉ wr.drop i ++ wa) :
    X (Proc.devRef .tc y) = f (X (Proc.devRef .tc a)) (X (Proc.devRef .tc b)) := by
  have ea := (hX a (fun m => ha' (List.mem_append_right _ m))).trans (h.at_opnd V i (fun m => ha' (List.mem_append_left _ m)))
  have eb := (hX b (fun m => hb' (List.mem_append_right _ m))).trans (h.at_opnd V i (fun m => hb' (List.mem_append_left _ m)))
  rw [hX y (fun m => hy' (List.mem_append_right _ m)),
    h.at_res V i hop (fun m => hy' (List.mem_append_left _ m)), StableHlo.binary_result]
  exact (congrArg₂ f ea eb).symm

theorem stmt_ternary (i : Nat) (c a b y : Ref sig .tc)
    (f : c.ty.Contents (Elt F) → a.ty.Contents (Elt F) → b.ty.Contents (Elt F) → y.ty.Contents (Elt F)) {hc ha hb hy}
    (hop : ops[i]? = some (StableHlo.ternary c a b y f hc ha hb hy))
    (hy' : y ∉ wr.drop (i + 1) ++ wa) (hc' : c ∉ wr.drop i ++ wa) (ha' : a ∉ wr.drop i ++ wa) (hb' : b ∉ wr.drop i ++ wa) :
    X (Proc.devRef .tc y) = f (X (Proc.devRef .tc c)) (X (Proc.devRef .tc a)) (X (Proc.devRef .tc b)) := by
  have ec := (hX c (fun m => hc' (List.mem_append_right _ m))).trans (h.at_opnd V i (fun m => hc' (List.mem_append_left _ m)))
  have ea := (hX a (fun m => ha' (List.mem_append_right _ m))).trans (h.at_opnd V i (fun m => ha' (List.mem_append_left _ m)))
  have eb := (hX b (fun m => hb' (List.mem_append_right _ m))).trans (h.at_opnd V i (fun m => hb' (List.mem_append_left _ m)))
  rw [hX y (fun m => hy' (List.mem_append_right _ m)),
    h.at_res V i hop (fun m => hy' (List.mem_append_left _ m)), StableHlo.ternary_result]
  exact (congr (congrArg₂ f ec ea) eb).symm

theorem stmt_reshape (i : Nat) (x y : Ref sig .tc) (he : x.ty.elt = y.ty.elt) (hn : x.ty.shape.ShapeCasts y.ty.shape) {hx hy}
    (hop : ops[i]? = some (StableHlo.reshape x y he hn hx hy))
    (hy' : y ∉ wr.drop (i + 1) ++ wa) (hx' : x ∉ wr.drop i ++ wa) :
    X (Proc.devRef .tc y) = fun j => he ▸ shapeCast y.ty.shape (X (Proc.devRef .tc x)) hn j := by
  rw [hX y (fun m => hy' (List.mem_append_right _ m)), hX x (fun m => hx' (List.mem_append_right _ m)),
    h.at_res V i hop (fun m => hy' (List.mem_append_left _ m)), StableHlo.reshape_result,
    h.at_opnd V i (fun m => hx' (List.mem_append_left _ m))]

theorem stmt_nary (i : Nat) {n : Nat} (xs : Fin n → Ref sig .tc) (y : Ref sig .tc)
    (f : ((k : Fin n) → (xs k).ty.Contents (Elt F)) → y.ty.Contents (Elt F)) {hxs hy}
    (hop : ops[i]? = some (StableHlo.nary xs y f hxs hy))
    (hy' : y ∉ wr.drop (i + 1) ++ wa) (hxs' : ∀ k, xs k ∉ wr.drop i ++ wa) :
    X (Proc.devRef .tc y) = f (fun k => X (Proc.devRef .tc (xs k))) := by
  rw [hX y (fun m => hy' (List.mem_append_right _ m)),
    h.at_res V i hop (fun m => hy' (List.mem_append_left _ m)), StableHlo.nary_result]
  congr 1; funext k
  exact ((hX (xs k) (fun m => hxs' k (List.mem_append_right _ m))).trans
    (h.at_opnd V i (fun m => hxs' k (List.mem_append_left _ m)))).symm

end Stmt

end Cert.KernelIdeal.Hand

end
-- ==== Proof.KI.Values1.lean ====
import proofs.«417009_j23742579212955_2_alg».proof.Proof.KI.ChainW
import proofs.«417009_j23742579212955_2_alg».proof.Proof.KI.Values0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]

macro "writes_by_rfl" : tactic => `(tactic| (unfold Writes; repeat (first | exact List.Forall₂.nil | refine List.Forall₂.cons rfl ?_)))

abbrev wr0 : List (Ref sig .tc) := [main_v0]
theorem hwr0 : Writes (F := F) hostOps0 wr0 := by writes_by_rfl

abbrev wr3 : List (Ref sig .tc) := [main_cst, main_v4, main_c, main_v5, main_v6, main_c_0, main_v7, main_v8, main_v9, main_c_1, main_v10, main_v11, main_c_2, main_v12, main_v13, main_v14, main_v15, main_v16, main_v17, main_v18, main_v19, main_cst_3, main_v20, main_c_4, main_v21, main_v22, main_c_5, main_v23, main_v24, main_v25, main_c_6, main_v26, main_v27, main_c_7, main_v28, main_v29, main_v30, main_v31, main_v32, main_v33, main_v34, main_v35, main_cst_8, main_v36, main_c_9, main_v37, main_v38, main_c_10, main_v39, main_v40, main_v41, main_c_11, main_v42, main_v43, main_c_12, main_v44, main_v45, main_v46, main_v47, main_v48, main_v49, main_v50, main_v51, main_cst_13, main_v52, main_c_14, main_v53, main_v54, main_c_15, main_v55, main_v56, main_v57, main_c_16, main_v58, main_v59, main_c_17, main_v60, main_v61, main_v62, main_v63, main_v64, main_v65, main_v66, main_v67, main_cst_18, main_v68, main_c_19, main_v69, main_v70, main_c_20, main_v71, main_v72, main_v73, main_c_21, main_v74, main_v75, main_c_22, main_v76, main_v77, main_v78, main_v79, main_v80, main_v81, main_v82, main_v83, main_v84]
theorem hwr3 : Writes (F := F) hostOps3 wr3 := by writes_by_rfl

abbrev wr4 : List (Ref sig .tc) := [main_v86, main_v87]
theorem hwr4 : Writes (F := F) hostOps4 wr4 := by writes_by_rfl

abbrev wr5 : List (Ref sig .tc) := [main_v89, main_cst_23, main_v90, main_v91, main_v92]
theorem hwr5 : Writes (F := F) hostOps5 wr5 := by writes_by_rfl

abbrev wr6 : List (Ref sig .tc) := [main_v94]
theorem hwr6 : Writes (F := F) hostOps6 wr6 := by writes_by_rfl

abbrev wr7 : List (Ref sig .tc) := [main_v96, main_v97]
theorem hwr7 : Writes (F := F) hostOps7 wr7 := by writes_by_rfl

abbrev wr8 : List (Ref sig .tc) := [main_v99]
theorem hwr8 : Writes (F := F) hostOps8 wr8 := by writes_by_rfl

abbrev wr9 : List (Ref sig .tc) := [main_v101, main_cst_24, main_v102, main_v103]
theorem hwr9 : Writes (F := F) hostOps9 wr9 := by writes_by_rfl

abbrev wr11 : List (Ref sig .tc) := [main_v106, main_v107]
theorem hwr11 : Writes (F := F) hostOps11 wr11 := by writes_by_rfl

abbrev wr12 : List (Ref sig .tc) := [main_v109, main_v110, main_v111, main_cst_25, main_v112, main_cst_26, main_v113, main_v114, main_v115, main_cst_27, main_v116, main_v117, main_v118, main_cst_28, main_v119, main_v120, main_v121, main_v122, main_cst_29, main_v123, main_cst_30, main_v124, main_v125, main_cst_31, main_v126, main_cst_32, main_v127, main_v128, main_v129, main_cst_33, main_v130, main_v131, main_v132, main_cst_34, main_v133, main_v134, main_v135, main_v136, main_cst_35, main_v137, main_cst_36, main_v138, main_v139, main_cst_37, main_v140, main_v141, main_v142]
theorem hwr12 : Writes (F := F) hostOps12 wr12 := by writes_by_rfl

abbrev wr13 : List (Ref sig .tc) := [main_v144, main_v145, main_v146, main_v147, main_v148, main_v149, main_v150, main_v151, main_v152, main_v153, main_v154, main_v155, main_v156, main_v157, main_v158, main_v159, main_v160]
theorem hwr13 : Writes (F := F) hostOps13 wr13 := by writes_by_rfl

abbrev wr14 : List (Ref sig .tc) := [main_cst_38, main_v162, main_v163, main_v164]
theorem hwr14 : Writes (F := F) hostOps14 wr14 := by writes_by_rfl

abbrev wr15 : List (Ref sig .tc) := [main_v166, main_v167, main_v168]
theorem hwr15 : Writes (F := F) hostOps15 wr15 := by writes_by_rfl

abbrev wr16 : List (Ref sig .tc) := [main_c_39, main_v170, main_v171, main_c_40, main_v172, main_v173, main_v174, main_v175, main_v176]
theorem hwr16 : Writes (F := F) hostOps16 wr16 := by writes_by_rfl

abbrev outs0 : List (Ref sig .tc) := [main_v1]
theorem outs0_in : ∀ w : Fin cfg0.W, Pipeline.arrRef spec0 w ∉ outs0 → (cfg0.win w).isOut = false := by decide

abbrev outs1 : List (Ref sig .tc) := [main_v2]
theorem outs1_in : ∀ w : Fin cfg1.W, Pipeline.arrRef spec1 w ∉ outs1 → (cfg1.win w).isOut = false := by decide

abbrev outs2 : List (Ref sig .tc) := [main_v3]
theorem outs2_in : ∀ w : Fin cfg2.W, Pipeline.arrRef spec2 w ∉ outs2 → (cfg2.win w).isOut = false := by decide

abbrev outs3 : List (Ref sig .tc) := [main_v85]
theorem outs3_in : ∀ w : Fin cfg3.W, Pipeline.arrRef spec3 w ∉ outs3 → (cfg3.win w).isOut = false := by decide

abbrev outs4 : List (Ref sig .tc) := [main_v88]
theorem outs4_in : ∀ w : Fin cfg4.W, Pipeline.arrRef spec4 w ∉ outs4 → (cfg4.win w).isOut = false := by decide

abbrev outs5 : List (Ref sig .tc) := [main_v93]
theorem outs5_in : ∀ w : Fin cfg5.W, Pipeline.arrRef spec5 w ∉ outs5 → (cfg5.win w).isOut = false := by decide

abbrev outs6 : List (Ref sig .tc) := [main_v95]
theorem outs6_in : ∀ w : Fin cfg6.W, Pipeline.arrRef spec6 w ∉ outs6 → (cfg6.win w).isOut = false := by decide

abbrev outs7 : List (Ref sig .tc) := [main_v98]
theorem outs7_in : ∀ w : Fin cfg7.W, Pipeline.arrRef spec7 w ∉ outs7 → (cfg7.win w).isOut = false := by decide

abbrev outs8 : List (Ref sig .tc) := [main_v100]
theorem outs8_in : ∀ w : Fin cfg8.W, Pipeline.arrRef spec8 w ∉ outs8 → (cfg8.win w).isOut = false := by decide

abbrev outs9 : List (Ref sig .tc) := [main_v104]
theorem outs9_in : ∀ w : Fin cfg9.W, Pipeline.arrRef spec9 w ∉ outs9 → (cfg9.win w).isOut = false := by decide

abbrev outs10 : List (Ref sig .tc) := [main_v105]
theorem outs10_in : ∀ w : Fin cfg10.W, Pipeline.arrRef spec10 w ∉ outs10 → (cfg10.win w).isOut = false := by decide

abbrev outs11 : List (Ref sig .tc) := [main_v108_0, main_v108_1]
theorem outs11_in : ∀ w : Fin cfg11.W, Pipeline.arrRef spec11 w ∉ outs11 → (cfg11.win w).isOut = false := by decide

abbrev outs12 : List (Ref sig .tc) := [main_v143]
theorem outs12_in : ∀ w : Fin cfg12.W, Pipeline.arrRef spec12 w ∉ outs12 → (cfg12.win w).isOut = false := by decide

abbrev outs13 : List (Ref sig .tc) := [main_v161]
theorem outs13_in : ∀ w : Fin cfg13.W, Pipeline.arrRef spec13 w ∉ outs13 → (cfg13.win w).isOut = false := by decide

abbrev outs14 : List (Ref sig .tc) := [main_v165]
theorem outs14_in : ∀ w : Fin cfg14.W, Pipeline.arrRef spec14 w ∉ outs14 → (cfg14.win w).isOut = false := by decide

abbrev outs15 : List (Ref sig .tc) := [main_v169]
theorem outs15_in : ∀ w : Fin cfg15.W, Pipeline.arrRef spec15 w ∉ outs15 → (cfg15.win w).isOut = false := by decide

abbrev outs16 : List (Ref sig .tc) := [main_v177]
theorem outs16_in : ∀ w : Fin cfg16.W, Pipeline.arrRef spec16 w ∉ outs16 → (cfg16.win w).isOut = false := by decide

variable (m : (ℓ : Loc nD τ sig) → Buf (Elt F) ℓ) (ρ : Dev nD → PrngReg)

theorem keep1 (c : Dev nD) (r : Ref sig .tc) (hr : r ∉ outs0) :
    W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (outs0_in w hr) _).trans (A_eq0 (V1 m ρ) c w))
  · exact W2_of_ne m ρ c r fun w e => h ⟨w, e⟩
theorem keep2 (c : Dev nD) (r : Ref sig .tc) (hr : r ∉ outs1) :
    W3 m ρ c (Proc.devRef .tc r) = W2 m ρ c (Proc.devRef .tc r) := by
  by_cases h : ∃ w, Pipeline.arrRef spec1 w = r
  · obtain ⟨w, rfl⟩ := h
    exact (W3_arr m ρ c w).trans (((dat1 (V2 m ρ) c).arrAt_in w (outs1_in w hr) _).trans (A_eq1 (V2 m ρ) c w))
  · exact W3_of_ne m ρ c r fun w e => h ⟨w, e⟩
theorem keep3 (c : Dev nD) (r : Ref sig .tc) (hr : r ∉ outs2) :
    W4 m ρ c (Proc.devRef .tc r) = W3 m ρ c (Proc.devRef .tc r) := by
  by_cases h : ∃ w, Pipeline.arrRef spec2 w = r
  · obtain ⟨w, rfl⟩ := h
    exact (W4_arr m ρ c w).trans (((dat2 (V3 m ρ) c).arrAt_in w (outs2_in w hr) _).trans (A_eq2 (V3 m ρ) c w))
  · exact W4_of_ne m ρ c r fun w e => h ⟨w, e⟩
theorem keep4 (c : Dev nD) (r : Ref sig .tc) (hr : r ∉ wr3) :
    W5 m ρ c (Proc.devRef .tc r) = W4 m ρ c (Proc.devRef .tc r) := hwr3.keep (W4 m ρ c) hr
theorem keep5 (c : Dev nD) (r : Ref sig .tc) (hr : r ∉ outs3) :
    W6 m ρ c (Proc.devRef .tc r) = W5 m ρ c (Proc.devRef .tc r) := by
  by_cases h : ∃ w, Pipeline.arrRef spec3 w = r
  · obtain ⟨w, rfl⟩ := h
    exact (W6_arr m ρ c w).trans (((dat3 (V5 m ρ) c).arrAt_in w (outs3_in w hr) _).trans (A_eq3 (V5 m ρ) c w))
  · exact W6_of_ne m ρ c r fun w e => h ⟨w, e⟩
theorem keep6 (c : Dev nD) (r : Ref sig .tc) (hr : r ∉ wr4) :
    W7 m ρ c (Proc.devRef .tc r) = W6 m ρ c (Proc.devRef .tc r) := hwr4.keep (W6 m ρ c) hr
theorem keep7 (c : Dev nD) (r : Ref sig .tc) (hr : r ∉ outs4) :
    W8 m ρ c (Proc.devRef .tc r) = W7 m ρ c (Proc.devRef .tc r) := by
  by_cases h : ∃ w, Pipeline.arrRef spec4 w = r
  · obtain ⟨w, rfl⟩ := h
    exact (W8_arr m ρ c w).trans (((dat4 (V7 m ρ) c).arrAt_in w (outs4_in w hr) _).trans (A_eq4 (V7 m ρ) c w))
  · exact W8_of_ne m ρ c r fun w e => h ⟨w, e⟩
theorem keep8 (c : Dev nD) (r : Ref sig .tc) (hr : r ∉ wr5) :
    W9 m ρ c (Proc.devRef .tc r) = W8 m ρ c (Proc.devRef .tc r) := hwr5.keep (W8 m ρ c) hr
theorem keep9 (c : Dev nD) (r : Ref sig .tc) (hr : r ∉ outs5) :
    W10 m ρ c (Proc.devRef .tc r) = W9 m ρ c (Proc.devRef .tc r) := by
  by_cases h : ∃ w, Pipeline.arrRef spec5 w = r
  · obtain ⟨w, rfl⟩ := h
    exact (W10_arr m ρ c w).trans (((dat5 (V9 m ρ) c).arrAt_in w (outs5_in w hr) _).trans (A_eq5 (V9 m ρ) c w))
  · exact W10_of_ne m ρ c r fun w e => h ⟨w, e⟩
theorem keep10 (c : Dev nD) (r : Ref sig .tc) (hr : r ∉ wr6) :
    W11 m ρ c (Proc.devRef .tc r) = W10 m ρ c (Proc.devRef .tc r) := hwr6.keep (W10 m ρ c) hr
theorem keep11 (c : Dev nD) (r : Ref sig .tc) (hr : r ∉ outs6) :
    W12 m ρ c (Proc.devRef .tc r) = W11 m ρ c (Proc.devRef .tc r) := by
  by_cases h : ∃ w, Pipeline.arrRef spec6 w = r
  · obtain ⟨w, rfl⟩ := h
    exact (W12_arr m ρ c w).trans (((dat6 (V11 m ρ) c).arrAt_in w (outs6_in w hr) _).trans (A_eq6 (V11 m ρ) c w))
  · exact W12_of_ne m ρ c r fun w e => h ⟨w, e⟩
theorem keep12 (c : Dev nD) (r : Ref sig .tc) (hr : r ∉ wr7) :
    W13 m ρ c (Proc.devRef .tc r) = W12 m ρ c (Proc.devRef .tc r) := hwr7.keep (W12 m ρ c) hr
theorem keep13 (c : Dev nD) (r : Ref sig .tc) (hr : r ∉ outs7) :
    W14 m ρ c (Proc.devRef .tc r) = W13 m ρ c (Proc.devRef .tc r) := by
  by_cases h : ∃ w, Pipeline.arrRef spec7 w = r
  · obtain ⟨w, rfl⟩ := h
    exact (W14_arr m ρ c w).trans (((dat7 (V13 m ρ) c).arrAt_in w (outs7_in w hr) _).trans (A_eq7 (V13 m ρ) c w))
  · exact W14_of_ne m ρ c r fun w e => h ⟨w, e⟩
theorem keep14 (c : Dev nD) (r : Ref sig .tc) (hr : r ∉ wr8) :
    W15 m ρ c (Proc.devRef .tc r) = W14 m ρ c (Proc.devRef .tc r) := hwr8.keep (W14 m ρ c) hr
theorem keep15 (c : Dev nD) (r : Ref sig .tc) (hr : r ∉ outs8) :
    W16 m ρ c (Proc.devRef .tc r) = W15 m ρ c (Proc.devRef .tc r) := by
  by_cases h : ∃ w, Pipeline.arrRef spec8 w = r
  · obtain ⟨w, rfl⟩ := h
    exact (W16_arr m ρ c w).trans (((dat8 (V15 m ρ) c).arrAt_in w (outs8_in w hr) _).trans (A_eq8 (V15 m ρ) c w))
  · exact W16_of_ne m ρ c r fun w e => h ⟨w, e⟩
theorem keep16 (c : Dev nD) (r : Ref sig .tc) (hr : r ∉ wr9) :
    W17 m ρ c (Proc.devRef .tc r) = W16 m ρ c (Proc.devRef .tc r) := hwr9.keep (W16 m ρ c) hr
theorem keep17 (c : Dev nD) (r : Ref sig .tc) (hr : r ∉ outs9) :
    W18 m ρ c (Proc.devRef .tc r) = W17 m ρ c (Proc.devRef .tc r) := by
  by_cases h : ∃ w, Pipeline.arrRef spec9 w = r
  · obtain ⟨w, rfl⟩ := h
    exact (W18_arr m ρ c w).trans (((dat9 (V17 m ρ) c).arrAt_in w (outs9_in w hr) _).trans (A_eq9 (V17 m ρ) c w))
  · exact W18_of_ne m ρ c r fun w e => h ⟨w, e⟩
theorem keep18 (c : Dev nD) (r : Ref sig .tc) (hr : r ∉ outs10) :
    W19 m ρ c (Proc.devRef .tc r) = W18 m ρ c (Proc.devRef .tc r) := by
  by_cases h : ∃ w, Pipeline.arrRef spec10 w = r
  · obtain ⟨w, rfl⟩ := h
    exact (W19_arr m ρ c w).trans (((dat10 (V18 m ρ) c).arrAt_in w (outs10_in w hr) _).trans (A_eq10 (V18 m ρ) c w))
  · exact W19_of_ne m ρ c r fun w e => h ⟨w, e⟩
theorem keep19 (c : Dev nD) (r : Ref sig .tc) (hr : r ∉ wr11) :
    W20 m ρ c (Proc.devRef .tc r) = W19 m ρ c (Proc.devRef .tc r) := hwr11.keep (W19 m ρ c) hr
theorem keep20 (c : Dev nD) (r : Ref sig .tc) (hr : r ∉ outs11) :
    W21 m ρ c (Proc.devRef .tc r) = W20 m ρ c (Proc.devRef .tc r) := by
  by_cases h : ∃ w, Pipeline.arrRef spec11 w = r
  · obtain ⟨w, rfl⟩ := h
    exact (W21_arr m ρ c w).trans (((dat11 (V20 m ρ) c).arrAt_in w (outs11_in w hr) _).trans (A_eq11 (V20 m ρ) c w))
  · exact W21_of_ne m ρ c r fun w e => h ⟨w, e⟩
theorem keep21 (c : Dev nD) (r : Ref sig .tc) (hr : r ∉ wr12) :
    W22 m ρ c (Proc.devRef .tc r) = W21 m ρ c (Proc.devRef .tc r) := hwr12.keep (W21 m ρ c) hr
theorem keep22 (c : Dev nD) (r : Ref sig .tc) (hr : r ∉ outs12) :
    W23 m ρ c (Proc.devRef .tc r) = W22 m ρ c (Proc.devRef .tc r) := by
  by_cases h : ∃ w, Pipeline.arrRef spec12 w = r
  · obtain ⟨w, rfl⟩ := h
    exact (W23_arr m ρ c w).trans (((dat12 (V22 m ρ) c).arrAt_in w (outs12_in w hr) _).trans (A_eq12 (V22 m ρ) c w))
  · exact W23_of_ne m ρ c r fun w e => h ⟨w, e⟩
theorem keep23 (c : Dev nD) (r : Ref sig .tc) (hr : r ∉ wr13) :
    W24 m ρ c (Proc.devRef .tc r) = W23 m ρ c (Proc.devRef .tc r) := hwr13.keep (W23 m ρ c) hr
theorem keep24 (c : Dev nD) (r : Ref sig .tc) (hr : r ∉ outs13) :
    W25 m ρ c (Proc.devRef .tc r) = W24 m ρ c (Proc.devRef .tc r) := by
  by_cases h : ∃ w, Pipeline.arrRef spec13 w = r
  · obtain ⟨w, rfl⟩ := h
    exact (W25_arr m ρ c w).trans (((dat13 (V24 m ρ) c).arrAt_in w (outs13_in w hr) _).trans (A_eq13 (V24 m ρ) c w))
  · exact W25_of_ne m ρ c r fun w e => h ⟨w, e⟩
theorem keep25 (c : Dev nD) (r : Ref sig .tc) (hr : r ∉ wr14) :
    W26 m ρ c (Proc.devRef .tc r) = W25 m ρ c (Proc.devRef .tc r) := hwr14.keep (W25 m ρ c) hr
theorem keep26 (c : Dev nD) (r : Ref sig .tc) (hr : r ∉ outs14) :
    W27 m ρ c (Proc.devRef .tc r) = W26 m ρ c (Proc.devRef .tc r) := by
  by_cases h : ∃ w, Pipeline.arrRef spec14 w = r
  · obtain ⟨w, rfl⟩ := h
    exact (W27_arr m ρ c w).trans (((dat14 (V26 m ρ) c).arrAt_in w (outs14_in w hr) _).trans (A_eq14 (V26 m ρ) c w))
  · exact W27_of_ne m ρ c r fun w e => h ⟨w, e⟩
theorem keep27 (c : Dev nD) (r : Ref sig .tc) (hr : r ∉ wr15) :
    W28 m ρ c (Proc.devRef .tc r) = W27 m ρ c (Proc.devRef .tc r) := hwr15.keep (W27 m ρ c) hr
theorem keep28 (c : Dev nD) (r : Ref sig .tc) (hr : r ∉ outs15) :
    W29 m ρ c (Proc.devRef .tc r) = W28 m ρ c (Proc.devRef .tc r) := by
  by_cases h : ∃ w, Pipeline.arrRef spec15 w = r
  · obtain ⟨w, rfl⟩ := h
    exact (W29_arr m ρ c w).trans (((dat15 (V28 m ρ) c).arrAt_in w (outs15_in w hr) _).trans (A_eq15 (V28 m ρ) c w))
  · exact W29_of_ne m ρ c r fun w e => h ⟨w, e⟩
theorem keep29 (c : Dev nD) (r : Ref sig .tc) (hr : r ∉ wr16) :
    W30 m ρ c (Proc.devRef .tc r) = W29 m ρ c (Proc.devRef .tc r) := hwr16.keep (W29 m ρ c) hr
theorem keep30 (c : Dev nD) (r : Ref sig .tc) (hr : r ∉ outs16) :
    W31 m ρ c (Proc.devRef .tc r) = W30 m ρ c (Proc.devRef .tc r) := by
  by_cases h : ∃ w, Pipeline.arrRef spec16 w = r
  · obtain ⟨w, rfl⟩ := h
    exact (W31_arr m ρ c w).trans (((dat16 (V30 m ρ) c).arrAt_in w (outs16_in w hr) _).trans (A_eq16 (V30 m ρ) c w))
  · exact W31_of_ne m ρ c r fun w e => h ⟨w, e⟩

abbrev wrFrom31 : List (Ref sig .tc) := []
theorem tail31 (c : Dev nD) (r : Ref sig .tc) (hr : r ∉ wrFrom31) :
    Wlast m ρ c (Proc.devRef .tc r) = W31 m ρ c (Proc.devRef .tc r) := rfl
abbrev wrFrom30 : List (Ref sig .tc) := outs16 ++ wrFrom31
theorem tail30 (c : Dev nD) (r : Ref sig .tc) (hr : r ∉ wrFrom30) :
    Wlast m ρ c (Proc.devRef .tc r) = W30 m ρ c (Proc.devRef .tc r) :=
  (tail31 m ρ c r fun h => hr (List.mem_append_right _ h)).trans (keep30 m ρ c r fun h => hr (List.mem_append_left _ h))
abbrev wrFrom29 : List (Ref sig .tc) := wr16 ++ wrFrom30
theorem tail29 (c : Dev nD) (r : Ref sig .tc) (hr : r ∉ wrFrom29) :
    Wlast m ρ c (Proc.devRef .tc r) = W29 m ρ c (Proc.devRef .tc r) :=
  (tail30 m ρ c r fun h => hr (List.mem_append_right _ h)).trans (keep29 m ρ c r fun h => hr (List.mem_append_left _ h))
abbrev wrFrom28 : List (Ref sig .tc) := outs15 ++ wrFrom29
theorem tail28 (c : Dev nD) (r : Ref sig .tc) (hr : r ∉ wrFrom28) :
    Wlast m ρ c (Proc.devRef .tc r) = W28 m ρ c (Proc.devRef .tc r) :=
  (tail29 m ρ c r fun h => hr (List.mem_append_right _ h)).trans (keep28 m ρ c r fun h => hr (List.mem_append_left _ h))
abbrev wrFrom27 : List (Ref sig .tc) := wr15 ++ wrFrom28
theorem tail27 (c : Dev nD) (r : Ref sig .tc) (hr : r ∉ wrFrom27) :
    Wlast m ρ c (Proc.devRef .tc r) = W27 m ρ c (Proc.devRef .tc r) :=
  (tail28 m ρ c r fun h => hr (List.mem_append_right _ h)).trans (keep27 m ρ c r fun h => hr (List.mem_append_left _ h))
abbrev wrFrom26 : List (Ref sig .tc) := outs14 ++ wrFrom27
theorem tail26 (c : Dev nD) (r : Ref sig .tc) (hr : r ∉ wrFrom26) :
    Wlast m ρ c (Proc.devRef .tc r) = W26 m ρ c (Proc.devRef .tc r) :=
  (tail27 m ρ c r fun h => hr (List.mem_append_right _ h)).trans (keep26 m ρ c r fun h => hr (List.mem_append_left _ h))
abbrev wrFrom25 : List (Ref sig .tc) := wr14 ++ wrFrom26
theorem tail25 (c : Dev nD) (r : Ref sig .tc) (hr : r ∉ wrFrom25) :
    Wlast m ρ c (Proc.devRef .tc r) = W25 m ρ c (Proc.devRef .tc r) :=
  (tail26 m ρ c r fun h => hr (List.mem_append_right _ h)).trans (keep25 m ρ c r fun h => hr (List.mem_append_left _ h))
abbrev wrFrom24 : List (Ref sig .tc) := outs13 ++ wrFrom25
theorem tail24 (c : Dev nD) (r : Ref sig .tc) (hr : r ∉ wrFrom24) :
    Wlast m ρ c (Proc.devRef .tc r) = W24 m ρ c (Proc.devRef .tc r) :=
  (tail25 m ρ c r fun h => hr (List.mem_append_right _ h)).trans (keep24 m ρ c r fun h => hr (List.mem_append_left _ h))
abbrev wrFrom23 : List (Ref sig .tc) := wr13 ++ wrFrom24
theorem tail23 (c : Dev nD) (r : Ref sig .tc) (hr : r ∉ wrFrom23) :
    Wlast m ρ c (Proc.devRef .tc r) = W23 m ρ c (Proc.devRef .tc r) :=
  (tail24 m ρ c r fun h => hr (List.mem_append_right _ h)).trans (keep23 m ρ c r fun h => hr (List.mem_append_left _ h))
abbrev wrFrom22 : List (Ref sig .tc) := outs12 ++ wrFrom23
theorem tail22 (c : Dev nD) (r : Ref sig .tc) (hr : r ∉ wrFrom22) :
    Wlast m ρ c (Proc.devRef .tc r) = W22 m ρ c (Proc.devRef .tc r) :=
  (tail23 m ρ c r fun h => hr (List.mem_append_right _ h)).trans (keep22 m ρ c r fun h => hr (List.mem_append_left _ h))
abbrev wrFrom21 : List (Ref sig .tc) := wr12 ++ wrFrom22
theorem tail21 (c : Dev nD) (r : Ref sig .tc) (hr : r ∉ wrFrom21) :
    Wlast m ρ c (Proc.devRef .tc r) = W21 m ρ c (Proc.devRef .tc r) :=
  (tail22 m ρ c r fun h => hr (List.mem_append_right _ h)).trans (keep21 m ρ c r fun h => hr (List.mem_append_left _ h))
abbrev wrFrom20 : List (Ref sig .tc) := outs11 ++ wrFrom21
theorem tail20 (c : Dev nD) (r : Ref sig .tc) (hr : r ∉ wrFrom20) :
    Wlast m ρ c (Proc.devRef .tc r) = W20 m ρ c (Proc.devRef .tc r) :=
  (tail21 m ρ c r fun h => hr (List.mem_append_right _ h)).trans (keep20 m ρ c r fun h => hr (List.mem_append_left _ h))
abbrev wrFrom19 : List (Ref sig .tc) := wr11 ++ wrFrom20
theorem tail19 (c : Dev nD) (r : Ref sig .tc) (hr : r ∉ wrFrom19) :
    Wlast m ρ c (Proc.devRef .tc r) = W19 m ρ c (Proc.devRef .tc r) :=
  (tail20 m ρ c r fun h => hr (List.mem_append_right _ h)).trans (keep19 m ρ c r fun h => hr (List.mem_append_left _ h))
abbrev wrFrom18 : List (Ref sig .tc) := outs10 ++ wrFrom19
theorem tail18 (c : Dev nD) (r : Ref sig .tc) (hr : r ∉ wrFrom18) :
    Wlast m ρ c (Proc.devRef .tc r) = W18 m ρ c (Proc.devRef .tc r) :=
  (tail19 m ρ c r fun h => hr (List.mem_append_right _ h)).trans (keep18 m ρ c r fun h => hr (List.mem_append_left _ h))
abbrev wrFrom17 : List (Ref sig .tc) := outs9 ++ wrFrom18
theorem tail17 (c : Dev nD) (r : Ref sig .tc) (hr : r ∉ wrFrom17) :
    Wlast m ρ c (Proc.devRef .tc r) = W17 m ρ c (Proc.devRef .tc r) :=
  (tail18 m ρ c r fun h => hr (List.mem_append_right _ h)).trans (keep17 m ρ c r fun h => hr (List.mem_append_left _ h))
abbrev wrFrom16 : List (Ref sig .tc) := wr9 ++ wrFrom17
theorem tail16 (c : Dev nD) (r : Ref sig .tc) (hr : r ∉ wrFrom16) :
    Wlast m ρ c (Proc.devRef .tc r) = W16 m ρ c (Proc.devRef .tc r) :=
  (tail17 m ρ c r fun h => hr (List.mem_append_right _ h)).trans (keep16 m ρ c r fun h => hr (List.mem_append_left _ h))
abbrev wrFrom15 : List (Ref sig .tc) := outs8 ++ wrFrom16
theorem tail15 (c : Dev nD) (r : Ref sig .tc) (hr : r ∉ wrFrom15) :
    Wlast m ρ c (Proc.devRef .tc r) = W15 m ρ c (Proc.devRef .tc r) :=
  (tail16 m ρ c r fun h => hr (List.mem_append_right _ h)).trans (keep15 m ρ c r fun h => hr (List.mem_append_left _ h))
abbrev wrFrom14 : List (Ref sig .tc) := wr8 ++ wrFrom15
theorem tail14 (c : Dev nD) (r : Ref sig .tc) (hr : r ∉ wrFrom14) :
    Wlast m ρ c (Proc.devRef .tc r) = W14 m ρ c (Proc.devRef .tc r) :=
  (tail15 m ρ c r fun h => hr (List.mem_append_right _ h)).trans (keep14 m ρ c r fun h => hr (List.mem_append_left _ h))
abbrev wrFrom13 : List (Ref sig .tc) := outs7 ++ wrFrom14
theorem tail13 (c : Dev nD) (r : Ref sig .tc) (hr : r ∉ wrFrom13) :
    Wlast m ρ c (Proc.devRef .tc r) = W13 m ρ c (Proc.devRef .tc r) :=
  (tail14 m ρ c r fun h => hr (List.mem_append_right _ h)).trans (keep13 m ρ c r fun h => hr (List.mem_append_left _ h))
abbrev wrFrom12 : List (Ref sig .tc) := wr7 ++ wrFrom13
theorem tail12 (c : Dev nD) (r : Ref sig .tc) (hr : r ∉ wrFrom12) :
    Wlast m ρ c (Proc.devRef .tc r) = W12 m ρ c (Proc.devRef .tc r) :=
  (tail13 m ρ c r fun h => hr (List.mem_append_right _ h)).trans (keep12 m ρ c r fun h => hr (List.mem_append_left _ h))
abbrev wrFrom11 : List (Ref sig .tc) := outs6 ++ wrFrom12
theorem tail11 (c : Dev nD) (r : Ref sig .tc) (hr : r ∉ wrFrom11) :
    Wlast m ρ c (Proc.devRef .tc r) = W11 m ρ c (Proc.devRef .tc r) :=
  (tail12 m ρ c r fun h => hr (List.mem_append_right _ h)).trans (keep11 m ρ c r fun h => hr (List.mem_append_left _ h))
abbrev wrFrom10 : List (Ref sig .tc) := wr6 ++ wrFrom11
theorem tail10 (c : Dev nD) (r : Ref sig .tc) (hr : r ∉ wrFrom10) :
    Wlast m ρ c (Proc.devRef .tc r) = W10 m ρ c (Proc.devRef .tc r) :=
  (tail11 m ρ c r fun h => hr (List.mem_append_right _ h)).trans (keep10 m ρ c r fun h => hr (List.mem_append_left _ h))
abbrev wrFrom9 : List (Ref sig .tc) := outs5 ++ wrFrom10
theorem tail9 (c : Dev nD) (r : Ref sig .tc) (hr : r ∉ wrFrom9) :
    Wlast m ρ c (Proc.devRef .tc r) = W9 m ρ c (Proc.devRef .tc r) :=
  (tail10 m ρ c r fun h => hr (List.mem_append_right _ h)).trans (keep9 m ρ c r fun h => hr (List.mem_append_left _ h))
abbrev wrFrom8 : List (Ref sig .tc) := wr5 ++ wrFrom9
theorem tail8 (c : Dev nD) (r : Ref sig .tc) (hr : r ∉ wrFrom8) :
    Wlast m ρ c (Proc.devRef .tc r) = W8 m ρ c (Proc.devRef .tc r) :=
  (tail9 m ρ c r fun h => hr (List.mem_append_right _ h)).trans (keep8 m ρ c r fun h => hr (List.mem_append_left _ h))
abbrev wrFrom7 : List (Ref sig .tc) := outs4 ++ wrFrom8
theorem tail7 (c : Dev nD) (r : Ref sig .tc) (hr : r ∉ wrFrom7) :
    Wlast m ρ c (Proc.devRef .tc r) = W7 m ρ c (Proc.devRef .tc r) :=
  (tail8 m ρ c r fun h => hr (List.mem_append_right _ h)).trans (keep7 m ρ c r fun h => hr (List.mem_append_left _ h))
abbrev wrFrom6 : List (Ref sig .tc) := wr4 ++ wrFrom7
theorem tail6 (c : Dev nD) (r : Ref sig .tc) (hr : r ∉ wrFrom6) :
    Wlast m ρ c (Proc.devRef .tc r) = W6 m ρ c (Proc.devRef .tc r) :=
  (tail7 m ρ c r fun h => hr (List.mem_append_right _ h)).trans (keep6 m ρ c r fun h => hr (List.mem_append_left _ h))
abbrev wrFrom5 : List (Ref sig .tc) := outs3 ++ wrFrom6
theorem tail5 (c : Dev nD) (r : Ref sig .tc) (hr : r ∉ wrFrom5) :
    Wlast m ρ c (Proc.devRef .tc r) = W5 m ρ c (Proc.devRef .tc r) :=
  (tail6 m ρ c r fun h => hr (List.mem_append_right _ h)).trans (keep5 m ρ c r fun h => hr (List.mem_append_left _ h))
abbrev wrFrom4 : List (Ref sig .tc) := wr3 ++ wrFrom5
theorem tail4 (c : Dev nD) (r : Ref sig .tc) (hr : r ∉ wrFrom4) :
    Wlast m ρ c (Proc.devRef .tc r) = W4 m ρ c (Proc.devRef .tc r) :=
  (tail5 m ρ c r fun h => hr (List.mem_append_right _ h)).trans (keep4 m ρ c r fun h => hr (List.mem_append_left _ h))
abbrev wrFrom3 : List (Ref sig .tc) := outs2 ++ wrFrom4
theorem tail3 (c : Dev nD) (r : Ref sig .tc) (hr : r ∉ wrFrom3) :
    Wlast m ρ c (Proc.devRef .tc r) = W3 m ρ c (Proc.devRef .tc r) :=
  (tail4 m ρ c r fun h => hr (List.mem_append_right _ h)).trans (keep3 m ρ c r fun h => hr (List.mem_append_left _ h))
abbrev wrFrom2 : List (Ref sig .tc) := outs1 ++ wrFrom3
theorem tail2 (c : Dev nD) (r : Ref sig .tc) (hr : r ∉ wrFrom2) :
    Wlast m ρ c (Proc.devRef .tc r) = W2 m ρ c (Proc.devRef .tc r) :=
  (tail3 m ρ c r fun h => hr (List.mem_append_right _ h)).trans (keep2 m ρ c r fun h => hr (List.mem_append_left _ h))
abbrev wrFrom1 : List (Ref sig .tc) := outs0 ++ wrFrom2
theorem tail1 (c : Dev nD) (r : Ref sig .tc) (hr : r ∉ wrFrom1) :
    Wlast m ρ c (Proc.devRef .tc r) = W1 m ρ c (Proc.devRef .tc r) :=
  (tail2 m ρ c r fun h => hr (List.mem_append_right _ h)).trans (keep1 m ρ c r fun h => hr (List.mem_append_left _ h))

theorem ssa_v0 (c : Dev nD) : Wlast m ρ c (Proc.devRef .tc main_v0) = ((extractStridedSlice S10000x64 ![0, 0] · slices_S10001x64_S10000x64_0_0) : (⟨S10001x64, .f32⟩ : BufTy).Contents (Elt F) → (⟨S10000x64, .f32⟩ : BufTy).Contents (Elt F)) (Wlast m ρ c (Proc.devRef .tc main_arg0)) :=
  stmt_unary hwr0 (W0 m ρ c) (Wlast m ρ c) wrFrom1 (tail1 m ρ c) 0 main_arg0 main_v0 _ rfl (by decide) (by decide)

theorem ssa_cst (c : Dev nD) : Wlast m ρ c (Proc.devRef .tc main_cst) = (constant S_ .f32 0x00000000#32) :=
  stmt_nullary hwr3 (W4 m ρ c) (Wlast m ρ c) wrFrom5 (tail5 m ρ c) 0 main_cst _ rfl (by decide)
theorem ssa_v4 (c : Dev nD) : Wlast m ρ c (Proc.devRef .tc main_v4) = (broadcastInDim S10000x10000 ![] bcast_S_S10000x10000 : (⟨S_, .f32⟩ : BufTy).Contents (Elt F) → (⟨S10000x10000, .f32⟩ : BufTy).Contents (Elt F)) (Wlast m ρ c (Proc.devRef .tc main_cst)) :=
  stmt_unary hwr3 (W4 m ρ c) (Wlast m ρ c) wrFrom5 (tail5 m ρ c) 1 main_cst main_v4 _ rfl (by decide) (by decide)
theorem ssa_c (c : Dev nD) : Wlast m ρ c (Proc.devRef .tc main_c) = (constantI S_ 32 0#32) :=
  stmt_nullary hwr3 (W4 m ρ c) (Wlast m ρ c) wrFrom5 (tail5 m ρ c) 2 main_c _ rfl (by decide)
theorem ssa_v5 (c : Dev nD) : Wlast m ρ c (Proc.devRef .tc main_v5) = (broadcastInDim S320000 ![] bcast_S_S320000 : (⟨S_, .i32⟩ : BufTy).Contents (Elt F) → (⟨S320000, .i32⟩ : BufTy).Contents (Elt F)) (Wlast m ρ c (Proc.devRef .tc main_c)) :=
  stmt_unary hwr3 (W4 m ρ c) (Wlast m ρ c) wrFrom5 (tail5 m ρ c) 3 main_c main_v5 _ rfl (by decide) (by decide)
theorem ssa_v6 (c : Dev nD) : Wlast m ρ c (Proc.devRef .tc main_v6) = (cmpi .slt : (⟨S320000, .i32⟩ : BufTy).Contents (Elt F) → (⟨S320000, .i32⟩ : BufTy).Contents (Elt F) → (⟨S320000, .i1⟩ : BufTy).Contents (Elt F)) (Wlast m ρ c (Proc.devRef .tc main_arg15)) (Wlast m ρ c (Proc.devRef .tc main_v5)) :=
  stmt_binary hwr3 (W4 m ρ c) (Wlast m ρ c) wrFrom5 (tail5 m ρ c) 4 main_arg15 main_v5 main_v6 _ rfl (by decide) (by decide) (by decide)
theorem ssa_c_0 (c : Dev nD) : Wlast m ρ c (Proc.devRef .tc main_c_0) = (constantI S_ 32 10000#32) :=
  stmt_nullary hwr3 (W4 m ρ c) (Wlast m ρ c) wrFrom5 (tail5 m ρ c) 5 main_c_0 _ rfl (by decide)
theorem ssa_v7 (c : Dev nD) : Wlast m ρ c (Proc.devRef .tc main_v7) = (broadcastInDim S320000 ![] bcast_S_S320000 : (⟨S_, .i32⟩ : BufTy).Contents (Elt F) → (⟨S320000, .i32⟩ : BufTy).Contents (Elt F)) (Wlast m ρ c (Proc.devRef .tc main_c_0)) :=
  stmt_unary hwr3 (W4 m ρ c) (Wlast m ρ c) wrFrom5 (tail5 m ρ c) 6 main_c_0 main_v7 _ rfl (by decide) (by decide)
theorem ssa_v8 (c : Dev nD) : Wlast m ρ c (Proc.devRef .tc main_v8) = (addi : (⟨S320000, .i32⟩ : BufTy).Contents (Elt F) → (⟨S320000, .i32⟩ : BufTy).Contents (Elt F) → (⟨S320000, .i32⟩ : BufTy).Contents (Elt F)) (Wlast m ρ c (Proc.devRef .tc main_arg15)) (Wlast m ρ c (Proc.devRef .tc main_v7)) :=
  stmt_binary hwr3 (W4 m ρ c) (Wlast m ρ c) wrFrom5 (tail5 m ρ c) 7 main_arg15 main_v7 main_v8 _ rfl (by decide) (by decide) (by decide)
theorem ssa_v9 (c : Dev nD) : Wlast m ρ c (Proc.devRef .tc main_v9) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (Wlast m ρ c (Proc.devRef .tc main_v6)) (Wlast m ρ c (Proc.devRef .tc main_v8)) (Wlast m ρ c (Proc.devRef .tc main_arg15)) :=
  stmt_ternary hwr3 (W4 m ρ c) (Wlast m ρ c) wrFrom5 (tail5 m ρ c) 8 main_v6 main_v8 main_arg15 main_v9 _ rfl (by decide) (by decide) (by decide) (by decide)
theorem ssa_c_1 (c : Dev nD) : Wlast m ρ c (Proc.devRef .tc main_c_1) = (constantI S_ 32 0#32) :=
  stmt_nullary hwr3 (W4 m ρ c) (Wlast m ρ c) wrFrom5 (tail5 m ρ c) 9 main_c_1 _ rfl (by decide)
theorem ssa_v10 (c : Dev nD) : Wlast m ρ c (Proc.devRef .tc main_v10) = (broadcastInDim S320000 ![] bcast_S_S320000 : (⟨S_, .i32⟩ : BufTy).Contents (Elt F) → (⟨S320000, .i32⟩ : BufTy).Contents (Elt F)) (Wlast m ρ c (Proc.devRef .tc main_c_1)) :=
  stmt_unary hwr3 (W4 m ρ c) (Wlast m ρ c) wrFrom5 (tail5 m ρ c) 10 main_c_1 main_v10 _ rfl (by decide) (by decide)
theorem ssa_v11 (c : Dev nD) : Wlast m ρ c (Proc.devRef .tc main_v11) = (cmpi .slt : (⟨S320000, .i32⟩ : BufTy).Contents (Elt F) → (⟨S320000, .i32⟩ : BufTy).Contents (Elt F) → (⟨S320000, .i1⟩ : BufTy).Contents (Elt F)) (Wlast m ρ c (Proc.devRef .tc main_arg16)) (Wlast m ρ c (Proc.devRef .tc main_v10)) :=
  stmt_binary hwr3 (W4 m ρ c) (Wlast m ρ c) wrFrom5 (tail5 m ρ c) 11 main_arg16 main_v10 main_v11 _ rfl (by decide) (by decide) (by decide)
theorem ssa_c_2 (c : Dev nD) : Wlast m ρ c (Proc.devRef .tc main_c_2) = (constantI S_ 32 10000#32) :=
  stmt_nullary hwr3 (W4 m ρ c) (Wlast m ρ c) wrFrom5 (tail5 m ρ c) 12 main_c_2 _ rfl (by decide)
theorem ssa_v12 (c : Dev nD) : Wlast m ρ c (Proc.devRef .tc main_v12) = (broadcastInDim S320000 ![] bcast_S_S320000 : (⟨S_, .i32⟩ : BufTy).Contents (Elt F) → (⟨S320000, .i32⟩ : BufTy).Contents (Elt F)) (Wlast m ρ c (Proc.devRef .tc main_c_2)) :=
  stmt_unary hwr3 (W4 m ρ c) (Wlast m ρ c) wrFrom5 (tail5 m ρ c) 13 main_c_2 main_v12 _ rfl (by decide) (by decide)
theorem ssa_v13 (c : Dev nD) : Wlast m ρ c (Proc.devRef .tc main_v13) = (addi : (⟨S320000, .i32⟩ : BufTy).Contents (Elt F) → (⟨S320000, .i32⟩ : BufTy).Contents (Elt F) → (⟨S320000, .i32⟩ : BufTy).Contents (Elt F)) (Wlast m ρ c (Proc.devRef .tc main_arg16)) (Wlast m ρ c (Proc.devRef .tc main_v12)) :=
  stmt_binary hwr3 (W4 m ρ c) (Wlast m ρ c) wrFrom5 (tail5 m ρ c) 14 main_arg16 main_v12 main_v13 _ rfl (by decide) (by decide) (by decide)
theorem ssa_v14 (c : Dev nD) : Wlast m ρ c (Proc.devRef .tc main_v14) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (Wlast m ρ c (Proc.devRef .tc main_v11)) (Wlast m ρ c (Proc.devRef .tc main_v13)) (Wlast m ρ c (Proc.devRef .tc main_arg16)) :=
  stmt_ternary hwr3 (W4 m ρ c) (Wlast m ρ c) wrFrom5 (tail5 m ρ c) 15 main_v11 main_v13 main_arg16 main_v14 _ rfl (by decide) (by decide) (by decide) (by decide)
theorem ssa_v15 (c : Dev nD) : Wlast m ρ c (Proc.devRef .tc main_v15) = (broadcastInDim S320000x1 ![0] bcast_S320000_S320000x1_0 : (⟨S320000, .i32⟩ : BufTy).Contents (Elt F) → (⟨S320000x1, .i32⟩ : BufTy).Contents (Elt F)) (Wlast m ρ c (Proc.devRef .tc main_v9)) :=
  stmt_unary hwr3 (W4 m ρ c) (Wlast m ρ c) wrFrom5 (tail5 m ρ c) 16 main_v9 main_v15 _ rfl (by decide) (by decide)
theorem ssa_v16 (c : Dev nD) : Wlast m ρ c (Proc.devRef .tc main_v16) = (broadcastInDim S320000x1 ![0] bcast_S320000_S320000x1_0 : (⟨S320000, .i32⟩ : BufTy).Contents (Elt F) → (⟨S320000x1, .i32⟩ : BufTy).Contents (Elt F)) (Wlast m ρ c (Proc.devRef .tc main_v14)) :=
  stmt_unary hwr3 (W4 m ρ c) (Wlast m ρ c) wrFrom5 (tail5 m ρ c) 17 main_v14 main_v16 _ rfl (by decide) (by decide)
theorem ssa_v17 (c : Dev nD) : Wlast m ρ c (Proc.devRef .tc main_v17) = ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)) (Wlast m ρ c (Proc.devRef .tc main_v15)) (Wlast m ρ c (Proc.devRef .tc main_v16)) :=
  stmt_binary hwr3 (W4 m ρ c) (Wlast m ρ c) wrFrom5 (tail5 m ρ c) 18 main_v15 main_v16 main_v17 _ rfl (by decide) (by decide) (by decide)
theorem ssa_v18 (c : Dev nD) : Wlast m ρ c (Proc.devRef .tc main_v18) = ((fun x i u => Host.scatterAdd scatter_S10000x10000_S320000x2_S320000_n_01_01_1 x i u) : (⟨S10000x10000, .f32⟩ : BufTy).Contents (Elt F) → (⟨S320000x2, .i32⟩ : BufTy).Contents (Elt F) → (⟨S320000, .f32⟩ : BufTy).Contents (Elt F) → (⟨S10000x10000, .f32⟩ : BufTy).Contents (Elt F)) (Wlast m ρ c (Proc.devRef .tc main_v4)) (Wlast m ρ c (Proc.devRef .tc main_v17)) (Wlast m ρ c (Proc.devRef .tc main_arg10)) :=
  stmt_ternary hwr3 (W4 m ρ c) (Wlast m ρ c) wrFrom5 (tail5 m ρ c) 19 main_v4 main_v17 main_arg10 main_v18 _ rfl (by decide) (by decide) (by decide) (by decide)
theorem ssa_v19 (c : Dev nD) : Wlast m ρ c (Proc.devRef .tc main_v19) = ((truncf .bf16 · bitsLt_bf16_f32) : (⟨S10000x10000, .f32⟩ : BufTy).Contents (Elt F) → (⟨S10000x10000, .bf16⟩ : BufTy).Contents (Elt F)) (Wlast m ρ c (Proc.devRef .tc main_v18)) :=
  stmt_unary hwr3 (W4 m ρ c) (Wlast m ρ c) wrFrom5 (tail5 m ρ c) 20 main_v18 main_v19 _ rfl (by decide) (by decide)
theorem ssa_cst_3 (c : Dev nD) : Wlast m ρ c (Proc.devRef .tc main_cst_3) = (constant S_ .f32 0x00000000#32) :=
  stmt_nullary hwr3 (W4 m ρ c) (Wlast m ρ c) wrFrom5 (tail5 m ρ c) 21 main_cst_3 _ rfl (by decide)
theorem ssa_v20 (c : Dev nD) : Wlast m ρ c (Proc.devRef .tc main_v20) = (broadcastInDim S10000x10000 ![] bcast_S_S10000x10000 : (⟨S_, .f32⟩ : BufTy).Contents (Elt F) → (⟨S10000x10000, .f32⟩ : BufTy).Contents (Elt F)) (Wlast m ρ c (Proc.devRef .tc main_cst_3)) :=
  stmt_unary hwr3 (W4 m ρ c) (Wlast m ρ c) wrFrom5 (tail5 m ρ c) 22 main_cst_3 main_v20 _ rfl (by decide) (by decide)
theorem ssa_c_4 (c : Dev nD) : Wlast m ρ c (Proc.devRef .tc main_c_4) = (constantI S_ 32 0#32) :=
  stmt_nullary hwr3 (W4 m ρ c) (Wlast m ρ c) wrFrom5 (tail5 m ρ c) 23 main_c_4 _ rfl (by decide)
theorem ssa_v21 (c : Dev nD) : Wlast m ρ c (Proc.devRef .tc main_v21) = (broadcastInDim S320000 ![] bcast_S_S320000 : (⟨S_, .i32⟩ : BufTy).Contents (Elt F) → (⟨S320000, .i32⟩ : BufTy).Contents (Elt F)) (Wlast m ρ c (Proc.devRef .tc main_c_4)) :=
  stmt_unary hwr3 (W4 m ρ c) (Wlast m ρ c) wrFrom5 (tail5 m ρ c) 24 main_c_4 main_v21 _ rfl (by decide) (by decide)
theorem ssa_v22 (c : Dev nD) : Wlast m ρ c (Proc.devRef .tc main_v22) = (cmpi .slt : (⟨S320000, .i32⟩ : BufTy).Contents (Elt F) → (⟨S320000, .i32⟩ : BufTy).Contents (Elt F) → (⟨S320000, .i1⟩ : BufTy).Contents (Elt F)) (Wlast m ρ c (Proc.devRef .tc main_arg19)) (Wlast m ρ c (Proc.devRef .tc main_v21)) :=
  stmt_binary hwr3 (W4 m ρ c) (Wlast m ρ c) wrFrom5 (tail5 m ρ c) 25 main_arg19 main_v21 main_v22 _ rfl (by decide) (by decide) (by decide)
theorem ssa_c_5 (c : Dev nD) : Wlast m ρ c (Proc.devRef .tc main_c_5) = (constantI S_ 32 10000#32) :=
  stmt_nullary hwr3 (W4 m ρ c) (Wlast m ρ c) wrFrom5 (tail5 m ρ c) 26 main_c_5 _ rfl (by decide)
theorem ssa_v23 (c : Dev nD) : Wlast m ρ c (Proc.devRef .tc main_v23) = (broadcastInDim S320000 ![] bcast_S_S320000 : (⟨S_, .i32⟩ : BufTy).Contents (Elt F) → (⟨S320000, .i32⟩ : BufTy).Contents (Elt F)) (Wlast m ρ c (Proc.devRef .tc main_c_5)) :=
  stmt_unary hwr3 (W4 m ρ c) (Wlast m ρ c) wrFrom5 (tail5 m ρ c) 27 main_c_5 main_v23 _ rfl (by decide) (by decide)
theorem ssa_v24 (c : Dev nD) : Wlast m ρ c (Proc.devRef .tc main_v24) = (addi : (⟨S320000, .i32⟩ : BufTy).Contents (Elt F) → (⟨S320000, .i32⟩ : BufTy).Contents (Elt F) → (⟨S320000, .i32⟩ : BufTy).Contents (Elt F)) (Wlast m ρ c (Proc.devRef .tc main_arg19)) (Wlast m ρ c (Proc.devRef .tc main_v23)) :=
  stmt_binary hwr3 (W4 m ρ c) (Wlast m ρ c) wrFrom5 (tail5 m ρ c) 28 main_arg19 main_v23 main_v24 _ rfl (by decide) (by decide) (by decide)
theorem ssa_v25 (c : Dev nD) : Wlast m ρ c (Proc.devRef .tc main_v25) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (Wlast m ρ c (Proc.devRef .tc main_v22)) (Wlast m ρ c (Proc.devRef .tc main_v24)) (Wlast m ρ c (Proc.devRef .tc main_arg19)) :=
  stmt_ternary hwr3 (W4 m ρ c) (Wlast m ρ c) wrFrom5 (tail5 m ρ c) 29 main_v22 main_v24 main_arg19 main_v25 _ rfl (by decide) (by decide) (by decide) (by decide)
theorem ssa_c_6 (c : Dev nD) : Wlast m ρ c (Proc.devRef .tc main_c_6) = (constantI S_ 32 0#32) :=
  stmt_nullary hwr3 (W4 m ρ c) (Wlast m ρ c) wrFrom5 (tail5 m ρ c) 30 main_c_6 _ rfl (by decide)
theorem ssa_v26 (c : Dev nD) : Wlast m ρ c (Proc.devRef .tc main_v26) = (broadcastInDim S320000 ![] bcast_S_S320000 : (⟨S_, .i32⟩ : BufTy).Contents (Elt F) → (⟨S320000, .i32⟩ : BufTy).Contents (Elt F)) (Wlast m ρ c (Proc.devRef .tc main_c_6)) :=
  stmt_unary hwr3 (W4 m ρ c) (Wlast m ρ c) wrFrom5 (tail5 m ρ c) 31 main_c_6 main_v26 _ rfl (by decide) (by decide)
theorem ssa_v27 (c : Dev nD) : Wlast m ρ c (Proc.devRef .tc main_v27) = (cmpi .slt : (⟨S320000, .i32⟩ : BufTy).Contents (Elt F) → (⟨S320000, .i32⟩ : BufTy).Contents (Elt F) → (⟨S320000, .i1⟩ : BufTy).Contents (Elt F)) (Wlast m ρ c (Proc.devRef .tc main_arg20)) (Wlast m ρ c (Proc.devRef .tc main_v26)) :=
  stmt_binary hwr3 (W4 m ρ c) (Wlast m ρ c) wrFrom5 (tail5 m ρ c) 32 main_arg20 main_v26 main_v27 _ rfl (by decide) (by decide) (by decide)
theorem ssa_c_7 (c : Dev nD) : Wlast m ρ c (Proc.devRef .tc main_c_7) = (constantI S_ 32 10000#32) :=
  stmt_nullary hwr3 (W4 m ρ c) (Wlast m ρ c) wrFrom5 (tail5 m ρ c) 33 main_c_7 _ rfl (by decide)
theorem ssa_v28 (c : Dev nD) : Wlast m ρ c (Proc.devRef .tc main_v28) = (broadcastInDim S320000 ![] bcast_S_S320000 : (⟨S_, .i32⟩ : BufTy).Contents (Elt F) → (⟨S320000, .i32⟩ : BufTy).Contents (Elt F)) (Wlast m ρ c (Proc.devRef .tc main_c_7)) :=
  stmt_unary hwr3 (W4 m ρ c) (Wlast m ρ c) wrFrom5 (tail5 m ρ c) 34 main_c_7 main_v28 _ rfl (by decide) (by decide)
theorem ssa_v29 (c : Dev nD) : Wlast m ρ c (Proc.devRef .tc main_v29) = (addi : (⟨S320000, .i32⟩ : BufTy).Contents (Elt F) → (⟨S320000, .i32⟩ : BufTy).Contents (Elt F) → (⟨S320000, .i32⟩ : BufTy).Contents (Elt F)) (Wlast m ρ c (Proc.devRef .tc main_arg20)) (Wlast m ρ c (Proc.devRef .tc main_v28)) :=
  stmt_binary hwr3 (W4 m ρ c) (Wlast m ρ c) wrFrom5 (tail5 m ρ c) 35 main_arg20 main_v28 main_v29 _ rfl (by decide) (by decide) (by decide)
theorem ssa_v30 (c : Dev nD) : Wlast m ρ c (Proc.devRef .tc main_v30) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (Wlast m ρ c (Proc.devRef .tc main_v27)) (Wlast m ρ c (Proc.devRef .tc main_v29)) (Wlast m ρ c (Proc.devRef .tc main_arg20)) :=
  stmt_ternary hwr3 (W4 m ρ c) (Wlast m ρ c) wrFrom5 (tail5 m ρ c) 36 main_v27 main_v29 main_arg20 main_v30 _ rfl (by decide) (by decide) (by decide) (by decide)
theorem ssa_v31 (c : Dev nD) : Wlast m ρ c (Proc.devRef .tc main_v31) = (broadcastInDim S320000x1 ![0] bcast_S320000_S320000x1_0 : (⟨S320000, .i32⟩ : BufTy).Contents (Elt F) → (⟨S320000x1, .i32⟩ : BufTy).Contents (Elt F)) (Wlast m ρ c (Proc.devRef .tc main_v25)) :=
  stmt_unary hwr3 (W4 m ρ c) (Wlast m ρ c) wrFrom5 (tail5 m ρ c) 37 main_v25 main_v31 _ rfl (by decide) (by decide)
theorem ssa_v32 (c : Dev nD) : Wlast m ρ c (Proc.devRef .tc main_v32) = (broadcastInDim S320000x1 ![0] bcast_S320000_S320000x1_0 : (⟨S320000, .i32⟩ : BufTy).Contents (Elt F) → (⟨S320000x1, .i32⟩ : BufTy).Contents (Elt F)) (Wlast m ρ c (Proc.devRef .tc main_v30)) :=
  stmt_unary hwr3 (W4 m ρ c) (Wlast m ρ c) wrFrom5 (tail5 m ρ c) 38 main_v30 main_v32 _ rfl (by decide) (by decide)
theorem ssa_v33 (c : Dev nD) : Wlast m ρ c (Proc.devRef .tc main_v33) = ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)) (Wlast m ρ c (Proc.devRef .tc main_v31)) (Wlast m ρ c (Proc.devRef .tc main_v32)) :=
  stmt_binary hwr3 (W4 m ρ c) (Wlast m ρ c) wrFrom5 (tail5 m ρ c) 39 main_v31 main_v32 main_v33 _ rfl (by decide) (by decide) (by decide)
theorem ssa_v34 (c : Dev nD) : Wlast m ρ c (Proc.devRef .tc main_v34) = ((fun x i u => Host.scatterAdd scatter_S10000x10000_S320000x2_S320000_n_01_01_1 x i u) : (⟨S10000x10000, .f32⟩ : BufTy).Contents (Elt F) → (⟨S320000x2, .i32⟩ : BufTy).Contents (Elt F) → (⟨S320000, .f32⟩ : BufTy).Contents (Elt F) → (⟨S10000x10000, .f32⟩ : BufTy).Contents (Elt F)) (Wlast m ρ c (Proc.devRef .tc main_v20)) (Wlast m ρ c (Proc.devRef .tc main_v33)) (Wlast m ρ c (Proc.devRef .tc main_arg12)) :=
  stmt_ternary hwr3 (W4 m ρ c) (Wlast m ρ c) wrFrom5 (tail5 m ρ c) 40 main_v20 main_v33 main_arg12 main_v34 _ rfl (by decide) (by decide) (by decide) (by decide)
theorem ssa_v35 (c : Dev nD) : Wlast m ρ c (Proc.devRef .tc main_v35) = ((truncf .bf16 · bitsLt_bf16_f32) : (⟨S10000x10000, .f32⟩ : BufTy).Contents (Elt F) → (⟨S10000x10000, .bf16⟩ : BufTy).Contents (Elt F)) (Wlast m ρ c (Proc.devRef .tc main_v34)) :=
  stmt_unary hwr3 (W4 m ρ c) (Wlast m ρ c) wrFrom5 (tail5 m ρ c) 41 main_v34 main_v35 _ rfl (by decide) (by decide)
theorem ssa_cst_8 (c : Dev nD) : Wlast m ρ c (Proc.devRef .tc main_cst_8) = (constant S_ .f32 0x00000000#32) :=
  stmt_nullary hwr3 (W4 m ρ c) (Wlast m ρ c) wrFrom5 (tail5 m ρ c) 42 main_cst_8 _ rfl (by decide)
theorem ssa_v36 (c : Dev nD) : Wlast m ρ c (Proc.devRef .tc main_v36) = (broadcastInDim S10000x10000 ![] bcast_S_S10000x10000 : (⟨S_, .f32⟩ : BufTy).Contents (Elt F) → (⟨S10000x10000, .f32⟩ : BufTy).Contents (Elt F)) (Wlast m ρ c (Proc.devRef .tc main_cst_8)) :=
  stmt_unary hwr3 (W4 m ρ c) (Wlast m ρ c) wrFrom5 (tail5 m ρ c) 43 main_cst_8 main_v36 _ rfl (by decide) (by decide)
theorem ssa_c_9 (c : Dev nD) : Wlast m ρ c (Proc.devRef .tc main_c_9) = (constantI S_ 32 0#32) :=
  stmt_nullary hwr3 (W4 m ρ c) (Wlast m ρ c) wrFrom5 (tail5 m ρ c) 44 main_c_9 _ rfl (by decide)
theorem ssa_v37 (c : Dev nD) : Wlast m ρ c (Proc.devRef .tc main_v37) = (broadcastInDim S320000 ![] bcast_S_S320000 : (⟨S_, .i32⟩ : BufTy).Contents (Elt F) → (⟨S320000, .i32⟩ : BufTy).Contents (Elt F)) (Wlast m ρ c (Proc.devRef .tc main_c_9)) :=
  stmt_unary hwr3 (W4 m ρ c) (Wlast m ρ c) wrFrom5 (tail5 m ρ c) 45 main_c_9 main_v37 _ rfl (by decide) (by decide)
theorem ssa_v38 (c : Dev nD) : Wlast m ρ c (Proc.devRef .tc main_v38) = (cmpi .slt : (⟨S320000, .i32⟩ : BufTy).Contents (Elt F) → (⟨S320000, .i32⟩ : BufTy).Contents (Elt F) → (⟨S320000, .i1⟩ : BufTy).Contents (Elt F)) (Wlast m ρ c (Proc.devRef .tc main_arg17)) (Wlast m ρ c (Proc.devRef .tc main_v37)) :=
  stmt_binary hwr3 (W4 m ρ c) (Wlast m ρ c) wrFrom5 (tail5 m ρ c) 46 main_arg17 main_v37 main_v38 _ rfl (by decide) (by decide) (by decide)
theorem ssa_c_10 (c : Dev nD) : Wlast m ρ c (Proc.devRef .tc main_c_10) = (constantI S_ 32 10000#32) :=
  stmt_nullary hwr3 (W4 m ρ c) (Wlast m ρ c) wrFrom5 (tail5 m ρ c) 47 main_c_10 _ rfl (by decide)
theorem ssa_v39 (c : Dev nD) : Wlast m ρ c (Proc.devRef .tc main_v39) = (broadcastInDim S320000 ![] bcast_S_S320000 : (⟨S_, .i32⟩ : BufTy).Contents (Elt F) → (⟨S320000, .i32⟩ : BufTy).Contents (Elt F)) (Wlast m ρ c (Proc.devRef .tc main_c_10)) :=
  stmt_unary hwr3 (W4 m ρ c) (Wlast m ρ c) wrFrom5 (tail5 m ρ c) 48 main_c_10 main_v39 _ rfl (by decide) (by decide)
theorem ssa_v40 (c : Dev nD) : Wlast m ρ c (Proc.devRef .tc main_v40) = (addi : (⟨S320000, .i32⟩ : BufTy).Contents (Elt F) → (⟨S320000, .i32⟩ : BufTy).Contents (Elt F) → (⟨S320000, .i32⟩ : BufTy).Contents (Elt F)) (Wlast m ρ c (Proc.devRef .tc main_arg17)) (Wlast m ρ c (Proc.devRef .tc main_v39)) :=
  stmt_binary hwr3 (W4 m ρ c) (Wlast m ρ c) wrFrom5 (tail5 m ρ c) 49 main_arg17 main_v39 main_v40 _ rfl (by decide) (by decide) (by decide)
theorem ssa_v41 (c : Dev nD) : Wlast m ρ c (Proc.devRef .tc main_v41) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (Wlast m ρ c (Proc.devRef .tc main_v38)) (Wlast m ρ c (Proc.devRef .tc main_v40)) (Wlast m ρ c (Proc.devRef .tc main_arg17)) :=
  stmt_ternary hwr3 (W4 m ρ c) (Wlast m ρ c) wrFrom5 (tail5 m ρ c) 50 main_v38 main_v40 main_arg17 main_v41 _ rfl (by decide) (by decide) (by decide) (by decide)
theorem ssa_c_11 (c : Dev nD) : Wlast m ρ c (Proc.devRef .tc main_c_11) = (constantI S_ 32 0#32) :=
  stmt_nullary hwr3 (W4 m ρ c) (Wlast m ρ c) wrFrom5 (tail5 m ρ c) 51 main_c_11 _ rfl (by decide)
theorem ssa_v42 (c : Dev nD) : Wlast m ρ c (Proc.devRef .tc main_v42) = (broadcastInDim S320000 ![] bcast_S_S320000 : (⟨S_, .i32⟩ : BufTy).Contents (Elt F) → (⟨S320000, .i32⟩ : BufTy).Contents (Elt F)) (Wlast m ρ c (Proc.devRef .tc main_c_11)) :=
  stmt_unary hwr3 (W4 m ρ c) (Wlast m ρ c) wrFrom5 (tail5 m ρ c) 52 main_c_11 main_v42 _ rfl (by decide) (by decide)
theorem ssa_v43 (c : Dev nD) : Wlast m ρ c (Proc.devRef .tc main_v43) = (cmpi .slt : (⟨S320000, .i32⟩ : BufTy).Contents (Elt F) → (⟨S320000, .i32⟩ : BufTy).Contents (Elt F) → (⟨S320000, .i1⟩ : BufTy).Contents (Elt F)) (Wlast m ρ c (Proc.devRef .tc main_arg18)) (Wlast m ρ c (Proc.devRef .tc main_v42)) :=
  stmt_binary hwr3 (W4 m ρ c) (Wlast m ρ c) wrFrom5 (tail5 m ρ c) 53 main_arg18 main_v42 main_v43 _ rfl (by decide) (by decide) (by decide)
theorem ssa_c_12 (c : Dev nD) : Wlast m ρ c (Proc.devRef .tc main_c_12) = (constantI S_ 32 10000#32) :=
  stmt_nullary hwr3 (W4 m ρ c) (Wlast m ρ c) wrFrom5 (tail5 m ρ c) 54 main_c_12 _ rfl (by decide)
theorem ssa_v44 (c : Dev nD) : Wlast m ρ c (Proc.devRef .tc main_v44) = (broadcastInDim S320000 ![] bcast_S_S320000 : (⟨S_, .i32⟩ : BufTy).Contents (Elt F) → (⟨S320000, .i32⟩ : BufTy).Contents (Elt F)) (Wlast m ρ c (Proc.devRef .tc main_c_12)) :=
  stmt_unary hwr3 (W4 m ρ c) (Wlast m ρ c) wrFrom5 (tail5 m ρ c) 55 main_c_12 main_v44 _ rfl (by decide) (by decide)
theorem ssa_v45 (c : Dev nD) : Wlast m ρ c (Proc.devRef .tc main_v45) = (addi : (⟨S320000, .i32⟩ : BufTy).Contents (Elt F) → (⟨S320000, .i32⟩ : BufTy).Contents (Elt F) → (⟨S320000, .i32⟩ : BufTy).Contents (Elt F)) (Wlast m ρ c (Proc.devRef .tc main_arg18)) (Wlast m ρ c (Proc.devRef .tc main_v44)) :=
  stmt_binary hwr3 (W4 m ρ c) (Wlast m ρ c) wrFrom5 (tail5 m ρ c) 56 main_arg18 main_v44 main_v45 _ rfl (by decide) (by decide) (by decide)
theorem ssa_v46 (c : Dev nD) : Wlast m ρ c (Proc.devRef .tc main_v46) = (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) (Wlast m ρ c (Proc.devRef .tc main_v43)) (Wlast m ρ c (Proc.devRef .tc main_v45)) (Wlast m ρ c (Proc.devRef .tc main_arg18)) :=
  stmt_ternary hwr3 (W4 m ρ c) (Wlast m ρ c) wrFrom5 (tail5 m ρ c) 57 main_v43 main_v45 main_arg18 main_v46 _ rfl (by decide) (by decide) (by decide) (by decide)
theorem ssa_v47 (c : Dev nD) : Wlast m ρ c (Proc.devRef .tc main_v47) = (broadcastInDim S320000x1 ![0] bcast_S320000_S320000x1_0 : (⟨S320000, .i32⟩ : BufTy).Contents (Elt F) → (⟨S320000x1, .i32⟩ : BufTy).Contents (Elt F)) (Wlast m ρ c (Proc.devRef .tc main_v41)) :=
  stmt_unary hwr3 (W4 m ρ c) (Wlast m ρ c) wrFrom5 (tail5 m ρ c) 58 main_v41 main_v47 _ rfl (by decide) (by decide)
theorem ssa_v48 (c : Dev nD) : Wlast m ρ c (Proc.devRef .tc main_v48) = (broadcastInDim S320000x1 ![0] bcast_S320000_S320000x1_0 : (⟨S320000, .i32⟩ : BufTy).Contents (Elt F) → (⟨S320000x1, .i32⟩ : BufTy).Contents (Elt F)) (Wlast m ρ c (Proc.devRef .tc main_v46)) :=
  stmt_unary hwr3 (W4 m ρ c) (Wlast m ρ c) wrFrom5 (tail5 m ρ c) 59 main_v46 main_v48 _ rfl (by decide) (by decide)
theorem ssa_v49 (c : Dev nD) : Wlast m ρ c (Proc.devRef .tc main_v49) = ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F)) (Wlast m ρ c (Proc.devRef .tc main_v47)) (Wlast m ρ c (Proc.devRef .tc main_v48)) :=
  stmt_binary hwr3 (W4 m ρ c) (Wlast m ρ c) wrFrom5 (tail5 m ρ c) 60 main_v47 main_v48 main_v49 _ rfl (by decide) (by decide) (by decide)
theorem ssa_v50 (c : Dev nD) : Wlast m ρ c (Proc.devRef .tc main_v50) = ((fun x i u => Host.scatterAdd scatter_S10000x10000_S320000x2_S320000_n_01_01_1 x i u) : (⟨S10000x10000, .f32⟩ : BufTy).Contents (Elt F) → (⟨S320000x2, .i32⟩ : BufTy).Contents (Elt F) → (⟨S320000, .f32⟩ : BufTy).Contents (Elt F) → (⟨S10000x10000, .f32⟩ : BufTy).Contents (Elt F)) (Wlast m ρ c (Proc.devRef .tc main_v36)) (Wlast m ρ c (Proc.devRef .tc main_v49)) (Wlast m ρ c (Proc.devRef .tc main_arg11)) :=
  stmt_ternary hwr3 (W4 m ρ c) (Wlast m ρ c) wrFrom5 (tail5 m ρ c) 61 main_v36 main_v49 main_arg11 main_v50 _ rfl (by decide) (by decide) (by decide) (by decide)
theorem ssa_v51 (c : Dev nD) : Wlast m ρ c (Proc.devRef .tc main_v51) = ((truncf .bf16 · bitsLt_bf16_f32) : (⟨S10000x10000, .f32⟩ : BufTy).Contents (Elt F) → (⟨S10000x10000, .bf16⟩ : BufTy).Contents (Elt F)) (Wlast m ρ c (Proc.devRef .tc main_v50)) :=
  stmt_unary hwr3 (W4 m ρ c) (Wlast m ρ c) wrFrom5 (tail5 m ρ c) 62 main_v50 main_v51 _ rfl (by decide) (by decide)
theorem ssa_cst_13 (c : Dev nD) : Wlast m ρ c (Proc.devRef .tc main_cst_13) = (constant S_ .f32 0x00000000#32) :=
  stmt_nullary hwr3 (W4 m ρ c) (Wlast m ρ c) wrFrom5 (tail5 m ρ c) 63 main_cst_13 _ rfl (by decide)
theorem ssa_v52 (c : Dev nD) : Wlast m ρ c (Proc.devRef .tc main_v52) = (broadcastInDim S8000x10000 ![] bcast_S_S8000x10000 : (⟨S_, .f32⟩ : BufTy).Contents (Elt F) → (⟨S8000x10000, .f32⟩ : BufTy).Contents (Elt F)) (Wlast m ρ c (Proc.devRef .tc main_cst_13)) :=
  stmt_unary hwr3 (W4 m ρ c) (Wlast m ρ c) wrFrom5 (tail5 m ρ c) 64 main_cst_13 main_v52 _ rfl (by decide) (by decide)
theorem ssa_c_14 (c : Dev nD) : Wlast m ρ c (Proc.devRef .tc main_c_14) = (constantI S_ 32 0#32) :=
  stmt_nullary hwr3 (W4 m ρ c) (Wlast m ρ c) wrFrom5 (tail5 m ρ c) 65 main_c_14 _ rfl (by decide)
theorem ssa_v53 (c : Dev nD) : Wlast m ρ c (Proc.devRef .tc main_v53) = (broadcastInDim S400000 ![] bcast_S_S400000 : (⟨S_, .i32⟩ : BufTy).Contents (Elt F) → (⟨S400000, .i32⟩ : BufTy).Contents (Elt F)) (Wlast m ρ c (Proc.devRef .tc main_c_14)) :=
  stmt_unary hwr3 (W4 m ρ c) (Wlast m ρ c) wrFrom5 (tail5 m ρ c) 66 main_c_14 main_v53 _ rfl (by decide) (by decide)
theorem ssa_v54 (c : Dev nD) : Wlast m ρ c (Proc.devRef .tc main_v54) = (cmpi .slt : (⟨S400000, .i32⟩ : BufTy).Contents (Elt F) → (⟨S400000, .i32⟩ : BufTy).Contents (Elt F) → (⟨S400000, .i1⟩ : BufTy).Contents (Elt F)) (Wlast m ρ c (Proc.devRef .tc main_arg21)) (Wlast m ρ c (Proc.devRef .tc main_v53)) :=
  stmt_binary hwr3 (W4 m ρ c) (Wlast m ρ c) wrFrom5 (tail5 m ρ c) 67 main_arg21 main_v53 main_v54 _ rfl (by decide) (by decide) (by decide)
theorem ssa_c_15 (c : Dev nD) : Wlast m ρ c (Proc.devRef .tc main_c_15) = (constantI S_ 32 8000#32) :=
  stmt_nullary hwr3 (W4 m ρ c) (Wlast m ρ c) wrFrom5 (tail5 m ρ c) 68 main_c_15 _ rfl (by decide)
theorem ssa_v55 (c : Dev nD) : Wlast m ρ c (Proc.devRef .tc main_v55) = (broadcastInDim S400000 ![] bcast_S_S400000 : (⟨S_, .i32⟩ : BufTy).Contents (Elt F) → (⟨S400000, .i32⟩ : BufTy).Contents (Elt F)) (Wlast m ρ c (Proc.devRef .tc main_c_15)) :=
  stmt_unary hwr3 (W4 m ρ c) (Wlast m ρ c) wrFrom5 (tail5 m ρ c) 69 main_c_15 main_v55 _ rfl (by decide) (by decide)
theorem ssa_v56 (c : Dev nD) : Wlast m ρ c (Proc.devRef .tc main_v56) = (addi : (⟨S400000, .i32⟩ : BufTy).Contents (Elt F) → (⟨S400000, .i32⟩ : BufTy).Contents (Elt F) → (⟨S400000, .i32⟩ : BufTy).Contents (Elt F)) (Wlast m ρ c (Proc.devRef .tc main_arg21)) (Wlast m ρ c (Proc.devRef .tc main_v55)) :=
  stmt_binary hwr3 (W4 m ρ c) (Wlast m ρ c) wrFrom5 (tail5 m ρ c) 70 main_arg21 main_v55 main_v56 _ rfl (by decide) (by decide) (by decide)
theorem ssa_v57 (c : Dev nD) : Wlast m ρ c (Proc.devRef .tc main_v57) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (Wlast m ρ c (Proc.devRef .tc main_v54)) (Wlast m ρ c (Proc.devRef .tc main_v56)) (Wlast m ρ c (Proc.devRef .tc main_arg21)) :=
  stmt_ternary hwr3 (W4 m ρ c) (Wlast m ρ c) wrFrom5 (tail5 m ρ c) 71 main_v54 main_v56 main_arg21 main_v57 _ rfl (by decide) (by decide) (by decide) (by decide)
theorem ssa_c_16 (c : Dev nD) : Wlast m ρ c (Proc.devRef .tc main_c_16) = (constantI S_ 32 0#32) :=
  stmt_nullary hwr3 (W4 m ρ c) (Wlast m ρ c) wrFrom5 (tail5 m ρ c) 72 main_c_16 _ rfl (by decide)
theorem ssa_v58 (c : Dev nD) : Wlast m ρ c (Proc.devRef .tc main_v58) = (broadcastInDim S400000 ![] bcast_S_S400000 : (⟨S_, .i32⟩ : BufTy).Contents (Elt F) → (⟨S400000, .i32⟩ : BufTy).Contents (Elt F)) (Wlast m ρ c (Proc.devRef .tc main_c_16)) :=
  stmt_unary hwr3 (W4 m ρ c) (Wlast m ρ c) wrFrom5 (tail5 m ρ c) 73 main_c_16 main_v58 _ rfl (by decide) (by decide)
theorem ssa_v59 (c : Dev nD) : Wlast m ρ c (Proc.devRef .tc main_v59) = (cmpi .slt : (⟨S400000, .i32⟩ : BufTy).Contents (Elt F) → (⟨S400000, .i32⟩ : BufTy).Contents (Elt F) → (⟨S400000, .i1⟩ : BufTy).Contents (Elt F)) (Wlast m ρ c (Proc.devRef .tc main_arg22)) (Wlast m ρ c (Proc.devRef .tc main_v58)) :=
  stmt_binary hwr3 (W4 m ρ c) (Wlast m ρ c) wrFrom5 (tail5 m ρ c) 74 main_arg22 main_v58 main_v59 _ rfl (by decide) (by decide) (by decide)
theorem ssa_c_17 (c : Dev nD) : Wlast m ρ c (Proc.devRef .tc main_c_17) = (constantI S_ 32 10000#32) :=
  stmt_nullary hwr3 (W4 m ρ c) (Wlast m ρ c) wrFrom5 (tail5 m ρ c) 75 main_c_17 _ rfl (by decide)
theorem ssa_v60 (c : Dev nD) : Wlast m ρ c (Proc.devRef .tc main_v60) = (broadcastInDim S400000 ![] bcast_S_S400000 : (⟨S_, .i32⟩ : BufTy).Contents (Elt F) → (⟨S400000, .i32⟩ : BufTy).Contents (Elt F)) (Wlast m ρ c (Proc.devRef .tc main_c_17)) :=
  stmt_unary hwr3 (W4 m ρ c) (Wlast m ρ c) wrFrom5 (tail5 m ρ c) 76 main_c_17 main_v60 _ rfl (by decide) (by decide)
theorem ssa_v61 (c : Dev nD) : Wlast m ρ c (Proc.devRef .tc main_v61) = (addi : (⟨S400000, .i32⟩ : BufTy).Contents (Elt F) → (⟨S400000, .i32⟩ : BufTy).Contents (Elt F) → (⟨S400000, .i32⟩ : BufTy).Contents (Elt F)) (Wlast m ρ c (Proc.devRef .tc main_arg22)) (Wlast m ρ c (Proc.devRef .tc main_v60)) :=
  stmt_binary hwr3 (W4 m ρ c) (Wlast m ρ c) wrFrom5 (tail5 m ρ c) 77 main_arg22 main_v60 main_v61 _ rfl (by decide) (by decide) (by decide)
theorem ssa_v62 (c : Dev nD) : Wlast m ρ c (Proc.devRef .tc main_v62) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (Wlast m ρ c (Proc.devRef .tc main_v59)) (Wlast m ρ c (Proc.devRef .tc main_v61)) (Wlast m ρ c (Proc.devRef .tc main_arg22)) :=
  stmt_ternary hwr3 (W4 m ρ c) (Wlast m ρ c) wrFrom5 (tail5 m ρ c) 78 main_v59 main_v61 main_arg22 main_v62 _ rfl (by decide) (by decide) (by decide) (by decide)
theorem ssa_v63 (c : Dev nD) : Wlast m ρ c (Proc.devRef .tc main_v63) = (broadcastInDim S400000x1 ![0] bcast_S400000_S400000x1_0 : (⟨S400000, .i32⟩ : BufTy).Contents (Elt F) → (⟨S400000x1, .i32⟩ : BufTy).Contents (Elt F)) (Wlast m ρ c (Proc.devRef .tc main_v57)) :=
  stmt_unary hwr3 (W4 m ρ c) (Wlast m ρ c) wrFrom5 (tail5 m ρ c) 79 main_v57 main_v63 _ rfl (by decide) (by decide)
theorem ssa_v64 (c : Dev nD) : Wlast m ρ c (Proc.devRef .tc main_v64) = (broadcastInDim S400000x1 ![0] bcast_S400000_S400000x1_0 : (⟨S400000, .i32⟩ : BufTy).Contents (Elt F) → (⟨S400000x1, .i32⟩ : BufTy).Contents (Elt F)) (Wlast m ρ c (Proc.devRef .tc main_v62)) :=
  stmt_unary hwr3 (W4 m ρ c) (Wlast m ρ c) wrFrom5 (tail5 m ρ c) 80 main_v62 main_v64 _ rfl (by decide) (by decide)
theorem ssa_v65 (c : Dev nD) : Wlast m ρ c (Proc.devRef .tc main_v65) = ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)) (Wlast m ρ c (Proc.devRef .tc main_v63)) (Wlast m ρ c (Proc.devRef .tc main_v64)) :=
  stmt_binary hwr3 (W4 m ρ c) (Wlast m ρ c) wrFrom5 (tail5 m ρ c) 81 main_v63 main_v64 main_v65 _ rfl (by decide) (by decide) (by decide)
theorem ssa_v66 (c : Dev nD) : Wlast m ρ c (Proc.devRef .tc main_v66) = ((fun x i u => Host.scatterAdd scatter_S8000x10000_S400000x2_S400000_n_01_01_1 x i u) : (⟨S8000x10000, .f32⟩ : BufTy).Contents (Elt F) → (⟨S400000x2, .i32⟩ : BufTy).Contents (Elt F) → (⟨S400000, .f32⟩ : BufTy).Contents (Elt F) → (⟨S8000x10000, .f32⟩ : BufTy).Contents (Elt F)) (Wlast m ρ c (Proc.devRef .tc main_v52)) (Wlast m ρ c (Proc.devRef .tc main_v65)) (Wlast m ρ c (Proc.devRef .tc main_arg13)) :=
  stmt_ternary hwr3 (W4 m ρ c) (Wlast m ρ c) wrFrom5 (tail5 m ρ c) 82 main_v52 main_v65 main_arg13 main_v66 _ rfl (by decide) (by decide) (by decide) (by decide)
theorem ssa_v67 (c : Dev nD) : Wlast m ρ c (Proc.devRef .tc main_v67) = ((truncf .bf16 · bitsLt_bf16_f32) : (⟨S8000x10000, .f32⟩ : BufTy).Contents (Elt F) → (⟨S8000x10000, .bf16⟩ : BufTy).Contents (Elt F)) (Wlast m ρ c (Proc.devRef .tc main_v66)) :=
  stmt_unary hwr3 (W4 m ρ c) (Wlast m ρ c) wrFrom5 (tail5 m ρ c) 83 main_v66 main_v67 _ rfl (by decide) (by decide)
theorem ssa_cst_18 (c : Dev nD) : Wlast m ρ c (Proc.devRef .tc main_cst_18) = (constant S_ .f32 0x00000000#32) :=
  stmt_nullary hwr3 (W4 m ρ c) (Wlast m ρ c) wrFrom5 (tail5 m ρ c) 84 main_cst_18 _ rfl (by decide)
theorem ssa_v68 (c : Dev nD) : Wlast m ρ c (Proc.devRef .tc main_v68) = (broadcastInDim S10000x8000 ![] bcast_S_S10000x8000 : (⟨S_, .f32⟩ : BufTy).Contents (Elt F) → (⟨S10000x8000, .f32⟩ : BufTy).Contents (Elt F)) (Wlast m ρ c (Proc.devRef .tc main_cst_18)) :=
  stmt_unary hwr3 (W4 m ρ c) (Wlast m ρ c) wrFrom5 (tail5 m ρ c) 85 main_cst_18 main_v68 _ rfl (by decide) (by decide)
theorem ssa_c_19 (c : Dev nD) : Wlast m ρ c (Proc.devRef .tc main_c_19) = (constantI S_ 32 0#32) :=
  stmt_nullary hwr3 (W4 m ρ c) (Wlast m ρ c) wrFrom5 (tail5 m ρ c) 86 main_c_19 _ rfl (by decide)
theorem ssa_v69 (c : Dev nD) : Wlast m ρ c (Proc.devRef .tc main_v69) = (broadcastInDim S400000 ![] bcast_S_S400000 : (⟨S_, .i32⟩ : BufTy).Contents (Elt F) → (⟨S400000, .i32⟩ : BufTy).Contents (Elt F)) (Wlast m ρ c (Proc.devRef .tc main_c_19)) :=
  stmt_unary hwr3 (W4 m ρ c) (Wlast m ρ c) wrFrom5 (tail5 m ρ c) 87 main_c_19 main_v69 _ rfl (by decide) (by decide)
theorem ssa_v70 (c : Dev nD) : Wlast m ρ c (Proc.devRef .tc main_v70) = (cmpi .slt : (⟨S400000, .i32⟩ : BufTy).Contents (Elt F) → (⟨S400000, .i32⟩ : BufTy).Contents (Elt F) → (⟨S400000, .i1⟩ : BufTy).Contents (Elt F)) (Wlast m ρ c (Proc.devRef .tc main_arg23)) (Wlast m ρ c (Proc.devRef .tc main_v69)) :=
  stmt_binary hwr3 (W4 m ρ c) (Wlast m ρ c) wrFrom5 (tail5 m ρ c) 88 main_arg23 main_v69 main_v70 _ rfl (by decide) (by decide) (by decide)
theorem ssa_c_20 (c : Dev nD) : Wlast m ρ c (Proc.devRef .tc main_c_20) = (constantI S_ 32 10000#32) :=
  stmt_nullary hwr3 (W4 m ρ c) (Wlast m ρ c) wrFrom5 (tail5 m ρ c) 89 main_c_20 _ rfl (by decide)
theorem ssa_v71 (c : Dev nD) : Wlast m ρ c (Proc.devRef .tc main_v71) = (broadcastInDim S400000 ![] bcast_S_S400000 : (⟨S_, .i32⟩ : BufTy).Contents (Elt F) → (⟨S400000, .i32⟩ : BufTy).Contents (Elt F)) (Wlast m ρ c (Proc.devRef .tc main_c_20)) :=
  stmt_unary hwr3 (W4 m ρ c) (Wlast m ρ c) wrFrom5 (tail5 m ρ c) 90 main_c_20 main_v71 _ rfl (by decide) (by decide)
theorem ssa_v72 (c : Dev nD) : Wlast m ρ c (Proc.devRef .tc main_v72) = (addi : (⟨S400000, .i32⟩ : BufTy).Contents (Elt F) → (⟨S400000, .i32⟩ : BufTy).Contents (Elt F) → (⟨S400000, .i32⟩ : BufTy).Contents (Elt F)) (Wlast m ρ c (Proc.devRef .tc main_arg23)) (Wlast m ρ c (Proc.devRef .tc main_v71)) :=
  stmt_binary hwr3 (W4 m ρ c) (Wlast m ρ c) wrFrom5 (tail5 m ρ c) 91 main_arg23 main_v71 main_v72 _ rfl (by decide) (by decide) (by decide)
theorem ssa_v73 (c : Dev nD) : Wlast m ρ c (Proc.devRef .tc main_v73) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (Wlast m ρ c (Proc.devRef .tc main_v70)) (Wlast m ρ c (Proc.devRef .tc main_v72)) (Wlast m ρ c (Proc.devRef .tc main_arg23)) :=
  stmt_ternary hwr3 (W4 m ρ c) (Wlast m ρ c) wrFrom5 (tail5 m ρ c) 92 main_v70 main_v72 main_arg23 main_v73 _ rfl (by decide) (by decide) (by decide) (by decide)
theorem ssa_c_21 (c : Dev nD) : Wlast m ρ c (Proc.devRef .tc main_c_21) = (constantI S_ 32 0#32) :=
  stmt_nullary hwr3 (W4 m ρ c) (Wlast m ρ c) wrFrom5 (tail5 m ρ c) 93 main_c_21 _ rfl (by decide)
theorem ssa_v74 (c : Dev nD) : Wlast m ρ c (Proc.devRef .tc main_v74) = (broadcastInDim S400000 ![] bcast_S_S400000 : (⟨S_, .i32⟩ : BufTy).Contents (Elt F) → (⟨S400000, .i32⟩ : BufTy).Contents (Elt F)) (Wlast m ρ c (Proc.devRef .tc main_c_21)) :=
  stmt_unary hwr3 (W4 m ρ c) (Wlast m ρ c) wrFrom5 (tail5 m ρ c) 94 main_c_21 main_v74 _ rfl (by decide) (by decide)
theorem ssa_v75 (c : Dev nD) : Wlast m ρ c (Proc.devRef .tc main_v75) = (cmpi .slt : (⟨S400000, .i32⟩ : BufTy).Contents (Elt F) → (⟨S400000, .i32⟩ : BufTy).Contents (Elt F) → (⟨S400000, .i1⟩ : BufTy).Contents (Elt F)) (Wlast m ρ c (Proc.devRef .tc main_arg24)) (Wlast m ρ c (Proc.devRef .tc main_v74)) :=
  stmt_binary hwr3 (W4 m ρ c) (Wlast m ρ c) wrFrom5 (tail5 m ρ c) 95 main_arg24 main_v74 main_v75 _ rfl (by decide) (by decide) (by decide)
theorem ssa_c_22 (c : Dev nD) : Wlast m ρ c (Proc.devRef .tc main_c_22) = (constantI S_ 32 8000#32) :=
  stmt_nullary hwr3 (W4 m ρ c) (Wlast m ρ c) wrFrom5 (tail5 m ρ c) 96 main_c_22 _ rfl (by decide)
theorem ssa_v76 (c : Dev nD) : Wlast m ρ c (Proc.devRef .tc main_v76) = (broadcastInDim S400000 ![] bcast_S_S400000 : (⟨S_, .i32⟩ : BufTy).Contents (Elt F) → (⟨S400000, .i32⟩ : BufTy).Contents (Elt F)) (Wlast m ρ c (Proc.devRef .tc main_c_22)) :=
  stmt_unary hwr3 (W4 m ρ c) (Wlast m ρ c) wrFrom5 (tail5 m ρ c) 97 main_c_22 main_v76 _ rfl (by decide) (by decide)
theorem ssa_v77 (c : Dev nD) : Wlast m ρ c (Proc.devRef .tc main_v77) = (addi : (⟨S400000, .i32⟩ : BufTy).Contents (Elt F) → (⟨S400000, .i32⟩ : BufTy).Contents (Elt F) → (⟨S400000, .i32⟩ : BufTy).Contents (Elt F)) (Wlast m ρ c (Proc.devRef .tc main_arg24)) (Wlast m ρ c (Proc.devRef .tc main_v76)) :=
  stmt_binary hwr3 (W4 m ρ c) (Wlast m ρ c) wrFrom5 (tail5 m ρ c) 98 main_arg24 main_v76 main_v77 _ rfl (by decide) (by decide) (by decide)
theorem ssa_v78 (c : Dev nD) : Wlast m ρ c (Proc.devRef .tc main_v78) = (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)) (Wlast m ρ c (Proc.devRef .tc main_v75)) (Wlast m ρ c (Proc.devRef .tc main_v77)) (Wlast m ρ c (Proc.devRef .tc main_arg24)) :=
  stmt_ternary hwr3 (W4 m ρ c) (Wlast m ρ c) wrFrom5 (tail5 m ρ c) 99 main_v75 main_v77 main_arg24 main_v78 _ rfl (by decide) (by decide) (by decide) (by decide)
theorem ssa_v79 (c : Dev nD) : Wlast m ρ c (Proc.devRef .tc main_v79) = (broadcastInDim S400000x1 ![0] bcast_S400000_S400000x1_0 : (⟨S400000, .i32⟩ : BufTy).Contents (Elt F) → (⟨S400000x1, .i32⟩ : BufTy).Contents (Elt F)) (Wlast m ρ c (Proc.devRef .tc main_v73)) :=
  stmt_unary hwr3 (W4 m ρ c) (Wlast m ρ c) wrFrom5 (tail5 m ρ c) 100 main_v73 main_v79 _ rfl (by decide) (by decide)
theorem ssa_v80 (c : Dev nD) : Wlast m ρ c (Proc.devRef .tc main_v80) = (broadcastInDim S400000x1 ![0] bcast_S400000_S400000x1_0 : (⟨S400000, .i32⟩ : BufTy).Contents (Elt F) → (⟨S400000x1, .i32⟩ : BufTy).Contents (Elt F)) (Wlast m ρ c (Proc.devRef .tc main_v78)) :=
  stmt_unary hwr3 (W4 m ρ c) (Wlast m ρ c) wrFrom5 (tail5 m ρ c) 101 main_v78 main_v80 _ rfl (by decide) (by decide)
theorem ssa_v81 (c : Dev nD) : Wlast m ρ c (Proc.devRef .tc main_v81) = ((fun a b => concatenate S400000x2 1 [⟨S400000x1, a⟩, ⟨S400000x1, b⟩] concatenates_S400000x1_S400000x1_S400000x2_d1) : (⟨S400000x1, .i32⟩ : BufTy).Contents (Elt F) → (⟨S400000x1, .i32⟩ : BufTy).Contents (Elt F) → (⟨S400000x2, .i32⟩ : BufTy).Contents (Elt F)) (Wlast m ρ c (Proc.devRef .tc main_v79)) (Wlast m ρ c (Proc.devRef .tc main_v80)) :=
  stmt_binary hwr3 (W4 m ρ c) (Wlast m ρ c) wrFrom5 (tail5 m ρ c) 102 main_v79 main_v80 main_v81 _ rfl (by decide) (by decide) (by decide)
theorem ssa_v82 (c : Dev nD) : Wlast m ρ c (Proc.devRef .tc main_v82) = ((fun x i u => Host.scatterAdd scatter_S10000x8000_S400000x2_S400000_n_01_01_1 x i u) : (⟨S10000x8000, .f32⟩ : BufTy).Contents (Elt F) → (⟨S400000x2, .i32⟩ : BufTy).Contents (Elt F) → (⟨S400000, .f32⟩ : BufTy).Contents (Elt F) → (⟨S10000x8000, .f32⟩ : BufTy).Contents (Elt F)) (Wlast m ρ c (Proc.devRef .tc main_v68)) (Wlast m ρ c (Proc.devRef .tc main_v81)) (Wlast m ρ c (Proc.devRef .tc main_arg14)) :=
  stmt_ternary hwr3 (W4 m ρ c) (Wlast m ρ c) wrFrom5 (tail5 m ρ c) 103 main_v68 main_v81 main_arg14 main_v82 _ rfl (by decide) (by decide) (by decide) (by decide)
theorem ssa_v83 (c : Dev nD) : Wlast m ρ c (Proc.devRef .tc main_v83) = ((truncf .bf16 · bitsLt_bf16_f32) : (⟨S10000x8000, .f32⟩ : BufTy).Contents (Elt F) → (⟨S10000x8000, .bf16⟩ : BufTy).Contents (Elt F)) (Wlast m ρ c (Proc.devRef .tc main_v82)) :=
  stmt_unary hwr3 (W4 m ρ c) (Wlast m ρ c) wrFrom5 (tail5 m ρ c) 104 main_v82 main_v83 _ rfl (by decide) (by decide)
theorem ssa_v84 (c : Dev nD) : Wlast m ρ c (Proc.devRef .tc main_v84) = ((truncf .bf16 · bitsLt_bf16_f32) : (⟨S10000x64, .f32⟩ : BufTy).Contents (Elt F) → (⟨S10000x64, .bf16⟩ : BufTy).Contents (Elt F)) (Wlast m ρ c (Proc.devRef .tc main_v1)) :=
  stmt_unary hwr3 (W4 m ρ c) (Wlast m ρ c) wrFrom5 (tail5 m ρ c) 105 main_v1 main_v84 _ rfl (by decide) (by decide)

theorem ssa_v86 (c : Dev nD) : Wlast m ρ c (Proc.devRef .tc main_v86) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v1)) (Wlast m ρ c (Proc.devRef .tc main_v85)) :=
  stmt_binary hwr4 (W6 m ρ c) (Wlast m ρ c) wrFrom7 (tail7 m ρ c) 0 main_v1 main_v85 main_v86 _ rfl (by decide) (by decide) (by decide)
theorem ssa_v87 (c : Dev nD) : Wlast m ρ c (Proc.devRef .tc main_v87) = ((truncf .bf16 · bitsLt_bf16_f32) : (⟨S10000x64, .f32⟩ : BufTy).Contents (Elt F) → (⟨S10000x64, .bf16⟩ : BufTy).Contents (Elt F)) (Wlast m ρ c (Proc.devRef .tc main_v85)) :=
  stmt_unary hwr4 (W6 m ρ c) (Wlast m ρ c) wrFrom7 (tail7 m ρ c) 1 main_v85 main_v87 _ rfl (by decide) (by decide)

theorem ssa_v89 (c : Dev nD) : Wlast m ρ c (Proc.devRef .tc main_v89) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v86)) (Wlast m ρ c (Proc.devRef .tc main_v88)) :=
  stmt_binary hwr5 (W8 m ρ c) (Wlast m ρ c) wrFrom9 (tail9 m ρ c) 0 main_v86 main_v88 main_v89 _ rfl (by decide) (by decide) (by decide)
theorem ssa_cst_23 (c : Dev nD) : Wlast m ρ c (Proc.devRef .tc main_cst_23) = (constant S_ .f32 0x40400000#32) :=
  stmt_nullary hwr5 (W8 m ρ c) (Wlast m ρ c) wrFrom9 (tail9 m ρ c) 1 main_cst_23 _ rfl (by decide)
theorem ssa_v90 (c : Dev nD) : Wlast m ρ c (Proc.devRef .tc main_v90) = (broadcastInDim S10000x64 ![] bcast_S_S10000x64 : (⟨S_, .f32⟩ : BufTy).Contents (Elt F) → (⟨S10000x64, .f32⟩ : BufTy).Contents (Elt F)) (Wlast m ρ c (Proc.devRef .tc main_cst_23)) :=
  stmt_unary hwr5 (W8 m ρ c) (Wlast m ρ c) wrFrom9 (tail9 m ρ c) 2 main_cst_23 main_v90 _ rfl (by decide) (by decide)
theorem ssa_v91 (c : Dev nD) : Wlast m ρ c (Proc.devRef .tc main_v91) = (Host.divf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v89)) (Wlast m ρ c (Proc.devRef .tc main_v90)) :=
  stmt_binary hwr5 (W8 m ρ c) (Wlast m ρ c) wrFrom9 (tail9 m ρ c) 3 main_v89 main_v90 main_v91 _ rfl (by decide) (by decide) (by decide)
theorem ssa_v92 (c : Dev nD) : Wlast m ρ c (Proc.devRef .tc main_v92) = ((truncf .bf16 · bitsLt_bf16_f32) : (⟨S10000x64, .f32⟩ : BufTy).Contents (Elt F) → (⟨S10000x64, .bf16⟩ : BufTy).Contents (Elt F)) (Wlast m ρ c (Proc.devRef .tc main_v2)) :=
  stmt_unary hwr5 (W8 m ρ c) (Wlast m ρ c) wrFrom9 (tail9 m ρ c) 4 main_v2 main_v92 _ rfl (by decide) (by decide)

theorem ssa_v94 (c : Dev nD) : Wlast m ρ c (Proc.devRef .tc main_v94) = ((truncf .bf16 · bitsLt_bf16_f32) : (⟨S10000x64, .f32⟩ : BufTy).Contents (Elt F) → (⟨S10000x64, .bf16⟩ : BufTy).Contents (Elt F)) (Wlast m ρ c (Proc.devRef .tc main_v93)) :=
  stmt_unary hwr6 (W10 m ρ c) (Wlast m ρ c) wrFrom11 (tail11 m ρ c) 0 main_v93 main_v94 _ rfl (by decide) (by decide)

theorem ssa_v96 (c : Dev nD) : Wlast m ρ c (Proc.devRef .tc main_v96) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v2)) (Wlast m ρ c (Proc.devRef .tc main_v95)) :=
  stmt_binary hwr7 (W12 m ρ c) (Wlast m ρ c) wrFrom13 (tail13 m ρ c) 0 main_v2 main_v95 main_v96 _ rfl (by decide) (by decide) (by decide)
theorem ssa_v97 (c : Dev nD) : Wlast m ρ c (Proc.devRef .tc main_v97) = ((truncf .bf16 · bitsLt_bf16_f32) : (⟨S10000x64, .f32⟩ : BufTy).Contents (Elt F) → (⟨S10000x64, .bf16⟩ : BufTy).Contents (Elt F)) (Wlast m ρ c (Proc.devRef .tc main_v95)) :=
  stmt_unary hwr7 (W12 m ρ c) (Wlast m ρ c) wrFrom13 (tail13 m ρ c) 1 main_v95 main_v97 _ rfl (by decide) (by decide)

theorem ssa_v99 (c : Dev nD) : Wlast m ρ c (Proc.devRef .tc main_v99) = ((truncf .bf16 · bitsLt_bf16_f32) : (⟨S10000x64, .f32⟩ : BufTy).Contents (Elt F) → (⟨S10000x64, .bf16⟩ : BufTy).Contents (Elt F)) (Wlast m ρ c (Proc.devRef .tc main_v98)) :=
  stmt_unary hwr8 (W14 m ρ c) (Wlast m ρ c) wrFrom15 (tail15 m ρ c) 0 main_v98 main_v99 _ rfl (by decide) (by decide)

theorem ssa_v101 (c : Dev nD) : Wlast m ρ c (Proc.devRef .tc main_v101) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v96)) (Wlast m ρ c (Proc.devRef .tc main_v100)) :=
  stmt_binary hwr9 (W16 m ρ c) (Wlast m ρ c) wrFrom17 (tail17 m ρ c) 0 main_v96 main_v100 main_v101 _ rfl (by decide) (by decide) (by decide)
theorem ssa_cst_24 (c : Dev nD) : Wlast m ρ c (Proc.devRef .tc main_cst_24) = (constant S_ .f32 0x40400000#32) :=
  stmt_nullary hwr9 (W16 m ρ c) (Wlast m ρ c) wrFrom17 (tail17 m ρ c) 1 main_cst_24 _ rfl (by decide)
theorem ssa_v102 (c : Dev nD) : Wlast m ρ c (Proc.devRef .tc main_v102) = (broadcastInDim S10000x64 ![] bcast_S_S10000x64 : (⟨S_, .f32⟩ : BufTy).Contents (Elt F) → (⟨S10000x64, .f32⟩ : BufTy).Contents (Elt F)) (Wlast m ρ c (Proc.devRef .tc main_cst_24)) :=
  stmt_unary hwr9 (W16 m ρ c) (Wlast m ρ c) wrFrom17 (tail17 m ρ c) 2 main_cst_24 main_v102 _ rfl (by decide) (by decide)
theorem ssa_v103 (c : Dev nD) : Wlast m ρ c (Proc.devRef .tc main_v103) = (Host.divf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v101)) (Wlast m ρ c (Proc.devRef .tc main_v102)) :=
  stmt_binary hwr9 (W16 m ρ c) (Wlast m ρ c) wrFrom17 (tail17 m ρ c) 3 main_v101 main_v102 main_v103 _ rfl (by decide) (by decide) (by decide)

theorem ssa_v106 (c : Dev nD) : Wlast m ρ c (Proc.devRef .tc main_v106) = ((truncf .bf16 · bitsLt_bf16_f32) : (⟨S10000x64, .f32⟩ : BufTy).Contents (Elt F) → (⟨S10000x64, .bf16⟩ : BufTy).Contents (Elt F)) (Wlast m ρ c (Proc.devRef .tc main_v104)) :=
  stmt_unary hwr11 (W19 m ρ c) (Wlast m ρ c) wrFrom20 (tail20 m ρ c) 0 main_v104 main_v106 _ rfl (by decide) (by decide)
theorem ssa_v107 (c : Dev nD) : Wlast m ρ c (Proc.devRef .tc main_v107) = ((truncf .bf16 · bitsLt_bf16_f32) : (⟨S10000x64, .f32⟩ : BufTy).Contents (Elt F) → (⟨S10000x64, .bf16⟩ : BufTy).Contents (Elt F)) (Wlast m ρ c (Proc.devRef .tc main_v105)) :=
  stmt_unary hwr11 (W19 m ρ c) (Wlast m ρ c) wrFrom20 (tail20 m ρ c) 1 main_v105 main_v107 _ rfl (by decide) (by decide)

theorem ssa_v109 (c : Dev nD) : Wlast m ρ c (Proc.devRef .tc main_v109) = fun j => (rfl : main_v108_0.ty.elt = main_v109.ty.elt) ▸ shapeCast main_v109.ty.shape (Wlast m ρ c (Proc.devRef .tc main_v108_0)) shapeCasts_S10000x1_S10000 j :=
  stmt_reshape hwr12 (W21 m ρ c) (Wlast m ρ c) wrFrom22 (tail22 m ρ c) 0 main_v108_0 main_v109 rfl shapeCasts_S10000x1_S10000 rfl (by decide) (by decide)
theorem ssa_v110 (c : Dev nD) : Wlast m ρ c (Proc.devRef .tc main_v110) = fun j => (rfl : main_v108_1.ty.elt = main_v110.ty.elt) ▸ shapeCast main_v110.ty.shape (Wlast m ρ c (Proc.devRef .tc main_v108_1)) shapeCasts_S10000x1_S10000 j :=
  stmt_reshape hwr12 (W21 m ρ c) (Wlast m ρ c) wrFrom22 (tail22 m ρ c) 1 main_v108_1 main_v110 rfl shapeCasts_S10000x1_S10000 rfl (by decide) (by decide)
theorem ssa_v111 (c : Dev nD) : Wlast m ρ c (Proc.devRef .tc main_v111) = (mulf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v104)) (Wlast m ρ c (Proc.devRef .tc main_v105)) :=
  stmt_binary hwr12 (W21 m ρ c) (Wlast m ρ c) wrFrom22 (tail22 m ρ c) 2 main_v104 main_v105 main_v111 _ rfl (by decide) (by decide) (by decide)
theorem ssa_cst_25 (c : Dev nD) : Wlast m ρ c (Proc.devRef .tc main_cst_25) = (constant S_ .f32 0x00000000#32) :=
  stmt_nullary hwr12 (W21 m ρ c) (Wlast m ρ c) wrFrom22 (tail22 m ρ c) 3 main_cst_25 _ rfl (by decide)
theorem ssa_v112 (c : Dev nD) : Wlast m ρ c (Proc.devRef .tc main_v112) = ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)) (Wlast m ρ c (Proc.devRef .tc main_v111)) (Wlast m ρ c (Proc.devRef .tc main_cst_25)) :=
  stmt_binary hwr12 (W21 m ρ c) (Wlast m ρ c) wrFrom22 (tail22 m ρ c) 4 main_v111 main_cst_25 main_v112 _ rfl (by decide) (by decide) (by decide)
theorem ssa_cst_26 (c : Dev nD) : Wlast m ρ c (Proc.devRef .tc main_cst_26) = (constant S_ .f32 0x3E4CCCCD#32) :=
  stmt_nullary hwr12 (W21 m ρ c) (Wlast m ρ c) wrFrom22 (tail22 m ρ c) 5 main_cst_26 _ rfl (by decide)
theorem ssa_v113 (c : Dev nD) : Wlast m ρ c (Proc.devRef .tc main_v113) = (broadcastInDim S10000 ![] bcast_S_S10000 : (⟨S_, .f32⟩ : BufTy).Contents (Elt F) → (⟨S10000, .f32⟩ : BufTy).Contents (Elt F)) (Wlast m ρ c (Proc.devRef .tc main_cst_26)) :=
  stmt_unary hwr12 (W21 m ρ c) (Wlast m ρ c) wrFrom22 (tail22 m ρ c) 6 main_cst_26 main_v113 _ rfl (by decide) (by decide)
theorem ssa_v114 (c : Dev nD) : Wlast m ρ c (Proc.devRef .tc main_v114) = (Host.divf : (⟨S10000, .f32⟩ : BufTy).Contents (Elt F) → (⟨S10000, .f32⟩ : BufTy).Contents (Elt F) → (⟨S10000, .f32⟩ : BufTy).Contents (Elt F)) (Wlast m ρ c (Proc.devRef .tc main_v112)) (Wlast m ρ c (Proc.devRef .tc main_v113)) :=
  stmt_binary hwr12 (W21 m ρ c) (Wlast m ρ c) wrFrom22 (tail22 m ρ c) 7 main_v112 main_v113 main_v114 _ rfl (by decide) (by decide) (by decide)
theorem ssa_v115 (c : Dev nD) : Wlast m ρ c (Proc.devRef .tc main_v115) = (Host.exp : (⟨S10000, .f32⟩ : BufTy).Contents (Elt F) → (⟨S10000, .f32⟩ : BufTy).Contents (Elt F)) (Wlast m ρ c (Proc.devRef .tc main_v114)) :=
  stmt_unary hwr12 (W21 m ρ c) (Wlast m ρ c) wrFrom22 (tail22 m ρ c) 8 main_v114 main_v115 _ rfl (by decide) (by decide)
theorem ssa_cst_27 (c : Dev nD) : Wlast m ρ c (Proc.devRef .tc main_cst_27) = (constant S_ .f32 0x322BCC77#32) :=
  stmt_nullary hwr12 (W21 m ρ c) (Wlast m ρ c) wrFrom22 (tail22 m ρ c) 9 main_cst_27 _ rfl (by decide)
theorem ssa_v116 (c : Dev nD) : Wlast m ρ c (Proc.devRef .tc main_v116) = (broadcastInDim S10000 ![] bcast_S_S10000 : (⟨S_, .f32⟩ : BufTy).Contents (Elt F) → (⟨S10000, .f32⟩ : BufTy).Contents (Elt F)) (Wlast m ρ c (Proc.devRef .tc main_cst_27)) :=
  stmt_unary hwr12 (W21 m ρ c) (Wlast m ρ c) wrFrom22 (tail22 m ρ c) 10 main_cst_27 main_v116 _ rfl (by decide) (by decide)
theorem ssa_v117 (c : Dev nD) : Wlast m ρ c (Proc.devRef .tc main_v117) = (addf : (⟨S10000, .f32⟩ : BufTy).Contents (Elt F) → (⟨S10000, .f32⟩ : BufTy).Contents (Elt F) → (⟨S10000, .f32⟩ : BufTy).Contents (Elt F)) (Wlast m ρ c (Proc.devRef .tc main_v109)) (Wlast m ρ c (Proc.devRef .tc main_v116)) :=
  stmt_binary hwr12 (W21 m ρ c) (Wlast m ρ c) wrFrom22 (tail22 m ρ c) 11 main_v109 main_v116 main_v117 _ rfl (by decide) (by decide) (by decide)
theorem ssa_v118 (c : Dev nD) : Wlast m ρ c (Proc.devRef .tc main_v118) = (Host.divf : (⟨S10000, .f32⟩ : BufTy).Contents (Elt F) → (⟨S10000, .f32⟩ : BufTy).Contents (Elt F) → (⟨S10000, .f32⟩ : BufTy).Contents (Elt F)) (Wlast m ρ c (Proc.devRef .tc main_v115)) (Wlast m ρ c (Proc.devRef .tc main_v117)) :=
  stmt_binary hwr12 (W21 m ρ c) (Wlast m ρ c) wrFrom22 (tail22 m ρ c) 12 main_v115 main_v117 main_v118 _ rfl (by decide) (by decide) (by decide)
theorem ssa_cst_28 (c : Dev nD) : Wlast m ρ c (Proc.devRef .tc main_cst_28) = (constant S_ .f32 0x322BCC77#32) :=
  stmt_nullary hwr12 (W21 m ρ c) (Wlast m ρ c) wrFrom22 (tail22 m ρ c) 13 main_cst_28 _ rfl (by decide)
theorem ssa_v119 (c : Dev nD) : Wlast m ρ c (Proc.devRef .tc main_v119) = (broadcastInDim S10000 ![] bcast_S_S10000 : (⟨S_, .f32⟩ : BufTy).Contents (Elt F) → (⟨S10000, .f32⟩ : BufTy).Contents (Elt F)) (Wlast m ρ c (Proc.devRef .tc main_cst_28)) :=
  stmt_unary hwr12 (W21 m ρ c) (Wlast m ρ c) wrFrom22 (tail22 m ρ c) 14 main_cst_28 main_v119 _ rfl (by decide) (by decide)
theorem ssa_v120 (c : Dev nD) : Wlast m ρ c (Proc.devRef .tc main_v120) = (addf : (⟨S10000, .f32⟩ : BufTy).Contents (Elt F) → (⟨S10000, .f32⟩ : BufTy).Contents (Elt F) → (⟨S10000, .f32⟩ : BufTy).Contents (Elt F)) (Wlast m ρ c (Proc.devRef .tc main_v118)) (Wlast m ρ c (Proc.devRef .tc main_v119)) :=
  stmt_binary hwr12 (W21 m ρ c) (Wlast m ρ c) wrFrom22 (tail22 m ρ c) 15 main_v118 main_v119 main_v120 _ rfl (by decide) (by decide) (by decide)
theorem ssa_v121 (c : Dev nD) : Wlast m ρ c (Proc.devRef .tc main_v121) = (Host.log : (⟨S10000, .f32⟩ : BufTy).Contents (Elt F) → (⟨S10000, .f32⟩ : BufTy).Contents (Elt F)) (Wlast m ρ c (Proc.devRef .tc main_v120)) :=
  stmt_unary hwr12 (W21 m ρ c) (Wlast m ρ c) wrFrom22 (tail22 m ρ c) 16 main_v120 main_v121 _ rfl (by decide) (by decide)
theorem ssa_v122 (c : Dev nD) : Wlast m ρ c (Proc.devRef .tc main_v122) = (Host.negf : (⟨S10000, .f32⟩ : BufTy).Contents (Elt F) → (⟨S10000, .f32⟩ : BufTy).Contents (Elt F)) (Wlast m ρ c (Proc.devRef .tc main_v121)) :=
  stmt_unary hwr12 (W21 m ρ c) (Wlast m ρ c) wrFrom22 (tail22 m ρ c) 17 main_v121 main_v122 _ rfl (by decide) (by decide)
theorem ssa_cst_29 (c : Dev nD) : Wlast m ρ c (Proc.devRef .tc main_cst_29) = (constant S_ .f32 0x00000000#32) :=
  stmt_nullary hwr12 (W21 m ρ c) (Wlast m ρ c) wrFrom22 (tail22 m ρ c) 18 main_cst_29 _ rfl (by decide)
theorem ssa_v123 (c : Dev nD) : Wlast m ρ c (Proc.devRef .tc main_v123) = ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)) (Wlast m ρ c (Proc.devRef .tc main_v122)) (Wlast m ρ c (Proc.devRef .tc main_cst_29)) :=
  stmt_binary hwr12 (W21 m ρ c) (Wlast m ρ c) wrFrom22 (tail22 m ρ c) 19 main_v122 main_cst_29 main_v123 _ rfl (by decide) (by decide) (by decide)
theorem ssa_cst_30 (c : Dev nD) : Wlast m ρ c (Proc.devRef .tc main_cst_30) = (constant S_ .f32 0x461C4000#32) :=
  stmt_nullary hwr12 (W21 m ρ c) (Wlast m ρ c) wrFrom22 (tail22 m ρ c) 20 main_cst_30 _ rfl (by decide)
theorem ssa_v124 (c : Dev nD) : Wlast m ρ c (Proc.devRef .tc main_v124) = (Host.divf : (⟨S_, .f32⟩ : BufTy).Contents (Elt F) → (⟨S_, .f32⟩ : BufTy).Contents (Elt F) → (⟨S_, .f32⟩ : BufTy).Contents (Elt F)) (Wlast m ρ c (Proc.devRef .tc main_v123)) (Wlast m ρ c (Proc.devRef .tc main_cst_30)) :=
  stmt_binary hwr12 (W21 m ρ c) (Wlast m ρ c) wrFrom22 (tail22 m ρ c) 21 main_v123 main_cst_30 main_v124 _ rfl (by decide) (by decide) (by decide)
theorem ssa_v125 (c : Dev nD) : Wlast m ρ c (Proc.devRef .tc main_v125) = (mulf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v105)) (Wlast m ρ c (Proc.devRef .tc main_v104)) :=
  stmt_binary hwr12 (W21 m ρ c) (Wlast m ρ c) wrFrom22 (tail22 m ρ c) 22 main_v105 main_v104 main_v125 _ rfl (by decide) (by decide) (by decide)
theorem ssa_cst_31 (c : Dev nD) : Wlast m ρ c (Proc.devRef .tc main_cst_31) = (constant S_ .f32 0x00000000#32) :=
  stmt_nullary hwr12 (W21 m ρ c) (Wlast m ρ c) wrFrom22 (tail22 m ρ c) 23 main_cst_31 _ rfl (by decide)
theorem ssa_v126 (c : Dev nD) : Wlast m ρ c (Proc.devRef .tc main_v126) = ((fun x v => Host.reduceAdd x v reducesTo_S10000x64_S10000_d1 h_S_) : (⟨S10000x64, .f32⟩ : BufTy).Contents (Elt F) → (⟨S_, .f32⟩ : BufTy).Contents (Elt F) → (⟨S10000, .f32⟩ : BufTy).Contents (Elt F)) (Wlast m ρ c (Proc.devRef .tc main_v125)) (Wlast m ρ c (Proc.devRef .tc main_cst_31)) :=
  stmt_binary hwr12 (W21 m ρ c) (Wlast m ρ c) wrFrom22 (tail22 m ρ c) 24 main_v125 main_cst_31 main_v126 _ rfl (by decide) (by decide) (by decide)
theorem ssa_cst_32 (c : Dev nD) : Wlast m ρ c (Proc.devRef .tc main_cst_32) = (constant S_ .f32 0x3E4CCCCD#32) :=
  stmt_nullary hwr12 (W21 m ρ c) (Wlast m ρ c) wrFrom22 (tail22 m ρ c) 25 main_cst_32 _ rfl (by decide)
theorem ssa_v127 (c : Dev nD) : Wlast m ρ c (Proc.devRef .tc main_v127) = (broadcastInDim S10000 ![] bcast_S_S10000 : (⟨S_, .f32⟩ : BufTy).Contents (Elt F) → (⟨S10000, .f32⟩ : BufTy).Contents (Elt F)) (Wlast m ρ c (Proc.devRef .tc main_cst_32)) :=
  stmt_unary hwr12 (W21 m ρ c) (Wlast m ρ c) wrFrom22 (tail22 m ρ c) 26 main_cst_32 main_v127 _ rfl (by decide) (by decide)
theorem ssa_v128 (c : Dev nD) : Wlast m ρ c (Proc.devRef .tc main_v128) = (Host.divf : (⟨S10000, .f32⟩ : BufTy).Contents (Elt F) → (⟨S10000, .f32⟩ : BufTy).Contents (Elt F) → (⟨S10000, .f32⟩ : BufTy).Contents (Elt F)) (Wlast m ρ c (Proc.devRef .tc main_v126)) (Wlast m ρ c (Proc.devRef .tc main_v127)) :=
  stmt_binary hwr12 (W21 m ρ c) (Wlast m ρ c) wrFrom22 (tail22 m ρ c) 27 main_v126 main_v127 main_v128 _ rfl (by decide) (by decide) (by decide)
theorem ssa_v129 (c : Dev nD) : Wlast m ρ c (Proc.devRef .tc main_v129) = (Host.exp : (⟨S10000, .f32⟩ : BufTy).Contents (Elt F) → (⟨S10000, .f32⟩ : BufTy).Contents (Elt F)) (Wlast m ρ c (Proc.devRef .tc main_v128)) :=
  stmt_unary hwr12 (W21 m ρ c) (Wlast m ρ c) wrFrom22 (tail22 m ρ c) 28 main_v128 main_v129 _ rfl (by decide) (by decide)
theorem ssa_cst_33 (c : Dev nD) : Wlast m ρ c (Proc.devRef .tc main_cst_33) = (constant S_ .f32 0x322BCC77#32) :=
  stmt_nullary hwr12 (W21 m ρ c) (Wlast m ρ c) wrFrom22 (tail22 m ρ c) 29 main_cst_33 _ rfl (by decide)
theorem ssa_v130 (c : Dev nD) : Wlast m ρ c (Proc.devRef .tc main_v130) = (broadcastInDim S10000 ![] bcast_S_S10000 : (⟨S_, .f32⟩ : BufTy).Contents (Elt F) → (⟨S10000, .f32⟩ : BufTy).Contents (Elt F)) (Wlast m ρ c (Proc.devRef .tc main_cst_33)) :=
  stmt_unary hwr12 (W21 m ρ c) (Wlast m ρ c) wrFrom22 (tail22 m ρ c) 30 main_cst_33 main_v130 _ rfl (by decide) (by decide)
theorem ssa_v131 (c : Dev nD) : Wlast m ρ c (Proc.devRef .tc main_v131) = (addf : (⟨S10000, .f32⟩ : BufTy).Contents (Elt F) → (⟨S10000, .f32⟩ : BufTy).Contents (Elt F) → (⟨S10000, .f32⟩ : BufTy).Contents (Elt F)) (Wlast m ρ c (Proc.devRef .tc main_v110)) (Wlast m ρ c (Proc.devRef .tc main_v130)) :=
  stmt_binary hwr12 (W21 m ρ c) (Wlast m ρ c) wrFrom22 (tail22 m ρ c) 31 main_v110 main_v130 main_v131 _ rfl (by decide) (by decide) (by decide)
theorem ssa_v132 (c : Dev nD) : Wlast m ρ c (Proc.devRef .tc main_v132) = (Host.divf : (⟨S10000, .f32⟩ : BufTy).Contents (Elt F) → (⟨S10000, .f32⟩ : BufTy).Contents (Elt F) → (⟨S10000, .f32⟩ : BufTy).Contents (Elt F)) (Wlast m ρ c (Proc.devRef .tc main_v129)) (Wlast m ρ c (Proc.devRef .tc main_v131)) :=
  stmt_binary hwr12 (W21 m ρ c) (Wlast m ρ c) wrFrom22 (tail22 m ρ c) 32 main_v129 main_v131 main_v132 _ rfl (by decide) (by decide) (by decide)
theorem ssa_cst_34 (c : Dev nD) : Wlast m ρ c (Proc.devRef .tc main_cst_34) = (constant S_ .f32 0x322BCC77#32) :=
  stmt_nullary hwr12 (W21 m ρ c) (Wlast m ρ c) wrFrom22 (tail22 m ρ c) 33 main_cst_34 _ rfl (by decide)
theorem ssa_v133 (c : Dev nD) : Wlast m ρ c (Proc.devRef .tc main_v133) = (broadcastInDim S10000 ![] bcast_S_S10000 : (⟨S_, .f32⟩ : BufTy).Contents (Elt F) → (⟨S10000, .f32⟩ : BufTy).Contents (Elt F)) (Wlast m ρ c (Proc.devRef .tc main_cst_34)) :=
  stmt_unary hwr12 (W21 m ρ c) (Wlast m ρ c) wrFrom22 (tail22 m ρ c) 34 main_cst_34 main_v133 _ rfl (by decide) (by decide)
theorem ssa_v134 (c : Dev nD) : Wlast m ρ c (Proc.devRef .tc main_v134) = (addf : (⟨S10000, .f32⟩ : BufTy).Contents (Elt F) → (⟨S10000, .f32⟩ : BufTy).Contents (Elt F) → (⟨S10000, .f32⟩ : BufTy).Contents (Elt F)) (Wlast m ρ c (Proc.devRef .tc main_v132)) (Wlast m ρ c (Proc.devRef .tc main_v133)) :=
  stmt_binary hwr12 (W21 m ρ c) (Wlast m ρ c) wrFrom22 (tail22 m ρ c) 35 main_v132 main_v133 main_v134 _ rfl (by decide) (by decide) (by decide)
theorem ssa_v135 (c : Dev nD) : Wlast m ρ c (Proc.devRef .tc main_v135) = (Host.log : (⟨S10000, .f32⟩ : BufTy).Contents (Elt F) → (⟨S10000, .f32⟩ : BufTy).Contents (Elt F)) (Wlast m ρ c (Proc.devRef .tc main_v134)) :=
  stmt_unary hwr12 (W21 m ρ c) (Wlast m ρ c) wrFrom22 (tail22 m ρ c) 36 main_v134 main_v135 _ rfl (by decide) (by decide)
theorem ssa_v136 (c : Dev nD) : Wlast m ρ c (Proc.devRef .tc main_v136) = (Host.negf : (⟨S10000, .f32⟩ : BufTy).Contents (Elt F) → (⟨S10000, .f32⟩ : BufTy).Contents (Elt F)) (Wlast m ρ c (Proc.devRef .tc main_v135)) :=
  stmt_unary hwr12 (W21 m ρ c) (Wlast m ρ c) wrFrom22 (tail22 m ρ c) 37 main_v135 main_v136 _ rfl (by decide) (by decide)
theorem ssa_cst_35 (c : Dev nD) : Wlast m ρ c (Proc.devRef .tc main_cst_35) = (constant S_ .f32 0x00000000#32) :=
  stmt_nullary hwr12 (W21 m ρ c) (Wlast m ρ c) wrFrom22 (tail22 m ρ c) 38 main_cst_35 _ rfl (by decide)
theorem ssa_v137 (c : Dev nD) : Wlast m ρ c (Proc.devRef .tc main_v137) = ((fun x v => Host.reduceAdd x v reducesTo_S10000_S_d0 h_S_) : (⟨S10000, .f32⟩ : BufTy).Contents (Elt F) → (⟨S_, .f32⟩ : BufTy).Contents (Elt F) → (⟨S_, .f32⟩ : BufTy).Contents (Elt F)) (Wlast m ρ c (Proc.devRef .tc main_v136)) (Wlast m ρ c (Proc.devRef .tc main_cst_35)) :=
  stmt_binary hwr12 (W21 m ρ c) (Wlast m ρ c) wrFrom22 (tail22 m ρ c) 39 main_v136 main_cst_35 main_v137 _ rfl (by decide) (by decide) (by decide)
theorem ssa_cst_36 (c : Dev nD) : Wlast m ρ c (Proc.devRef .tc main_cst_36) = (constant S_ .f32 0x461C4000#32) :=
  stmt_nullary hwr12 (W21 m ρ c) (Wlast m ρ c) wrFrom22 (tail22 m ρ c) 40 main_cst_36 _ rfl (by decide)
theorem ssa_v138 (c : Dev nD) : Wlast m ρ c (Proc.devRef .tc main_v138) = (Host.divf : (⟨S_, .f32⟩ : BufTy).Contents (Elt F) → (⟨S_, .f32⟩ : BufTy).Contents (Elt F) → (⟨S_, .f32⟩ : BufTy).Contents (Elt F)) (Wlast m ρ c (Proc.devRef .tc main_v137)) (Wlast m ρ c (Proc.devRef .tc main_cst_36)) :=
  stmt_binary hwr12 (W21 m ρ c) (Wlast m ρ c) wrFrom22 (tail22 m ρ c) 41 main_v137 main_cst_36 main_v138 _ rfl (by decide) (by decide) (by decide)
theorem ssa_v139 (c : Dev nD) : Wlast m ρ c (Proc.devRef .tc main_v139) = (addf : (⟨S_, .f32⟩ : BufTy).Contents (Elt F) → (⟨S_, .f32⟩ : BufTy).Contents (Elt F) → (⟨S_, .f32⟩ : BufTy).Contents (Elt F)) (Wlast m ρ c (Proc.devRef .tc main_v124)) (Wlast m ρ c (Proc.devRef .tc main_v138)) :=
  stmt_binary hwr12 (W21 m ρ c) (Wlast m ρ c) wrFrom22 (tail22 m ρ c) 42 main_v124 main_v138 main_v139 _ rfl (by decide) (by decide) (by decide)
theorem ssa_cst_37 (c : Dev nD) : Wlast m ρ c (Proc.devRef .tc main_cst_37) = (constant S_ .f32 0x3F000000#32) :=
  stmt_nullary hwr12 (W21 m ρ c) (Wlast m ρ c) wrFrom22 (tail22 m ρ c) 43 main_cst_37 _ rfl (by decide)
theorem ssa_v140 (c : Dev nD) : Wlast m ρ c (Proc.devRef .tc main_v140) = (mulf : (⟨S_, .f32⟩ : BufTy).Contents (Elt F) → (⟨S_, .f32⟩ : BufTy).Contents (Elt F) → (⟨S_, .f32⟩ : BufTy).Contents (Elt F)) (Wlast m ρ c (Proc.devRef .tc main_cst_37)) (Wlast m ρ c (Proc.devRef .tc main_v139)) :=
  stmt_binary hwr12 (W21 m ρ c) (Wlast m ρ c) wrFrom22 (tail22 m ρ c) 44 main_cst_37 main_v139 main_v140 _ rfl (by decide) (by decide) (by decide)
theorem ssa_v141 (c : Dev nD) : Wlast m ρ c (Proc.devRef .tc main_v141) = ((fun u => concatenate S10000x192 1 [⟨S10000x64, u 0⟩, ⟨S10000x64, u 1⟩, ⟨S10000x64, u 2⟩] concatenates_S10000x64_S10000x64_S10000x64_S10000x192_d1) : ((k : Fin 3) → ((![main_v104, main_v105, main_v3] : Fin 3 → Ref sig .tc) k).ty.Contents (Elt F)) → main_v141.ty.Contents (Elt F)) (fun k => Wlast m ρ c (Proc.devRef .tc ((![main_v104, main_v105, main_v3] : Fin 3 → Ref sig .tc) k))) :=
  stmt_nary hwr12 (W21 m ρ c) (Wlast m ρ c) wrFrom22 (tail22 m ρ c) 45 (![main_v104, main_v105, main_v3] : Fin 3 → Ref sig .tc) main_v141 _ rfl (by decide) (by decide)
theorem ssa_v142 (c : Dev nD) : Wlast m ρ c (Proc.devRef .tc main_v142) = ((truncf .bf16 · bitsLt_bf16_f32) : (⟨S10000x192, .f32⟩ : BufTy).Contents (Elt F) → (⟨S10000x192, .bf16⟩ : BufTy).Contents (Elt F)) (Wlast m ρ c (Proc.devRef .tc main_v141)) :=
  stmt_unary hwr12 (W21 m ρ c) (Wlast m ρ c) wrFrom22 (tail22 m ρ c) 46 main_v141 main_v142 _ rfl (by decide) (by decide)

theorem ssa_v144 (c : Dev nD) : Wlast m ρ c (Proc.devRef .tc main_v144) = ((extractStridedSlice S8000x64 ![0, 0] · slices_S8000x192_S8000x64_0_0) : (⟨S8000x192, .f32⟩ : BufTy).Contents (Elt F) → (⟨S8000x64, .f32⟩ : BufTy).Contents (Elt F)) (Wlast m ρ c (Proc.devRef .tc main_v143)) :=
  stmt_unary hwr13 (W23 m ρ c) (Wlast m ρ c) wrFrom24 (tail24 m ρ c) 0 main_v143 main_v144 _ rfl (by decide) (by decide)
theorem ssa_v145 (c : Dev nD) : Wlast m ρ c (Proc.devRef .tc main_v145) = ((extractStridedSlice S8000x64 ![0, 64] · slices_S8000x192_S8000x64_0_64) : (⟨S8000x192, .f32⟩ : BufTy).Contents (Elt F) → (⟨S8000x64, .f32⟩ : BufTy).Contents (Elt F)) (Wlast m ρ c (Proc.devRef .tc main_v143)) :=
  stmt_unary hwr13 (W23 m ρ c) (Wlast m ρ c) wrFrom24 (tail24 m ρ c) 1 main_v143 main_v145 _ rfl (by decide) (by decide)
theorem ssa_v146 (c : Dev nD) : Wlast m ρ c (Proc.devRef .tc main_v146) = ((extractStridedSlice S8000x64 ![0, 128] · slices_S8000x192_S8000x64_0_128) : (⟨S8000x192, .f32⟩ : BufTy).Contents (Elt F) → (⟨S8000x64, .f32⟩ : BufTy).Contents (Elt F)) (Wlast m ρ c (Proc.devRef .tc main_v143)) :=
  stmt_unary hwr13 (W23 m ρ c) (Wlast m ρ c) wrFrom24 (tail24 m ρ c) 2 main_v143 main_v146 _ rfl (by decide) (by decide)
theorem ssa_v147 (c : Dev nD) : Wlast m ρ c (Proc.devRef .tc main_v147) = (mulf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v144)) (Wlast m ρ c (Proc.devRef .tc main_v145)) :=
  stmt_binary hwr13 (W23 m ρ c) (Wlast m ρ c) wrFrom24 (tail24 m ρ c) 3 main_v144 main_v145 main_v147 _ rfl (by decide) (by decide) (by decide)
theorem ssa_v148 (c : Dev nD) : Wlast m ρ c (Proc.devRef .tc main_v148) = (mulf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v144)) (Wlast m ρ c (Proc.devRef .tc main_v146)) :=
  stmt_binary hwr13 (W23 m ρ c) (Wlast m ρ c) wrFrom24 (tail24 m ρ c) 4 main_v144 main_v146 main_v148 _ rfl (by decide) (by decide) (by decide)
theorem ssa_v149 (c : Dev nD) : Wlast m ρ c (Proc.devRef .tc main_v149) = (mulf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v145)) (Wlast m ρ c (Proc.devRef .tc main_v146)) :=
  stmt_binary hwr13 (W23 m ρ c) (Wlast m ρ c) wrFrom24 (tail24 m ρ c) 5 main_v145 main_v146 main_v149 _ rfl (by decide) (by decide) (by decide)
theorem ssa_v150 (c : Dev nD) : Wlast m ρ c (Proc.devRef .tc main_v150) = (mulf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v144)) (Wlast m ρ c (Proc.devRef .tc main_v145)) :=
  stmt_binary hwr13 (W23 m ρ c) (Wlast m ρ c) wrFrom24 (tail24 m ρ c) 6 main_v144 main_v145 main_v150 _ rfl (by decide) (by decide) (by decide)
theorem ssa_v151 (c : Dev nD) : Wlast m ρ c (Proc.devRef .tc main_v151) = (mulf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v150)) (Wlast m ρ c (Proc.devRef .tc main_v146)) :=
  stmt_binary hwr13 (W23 m ρ c) (Wlast m ρ c) wrFrom24 (tail24 m ρ c) 7 main_v150 main_v146 main_v151 _ rfl (by decide) (by decide) (by decide)
theorem ssa_v152 (c : Dev nD) : Wlast m ρ c (Proc.devRef .tc main_v152) = ((fun u => concatenate S8000x448 1 [⟨S8000x64, u 0⟩, ⟨S8000x64, u 1⟩, ⟨S8000x64, u 2⟩, ⟨S8000x64, u 3⟩, ⟨S8000x64, u 4⟩, ⟨S8000x64, u 5⟩, ⟨S8000x64, u 6⟩] concatenates_S8000x64_S8000x64_S8000x64_S8000x64_S8000x64_S8000x64_S8000x64_S8000x448_d1) : ((k : Fin 7) → ((![main_v144, main_v145, main_v146, main_v147, main_v148, main_v149, main_v151] : Fin 7 → Ref sig .tc) k).ty.Contents (Elt F)) → main_v152.ty.Contents (Elt F)) (fun k => Wlast m ρ c (Proc.devRef .tc ((![main_v144, main_v145, main_v146, main_v147, main_v148, main_v149, main_v151] : Fin 7 → Ref sig .tc) k))) :=
  stmt_nary hwr13 (W23 m ρ c) (Wlast m ρ c) wrFrom24 (tail24 m ρ c) 8 (![main_v144, main_v145, main_v146, main_v147, main_v148, main_v149, main_v151] : Fin 7 → Ref sig .tc) main_v152 _ rfl (by decide) (by decide)
theorem ssa_v153 (c : Dev nD) : Wlast m ρ c (Proc.devRef .tc main_v153) = ((fun l r => Host.dotGeneral dot_S8000x448_S448x64_S8000x64_1_0_0_1_n_n none l r) : (⟨S8000x448, .f32⟩ : BufTy).Contents (Elt F) → (⟨S448x64, .f32⟩ : BufTy).Contents (Elt F) → (⟨S8000x64, .f32⟩ : BufTy).Contents (Elt F)) (Wlast m ρ c (Proc.devRef .tc main_v152)) (Wlast m ρ c (Proc.devRef .tc main_arg8)) :=
  stmt_binary hwr13 (W23 m ρ c) (Wlast m ρ c) wrFrom24 (tail24 m ρ c) 9 main_v152 main_arg8 main_v153 _ rfl (by decide) (by decide) (by decide)
theorem ssa_v154 (c : Dev nD) : Wlast m ρ c (Proc.devRef .tc main_v154) = (broadcastInDim S1x64 ![1] bcast_S64_S1x64_1 : (⟨S64, .f32⟩ : BufTy).Contents (Elt F) → (⟨S1x64, .f32⟩ : BufTy).Contents (Elt F)) (Wlast m ρ c (Proc.devRef .tc main_arg9)) :=
  stmt_unary hwr13 (W23 m ρ c) (Wlast m ρ c) wrFrom24 (tail24 m ρ c) 10 main_arg9 main_v154 _ rfl (by decide) (by decide)
theorem ssa_v155 (c : Dev nD) : Wlast m ρ c (Proc.devRef .tc main_v155) = (broadcastInDim S8000x64 ![0, 1] bcast_S1x64_S8000x64_0_1 : (⟨S1x64, .f32⟩ : BufTy).Contents (Elt F) → (⟨S8000x64, .f32⟩ : BufTy).Contents (Elt F)) (Wlast m ρ c (Proc.devRef .tc main_v154)) :=
  stmt_unary hwr13 (W23 m ρ c) (Wlast m ρ c) wrFrom24 (tail24 m ρ c) 11 main_v154 main_v155 _ rfl (by decide) (by decide)
theorem ssa_v156 (c : Dev nD) : Wlast m ρ c (Proc.devRef .tc main_v156) = (addf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v153)) (Wlast m ρ c (Proc.devRef .tc main_v155)) :=
  stmt_binary hwr13 (W23 m ρ c) (Wlast m ρ c) wrFrom24 (tail24 m ρ c) 12 main_v153 main_v155 main_v156 _ rfl (by decide) (by decide) (by decide)
theorem ssa_v157 (c : Dev nD) : Wlast m ρ c (Proc.devRef .tc main_v157) = (addf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v156)) (Wlast m ρ c (Proc.devRef .tc main_arg1)) :=
  stmt_binary hwr13 (W23 m ρ c) (Wlast m ρ c) wrFrom24 (tail24 m ρ c) 13 main_v156 main_arg1 main_v157 _ rfl (by decide) (by decide) (by decide)
theorem ssa_v158 (c : Dev nD) : Wlast m ρ c (Proc.devRef .tc main_v158) = (mulf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v156)) (Wlast m ρ c (Proc.devRef .tc main_arg1)) :=
  stmt_binary hwr13 (W23 m ρ c) (Wlast m ρ c) wrFrom24 (tail24 m ρ c) 14 main_v156 main_arg1 main_v158 _ rfl (by decide) (by decide) (by decide)
theorem ssa_v159 (c : Dev nD) : Wlast m ρ c (Proc.devRef .tc main_v159) = (addf : (⟨S8000x64, .f32⟩ : BufTy).Contents (Elt F) → (⟨S8000x64, .f32⟩ : BufTy).Contents (Elt F) → (⟨S8000x64, .f32⟩ : BufTy).Contents (Elt F)) (Wlast m ρ c (Proc.devRef .tc main_v157)) (Wlast m ρ c (Proc.devRef .tc main_v158)) :=
  stmt_binary hwr13 (W23 m ρ c) (Wlast m ρ c) wrFrom24 (tail24 m ρ c) 15 main_v157 main_v158 main_v159 _ rfl (by decide) (by decide) (by decide)
theorem ssa_v160 (c : Dev nD) : Wlast m ρ c (Proc.devRef .tc main_v160) = ((truncf .bf16 · bitsLt_bf16_f32) : (⟨S8000x64, .f32⟩ : BufTy).Contents (Elt F) → (⟨S8000x64, .bf16⟩ : BufTy).Contents (Elt F)) (Wlast m ρ c (Proc.devRef .tc main_v159)) :=
  stmt_unary hwr13 (W23 m ρ c) (Wlast m ρ c) wrFrom24 (tail24 m ρ c) 16 main_v159 main_v160 _ rfl (by decide) (by decide)

theorem ssa_cst_38 (c : Dev nD) : Wlast m ρ c (Proc.devRef .tc main_cst_38) = (constant S_ .f32 0x3F800000#32) :=
  stmt_nullary hwr14 (W25 m ρ c) (Wlast m ρ c) wrFrom26 (tail26 m ρ c) 0 main_cst_38 _ rfl (by decide)
theorem ssa_v162 (c : Dev nD) : Wlast m ρ c (Proc.devRef .tc main_v162) = (broadcastInDim S10000x64 ![] bcast_S_S10000x64 : (⟨S_, .f32⟩ : BufTy).Contents (Elt F) → (⟨S10000x64, .f32⟩ : BufTy).Contents (Elt F)) (Wlast m ρ c (Proc.devRef .tc main_cst_38)) :=
  stmt_unary hwr14 (W25 m ρ c) (Wlast m ρ c) wrFrom26 (tail26 m ρ c) 1 main_cst_38 main_v162 _ rfl (by decide) (by decide)
theorem ssa_v163 (c : Dev nD) : Wlast m ρ c (Proc.devRef .tc main_v163) = (mulf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v161)) (Wlast m ρ c (Proc.devRef .tc main_v162)) :=
  stmt_binary hwr14 (W25 m ρ c) (Wlast m ρ c) wrFrom26 (tail26 m ρ c) 2 main_v161 main_v162 main_v163 _ rfl (by decide) (by decide) (by decide)
theorem ssa_v164 (c : Dev nD) : Wlast m ρ c (Proc.devRef .tc main_v164) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v3)) (Wlast m ρ c (Proc.devRef .tc main_v163)) :=
  stmt_binary hwr14 (W25 m ρ c) (Wlast m ρ c) wrFrom26 (tail26 m ρ c) 3 main_v3 main_v163 main_v164 _ rfl (by decide) (by decide) (by decide)

theorem ssa_v166 (c : Dev nD) : Wlast m ρ c (Proc.devRef .tc main_v166) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v165)) (Wlast m ρ c (Proc.devRef .tc main_v104)) :=
  stmt_binary hwr15 (W27 m ρ c) (Wlast m ρ c) wrFrom28 (tail28 m ρ c) 0 main_v165 main_v104 main_v166 _ rfl (by decide) (by decide) (by decide)
theorem ssa_v167 (c : Dev nD) : Wlast m ρ c (Proc.devRef .tc main_v167) = (addf : (⟨S10000x64, .f32⟩ : BufTy).Contents (Elt F) → (⟨S10000x64, .f32⟩ : BufTy).Contents (Elt F) → (⟨S10000x64, .f32⟩ : BufTy).Contents (Elt F)) (Wlast m ρ c (Proc.devRef .tc main_v166)) (Wlast m ρ c (Proc.devRef .tc main_v105)) :=
  stmt_binary hwr15 (W27 m ρ c) (Wlast m ρ c) wrFrom28 (tail28 m ρ c) 1 main_v166 main_v105 main_v167 _ rfl (by decide) (by decide) (by decide)
theorem ssa_v168 (c : Dev nD) : Wlast m ρ c (Proc.devRef .tc main_v168) = ((truncf .bf16 · bitsLt_bf16_f32) : (⟨S10000x64, .f32⟩ : BufTy).Contents (Elt F) → (⟨S10000x64, .bf16⟩ : BufTy).Contents (Elt F)) (Wlast m ρ c (Proc.devRef .tc main_v167)) :=
  stmt_unary hwr15 (W27 m ρ c) (Wlast m ρ c) wrFrom28 (tail28 m ρ c) 2 main_v167 main_v168 _ rfl (by decide) (by decide)

theorem ssa_c_39 (c : Dev nD) : Wlast m ρ c (Proc.devRef .tc main_c_39) = (constantI S_ 32 0#32) :=
  stmt_nullary hwr16 (W29 m ρ c) (Wlast m ρ c) wrFrom30 (tail30 m ρ c) 0 main_c_39 _ rfl (by decide)
theorem ssa_v170 (c : Dev nD) : Wlast m ρ c (Proc.devRef .tc main_v170) = (broadcastInDim S4096 ![] bcast_S_S4096 : (⟨S_, .i32⟩ : BufTy).Contents (Elt F) → (⟨S4096, .i32⟩ : BufTy).Contents (Elt F)) (Wlast m ρ c (Proc.devRef .tc main_c_39)) :=
  stmt_unary hwr16 (W29 m ρ c) (Wlast m ρ c) wrFrom30 (tail30 m ρ c) 1 main_c_39 main_v170 _ rfl (by decide) (by decide)
theorem ssa_v171 (c : Dev nD) : Wlast m ρ c (Proc.devRef .tc main_v171) = (cmpi .slt : (⟨S4096, .i32⟩ : BufTy).Contents (Elt F) → (⟨S4096, .i32⟩ : BufTy).Contents (Elt F) → (⟨S4096, .i1⟩ : BufTy).Contents (Elt F)) (Wlast m ρ c (Proc.devRef .tc main_arg25)) (Wlast m ρ c (Proc.devRef .tc main_v170)) :=
  stmt_binary hwr16 (W29 m ρ c) (Wlast m ρ c) wrFrom30 (tail30 m ρ c) 2 main_arg25 main_v170 main_v171 _ rfl (by decide) (by decide) (by decide)
theorem ssa_c_40 (c : Dev nD) : Wlast m ρ c (Proc.devRef .tc main_c_40) = (constantI S_ 32 8000#32) :=
  stmt_nullary hwr16 (W29 m ρ c) (Wlast m ρ c) wrFrom30 (tail30 m ρ c) 3 main_c_40 _ rfl (by decide)
theorem ssa_v172 (c : Dev nD) : Wlast m ρ c (Proc.devRef .tc main_v172) = (broadcastInDim S4096 ![] bcast_S_S4096 : (⟨S_, .i32⟩ : BufTy).Contents (Elt F) → (⟨S4096, .i32⟩ : BufTy).Contents (Elt F)) (Wlast m ρ c (Proc.devRef .tc main_c_40)) :=
  stmt_unary hwr16 (W29 m ρ c) (Wlast m ρ c) wrFrom30 (tail30 m ρ c) 4 main_c_40 main_v172 _ rfl (by decide) (by decide)
theorem ssa_v173 (c : Dev nD) : Wlast m ρ c (Proc.devRef .tc main_v173) = (addi : (⟨S4096, .i32⟩ : BufTy).Contents (Elt F) → (⟨S4096, .i32⟩ : BufTy).Contents (Elt F) → (⟨S4096, .i32⟩ : BufTy).Contents (Elt F)) (Wlast m ρ c (Proc.devRef .tc main_arg25)) (Wlast m ρ c (Proc.devRef .tc main_v172)) :=
  stmt_binary hwr16 (W29 m ρ c) (Wlast m ρ c) wrFrom30 (tail30 m ρ c) 5 main_arg25 main_v172 main_v173 _ rfl (by decide) (by decide) (by decide)
theorem ssa_v174 (c : Dev nD) : Wlast m ρ c (Proc.devRef .tc main_v174) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (Wlast m ρ c (Proc.devRef .tc main_v171)) (Wlast m ρ c (Proc.devRef .tc main_v173)) (Wlast m ρ c (Proc.devRef .tc main_arg25)) :=
  stmt_ternary hwr16 (W29 m ρ c) (Wlast m ρ c) wrFrom30 (tail30 m ρ c) 6 main_v171 main_v173 main_arg25 main_v174 _ rfl (by decide) (by decide) (by decide) (by decide)
theorem ssa_v175 (c : Dev nD) : Wlast m ρ c (Proc.devRef .tc main_v175) = (broadcastInDim S4096x1 ![0] bcast_S4096_S4096x1_0 : (⟨S4096, .i32⟩ : BufTy).Contents (Elt F) → (⟨S4096x1, .i32⟩ : BufTy).Contents (Elt F)) (Wlast m ρ c (Proc.devRef .tc main_v174)) :=
  stmt_unary hwr16 (W29 m ρ c) (Wlast m ρ c) wrFrom30 (tail30 m ρ c) 7 main_v174 main_v175 _ rfl (by decide) (by decide)
theorem ssa_v176 (c : Dev nD) : Wlast m ρ c (Proc.devRef .tc main_v176) = ((fun x i => Host.gather gather_S8000x64_S4096x1_S4096x64_1_0_n_n_0_1_164 x i) : (⟨S8000x64, .f32⟩ : BufTy).Contents (Elt F) → (⟨S4096x1, .i32⟩ : BufTy).Contents (Elt F) → (⟨S4096x64, .f32⟩ : BufTy).Contents (Elt F)) (Wlast m ρ c (Proc.devRef .tc main_v169)) (Wlast m ρ c (Proc.devRef .tc main_v175)) :=
  stmt_binary hwr16 (W29 m ρ c) (Wlast m ρ c) wrFrom30 (tail30 m ρ c) 8 main_v169 main_v175 main_v176 _ rfl (by decide) (by decide) (by decide)

theorem in_0_0 (c : Dev nD) : V1 m ρ c (Pipeline.arrRef spec0 (0 : Fin 4)) = Wlast m ρ c (Proc.devRef .tc (Pipeline.arrRef spec0 (0 : Fin 4))) :=
  (tail1 m ρ c (Pipeline.arrRef spec0 (0 : Fin 4)) (by decide)).symm
theorem in_0_1 (c : Dev nD) : V1 m ρ c (Pipeline.arrRef spec0 (1 : Fin 4)) = Wlast m ρ c (Proc.devRef .tc (Pipeline.arrRef spec0 (1 : Fin 4))) :=
  (tail1 m ρ c (Pipeline.arrRef spec0 (1 : Fin 4)) (by decide)).symm
theorem in_0_2 (c : Dev nD) : V1 m ρ c (Pipeline.arrRef spec0 (2 : Fin 4)) = Wlast m ρ c (Proc.devRef .tc (Pipeline.arrRef spec0 (2 : Fin 4))) :=
  (tail1 m ρ c (Pipeline.arrRef spec0 (2 : Fin 4)) (by decide)).symm
theorem reg_0_3 (c : Dev nD) : Wlast m ρ c (Proc.devRef .tc (Pipeline.arrRef spec0 (3 : Fin 4))) = (dat0 (V1 m ρ) c).arrAt (3 : Fin 4) cfg0.N :=
  (tail2 m ρ c (Pipeline.arrRef spec0 (3 : Fin 4)) (by decide)).trans (W2_arr m ρ c (3 : Fin 4))
theorem in_1_0 (c : Dev nD) : V2 m ρ c (Pipeline.arrRef spec1 (0 : Fin 4)) = Wlast m ρ c (Proc.devRef .tc (Pipeline.arrRef spec1 (0 : Fin 4))) :=
  (tail2 m ρ c (Pipeline.arrRef spec1 (0 : Fin 4)) (by decide)).symm
theorem in_1_1 (c : Dev nD) : V2 m ρ c (Pipeline.arrRef spec1 (1 : Fin 4)) = Wlast m ρ c (Proc.devRef .tc (Pipeline.arrRef spec1 (1 : Fin 4))) :=
  (tail2 m ρ c (Pipeline.arrRef spec1 (1 : Fin 4)) (by decide)).symm
theorem in_1_2 (c : Dev nD) : V2 m ρ c (Pipeline.arrRef spec1 (2 : Fin 4)) = Wlast m ρ c (Proc.devRef .tc (Pipeline.arrRef spec1 (2 : Fin 4))) :=
  (tail2 m ρ c (Pipeline.arrRef spec1 (2 : Fin 4)) (by decide)).symm
theorem reg_1_3 (c : Dev nD) : Wlast m ρ c (Proc.devRef .tc (Pipeline.arrRef spec1 (3 : Fin 4))) = (dat1 (V2 m ρ) c).arrAt (3 : Fin 4) cfg1.N :=
  (tail3 m ρ c (Pipeline.arrRef spec1 (3 : Fin 4)) (by decide)).trans (W3_arr m ρ c (3 : Fin 4))
theorem in_2_0 (c : Dev nD) : V3 m ρ c (Pipeline.arrRef spec2 (0 : Fin 4)) = Wlast m ρ c (Proc.devRef .tc (Pipeline.arrRef spec2 (0 : Fin 4))) :=
  (tail3 m ρ c (Pipeline.arrRef spec2 (0 : Fin 4)) (by decide)).symm
theorem in_2_1 (c : Dev nD) : V3 m ρ c (Pipeline.arrRef spec2 (1 : Fin 4)) = Wlast m ρ c (Proc.devRef .tc (Pipeline.arrRef spec2 (1 : Fin 4))) :=
  (tail3 m ρ c (Pipeline.arrRef spec2 (1 : Fin 4)) (by decide)).symm
theorem in_2_2 (c : Dev nD) : V3 m ρ c (Pipeline.arrRef spec2 (2 : Fin 4)) = Wlast m ρ c (Proc.devRef .tc (Pipeline.arrRef spec2 (2 : Fin 4))) :=
  (tail3 m ρ c (Pipeline.arrRef spec2 (2 : Fin 4)) (by decide)).symm
theorem reg_2_3 (c : Dev nD) : Wlast m ρ c (Proc.devRef .tc (Pipeline.arrRef spec2 (3 : Fin 4))) = (dat2 (V3 m ρ) c).arrAt (3 : Fin 4) cfg2.N :=
  (tail4 m ρ c (Pipeline.arrRef spec2 (3 : Fin 4)) (by decide)).trans (W4_arr m ρ c (3 : Fin 4))
theorem in_3_0 (c : Dev nD) : V5 m ρ c (Pipeline.arrRef spec3 (0 : Fin 4)) = Wlast m ρ c (Proc.devRef .tc (Pipeline.arrRef spec3 (0 : Fin 4))) :=
  (tail5 m ρ c (Pipeline.arrRef spec3 (0 : Fin 4)) (by decide)).symm
theorem in_3_1 (c : Dev nD) : V5 m ρ c (Pipeline.arrRef spec3 (1 : Fin 4)) = Wlast m ρ c (Proc.devRef .tc (Pipeline.arrRef spec3 (1 : Fin 4))) :=
  (tail5 m ρ c (Pipeline.arrRef spec3 (1 : Fin 4)) (by decide)).symm
theorem in_3_2 (c : Dev nD) : V5 m ρ c (Pipeline.arrRef spec3 (2 : Fin 4)) = Wlast m ρ c (Proc.devRef .tc (Pipeline.arrRef spec3 (2 : Fin 4))) :=
  (tail5 m ρ c (Pipeline.arrRef spec3 (2 : Fin 4)) (by decide)).symm
theorem reg_3_3 (c : Dev nD) : Wlast m ρ c (Proc.devRef .tc (Pipeline.arrRef spec3 (3 : Fin 4))) = (dat3 (V5 m ρ) c).arrAt (3 : Fin 4) cfg3.N :=
  (tail6 m ρ c (Pipeline.arrRef spec3 (3 : Fin 4)) (by decide)).trans (W6_arr m ρ c (3 : Fin 4))
theorem in_4_0 (c : Dev nD) : V7 m ρ c (Pipeline.arrRef spec4 (0 : Fin 4)) = Wlast m ρ c (Proc.devRef .tc (Pipeline.arrRef spec4 (0 : Fin 4))) :=
  (tail7 m ρ c (Pipeline.arrRef spec4 (0 : Fin 4)) (by decide)).symm
theorem in_4_1 (c : Dev nD) : V7 m ρ c (Pipeline.arrRef spec4 (1 : Fin 4)) = Wlast m ρ c (Proc.devRef .tc (Pipeline.arrRef spec4 (1 : Fin 4))) :=
  (tail7 m ρ c (Pipeline.arrRef spec4 (1 : Fin 4)) (by decide)).symm
theorem in_4_2 (c : Dev nD) : V7 m ρ c (Pipeline.arrRef spec4 (2 : Fin 4)) = Wlast m ρ c (Proc.devRef .tc (Pipeline.arrRef spec4 (2 : Fin 4))) :=
  (tail7 m ρ c (Pipeline.arrRef spec4 (2 : Fin 4)) (by decide)).symm
theorem reg_4_3 (c : Dev nD) : Wlast m ρ c (Proc.devRef .tc (Pipeline.arrRef spec4 (3 : Fin 4))) = (dat4 (V7 m ρ) c).arrAt (3 : Fin 4) cfg4.N :=
  (tail8 m ρ c (Pipeline.arrRef spec4 (3 : Fin 4)) (by decide)).trans (W8_arr m ρ c (3 : Fin 4))
theorem in_5_0 (c : Dev nD) : V9 m ρ c (Pipeline.arrRef spec5 (0 : Fin 3)) = Wlast m ρ c (Proc.devRef .tc (Pipeline.arrRef spec5 (0 : Fin 3))) :=
  (tail9 m ρ c (Pipeline.arrRef spec5 (0 : Fin 3)) (by decide)).symm
theorem in_5_1 (c : Dev nD) : V9 m ρ c (Pipeline.arrRef spec5 (1 : Fin 3)) = Wlast m ρ c (Proc.devRef .tc (Pipeline.arrRef spec5 (1 : Fin 3))) :=
  (tail9 m ρ c (Pipeline.arrRef spec5 (1 : Fin 3)) (by decide)).symm
theorem reg_5_2 (c : Dev nD) : Wlast m ρ c (Proc.devRef .tc (Pipeline.arrRef spec5 (2 : Fin 3))) = (dat5 (V9 m ρ) c).arrAt (2 : Fin 3) cfg5.N :=
  (tail10 m ρ c (Pipeline.arrRef spec5 (2 : Fin 3)) (by decide)).trans (W10_arr m ρ c (2 : Fin 3))
theorem in_6_0 (c : Dev nD) : V11 m ρ c (Pipeline.arrRef spec6 (0 : Fin 4)) = Wlast m ρ c (Proc.devRef .tc (Pipeline.arrRef spec6 (0 : Fin 4))) :=
  (tail11 m ρ c (Pipeline.arrRef spec6 (0 : Fin 4)) (by decide)).symm
theorem in_6_1 (c : Dev nD) : V11 m ρ c (Pipeline.arrRef spec6 (1 : Fin 4)) = Wlast m ρ c (Proc.devRef .tc (Pipeline.arrRef spec6 (1 : Fin 4))) :=
  (tail11 m ρ c (Pipeline.arrRef spec6 (1 : Fin 4)) (by decide)).symm
theorem in_6_2 (c : Dev nD) : V11 m ρ c (Pipeline.arrRef spec6 (2 : Fin 4)) = Wlast m ρ c (Proc.devRef .tc (Pipeline.arrRef spec6 (2 : Fin 4))) :=
  (tail11 m ρ c (Pipeline.arrRef spec6 (2 : Fin 4)) (by decide)).symm
theorem reg_6_3 (c : Dev nD) : Wlast m ρ c (Proc.devRef .tc (Pipeline.arrRef spec6 (3 : Fin 4))) = (dat6 (V11 m ρ) c).arrAt (3 : Fin 4) cfg6.N :=
  (tail12 m ρ c (Pipeline.arrRef spec6 (3 : Fin 4)) (by decide)).trans (W12_arr m ρ c (3 : Fin 4))
theorem in_7_0 (c : Dev nD) : V13 m ρ c (Pipeline.arrRef spec7 (0 : Fin 3)) = Wlast m ρ c (Proc.devRef .tc (Pipeline.arrRef spec7 (0 : Fin 3))) :=
  (tail13 m ρ c (Pipeline.arrRef spec7 (0 : Fin 3)) (by decide)).symm
theorem in_7_1 (c : Dev nD) : V13 m ρ c (Pipeline.arrRef spec7 (1 : Fin 3)) = Wlast m ρ c (Proc.devRef .tc (Pipeline.arrRef spec7 (1 : Fin 3))) :=
  (tail13 m ρ c (Pipeline.arrRef spec7 (1 : Fin 3)) (by decide)).symm
theorem reg_7_2 (c : Dev nD) : Wlast m ρ c (Proc.devRef .tc (Pipeline.arrRef spec7 (2 : Fin 3))) = (dat7 (V13 m ρ) c).arrAt (2 : Fin 3) cfg7.N :=
  (tail14 m ρ c (Pipeline.arrRef spec7 (2 : Fin 3)) (by decide)).trans (W14_arr m ρ c (2 : Fin 3))
theorem in_8_0 (c : Dev nD) : V15 m ρ c (Pipeline.arrRef spec8 (0 : Fin 4)) = Wlast m ρ c (Proc.devRef .tc (Pipeline.arrRef spec8 (0 : Fin 4))) :=
  (tail15 m ρ c (Pipeline.arrRef spec8 (0 : Fin 4)) (by decide)).symm
theorem in_8_1 (c : Dev nD) : V15 m ρ c (Pipeline.arrRef spec8 (1 : Fin 4)) = Wlast m ρ c (Proc.devRef .tc (Pipeline.arrRef spec8 (1 : Fin 4))) :=
  (tail15 m ρ c (Pipeline.arrRef spec8 (1 : Fin 4)) (by decide)).symm
theorem in_8_2 (c : Dev nD) : V15 m ρ c (Pipeline.arrRef spec8 (2 : Fin 4)) = Wlast m ρ c (Proc.devRef .tc (Pipeline.arrRef spec8 (2 : Fin 4))) :=
  (tail15 m ρ c (Pipeline.arrRef spec8 (2 : Fin 4)) (by decide)).symm
theorem reg_8_3 (c : Dev nD) : Wlast m ρ c (Proc.devRef .tc (Pipeline.arrRef spec8 (3 : Fin 4))) = (dat8 (V15 m ρ) c).arrAt (3 : Fin 4) cfg8.N :=
  (tail16 m ρ c (Pipeline.arrRef spec8 (3 : Fin 4)) (by decide)).trans (W16_arr m ρ c (3 : Fin 4))
theorem in_9_0 (c : Dev nD) : V17 m ρ c (Pipeline.arrRef spec9 (0 : Fin 2)) = Wlast m ρ c (Proc.devRef .tc (Pipeline.arrRef spec9 (0 : Fin 2))) :=
  (tail17 m ρ c (Pipeline.arrRef spec9 (0 : Fin 2)) (by decide)).symm
theorem reg_9_1 (c : Dev nD) : Wlast m ρ c (Proc.devRef .tc (Pipeline.arrRef spec9 (1 : Fin 2))) = (dat9 (V17 m ρ) c).arrAt (1 : Fin 2) cfg9.N :=
  (tail18 m ρ c (Pipeline.arrRef spec9 (1 : Fin 2)) (by decide)).trans (W18_arr m ρ c (1 : Fin 2))
theorem in_10_0 (c : Dev nD) : V18 m ρ c (Pipeline.arrRef spec10 (0 : Fin 2)) = Wlast m ρ c (Proc.devRef .tc (Pipeline.arrRef spec10 (0 : Fin 2))) :=
  (tail18 m ρ c (Pipeline.arrRef spec10 (0 : Fin 2)) (by decide)).symm
theorem reg_10_1 (c : Dev nD) : Wlast m ρ c (Proc.devRef .tc (Pipeline.arrRef spec10 (1 : Fin 2))) = (dat10 (V18 m ρ) c).arrAt (1 : Fin 2) cfg10.N :=
  (tail19 m ρ c (Pipeline.arrRef spec10 (1 : Fin 2)) (by decide)).trans (W19_arr m ρ c (1 : Fin 2))
theorem in_11_0 (c : Dev nD) : V20 m ρ c (Pipeline.arrRef spec11 (0 : Fin 4)) = Wlast m ρ c (Proc.devRef .tc (Pipeline.arrRef spec11 (0 : Fin 4))) :=
  (tail20 m ρ c (Pipeline.arrRef spec11 (0 : Fin 4)) (by decide)).symm
theorem in_11_1 (c : Dev nD) : V20 m ρ c (Pipeline.arrRef spec11 (1 : Fin 4)) = Wlast m ρ c (Proc.devRef .tc (Pipeline.arrRef spec11 (1 : Fin 4))) :=
  (tail20 m ρ c (Pipeline.arrRef spec11 (1 : Fin 4)) (by decide)).symm
theorem reg_11_2 (c : Dev nD) : Wlast m ρ c (Proc.devRef .tc (Pipeline.arrRef spec11 (2 : Fin 4))) = (dat11 (V20 m ρ) c).arrAt (2 : Fin 4) cfg11.N :=
  (tail21 m ρ c (Pipeline.arrRef spec11 (2 : Fin 4)) (by decide)).trans (W21_arr m ρ c (2 : Fin 4))
theorem reg_11_3 (c : Dev nD) : Wlast m ρ c (Proc.devRef .tc (Pipeline.arrRef spec11 (3 : Fin 4))) = (dat11 (V20 m ρ) c).arrAt (3 : Fin 4) cfg11.N :=
  (tail21 m ρ c (Pipeline.arrRef spec11 (3 : Fin 4)) (by decide)).trans (W21_arr m ρ c (3 : Fin 4))
theorem in_12_0 (c : Dev nD) : V22 m ρ c (Pipeline.arrRef spec12 (0 : Fin 3)) = Wlast m ρ c (Proc.devRef .tc (Pipeline.arrRef spec12 (0 : Fin 3))) :=
  (tail22 m ρ c (Pipeline.arrRef spec12 (0 : Fin 3)) (by decide)).symm
theorem in_12_1 (c : Dev nD) : V22 m ρ c (Pipeline.arrRef spec12 (1 : Fin 3)) = Wlast m ρ c (Proc.devRef .tc (Pipeline.arrRef spec12 (1 : Fin 3))) :=
  (tail22 m ρ c (Pipeline.arrRef spec12 (1 : Fin 3)) (by decide)).symm
theorem reg_12_2 (c : Dev nD) : Wlast m ρ c (Proc.devRef .tc (Pipeline.arrRef spec12 (2 : Fin 3))) = (dat12 (V22 m ρ) c).arrAt (2 : Fin 3) cfg12.N :=
  (tail23 m ρ c (Pipeline.arrRef spec12 (2 : Fin 3)) (by decide)).trans (W23_arr m ρ c (2 : Fin 3))
theorem in_13_0 (c : Dev nD) : V24 m ρ c (Pipeline.arrRef spec13 (0 : Fin 3)) = Wlast m ρ c (Proc.devRef .tc (Pipeline.arrRef spec13 (0 : Fin 3))) :=
  (tail24 m ρ c (Pipeline.arrRef spec13 (0 : Fin 3)) (by decide)).symm
theorem in_13_1 (c : Dev nD) : V24 m ρ c (Pipeline.arrRef spec13 (1 : Fin 3)) = Wlast m ρ c (Proc.devRef .tc (Pipeline.arrRef spec13 (1 : Fin 3))) :=
  (tail24 m ρ c (Pipeline.arrRef spec13 (1 : Fin 3)) (by decide)).symm
theorem reg_13_2 (c : Dev nD) : Wlast m ρ c (Proc.devRef .tc (Pipeline.arrRef spec13 (2 : Fin 3))) = (dat13 (V24 m ρ) c).arrAt (2 : Fin 3) cfg13.N :=
  (tail25 m ρ c (Pipeline.arrRef spec13 (2 : Fin 3)) (by decide)).trans (W25_arr m ρ c (2 : Fin 3))
theorem in_14_0 (c : Dev nD) : V26 m ρ c (Pipeline.arrRef spec14 (0 : Fin 2)) = Wlast m ρ c (Proc.devRef .tc (Pipeline.arrRef spec14 (0 : Fin 2))) :=
  (tail26 m ρ c (Pipeline.arrRef spec14 (0 : Fin 2)) (by decide)).symm
theorem reg_14_1 (c : Dev nD) : Wlast m ρ c (Proc.devRef .tc (Pipeline.arrRef spec14 (1 : Fin 2))) = (dat14 (V26 m ρ) c).arrAt (1 : Fin 2) cfg14.N :=
  (tail27 m ρ c (Pipeline.arrRef spec14 (1 : Fin 2)) (by decide)).trans (W27_arr m ρ c (1 : Fin 2))
theorem in_15_0 (c : Dev nD) : V28 m ρ c (Pipeline.arrRef spec15 (0 : Fin 3)) = Wlast m ρ c (Proc.devRef .tc (Pipeline.arrRef spec15 (0 : Fin 3))) :=
  (tail28 m ρ c (Pipeline.arrRef spec15 (0 : Fin 3)) (by decide)).symm
theorem in_15_1 (c : Dev nD) : V28 m ρ c (Pipeline.arrRef spec15 (1 : Fin 3)) = Wlast m ρ c (Proc.devRef .tc (Pipeline.arrRef spec15 (1 : Fin 3))) :=
  (tail28 m ρ c (Pipeline.arrRef spec15 (1 : Fin 3)) (by decide)).symm
theorem reg_15_2 (c : Dev nD) : Wlast m ρ c (Proc.devRef .tc (Pipeline.arrRef spec15 (2 : Fin 3))) = (dat15 (V28 m ρ) c).arrAt (2 : Fin 3) cfg15.N :=
  (tail29 m ρ c (Pipeline.arrRef spec15 (2 : Fin 3)) (by decide)).trans (W29_arr m ρ c (2 : Fin 3))
theorem in_16_0 (c : Dev nD) : V30 m ρ c (Pipeline.arrRef spec16 (0 : Fin 2)) = Wlast m ρ c (Proc.devRef .tc (Pipeline.arrRef spec16 (0 : Fin 2))) :=
  (tail30 m ρ c (Pipeline.arrRef spec16 (0 : Fin 2)) (by decide)).symm
theorem reg_16_1 (c : Dev nD) : Wlast m ρ c (Proc.devRef .tc (Pipeline.arrRef spec16 (1 : Fin 2))) = (dat16 (V30 m ρ) c).arrAt (1 : Fin 2) cfg16.N :=
  (tail31 m ρ c (Pipeline.arrRef spec16 (1 : Fin 2)) (by decide)).trans (W31_arr m ρ c (1 : Fin 2))

end Cert.KernelIdeal.Hand

end
-- ==== Proof.KI.Values2.lean ====
import proofs.«417009_j23742579212955_2_alg».proof.Proof.KI.ChainW
import proofs.«417009_j23742579212955_2_alg».proof.Proof.KI.Values1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F] [Named F]

variable (m : (ℓ : Loc nD τ sig) → Buf (Elt F) ℓ) (ρ : Dev nD → PrngReg)

theorem kreg_0_3 (c : Dev nD) : Wlast m ρ c (Proc.devRef .tc main_v1) = G0_3 (Wlast m ρ c (Proc.devRef .tc main_v0)) (Wlast m ρ c (Proc.devRef .tc main_arg2)) (Wlast m ρ c (Proc.devRef .tc main_arg3)) :=
  (reg_0_3 m ρ c).trans ((final0_3 (V1 m ρ) c).trans (congr (congr (congrArg (G0_3) (in_0_0 m ρ c)) (in_0_1 m ρ c)) (in_0_2 m ρ c)))
theorem kreg_1_3 (c : Dev nD) : Wlast m ρ c (Proc.devRef .tc main_v2) = G1_3 (Wlast m ρ c (Proc.devRef .tc main_v0)) (Wlast m ρ c (Proc.devRef .tc main_arg4)) (Wlast m ρ c (Proc.devRef .tc main_arg5)) :=
  (reg_1_3 m ρ c).trans ((final1_3 (V2 m ρ) c).trans (congr (congr (congrArg (G1_3) (in_1_0 m ρ c)) (in_1_1 m ρ c)) (in_1_2 m ρ c)))
theorem kreg_2_3 (c : Dev nD) : Wlast m ρ c (Proc.devRef .tc main_v3) = G2_3 (Wlast m ρ c (Proc.devRef .tc main_v0)) (Wlast m ρ c (Proc.devRef .tc main_arg6)) (Wlast m ρ c (Proc.devRef .tc main_arg7)) :=
  (reg_2_3 m ρ c).trans ((final2_3 (V3 m ρ) c).trans (congr (congr (congrArg (G2_3) (in_2_0 m ρ c)) (in_2_1 m ρ c)) (in_2_2 m ρ c)))
theorem kreg_3_3 (c : Dev nD) : Wlast m ρ c (Proc.devRef .tc main_v85) = G3_3 (Wlast m ρ c (Proc.devRef .tc main_v19)) (Wlast m ρ c (Proc.devRef .tc main_v84)) (Wlast m ρ c (Proc.devRef .tc main_v1)) :=
  (reg_3_3 m ρ c).trans ((final3_3 (V5 m ρ) c).trans (congr (congr (congrArg (G3_3) (in_3_0 m ρ c)) (in_3_1 m ρ c)) (in_3_2 m ρ c)))
theorem kreg_4_3 (c : Dev nD) : Wlast m ρ c (Proc.devRef .tc main_v88) = G4_3 (Wlast m ρ c (Proc.devRef .tc main_v19)) (Wlast m ρ c (Proc.devRef .tc main_v87)) (Wlast m ρ c (Proc.devRef .tc main_v85)) :=
  (reg_4_3 m ρ c).trans ((final4_3 (V7 m ρ) c).trans (congr (congr (congrArg (G4_3) (in_4_0 m ρ c)) (in_4_1 m ρ c)) (in_4_2 m ρ c)))
theorem kreg_5_2 (c : Dev nD) : Wlast m ρ c (Proc.devRef .tc main_v93) = G5_2 (Wlast m ρ c (Proc.devRef .tc main_v35)) (Wlast m ρ c (Proc.devRef .tc main_v92)) :=
  (reg_5_2 m ρ c).trans ((final5_2 (V9 m ρ) c).trans (congr (congrArg (G5_2) (in_5_0 m ρ c)) (in_5_1 m ρ c)))
theorem kreg_6_3 (c : Dev nD) : Wlast m ρ c (Proc.devRef .tc main_v95) = G6_3 (Wlast m ρ c (Proc.devRef .tc main_v51)) (Wlast m ρ c (Proc.devRef .tc main_v94)) (Wlast m ρ c (Proc.devRef .tc main_v2)) :=
  (reg_6_3 m ρ c).trans ((final6_3 (V11 m ρ) c).trans (congr (congr (congrArg (G6_3) (in_6_0 m ρ c)) (in_6_1 m ρ c)) (in_6_2 m ρ c)))
theorem kreg_7_2 (c : Dev nD) : Wlast m ρ c (Proc.devRef .tc main_v98) = G7_2 (Wlast m ρ c (Proc.devRef .tc main_v35)) (Wlast m ρ c (Proc.devRef .tc main_v97)) :=
  (reg_7_2 m ρ c).trans ((final7_2 (V13 m ρ) c).trans (congr (congrArg (G7_2) (in_7_0 m ρ c)) (in_7_1 m ρ c)))
theorem kreg_8_3 (c : Dev nD) : Wlast m ρ c (Proc.devRef .tc main_v100) = G8_3 (Wlast m ρ c (Proc.devRef .tc main_v51)) (Wlast m ρ c (Proc.devRef .tc main_v99)) (Wlast m ρ c (Proc.devRef .tc main_v95)) :=
  (reg_8_3 m ρ c).trans ((final8_3 (V15 m ρ) c).trans (congr (congr (congrArg (G8_3) (in_8_0 m ρ c)) (in_8_1 m ρ c)) (in_8_2 m ρ c)))
theorem kreg_9_1 (c : Dev nD) : Wlast m ρ c (Proc.devRef .tc main_v104) = G9_1 (Wlast m ρ c (Proc.devRef .tc main_v91)) :=
  (reg_9_1 m ρ c).trans ((final9_1 (V17 m ρ) c).trans (congrArg (G9_1) (in_9_0 m ρ c)))
theorem kreg_10_1 (c : Dev nD) : Wlast m ρ c (Proc.devRef .tc main_v105) = G10_1 (Wlast m ρ c (Proc.devRef .tc main_v103)) :=
  (reg_10_1 m ρ c).trans ((final10_1 (V18 m ρ) c).trans (congrArg (G10_1) (in_10_0 m ρ c)))
theorem kreg_11_2 (c : Dev nD) : Wlast m ρ c (Proc.devRef .tc main_v108_0) = G11_2 (Named.named (F := F) κ "inv_temp" (φ := .f32) 0x40A00000#32) (Wlast m ρ c (Proc.devRef .tc main_v106)) (Wlast m ρ c (Proc.devRef .tc main_v107)) :=
  (reg_11_2 m ρ c).trans ((final11_2 (V20 m ρ) c).trans (congr (congrArg (G11_2 (Named.named (F := F) κ "inv_temp" (φ := .f32) 0x40A00000#32)) (in_11_0 m ρ c)) (in_11_1 m ρ c)))
theorem kreg_11_3 (c : Dev nD) : Wlast m ρ c (Proc.devRef .tc main_v108_1) = G11_3 (Named.named (F := F) κ "inv_temp" (φ := .f32) 0x40A00000#32) (Wlast m ρ c (Proc.devRef .tc main_v106)) (Wlast m ρ c (Proc.devRef .tc main_v107)) :=
  (reg_11_3 m ρ c).trans ((final11_3 (V20 m ρ) c).trans (congr (congrArg (G11_3 (Named.named (F := F) κ "inv_temp" (φ := .f32) 0x40A00000#32)) (in_11_0 m ρ c)) (in_11_1 m ρ c)))
theorem kreg_12_2 (c : Dev nD) : Wlast m ρ c (Proc.devRef .tc main_v143) = G12_2 (Wlast m ρ c (Proc.devRef .tc main_v67)) (Wlast m ρ c (Proc.devRef .tc main_v142)) :=
  (reg_12_2 m ρ c).trans ((final12_2 (V22 m ρ) c).trans (congr (congrArg (G12_2) (in_12_0 m ρ c)) (in_12_1 m ρ c)))
theorem kreg_13_2 (c : Dev nD) : Wlast m ρ c (Proc.devRef .tc main_v161) = G13_2 (Wlast m ρ c (Proc.devRef .tc main_v83)) (Wlast m ρ c (Proc.devRef .tc main_v160)) :=
  (reg_13_2 m ρ c).trans ((final13_2 (V24 m ρ) c).trans (congr (congrArg (G13_2) (in_13_0 m ρ c)) (in_13_1 m ρ c)))
theorem kreg_14_1 (c : Dev nD) : Wlast m ρ c (Proc.devRef .tc main_v165) = G14_1 (Wlast m ρ c (Proc.devRef .tc main_v164)) :=
  (reg_14_1 m ρ c).trans ((final14_1 (V26 m ρ) c).trans (congrArg (G14_1) (in_14_0 m ρ c)))
theorem kreg_15_2 (c : Dev nD) : Wlast m ρ c (Proc.devRef .tc main_v169) = G15_2 (Wlast m ρ c (Proc.devRef .tc main_v67)) (Wlast m ρ c (Proc.devRef .tc main_v168)) :=
  (reg_15_2 m ρ c).trans ((final15_2 (V28 m ρ) c).trans (congr (congrArg (G15_2) (in_15_0 m ρ c)) (in_15_1 m ρ c)))
theorem kreg_16_1 (c : Dev nD) : Wlast m ρ c (Proc.devRef .tc main_v177) = G16_1 (Wlast m ρ c (Proc.devRef .tc main_v176)) :=
  (reg_16_1 m ρ c).trans ((final16_1 (V30 m ρ) c).trans (congrArg (G16_1) (in_16_0 m ρ c)))

end Cert.KernelIdeal.Hand

end
-- ==== Proof.Bridge.KEqs.lean ====
import proofs.«417009_j23742579212955_2_alg».proof.Proof.KI.R03
import proofs.«417009_j23742579212955_2_alg».proof.Proof.KI.R04
import proofs.«417009_j23742579212955_2_alg».proof.Proof.KI.R06
import proofs.«417009_j23742579212955_2_alg».proof.Proof.KI.R08
import proofs.«417009_j23742579212955_2_alg».proof.Proof.KI.R09
import proofs.«417009_j23742579212955_2_alg».proof.Proof.KI.R10
import proofs.«417009_j23742579212955_2_alg».proof.Proof.KI.R14
import proofs.«417009_j23742579212955_2_alg».proof.Proof.KI.R16

set_option maxRecDepth 16384

noncomputable section

namespace Cert.Bridge

open Cert.KernelIdeal Cert.KernelIdeal.Gen Idealize.ShloMosaic Idealize.ShloMosaic.TcCoe Idealize.SL.Sem Idealize.ShloMosaic.StableHlo

structure RegionFns where
  G0_3 : FVec Ideal S10000x64 .f32 → FVec Ideal S64x64 .f32 → FVec Ideal S1x64 .f32 → FVec Ideal S10000x64 .f32
  G1_3 : FVec Ideal S10000x64 .f32 → FVec Ideal S64x64 .f32 → FVec Ideal S1x64 .f32 → FVec Ideal S10000x64 .f32
  G2_3 : FVec Ideal S10000x64 .f32 → FVec Ideal S64x64 .f32 → FVec Ideal S1x64 .f32 → FVec Ideal S10000x64 .f32
  G5_2 : FVec Ideal S10000x10000 .bf16 → FVec Ideal S10000x64 .bf16 → FVec Ideal S10000x64 .f32
  G7_2 : FVec Ideal S10000x10000 .bf16 → FVec Ideal S10000x64 .bf16 → FVec Ideal S10000x64 .f32
  G11_2 : Ideal .f32 → FVec Ideal S10000x64 .bf16 → FVec Ideal S10000x64 .bf16 → FVec Ideal S10000x1 .f32
  G11_3 : Ideal .f32 → FVec Ideal S10000x64 .bf16 → FVec Ideal S10000x64 .bf16 → FVec Ideal S10000x1 .f32
  G12_2 : FVec Ideal S8000x10000 .bf16 → FVec Ideal S10000x192 .bf16 → FVec Ideal S8000x192 .f32
  G13_2 : FVec Ideal S10000x8000 .bf16 → FVec Ideal S8000x64 .bf16 → FVec Ideal S10000x64 .f32
  G15_2 : FVec Ideal S8000x10000 .bf16 → FVec Ideal S10000x64 .bf16 → FVec Ideal S8000x64 .f32

def KEqsBlk0 (G : RegionFns) (X : Valuation τ sig (Elt Ideal)) : Prop :=
  (X (Proc.devRef .tc main_v0) = ((extractStridedSlice S10000x64 ![0, 0] · slices_S10001x64_S10000x64_0_0) : FVec Ideal S10001x64 .f32 → FVec Ideal S10000x64 .f32) (X (Proc.devRef .tc main_arg0))) ∧
  (X (Proc.devRef .tc main_v1) = G.G0_3 (X (Proc.devRef .tc main_v0)) (X (Proc.devRef .tc main_arg2)) (X (Proc.devRef .tc main_arg3))) ∧
  (X (Proc.devRef .tc main_v2) = G.G1_3 (X (Proc.devRef .tc main_v0)) (X (Proc.devRef .tc main_arg4)) (X (Proc.devRef .tc main_arg5))) ∧
  (X (Proc.devRef .tc main_v3) = G.G2_3 (X (Proc.devRef .tc main_v0)) (X (Proc.devRef .tc main_arg6)) (X (Proc.devRef .tc main_arg7))) ∧
  (X (Proc.devRef .tc main_cst) = (constant (F := Ideal) S_ .f32 0x00000000#32)) ∧
  (X (Proc.devRef .tc main_v4) = (broadcastInDim S10000x10000 ![] bcast_S_S10000x10000 : FVec Ideal S_ .f32 → FVec Ideal S10000x10000 .f32) (X (Proc.devRef .tc main_cst))) ∧
  (X (Proc.devRef .tc main_c) = (constantI S_ 32 0#32)) ∧
  (X (Proc.devRef .tc main_v5) = (broadcastInDim S320000 ![] bcast_S_S320000 : IVec S_ 32 → IVec S320000 32) (X (Proc.devRef .tc main_c))) ∧
  (X (Proc.devRef .tc main_v6) = (cmpi .slt : IVec S320000 32 → IVec S320000 32 → IVec S320000 1) (X (Proc.devRef .tc main_arg15)) (X (Proc.devRef .tc main_v5))) ∧
  (X (Proc.devRef .tc main_c_0) = (constantI S_ 32 10000#32)) ∧
  (X (Proc.devRef .tc main_v7) = (broadcastInDim S320000 ![] bcast_S_S320000 : IVec S_ 32 → IVec S320000 32) (X (Proc.devRef .tc main_c_0))) ∧
  (X (Proc.devRef .tc main_v8) = (addi : IVec S320000 32 → IVec S320000 32 → IVec S320000 32) (X (Proc.devRef .tc main_arg15)) (X (Proc.devRef .tc main_v7))) ∧
  (X (Proc.devRef .tc main_v9) = (select : IVec S320000 1 → IVec S320000 32 → IVec S320000 32 → IVec S320000 32) (X (Proc.devRef .tc main_v6)) (X (Proc.devRef .tc main_v8)) (X (Proc.devRef .tc main_arg15))) ∧
  (X (Proc.devRef .tc main_c_1) = (constantI S_ 32 0#32)) ∧
  (X (Proc.devRef .tc main_v10) = (broadcastInDim S320000 ![] bcast_S_S320000 : IVec S_ 32 → IVec S320000 32) (X (Proc.devRef .tc main_c_1))) ∧
  (X (Proc.devRef .tc main_v11) = (cmpi .slt : IVec S320000 32 → IVec S320000 32 → IVec S320000 1) (X (Proc.devRef .tc main_arg16)) (X (Proc.devRef .tc main_v10)))

def KEqsBlk1 (G : RegionFns) (X : Valuation τ sig (Elt Ideal)) : Prop :=
  (X (Proc.devRef .tc main_c_2) = (constantI S_ 32 10000#32)) ∧
  (X (Proc.devRef .tc main_v12) = (broadcastInDim S320000 ![] bcast_S_S320000 : IVec S_ 32 → IVec S320000 32) (X (Proc.devRef .tc main_c_2))) ∧
  (X (Proc.devRef .tc main_v13) = (addi : IVec S320000 32 → IVec S320000 32 → IVec S320000 32) (X (Proc.devRef .tc main_arg16)) (X (Proc.devRef .tc main_v12))) ∧
  (X (Proc.devRef .tc main_v14) = (select : IVec S320000 1 → IVec S320000 32 → IVec S320000 32 → IVec S320000 32) (X (Proc.devRef .tc main_v11)) (X (Proc.devRef .tc main_v13)) (X (Proc.devRef .tc main_arg16))) ∧
  (X (Proc.devRef .tc main_v15) = (broadcastInDim S320000x1 ![0] bcast_S320000_S320000x1_0 : IVec S320000 32 → IVec S320000x1 32) (X (Proc.devRef .tc main_v9))) ∧
  (X (Proc.devRef .tc main_v16) = (broadcastInDim S320000x1 ![0] bcast_S320000_S320000x1_0 : IVec S320000 32 → IVec S320000x1 32) (X (Proc.devRef .tc main_v14))) ∧
  (X (Proc.devRef .tc main_v17) = ((fun a b => concatenate S320000x2 1 [⟨S320000x1, a⟩, ⟨S320000x1, b⟩] concatenates_S320000x1_S320000x1_S320000x2_d1) : IVec S320000x1 32 → IVec S320000x1 32 → IVec S320000x2 32) (X (Proc.devRef .tc main_v15)) (X (Proc.devRef .tc main_v16))) ∧
  (X (Proc.devRef .tc main_v18) = ((fun x i u => Host.scatterAdd (F := Ideal) scatter_S10000x10000_S320000x2_S320000_n_01_01_1 x i u) : FVec Ideal S10000x10000 .f32 → IVec S320000x2 32 → FVec Ideal S320000 .f32 → FVec Ideal S10000x10000 .f32) (X (Proc.devRef .tc main_v4)) (X (Proc.devRef .tc main_v17)) (X (Proc.devRef .tc main_arg10))) ∧
  (X (Proc.devRef .tc main_v19) = ((truncf (F := Ideal) .bf16 · bitsLt_bf16_f32) : FVec Ideal S10000x10000 .f32 → FVec Ideal S10000x10000 .bf16) (X (Proc.devRef .tc main_v18))) ∧
  (X (Proc.devRef .tc main_cst_3) = (constant (F := Ideal) S_ .f32 0x00000000#32)) ∧
  (X (Proc.devRef .tc main_v20) = (broadcastInDim S10000x10000 ![] bcast_S_S10000x10000 : FVec Ideal S_ .f32 → FVec Ideal S10000x10000 .f32) (X (Proc.devRef .tc main_cst_3))) ∧
  (X (Proc.devRef .tc main_c_4) = (constantI S_ 32 0#32)) ∧
  (X (Proc.devRef .tc main_v21) = (broadcastInDim S320000 ![] bcast_S_S320000 : IVec S_ 32 → IVec S320000 32) (X (Proc.devRef .tc main_c_4))) ∧
  (X (Proc.devRef .tc main_v22) = (cmpi .slt : IVec S320000 32 → IVec S320000 32 → IVec S320000 1) (X (Proc.devRef .tc main_arg19)) (X (Proc.devRef .tc main_v21))) ∧
  (X (Proc.devRef .tc main_c_5) = (constantI S_ 32 10000#32)) ∧
  (X (Proc.devRef .tc main_v23) = (broadcastInDim S320000 ![] bcast_S_S320000 : IVec S_ 32 → IVec S320000 32) (X (Proc.devRef .tc main_c_5)))

def KEqsBlk2 (G : RegionFns) (X : Valuation τ sig (Elt Ideal)) : Prop :=
  (X (Proc.devRef .tc main_v24) = (addi : IVec S320000 32 → IVec S320000 32 → IVec S320000 32) (X (Proc.devRef .tc main_arg19)) (X (Proc.devRef .tc main_v23))) ∧
  (X (Proc.devRef .tc main_v25) = (select : IVec S320000 1 → IVec S320000 32 → IVec S320000 32 → IVec S320000 32) (X (Proc.devRef .tc main_v22)) (X (Proc.devRef .tc main_v24)) (X (Proc.devRef .tc main_arg19))) ∧
  (X (Proc.devRef .tc main_c_6) = (constantI S_ 32 0#32)) ∧
  (X (Proc.devRef .tc main_v26) = (broadcastInDim S320000 ![] bcast_S_S320000 : IVec S_ 32 → IVec S320000 32) (X (Proc.devRef .tc main_c_6))) ∧
  (X (Proc.devRef .tc main_v27) = (cmpi .slt : IVec S320000 32 → IVec S320000 32 → IVec S320000 1) (X (Proc.devRef .tc main_arg20)) (X (Proc.devRef .tc main_v26))) ∧
  (X (Proc.devRef .tc main_c_7) = (constantI S_ 32 10000#32)) ∧
  (X (Proc.devRef .tc main_v28) = (broadcastInDim S320000 ![] bcast_S_S320000 : IVec S_ 32 → IVec S320000 32) (X (Proc.devRef .tc main_c_7))) ∧
  (X (Proc.devRef .tc main_v29) = (addi : IVec S320000 32 → IVec S320000 32 → IVec S320000 32) (X (Proc.devRef .tc main_arg20)) (X (Proc.devRef .tc main_v28))) ∧
  (X (Proc.devRef .tc main_v30) = (select : IVec S320000 1 → IVec S320000 32 → IVec S320000 32 → IVec S320000 32) (X (Proc.devRef .tc main_v27)) (X (Proc.devRef .tc main_v29)) (X (Proc.devRef .tc main_arg20))) ∧
  (X (Proc.devRef .tc main_v31) = (broadcastInDim S320000x1 ![0] bcast_S320000_S320000x1_0 : IVec S320000 32 → IVec S320000x1 32) (X (Proc.devRef .tc main_v25))) ∧
  (X (Proc.devRef .tc main_v32) = (broadcastInDim S320000x1 ![0] bcast_S320000_S320000x1_0 : IVec S320000 32 → IVec S320000x1 32) (X (Proc.devRef .tc main_v30))) ∧
  (X (Proc.devRef .tc main_v33) = ((fun a b => concatenate S320000x2 1 [⟨S320000x1, a⟩, ⟨S320000x1, b⟩] concatenates_S320000x1_S320000x1_S320000x2_d1) : IVec S320000x1 32 → IVec S320000x1 32 → IVec S320000x2 32) (X (Proc.devRef .tc main_v31)) (X (Proc.devRef .tc main_v32))) ∧
  (X (Proc.devRef .tc main_v34) = ((fun x i u => Host.scatterAdd (F := Ideal) scatter_S10000x10000_S320000x2_S320000_n_01_01_1 x i u) : FVec Ideal S10000x10000 .f32 → IVec S320000x2 32 → FVec Ideal S320000 .f32 → FVec Ideal S10000x10000 .f32) (X (Proc.devRef .tc main_v20)) (X (Proc.devRef .tc main_v33)) (X (Proc.devRef .tc main_arg12))) ∧
  (X (Proc.devRef .tc main_v35) = ((truncf (F := Ideal) .bf16 · bitsLt_bf16_f32) : FVec Ideal S10000x10000 .f32 → FVec Ideal S10000x10000 .bf16) (X (Proc.devRef .tc main_v34))) ∧
  (X (Proc.devRef .tc main_cst_8) = (constant (F := Ideal) S_ .f32 0x00000000#32)) ∧
  (X (Proc.devRef .tc main_v36) = (broadcastInDim S10000x10000 ![] bcast_S_S10000x10000 : FVec Ideal S_ .f32 → FVec Ideal S10000x10000 .f32) (X (Proc.devRef .tc main_cst_8)))

def KEqsBlk3 (G : RegionFns) (X : Valuation τ sig (Elt Ideal)) : Prop :=
  (X (Proc.devRef .tc main_c_9) = (constantI S_ 32 0#32)) ∧
  (X (Proc.devRef .tc main_v37) = (broadcastInDim S320000 ![] bcast_S_S320000 : IVec S_ 32 → IVec S320000 32) (X (Proc.devRef .tc main_c_9))) ∧
  (X (Proc.devRef .tc main_v38) = (cmpi .slt : IVec S320000 32 → IVec S320000 32 → IVec S320000 1) (X (Proc.devRef .tc main_arg17)) (X (Proc.devRef .tc main_v37))) ∧
  (X (Proc.devRef .tc main_c_10) = (constantI S_ 32 10000#32)) ∧
  (X (Proc.devRef .tc main_v39) = (broadcastInDim S320000 ![] bcast_S_S320000 : IVec S_ 32 → IVec S320000 32) (X (Proc.devRef .tc main_c_10))) ∧
  (X (Proc.devRef .tc main_v40) = (addi : IVec S320000 32 → IVec S320000 32 → IVec S320000 32) (X (Proc.devRef .tc main_arg17)) (X (Proc.devRef .tc main_v39))) ∧
  (X (Proc.devRef .tc main_v41) = (select : IVec S320000 1 → IVec S320000 32 → IVec S320000 32 → IVec S320000 32) (X (Proc.devRef .tc main_v38)) (X (Proc.devRef .tc main_v40)) (X (Proc.devRef .tc main_arg17))) ∧
  (X (Proc.devRef .tc main_c_11) = (constantI S_ 32 0#32)) ∧
  (X (Proc.devRef .tc main_v42) = (broadcastInDim S320000 ![] bcast_S_S320000 : IVec S_ 32 → IVec S320000 32) (X (Proc.devRef .tc main_c_11))) ∧
  (X (Proc.devRef .tc main_v43) = (cmpi .slt : IVec S320000 32 → IVec S320000 32 → IVec S320000 1) (X (Proc.devRef .tc main_arg18)) (X (Proc.devRef .tc main_v42))) ∧
  (X (Proc.devRef .tc main_c_12) = (constantI S_ 32 10000#32)) ∧
  (X (Proc.devRef .tc main_v44) = (broadcastInDim S320000 ![] bcast_S_S320000 : IVec S_ 32 → IVec S320000 32) (X (Proc.devRef .tc main_c_12))) ∧
  (X (Proc.devRef .tc main_v45) = (addi : IVec S320000 32 → IVec S320000 32 → IVec S320000 32) (X (Proc.devRef .tc main_arg18)) (X (Proc.devRef .tc main_v44))) ∧
  (X (Proc.devRef .tc main_v46) = (select : IVec S320000 1 → IVec S320000 32 → IVec S320000 32 → IVec S320000 32) (X (Proc.devRef .tc main_v43)) (X (Proc.devRef .tc main_v45)) (X (Proc.devRef .tc main_arg18))) ∧
  (X (Proc.devRef .tc main_v47) = (broadcastInDim S320000x1 ![0] bcast_S320000_S320000x1_0 : IVec S320000 32 → IVec S320000x1 32) (X (Proc.devRef .tc main_v41))) ∧
  (X (Proc.devRef .tc main_v48) = (broadcastInDim S320000x1 ![0] bcast_S320000_S320000x1_0 : IVec S320000 32 → IVec S320000x1 32) (X (Proc.devRef .tc main_v46)))

def KEqsBlk4 (G : RegionFns) (X : Valuation τ sig (Elt Ideal)) : Prop :=
  (X (Proc.devRef .tc main_v49) = ((fun a b => concatenate S320000x2 1 [⟨S320000x1, a⟩, ⟨S320000x1, b⟩] concatenates_S320000x1_S320000x1_S320000x2_d1) : IVec S320000x1 32 → IVec S320000x1 32 → IVec S320000x2 32) (X (Proc.devRef .tc main_v47)) (X (Proc.devRef .tc main_v48))) ∧
  (X (Proc.devRef .tc main_v50) = ((fun x i u => Host.scatterAdd (F := Ideal) scatter_S10000x10000_S320000x2_S320000_n_01_01_1 x i u) : FVec Ideal S10000x10000 .f32 → IVec S320000x2 32 → FVec Ideal S320000 .f32 → FVec Ideal S10000x10000 .f32) (X (Proc.devRef .tc main_v36)) (X (Proc.devRef .tc main_v49)) (X (Proc.devRef .tc main_arg11))) ∧
  (X (Proc.devRef .tc main_v51) = ((truncf (F := Ideal) .bf16 · bitsLt_bf16_f32) : FVec Ideal S10000x10000 .f32 → FVec Ideal S10000x10000 .bf16) (X (Proc.devRef .tc main_v50))) ∧
  (X (Proc.devRef .tc main_cst_13) = (constant (F := Ideal) S_ .f32 0x00000000#32)) ∧
  (X (Proc.devRef .tc main_v52) = (broadcastInDim S8000x10000 ![] bcast_S_S8000x10000 : FVec Ideal S_ .f32 → FVec Ideal S8000x10000 .f32) (X (Proc.devRef .tc main_cst_13))) ∧
  (X (Proc.devRef .tc main_c_14) = (constantI S_ 32 0#32)) ∧
  (X (Proc.devRef .tc main_v53) = (broadcastInDim S400000 ![] bcast_S_S400000 : IVec S_ 32 → IVec S400000 32) (X (Proc.devRef .tc main_c_14))) ∧
  (X (Proc.devRef .tc main_v54) = (cmpi .slt : IVec S400000 32 → IVec S400000 32 → IVec S400000 1) (X (Proc.devRef .tc main_arg21)) (X (Proc.devRef .tc main_v53))) ∧
  (X (Proc.devRef .tc main_c_15) = (constantI S_ 32 8000#32)) ∧
  (X (Proc.devRef .tc main_v55) = (broadcastInDim S400000 ![] bcast_S_S400000 : IVec S_ 32 → IVec S400000 32) (X (Proc.devRef .tc main_c_15))) ∧
  (X (Proc.devRef .tc main_v56) = (addi : IVec S400000 32 → IVec S400000 32 → IVec S400000 32) (X (Proc.devRef .tc main_arg21)) (X (Proc.devRef .tc main_v55))) ∧
  (X (Proc.devRef .tc main_v57) = (select : IVec S400000 1 → IVec S400000 32 → IVec S400000 32 → IVec S400000 32) (X (Proc.devRef .tc main_v54)) (X (Proc.devRef .tc main_v56)) (X (Proc.devRef .tc main_arg21))) ∧
  (X (Proc.devRef .tc main_c_16) = (constantI S_ 32 0#32)) ∧
  (X (Proc.devRef .tc main_v58) = (broadcastInDim S400000 ![] bcast_S_S400000 : IVec S_ 32 → IVec S400000 32) (X (Proc.devRef .tc main_c_16))) ∧
  (X (Proc.devRef .tc main_v59) = (cmpi .slt : IVec S400000 32 → IVec S400000 32 → IVec S400000 1) (X (Proc.devRef .tc main_arg22)) (X (Proc.devRef .tc main_v58))) ∧
  (X (Proc.devRef .tc main_c_17) = (constantI S_ 32 10000#32))

def KEqsBlk5 (G : RegionFns) (X : Valuation τ sig (Elt Ideal)) : Prop :=
  (X (Proc.devRef .tc main_v60) = (broadcastInDim S400000 ![] bcast_S_S400000 : IVec S_ 32 → IVec S400000 32) (X (Proc.devRef .tc main_c_17))) ∧
  (X (Proc.devRef .tc main_v61) = (addi : IVec S400000 32 → IVec S400000 32 → IVec S400000 32) (X (Proc.devRef .tc main_arg22)) (X (Proc.devRef .tc main_v60))) ∧
  (X (Proc.devRef .tc main_v62) = (select : IVec S400000 1 → IVec S400000 32 → IVec S400000 32 → IVec S400000 32) (X (Proc.devRef .tc main_v59)) (X (Proc.devRef .tc main_v61)) (X (Proc.devRef .tc main_arg22))) ∧
  (X (Proc.devRef .tc main_v63) = (broadcastInDim S400000x1 ![0] bcast_S400000_S400000x1_0 : IVec S400000 32 → IVec S400000x1 32) (X (Proc.devRef .tc main_v57))) ∧
  (X (Proc.devRef .tc main_v64) = (broadcastInDim S400000x1 ![0] bcast_S400000_S400000x1_0 : IVec S400000 32 → IVec S400000x1 32) (X (Proc.devRef .tc main_v62))) ∧
  (X (Proc.devRef .tc main_v65) = ((fun a b => concatenate S400000x2 1 [⟨S400000x1, a⟩, ⟨S400000x1, b⟩] concatenates_S400000x1_S400000x1_S400000x2_d1) : IVec S400000x1 32 → IVec S400000x1 32 → IVec S400000x2 32) (X (Proc.devRef .tc main_v63)) (X (Proc.devRef .tc main_v64))) ∧
  (X (Proc.devRef .tc main_v66) = ((fun x i u => Host.scatterAdd (F := Ideal) scatter_S8000x10000_S400000x2_S400000_n_01_01_1 x i u) : FVec Ideal S8000x10000 .f32 → IVec S400000x2 32 → FVec Ideal S400000 .f32 → FVec Ideal S8000x10000 .f32) (X (Proc.devRef .tc main_v52)) (X (Proc.devRef .tc main_v65)) (X (Proc.devRef .tc main_arg13))) ∧
  (X (Proc.devRef .tc main_v67) = ((truncf (F := Ideal) .bf16 · bitsLt_bf16_f32) : FVec Ideal S8000x10000 .f32 → FVec Ideal S8000x10000 .bf16) (X (Proc.devRef .tc main_v66))) ∧
  (X (Proc.devRef .tc main_cst_18) = (constant (F := Ideal) S_ .f32 0x00000000#32)) ∧
  (X (Proc.devRef .tc main_v68) = (broadcastInDim S10000x8000 ![] bcast_S_S10000x8000 : FVec Ideal S_ .f32 → FVec Ideal S10000x8000 .f32) (X (Proc.devRef .tc main_cst_18))) ∧
  (X (Proc.devRef .tc main_c_19) = (constantI S_ 32 0#32)) ∧
  (X (Proc.devRef .tc main_v69) = (broadcastInDim S400000 ![] bcast_S_S400000 : IVec S_ 32 → IVec S400000 32) (X (Proc.devRef .tc main_c_19))) ∧
  (X (Proc.devRef .tc main_v70) = (cmpi .slt : IVec S400000 32 → IVec S400000 32 → IVec S400000 1) (X (Proc.devRef .tc main_arg23)) (X (Proc.devRef .tc main_v69))) ∧
  (X (Proc.devRef .tc main_c_20) = (constantI S_ 32 10000#32)) ∧
  (X (Proc.devRef .tc main_v71) = (broadcastInDim S400000 ![] bcast_S_S400000 : IVec S_ 32 → IVec S400000 32) (X (Proc.devRef .tc main_c_20))) ∧
  (X (Proc.devRef .tc main_v72) = (addi : IVec S400000 32 → IVec S400000 32 → IVec S400000 32) (X (Proc.devRef .tc main_arg23)) (X (Proc.devRef .tc main_v71)))

def KEqsBlk6 (G : RegionFns) (X : Valuation τ sig (Elt Ideal)) : Prop :=
  (X (Proc.devRef .tc main_v73) = (select : IVec S400000 1 → IVec S400000 32 → IVec S400000 32 → IVec S400000 32) (X (Proc.devRef .tc main_v70)) (X (Proc.devRef .tc main_v72)) (X (Proc.devRef .tc main_arg23))) ∧
  (X (Proc.devRef .tc main_c_21) = (constantI S_ 32 0#32)) ∧
  (X (Proc.devRef .tc main_v74) = (broadcastInDim S400000 ![] bcast_S_S400000 : IVec S_ 32 → IVec S400000 32) (X (Proc.devRef .tc main_c_21))) ∧
  (X (Proc.devRef .tc main_v75) = (cmpi .slt : IVec S400000 32 → IVec S400000 32 → IVec S400000 1) (X (Proc.devRef .tc main_arg24)) (X (Proc.devRef .tc main_v74))) ∧
  (X (Proc.devRef .tc main_c_22) = (constantI S_ 32 8000#32)) ∧
  (X (Proc.devRef .tc main_v76) = (broadcastInDim S400000 ![] bcast_S_S400000 : IVec S_ 32 → IVec S400000 32) (X (Proc.devRef .tc main_c_22))) ∧
  (X (Proc.devRef .tc main_v77) = (addi : IVec S400000 32 → IVec S400000 32 → IVec S400000 32) (X (Proc.devRef .tc main_arg24)) (X (Proc.devRef .tc main_v76))) ∧
  (X (Proc.devRef .tc main_v78) = (select : IVec S400000 1 → IVec S400000 32 → IVec S400000 32 → IVec S400000 32) (X (Proc.devRef .tc main_v75)) (X (Proc.devRef .tc main_v77)) (X (Proc.devRef .tc main_arg24))) ∧
  (X (Proc.devRef .tc main_v79) = (broadcastInDim S400000x1 ![0] bcast_S400000_S400000x1_0 : IVec S400000 32 → IVec S400000x1 32) (X (Proc.devRef .tc main_v73))) ∧
  (X (Proc.devRef .tc main_v80) = (broadcastInDim S400000x1 ![0] bcast_S400000_S400000x1_0 : IVec S400000 32 → IVec S400000x1 32) (X (Proc.devRef .tc main_v78))) ∧
  (X (Proc.devRef .tc main_v81) = ((fun a b => concatenate S400000x2 1 [⟨S400000x1, a⟩, ⟨S400000x1, b⟩] concatenates_S400000x1_S400000x1_S400000x2_d1) : IVec S400000x1 32 → IVec S400000x1 32 → IVec S400000x2 32) (X (Proc.devRef .tc main_v79)) (X (Proc.devRef .tc main_v80))) ∧
  (X (Proc.devRef .tc main_v82) = ((fun x i u => Host.scatterAdd (F := Ideal) scatter_S10000x8000_S400000x2_S400000_n_01_01_1 x i u) : FVec Ideal S10000x8000 .f32 → IVec S400000x2 32 → FVec Ideal S400000 .f32 → FVec Ideal S10000x8000 .f32) (X (Proc.devRef .tc main_v68)) (X (Proc.devRef .tc main_v81)) (X (Proc.devRef .tc main_arg14))) ∧
  (X (Proc.devRef .tc main_v83) = ((truncf (F := Ideal) .bf16 · bitsLt_bf16_f32) : FVec Ideal S10000x8000 .f32 → FVec Ideal S10000x8000 .bf16) (X (Proc.devRef .tc main_v82))) ∧
  (X (Proc.devRef .tc main_v84) = ((truncf (F := Ideal) .bf16 · bitsLt_bf16_f32) : FVec Ideal S10000x64 .f32 → FVec Ideal S10000x64 .bf16) (X (Proc.devRef .tc main_v1))) ∧
  (X (Proc.devRef .tc main_v85) = Cert.KernelIdeal.Hand.G3_3 (F := Ideal) (X (Proc.devRef .tc main_v19)) (X (Proc.devRef .tc main_v84)) (X (Proc.devRef .tc main_v1))) ∧
  (X (Proc.devRef .tc main_v86) = (addf (F := Ideal) : FVec Ideal S10000x64 .f32 → FVec Ideal S10000x64 .f32 → FVec Ideal S10000x64 .f32) (X (Proc.devRef .tc main_v1)) (X (Proc.devRef .tc main_v85)))

def KEqsBlk7 (G : RegionFns) (X : Valuation τ sig (Elt Ideal)) : Prop :=
  (X (Proc.devRef .tc main_v87) = ((truncf (F := Ideal) .bf16 · bitsLt_bf16_f32) : FVec Ideal S10000x64 .f32 → FVec Ideal S10000x64 .bf16) (X (Proc.devRef .tc main_v85))) ∧
  (X (Proc.devRef .tc main_v88) = Cert.KernelIdeal.Hand.G4_3 (F := Ideal) (X (Proc.devRef .tc main_v19)) (X (Proc.devRef .tc main_v87)) (X (Proc.devRef .tc main_v85))) ∧
  (X (Proc.devRef .tc main_v89) = (addf (F := Ideal) : FVec Ideal S10000x64 .f32 → FVec Ideal S10000x64 .f32 → FVec Ideal S10000x64 .f32) (X (Proc.devRef .tc main_v86)) (X (Proc.devRef .tc main_v88))) ∧
  (X (Proc.devRef .tc main_cst_23) = (constant (F := Ideal) S_ .f32 0x40400000#32)) ∧
  (X (Proc.devRef .tc main_v90) = (broadcastInDim S10000x64 ![] bcast_S_S10000x64 : FVec Ideal S_ .f32 → FVec Ideal S10000x64 .f32) (X (Proc.devRef .tc main_cst_23))) ∧
  (X (Proc.devRef .tc main_v91) = (Host.divf (F := Ideal) : FVec Ideal S10000x64 .f32 → FVec Ideal S10000x64 .f32 → FVec Ideal S10000x64 .f32) (X (Proc.devRef .tc main_v89)) (X (Proc.devRef .tc main_v90))) ∧
  (X (Proc.devRef .tc main_v92) = ((truncf (F := Ideal) .bf16 · bitsLt_bf16_f32) : FVec Ideal S10000x64 .f32 → FVec Ideal S10000x64 .bf16) (X (Proc.devRef .tc main_v2))) ∧
  (X (Proc.devRef .tc main_v93) = G.G5_2 (X (Proc.devRef .tc main_v35)) (X (Proc.devRef .tc main_v92))) ∧
  (X (Proc.devRef .tc main_v94) = ((truncf (F := Ideal) .bf16 · bitsLt_bf16_f32) : FVec Ideal S10000x64 .f32 → FVec Ideal S10000x64 .bf16) (X (Proc.devRef .tc main_v93))) ∧
  (X (Proc.devRef .tc main_v95) = Cert.KernelIdeal.Hand.G6_3 (F := Ideal) (X (Proc.devRef .tc main_v51)) (X (Proc.devRef .tc main_v94)) (X (Proc.devRef .tc main_v2))) ∧
  (X (Proc.devRef .tc main_v96) = (addf (F := Ideal) : FVec Ideal S10000x64 .f32 → FVec Ideal S10000x64 .f32 → FVec Ideal S10000x64 .f32) (X (Proc.devRef .tc main_v2)) (X (Proc.devRef .tc main_v95))) ∧
  (X (Proc.devRef .tc main_v97) = ((truncf (F := Ideal) .bf16 · bitsLt_bf16_f32) : FVec Ideal S10000x64 .f32 → FVec Ideal S10000x64 .bf16) (X (Proc.devRef .tc main_v95))) ∧
  (X (Proc.devRef .tc main_v98) = G.G7_2 (X (Proc.devRef .tc main_v35)) (X (Proc.devRef .tc main_v97))) ∧
  (X (Proc.devRef .tc main_v99) = ((truncf (F := Ideal) .bf16 · bitsLt_bf16_f32) : FVec Ideal S10000x64 .f32 → FVec Ideal S10000x64 .bf16) (X (Proc.devRef .tc main_v98))) ∧
  (X (Proc.devRef .tc main_v100) = Cert.KernelIdeal.Hand.G8_3 (F := Ideal) (X (Proc.devRef .tc main_v51)) (X (Proc.devRef .tc main_v99)) (X (Proc.devRef .tc main_v95))) ∧
  (X (Proc.devRef .tc main_v101) = (addf (F := Ideal) : FVec Ideal S10000x64 .f32 → FVec Ideal S10000x64 .f32 → FVec Ideal S10000x64 .f32) (X (Proc.devRef .tc main_v96)) (X (Proc.devRef .tc main_v100)))

def KEqsBlk8 (G : RegionFns) (X : Valuation τ sig (Elt Ideal)) : Prop :=
  (X (Proc.devRef .tc main_cst_24) = (constant (F := Ideal) S_ .f32 0x40400000#32)) ∧
  (X (Proc.devRef .tc main_v102) = (broadcastInDim S10000x64 ![] bcast_S_S10000x64 : FVec Ideal S_ .f32 → FVec Ideal S10000x64 .f32) (X (Proc.devRef .tc main_cst_24))) ∧
  (X (Proc.devRef .tc main_v103) = (Host.divf (F := Ideal) : FVec Ideal S10000x64 .f32 → FVec Ideal S10000x64 .f32 → FVec Ideal S10000x64 .f32) (X (Proc.devRef .tc main_v101)) (X (Proc.devRef .tc main_v102))) ∧
  (X (Proc.devRef .tc main_v104) = Cert.KernelIdeal.Hand.G9_1 (F := Ideal) (X (Proc.devRef .tc main_v91))) ∧
  (X (Proc.devRef .tc main_v105) = Cert.KernelIdeal.Hand.G10_1 (F := Ideal) (X (Proc.devRef .tc main_v103))) ∧
  (X (Proc.devRef .tc main_v106) = ((truncf (F := Ideal) .bf16 · bitsLt_bf16_f32) : FVec Ideal S10000x64 .f32 → FVec Ideal S10000x64 .bf16) (X (Proc.devRef .tc main_v104))) ∧
  (X (Proc.devRef .tc main_v107) = ((truncf (F := Ideal) .bf16 · bitsLt_bf16_f32) : FVec Ideal S10000x64 .f32 → FVec Ideal S10000x64 .bf16) (X (Proc.devRef .tc main_v105))) ∧
  (X (Proc.devRef .tc main_v108_0) = G.G11_2 (Named.named (F := Ideal) κ "inv_temp" (φ := .f32) 0x40A00000#32) (X (Proc.devRef .tc main_v106)) (X (Proc.devRef .tc main_v107))) ∧
  (X (Proc.devRef .tc main_v108_1) = G.G11_3 (Named.named (F := Ideal) κ "inv_temp" (φ := .f32) 0x40A00000#32) (X (Proc.devRef .tc main_v106)) (X (Proc.devRef .tc main_v107))) ∧
  (X (Proc.devRef .tc main_v109) = fun j => (rfl : main_v108_0.ty.elt = main_v109.ty.elt) ▸ shapeCast main_v109.ty.shape (X (Proc.devRef .tc main_v108_0)) shapeCasts_S10000x1_S10000 j) ∧
  (X (Proc.devRef .tc main_v110) = fun j => (rfl : main_v108_1.ty.elt = main_v110.ty.elt) ▸ shapeCast main_v110.ty.shape (X (Proc.devRef .tc main_v108_1)) shapeCasts_S10000x1_S10000 j) ∧
  (X (Proc.devRef .tc main_v111) = (mulf (F := Ideal) : FVec Ideal S10000x64 .f32 → FVec Ideal S10000x64 .f32 → FVec Ideal S10000x64 .f32) (X (Proc.devRef .tc main_v104)) (X (Proc.devRef .tc main_v105))) ∧
  (X (Proc.devRef .tc main_cst_25) = (constant (F := Ideal) S_ .f32 0x00000000#32)) ∧
  (X (Proc.devRef .tc main_v112) = ((fun x v => Host.reduceAdd (F := Ideal) x v reducesTo_S10000x64_S10000_d1 h_S_) : FVec Ideal S10000x64 .f32 → FVec Ideal S_ .f32 → FVec Ideal S10000 .f32) (X (Proc.devRef .tc main_v111)) (X (Proc.devRef .tc main_cst_25))) ∧
  (X (Proc.devRef .tc main_cst_26) = (constant (F := Ideal) S_ .f32 0x3E4CCCCD#32)) ∧
  (X (Proc.devRef .tc main_v113) = (broadcastInDim S10000 ![] bcast_S_S10000 : FVec Ideal S_ .f32 → FVec Ideal S10000 .f32) (X (Proc.devRef .tc main_cst_26)))

def KEqsBlk9 (G : RegionFns) (X : Valuation τ sig (Elt Ideal)) : Prop :=
  (X (Proc.devRef .tc main_v114) = (Host.divf (F := Ideal) : FVec Ideal S10000 .f32 → FVec Ideal S10000 .f32 → FVec Ideal S10000 .f32) (X (Proc.devRef .tc main_v112)) (X (Proc.devRef .tc main_v113))) ∧
  (X (Proc.devRef .tc main_v115) = (Host.exp (F := Ideal) : FVec Ideal S10000 .f32 → FVec Ideal S10000 .f32) (X (Proc.devRef .tc main_v114))) ∧
  (X (Proc.devRef .tc main_cst_27) = (constant (F := Ideal) S_ .f32 0x322BCC77#32)) ∧
  (X (Proc.devRef .tc main_v116) = (broadcastInDim S10000 ![] bcast_S_S10000 : FVec Ideal S_ .f32 → FVec Ideal S10000 .f32) (X (Proc.devRef .tc main_cst_27))) ∧
  (X (Proc.devRef .tc main_v117) = (addf (F := Ideal) : FVec Ideal S10000 .f32 → FVec Ideal S10000 .f32 → FVec Ideal S10000 .f32) (X (Proc.devRef .tc main_v109)) (X (Proc.devRef .tc main_v116))) ∧
  (X (Proc.devRef .tc main_v118) = (Host.divf (F := Ideal) : FVec Ideal S10000 .f32 → FVec Ideal S10000 .f32 → FVec Ideal S10000 .f32) (X (Proc.devRef .tc main_v115)) (X (Proc.devRef .tc main_v117))) ∧
  (X (Proc.devRef .tc main_cst_28) = (constant (F := Ideal) S_ .f32 0x322BCC77#32)) ∧
  (X (Proc.devRef .tc main_v119) = (broadcastInDim S10000 ![] bcast_S_S10000 : FVec Ideal S_ .f32 → FVec Ideal S10000 .f32) (X (Proc.devRef .tc main_cst_28))) ∧
  (X (Proc.devRef .tc main_v120) = (addf (F := Ideal) : FVec Ideal S10000 .f32 → FVec Ideal S10000 .f32 → FVec Ideal S10000 .f32) (X (Proc.devRef .tc main_v118)) (X (Proc.devRef .tc main_v119))) ∧
  (X (Proc.devRef .tc main_v121) = (Host.log (F := Ideal) : FVec Ideal S10000 .f32 → FVec Ideal S10000 .f32) (X (Proc.devRef .tc main_v120))) ∧
  (X (Proc.devRef .tc main_v122) = (Host.negf (F := Ideal) : FVec Ideal S10000 .f32 → FVec Ideal S10000 .f32) (X (Proc.devRef .tc main_v121))) ∧
  (X (Proc.devRef .tc main_cst_29) = (constant (F := Ideal) S_ .f32 0x00000000#32)) ∧
  (X (Proc.devRef .tc main_v123) = ((fun x v => Host.reduceAdd (F := Ideal) x v reducesTo_S10000_S_d0 h_S_) : FVec Ideal S10000 .f32 → FVec Ideal S_ .f32 → FVec Ideal S_ .f32) (X (Proc.devRef .tc main_v122)) (X (Proc.devRef .tc main_cst_29))) ∧
  (X (Proc.devRef .tc main_cst_30) = (constant (F := Ideal) S_ .f32 0x461C4000#32)) ∧
  (X (Proc.devRef .tc main_v124) = (Host.divf (F := Ideal) : FVec Ideal S_ .f32 → FVec Ideal S_ .f32 → FVec Ideal S_ .f32) (X (Proc.devRef .tc main_v123)) (X (Proc.devRef .tc main_cst_30))) ∧
  (X (Proc.devRef .tc main_v125) = (mulf (F := Ideal) : FVec Ideal S10000x64 .f32 → FVec Ideal S10000x64 .f32 → FVec Ideal S10000x64 .f32) (X (Proc.devRef .tc main_v105)) (X (Proc.devRef .tc main_v104)))

def KEqsBlk10 (G : RegionFns) (X : Valuation τ sig (Elt Ideal)) : Prop :=
  (X (Proc.devRef .tc main_cst_31) = (constant (F := Ideal) S_ .f32 0x00000000#32)) ∧
  (X (Proc.devRef .tc main_v126) = ((fun x v => Host.reduceAdd (F := Ideal) x v reducesTo_S10000x64_S10000_d1 h_S_) : FVec Ideal S10000x64 .f32 → FVec Ideal S_ .f32 → FVec Ideal S10000 .f32) (X (Proc.devRef .tc main_v125)) (X (Proc.devRef .tc main_cst_31))) ∧
  (X (Proc.devRef .tc main_cst_32) = (constant (F := Ideal) S_ .f32 0x3E4CCCCD#32)) ∧
  (X (Proc.devRef .tc main_v127) = (broadcastInDim S10000 ![] bcast_S_S10000 : FVec Ideal S_ .f32 → FVec Ideal S10000 .f32) (X (Proc.devRef .tc main_cst_32))) ∧
  (X (Proc.devRef .tc main_v128) = (Host.divf (F := Ideal) : FVec Ideal S10000 .f32 → FVec Ideal S10000 .f32 → FVec Ideal S10000 .f32) (X (Proc.devRef .tc main_v126)) (X (Proc.devRef .tc main_v127))) ∧
  (X (Proc.devRef .tc main_v129) = (Host.exp (F := Ideal) : FVec Ideal S10000 .f32 → FVec Ideal S10000 .f32) (X (Proc.devRef .tc main_v128))) ∧
  (X (Proc.devRef .tc main_cst_33) = (constant (F := Ideal) S_ .f32 0x322BCC77#32)) ∧
  (X (Proc.devRef .tc main_v130) = (broadcastInDim S10000 ![] bcast_S_S10000 : FVec Ideal S_ .f32 → FVec Ideal S10000 .f32) (X (Proc.devRef .tc main_cst_33))) ∧
  (X (Proc.devRef .tc main_v131) = (addf (F := Ideal) : FVec Ideal S10000 .f32 → FVec Ideal S10000 .f32 → FVec Ideal S10000 .f32) (X (Proc.devRef .tc main_v110)) (X (Proc.devRef .tc main_v130))) ∧
  (X (Proc.devRef .tc main_v132) = (Host.divf (F := Ideal) : FVec Ideal S10000 .f32 → FVec Ideal S10000 .f32 → FVec Ideal S10000 .f32) (X (Proc.devRef .tc main_v129)) (X (Proc.devRef .tc main_v131))) ∧
  (X (Proc.devRef .tc main_cst_34) = (constant (F := Ideal) S_ .f32 0x322BCC77#32)) ∧
  (X (Proc.devRef .tc main_v133) = (broadcastInDim S10000 ![] bcast_S_S10000 : FVec Ideal S_ .f32 → FVec Ideal S10000 .f32) (X (Proc.devRef .tc main_cst_34))) ∧
  (X (Proc.devRef .tc main_v134) = (addf (F := Ideal) : FVec Ideal S10000 .f32 → FVec Ideal S10000 .f32 → FVec Ideal S10000 .f32) (X (Proc.devRef .tc main_v132)) (X (Proc.devRef .tc main_v133))) ∧
  (X (Proc.devRef .tc main_v135) = (Host.log (F := Ideal) : FVec Ideal S10000 .f32 → FVec Ideal S10000 .f32) (X (Proc.devRef .tc main_v134))) ∧
  (X (Proc.devRef .tc main_v136) = (Host.negf (F := Ideal) : FVec Ideal S10000 .f32 → FVec Ideal S10000 .f32) (X (Proc.devRef .tc main_v135))) ∧
  (X (Proc.devRef .tc main_cst_35) = (constant (F := Ideal) S_ .f32 0x00000000#32))

def KEqsBlk11 (G : RegionFns) (X : Valuation τ sig (Elt Ideal)) : Prop :=
  (X (Proc.devRef .tc main_v137) = ((fun x v => Host.reduceAdd (F := Ideal) x v reducesTo_S10000_S_d0 h_S_) : FVec Ideal S10000 .f32 → FVec Ideal S_ .f32 → FVec Ideal S_ .f32) (X (Proc.devRef .tc main_v136)) (X (Proc.devRef .tc main_cst_35))) ∧
  (X (Proc.devRef .tc main_cst_36) = (constant (F := Ideal) S_ .f32 0x461C4000#32)) ∧
  (X (Proc.devRef .tc main_v138) = (Host.divf (F := Ideal) : FVec Ideal S_ .f32 → FVec Ideal S_ .f32 → FVec Ideal S_ .f32) (X (Proc.devRef .tc main_v137)) (X (Proc.devRef .tc main_cst_36))) ∧
  (X (Proc.devRef .tc main_v139) = (addf (F := Ideal) : FVec Ideal S_ .f32 → FVec Ideal S_ .f32 → FVec Ideal S_ .f32) (X (Proc.devRef .tc main_v124)) (X (Proc.devRef .tc main_v138))) ∧
  (X (Proc.devRef .tc main_cst_37) = (constant (F := Ideal) S_ .f32 0x3F000000#32)) ∧
  (X (Proc.devRef .tc main_v140) = (mulf (F := Ideal) : FVec Ideal S_ .f32 → FVec Ideal S_ .f32 → FVec Ideal S_ .f32) (X (Proc.devRef .tc main_cst_37)) (X (Proc.devRef .tc main_v139))) ∧
  (X (Proc.devRef .tc main_v141) = ((fun u => concatenate S10000x192 1 [⟨S10000x64, u 0⟩, ⟨S10000x64, u 1⟩, ⟨S10000x64, u 2⟩] concatenates_S10000x64_S10000x64_S10000x64_S10000x192_d1) : ((k : Fin 3) → ((![main_v104, main_v105, main_v3] : Fin 3 → Ref sig .tc) k).ty.Contents (Elt Ideal)) → main_v141.ty.Contents (Elt Ideal)) (fun k => X (Proc.devRef .tc ((![main_v104, main_v105, main_v3] : Fin 3 → Ref sig .tc) k)))) ∧
  (X (Proc.devRef .tc main_v142) = ((truncf (F := Ideal) .bf16 · bitsLt_bf16_f32) : FVec Ideal S10000x192 .f32 → FVec Ideal S10000x192 .bf16) (X (Proc.devRef .tc main_v141))) ∧
  (X (Proc.devRef .tc main_v143) = G.G12_2 (X (Proc.devRef .tc main_v67)) (X (Proc.devRef .tc main_v142))) ∧
  (X (Proc.devRef .tc main_v144) = ((extractStridedSlice S8000x64 ![0, 0] · slices_S8000x192_S8000x64_0_0) : FVec Ideal S8000x192 .f32 → FVec Ideal S8000x64 .f32) (X (Proc.devRef .tc main_v143))) ∧
  (X (Proc.devRef .tc main_v145) = ((extractStridedSlice S8000x64 ![0, 64] · slices_S8000x192_S8000x64_0_64) : FVec Ideal S8000x192 .f32 → FVec Ideal S8000x64 .f32) (X (Proc.devRef .tc main_v143))) ∧
  (X (Proc.devRef .tc main_v146) = ((extractStridedSlice S8000x64 ![0, 128] · slices_S8000x192_S8000x64_0_128) : FVec Ideal S8000x192 .f32 → FVec Ideal S8000x64 .f32) (X (Proc.devRef .tc main_v143))) ∧
  (X (Proc.devRef .tc main_v147) = (mulf (F := Ideal) : FVec Ideal S8000x64 .f32 → FVec Ideal S8000x64 .f32 → FVec Ideal S8000x64 .f32) (X (Proc.devRef .tc main_v144)) (X (Proc.devRef .tc main_v145))) ∧
  (X (Proc.devRef .tc main_v148) = (mulf (F := Ideal) : FVec Ideal S8000x64 .f32 → FVec Ideal S8000x64 .f32 → FVec Ideal S8000x64 .f32) (X (Proc.devRef .tc main_v144)) (X (Proc.devRef .tc main_v146))) ∧
  (X (Proc.devRef .tc main_v149) = (mulf (F := Ideal) : FVec Ideal S8000x64 .f32 → FVec Ideal S8000x64 .f32 → FVec Ideal S8000x64 .f32) (X (Proc.devRef .tc main_v145)) (X (Proc.devRef .tc main_v146))) ∧
  (X (Proc.devRef .tc main_v150) = (mulf (F := Ideal) : FVec Ideal S8000x64 .f32 → FVec Ideal S8000x64 .f32 → FVec Ideal S8000x64 .f32) (X (Proc.devRef .tc main_v144)) (X (Proc.devRef .tc main_v145)))

def KEqsBlk12 (G : RegionFns) (X : Valuation τ sig (Elt Ideal)) : Prop :=
  (X (Proc.devRef .tc main_v151) = (mulf (F := Ideal) : FVec Ideal S8000x64 .f32 → FVec Ideal S8000x64 .f32 → FVec Ideal S8000x64 .f32) (X (Proc.devRef .tc main_v150)) (X (Proc.devRef .tc main_v146))) ∧
  (X (Proc.devRef .tc main_v152) = ((fun u => concatenate S8000x448 1 [⟨S8000x64, u 0⟩, ⟨S8000x64, u 1⟩, ⟨S8000x64, u 2⟩, ⟨S8000x64, u 3⟩, ⟨S8000x64, u 4⟩, ⟨S8000x64, u 5⟩, ⟨S8000x64, u 6⟩] concatenates_S8000x64_S8000x64_S8000x64_S8000x64_S8000x64_S8000x64_S8000x64_S8000x448_d1) : ((k : Fin 7) → ((![main_v144, main_v145, main_v146, main_v147, main_v148, main_v149, main_v151] : Fin 7 → Ref sig .tc) k).ty.Contents (Elt Ideal)) → main_v152.ty.Contents (Elt Ideal)) (fun k => X (Proc.devRef .tc ((![main_v144, main_v145, main_v146, main_v147, main_v148, main_v149, main_v151] : Fin 7 → Ref sig .tc) k)))) ∧
  (X (Proc.devRef .tc main_v153) = ((fun l r => Host.dotGeneral (F := Ideal) dot_S8000x448_S448x64_S8000x64_1_0_0_1_n_n none l r) : FVec Ideal S8000x448 .f32 → FVec Ideal S448x64 .f32 → FVec Ideal S8000x64 .f32) (X (Proc.devRef .tc main_v152)) (X (Proc.devRef .tc main_arg8))) ∧
  (X (Proc.devRef .tc main_v154) = (broadcastInDim S1x64 ![1] bcast_S64_S1x64_1 : FVec Ideal S64 .f32 → FVec Ideal S1x64 .f32) (X (Proc.devRef .tc main_arg9))) ∧
  (X (Proc.devRef .tc main_v155) = (broadcastInDim S8000x64 ![0, 1] bcast_S1x64_S8000x64_0_1 : FVec Ideal S1x64 .f32 → FVec Ideal S8000x64 .f32) (X (Proc.devRef .tc main_v154))) ∧
  (X (Proc.devRef .tc main_v156) = (addf (F := Ideal) : FVec Ideal S8000x64 .f32 → FVec Ideal S8000x64 .f32 → FVec Ideal S8000x64 .f32) (X (Proc.devRef .tc main_v153)) (X (Proc.devRef .tc main_v155))) ∧
  (X (Proc.devRef .tc main_v157) = (addf (F := Ideal) : FVec Ideal S8000x64 .f32 → FVec Ideal S8000x64 .f32 → FVec Ideal S8000x64 .f32) (X (Proc.devRef .tc main_v156)) (X (Proc.devRef .tc main_arg1))) ∧
  (X (Proc.devRef .tc main_v158) = (mulf (F := Ideal) : FVec Ideal S8000x64 .f32 → FVec Ideal S8000x64 .f32 → FVec Ideal S8000x64 .f32) (X (Proc.devRef .tc main_v156)) (X (Proc.devRef .tc main_arg1))) ∧
  (X (Proc.devRef .tc main_v159) = (addf (F := Ideal) : FVec Ideal S8000x64 .f32 → FVec Ideal S8000x64 .f32 → FVec Ideal S8000x64 .f32) (X (Proc.devRef .tc main_v157)) (X (Proc.devRef .tc main_v158))) ∧
  (X (Proc.devRef .tc main_v160) = ((truncf (F := Ideal) .bf16 · bitsLt_bf16_f32) : FVec Ideal S8000x64 .f32 → FVec Ideal S8000x64 .bf16) (X (Proc.devRef .tc main_v159))) ∧
  (X (Proc.devRef .tc main_v161) = G.G13_2 (X (Proc.devRef .tc main_v83)) (X (Proc.devRef .tc main_v160))) ∧
  (X (Proc.devRef .tc main_cst_38) = (constant (F := Ideal) S_ .f32 0x3F800000#32)) ∧
  (X (Proc.devRef .tc main_v162) = (broadcastInDim S10000x64 ![] bcast_S_S10000x64 : FVec Ideal S_ .f32 → FVec Ideal S10000x64 .f32) (X (Proc.devRef .tc main_cst_38))) ∧
  (X (Proc.devRef .tc main_v163) = (mulf (F := Ideal) : FVec Ideal S10000x64 .f32 → FVec Ideal S10000x64 .f32 → FVec Ideal S10000x64 .f32) (X (Proc.devRef .tc main_v161)) (X (Proc.devRef .tc main_v162))) ∧
  (X (Proc.devRef .tc main_v164) = (addf (F := Ideal) : FVec Ideal S10000x64 .f32 → FVec Ideal S10000x64 .f32 → FVec Ideal S10000x64 .f32) (X (Proc.devRef .tc main_v3)) (X (Proc.devRef .tc main_v163))) ∧
  (X (Proc.devRef .tc main_v165) = Cert.KernelIdeal.Hand.G14_1 (F := Ideal) (X (Proc.devRef .tc main_v164)))

def KEqsBlk13 (G : RegionFns) (X : Valuation τ sig (Elt Ideal)) : Prop :=
  (X (Proc.devRef .tc main_v166) = (addf (F := Ideal) : FVec Ideal S10000x64 .f32 → FVec Ideal S10000x64 .f32 → FVec Ideal S10000x64 .f32) (X (Proc.devRef .tc main_v165)) (X (Proc.devRef .tc main_v104))) ∧
  (X (Proc.devRef .tc main_v167) = (addf (F := Ideal) : FVec Ideal S10000x64 .f32 → FVec Ideal S10000x64 .f32 → FVec Ideal S10000x64 .f32) (X (Proc.devRef .tc main_v166)) (X (Proc.devRef .tc main_v105))) ∧
  (X (Proc.devRef .tc main_v168) = ((truncf (F := Ideal) .bf16 · bitsLt_bf16_f32) : FVec Ideal S10000x64 .f32 → FVec Ideal S10000x64 .bf16) (X (Proc.devRef .tc main_v167))) ∧
  (X (Proc.devRef .tc main_v169) = G.G15_2 (X (Proc.devRef .tc main_v67)) (X (Proc.devRef .tc main_v168))) ∧
  (X (Proc.devRef .tc main_c_39) = (constantI S_ 32 0#32)) ∧
  (X (Proc.devRef .tc main_v170) = (broadcastInDim S4096 ![] bcast_S_S4096 : IVec S_ 32 → IVec S4096 32) (X (Proc.devRef .tc main_c_39))) ∧
  (X (Proc.devRef .tc main_v171) = (cmpi .slt : IVec S4096 32 → IVec S4096 32 → IVec S4096 1) (X (Proc.devRef .tc main_arg25)) (X (Proc.devRef .tc main_v170))) ∧
  (X (Proc.devRef .tc main_c_40) = (constantI S_ 32 8000#32)) ∧
  (X (Proc.devRef .tc main_v172) = (broadcastInDim S4096 ![] bcast_S_S4096 : IVec S_ 32 → IVec S4096 32) (X (Proc.devRef .tc main_c_40))) ∧
  (X (Proc.devRef .tc main_v173) = (addi : IVec S4096 32 → IVec S4096 32 → IVec S4096 32) (X (Proc.devRef .tc main_arg25)) (X (Proc.devRef .tc main_v172))) ∧
  (X (Proc.devRef .tc main_v174) = (select : IVec S4096 1 → IVec S4096 32 → IVec S4096 32 → IVec S4096 32) (X (Proc.devRef .tc main_v171)) (X (Proc.devRef .tc main_v173)) (X (Proc.devRef .tc main_arg25))) ∧
  (X (Proc.devRef .tc main_v175) = (broadcastInDim S4096x1 ![0] bcast_S4096_S4096x1_0 : IVec S4096 32 → IVec S4096x1 32) (X (Proc.devRef .tc main_v174))) ∧
  (X (Proc.devRef .tc main_v176) = ((fun x i => Host.gather gather_S8000x64_S4096x1_S4096x64_1_0_n_n_0_1_164 x i) : FVec Ideal S8000x64 .f32 → IVec S4096x1 32 → FVec Ideal S4096x64 .f32) (X (Proc.devRef .tc main_v169)) (X (Proc.devRef .tc main_v175))) ∧
  (X (Proc.devRef .tc main_v177) = Cert.KernelIdeal.Hand.G16_1 (F := Ideal) (X (Proc.devRef .tc main_v176)))

def KEqs (G : RegionFns) (X : Valuation τ sig (Elt Ideal)) : Prop :=
  KEqsBlk0 G X ∧ KEqsBlk1 G X ∧ KEqsBlk2 G X ∧ KEqsBlk3 G X ∧ KEqsBlk4 G X ∧ KEqsBlk5 G X ∧ KEqsBlk6 G X ∧ KEqsBlk7 G X ∧ KEqsBlk8 G X ∧ KEqsBlk9 G X ∧ KEqsBlk10 G X ∧ KEqsBlk11 G X ∧ KEqsBlk12 G X ∧ KEqsBlk13 G X

variable {G : RegionFns} {X : Valuation τ sig (Elt Ideal)}

theorem KEqs.blk0 (h : KEqs G X) : KEqsBlk0 G X := h.1
theorem KEqs.blk1 (h : KEqs G X) : KEqsBlk1 G X := h.2.1
theorem KEqs.blk2 (h : KEqs G X) : KEqsBlk2 G X := h.2.2.1
theorem KEqs.blk3 (h : KEqs G X) : KEqsBlk3 G X := h.2.2.2.1
theorem KEqs.blk4 (h : KEqs G X) : KEqsBlk4 G X := h.2.2.2.2.1
theorem KEqs.blk5 (h : KEqs G X) : KEqsBlk5 G X := h.2.2.2.2.2.1
theorem KEqs.blk6 (h : KEqs G X) : KEqsBlk6 G X := h.2.2.2.2.2.2.1
theorem KEqs.blk7 (h : KEqs G X) : KEqsBlk7 G X := h.2.2.2.2.2.2.2.1
theorem KEqs.blk8 (h : KEqs G X) : KEqsBlk8 G X := h.2.2.2.2.2.2.2.2.1
theorem KEqs.blk9 (h : KEqs G X) : KEqsBlk9 G X := h.2.2.2.2.2.2.2.2.2.1
theorem KEqs.blk10 (h : KEqs G X) : KEqsBlk10 G X := h.2.2.2.2.2.2.2.2.2.2.1
theorem KEqs.blk11 (h : KEqs G X) : KEqsBlk11 G X := h.2.2.2.2.2.2.2.2.2.2.2.1
theorem KEqs.blk12 (h : KEqs G X) : KEqsBlk12 G X := h.2.2.2.2.2.2.2.2.2.2.2.2.1
theorem KEqs.blk13 (h : KEqs G X) : KEqsBlk13 G X := h.2.2.2.2.2.2.2.2.2.2.2.2.2

def KEqs.v0 (h : KEqs G X) := (show KEqsBlk0 G X from h.blk0).1
def KEqs.v1 (h : KEqs G X) := (show KEqsBlk0 G X from h.blk0).2.1
def KEqs.v2 (h : KEqs G X) := (show KEqsBlk0 G X from h.blk0).2.2.1
def KEqs.v3 (h : KEqs G X) := (show KEqsBlk0 G X from h.blk0).2.2.2.1
def KEqs.cst (h : KEqs G X) := (show KEqsBlk0 G X from h.blk0).2.2.2.2.1
def KEqs.v4 (h : KEqs G X) := (show KEqsBlk0 G X from h.blk0).2.2.2.2.2.1
def KEqs.c (h : KEqs G X) := (show KEqsBlk0 G X from h.blk0).2.2.2.2.2.2.1
def KEqs.v5 (h : KEqs G X) := (show KEqsBlk0 G X from h.blk0).2.2.2.2.2.2.2.1
def KEqs.v6 (h : KEqs G X) := (show KEqsBlk0 G X from h.blk0).2.2.2.2.2.2.2.2.1
def KEqs.c_0 (h : KEqs G X) := (show KEqsBlk0 G X from h.blk0).2.2.2.2.2.2.2.2.2.1
def KEqs.v7 (h : KEqs G X) := (show KEqsBlk0 G X from h.blk0).2.2.2.2.2.2.2.2.2.2.1
def KEqs.v8 (h : KEqs G X) := (show KEqsBlk0 G X from h.blk0).2.2.2.2.2.2.2.2.2.2.2.1
def KEqs.v9 (h : KEqs G X) := (show KEqsBlk0 G X from h.blk0).2.2.2.2.2.2.2.2.2.2.2.2.1
def KEqs.c_1 (h : KEqs G X) := (show KEqsBlk0 G X from h.blk0).2.2.2.2.2.2.2.2.2.2.2.2.2.1
def KEqs.v10 (h : KEqs G X) := (show KEqsBlk0 G X from h.blk0).2.2.2.2.2.2.2.2.2.2.2.2.2.2.1
def KEqs.v11 (h : KEqs G X) := (show KEqsBlk0 G X from h.blk0).2.2.2.2.2.2.2.2.2.2.2.2.2.2.2
def KEqs.c_2 (h : KEqs G X) := (show KEqsBlk1 G X from h.blk1).1
def KEqs.v12 (h : KEqs G X) := (show KEqsBlk1 G X from h.blk1).2.1
def KEqs.v13 (h : KEqs G X) := (show KEqsBlk1 G X from h.blk1).2.2.1
def KEqs.v14 (h : KEqs G X) := (show KEqsBlk1 G X from h.blk1).2.2.2.1
def KEqs.v15 (h : KEqs G X) := (show KEqsBlk1 G X from h.blk1).2.2.2.2.1
def KEqs.v16 (h : KEqs G X) := (show KEqsBlk1 G X from h.blk1).2.2.2.2.2.1
def KEqs.v17 (h : KEqs G X) := (show KEqsBlk1 G X from h.blk1).2.2.2.2.2.2.1
def KEqs.v18 (h : KEqs G X) := (show KEqsBlk1 G X from h.blk1).2.2.2.2.2.2.2.1
def KEqs.v19 (h : KEqs G X) := (show KEqsBlk1 G X from h.blk1).2.2.2.2.2.2.2.2.1
def KEqs.cst_3 (h : KEqs G X) := (show KEqsBlk1 G X from h.blk1).2.2.2.2.2.2.2.2.2.1
def KEqs.v20 (h : KEqs G X) := (show KEqsBlk1 G X from h.blk1).2.2.2.2.2.2.2.2.2.2.1
def KEqs.c_4 (h : KEqs G X) := (show KEqsBlk1 G X from h.blk1).2.2.2.2.2.2.2.2.2.2.2.1
def KEqs.v21 (h : KEqs G X) := (show KEqsBlk1 G X from h.blk1).2.2.2.2.2.2.2.2.2.2.2.2.1
def KEqs.v22 (h : KEqs G X) := (show KEqsBlk1 G X from h.blk1).2.2.2.2.2.2.2.2.2.2.2.2.2.1
def KEqs.c_5 (h : KEqs G X) := (show KEqsBlk1 G X from h.blk1).2.2.2.2.2.2.2.2.2.2.2.2.2.2.1
def KEqs.v23 (h : KEqs G X) := (show KEqsBlk1 G X from h.blk1).2.2.2.2.2.2.2.2.2.2.2.2.2.2.2
def KEqs.v24 (h : KEqs G X) := (show KEqsBlk2 G X from h.blk2).1
def KEqs.v25 (h : KEqs G X) := (show KEqsBlk2 G X from h.blk2).2.1
def KEqs.c_6 (h : KEqs G X) := (show KEqsBlk2 G X from h.blk2).2.2.1
def KEqs.v26 (h : KEqs G X) := (show KEqsBlk2 G X from h.blk2).2.2.2.1
def KEqs.v27 (h : KEqs G X) := (show KEqsBlk2 G X from h.blk2).2.2.2.2.1
def KEqs.c_7 (h : KEqs G X) := (show KEqsBlk2 G X from h.blk2).2.2.2.2.2.1
def KEqs.v28 (h : KEqs G X) := (show KEqsBlk2 G X from h.blk2).2.2.2.2.2.2.1
def KEqs.v29 (h : KEqs G X) := (show KEqsBlk2 G X from h.blk2).2.2.2.2.2.2.2.1
def KEqs.v30 (h : KEqs G X) := (show KEqsBlk2 G X from h.blk2).2.2.2.2.2.2.2.2.1
def KEqs.v31 (h : KEqs G X) := (show KEqsBlk2 G X from h.blk2).2.2.2.2.2.2.2.2.2.1
def KEqs.v32 (h : KEqs G X) := (show KEqsBlk2 G X from h.blk2).2.2.2.2.2.2.2.2.2.2.1
def KEqs.v33 (h : KEqs G X) := (show KEqsBlk2 G X from h.blk2).2.2.2.2.2.2.2.2.2.2.2.1
def KEqs.v34 (h : KEqs G X) := (show KEqsBlk2 G X from h.blk2).2.2.2.2.2.2.2.2.2.2.2.2.1
def KEqs.v35 (h : KEqs G X) := (show KEqsBlk2 G X from h.blk2).2.2.2.2.2.2.2.2.2.2.2.2.2.1
def KEqs.cst_8 (h : KEqs G X) := (show KEqsBlk2 G X from h.blk2).2.2.2.2.2.2.2.2.2.2.2.2.2.2.1
def KEqs.v36 (h : KEqs G X) := (show KEqsBlk2 G X from h.blk2).2.2.2.2.2.2.2.2.2.2.2.2.2.2.2
def KEqs.c_9 (h : KEqs G X) := (show KEqsBlk3 G X from h.blk3).1
def KEqs.v37 (h : KEqs G X) := (show KEqsBlk3 G X from h.blk3).2.1
def KEqs.v38 (h : KEqs G X) := (show KEqsBlk3 G X from h.blk3).2.2.1
def KEqs.c_10 (h : KEqs G X) := (show KEqsBlk3 G X from h.blk3).2.2.2.1
def KEqs.v39 (h : KEqs G X) := (show KEqsBlk3 G X from h.blk3).2.2.2.2.1
def KEqs.v40 (h : KEqs G X) := (show KEqsBlk3 G X from h.blk3).2.2.2.2.2.1
def KEqs.v41 (h : KEqs G X) := (show KEqsBlk3 G X from h.blk3).2.2.2.2.2.2.1
def KEqs.c_11 (h : KEqs G X) := (show KEqsBlk3 G X from h.blk3).2.2.2.2.2.2.2.1
def KEqs.v42 (h : KEqs G X) := (show KEqsBlk3 G X from h.blk3).2.2.2.2.2.2.2.2.1
def KEqs.v43 (h : KEqs G X) := (show KEqsBlk3 G X from h.blk3).2.2.2.2.2.2.2.2.2.1
def KEqs.c_12 (h : KEqs G X) := (show KEqsBlk3 G X from h.blk3).2.2.2.2.2.2.2.2.2.2.1
def KEqs.v44 (h : KEqs G X) := (show KEqsBlk3 G X from h.blk3).2.2.2.2.2.2.2.2.2.2.2.1
def KEqs.v45 (h : KEqs G X) := (show KEqsBlk3 G X from h.blk3).2.2.2.2.2.2.2.2.2.2.2.2.1
def KEqs.v46 (h : KEqs G X) := (show KEqsBlk3 G X from h.blk3).2.2.2.2.2.2.2.2.2.2.2.2.2.1
def KEqs.v47 (h : KEqs G X) := (show KEqsBlk3 G X from h.blk3).2.2.2.2.2.2.2.2.2.2.2.2.2.2.1
def KEqs.v48 (h : KEqs G X) := (show KEqsBlk3 G X from h.blk3).2.2.2.2.2.2.2.2.2.2.2.2.2.2.2
def KEqs.v49 (h : KEqs G X) := (show KEqsBlk4 G X from h.blk4).1
def KEqs.v50 (h : KEqs G X) := (show KEqsBlk4 G X from h.blk4).2.1
def KEqs.v51 (h : KEqs G X) := (show KEqsBlk4 G X from h.blk4).2.2.1
def KEqs.cst_13 (h : KEqs G X) := (show KEqsBlk4 G X from h.blk4).2.2.2.1
def KEqs.v52 (h : KEqs G X) := (show KEqsBlk4 G X from h.blk4).2.2.2.2.1
def KEqs.c_14 (h : KEqs G X) := (show KEqsBlk4 G X from h.blk4).2.2.2.2.2.1
def KEqs.v53 (h : KEqs G X) := (show KEqsBlk4 G X from h.blk4).2.2.2.2.2.2.1
def KEqs.v54 (h : KEqs G X) := (show KEqsBlk4 G X from h.blk4).2.2.2.2.2.2.2.1
def KEqs.c_15 (h : KEqs G X) := (show KEqsBlk4 G X from h.blk4).2.2.2.2.2.2.2.2.1
def KEqs.v55 (h : KEqs G X) := (show KEqsBlk4 G X from h.blk4).2.2.2.2.2.2.2.2.2.1
def KEqs.v56 (h : KEqs G X) := (show KEqsBlk4 G X from h.blk4).2.2.2.2.2.2.2.2.2.2.1
def KEqs.v57 (h : KEqs G X) := (show KEqsBlk4 G X from h.blk4).2.2.2.2.2.2.2.2.2.2.2.1
def KEqs.c_16 (h : KEqs G X) := (show KEqsBlk4 G X from h.blk4).2.2.2.2.2.2.2.2.2.2.2.2.1
def KEqs.v58 (h : KEqs G X) := (show KEqsBlk4 G X from h.blk4).2.2.2.2.2.2.2.2.2.2.2.2.2.1
def KEqs.v59 (h : KEqs G X) := (show KEqsBlk4 G X from h.blk4).2.2.2.2.2.2.2.2.2.2.2.2.2.2.1
def KEqs.c_17 (h : KEqs G X) := (show KEqsBlk4 G X from h.blk4).2.2.2.2.2.2.2.2.2.2.2.2.2.2.2
def KEqs.v60 (h : KEqs G X) := (show KEqsBlk5 G X from h.blk5).1
def KEqs.v61 (h : KEqs G X) := (show KEqsBlk5 G X from h.blk5).2.1
def KEqs.v62 (h : KEqs G X) := (show KEqsBlk5 G X from h.blk5).2.2.1
def KEqs.v63 (h : KEqs G X) := (show KEqsBlk5 G X from h.blk5).2.2.2.1
def KEqs.v64 (h : KEqs G X) := (show KEqsBlk5 G X from h.blk5).2.2.2.2.1
def KEqs.v65 (h : KEqs G X) := (show KEqsBlk5 G X from h.blk5).2.2.2.2.2.1
def KEqs.v66 (h : KEqs G X) := (show KEqsBlk5 G X from h.blk5).2.2.2.2.2.2.1
def KEqs.v67 (h : KEqs G X) := (show KEqsBlk5 G X from h.blk5).2.2.2.2.2.2.2.1
def KEqs.cst_18 (h : KEqs G X) := (show KEqsBlk5 G X from h.blk5).2.2.2.2.2.2.2.2.1
def KEqs.v68 (h : KEqs G X) := (show KEqsBlk5 G X from h.blk5).2.2.2.2.2.2.2.2.2.1
def KEqs.c_19 (h : KEqs G X) := (show KEqsBlk5 G X from h.blk5).2.2.2.2.2.2.2.2.2.2.1
def KEqs.v69 (h : KEqs G X) := (show KEqsBlk5 G X from h.blk5).2.2.2.2.2.2.2.2.2.2.2.1
def KEqs.v70 (h : KEqs G X) := (show KEqsBlk5 G X from h.blk5).2.2.2.2.2.2.2.2.2.2.2.2.1
def KEqs.c_20 (h : KEqs G X) := (show KEqsBlk5 G X from h.blk5).2.2.2.2.2.2.2.2.2.2.2.2.2.1
def KEqs.v71 (h : KEqs G X) := (show KEqsBlk5 G X from h.blk5).2.2.2.2.2.2.2.2.2.2.2.2.2.2.1
def KEqs.v72 (h : KEqs G X) := (show KEqsBlk5 G X from h.blk5).2.2.2.2.2.2.2.2.2.2.2.2.2.2.2
def KEqs.v73 (h : KEqs G X) := (show KEqsBlk6 G X from h.blk6).1
def KEqs.c_21 (h : KEqs G X) := (show KEqsBlk6 G X from h.blk6).2.1
def KEqs.v74 (h : KEqs G X) := (show KEqsBlk6 G X from h.blk6).2.2.1
def KEqs.v75 (h : KEqs G X) := (show KEqsBlk6 G X from h.blk6).2.2.2.1
def KEqs.c_22 (h : KEqs G X) := (show KEqsBlk6 G X from h.blk6).2.2.2.2.1
def KEqs.v76 (h : KEqs G X) := (show KEqsBlk6 G X from h.blk6).2.2.2.2.2.1
def KEqs.v77 (h : KEqs G X) := (show KEqsBlk6 G X from h.blk6).2.2.2.2.2.2.1
def KEqs.v78 (h : KEqs G X) := (show KEqsBlk6 G X from h.blk6).2.2.2.2.2.2.2.1
def KEqs.v79 (h : KEqs G X) := (show KEqsBlk6 G X from h.blk6).2.2.2.2.2.2.2.2.1
def KEqs.v80 (h : KEqs G X) := (show KEqsBlk6 G X from h.blk6).2.2.2.2.2.2.2.2.2.1
def KEqs.v81 (h : KEqs G X) := (show KEqsBlk6 G X from h.blk6).2.2.2.2.2.2.2.2.2.2.1
def KEqs.v82 (h : KEqs G X) := (show KEqsBlk6 G X from h.blk6).2.2.2.2.2.2.2.2.2.2.2.1
def KEqs.v83 (h : KEqs G X) := (show KEqsBlk6 G X from h.blk6).2.2.2.2.2.2.2.2.2.2.2.2.1
def KEqs.v84 (h : KEqs G X) := (show KEqsBlk6 G X from h.blk6).2.2.2.2.2.2.2.2.2.2.2.2.2.1
def KEqs.v85 (h : KEqs G X) := (show KEqsBlk6 G X from h.blk6).2.2.2.2.2.2.2.2.2.2.2.2.2.2.1
def KEqs.v86 (h : KEqs G X) := (show KEqsBlk6 G X from h.blk6).2.2.2.2.2.2.2.2.2.2.2.2.2.2.2
def KEqs.v87 (h : KEqs G X) := (show KEqsBlk7 G X from h.blk7).1
def KEqs.v88 (h : KEqs G X) := (show KEqsBlk7 G X from h.blk7).2.1
def KEqs.v89 (h : KEqs G X) := (show KEqsBlk7 G X from h.blk7).2.2.1
def KEqs.cst_23 (h : KEqs G X) := (show KEqsBlk7 G X from h.blk7).2.2.2.1
def KEqs.v90 (h : KEqs G X) := (show KEqsBlk7 G X from h.blk7).2.2.2.2.1
def KEqs.v91 (h : KEqs G X) := (show KEqsBlk7 G X from h.blk7).2.2.2.2.2.1
def KEqs.v92 (h : KEqs G X) := (show KEqsBlk7 G X from h.blk7).2.2.2.2.2.2.1
def KEqs.v93 (h : KEqs G X) := (show KEqsBlk7 G X from h.blk7).2.2.2.2.2.2.2.1
def KEqs.v94 (h : KEqs G X) := (show KEqsBlk7 G X from h.blk7).2.2.2.2.2.2.2.2.1
def KEqs.v95 (h : KEqs G X) := (show KEqsBlk7 G X from h.blk7).2.2.2.2.2.2.2.2.2.1
def KEqs.v96 (h : KEqs G X) := (show KEqsBlk7 G X from h.blk7).2.2.2.2.2.2.2.2.2.2.1
def KEqs.v97 (h : KEqs G X) := (show KEqsBlk7 G X from h.blk7).2.2.2.2.2.2.2.2.2.2.2.1
def KEqs.v98 (h : KEqs G X) := (show KEqsBlk7 G X from h.blk7).2.2.2.2.2.2.2.2.2.2.2.2.1
def KEqs.v99 (h : KEqs G X) := (show KEqsBlk7 G X from h.blk7).2.2.2.2.2.2.2.2.2.2.2.2.2.1
def KEqs.v100 (h : KEqs G X) := (show KEqsBlk7 G X from h.blk7).2.2.2.2.2.2.2.2.2.2.2.2.2.2.1
def KEqs.v101 (h : KEqs G X) := (show KEqsBlk7 G X from h.blk7).2.2.2.2.2.2.2.2.2.2.2.2.2.2.2
def KEqs.cst_24 (h : KEqs G X) := (show KEqsBlk8 G X from h.blk8).1
def KEqs.v102 (h : KEqs G X) := (show KEqsBlk8 G X from h.blk8).2.1
def KEqs.v103 (h : KEqs G X) := (show KEqsBlk8 G X from h.blk8).2.2.1
def KEqs.v104 (h : KEqs G X) := (show KEqsBlk8 G X from h.blk8).2.2.2.1
def KEqs.v105 (h : KEqs G X) := (show KEqsBlk8 G X from h.blk8).2.2.2.2.1
def KEqs.v106 (h : KEqs G X) := (show KEqsBlk8 G X from h.blk8).2.2.2.2.2.1
def KEqs.v107 (h : KEqs G X) := (show KEqsBlk8 G X from h.blk8).2.2.2.2.2.2.1
def KEqs.v108_0 (h : KEqs G X) := (show KEqsBlk8 G X from h.blk8).2.2.2.2.2.2.2.1
def KEqs.v108_1 (h : KEqs G X) := (show KEqsBlk8 G X from h.blk8).2.2.2.2.2.2.2.2.1
def KEqs.v109 (h : KEqs G X) := (show KEqsBlk8 G X from h.blk8).2.2.2.2.2.2.2.2.2.1
def KEqs.v110 (h : KEqs G X) := (show KEqsBlk8 G X from h.blk8).2.2.2.2.2.2.2.2.2.2.1
def KEqs.v111 (h : KEqs G X) := (show KEqsBlk8 G X from h.blk8).2.2.2.2.2.2.2.2.2.2.2.1
def KEqs.cst_25 (h : KEqs G X) := (show KEqsBlk8 G X from h.blk8).2.2.2.2.2.2.2.2.2.2.2.2.1
def KEqs.v112 (h : KEqs G X) := (show KEqsBlk8 G X from h.blk8).2.2.2.2.2.2.2.2.2.2.2.2.2.1
def KEqs.cst_26 (h : KEqs G X) := (show KEqsBlk8 G X from h.blk8).2.2.2.2.2.2.2.2.2.2.2.2.2.2.1
def KEqs.v113 (h : KEqs G X) := (show KEqsBlk8 G X from h.blk8).2.2.2.2.2.2.2.2.2.2.2.2.2.2.2
def KEqs.v114 (h : KEqs G X) := (show KEqsBlk9 G X from h.blk9).1
def KEqs.v115 (h : KEqs G X) := (show KEqsBlk9 G X from h.blk9).2.1
def KEqs.cst_27 (h : KEqs G X) := (show KEqsBlk9 G X from h.blk9).2.2.1
def KEqs.v116 (h : KEqs G X) := (show KEqsBlk9 G X from h.blk9).2.2.2.1
def KEqs.v117 (h : KEqs G X) := (show KEqsBlk9 G X from h.blk9).2.2.2.2.1
def KEqs.v118 (h : KEqs G X) := (show KEqsBlk9 G X from h.blk9).2.2.2.2.2.1
def KEqs.cst_28 (h : KEqs G X) := (show KEqsBlk9 G X from h.blk9).2.2.2.2.2.2.1
def KEqs.v119 (h : KEqs G X) := (show KEqsBlk9 G X from h.blk9).2.2.2.2.2.2.2.1
def KEqs.v120 (h : KEqs G X) := (show KEqsBlk9 G X from h.blk9).2.2.2.2.2.2.2.2.1
def KEqs.v121 (h : KEqs G X) := (show KEqsBlk9 G X from h.blk9).2.2.2.2.2.2.2.2.2.1
def KEqs.v122 (h : KEqs G X) := (show KEqsBlk9 G X from h.blk9).2.2.2.2.2.2.2.2.2.2.1
def KEqs.cst_29 (h : KEqs G X) := (show KEqsBlk9 G X from h.blk9).2.2.2.2.2.2.2.2.2.2.2.1
def KEqs.v123 (h : KEqs G X) := (show KEqsBlk9 G X from h.blk9).2.2.2.2.2.2.2.2.2.2.2.2.1
def KEqs.cst_30 (h : KEqs G X) := (show KEqsBlk9 G X from h.blk9).2.2.2.2.2.2.2.2.2.2.2.2.2.1
def KEqs.v124 (h : KEqs G X) := (show KEqsBlk9 G X from h.blk9).2.2.2.2.2.2.2.2.2.2.2.2.2.2.1
def KEqs.v125 (h : KEqs G X) := (show KEqsBlk9 G X from h.blk9).2.2.2.2.2.2.2.2.2.2.2.2.2.2.2
def KEqs.cst_31 (h : KEqs G X) := (show KEqsBlk10 G X from h.blk10).1
def KEqs.v126 (h : KEqs G X) := (show KEqsBlk10 G X from h.blk10).2.1
def KEqs.cst_32 (h : KEqs G X) := (show KEqsBlk10 G X from h.blk10).2.2.1
def KEqs.v127 (h : KEqs G X) := (show KEqsBlk10 G X from h.blk10).2.2.2.1
def KEqs.v128 (h : KEqs G X) := (show KEqsBlk10 G X from h.blk10).2.2.2.2.1
def KEqs.v129 (h : KEqs G X) := (show KEqsBlk10 G X from h.blk10).2.2.2.2.2.1
def KEqs.cst_33 (h : KEqs G X) := (show KEqsBlk10 G X from h.blk10).2.2.2.2.2.2.1
def KEqs.v130 (h : KEqs G X) := (show KEqsBlk10 G X from h.blk10).2.2.2.2.2.2.2.1
def KEqs.v131 (h : KEqs G X) := (show KEqsBlk10 G X from h.blk10).2.2.2.2.2.2.2.2.1
def KEqs.v132 (h : KEqs G X) := (show KEqsBlk10 G X from h.blk10).2.2.2.2.2.2.2.2.2.1
def KEqs.cst_34 (h : KEqs G X) := (show KEqsBlk10 G X from h.blk10).2.2.2.2.2.2.2.2.2.2.1
def KEqs.v133 (h : KEqs G X) := (show KEqsBlk10 G X from h.blk10).2.2.2.2.2.2.2.2.2.2.2.1
def KEqs.v134 (h : KEqs G X) := (show KEqsBlk10 G X from h.blk10).2.2.2.2.2.2.2.2.2.2.2.2.1
def KEqs.v135 (h : KEqs G X) := (show KEqsBlk10 G X from h.blk10).2.2.2.2.2.2.2.2.2.2.2.2.2.1
def KEqs.v136 (h : KEqs G X) := (show KEqsBlk10 G X from h.blk10).2.2.2.2.2.2.2.2.2.2.2.2.2.2.1
def KEqs.cst_35 (h : KEqs G X) := (show KEqsBlk10 G X from h.blk10).2.2.2.2.2.2.2.2.2.2.2.2.2.2.2
def KEqs.v137 (h : KEqs G X) := (show KEqsBlk11 G X from h.blk11).1
def KEqs.cst_36 (h : KEqs G X) := (show KEqsBlk11 G X from h.blk11).2.1
def KEqs.v138 (h : KEqs G X) := (show KEqsBlk11 G X from h.blk11).2.2.1
def KEqs.v139 (h : KEqs G X) := (show KEqsBlk11 G X from h.blk11).2.2.2.1
def KEqs.cst_37 (h : KEqs G X) := (show KEqsBlk11 G X from h.blk11).2.2.2.2.1
def KEqs.v140 (h : KEqs G X) := (show KEqsBlk11 G X from h.blk11).2.2.2.2.2.1
def KEqs.v141 (h : KEqs G X) := (show KEqsBlk11 G X from h.blk11).2.2.2.2.2.2.1
def KEqs.v142 (h : KEqs G X) := (show KEqsBlk11 G X from h.blk11).2.2.2.2.2.2.2.1
def KEqs.v143 (h : KEqs G X) := (show KEqsBlk11 G X from h.blk11).2.2.2.2.2.2.2.2.1
def KEqs.v144 (h : KEqs G X) := (show KEqsBlk11 G X from h.blk11).2.2.2.2.2.2.2.2.2.1
def KEqs.v145 (h : KEqs G X) := (show KEqsBlk11 G X from h.blk11).2.2.2.2.2.2.2.2.2.2.1
def KEqs.v146 (h : KEqs G X) := (show KEqsBlk11 G X from h.blk11).2.2.2.2.2.2.2.2.2.2.2.1
def KEqs.v147 (h : KEqs G X) := (show KEqsBlk11 G X from h.blk11).2.2.2.2.2.2.2.2.2.2.2.2.1
def KEqs.v148 (h : KEqs G X) := (show KEqsBlk11 G X from h.blk11).2.2.2.2.2.2.2.2.2.2.2.2.2.1
def KEqs.v149 (h : KEqs G X) := (show KEqsBlk11 G X from h.blk11).2.2.2.2.2.2.2.2.2.2.2.2.2.2.1
def KEqs.v150 (h : KEqs G X) := (show KEqsBlk11 G X from h.blk11).2.2.2.2.2.2.2.2.2.2.2.2.2.2.2
def KEqs.v151 (h : KEqs G X) := (show KEqsBlk12 G X from h.blk12).1
def KEqs.v152 (h : KEqs G X) := (show KEqsBlk12 G X from h.blk12).2.1
def KEqs.v153 (h : KEqs G X) := (show KEqsBlk12 G X from h.blk12).2.2.1
def KEqs.v154 (h : KEqs G X) := (show KEqsBlk12 G X from h.blk12).2.2.2.1
def KEqs.v155 (h : KEqs G X) := (show KEqsBlk12 G X from h.blk12).2.2.2.2.1
def KEqs.v156 (h : KEqs G X) := (show KEqsBlk12 G X from h.blk12).2.2.2.2.2.1
def KEqs.v157 (h : KEqs G X) := (show KEqsBlk12 G X from h.blk12).2.2.2.2.2.2.1
def KEqs.v158 (h : KEqs G X) := (show KEqsBlk12 G X from h.blk12).2.2.2.2.2.2.2.1
def KEqs.v159 (h : KEqs G X) := (show KEqsBlk12 G X from h.blk12).2.2.2.2.2.2.2.2.1
def KEqs.v160 (h : KEqs G X) := (show KEqsBlk12 G X from h.blk12).2.2.2.2.2.2.2.2.2.1
def KEqs.v161 (h : KEqs G X) := (show KEqsBlk12 G X from h.blk12).2.2.2.2.2.2.2.2.2.2.1
def KEqs.cst_38 (h : KEqs G X) := (show KEqsBlk12 G X from h.blk12).2.2.2.2.2.2.2.2.2.2.2.1
def KEqs.v162 (h : KEqs G X) := (show KEqsBlk12 G X from h.blk12).2.2.2.2.2.2.2.2.2.2.2.2.1
def KEqs.v163 (h : KEqs G X) := (show KEqsBlk12 G X from h.blk12).2.2.2.2.2.2.2.2.2.2.2.2.2.1
def KEqs.v164 (h : KEqs G X) := (show KEqsBlk12 G X from h.blk12).2.2.2.2.2.2.2.2.2.2.2.2.2.2.1
def KEqs.v165 (h : KEqs G X) := (show KEqsBlk12 G X from h.blk12).2.2.2.2.2.2.2.2.2.2.2.2.2.2.2
def KEqs.v166 (h : KEqs G X) := (show KEqsBlk13 G X from h.blk13).1
def KEqs.v167 (h : KEqs G X) := (show KEqsBlk13 G X from h.blk13).2.1
def KEqs.v168 (h : KEqs G X) := (show KEqsBlk13 G X from h.blk13).2.2.1
def KEqs.v169 (h : KEqs G X) := (show KEqsBlk13 G X from h.blk13).2.2.2.1
def KEqs.c_39 (h : KEqs G X) := (show KEqsBlk13 G X from h.blk13).2.2.2.2.1
def KEqs.v170 (h : KEqs G X) := (show KEqsBlk13 G X from h.blk13).2.2.2.2.2.1
def KEqs.v171 (h : KEqs G X) := (show KEqsBlk13 G X from h.blk13).2.2.2.2.2.2.1
def KEqs.c_40 (h : KEqs G X) := (show KEqsBlk13 G X from h.blk13).2.2.2.2.2.2.2.1
def KEqs.v172 (h : KEqs G X) := (show KEqsBlk13 G X from h.blk13).2.2.2.2.2.2.2.2.1
def KEqs.v173 (h : KEqs G X) := (show KEqsBlk13 G X from h.blk13).2.2.2.2.2.2.2.2.2.1
def KEqs.v174 (h : KEqs G X) := (show KEqsBlk13 G X from h.blk13).2.2.2.2.2.2.2.2.2.2.1
def KEqs.v175 (h : KEqs G X) := (show KEqsBlk13 G X from h.blk13).2.2.2.2.2.2.2.2.2.2.2.1
def KEqs.v176 (h : KEqs G X) := (show KEqsBlk13 G X from h.blk13).2.2.2.2.2.2.2.2.2.2.2.2.1
def KEqs.v177 (h : KEqs G X) := (show KEqsBlk13 G X from h.blk13).2.2.2.2.2.2.2.2.2.2.2.2.2

end Cert.Bridge

end
-- ==== Proof.Bridge.Gfns.lean ====
import proofs.«417009_j23742579212955_2_alg».proof.Proof.Bridge.KEqs
import proofs.«417009_j23742579212955_2_alg».proof.Proof.KI.R00
import proofs.«417009_j23742579212955_2_alg».proof.Proof.KI.R01
import proofs.«417009_j23742579212955_2_alg».proof.Proof.KI.R02
import proofs.«417009_j23742579212955_2_alg».proof.Proof.KI.R05
import proofs.«417009_j23742579212955_2_alg».proof.Proof.KI.R07
import proofs.«417009_j23742579212955_2_alg».proof.Proof.KI.R11Defs
import proofs.«417009_j23742579212955_2_alg».proof.Proof.KI.R12
import proofs.«417009_j23742579212955_2_alg».proof.Proof.KI.R13
import proofs.«417009_j23742579212955_2_alg».proof.Proof.KI.R15

noncomputable section

namespace Cert.Bridge

open Idealize.ShloMosaic

def Gfns : RegionFns where
  G0_3 := Cert.KernelIdeal.Hand.G0_3 (F := Ideal)
  G1_3 := Cert.KernelIdeal.Hand.G1_3 (F := Ideal)
  G2_3 := Cert.KernelIdeal.Hand.G2_3 (F := Ideal)
  G5_2 := Cert.KernelIdeal.Hand.G5_2 (F := Ideal)
  G7_2 := Cert.KernelIdeal.Hand.G7_2 (F := Ideal)
  G11_2 := Cert.KernelIdeal.Hand.G11_2 (F := Ideal)
  G11_3 := Cert.KernelIdeal.Hand.G11_3 (F := Ideal)
  G12_2 := Cert.KernelIdeal.Hand.G12_2 (F := Ideal)
  G13_2 := Cert.KernelIdeal.Hand.G13_2 (F := Ideal)
  G15_2 := Cert.KernelIdeal.Hand.G15_2 (F := Ideal)

end Cert.Bridge

end
-- ==== Proof.KI.Values3.lean ====
import proofs.«417009_j23742579212955_2_alg».proof.Proof.KI.Values2
import proofs.«417009_j23742579212955_2_alg».proof.Proof.Bridge.KEqs
import proofs.«417009_j23742579212955_2_alg».proof.Proof.Bridge.Gfns

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (ρ : Dev nD → PrngReg)

theorem keqs_blk0 (c : Dev nD) : Cert.Bridge.KEqsBlk0 Cert.Bridge.Gfns (Wlast (F := Ideal) m ρ c) := by
  unfold Cert.Bridge.KEqsBlk0
  exact ⟨ssa_v0 m ρ c,
    kreg_0_3 m ρ c,
    kreg_1_3 m ρ c,
    kreg_2_3 m ρ c,
    ssa_cst m ρ c,
    ssa_v4 m ρ c,
    ssa_c m ρ c,
    ssa_v5 m ρ c,
    ssa_v6 m ρ c,
    ssa_c_0 m ρ c,
    ssa_v7 m ρ c,
    ssa_v8 m ρ c,
    ssa_v9 m ρ c,
    ssa_c_1 m ρ c,
    ssa_v10 m ρ c,
    ssa_v11 m ρ c⟩

theorem keqs_blk1 (c : Dev nD) : Cert.Bridge.KEqsBlk1 Cert.Bridge.Gfns (Wlast (F := Ideal) m ρ c) := by
  unfold Cert.Bridge.KEqsBlk1
  exact ⟨ssa_c_2 m ρ c,
    ssa_v12 m ρ c,
    ssa_v13 m ρ c,
    ssa_v14 m ρ c,
    ssa_v15 m ρ c,
    ssa_v16 m ρ c,
    ssa_v17 m ρ c,
    ssa_v18 m ρ c,
    ssa_v19 m ρ c,
    ssa_cst_3 m ρ c,
    ssa_v20 m ρ c,
    ssa_c_4 m ρ c,
    ssa_v21 m ρ c,
    ssa_v22 m ρ c,
    ssa_c_5 m ρ c,
    ssa_v23 m ρ c⟩

theorem keqs_blk2 (c : Dev nD) : Cert.Bridge.KEqsBlk2 Cert.Bridge.Gfns (Wlast (F := Ideal) m ρ c) := by
  unfold Cert.Bridge.KEqsBlk2
  exact ⟨ssa_v24 m ρ c,
    ssa_v25 m ρ c,
    ssa_c_6 m ρ c,
    ssa_v26 m ρ c,
    ssa_v27 m ρ c,
    ssa_c_7 m ρ c,
    ssa_v28 m ρ c,
    ssa_v29 m ρ c,
    ssa_v30 m ρ c,
    ssa_v31 m ρ c,
    ssa_v32 m ρ c,
    ssa_v33 m ρ c,
    ssa_v34 m ρ c,
    ssa_v35 m ρ c,
    ssa_cst_8 m ρ c,
    ssa_v36 m ρ c⟩

theorem keqs_blk3 (c : Dev nD) : Cert.Bridge.KEqsBlk3 Cert.Bridge.Gfns (Wlast (F := Ideal) m ρ c) := by
  unfold Cert.Bridge.KEqsBlk3
  exact ⟨ssa_c_9 m ρ c,
    ssa_v37 m ρ c,
    ssa_v38 m ρ c,
    ssa_c_10 m ρ c,
    ssa_v39 m ρ c,
    ssa_v40 m ρ c,
    ssa_v41 m ρ c,
    ssa_c_11 m ρ c,
    ssa_v42 m ρ c,
    ssa_v43 m ρ c,
    ssa_c_12 m ρ c,
    ssa_v44 m ρ c,
    ssa_v45 m ρ c,
    ssa_v46 m ρ c,
    ssa_v47 m ρ c,
    ssa_v48 m ρ c⟩

theorem keqs_blk4 (c : Dev nD) : Cert.Bridge.KEqsBlk4 Cert.Bridge.Gfns (Wlast (F := Ideal) m ρ c) := by
  unfold Cert.Bridge.KEqsBlk4
  exact ⟨ssa_v49 m ρ c,
    ssa_v50 m ρ c,
    ssa_v51 m ρ c,
    ssa_cst_13 m ρ c,
    ssa_v52 m ρ c,
    ssa_c_14 m ρ c,
    ssa_v53 m ρ c,
    ssa_v54 m ρ c,
    ssa_c_15 m ρ c,
    ssa_v55 m ρ c,
    ssa_v56 m ρ c,
    ssa_v57 m ρ c,
    ssa_c_16 m ρ c,
    ssa_v58 m ρ c,
    ssa_v59 m ρ c,
    ssa_c_17 m ρ c⟩

theorem keqs_blk5 (c : Dev nD) : Cert.Bridge.KEqsBlk5 Cert.Bridge.Gfns (Wlast (F := Ideal) m ρ c) := by
  unfold Cert.Bridge.KEqsBlk5
  exact ⟨ssa_v60 m ρ c,
    ssa_v61 m ρ c,
    ssa_v62 m ρ c,
    ssa_v63 m ρ c,
    ssa_v64 m ρ c,
    ssa_v65 m ρ c,
    ssa_v66 m ρ c,
    ssa_v67 m ρ c,
    ssa_cst_18 m ρ c,
    ssa_v68 m ρ c,
    ssa_c_19 m ρ c,
    ssa_v69 m ρ c,
    ssa_v70 m ρ c,
    ssa_c_20 m ρ c,
    ssa_v71 m ρ c,
    ssa_v72 m ρ c⟩

theorem keqs_blk6 (c : Dev nD) : Cert.Bridge.KEqsBlk6 Cert.Bridge.Gfns (Wlast (F := Ideal) m ρ c) := by
  unfold Cert.Bridge.KEqsBlk6
  exact ⟨ssa_v73 m ρ c,
    ssa_c_21 m ρ c,
    ssa_v74 m ρ c,
    ssa_v75 m ρ c,
    ssa_c_22 m ρ c,
    ssa_v76 m ρ c,
    ssa_v77 m ρ c,
    ssa_v78 m ρ c,
    ssa_v79 m ρ c,
    ssa_v80 m ρ c,
    ssa_v81 m ρ c,
    ssa_v82 m ρ c,
    ssa_v83 m ρ c,
    ssa_v84 m ρ c,
    kreg_3_3 m ρ c,
    ssa_v86 m ρ c⟩

theorem keqs_blk7 (c : Dev nD) : Cert.Bridge.KEqsBlk7 Cert.Bridge.Gfns (Wlast (F := Ideal) m ρ c) := by
  unfold Cert.Bridge.KEqsBlk7
  exact ⟨ssa_v87 m ρ c,
    kreg_4_3 m ρ c,
    ssa_v89 m ρ c,
    ssa_cst_23 m ρ c,
    ssa_v90 m ρ c,
    ssa_v91 m ρ c,
    ssa_v92 m ρ c,
    kreg_5_2 m ρ c,
    ssa_v94 m ρ c,
    kreg_6_3 m ρ c,
    ssa_v96 m ρ c,
    ssa_v97 m ρ c,
    kreg_7_2 m ρ c,
    ssa_v99 m ρ c,
    kreg_8_3 m ρ c,
    ssa_v101 m ρ c⟩

theorem keqs_blk8 (c : Dev nD) : Cert.Bridge.KEqsBlk8 Cert.Bridge.Gfns (Wlast (F := Ideal) m ρ c) := by
  unfold Cert.Bridge.KEqsBlk8
  exact ⟨ssa_cst_24 m ρ c,
    ssa_v102 m ρ c,
    ssa_v103 m ρ c,
    kreg_9_1 m ρ c,
    kreg_10_1 m ρ c,
    ssa_v106 m ρ c,
    ssa_v107 m ρ c,
    kreg_11_2 m ρ c,
    kreg_11_3 m ρ c,
    ssa_v109 m ρ c,
    ssa_v110 m ρ c,
    ssa_v111 m ρ c,
    ssa_cst_25 m ρ c,
    ssa_v112 m ρ c,
    ssa_cst_26 m ρ c,
    ssa_v113 m ρ c⟩

theorem keqs_blk9 (c : Dev nD) : Cert.Bridge.KEqsBlk9 Cert.Bridge.Gfns (Wlast (F := Ideal) m ρ c) := by
  unfold Cert.Bridge.KEqsBlk9
  exact ⟨ssa_v114 m ρ c,
    ssa_v115 m ρ c,
    ssa_cst_27 m ρ c,
    ssa_v116 m ρ c,
    ssa_v117 m ρ c,
    ssa_v118 m ρ c,
    ssa_cst_28 m ρ c,
    ssa_v119 m ρ c,
    ssa_v120 m ρ c,
    ssa_v121 m ρ c,
    ssa_v122 m ρ c,
    ssa_cst_29 m ρ c,
    ssa_v123 m ρ c,
    ssa_cst_30 m ρ c,
    ssa_v124 m ρ c,
    ssa_v125 m ρ c⟩

theorem keqs_blk10 (c : Dev nD) : Cert.Bridge.KEqsBlk10 Cert.Bridge.Gfns (Wlast (F := Ideal) m ρ c) := by
  unfold Cert.Bridge.KEqsBlk10
  exact ⟨ssa_cst_31 m ρ c,
    ssa_v126 m ρ c,
    ssa_cst_32 m ρ c,
    ssa_v127 m ρ c,
    ssa_v128 m ρ c,
    ssa_v129 m ρ c,
    ssa_cst_33 m ρ c,
    ssa_v130 m ρ c,
    ssa_v131 m ρ c,
    ssa_v132 m ρ c,
    ssa_cst_34 m ρ c,
    ssa_v133 m ρ c,
    ssa_v134 m ρ c,
    ssa_v135 m ρ c,
    ssa_v136 m ρ c,
    ssa_cst_35 m ρ c⟩

theorem keqs_blk11 (c : Dev nD) : Cert.Bridge.KEqsBlk11 Cert.Bridge.Gfns (Wlast (F := Ideal) m ρ c) := by
  unfold Cert.Bridge.KEqsBlk11
  exact ⟨ssa_v137 m ρ c,
    ssa_cst_36 m ρ c,
    ssa_v138 m ρ c,
    ssa_v139 m ρ c,
    ssa_cst_37 m ρ c,
    ssa_v140 m ρ c,
    ssa_v141 m ρ c,
    ssa_v142 m ρ c,
    kreg_12_2 m ρ c,
    ssa_v144 m ρ c,
    ssa_v145 m ρ c,
    ssa_v146 m ρ c,
    ssa_v147 m ρ c,
    ssa_v148 m ρ c,
    ssa_v149 m ρ c,
    ssa_v150 m ρ c⟩

theorem keqs_blk12 (c : Dev nD) : Cert.Bridge.KEqsBlk12 Cert.Bridge.Gfns (Wlast (F := Ideal) m ρ c) := by
  unfold Cert.Bridge.KEqsBlk12
  exact ⟨ssa_v151 m ρ c,
    ssa_v152 m ρ c,
    ssa_v153 m ρ c,
    ssa_v154 m ρ c,
    ssa_v155 m ρ c,
    ssa_v156 m ρ c,
    ssa_v157 m ρ c,
    ssa_v158 m ρ c,
    ssa_v159 m ρ c,
    ssa_v160 m ρ c,
    kreg_13_2 m ρ c,
    ssa_cst_38 m ρ c,
    ssa_v162 m ρ c,
    ssa_v163 m ρ c,
    ssa_v164 m ρ c,
    kreg_14_1 m ρ c⟩

theorem keqs_blk13 (c : Dev nD) : Cert.Bridge.KEqsBlk13 Cert.Bridge.Gfns (Wlast (F := Ideal) m ρ c) := by
  unfold Cert.Bridge.KEqsBlk13
  exact ⟨ssa_v166 m ρ c,
    ssa_v167 m ρ c,
    ssa_v168 m ρ c,
    kreg_15_2 m ρ c,
    ssa_c_39 m ρ c,
    ssa_v170 m ρ c,
    ssa_v171 m ρ c,
    ssa_c_40 m ρ c,
    ssa_v172 m ρ c,
    ssa_v173 m ρ c,
    ssa_v174 m ρ c,
    ssa_v175 m ρ c,
    ssa_v176 m ρ c,
    kreg_16_1 m ρ c⟩

theorem keqs (c : Dev nD) : Cert.Bridge.KEqs Cert.Bridge.Gfns (Wlast (F := Ideal) m ρ c) := by
  unfold Cert.Bridge.KEqs
  exact ⟨keqs_blk0 m ρ c, keqs_blk1 m ρ c, keqs_blk2 m ρ c, keqs_blk3 m ρ c, keqs_blk4 m ρ c, keqs_blk5 m ρ c, keqs_blk6 m ρ c, keqs_blk7 m ρ c, keqs_blk8 m ρ c, keqs_blk9 m ρ c, keqs_blk10 m ρ c, keqs_blk11 m ρ c, keqs_blk12 m ρ c, keqs_blk13 m ρ c⟩

end Cert.KernelIdeal.Hand

end
-- ==== Proof.Bridge.RefStages.lean ====
import proofs.«417009_j23742579212955_2_alg».proof.Proof.Ref.Read

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

def GateR (pe : FVec F S10000x64 .f32) (w : FVec F S64x64 .f32) (b : FVec F S1x64 .f32) : FVec F S10000x64 .f32 :=
  mulf pe
    (Host.divf (broadcastInDim S10000x64 ![] bcast_S_S10000x64 (constant S_ .f32 0x3F800000#32))
      (addf (broadcastInDim S10000x64 ![] bcast_S_S10000x64 (constant S_ .f32 0x3F800000#32))
        (Host.exp (Host.negf (addf (Host.dotGeneral dot_S10000x64_S64x64_S10000x64_1_0_0_1_n_n none pe w)
          (broadcastInDim S10000x64 ![0, 1] bcast_S1x64_S10000x64_0_1 b))))))

def SpmmPP (rows cols : IVec S320000 32) (vals : FVec F S320000 .f32) (x : FVec F S10000x64 .f32) : FVec F S10000x64 .f32 :=
  Host.scatterAdd scatter_S10000x64_S320000x1_S320000x64_1_0_0_1
    (broadcastInDim S10000x64 ![] bcast_S_S10000x64 (constant S_ .f32 0x00000000#32))
    (broadcastInDim S320000x1 ![0] bcast_S320000_S320000x1_0 rows)
    (mulf (broadcastInDim S320000x64 ![0, 1] bcast_S320000x1_S320000x64_0_1 (broadcastInDim S320000x1 ![0] bcast_S320000_S320000x1_0 vals))
      (Host.gather gather_S10000x64_S320000x1_S320000x64_1_0_n_n_0_1_164 x
        (broadcastInDim S320000x1 ![0] bcast_S320000_S320000x1_0
          (select (cmpi .slt cols (broadcastInDim S320000 ![] bcast_S_S320000 (constantI S_ 32 0#32)))
            (addi cols (broadcastInDim S320000 ![] bcast_S_S320000 (constantI S_ 32 10000#32))) cols))))

def SpmmUP (rows cols : IVec S400000 32) (vals : FVec F S400000 .f32) (x : FVec F S10000x64 .f32) : FVec F S8000x64 .f32 :=
  Host.scatterAdd scatter_S8000x64_S400000x1_S400000x64_1_0_0_1
    (broadcastInDim S8000x64 ![] bcast_S_S8000x64 (constant S_ .f32 0x00000000#32))
    (broadcastInDim S400000x1 ![0] bcast_S400000_S400000x1_0 rows)
    (mulf (broadcastInDim S400000x64 ![0, 1] bcast_S400000x1_S400000x64_0_1 (broadcastInDim S400000x1 ![0] bcast_S400000_S400000x1_0 vals))
      (Host.gather gather_S10000x64_S400000x1_S400000x64_1_0_n_n_0_1_164 x
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 10000#32))) cols))))

def SpmmPU (rows cols : IVec S400000 32) (vals : FVec F S400000 .f32) (x : FVec F S8000x64 .f32) : FVec F S10000x64 .f32 :=
  Host.scatterAdd scatter_S10000x64_S400000x1_S400000x64_1_0_0_1
    (broadcastInDim S10000x64 ![] bcast_S_S10000x64 (constant S_ .f32 0x00000000#32))
    (broadcastInDim S400000x1 ![0] bcast_S400000_S400000x1_0 rows)
    (mulf (broadcastInDim S400000x64 ![0, 1] bcast_S400000x1_S400000x64_0_1 (broadcastInDim S400000x1 ![0] bcast_S400000_S400000x1_0 vals))
      (Host.gather gather_S8000x64_S400000x1_S400000x64_1_0_n_n_0_1_164 x
        (broadcastInDim S400000x1 ![0] bcast_S400000_S400000x1_0
          (select (cmpi .slt cols (broadcastInDim S400000 ![] bcast_S_S400000 (constantI S_ 32 0#32)))
            (addi cols (broadcastInDim S400000 ![] bcast_S_S400000 (constantI S_ 32 8000#32))) cols))))

def Mean3R (x0 x1 x2 : FVec F S10000x64 .f32) : FVec F S10000x64 .f32 :=
  Host.divf
    (addf (addf (addf (broadcastInDim S10000x64 ![] bcast_S_S10000x64 (constant S_ .f32 0x00000000#32)) x0) x1) x2)
    (broadcastInDim S10000x64 ![] bcast_S_S10000x64 (constant S_ .f32 0x40400000#32))

def L2R (x : FVec F S10000x64 .f32) : FVec F S10000x64 .f32 :=
  Host.divf x
    (broadcastInDim S10000x64 ![0, 1] bcast_S10000x1_S10000x64_0_1
      (maximumf
        (Host.sqrt (broadcastInDim S10000x1 ![0] bcast_S10000_S10000x1_0
          (Host.reduceAdd (mulf x x) (constant S_ .f32 0x00000000#32) reducesTo_S10000x64_S10000_d1 h_S_)))
        (broadcastInDim S10000x1 ![] bcast_S_S10000x1 (constant S_ .f32 0x2B8CBCCC#32))))

def L2R4096 (x : FVec F S4096x64 .f32) : FVec F S4096x64 .f32 :=
  Host.divf x
    (broadcastInDim S4096x64 ![0, 1] bcast_S4096x1_S4096x64_0_1
      (maximumf
        (Host.sqrt (broadcastInDim S4096x1 ![0] bcast_S4096_S4096x1_0
          (Host.reduceAdd (mulf x x) (constant S_ .f32 0x00000000#32) reducesTo_S4096x64_S4096_d1 h_S_)))
        (broadcastInDim S4096x1 ![] bcast_S_S4096x1 (constant S_ .f32 0x2B8CBCCC#32))))

def LossHalfR (e1 e2 : FVec F S10000x64 .f32) : FVec F S_ .f32 :=
  Host.divf
    (Host.reduceAdd
      (Host.negf (Host.log (addf
        (Host.divf
          (Host.exp (Host.divf
            (Host.reduceAdd (mulf e1 e2) (constant S_ .f32 0x00000000#32) reducesTo_S10000x64_S10000_d1 h_S_)
            (broadcastInDim S10000 ![] bcast_S_S10000 (constant S_ .f32 0x3E4CCCCD#32))))
          (addf
            (Host.reduceAdd
              (Host.exp (Host.divf
                (Host.dotGeneral dot_S10000x64_S64x10000_S10000x10000_1_0_0_1_n_n none e1
                  (transpose S64x10000 [1, 0] e2 transposes_S10000x64_S64x10000_1_0))
                (broadcastInDim S10000x10000 ![] bcast_S_S10000x10000 (constant S_ .f32 0x3E4CCCCD#32))))
              (constant S_ .f32 0x00000000#32) reducesTo_S10000x10000_S10000_d1 h_S_)
            (broadcastInDim S10000 ![] bcast_S_S10000 (constant S_ .f32 0x322BCC77#32))))
        (broadcastInDim S10000 ![] bcast_S_S10000 (constant S_ .f32 0x322BCC77#32)))))
      (constant S_ .f32 0x00000000#32) reducesTo_S10000_S_d0 h_S_)
    (constant S_ .f32 0x461C4000#32)

def MsgLinR (mg ms mp : FVec F S8000x64 .f32) (fw : FVec F S448x64 .f32) (fb : FVec F S64 .f32) : FVec F S8000x64 .f32 :=
  addf
    (Host.dotGeneral dot_S8000x448_S448x64_S8000x64_1_0_0_1_n_n none
      (concatenate S8000x448 1 [⟨S8000x64, mg⟩, ⟨S8000x64, ms⟩, ⟨S8000x64, mp⟩, ⟨S8000x64, mulf mg ms⟩, ⟨S8000x64, mulf mg mp⟩,
        ⟨S8000x64, mulf ms mp⟩, ⟨S8000x64, mulf (mulf mg ms) mp⟩]
        concatenates_S8000x64_S8000x64_S8000x64_S8000x64_S8000x64_S8000x64_S8000x64_S8000x448_d1)
      fw)
    (broadcastInDim S8000x64 ![0, 1] bcast_S1x64_S8000x64_0_1 (broadcastInDim S1x64 ![1] bcast_S64_S1x64_1 fb))

def MsgR (mg ms mp : FVec F S8000x64 .f32) (fw : FVec F S448x64 .f32) (fb : FVec F S64 .f32) (ue : FVec F S8000x64 .f32) :
    FVec F S8000x64 .f32 :=
  addf (addf (MsgLinR mg ms mp fw fb) ue) (mulf (MsgLinR mg ms mp fw fb) ue)

def TakeR (idx : IVec S4096 32) (x : FVec F S8000x64 .f32) : FVec F S4096x64 .f32 :=
  Host.gather gather_S8000x64_S4096x1_S4096x64_1_0_n_n_0_1_164 x
    (broadcastInDim S4096x1 ![0] bcast_S4096_S4096x1_0
      (select (cmpi .slt idx (broadcastInDim S4096 ![] bcast_S_S4096 (constantI S_ 32 0#32)))
        (addi idx (broadcastInDim S4096 ![] bcast_S_S4096 (constantI S_ 32 8000#32))) idx))

variable (x0 : FVec F S10001x64 .f32) (x1 : FVec F S8000x64 .f32) (x2 : FVec F S64x64 .f32) (x3 : FVec F S1x64 .f32)
  (x4 : FVec F S64x64 .f32) (x5 : FVec F S1x64 .f32) (x6 : FVec F S64x64 .f32) (x7 : FVec F S1x64 .f32)
  (x8 : FVec F S448x64 .f32) (x9 : FVec F S64 .f32) (x10 x11 x12 : FVec F S320000 .f32) (x13 x14 : FVec F S400000 .f32)
  (x15 x16 x17 x18 x19 x20 : IVec S320000 32) (x21 x22 x23 x24 : IVec S400000 32) (x25 : IVec S4096 32)

theorem v10_eq : val_main_v10 x0 x2 x3 = GateR (val_main_v0 x0) x2 x3 := rfl
theorem v20_eq : val_main_v20 x0 x4 x5 = GateR (val_main_v0 x0) x4 x5 := rfl
theorem v30_eq : val_main_v30 x0 x6 x7 = GateR (val_main_v0 x0) x6 x7 := rfl

theorem v43_eq : val_main_v43 x0 x2 x3 x10 x15 x16 = SpmmPP x15 x16 x10 (val_main_v10 x0 x2 x3) := rfl
theorem v44_eq : val_main_v44 x0 x2 x3 x10 x15 x16 = addf (val_main_v43 x0 x2 x3 x10 x15 x16) (val_main_v10 x0 x2 x3) := rfl
theorem v57_eq : val_main_v57 x0 x2 x3 x10 x15 x16 = SpmmPP x15 x16 x10 (val_main_v44 x0 x2 x3 x10 x15 x16) := rfl
theorem v58_eq : val_main_v58 x0 x2 x3 x10 x15 x16
    = addf (val_main_v57 x0 x2 x3 x10 x15 x16) (val_main_v44 x0 x2 x3 x10 x15 x16) := rfl
theorem v64_eq : val_main_v64 x0 x2 x3 x10 x15 x16
    = Mean3R (val_main_v10 x0 x2 x3) (val_main_v44 x0 x2 x3 x10 x15 x16) (val_main_v58 x0 x2 x3 x10 x15 x16) := rfl

theorem v77_eq : val_main_v77 x0 x4 x5 x12 x19 x20 = SpmmPP x19 x20 x12 (val_main_v20 x0 x4 x5) := rfl
theorem v90_eq : val_main_v90 x0 x4 x5 x11 x12 x17 x18 x19 x20 = SpmmPP x17 x18 x11 (val_main_v77 x0 x4 x5 x12 x19 x20) := rfl
theorem v91_eq : val_main_v91 x0 x4 x5 x11 x12 x17 x18 x19 x20
    = addf (val_main_v90 x0 x4 x5 x11 x12 x17 x18 x19 x20) (val_main_v20 x0 x4 x5) := rfl
theorem v104_eq : val_main_v104 x0 x4 x5 x11 x12 x17 x18 x19 x20
    = SpmmPP x19 x20 x12 (val_main_v91 x0 x4 x5 x11 x12 x17 x18 x19 x20) := rfl
theorem v117_eq : val_main_v117 x0 x4 x5 x11 x12 x17 x18 x19 x20
    = SpmmPP x17 x18 x11 (val_main_v104 x0 x4 x5 x11 x12 x17 x18 x19 x20) := rfl
theorem v118_eq : val_main_v118 x0 x4 x5 x11 x12 x17 x18 x19 x20
    = addf (val_main_v117 x0 x4 x5 x11 x12 x17 x18 x19 x20) (val_main_v91 x0 x4 x5 x11 x12 x17 x18 x19 x20) := rfl
theorem v124_eq : val_main_v124 x0 x4 x5 x11 x12 x17 x18 x19 x20
    = Mean3R (val_main_v20 x0 x4 x5) (val_main_v91 x0 x4 x5 x11 x12 x17 x18 x19 x20)
        (val_main_v118 x0 x4 x5 x11 x12 x17 x18 x19 x20) := rfl

theorem v129_eq : val_main_v129 x0 x2 x3 x10 x15 x16 = L2R (val_main_v64 x0 x2 x3 x10 x15 x16) := rfl
theorem v134_eq : val_main_v134 x0 x4 x5 x11 x12 x17 x18 x19 x20 = L2R (val_main_v124 x0 x4 x5 x11 x12 x17 x18 x19 x20) := rfl
theorem v154_eq : val_main_v154 x0 x2 x3 x4 x5 x10 x11 x12 x15 x16 x17 x18 x19 x20
    = LossHalfR (val_main_v129 x0 x2 x3 x10 x15 x16) (val_main_v134 x0 x4 x5 x11 x12 x17 x18 x19 x20) := rfl
theorem v174_eq : val_main_v174 x0 x2 x3 x4 x5 x10 x11 x12 x15 x16 x17 x18 x19 x20
    = LossHalfR (val_main_v134 x0 x4 x5 x11 x12 x17 x18 x19 x20) (val_main_v129 x0 x2 x3 x10 x15 x16) := rfl
theorem v176_eq : val_main_v176 x0 x2 x3 x4 x5 x10 x11 x12 x15 x16 x17 x18 x19 x20
    = mulf (constant S_ .f32 0x3F000000#32)
        (addf (val_main_v154 x0 x2 x3 x4 x5 x10 x11 x12 x15 x16 x17 x18 x19 x20)
          (val_main_v174 x0 x2 x3 x4 x5 x10 x11 x12 x15 x16 x17 x18 x19 x20)) := rfl

theorem v189_eq : val_main_v189 x0 x2 x3 x10 x13 x15 x16 x21 x22 = SpmmUP x21 x22 x13 (val_main_v129 x0 x2 x3 x10 x15 x16) := rfl
theorem v202_eq : val_main_v202 x0 x4 x5 x11 x12 x13 x17 x18 x19 x20 x21 x22
    = SpmmUP x21 x22 x13 (val_main_v134 x0 x4 x5 x11 x12 x17 x18 x19 x20) := rfl
theorem v215_eq : val_main_v215 x0 x6 x7 x13 x21 x22 = SpmmUP x21 x22 x13 (val_main_v30 x0 x6 x7) := rfl
theorem v228_eq : val_main_v228 x0 x1 x2 x3 x4 x5 x6 x7 x8 x9 x10 x11 x12 x13 x15 x16 x17 x18 x19 x20 x21 x22
    = MsgR (val_main_v189 x0 x2 x3 x10 x13 x15 x16 x21 x22) (val_main_v202 x0 x4 x5 x11 x12 x13 x17 x18 x19 x20 x21 x22)
        (val_main_v215 x0 x6 x7 x13 x21 x22) x8 x9 x1 := rfl
theorem v241_eq : val_main_v241 x0 x1 x2 x3 x4 x5 x6 x7 x8 x9 x10 x11 x12 x13 x14 x15 x16 x17 x18 x19 x20 x21 x22 x23 x24
    = SpmmPU x23 x24 x14 (val_main_v228 x0 x1 x2 x3 x4 x5 x6 x7 x8 x9 x10 x11 x12 x13 x15 x16 x17 x18 x19 x20 x21 x22) := rfl
theorem v242_eq : val_main_v242 x0 x1 x2 x3 x4 x5 x6 x7 x8 x9 x10 x11 x12 x13 x14 x15 x16 x17 x18 x19 x20 x21 x22 x23 x24
    = addf (val_main_v241 x0 x1 x2 x3 x4 x5 x6 x7 x8 x9 x10 x11 x12 x13 x14 x15 x16 x17 x18 x19 x20 x21 x22 x23 x24)
        (val_main_v30 x0 x6 x7) := rfl

theorem v255_eq : val_main_v255 x0 x2 x3 x10 x13 x15 x16 x21 x22 = SpmmUP x21 x22 x13 (val_main_v129 x0 x2 x3 x10 x15 x16) := rfl
theorem v268_eq : val_main_v268 x0 x4 x5 x11 x12 x13 x17 x18 x19 x20 x21 x22
    = SpmmUP x21 x22 x13 (val_main_v134 x0 x4 x5 x11 x12 x17 x18 x19 x20) := rfl
theorem v281_eq : val_main_v281 x0 x6 x7 x13 x21 x22 = SpmmUP x21 x22 x13 (val_main_v30 x0 x6 x7) := rfl
theorem v294_eq : val_main_v294 x0 x1 x2 x3 x4 x5 x6 x7 x8 x9 x10 x11 x12 x13 x15 x16 x17 x18 x19 x20 x21 x22
    = MsgR (val_main_v255 x0 x2 x3 x10 x13 x15 x16 x21 x22) (val_main_v268 x0 x4 x5 x11 x12 x13 x17 x18 x19 x20 x21 x22)
        (val_main_v281 x0 x6 x7 x13 x21 x22) x8 x9 x1 := rfl
theorem v307_eq : val_main_v307 x0 x1 x2 x3 x4 x5 x6 x7 x8 x9 x10 x11 x12 x13 x14 x15 x16 x17 x18 x19 x20 x21 x22 x23 x24
    = SpmmPU x23 x24 x14 (val_main_v294 x0 x1 x2 x3 x4 x5 x6 x7 x8 x9 x10 x11 x12 x13 x15 x16 x17 x18 x19 x20 x21 x22) := rfl
theorem v308_eq : val_main_v308 x0 x1 x2 x3 x4 x5 x6 x7 x8 x9 x10 x11 x12 x13 x14 x15 x16 x17 x18 x19 x20 x21 x22 x23 x24
    = addf (val_main_v307 x0 x1 x2 x3 x4 x5 x6 x7 x8 x9 x10 x11 x12 x13 x14 x15 x16 x17 x18 x19 x20 x21 x22 x23 x24)
        (val_main_v242 x0 x1 x2 x3 x4 x5 x6 x7 x8 x9 x10 x11 x12 x13 x14 x15 x16 x17 x18 x19 x20 x21 x22 x23 x24) := rfl
theorem v314_eq : val_main_v314 x0 x1 x2 x3 x4 x5 x6 x7 x8 x9 x10 x11 x12 x13 x14 x15 x16 x17 x18 x19 x20 x21 x22 x23 x24
    = Mean3R (val_main_v30 x0 x6 x7)
        (val_main_v242 x0 x1 x2 x3 x4 x5 x6 x7 x8 x9 x10 x11 x12 x13 x14 x15 x16 x17 x18 x19 x20 x21 x22 x23 x24)
        (val_main_v308 x0 x1 x2 x3 x4 x5 x6 x7 x8 x9 x10 x11 x12 x13 x14 x15 x16 x17 x18 x19 x20 x21 x22 x23 x24) := rfl

theorem v319_eq : val_main_v319 x0 x1 x2 x3 x4 x5 x6 x7 x8 x9 x10 x11 x12 x13 x14 x15 x16 x17 x18 x19 x20 x21 x22 x23 x24
    = L2R (val_main_v314 x0 x1 x2 x3 x4 x5 x6 x7 x8 x9 x10 x11 x12 x13 x14 x15 x16 x17 x18 x19 x20 x21 x22 x23 x24) := rfl
theorem v321_eq : val_main_v321 x0 x1 x2 x3 x4 x5 x6 x7 x8 x9 x10 x11 x12 x13 x14 x15 x16 x17 x18 x19 x20 x21 x22 x23 x24
    = addf
        (addf (val_main_v319 x0 x1 x2 x3 x4 x5 x6 x7 x8 x9 x10 x11 x12 x13 x14 x15 x16 x17 x18 x19 x20 x21 x22 x23 x24)
          (val_main_v129 x0 x2 x3 x10 x15 x16))
        (val_main_v134 x0 x4 x5 x11 x12 x17 x18 x19 x20) := rfl
theorem v334_eq : val_main_v334 x0 x1 x2 x3 x4 x5 x6 x7 x8 x9 x10 x11 x12 x13 x14 x15 x16 x17 x18 x19 x20 x21 x22 x23 x24
    = SpmmUP x21 x22 x13
        (val_main_v321 x0 x1 x2 x3 x4 x5 x6 x7 x8 x9 x10 x11 x12 x13 x14 x15 x16 x17 x18 x19 x20 x21 x22 x23 x24) := rfl
theorem v341_eq : val_main_v341 x0 x1 x2 x3 x4 x5 x6 x7 x8 x9 x10 x11 x12 x13 x14 x15 x16 x17 x18 x19 x20 x21 x22 x23 x24 x25
    = TakeR x25
        (val_main_v334 x0 x1 x2 x3 x4 x5 x6 x7 x8 x9 x10 x11 x12 x13 x14 x15 x16 x17 x18 x19 x20 x21 x22 x23 x24) := rfl
theorem v346_eq : val_main_v346 x0 x1 x2 x3 x4 x5 x6 x7 x8 x9 x10 x11 x12 x13 x14 x15 x16 x17 x18 x19 x20 x21 x22 x23 x24 x25
    = L2R4096
        (val_main_v341 x0 x1 x2 x3 x4 x5 x6 x7 x8 x9 x10 x11 x12 x13 x14 x15 x16 x17 x18 x19 x20 x21 x22 x23 x24 x25) := rfl

end Cert.Bridge

end
-- ==== Proof.Spec.Real.lean ====
import Idealize.ShloMosaic.PureOps.Ideal
import Idealize.ShloMosaic.PureOps.Ideal.Laws
import Idealize.ShloMosaic.Lib.ValueIdx
import Idealize.ShloMosaic.Lib.Pipeline.Value

namespace Cert.Spec

open Idealize.ShloMosaic
open scoped BigOperators

def IsRealE (x : EReal) : Prop := ∃ r : ℝ, x = (r : EReal)

def IsReal {s : Shape} (x : s.Idx → EReal) : Prop := ∀ i, ∃ r : ℝ, x i = (r : EReal)

theorem IsRealE.coe_toReal {x : EReal} (h : IsRealE x) : ((x.toReal : ℝ) : EReal) = x := by
  obtain ⟨r, rfl⟩ := h
  rw [EReal.toReal_coe]

theorem IsReal.apply {s : Shape} {x : s.Idx → EReal} (h : IsReal x) (i : s.Idx) : IsRealE (x i) := h i
theorem IsReal.coe_toReal {s : Shape} {x : s.Idx → EReal} (h : IsReal x) (i : s.Idx) :
    (((x i).toReal : ℝ) : EReal) = x i := IsRealE.coe_toReal (h i)

theorem coe_add_coe (a b : ℝ) : (a : EReal) + (b : EReal) = ((a + b : ℝ) : EReal) := (EReal.coe_add a b).symm
theorem coe_mul_coe (a b : ℝ) : (a : EReal) * (b : EReal) = ((a * b : ℝ) : EReal) := (EReal.coe_mul a b).symm
theorem neg_coe (a : ℝ) : -(a : EReal) = ((-a : ℝ) : EReal) := (EReal.coe_neg a).symm
theorem max_coe_coe (a b : ℝ) : max (a : EReal) (b : EReal) = ((max a b : ℝ) : EReal) := (EReal.coe_strictMono.monotone.map_max).symm
theorem coe_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]
theorem sum_coe_mul_coe {ι : Type*} (S : Finset ι) (f g : ι → ℝ) :
    ∑ i ∈ S, ((f i : ℝ) : EReal) * ((g i : ℝ) : EReal) = ((∑ i ∈ S, f i * g i : ℝ) : EReal) := by
  rw [coe_sum]
  exact Finset.sum_congr rfl fun i _ => coe_mul_coe _ _
theorem isRealE_sum {ι : Type*} (S : Finset ι) (f : ι → EReal) (h : ∀ i ∈ S, IsRealE (f i)) :
    IsRealE (∑ i ∈ S, f i) := by
  have e : ∑ i ∈ S, f i = ∑ i ∈ S, (((f i).toReal : ℝ) : EReal) :=
    Finset.sum_congr rfl fun i hi => (IsRealE.coe_toReal (h i hi)).symm
  rw [e, ← coe_sum]
  exact ⟨_, rfl⟩
theorem IsRealE.add {x y : EReal} (hx : IsRealE x) (hy : IsRealE y) : IsRealE (x + y) := by
  obtain ⟨a, rfl⟩ := hx
  obtain ⟨b, rfl⟩ := hy
  exact ⟨a + b, coe_add_coe a b⟩
theorem IsRealE.mul {x y : EReal} (hx : IsRealE x) (hy : IsRealE y) : IsRealE (x * y) := by
  obtain ⟨a, rfl⟩ := hx
  obtain ⟨b, rfl⟩ := hy
  exact ⟨a * b, coe_mul_coe a b⟩
theorem IsRealE.neg {x : EReal} (hx : IsRealE x) : IsRealE (-x) := by
  obtain ⟨a, rfl⟩ := hx
  exact ⟨-a, neg_coe a⟩
theorem IsRealE.max {x y : EReal} (hx : IsRealE x) (hy : IsRealE y) : IsRealE (max x y) := by
  obtain ⟨a, rfl⟩ := hx
  obtain ⟨b, rfl⟩ := hy
  exact ⟨Max.max a b, max_coe_coe a b⟩

theorem div_coe_coe (a : ℝ) {b : ℝ} (hb : b ≠ 0) : Ideal.div (a : EReal) (b : EReal) = ((a / b : ℝ) : EReal) := by
  rw [Ideal.div_coe hb, coe_mul_coe, mul_one_div]
theorem IsRealE.div {x y : EReal} (hx : IsRealE x) (hy : IsRealE y) (h0 : y ≠ 0) : IsRealE (Ideal.div x y) := by
  obtain ⟨a, rfl⟩ := hx
  obtain ⟨b, rfl⟩ := hy
  have hb : b ≠ 0 := fun e => h0 (by rw [e, EReal.coe_zero])
  exact ⟨a / b, div_coe_coe a hb⟩
theorem exp_coe (r : ℝ) : Ideal.exp (r : EReal) = ((Real.exp r : ℝ) : EReal) := rfl
theorem IsRealE.exp {x : EReal} (hx : IsRealE x) : IsRealE (Ideal.exp x) := by
  obtain ⟨a, rfl⟩ := hx
  exact ⟨Real.exp a, rfl⟩
theorem IsRealE.exp_pos {x : EReal} (hx : IsRealE x) : 0 < Ideal.exp x := by
  obtain ⟨a, rfl⟩ := hx
  exact EReal.coe_pos.mpr (Real.exp_pos a)
theorem log_coe_of_pos {r : ℝ} (hr : 0 < r) : Ideal.log (r : EReal) = ((Real.log r : ℝ) : EReal) := by
  rw [Ideal.log_coe, if_neg (not_le.mpr hr)]
theorem IsRealE.log {x : EReal} (hx : IsRealE x) (hpos : 0 < x) : IsRealE (Ideal.log x) := by
  obtain ⟨a, rfl⟩ := hx
  exact ⟨Real.log a, log_coe_of_pos (EReal.coe_pos.mp hpos)⟩
theorem sqrt_coe_of_nonneg {r : ℝ} (hr : 0 ≤ r) : Ideal.sqrt (r : EReal) = ((Real.sqrt r : ℝ) : EReal) := by
  rw [Ideal.sqrt_coe, if_neg (not_lt.mpr hr)]
theorem IsRealE.sqrt {x : EReal} (hx : IsRealE x) (h0 : 0 ≤ x) : IsRealE (Ideal.sqrt x) := by
  obtain ⟨a, rfl⟩ := hx
  exact ⟨Real.sqrt a, sqrt_coe_of_nonneg (EReal.coe_nonneg.mp h0)⟩
theorem IsRealE.sqrt_nonneg {x : EReal} (hx : IsRealE x) (h0 : 0 ≤ x) : 0 ≤ Ideal.sqrt x := by
  obtain ⟨a, rfl⟩ := hx
  rw [sqrt_coe_of_nonneg (EReal.coe_nonneg.mp h0)]
  exact EReal.coe_nonneg.mpr (Real.sqrt_nonneg a)
theorem logistic_coe (r : ℝ) : Ideal.logistic (r : EReal) = (((1 + Real.exp (-r))⁻¹ : ℝ) : EReal) := Ideal.logistic_coe r
theorem IsRealE.logistic {x : EReal} (hx : IsRealE x) : IsRealE (Ideal.logistic x) := by
  obtain ⟨a, rfl⟩ := hx
  exact ⟨_, logistic_coe a⟩

theorem ofBits_f32_zero : Ideal.ofBits .f32 0x00000000#32 = ((0 : ℝ) : EReal) := by
  simp [Ideal.ofBits, Ideal.ieee, -EReal.coe_mul]
theorem ofBits_f32_one : Ideal.ofBits .f32 0x3F800000#32 = ((1 : ℝ) : EReal) := by
  simp [Ideal.ofBits, Ideal.ieee, -EReal.coe_mul]
  norm_num
theorem ofBits_f32_three : Ideal.ofBits .f32 0x40400000#32 = ((3 : ℝ) : EReal) := by
  simp [Ideal.ofBits, Ideal.ieee, -EReal.coe_mul]
  norm_num
theorem ofBits_f32_fifth : Ideal.ofBits .f32 0x3E4CCCCD#32 = ((13421773 / 67108864 : ℝ) : EReal) := by
  simp [Ideal.ofBits, Ideal.ieee, -EReal.coe_mul]
  norm_num
theorem ofBits_f32_1em12 : Ideal.ofBits .f32 0x2B8CBCCC#32 = ((9223372 / 9223372036854775808 : ℝ) : EReal) := by
  simp [Ideal.ofBits, Ideal.ieee, -EReal.coe_mul]
  norm_num
theorem isRealE_ofBits_f32_zero : IsRealE (Ideal.ofBits .f32 0x00000000#32) := ⟨_, ofBits_f32_zero⟩

section Ops
variable {s t : Shape} {φ : FTy}

theorem isReal_constant (s : Shape) (φ : FTy) {b : BitVec φ.bits} (h : IsRealE (Ideal.ofBits φ b)) :
    IsReal (constant (F := Ideal) s φ b) := fun _ => h
theorem isReal_addf {x y : FVec Ideal s φ} (hx : IsReal x) (hy : IsReal y) : IsReal (addf x y) := fun i => IsRealE.add (hx i) (hy i)
theorem isReal_mulf {x y : FVec Ideal s φ} (hx : IsReal x) (hy : IsReal y) : IsReal (mulf x y) := fun i => IsRealE.mul (hx i) (hy i)
theorem isReal_hostNegf {x : FVec Ideal s φ} (hx : IsReal x) : IsReal (Host.negf x) := fun i => IsRealE.neg (hx i)
theorem isReal_hostDivf {x y : FVec Ideal s φ} (hx : IsReal x) (hy : IsReal y) (h0 : ∀ i, y i ≠ 0) :
    IsReal (Host.divf x y) := fun i => IsRealE.div (hx i) (hy i) (h0 i)
theorem isReal_truncf {ψ : FTy} {x : FVec Ideal s φ} (h : ψ.bits < φ.bits) (hx : IsReal x) :
    IsReal (truncf ψ x h : FVec Ideal s ψ) := fun i => hx i

theorem isReal_broadcastInDim (t : Shape) (dims : Fin s.rank → Fin t.rank) (h : s.BroadcastsInDim t dims)
    {x : s.Idx → EReal} (hx : IsReal x) : IsReal (broadcastInDim t dims h x) := fun _ => hx _
theorem isReal_extractStridedSlice (t : Shape) (off : Fin s.rank → Nat) {x : s.Idx → EReal} (h : s.Slices off t)
    (hx : IsReal x) : IsReal (extractStridedSlice t off x h) := fun _ => hx _
abbrev AllReal (xs : List ((s : Shape) × (s.Idx → EReal))) : Prop := ∀ p ∈ xs, IsReal p.2
theorem allReal_nil : AllReal [] := fun _ hp => absurd hp (List.not_mem_nil)
theorem allReal_cons {s : Shape} {x : s.Idx → EReal} {xs : List ((s : Shape) × (s.Idx → EReal))}
    (hx : IsReal x) (hxs : AllReal xs) : AllReal (⟨s, x⟩ :: xs) := by
  intro p hp
  rcases List.mem_cons.mp hp with rfl | hp
  · exact hx
  · exact hxs p hp
theorem isReal_concatenate (t : Shape) (a : Fin t.rank) (xs : List ((s : Shape) × (s.Idx → EReal)))
    (h : Shape.Concatenates (xs.map (·.1)) t a) (hxs : ∀ p ∈ xs, IsReal p.2) : IsReal (concatenate t a xs h) := fun _ => hxs _ (List.getElem_mem _) _
theorem isReal_hostGather {si : Shape} {w : Nat} (d : GatherDims s si t) {x : s.Idx → EReal} (idx : IVec si w)
    (hx : IsReal x) : IsReal (Host.gather d x idx) := fun _ => hx _

theorem isReal_hostDotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) := fun _ => IsRealE.add ⟨0, rfl⟩ (isRealE_sum _ _ fun _ _ => IsRealE.mul (hl _) (hr _))
theorem isReal_hostScatterAdd {si u : Shape} {w : Nat} (d : ScatterDims s si u) {x : FVec Ideal s φ} (idx : IVec si w)
    {upd : FVec Ideal u φ} (hx : IsReal x) (hu : IsReal upd) : IsReal (Host.scatterAdd d x idx upd) := fun i => IsRealE.add (hx i) (isRealE_sum _ _ fun j _ => hu j)

end Ops

end Cert.Spec
-- ==== Proof.Bridge.RefReal.lean ====
import proofs.«417009_j23742579212955_2_alg».proof.Proof.Spec.Real
import proofs.«417009_j23742579212955_2_alg».proof.Proof.Bridge.RefStages

namespace Cert.Bridge

open Cert.Spec Cert.ReferenceIdeal Cert.ReferenceIdeal.Gen Cert.ReferenceIdeal.Read Idealize.ShloMosaic Idealize.ShloMosaic.TcCoe Idealize.SL.Sem Idealize.ShloMosaic.StableHlo

def IsPosReal {s : Shape} (x : s.Idx → EReal) : Prop := ∀ i, ∃ r : ℝ, 0 < r ∧ x i = (r : EReal)
def IsNonnegReal {s : Shape} (x : s.Idx → EReal) : Prop := ∀ i, ∃ r : ℝ, 0 ≤ r ∧ x i = (r : EReal)

section Signs
variable {s t : Shape} {φ : FTy}

theorem IsPosReal.isNonnegReal {x : s.Idx → EReal} (h : IsPosReal x) : IsNonnegReal x := fun i => let ⟨r, hr, e⟩ := h i; ⟨r, hr.le, e⟩
theorem IsNonnegReal.isReal {x : s.Idx → EReal} (h : IsNonnegReal x) : IsReal x := fun i => let ⟨r, _, e⟩ := h i; ⟨r, e⟩
theorem IsPosReal.isReal {x : s.Idx → EReal} (h : IsPosReal x) : IsReal x := h.isNonnegReal.isReal
theorem IsPosReal.pos {x : s.Idx → EReal} (h : IsPosReal x) (i : s.Idx) : 0 < x i := by
  obtain ⟨r, hr, e⟩ := h i
  rw [e]
  exact EReal.coe_pos.mpr hr
theorem IsPosReal.ne_zero {x : s.Idx → EReal} (h : IsPosReal x) (i : s.Idx) : x i ≠ 0 := (h.pos i).ne'
theorem isPosReal_constant (s : Shape) (φ : FTy) {b : BitVec φ.bits} {r : ℝ} (h : Ideal.ofBits φ b = (r : EReal))
    (hr : 0 < r) : IsPosReal (constant (F := Ideal) s φ b) := fun _ => ⟨r, hr, h⟩
theorem isPosReal_broadcastInDim (t : Shape) (dims : Fin s.rank → Fin t.rank) (h : s.BroadcastsInDim t dims)
    {x : s.Idx → EReal} (hx : IsPosReal x) : IsPosReal (broadcastInDim t dims h x) := fun _ => hx _
theorem isNonnegReal_broadcastInDim (t : Shape) (dims : Fin s.rank → Fin t.rank) (h : s.BroadcastsInDim t dims)
    {x : s.Idx → EReal} (hx : IsNonnegReal x) : IsNonnegReal (broadcastInDim t dims h x) := fun _ => hx _
theorem isPosReal_hostExp {x : FVec Ideal s φ} (hx : IsReal x) : IsPosReal (Host.exp x) := by
  intro i
  obtain ⟨r, e⟩ := hx i
  refine ⟨Real.exp r, Real.exp_pos r, ?_⟩
  show Ideal.exp (x i) = _
  rw [e, exp_coe]
theorem isPosReal_addf {x y : FVec Ideal s φ} (hx : IsPosReal x) (hy : IsPosReal y) : IsPosReal (addf x y) := by
  intro i
  obtain ⟨a, ha, ea⟩ := hx i
  obtain ⟨b, hb, eb⟩ := hy i
  refine ⟨a + b, add_pos ha hb, ?_⟩
  show x i + y i = _
  rw [ea, eb, coe_add_coe]
theorem isPosReal_hostDivf {x y : FVec Ideal s φ} (hx : IsPosReal x) (hy : IsPosReal y) :
    IsPosReal (Host.divf x y) := by
  intro i
  obtain ⟨a, ha, ea⟩ := hx i
  obtain ⟨b, hb, eb⟩ := hy i
  refine ⟨a / b, div_pos ha hb, ?_⟩
  show Ideal.div (x i) (y i) = _
  rw [ea, eb, div_coe_coe a hb.ne']
theorem isNonnegReal_mulf_self {x : FVec Ideal s φ} (hx : IsReal x) : IsNonnegReal (mulf x x) := by
  intro i
  obtain ⟨a, ea⟩ := hx i
  refine ⟨a * a, mul_self_nonneg a, ?_⟩
  show x i * x i = _
  rw [ea, coe_mul_coe]
theorem isNonnegReal_hostReduceAdd {axes : List (Fin s.rank)} {u : Shape} {x : FVec Ideal s φ} {init : u.Idx → Ideal φ}
    (h : s.ReducesTo axes t) (hu : 0 < u.numel) (hx : IsNonnegReal x) (hi : IsNonnegReal init) :
    IsNonnegReal (Host.reduceAdd x init h hu) := by
  intro j
  have hxe : ∀ i, x i = (((x i).toReal : ℝ) : EReal) := fun i => (hx.isReal.coe_toReal i).symm
  have hx0 : ∀ i, 0 ≤ (x i).toReal := fun i => by
    obtain ⟨r, hr, e⟩ := hx i
    rw [e, EReal.toReal_coe]
    exact hr
  obtain ⟨c, hc, ec⟩ := hi (Shape.Idx.first hu)
  refine ⟨c + ∑ i ∈ Finset.univ.filter (fun i => h.drop i = j), (x i).toReal,
    add_nonneg hc (Finset.sum_nonneg fun i _ => hx0 i), ?_⟩
  show init (Shape.Idx.first hu) + ∑ i ∈ Finset.univ.filter (fun i => h.drop i = j), x i = _
  rw [ec, Finset.sum_congr rfl (fun i _ => hxe i), ← coe_sum, coe_add_coe]
theorem isNonnegReal_hostSqrt {x : FVec Ideal s φ} (hx : IsNonnegReal x) : IsNonnegReal (Host.sqrt x) := by
  intro i
  obtain ⟨r, hr, e⟩ := hx i
  refine ⟨Real.sqrt r, Real.sqrt_nonneg r, ?_⟩
  show Ideal.sqrt (x i) = _
  rw [e, sqrt_coe_of_nonneg hr]
theorem isPosReal_maximumf_of_right {x y : FVec Ideal s φ} (hx : IsReal x) (hy : IsPosReal y) :
    IsPosReal (maximumf x y) := by
  intro i
  obtain ⟨a, ea⟩ := hx i
  obtain ⟨b, hb, eb⟩ := hy i
  refine ⟨max a b, lt_max_of_lt_right hb, ?_⟩
  show max (x i) (y i) = _
  rw [ea, eb, max_coe_coe]

end Signs

theorem isReal_zero_S_ : IsReal (constant (F := Ideal) S_ .f32 0x00000000#32) := isReal_constant _ _ isRealE_ofBits_f32_zero
theorem isNonnegReal_zero_S_ : IsNonnegReal (constant (F := Ideal) S_ .f32 0x00000000#32) := fun _ => ⟨0, le_rfl, ofBits_f32_zero⟩
theorem isPosReal_one_S_ : IsPosReal (constant (F := Ideal) S_ .f32 0x3F800000#32) := isPosReal_constant _ _ ofBits_f32_one one_pos
theorem isPosReal_three_S_ : IsPosReal (constant (F := Ideal) S_ .f32 0x40400000#32) := isPosReal_constant _ _ ofBits_f32_three (by norm_num)
theorem isPosReal_1em12_S_ : IsPosReal (constant (F := Ideal) S_ .f32 0x2B8CBCCC#32) := isPosReal_constant _ _ ofBits_f32_1em12 (by norm_num)

theorem isReal_GateR {pe : FVec Ideal S10000x64 .f32} {w : FVec Ideal S64x64 .f32} {b : FVec Ideal S1x64 .f32}
    (hpe : IsReal pe) (hw : IsReal w) (hb : IsReal b) : IsReal (GateR pe w b) := by
  unfold GateR
  have h1 : IsPosReal (broadcastInDim S10000x64 ![] bcast_S_S10000x64 (constant (F := Ideal) S_ .f32 0x3F800000#32)) :=
    isPosReal_broadcastInDim _ _ _ isPosReal_one_S_
  exact isReal_mulf hpe (isPosReal_hostDivf h1 (isPosReal_addf h1 (isPosReal_hostExp (isReal_hostNegf
    (isReal_addf (isReal_hostDotGeneral _ _ hpe hw) (isReal_broadcastInDim _ _ _ hb)))))).isReal

theorem isReal_SpmmPP (rows cols : IVec S320000 32) {vals : FVec Ideal S320000 .f32} {x : FVec Ideal S10000x64 .f32}
    (hv : IsReal vals) (hx : IsReal x) : IsReal (SpmmPP rows cols vals x) := by
  unfold SpmmPP
  exact isReal_hostScatterAdd _ _ (isReal_broadcastInDim _ _ _ isReal_zero_S_)
    (isReal_mulf (isReal_broadcastInDim _ _ _ (isReal_broadcastInDim _ _ _ hv)) (isReal_hostGather _ _ hx))
theorem isReal_SpmmUP (rows cols : IVec S400000 32) {vals : FVec Ideal S400000 .f32} {x : FVec Ideal S10000x64 .f32}
    (hv : IsReal vals) (hx : IsReal x) : IsReal (SpmmUP rows cols vals x) := by
  unfold SpmmUP
  exact isReal_hostScatterAdd _ _ (isReal_broadcastInDim _ _ _ isReal_zero_S_)
    (isReal_mulf (isReal_broadcastInDim _ _ _ (isReal_broadcastInDim _ _ _ hv)) (isReal_hostGather _ _ hx))
theorem isReal_SpmmPU (rows cols : IVec S400000 32) {vals : FVec Ideal S400000 .f32} {x : FVec Ideal S8000x64 .f32}
    (hv : IsReal vals) (hx : IsReal x) : IsReal (SpmmPU rows cols vals x) := by
  unfold SpmmPU
  exact isReal_hostScatterAdd _ _ (isReal_broadcastInDim _ _ _ isReal_zero_S_)
    (isReal_mulf (isReal_broadcastInDim _ _ _ (isReal_broadcastInDim _ _ _ hv)) (isReal_hostGather _ _ hx))

theorem isReal_Mean3R {x0 x1 x2 : FVec Ideal S10000x64 .f32} (h0 : IsReal x0) (h1 : IsReal x1) (h2 : IsReal x2) :
    IsReal (Mean3R x0 x1 x2) := by
  unfold Mean3R
  have h3 : IsPosReal (broadcastInDim S10000x64 ![] bcast_S_S10000x64 (constant (F := Ideal) S_ .f32 0x40400000#32)) :=
    isPosReal_broadcastInDim _ _ _ isPosReal_three_S_
  exact isReal_hostDivf (isReal_addf (isReal_addf (isReal_addf (isReal_broadcastInDim _ _ _ isReal_zero_S_) h0) h1) h2)
    h3.isReal h3.ne_zero

theorem isPosReal_L2R_divisor {x : FVec Ideal S10000x64 .f32} (hx : IsReal x) :
    IsPosReal (broadcastInDim S10000x64 ![0, 1] bcast_S10000x1_S10000x64_0_1
      (maximumf
        (Host.sqrt (broadcastInDim S10000x1 ![0] bcast_S10000_S10000x1_0
          (Host.reduceAdd (mulf x x) (constant S_ .f32 0x00000000#32) reducesTo_S10000x64_S10000_d1 h_S_)))
        (broadcastInDim S10000x1 ![] bcast_S_S10000x1 (constant S_ .f32 0x2B8CBCCC#32)))) :=
  isPosReal_broadcastInDim _ _ _ (isPosReal_maximumf_of_right
    (isNonnegReal_hostSqrt (isNonnegReal_broadcastInDim _ _ _
      (isNonnegReal_hostReduceAdd _ _ (isNonnegReal_mulf_self hx) isNonnegReal_zero_S_))).isReal
    (isPosReal_broadcastInDim _ _ _ isPosReal_1em12_S_))
theorem isReal_L2R {x : FVec Ideal S10000x64 .f32} (hx : IsReal x) : IsReal (L2R x) := by
  unfold L2R
  exact isReal_hostDivf hx (isPosReal_L2R_divisor hx).isReal (isPosReal_L2R_divisor hx).ne_zero

variable {F : FTy → Type} [FloatOps F] in
variable {F : FTy → Type} [FloatOps F] in
variable {F : FTy → Type} [FloatOps F] in
variable {F : FTy → Type} [FloatOps F] in

theorem isReal_MsgLinR {mg ms mp : FVec Ideal S8000x64 .f32} {fw : FVec Ideal S448x64 .f32} {fb : FVec Ideal S64 .f32}
    (hg : IsReal mg) (hs : IsReal ms) (hp : IsReal mp) (hw : IsReal fw) (hb : IsReal fb) :
    IsReal (MsgLinR mg ms mp fw fb) := by
  unfold MsgLinR
  exact isReal_addf (isReal_hostDotGeneral _ _ (isReal_concatenate _ _ _ _
    (allReal_cons hg (allReal_cons hs (allReal_cons hp (allReal_cons (isReal_mulf hg hs) (allReal_cons (isReal_mulf hg hp)
      (allReal_cons (isReal_mulf hs hp) (allReal_cons (isReal_mulf (isReal_mulf hg hs) hp) allReal_nil)))))))) hw)
    (isReal_broadcastInDim _ _ _ (isReal_broadcastInDim _ _ _ hb))
theorem isReal_MsgR {mg ms mp : FVec Ideal S8000x64 .f32} {fw : FVec Ideal S448x64 .f32} {fb : FVec Ideal S64 .f32}
    {ue : FVec Ideal S8000x64 .f32}
    (hg : IsReal mg) (hs : IsReal ms) (hp : IsReal mp) (hw : IsReal fw) (hb : IsReal fb) (hu : IsReal ue) :
    IsReal (MsgR mg ms mp fw fb ue) := by
  unfold MsgR
  have hl := isReal_MsgLinR hg hs hp hw hb
  exact isReal_addf (isReal_addf hl hu) (isReal_mulf hl hu)
end Cert.Bridge
-- ==== Proof.Spec.Spmm.lean ====
import Idealize.ShloMosaic.PureOps.Ideal
import Idealize.ShloMosaic.Lib.ValueIdx
import Idealize.ShloMosaic.Lib.ValueIdxRank1
import Idealize.ShloMosaic.Lib.StableHlo.Predicate
import Idealize.ShloMosaic.Lib.Pipeline.Value
import proofs.«417009_j23742579212955_2_alg».proof.Proof.Spec.Real

noncomputable section

open scoped BigOperators

namespace Cert.Spec

open Idealize.ShloMosaic Idealize.ShloMosaic.ValueIdx
open Idealize.ShloMosaic.StableHlo.Predicate (ixP)

theorem sum_fiber_mul_real {ι : Type} [Fintype ι] {n : ℕ} (P : ι → Prop) [DecidablePred P] (colZ : ι → ℤ)
    (hcol : ∀ e, 0 ≤ colZ e ∧ colZ e < n) (v : ι → ℝ) (x : Fin n → ℝ) :
    ∑ c : Fin n, (∑ e ∈ Finset.univ.filter (fun e => P e ∧ colZ e = (c.val : ℤ)), v e) * x c
      = ∑ e ∈ Finset.univ.filter (fun e => P e), v e * x ⟨(colZ e).toNat, by have := hcol e; omega⟩ := by
  classical
  have key : ∀ c : Fin n, (∑ e ∈ Finset.univ.filter (fun e => P e ∧ colZ e = (c.val : ℤ)), v e) * x c
      = ∑ e ∈ Finset.univ.filter (fun e => P e), if colZ e = (c.val : ℤ) then v e * x c else 0 := by
    intro c
    rw [Finset.sum_mul]
    symm
    rw [← Finset.sum_filter, Finset.filter_filter]
  rw [Finset.sum_congr rfl fun c _ => key c, Finset.sum_comm]
  refine Finset.sum_congr rfl fun e _ => ?_
  have hc := hcol e
  rw [Finset.sum_eq_single (⟨(colZ e).toNat, by omega⟩ : Fin n)]
  · rw [if_pos]
    show colZ e = (((colZ e).toNat : ℕ) : ℤ)
    omega
  · intro b _ hb
    rw [if_neg]
    intro h
    apply hb
    apply Fin.ext
    show b.val = (colZ e).toNat
    omega
  · intro h
    exact absurd (Finset.mem_univ _) h

theorem sum_fiber_mul {ι : Type} [Fintype ι] {n : ℕ} (P : ι → Prop) [DecidablePred P] (colZ : ι → ℤ)
    (hcol : ∀ e, 0 ≤ colZ e ∧ colZ e < n) (v : ι → EReal) (x : Fin n → EReal)
    (hv : ∀ e, ∃ r : ℝ, v e = (r : EReal)) (hx : ∀ c, ∃ r : ℝ, x c = (r : EReal)) :
    ∑ c : Fin n, (∑ e ∈ Finset.univ.filter (fun e => P e ∧ colZ e = (c.val : ℤ)), v e) * x c
      = ∑ e ∈ Finset.univ.filter (fun e => P e), v e * x ⟨(colZ e).toNat, by have := hcol e; omega⟩ := by
  obtain ⟨vr, rfl⟩ : ∃ vr : ι → ℝ, v = fun e => ((vr e : ℝ) : EReal) :=
    ⟨fun e => (hv e).choose, funext fun e => (hv e).choose_spec⟩
  obtain ⟨xr, rfl⟩ : ∃ xr : Fin n → ℝ, x = fun c => ((xr c : ℝ) : EReal) :=
    ⟨fun c => (hx c).choose, funext fun c => (hx c).choose_spec⟩
  have hL : ∀ c : Fin n, (∑ e ∈ Finset.univ.filter (fun e => P e ∧ colZ e = (c.val : ℤ)), ((vr e : ℝ) : EReal)) * ((xr c : ℝ) : EReal)
      = (((∑ e ∈ Finset.univ.filter (fun e => P e ∧ colZ e = (c.val : ℤ)), vr e) * xr c : ℝ) : EReal) := by
    intro c
    rw [← coe_sum, coe_mul_coe]
  show ∑ c : Fin n, (∑ e ∈ Finset.univ.filter (fun e => P e ∧ colZ e = (c.val : ℤ)), ((vr e : ℝ) : EReal)) * ((xr c : ℝ) : EReal)
      = ∑ e ∈ Finset.univ.filter (fun e => P e), ((vr e : ℝ) : EReal) * ((xr ⟨(colZ e).toNat, by have := hcol e; omega⟩ : ℝ) : EReal)
  rw [Finset.sum_congr rfl fun c _ => hL c, ← coe_sum, sum_coe_mul_coe, sum_fiber_mul_real P colZ hcol vr xr]

abbrev denseDims (nO nI E : ℕ)
    (wf : ScatterDims.WF ⟨2, ![nO, nI]⟩ ⟨2, ![E, 2]⟩ ⟨1, ![E]⟩ [] [0, 1] [0, 1] 1) :
    ScatterDims ⟨2, ![nO, nI]⟩ ⟨2, ![E, 2]⟩ ⟨1, ![E]⟩ where
  updateWindowDims := []
  insertedWindowDims := [0, 1]
  scatterDimsToOperandDims := [0, 1]
  indexVectorDim := 1
  wf := wf

abbrev segDims (nO D E : ℕ)
    (wf : ScatterDims.WF ⟨2, ![nO, D]⟩ ⟨2, ![E, 1]⟩ ⟨2, ![E, D]⟩ [1] [0] [0] 1) :
    ScatterDims ⟨2, ![nO, D]⟩ ⟨2, ![E, 1]⟩ ⟨2, ![E, D]⟩ where
  updateWindowDims := [1]
  insertedWindowDims := [0]
  scatterDimsToOperandDims := [0]
  indexVectorDim := 1
  wf := wf

abbrev rowGatherDims (nI D E : ℕ)
    (wf : GatherDims.WF ⟨2, ![nI, D]⟩ ⟨2, ![E, 1]⟩ ⟨2, ![E, D]⟩ [1] [0] [] [0] [] 1 ![1, D]) :
    GatherDims ⟨2, ![nI, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

def normW (n : ℕ) (w : BitVec 32) : BitVec 32 :=
  Scalar.select (IntOp.cmpi .slt w 0#32) (IntOp.addi w (BitVec.ofNat 32 n)) w

theorem normW_of_nonneg (n : ℕ) (w : BitVec 32) (h : 0 ≤ w.toInt) : normW n w = w := by
  have hs : w.slt 0#32 = false := by
    unfold BitVec.slt
    rw [decide_eq_false_iff_not]
    have h0 : (0#32 : BitVec 32).toInt = 0 := by decide
    rw [h0]
    omega
  have hc : IntOp.cmpi .slt w 0#32 = 0#1 := by
    unfold IntOp.cmpi
    rw [hs]
    rfl
  unfold normW
  rw [hc, select_zero]

theorem ofFin_eq_ix1 {n : ℕ} (e : Fin n) : Shape.Idx.ofFin e = ix1 e := by
  funext a
  have ha : a = 0 := Subsingleton.elim _ _
  subst ha
  rfl

theorem concat_cols_apply0 {α : Type} {E : ℕ} (h : Shape.Concatenates [⟨2, ![E, 1]⟩, ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] h (ix2 e (0 : Fin 2)) = a (ixP e) := by
  refine concatenate_pair_apply_left (1 : Fin 2) a b h (ix2 e (0 : Fin 2)) rfl (ixP e) ?_
  intro c
  match c with
  | ⟨0, _⟩ => rfl
  | ⟨1, _⟩ => rfl

theorem concat_cols_apply1 {α : Type} {E : ℕ} (h : Shape.Concatenates [⟨2, ![E, 1]⟩, ⟨2, ![E, 1]⟩] ⟨2, ![E, 2]⟩ 1)
    (a b : (⟨2, ![E, 1]⟩ : Shape).Idx → α) (e : Fin E) :
    concatenate ⟨2, ![E, 2]⟩ 1 [⟨⟨2, ![E, 1]⟩, a⟩, ⟨⟨2, ![E, 1]⟩, b⟩] h (ix2 e (1 : Fin 2)) = b (ixP e) := by
  refine concatenate_pair_apply_right (1 : Fin 2) a b h (ix2 e (1 : Fin 2)) rfl rfl (ixP e) ?_ rfl
  intro c hc
  match c with
  | ⟨0, _⟩ => rfl
  | ⟨1, _⟩ => exact absurd rfl hc

theorem col_apply {α : Type} {E : ℕ} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ixP e) = v (ix1 e) := by
  rw [StableHlo.Predicate.bcast_col1 h v e, ofFin_eq_ix1]

theorem rows_apply {α : Type} {E D : ℕ} (h₁ : (⟨1, ![E]⟩ : Shape).BroadcastsInDim ⟨2, ![E, 1]⟩ ![0])
    (h₂ : (⟨2, ![E, 1]⟩ : Shape).BroadcastsInDim ⟨2, ![E, D]⟩ ![0, 1]) (v : (⟨1, ![E]⟩ : Shape).Idx → α)
    (e : Fin E) (d : Fin D) :
    broadcastInDim ⟨2, ![E, D]⟩ ![0, 1] h₂ (broadcastInDim ⟨2, ![E, 1]⟩ ![0] h₁ v) (ix2 e d) = v (ix1 e) := by
  have hij : (ix2 e d : (⟨2, ![E, D]⟩ : Shape).Idx) = StableHlo.Predicate.ij e d := by
    funext a
    match a with
    | ⟨0, _⟩ => rfl
    | ⟨1, _⟩ => rfl
  rw [hij, StableHlo.Predicate.bcast_rows h₁ h₂ v e d, ofFin_eq_ix1]

theorem ix1_val {n : ℕ} (e : Fin n) (X : Fin 1) : ((ix1 e : (⟨1, ![n]⟩ : Shape).Idx) X).val = e.val := by
  have hX : X = 0 := Subsingleton.elim _ _
  subst hX; rfl

theorem fin2_cases (a : Fin 2) : a = 0 ∨ a = 1 := by
  rcases a with ⟨v, hv⟩
  rcases (by omega : v = 0 ∨ v = 1) with rfl | rfl
  · left; rfl
  · right; rfl

theorem dense_siIdx {nO nI E : ℕ}
    (wf : ScatterDims.WF ⟨2, ![nO, nI]⟩ ⟨2, ![E, 2]⟩ ⟨1, ![E]⟩ [] [0, 1] [0, 1] 1) (e : Fin E)
    (k : Fin (denseDims nO nI E wf).scatterDimsToOperandDims.length) :
    (denseDims nO nI E wf).siIdx (ix1 e) k = ix2 e (⟨k.val, k.isLt⟩ : Fin 2) := by
  funext b
  match b with
  | ⟨0, _⟩ =>
    unfold ScatterDims.siIdx
    rw [dif_neg (by show ¬ (0 : ℕ) = 1; omega)]
    unfold ScatterDims.siCoord
    apply Fin.ext
    simp only [Fin.val_cast]
    exact ix1_val e _
  | ⟨1, _⟩ =>
    unfold ScatterDims.siIdx
    rw [dif_pos (by rfl)]
    rfl

theorem dense_start {nO nI E : ℕ}
    (wf : ScatterDims.WF ⟨2, ![nO, nI]⟩ ⟨2, ![E, 2]⟩ ⟨1, ![E]⟩ [] [0, 1] [0, 1] 1)
    (idx : IVec ⟨2, ![E, 2]⟩ 32) (e : Fin E) (a : Fin 2) :
    (denseDims nO nI E wf).start (ix1 e) idx a = (idx (ix2 e a)).toInt := by
  have hm : a ∈ (denseDims nO nI E wf).scatterDimsToOperandDims := by
    show a ∈ ([0, 1] : List (Fin 2))
    rcases fin2_cases a with rfl | rfl <;> simp
  unfold ScatterDims.start
  rw [dif_pos hm, dense_siIdx]
  rcases fin2_cases a with rfl | rfl <;> rfl

theorem dense_window {nO nI E : ℕ}
    (wf : ScatterDims.WF ⟨2, ![nO, nI]⟩ ⟨2, ![E, 2]⟩ ⟨1, ![E]⟩ [] [0, 1] [0, 1] 1) (e : Fin E) (a : Fin 2) :
    (denseDims nO nI E wf).window (ix1 e) a = 0 := by
  unfold ScatterDims.window
  rw [dif_neg]
  intro h
  have hk := (List.mem_filter.1 h).2
  rcases fin2_cases a with rfl | rfl <;> simp at hk

theorem dense_resultIdx_iff {nO nI E : ℕ}
    (wf : ScatterDims.WF ⟨2, ![nO, nI]⟩ ⟨2, ![E, 2]⟩ ⟨1, ![E]⟩ [] [0, 1] [0, 1] 1)
    (idx : IVec ⟨2, ![E, 2]⟩ 32) (e : Fin E) (r : Fin nO) (c : Fin nI) :
    (denseDims nO nI E wf).resultIdx? (ix1 e) idx = some (ix2 r c)
      ↔ (idx (ix2 e (0 : Fin 2))).toInt = (r.val : ℤ) ∧ (idx (ix2 e (1 : Fin 2))).toInt = (c.val : ℤ) := by
  have h0 := dense_start wf idx e 0
  have h1 := dense_start wf idx e 1
  have w0 := dense_window wf e 0
  have w1 := dense_window wf e 1
  unfold ScatterDims.resultIdx?
  split
  · next h =>
    rw [Option.some.injEq]
    constructor
    · intro hf
      have e0 := congrArg (fun f => (f 0).val) hf
      have e1 := congrArg (fun f => (f 1).val) hf
      simp only at e0 e1
      have g0 := h 0
      have g1 := h 1
      rw [h0, w0] at g0
      rw [h1, w1] at g1
      change ((denseDims nO nI E wf).start (ix1 e) idx 0 + ((denseDims nO nI E wf).window (ix1 e) 0 : ℕ)).toNat = r.val at e0
      change ((denseDims nO nI E wf).start (ix1 e) idx 1 + ((denseDims nO nI E wf).window (ix1 e) 1 : ℕ)).toNat = c.val at e1
      rw [h0, w0] at e0
      rw [h1, w1] at e1
      constructor <;> omega
    · rintro ⟨e0, e1⟩
      funext a
      apply Fin.ext
      match a with
      | ⟨0, _⟩ =>
        show ((denseDims nO nI E wf).start (ix1 e) idx 0 + ((denseDims nO nI E wf).window (ix1 e) 0 : ℕ)).toNat = r.val
        rw [h0, w0]; omega
      | ⟨1, _⟩ =>
        show ((denseDims nO nI E wf).start (ix1 e) idx 1 + ((denseDims nO nI E wf).window (ix1 e) 1 : ℕ)).toNat = c.val
        rw [h1, w1]; omega
  · next h =>
    constructor
    · intro hf; exact absurd hf (by simp)
    · rintro ⟨e0, e1⟩
      exfalso
      apply h
      intro a
      match a with
      | ⟨0, _⟩ =>
        show 0 ≤ (denseDims nO nI E wf).start (ix1 e) idx 0 + ((denseDims nO nI E wf).window (ix1 e) 0 : ℕ) ∧
          (denseDims nO nI E wf).start (ix1 e) idx 0 + ((denseDims nO nI E wf).window (ix1 e) 0 : ℕ) < (nO : ℤ)
        rw [h0, w0]; have := r.isLt; omega
      | ⟨1, _⟩ =>
        show 0 ≤ (denseDims nO nI E wf).start (ix1 e) idx 1 + ((denseDims nO nI E wf).window (ix1 e) 1 : ℕ) ∧
          (denseDims nO nI E wf).start (ix1 e) idx 1 + ((denseDims nO nI E wf).window (ix1 e) 1 : ℕ) < (nI : ℤ)
        rw [h1, w1]; have := c.isLt; omega

theorem denseScatter_apply {φ : FTy} {nO nI E : ℕ}
    (wf : ScatterDims.WF ⟨2, ![nO, nI]⟩ ⟨2, ![E, 2]⟩ ⟨1, ![E]⟩ [] [0, 1] [0, 1] 1)
    (x0 : FVec Ideal ⟨2, ![nO, nI]⟩ φ) (idx : IVec ⟨2, ![E, 2]⟩ 32) (vals : FVec Ideal ⟨1, ![E]⟩ φ)
    (r : Fin nO) (c : Fin nI) :
    Host.scatterAdd (denseDims nO nI E wf) x0 idx vals (ix2 r c)
      = x0 (ix2 r c) + ∑ e ∈ Finset.univ.filter (fun e : Fin E =>
          (idx (ix2 e (0 : Fin 2))).toInt = (r.val : ℤ) ∧ (idx (ix2 e (1 : Fin 2))).toInt = (c.val : ℤ)), vals (ix1 e) := by
  show x0 (ix2 r c) + ∑ j ∈ Finset.univ.filter (fun j => (denseDims nO nI E wf).resultIdx? j idx = some (ix2 r c)), vals j = _
  congr 1
  rw [Finset.sum_filter, Finset.sum_filter, ← Equiv.sum_comp (idxEquiv1 (n := E)).symm]
  refine Finset.sum_congr rfl fun e _ => ?_
  show (if (denseDims nO nI E wf).resultIdx? (ix1 e) idx = some (ix2 r c) then vals (ix1 e) else 0) = _
  exact if_congr (dense_resultIdx_iff wf idx e r c) rfl rfl

theorem seg_siIdx {nO D E : ℕ}
    (wf : ScatterDims.WF ⟨2, ![nO, D]⟩ ⟨2, ![E, 1]⟩ ⟨2, ![E, D]⟩ [1] [0] [0] 1) (e : Fin E) (d' : Fin D)
    (k : Fin (segDims nO D E wf).scatterDimsToOperandDims.length) :
    (segDims nO D E wf).siIdx (ix2 e d') k = ixP e := by
  funext b
  match b with
  | ⟨0, _⟩ =>
    unfold ScatterDims.siIdx
    rw [dif_neg (by show ¬ (0 : ℕ) = 1; omega)]
    unfold ScatterDims.siCoord
    apply Fin.ext
    simp only [Fin.val_cast]
    rfl
  | ⟨1, _⟩ =>
    unfold ScatterDims.siIdx
    rw [dif_pos (by rfl)]
    apply Fin.ext
    have hk : k.val < 1 := k.isLt
    show k.val = 0
    omega

theorem seg_start0 {nO D E : ℕ}
    (wf : ScatterDims.WF ⟨2, ![nO, D]⟩ ⟨2, ![E, 1]⟩ ⟨2, ![E, D]⟩ [1] [0] [0] 1)
    (idx : IVec ⟨2, ![E, 1]⟩ 32) (e : Fin E) (d' : Fin D) :
    (segDims nO D E wf).start (ix2 e d') idx (0 : Fin 2) = (idx (ixP e)).toInt := by
  have hm : (0 : Fin 2) ∈ (segDims nO D E wf).scatterDimsToOperandDims := by
    show (0 : Fin 2) ∈ ([0] : List (Fin 2))
    simp
  unfold ScatterDims.start
  rw [dif_pos hm, seg_siIdx]

theorem seg_start1 {nO D E : ℕ}
    (wf : ScatterDims.WF ⟨2, ![nO, D]⟩ ⟨2, ![E, 1]⟩ ⟨2, ![E, D]⟩ [1] [0] [0] 1)
    (idx : IVec ⟨2, ![E, 1]⟩ 32) (e : Fin E) (d' : Fin D) :
    (segDims nO D E wf).start (ix2 e d') idx (1 : Fin 2) = 0 := by
  have hm : (1 : Fin 2) ∉ (segDims nO D E wf).scatterDimsToOperandDims := by
    show (1 : Fin 2) ∉ ([0] : List (Fin 2))
    simp
  unfold ScatterDims.start
  rw [dif_neg hm]

theorem seg_window0 {nO D E : ℕ}
    (wf : ScatterDims.WF ⟨2, ![nO, D]⟩ ⟨2, ![E, 1]⟩ ⟨2, ![E, D]⟩ [1] [0] [0] 1) (e : Fin E) (d' : Fin D) :
    (segDims nO D E wf).window (ix2 e d') (0 : Fin 2) = 0 := by
  unfold ScatterDims.window
  rw [dif_neg]
  intro h
  have hk := (List.mem_filter.1 h).2
  simp at hk

theorem seg_window1 {nO D E : ℕ}
    (wf : ScatterDims.WF ⟨2, ![nO, D]⟩ ⟨2, ![E, 1]⟩ ⟨2, ![E, D]⟩ [1] [0] [0] 1) (e : Fin E) (d' : Fin D) :
    (segDims nO D E wf).window (ix2 e d') (1 : Fin 2) = d'.val := by
  have hm : (1 : Fin 2) ∈ (segDims nO D E wf).sKept := by
    apply List.mem_filter.2
    constructor
    · exact List.mem_finRange _
    · simp
  unfold ScatterDims.window
  rw [dif_pos hm]
  rfl

theorem seg_resultIdx_iff {nO D E : ℕ}
    (wf : ScatterDims.WF ⟨2, ![nO, D]⟩ ⟨2, ![E, 1]⟩ ⟨2, ![E, D]⟩ [1] [0] [0] 1)
    (idx : IVec ⟨2, ![E, 1]⟩ 32) (e : Fin E) (d' : Fin D) (r : Fin nO) (d : Fin D) :
    (segDims nO D E wf).resultIdx? (ix2 e d') idx = some (ix2 r d)
      ↔ (idx (ixP e)).toInt = (r.val : ℤ) ∧ d' = d := by
  have h0 := seg_start0 wf idx e d'
  have h1 := seg_start1 wf idx e d'
  have w0 := seg_window0 wf e d'
  have w1 := seg_window1 wf e d'
  unfold ScatterDims.resultIdx?
  split
  · next h =>
    rw [Option.some.injEq]
    constructor
    · intro hf
      have e0 := congrArg (fun f => (f 0).val) hf
      have e1 := congrArg (fun f => (f 1).val) hf
      simp only at e0 e1
      have g0 := h 0
      rw [h0, w0] at g0
      change ((segDims nO D E wf).start (ix2 e d') idx 0 + ((segDims nO D E wf).window (ix2 e d') 0 : ℕ)).toNat = r.val at e0
      change ((segDims nO D E wf).start (ix2 e d') idx 1 + ((segDims nO D E wf).window (ix2 e d') 1 : ℕ)).toNat = d.val at e1
      rw [h0, w0] at e0
      rw [h1, w1] at e1
      refine ⟨by omega, Fin.ext (by omega)⟩
    · rintro ⟨e0, rfl⟩
      funext a
      apply Fin.ext
      match a with
      | ⟨0, _⟩ =>
        show ((segDims nO D E wf).start (ix2 e d') idx 0 + ((segDims nO D E wf).window (ix2 e d') 0 : ℕ)).toNat = r.val
        rw [h0, w0]; omega
      | ⟨1, _⟩ =>
        show ((segDims nO D E wf).start (ix2 e d') idx 1 + ((segDims nO D E wf).window (ix2 e d') 1 : ℕ)).toNat = d'.val
        rw [h1, w1]; omega
  · next h =>
    constructor
    · intro hf; exact absurd hf (by simp)
    · rintro ⟨e0, rfl⟩
      exfalso
      apply h
      intro a
      match a with
      | ⟨0, _⟩ =>
        show 0 ≤ (segDims nO D E wf).start (ix2 e d') idx 0 + ((segDims nO D E wf).window (ix2 e d') 0 : ℕ) ∧
          (segDims nO D E wf).start (ix2 e d') idx 0 + ((segDims nO D E wf).window (ix2 e d') 0 : ℕ) < (nO : ℤ)
        rw [h0, w0]; have := r.isLt; omega
      | ⟨1, _⟩ =>
        show 0 ≤ (segDims nO D E wf).start (ix2 e d') idx 1 + ((segDims nO D E wf).window (ix2 e d') 1 : ℕ) ∧
          (segDims nO D E wf).start (ix2 e d') idx 1 + ((segDims nO D E wf).window (ix2 e d') 1 : ℕ) < (D : ℤ)
        rw [h1, w1]; have := d'.isLt; omega

theorem segScatter_apply {φ : FTy} {nO D E : ℕ}
    (wf : ScatterDims.WF ⟨2, ![nO, D]⟩ ⟨2, ![E, 1]⟩ ⟨2, ![E, D]⟩ [1] [0] [0] 1)
    (x0 : FVec Ideal ⟨2, ![nO, D]⟩ φ) (idx : IVec ⟨2, ![E, 1]⟩ 32) (upd : FVec Ideal ⟨2, ![E, D]⟩ φ)
    (r : Fin nO) (d : Fin D) :
    Host.scatterAdd (segDims nO D E wf) x0 idx upd (ix2 r d)
      = x0 (ix2 r d) + ∑ e ∈ Finset.univ.filter (fun e : Fin E => (idx (ixP e)).toInt = (r.val : ℤ)), upd (ix2 e d) := by
  classical
  show x0 (ix2 r d) + ∑ j ∈ Finset.univ.filter (fun j => (segDims nO D E wf).resultIdx? j idx = some (ix2 r d)), upd j = _
  congr 1
  rw [Finset.sum_filter, Finset.sum_filter, sum_idx2]
  refine Finset.sum_congr rfl fun e _ => ?_
  by_cases hr : (idx (ixP e)).toInt = (r.val : ℤ)
  · rw [if_pos hr, Finset.sum_eq_single d]
    · rw [if_pos ((seg_resultIdx_iff wf idx e d r d).2 ⟨hr, rfl⟩)]
    · intro d' _ hd'
      rw [if_neg]
      intro h
      exact hd' ((seg_resultIdx_iff wf idx e d' r d).1 h).2
    · intro h
      exact absurd (Finset.mem_univ _) h
  · rw [if_neg hr]
    refine Finset.sum_eq_zero fun d' _ => ?_
    rw [if_neg]
    intro h
    exact hr ((seg_resultIdx_iff wf idx e d' r d).1 h).1

theorem gather_siIdx {nI D E : ℕ}
    (wf : GatherDims.WF ⟨2, ![nI, D]⟩ ⟨2, ![E, 1]⟩ ⟨2, ![E, D]⟩ [1] [0] [] [0] [] 1 ![1, D]) (e : Fin E) (d' : Fin D)
    (k : Fin (rowGatherDims nI D E wf).startIndexMap.length) :
    (rowGatherDims nI D E wf).siIdx (ix2 e d') k = ixP e := by
  funext b
  match b with
  | ⟨0, _⟩ =>
    unfold GatherDims.siIdx
    rw [dif_neg (by show ¬ (0 : ℕ) = 1; omega)]
    unfold GatherDims.siCoord
    apply Fin.ext
    simp only [Fin.val_cast]
    rfl
  | ⟨1, _⟩ =>
    unfold GatherDims.siIdx
    rw [dif_pos (by rfl)]
    apply Fin.ext
    have hk : k.val < 1 := k.isLt
    show k.val = 0
    omega

theorem rowGather_apply {α : Type} {nI D E : ℕ} (hN : 0 < nI)
    (wf : GatherDims.WF ⟨2, ![nI, D]⟩ ⟨2, ![E, 1]⟩ ⟨2, ![E, D]⟩ [1] [0] [] [0] [] 1 ![1, D])
    (x : (⟨2, ![nI, D]⟩ : Shape).Idx → α) (idx : IVec ⟨2, ![E, 1]⟩ 32) (e : Fin E) (d : Fin D) :
    Host.gather (rowGatherDims nI D E wf) x idx (ix2 e d)
      = x (ix2 (⟨min (idx (ixP e)).toInt.toNat (nI - 1), by omega⟩ : Fin nI) d) := by
  have hb : ∀ a : Fin 2, a ∉ (rowGatherDims nI D E wf).operandBatchingDims := fun a => List.not_mem_nil
  have hk0 : (0 : Fin 2) ∉ (rowGatherDims nI D E wf).sKept := by
    rw [GatherDims.mem_sKept]
    intro h
    exact h.1 (List.mem_singleton.mpr rfl)
  have hk1 : (1 : Fin 2) ∈ (rowGatherDims nI D E wf).sKept := by
    rw [GatherDims.mem_sKept]
    refine ⟨?_, List.not_mem_nil⟩
    show (1 : Fin 2) ∉ ([0] : List (Fin 2))
    simp
  have hm0 : (0 : Fin 2) ∈ (rowGatherDims nI D E wf).startIndexMap := by
    show (0 : Fin 2) ∈ ([0] : List (Fin 2))
    simp
  have hm1 : (1 : Fin 2) ∉ (rowGatherDims nI D E wf).startIndexMap := by
    show (1 : Fin 2) ∉ ([0] : List (Fin 2))
    simp
  unfold Host.gather
  congr 1
  funext a
  apply Fin.ext
  match a with
  | ⟨0, _⟩ =>
    show (rowGatherDims nI D E wf).start (ix2 e d) idx 0 + (rowGatherDims nI D E wf).batchCoord (ix2 e d) 0
      + (rowGatherDims nI D E wf).offCoord (ix2 e d) 0 = min (idx (ixP e)).toInt.toNat (nI - 1)
    rw [GatherDims.batchCoord_eq_zero _ _ _ (hb 0), GatherDims.offCoord_eq_zero _ _ _ hk0]
    unfold GatherDims.start
    rw [dif_pos hm0, gather_siIdx]
    rfl
  | ⟨1, _⟩ =>
    show (rowGatherDims nI D E wf).start (ix2 e d) idx 1 + (rowGatherDims nI D E wf).batchCoord (ix2 e d) 1
      + (rowGatherDims nI D E wf).offCoord (ix2 e d) 1 = d.val
    rw [GatherDims.batchCoord_eq_zero _ _ _ (hb 1)]
    unfold GatherDims.start GatherDims.offCoord
    rw [dif_neg hm1, dif_pos hk1]
    show 0 + 0 + d.val = d.val
    omega

theorem rowGather_apply_inRange {α : Type} {nI D E : ℕ}
    (wf : GatherDims.WF ⟨2, ![nI, D]⟩ ⟨2, ![E, 1]⟩ ⟨2, ![E, D]⟩ [1] [0] [] [0] [] 1 ![1, D])
    (x : (⟨2, ![nI, D]⟩ : Shape).Idx → α) (idx : IVec ⟨2, ![E, 1]⟩ 32) (e : Fin E) (d : Fin D)
    (h : 0 ≤ (idx (ixP e)).toInt ∧ (idx (ixP e)).toInt < nI) :
    Host.gather (rowGatherDims nI D E wf) x idx (ix2 e d)
      = x (ix2 (⟨(idx (ixP e)).toInt.toNat, by omega⟩ : Fin nI) d) := by
  rw [rowGather_apply (by omega) wf x idx e d]
  congr 2
  apply Fin.ext
  show min (idx (ixP e)).toInt.toNat (nI - 1) = (idx (ixP e)).toInt.toNat
  omega

theorem spmm_dense_eq_seg {φ : FTy} {nO nI D E : ℕ}
    (wfA : ScatterDims.WF ⟨2, ![nO, nI]⟩ ⟨2, ![E, 2]⟩ ⟨1, ![E]⟩ [] [0, 1] [0, 1] 1)
    (wfS : ScatterDims.WF ⟨2, ![nO, D]⟩ ⟨2, ![E, 1]⟩ ⟨2, ![E, D]⟩ [1] [0] [0] 1)
    (wfG : GatherDims.WF ⟨2, ![nI, D]⟩ ⟨2, ![E, 1]⟩ ⟨2, ![E, D]⟩ [1] [0] [] [0] [] 1 ![1, D])
    (zA : FVec Ideal ⟨2, ![nO, nI]⟩ φ) (hzA : ∀ i, zA i = 0) (zS : FVec Ideal ⟨2, ![nO, D]⟩ φ) (hzS : ∀ i, zS i = 0)
    (idx2 : IVec ⟨2, ![E, 2]⟩ 32) (rows1 cols1 : IVec ⟨2, ![E, 1]⟩ 32)
    (h0 : ∀ e : Fin E, idx2 (ix2 e (0 : Fin 2)) = rows1 (ixP e))
    (h1 : ∀ e : Fin E, idx2 (ix2 e (1 : Fin 2)) = cols1 (ixP e))
    (hcols : ∀ e : Fin E, 0 ≤ (cols1 (ixP e)).toInt ∧ (cols1 (ixP e)).toInt < nI)
    (vals : FVec Ideal ⟨1, ![E]⟩ φ) (x : FVec Ideal ⟨2, ![nI, D]⟩ φ) (upd : FVec Ideal ⟨2, ![E, D]⟩ φ)
    (hupd : ∀ (e : Fin E) (d : Fin D),
      upd (ix2 e d) = vals (ix1 e) * Host.gather (rowGatherDims nI D E wfG) x cols1 (ix2 e d))
    (hvals : IsReal vals) (hx : IsReal x) (r : Fin nO) (d : Fin D) :
    ∑ c : Fin nI, Host.scatterAdd (denseDims nO nI E wfA) zA idx2 vals (ix2 r c) * x (ix2 c d)
      = Host.scatterAdd (segDims nO D E wfS) zS rows1 upd (ix2 r d) := by
  classical
  have hA : ∀ c : Fin nI, Host.scatterAdd (denseDims nO nI E wfA) zA idx2 vals (ix2 r c)
      = ∑ e ∈ Finset.univ.filter (fun e : Fin E =>
          (rows1 (ixP e)).toInt = (r.val : ℤ) ∧ (cols1 (ixP e)).toInt = (c.val : ℤ)), vals (ix1 e) := by
    intro c
    rw [denseScatter_apply, hzA, zero_add]
    refine Finset.sum_congr (Finset.filter_congr fun e _ => ?_) fun _ _ => rfl
    rw [h0 e, h1 e]
  have hL : ∑ c : Fin nI, Host.scatterAdd (denseDims nO nI E wfA) zA idx2 vals (ix2 r c) * x (ix2 c d)
      = ∑ c : Fin nI, (∑ e ∈ Finset.univ.filter (fun e : Fin E =>
          (rows1 (ixP e)).toInt = (r.val : ℤ) ∧ (cols1 (ixP e)).toInt = (c.val : ℤ)), vals (ix1 e)) * x (ix2 c d) :=
    Finset.sum_congr rfl fun c _ => by rw [hA c]
  have hX := sum_fiber_mul (fun e : Fin E => (rows1 (ixP e)).toInt = (r.val : ℤ)) (fun e => (cols1 (ixP e)).toInt) hcols
    (fun e => vals (ix1 e)) (fun c => x (ix2 c d)) (fun e => hvals _) (fun c => hx _)
  rw [hL, hX, segScatter_apply, hzS, zero_add]
  refine Finset.sum_congr rfl fun e _ => ?_
  rw [hupd e d, rowGather_apply_inRange wfG x cols1 e d (hcols e)]

theorem spmm_printed {φ : FTy} {nO nI D E : ℕ}
    (wfA : ScatterDims.WF ⟨2, ![nO, nI]⟩ ⟨2, ![E, 2]⟩ ⟨1, ![E]⟩ [] [0, 1] [0, 1] 1)
    (wfS : ScatterDims.WF ⟨2, ![nO, D]⟩ ⟨2, ![E, 1]⟩ ⟨2, ![E, D]⟩ [1] [0] [0] 1)
    (wfG : GatherDims.WF ⟨2, ![nI, D]⟩ ⟨2, ![E, 1]⟩ ⟨2, ![E, D]⟩ [1] [0] [] [0] [] 1 ![1, D])
    (hcat : Shape.Concatenates [⟨2, ![E, 1]⟩, ⟨2, ![E, 1]⟩] ⟨2, ![E, 2]⟩ 1)
    (hb : (⟨1, ![E]⟩ : Shape).BroadcastsInDim ⟨2, ![E, 1]⟩ ![0])
    (hbD : (⟨2, ![E, 1]⟩ : Shape).BroadcastsInDim ⟨2, ![E, D]⟩ ![0, 1])
    (zA : FVec Ideal ⟨2, ![nO, nI]⟩ φ) (hzA : ∀ i, zA i = 0) (zS : FVec Ideal ⟨2, ![nO, D]⟩ φ) (hzS : ∀ i, zS i = 0)
    (rows cols rowsN colsN colsN' : IVec ⟨1, ![E]⟩ 32)
    (hrN : ∀ i, rowsN i = normW nO (rows i)) (hcN : ∀ i, colsN i = normW nI (cols i))
    (hcN' : ∀ i, colsN' i = normW nI (cols i))
    (hrows : ∀ i, 0 ≤ (rows i).toInt ∧ (rows i).toInt < nO) (hcols : ∀ i, 0 ≤ (cols i).toInt ∧ (cols i).toInt < nI)
    (vals : FVec Ideal ⟨1, ![E]⟩ φ) (x : FVec Ideal ⟨2, ![nI, D]⟩ φ) (hvals : IsReal vals) (hx : IsReal x)
    (r : Fin nO) (d : Fin D) :
    ∑ c : Fin nI, Host.scatterAdd (denseDims nO nI E wfA) zA
        (concatenate ⟨2, ![E, 2]⟩ 1 [⟨⟨2, ![E, 1]⟩, broadcastInDim ⟨2, ![E, 1]⟩ ![0] hb rowsN⟩,
          ⟨⟨2, ![E, 1]⟩, broadcastInDim ⟨2, ![E, 1]⟩ ![0] hb colsN⟩] hcat) vals (ix2 r c) * x (ix2 c d)
      = Host.scatterAdd (segDims nO D E wfS) zS (broadcastInDim ⟨2, ![E, 1]⟩ ![0] hb rows)
          (mulf (broadcastInDim ⟨2, ![E, D]⟩ ![0, 1] hbD (broadcastInDim ⟨2, ![E, 1]⟩ ![0] hb vals))
            (Host.gather (rowGatherDims nI D E wfG) x (broadcastInDim ⟨2, ![E, 1]⟩ ![0] hb colsN'))) (ix2 r d) := by
  have eR : ∀ e : Fin E, rowsN (ix1 e) = rows (ix1 e) := fun e => by
    rw [hrN, normW_of_nonneg _ _ (hrows _).1]
  have eC : ∀ e : Fin E, colsN (ix1 e) = cols (ix1 e) := fun e => by
    rw [hcN, normW_of_nonneg _ _ (hcols _).1]
  have eC' : ∀ e : Fin E, colsN' (ix1 e) = cols (ix1 e) := fun e => by
    rw [hcN', normW_of_nonneg _ _ (hcols _).1]
  have h0 : ∀ e : Fin E,
      concatenate ⟨2, ![E, 2]⟩ 1 [⟨⟨2, ![E, 1]⟩, broadcastInDim ⟨2, ![E, 1]⟩ ![0] hb rowsN⟩,
        ⟨⟨2, ![E, 1]⟩, broadcastInDim ⟨2, ![E, 1]⟩ ![0] hb colsN⟩] hcat (ix2 e (0 : Fin 2))
        = broadcastInDim ⟨2, ![E, 1]⟩ ![0] hb rows (ixP e) := by
    intro e
    rw [concat_cols_apply0, col_apply, col_apply, eR]
  have h1 : ∀ e : Fin E,
      concatenate ⟨2, ![E, 2]⟩ 1 [⟨⟨2, ![E, 1]⟩, broadcastInDim ⟨2, ![E, 1]⟩ ![0] hb rowsN⟩,
        ⟨⟨2, ![E, 1]⟩, broadcastInDim ⟨2, ![E, 1]⟩ ![0] hb colsN⟩] hcat (ix2 e (1 : Fin 2))
        = broadcastInDim ⟨2, ![E, 1]⟩ ![0] hb colsN' (ixP e) := by
    intro e
    rw [concat_cols_apply1, col_apply, col_apply, eC, eC']
  have hc : ∀ e : Fin E, 0 ≤ (broadcastInDim ⟨2, ![E, 1]⟩ ![0] hb colsN' (ixP e)).toInt
      ∧ (broadcastInDim ⟨2, ![E, 1]⟩ ![0] hb colsN' (ixP e)).toInt < nI := by
    intro e
    rw [col_apply, eC']
    exact hcols _
  have hupd : ∀ (e : Fin E) (d' : Fin D),
      mulf (broadcastInDim ⟨2, ![E, D]⟩ ![0, 1] hbD (broadcastInDim ⟨2, ![E, 1]⟩ ![0] hb vals))
        (Host.gather (rowGatherDims nI D E wfG) x (broadcastInDim ⟨2, ![E, 1]⟩ ![0] hb colsN')) (ix2 e d')
      = vals (ix1 e) * Host.gather (rowGatherDims nI D E wfG) x (broadcastInDim ⟨2, ![E, 1]⟩ ![0] hb colsN') (ix2 e d') := by
    intro e d'
    rw [mulf_apply, rows_apply]
  have key := spmm_dense_eq_seg (φ := φ) wfA wfS wfG zA hzA zS hzS
    (concatenate ⟨2, ![E, 2]⟩ 1 [⟨⟨2, ![E, 1]⟩, broadcastInDim ⟨2, ![E, 1]⟩ ![0] hb rowsN⟩,
      ⟨⟨2, ![E, 1]⟩, broadcastInDim ⟨2, ![E, 1]⟩ ![0] hb colsN⟩] hcat)
    (broadcastInDim ⟨2, ![E, 1]⟩ ![0] hb rows) (broadcastInDim ⟨2, ![E, 1]⟩ ![0] hb colsN') h0 h1 hc vals x
    (mulf (broadcastInDim ⟨2, ![E, D]⟩ ![0, 1] hbD (broadcastInDim ⟨2, ![E, 1]⟩ ![0] hb vals))
      (Host.gather (rowGatherDims nI D E wfG) x (broadcastInDim ⟨2, ![E, 1]⟩ ![0] hb colsN')))
    hupd hvals hx r d
  exact key

end Cert.Spec

end
-- ==== Proof.Bridge.SpmmRes.lean ====
import proofs.«417009_j23742579212955_2_alg».proof.Proof.KI.R03
import proofs.«417009_j23742579212955_2_alg».proof.Proof.KI.R04
import proofs.«417009_j23742579212955_2_alg».proof.Proof.KI.R06
import proofs.«417009_j23742579212955_2_alg».proof.Proof.KI.R08
import proofs.«417009_j23742579212955_2_alg».proof.Proof.Bridge.RefStages
import proofs.«417009_j23742579212955_2_alg».proof.Proof.Spec.Spmm

noncomputable section

open scoped BigOperators

namespace Cert.Bridge

open Cert.KernelIdeal Cert.KernelIdeal.Facts₀ Idealize.ShloMosaic Idealize.ShloMosaic.ValueIdx

section Dense
variable {F : FTy → Type} [FloatOps F]

def DensePP (rows cols : IVec S320000 32) (vals : FVec F S320000 .f32) : FVec F S10000x10000 .f32 :=
  Host.scatterAdd scatter_S10000x10000_S320000x2_S320000_n_01_01_1
    (broadcastInDim S10000x10000 ![] bcast_S_S10000x10000 (constant S_ .f32 0x00000000#32))
    (concatenate S320000x2 1
      [⟨S320000x1, broadcastInDim S320000x1 ![0] bcast_S320000_S320000x1_0
        (select (cmpi .slt rows (broadcastInDim S320000 ![] bcast_S_S320000 (constantI S_ 32 0#32)))
          (addi rows (broadcastInDim S320000 ![] bcast_S_S320000 (constantI S_ 32 10000#32))) rows)⟩,
       ⟨S320000x1, broadcastInDim S320000x1 ![0] bcast_S320000_S320000x1_0
        (select (cmpi .slt cols (broadcastInDim S320000 ![] bcast_S_S320000 (constantI S_ 32 0#32)))
          (addi cols (broadcastInDim S320000 ![] bcast_S_S320000 (constantI S_ 32 10000#32))) cols)⟩]
      concatenates_S320000x1_S320000x1_S320000x2_d1)
    vals

def DenseUP (rows cols : IVec S400000 32) (vals : FVec F S400000 .f32) : FVec F S8000x10000 .f32 :=
  Host.scatterAdd scatter_S8000x10000_S400000x2_S400000_n_01_01_1
    (broadcastInDim S8000x10000 ![] bcast_S_S8000x10000 (constant S_ .f32 0x00000000#32))
    (concatenate S400000x2 1
      [⟨S400000x1, broadcastInDim S400000x1 ![0] bcast_S400000_S400000x1_0
        (select (cmpi .slt rows (broadcastInDim S400000 ![] bcast_S_S400000 (constantI S_ 32 0#32)))
          (addi rows (broadcastInDim S400000 ![] bcast_S_S400000 (constantI S_ 32 8000#32))) rows)⟩,
       ⟨S400000x1, broadcastInDim S400000x1 ![0] bcast_S400000_S400000x1_0
        (select (cmpi .slt cols (broadcastInDim S400000 ![] bcast_S_S400000 (constantI S_ 32 0#32)))
          (addi cols (broadcastInDim S400000 ![] bcast_S_S400000 (constantI S_ 32 10000#32))) cols)⟩]
      concatenates_S400000x1_S400000x1_S400000x2_d1)
    vals

def DensePU (rows cols : IVec S400000 32) (vals : FVec F S400000 .f32) : FVec F S10000x8000 .f32 :=
  Host.scatterAdd scatter_S10000x8000_S400000x2_S400000_n_01_01_1
    (broadcastInDim S10000x8000 ![] bcast_S_S10000x8000 (constant S_ .f32 0x00000000#32))
    (concatenate S400000x2 1
      [⟨S400000x1, broadcastInDim S400000x1 ![0] bcast_S400000_S400000x1_0
        (select (cmpi .slt rows (broadcastInDim S400000 ![] bcast_S_S400000 (constantI S_ 32 0#32)))
          (addi rows (broadcastInDim S400000 ![] bcast_S_S400000 (constantI S_ 32 10000#32))) rows)⟩,
       ⟨S400000x1, broadcastInDim S400000x1 ![0] bcast_S400000_S400000x1_0
        (select (cmpi .slt cols (broadcastInDim S400000 ![] bcast_S_S400000 (constantI S_ 32 0#32)))
          (addi cols (broadcastInDim S400000 ![] bcast_S_S400000 (constantI S_ 32 8000#32))) cols)⟩]
      concatenates_S400000x1_S400000x1_S400000x2_d1)
    vals

end Dense

section Value
open Cert.Spec (IsReal)

theorem densePP_mul (rows cols : IVec S320000 32) (vals : FVec Ideal S320000 .f32) (x : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x) (r : Fin 10000) (d : Fin 64) :
    ∑ k : Fin 10000, DensePP (F := Ideal) rows cols vals (ix2 r k) * x (ix2 k d) = SpmmPP rows cols vals x (ix2 r d) := by
  unfold DensePP SpmmPP
  exact Cert.Spec.spmm_printed (φ := .f32) (nO := 10000) (nI := 10000) (D := 64) (E := 320000) _ _ _ _ _ _
    _ (fun _ => Ideal.ofBits_zero_f32) _ (fun _ => Ideal.ofBits_zero_f32) rows cols _ _ _
    (fun _ => rfl) (fun _ => rfl) (fun _ => rfl) hrows hcols vals x hvals hx r d

theorem G3_3_spmm (rows cols : IVec S320000 32) (vals : FVec Ideal S320000 .f32) (x : FVec Ideal S10000x64 .f32)
    (R : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x) :
    Cert.KernelIdeal.Hand.G3_3 (F := Ideal) (truncf .bf16 (DensePP rows cols vals) bitsLt_bf16_f32) (truncf .bf16 x bitsLt_bf16_f32) R
      = addf (SpmmPP rows cols vals x) R := by
  funext i
  obtain ⟨r, d, rfl⟩ : ∃ (r : Fin 10000) (d : Fin 64), i = ix2 r d := ⟨i 0, i 1, eq_ix2 i⟩
  rw [Cert.KernelIdeal.Hand.G3_3_apply]
  show (∑ k : Fin 10000, DensePP rows cols vals (ix2 r k) * x (ix2 k d)) + R (ix2 r d)
    = SpmmPP rows cols vals x (ix2 r d) + R (ix2 r d)
  rw [densePP_mul rows cols vals x hrows hcols hvals hx r d]

theorem G4_3_spmm (rows cols : IVec S320000 32) (vals : FVec Ideal S320000 .f32) (x : FVec Ideal S10000x64 .f32)
    (R : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x) :
    Cert.KernelIdeal.Hand.G4_3 (F := Ideal) (truncf .bf16 (DensePP rows cols vals) bitsLt_bf16_f32) (truncf .bf16 x bitsLt_bf16_f32) R
      = addf (SpmmPP rows cols vals x) R := by
  funext i
  obtain ⟨r, d, rfl⟩ : ∃ (r : Fin 10000) (d : Fin 64), i = ix2 r d := ⟨i 0, i 1, eq_ix2 i⟩
  rw [Cert.KernelIdeal.Hand.G4_3_apply]
  show (∑ k : Fin 10000, DensePP rows cols vals (ix2 r k) * x (ix2 k d)) + R (ix2 r d)
    = SpmmPP rows cols vals x (ix2 r d) + R (ix2 r d)
  rw [densePP_mul rows cols vals x hrows hcols hvals hx r d]

theorem G6_3_spmm (rows cols : IVec S320000 32) (vals : FVec Ideal S320000 .f32) (x : FVec Ideal S10000x64 .f32)
    (R : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x) :
    Cert.KernelIdeal.Hand.G6_3 (F := Ideal) (truncf .bf16 (DensePP rows cols vals) bitsLt_bf16_f32) (truncf .bf16 x bitsLt_bf16_f32) R
      = addf (SpmmPP rows cols vals x) R := by
  funext i
  obtain ⟨r, d, rfl⟩ : ∃ (r : Fin 10000) (d : Fin 64), i = ix2 r d := ⟨i 0, i 1, eq_ix2 i⟩
  rw [Cert.KernelIdeal.Hand.G6_3_apply]
  show (∑ k : Fin 10000, DensePP rows cols vals (ix2 r k) * x (ix2 k d)) + R (ix2 r d)
    = SpmmPP rows cols vals x (ix2 r d) + R (ix2 r d)
  rw [densePP_mul rows cols vals x hrows hcols hvals hx r d]

theorem G8_3_spmm (rows cols : IVec S320000 32) (vals : FVec Ideal S320000 .f32) (x : FVec Ideal S10000x64 .f32)
    (R : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x) :
    Cert.KernelIdeal.Hand.G8_3 (F := Ideal) (truncf .bf16 (DensePP rows cols vals) bitsLt_bf16_f32) (truncf .bf16 x bitsLt_bf16_f32) R
      = addf (SpmmPP rows cols vals x) R := by
  funext i
  obtain ⟨r, d, rfl⟩ : ∃ (r : Fin 10000) (d : Fin 64), i = ix2 r d := ⟨i 0, i 1, eq_ix2 i⟩
  rw [Cert.KernelIdeal.Hand.G8_3_apply]
  show (∑ k : Fin 10000, DensePP rows cols vals (ix2 r k) * x (ix2 k d)) + R (ix2 r d)
    = SpmmPP rows cols vals x (ix2 r d) + R (ix2 r d)
  rw [densePP_mul rows cols vals x hrows hcols hvals hx r d]

end Value

end Cert.Bridge
-- ==== Proof.Bridge.L2.lean ====
import proofs.«417009_j23742579212955_2_alg».proof.Proof.KI.R09
import proofs.«417009_j23742579212955_2_alg».proof.Proof.KI.R10
import proofs.«417009_j23742579212955_2_alg».proof.Proof.KI.R14
import proofs.«417009_j23742579212955_2_alg».proof.Proof.KI.R16
import proofs.«417009_j23742579212955_2_alg».proof.Proof.Bridge.RefStages
import Idealize.ShloMosaic.Lib.IdealHost
import Idealize.ShloMosaic.Lib.ValueIdx
import Idealize.ShloMosaic.Lib.Pipeline.Value
import Idealize.ShloMosaic.PureOps.Ideal.Laws

noncomputable section

namespace Cert.Bridge

open Cert.ReferenceIdeal Cert.ReferenceIdeal.Gen Idealize.ShloMosaic Idealize.ShloMosaic.ValueIdx
open scoped BigOperators

theorem L2R_apply (x : FVec Ideal S10000x64 .f32) (r : Fin 10000) (d : Fin 64) :
    L2R x (ix2 r d) = Ideal.div (x (ix2 r d))
      (max (Ideal.sqrt (∑ k : Fin 64, x (ix2 r k) * x (ix2 r k))) (Ideal.ofBits .f32 0x2B8CBCCC#32)) := by
  unfold L2R
  rw [hostDivf_apply]
  rw [broadcastInDim_apply ![0, 1] bcast_S10000x1_S10000x64_0_1 _ (ix2 r d) (ix2 r (0 : Fin 1)) (by
    intro a; match a with
    | ⟨0, _⟩ => rfl
    | ⟨1, _⟩ => rfl)]
  rw [maximumf_apply, broadcastInDim_scalar_apply, constant_apply]
  rw [show ∀ (v : FVec Ideal S10000x1 .f32) (i : S10000x1.Idx), Host.sqrt v i = Ideal.sqrt (v i) from fun _ _ => rfl]
  rw [broadcastInDim_apply ![0] bcast_S10000_S10000x1_0 _ (ix2 r (0 : Fin 1)) (ix1 r) (by
    intro a; match a with
    | ⟨0, _⟩ => rfl)]
  have hred : S10000x64.Reduces [1] S10000 := by decide
  rw [hostReduceAdd_apply, Ideal.hostReduceAdd_single reducesTo_S10000x64_S10000_d1 hred, constant_apply,
    Ideal.ofBits_zero_f32, zero_add]
  refine congrArg (fun s => Ideal.div (x (ix2 r d)) (max (Ideal.sqrt s) (Ideal.ofBits .f32 0x2B8CBCCC#32))) ?_
  refine Finset.sum_congr rfl fun (k : Fin 64) _ => ?_
  have hl : hred.lift (ix1 r) k = ix2 r k := by
    funext a; apply Fin.ext
    match a with
    | ⟨0, _⟩ => rfl
    | ⟨1, _⟩ => rfl
  rw [hl]
  rfl

theorem G9_1_eq_L2R (x : FVec Ideal S10000x64 .f32) : Cert.KernelIdeal.Hand.G9_1 (F := Ideal) x = L2R (F := Ideal) x := by
  funext j
  obtain ⟨r, d, rfl⟩ : ∃ (r : Fin 10000) (d : Fin 64), j = ix2 r d := ⟨j 0, j 1, eq_ix2 j⟩
  rw [L2R_apply]
  exact Cert.KernelIdeal.Hand.G9_1_apply x r d

theorem G10_1_eq_L2R (x : FVec Ideal S10000x64 .f32) : Cert.KernelIdeal.Hand.G10_1 (F := Ideal) x = L2R (F := Ideal) x :=
  (show Cert.KernelIdeal.Hand.G10_1 (F := Ideal) x = Cert.KernelIdeal.Hand.G9_1 (F := Ideal) x from rfl).trans (G9_1_eq_L2R x)

theorem G14_1_eq_L2R (x : FVec Ideal S10000x64 .f32) : Cert.KernelIdeal.Hand.G14_1 (F := Ideal) x = L2R (F := Ideal) x :=
  (show Cert.KernelIdeal.Hand.G14_1 (F := Ideal) x = Cert.KernelIdeal.Hand.G9_1 (F := Ideal) x from rfl).trans (G9_1_eq_L2R x)

theorem L2R4096_apply (x : FVec Ideal S4096x64 .f32) (r : Fin 4096) (d : Fin 64) :
    L2R4096 x (ix2 r d) = Ideal.div (x (ix2 r d))
      (max (Ideal.sqrt (∑ k : Fin 64, x (ix2 r k) * x (ix2 r k))) (Ideal.ofBits .f32 0x2B8CBCCC#32)) := by
  unfold L2R4096
  rw [hostDivf_apply]
  rw [broadcastInDim_apply ![0, 1] bcast_S4096x1_S4096x64_0_1 _ (ix2 r d) (ix2 r (0 : Fin 1)) (by
    intro a; match a with
    | ⟨0, _⟩ => rfl
    | ⟨1, _⟩ => rfl)]
  rw [maximumf_apply, broadcastInDim_scalar_apply, constant_apply]
  rw [show ∀ (v : FVec Ideal S4096x1 .f32) (i : S4096x1.Idx), Host.sqrt v i = Ideal.sqrt (v i) from fun _ _ => rfl]
  rw [broadcastInDim_apply ![0] bcast_S4096_S4096x1_0 _ (ix2 r (0 : Fin 1)) (ix1 r) (by
    intro a; match a with
    | ⟨0, _⟩ => rfl)]
  have hred : S4096x64.Reduces [1] S4096 := by decide
  rw [hostReduceAdd_apply, Ideal.hostReduceAdd_single reducesTo_S4096x64_S4096_d1 hred, constant_apply,
    Ideal.ofBits_zero_f32, zero_add]
  refine congrArg (fun s => Ideal.div (x (ix2 r d)) (max (Ideal.sqrt s) (Ideal.ofBits .f32 0x2B8CBCCC#32))) ?_
  refine Finset.sum_congr rfl fun (k : Fin 64) _ => ?_
  have hl : hred.lift (ix1 r) k = ix2 r k := by
    funext a; apply Fin.ext
    match a with
    | ⟨0, _⟩ => rfl
    | ⟨1, _⟩ => rfl
  rw [hl]
  rfl

theorem G16_1_eq_L2R4096 (x : FVec Ideal S4096x64 .f32) : Cert.KernelIdeal.Hand.G16_1 (F := Ideal) x = L2R4096 (F := Ideal) x := by
  funext j
  obtain ⟨r, d, rfl⟩ : ∃ (r : Fin 4096) (d : Fin 64), j = ix2 r d := ⟨j 0, j 1, eq_ix2 j⟩
  rw [L2R4096_apply]
  exact Cert.KernelIdeal.Hand.G16_1_apply x r d

end Cert.Bridge

end
-- ==== Proof.Spec.Nce.lean ====
import Idealize.ShloMosaic.PureOps.Ideal
import Idealize.ShloMosaic.PureOps.Ideal.Laws
import Mathlib.Algebra.BigOperators.Fin
import Mathlib.Data.EReal.Operations
import proofs.«417009_j23742579212955_2_alg».proof.Proof.Spec.Real

noncomputable section

namespace Cert.Spec

open Idealize.ShloMosaic
open scoped BigOperators

theorem scale_eq (s : ℝ) :
    (s : EReal) * ((67108864 / 13421773 : ℝ) : EReal) = Ideal.div (s : EReal) (Ideal.ofBits .f32 0x3E4CCCCD#32) := by
  rw [ofBits_f32_fifth, Ideal.div_coe (by norm_num : (13421773 / 67108864 : ℝ) ≠ 0)]
  congr 2
  norm_num

theorem entry_eq {κ : Type*} (s : Finset κ) (x y : κ → ℝ) :
    Ideal.exp ((∑ d ∈ s, (x d : EReal) * (y d : EReal)) * ((67108864 / 13421773 : ℝ) : EReal))
      = Ideal.exp (Ideal.div (∑ d ∈ s, (x d : EReal) * (y d : EReal)) (Ideal.ofBits .f32 0x3E4CCCCD#32)) := by
  rw [sum_coe_mul_coe, scale_eq]

theorem entry_eq_swap {κ : Type*} (s : Finset κ) (x y : κ → ℝ) :
    Ideal.exp ((∑ d ∈ s, (x d : EReal) * (y d : EReal)) * ((67108864 / 13421773 : ℝ) : EReal))
      = Ideal.exp (Ideal.div (∑ d ∈ s, (y d : EReal) * (x d : EReal)) (Ideal.ofBits .f32 0x3E4CCCCD#32)) := by
  rw [entry_eq]
  congr 2
  exact Finset.sum_congr rfl (fun d _ => mul_comm _ _)

theorem row_sums_of_real {ι κ : Type*} (S : Finset ι) (s : Finset κ) (a b : ι → κ → EReal)
    (ha : ∀ r d, IsRealE (a r d)) (hb : ∀ q d, IsRealE (b q d)) (r : ι) :
    ∑ q ∈ S, Ideal.exp ((∑ d ∈ s, a r d * b q d) * ((67108864 / 13421773 : ℝ) : EReal))
      = ∑ q ∈ S, Ideal.exp (Ideal.div (∑ d ∈ s, a r d * b q d) (Ideal.ofBits .f32 0x3E4CCCCD#32)) := by
  choose a' ha' using ha
  choose b' hb' using hb
  refine Finset.sum_congr rfl (fun q _ => ?_)
  have h := entry_eq s (a' r) (b' q)
  simp only [← ha', ← hb'] at h
  exact h

theorem col_sums_of_real {ι κ : Type*} (S : Finset ι) (s : Finset κ) (a b : ι → κ → EReal)
    (ha : ∀ r d, IsRealE (a r d)) (hb : ∀ q d, IsRealE (b q d)) (q : ι) :
    ∑ r ∈ S, Ideal.exp ((∑ d ∈ s, a r d * b q d) * ((67108864 / 13421773 : ℝ) : EReal))
      = ∑ r ∈ S, Ideal.exp (Ideal.div (∑ d ∈ s, b q d * a r d) (Ideal.ofBits .f32 0x3E4CCCCD#32)) := by
  choose a' ha' using ha
  choose b' hb' using hb
  refine Finset.sum_congr rfl (fun r _ => ?_)
  have h := entry_eq_swap s (a' r) (b' q)
  simp only [← ha', ← hb'] at h
  exact h

theorem sum_tiles_range {M : Type*} [AddCommMonoid M] (w k : ℕ) (g : ℕ → M) :
    ∑ j ∈ Finset.range k, ∑ l ∈ Finset.range w, g (w * j + l) = ∑ q ∈ Finset.range (w * k), g q := by
  induction k with
  | zero => simp
  | succ k ih =>
    rw [Finset.sum_range_succ, ih, Nat.mul_succ, Finset.sum_range_add]

theorem sum_tiles {M : Type*} [AddCommMonoid M] (f : Fin 10000 → M) :
    ∑ j : Fin 25, ∑ l : Fin 400, f ⟨400 * j.val + l.val, by omega⟩ = ∑ q : Fin 10000, f q := by
  let g : ℕ → M := fun n => if h : n < 10000 then f ⟨n, h⟩ else 0
  have hg : ∀ q : Fin 10000, f q = g q.val := fun q => by simp [g]
  have hR : ∑ q : Fin 10000, f q = ∑ q ∈ Finset.range 10000, g q := by
    rw [← Fin.sum_univ_eq_sum_range]
    exact Finset.sum_congr rfl (fun q _ => hg q)
  have hL : ∑ j : Fin 25, ∑ l : Fin 400, f ⟨400 * j.val + l.val, by omega⟩
      = ∑ j ∈ Finset.range 25, ∑ l ∈ Finset.range 400, g (400 * j + l) := by
    rw [← Fin.sum_univ_eq_sum_range (fun j => ∑ l ∈ Finset.range 400, g (400 * j + l)) 25]
    refine Finset.sum_congr rfl (fun j _ => ?_)
    rw [← Fin.sum_univ_eq_sum_range (fun l => g (400 * j.val + l)) 400]
    exact Finset.sum_congr rfl (fun l _ => hg _)
  rw [hL, hR, sum_tiles_range 400 25 g]

theorem lit_zero_add (x : EReal) : Ideal.ofBits .f32 0x00000000#32 + x = x := by
  rw [ofBits_f32_zero, EReal.coe_zero, zero_add]

theorem mean3 (c0 m : ℝ) :
    Ideal.div ((((0 : EReal) + (c0 : EReal)) + ((m : EReal) + (c0 : EReal))) + ((m : EReal) + ((m : EReal) + (c0 : EReal))))
        (Ideal.ofBits .f32 0x40400000#32)
      = (c0 : EReal) + (m : EReal) * Ideal.ofBits .f32 0x3F800000#32 := by
  rw [ofBits_f32_three, ofBits_f32_one, EReal.coe_one, Ideal.div_coe (by norm_num : (3 : ℝ) ≠ 0), zero_add, mul_one]
  norm_cast
  ring

theorem mean3_lit (c0 m : ℝ) :
    Ideal.div (((Ideal.ofBits .f32 0x00000000#32 + (c0 : EReal)) + ((m : EReal) + (c0 : EReal)))
          + ((m : EReal) + ((m : EReal) + (c0 : EReal))))
        (Ideal.ofBits .f32 0x40400000#32)
      = (c0 : EReal) + (m : EReal) * Ideal.ofBits .f32 0x3F800000#32 := by
  rw [ofBits_f32_zero, EReal.coe_zero]
  exact mean3 c0 m

theorem mean3_of_real {c0 m : EReal} (hc : IsRealE c0) (hm : IsRealE m) :
    Ideal.div (((Ideal.ofBits .f32 0x00000000#32 + c0) + (m + c0)) + (m + (m + c0))) (Ideal.ofBits .f32 0x40400000#32)
      = c0 + m * Ideal.ofBits .f32 0x3F800000#32 := by
  obtain ⟨c, rfl⟩ := hc
  obtain ⟨r, rfl⟩ := hm
  exact mean3_lit c r

theorem mean3_acc (x0 x1 x2 d : EReal) :
    Ideal.div (((Ideal.ofBits .f32 0x00000000#32 + x0) + x1) + x2) d = Ideal.div ((x0 + x1) + x2) d := by
  rw [ofBits_f32_zero, EReal.coe_zero, zero_add]

end Cert.Spec

end
-- ==== Proof.Bridge.Loss.lean ====
import proofs.«417009_j23742579212955_2_alg».proof.KernelIdeal
import proofs.«417009_j23742579212955_2_alg».proof.Proof.Bridge.RefStages
import proofs.«417009_j23742579212955_2_alg».proof.Proof.Spec.Real
import proofs.«417009_j23742579212955_2_alg».proof.Proof.Spec.Nce
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.SL.Sem
open scoped BigOperators

variable {F : FTy → Type} [FloatOps F]

section K
open Cert.KernelIdeal Cert.KernelIdeal.Facts₀
variable [Cert.KernelIdeal.Facts₀]

def LossHalfK (e1 e2 : FVec F Cert.KernelIdeal.S10000x64 .f32) (neg : FVec F Cert.KernelIdeal.S10000 .f32) :
    FVec F Cert.KernelIdeal.S_ .f32 :=
  Host.divf
    (Host.reduceAdd
      (Host.negf (Host.log (addf
        (Host.divf
          (Host.exp (Host.divf
            (Host.reduceAdd (mulf e1 e2) (constant S_ .f32 0x00000000#32) reducesTo_S10000x64_S10000_d1 h_S_)
            (broadcastInDim S10000 ![] bcast_S_S10000 (constant S_ .f32 0x3E4CCCCD#32))))
          (addf neg (broadcastInDim S10000 ![] bcast_S_S10000 (constant S_ .f32 0x322BCC77#32))))
        (broadcastInDim S10000 ![] bcast_S_S10000 (constant S_ .f32 0x322BCC77#32)))))
      (constant S_ .f32 0x00000000#32) reducesTo_S10000_S_d0 h_S_)
    (constant S_ .f32 0x461C4000#32)

def Mean3K (x0 x1 x2 : FVec F Cert.KernelIdeal.S10000x64 .f32) : FVec F Cert.KernelIdeal.S10000x64 .f32 :=
  Host.divf (addf (addf x0 x1) x2) (broadcastInDim S10000x64 ![] bcast_S_S10000x64 (constant S_ .f32 0x40400000#32))

def ClosingK (c0 m : FVec F Cert.KernelIdeal.S10000x64 .f32) : FVec F Cert.KernelIdeal.S10000x64 .f32 :=
  addf c0 (mulf m (broadcastInDim S10000x64 ![] bcast_S_S10000x64 (constant S_ .f32 0x3F800000#32)))

def Slice0K (mcat : FVec F Cert.KernelIdeal.S8000x192 .f32) : FVec F Cert.KernelIdeal.S8000x64 .f32 :=
  extractStridedSlice S8000x64 ![0, 0] mcat slices_S8000x192_S8000x64_0_0
def Slice1K (mcat : FVec F Cert.KernelIdeal.S8000x192 .f32) : FVec F Cert.KernelIdeal.S8000x64 .f32 :=
  extractStridedSlice S8000x64 ![0, 64] mcat slices_S8000x192_S8000x64_0_64
def Slice2K (mcat : FVec F Cert.KernelIdeal.S8000x192 .f32) : FVec F Cert.KernelIdeal.S8000x64 .f32 :=
  extractStridedSlice S8000x64 ![0, 128] mcat slices_S8000x192_S8000x64_0_128

def MsgLinK (mcat : FVec F Cert.KernelIdeal.S8000x192 .f32) (fw : FVec F Cert.KernelIdeal.S448x64 .f32)
    (fb : FVec F Cert.KernelIdeal.S64 .f32) : FVec F Cert.KernelIdeal.S8000x64 .f32 :=
  addf
    (Host.dotGeneral dot_S8000x448_S448x64_S8000x64_1_0_0_1_n_n none
      (concatenate S8000x448 1 [⟨S8000x64, Slice0K mcat⟩, ⟨S8000x64, Slice1K mcat⟩, ⟨S8000x64, Slice2K mcat⟩,
        ⟨S8000x64, mulf (Slice0K mcat) (Slice1K mcat)⟩, ⟨S8000x64, mulf (Slice0K mcat) (Slice2K mcat)⟩,
        ⟨S8000x64, mulf (Slice1K mcat) (Slice2K mcat)⟩, ⟨S8000x64, mulf (mulf (Slice0K mcat) (Slice1K mcat)) (Slice2K mcat)⟩]
        concatenates_S8000x64_S8000x64_S8000x64_S8000x64_S8000x64_S8000x64_S8000x64_S8000x448_d1)
      fw)
    (broadcastInDim S8000x64 ![0, 1] bcast_S1x64_S8000x64_0_1 (broadcastInDim S1x64 ![1] bcast_S64_S1x64_1 fb))

def MsgK (mcat : FVec F Cert.KernelIdeal.S8000x192 .f32) (fw : FVec F Cert.KernelIdeal.S448x64 .f32)
    (fb : FVec F Cert.KernelIdeal.S64 .f32) (ue : FVec F Cert.KernelIdeal.S8000x64 .f32) :
    FVec F Cert.KernelIdeal.S8000x64 .f32 :=
  addf (addf (MsgLinK mcat fw fb) ue) (mulf (MsgLinK mcat fw fb) ue)

end K

section R
open Cert.ReferenceIdeal Cert.ReferenceIdeal.Facts₀
variable [Cert.ReferenceIdeal.Facts₀]

def NegR (e1 e2 : FVec F Cert.ReferenceIdeal.S10000x64 .f32) : FVec F Cert.ReferenceIdeal.S10000 .f32 :=
  Host.reduceAdd
    (Host.exp (Host.divf
      (Host.dotGeneral dot_S10000x64_S64x10000_S10000x10000_1_0_0_1_n_n none e1
        (transpose S64x10000 [1, 0] e2 transposes_S10000x64_S64x10000_1_0))
      (broadcastInDim S10000x10000 ![] bcast_S_S10000x10000 (constant S_ .f32 0x3E4CCCCD#32))))
    (constant S_ .f32 0x00000000#32) reducesTo_S10000x10000_S10000_d1 h_S_

theorem dotT_apply (e1 e2 : FVec Ideal Cert.ReferenceIdeal.S10000x64 .f32) (r q : Fin 10000) :
    Host.dotGeneral (F := Ideal) dot_S10000x64_S64x10000_S10000x10000_1_0_0_1_n_n none e1
        (transpose S64x10000 [1, 0] e2 transposes_S10000x64_S64x10000_1_0) (ValueIdx.ix2 r q)
      = ∑ d : Fin 64, e1 (ValueIdx.ix2 r d) * e2 (ValueIdx.ix2 q d) := by
  simp only [Host.dotGeneral]
  rw [Ideal.dotGeneral_apply,
    ← Equiv.sum_comp (ValueIdx.contrEquiv1 dot_S10000x64_S64x10000_S10000x10000_1_0_0_1_n_n 64 rfl rfl).symm]
  refine Finset.sum_congr rfl fun k _ => ?_
  have hk := ValueIdx.contrEquiv1_symm_val dot_S10000x64_S64x10000_S10000x10000_1_0_0_1_n_n 64 rfl rfl k
  have el : dot_S10000x64_S64x10000_S10000x10000_1_0_0_1_n_n.lhsIdx (ValueIdx.ix2 r q)
      ((ValueIdx.contrEquiv1 dot_S10000x64_S64x10000_S10000x10000_1_0_0_1_n_n 64 rfl rfl).symm k)
      = ValueIdx.ix2 r k := funext fun a => Fin.ext (by
    match a with
    | ⟨0, _⟩ => exact Cert.ReferenceIdeal.Read.lhs_main_v141_0 _ _
    | ⟨1, _⟩ => exact (Cert.ReferenceIdeal.Read.lhs_main_v141_1 _ _).trans hk)
  have er : dot_S10000x64_S64x10000_S10000x10000_1_0_0_1_n_n.rhsIdx (ValueIdx.ix2 r q)
      ((ValueIdx.contrEquiv1 dot_S10000x64_S64x10000_S10000x10000_1_0_0_1_n_n 64 rfl rfl).symm k)
      = ValueIdx.ix2 k q := funext fun a => Fin.ext (by
    match a with
    | ⟨0, _⟩ => exact (Cert.ReferenceIdeal.Read.rhs_main_v141_0 _ _).trans hk
    | ⟨1, _⟩ => exact Cert.ReferenceIdeal.Read.rhs_main_v141_1 _ _)
  rw [el, er]
  congr 1
  exact transpose_apply [1, 0] e2 transposes_S10000x64_S64x10000_1_0 (ValueIdx.ix2 k q) (ValueIdx.ix2 q k)
    (fun b => match b with
      | ⟨0, _⟩ => rfl
      | ⟨1, _⟩ => rfl)

theorem reduce_rows_apply (A : FVec Ideal Cert.ReferenceIdeal.S10000x10000 .f32) (r : Fin 10000) :
    Host.reduceAdd (F := Ideal) A (constant S_ .f32 0x00000000#32) reducesTo_S10000x10000_S10000_d1 h_S_ (ValueIdx.ix1 r)
      = Ideal.ofBits .f32 0x00000000#32 + ∑ q : Fin 10000, A (ValueIdx.ix2 r q) := by
  simp only [Host.reduceAdd, Ideal.hostReduceAdd_def]
  rw [Ideal.hostReduceAdd_single reducesTo_S10000x10000_S10000_d1 (by decide)]
  refine congrArg₂ (· + ·) rfl (Finset.sum_congr rfl fun k _ => ?_)
  exact congrArg A (funext fun a => Fin.ext (by match a with | ⟨0, _⟩ => rfl | ⟨1, _⟩ => rfl))

theorem negR_apply (e1 e2 : FVec Ideal Cert.ReferenceIdeal.S10000x64 .f32) (r : Fin 10000) :
    NegR (F := Ideal) e1 e2 (ValueIdx.ix1 r)
      = Ideal.ofBits .f32 0x00000000#32
        + ∑ q : Fin 10000, Ideal.exp (Ideal.div (∑ d : Fin 64, e1 (ValueIdx.ix2 r d) * e2 (ValueIdx.ix2 q d))
            (Ideal.ofBits .f32 0x3E4CCCCD#32)) := by
  unfold NegR
  rw [reduce_rows_apply]
  refine congrArg₂ (· + ·) rfl (Finset.sum_congr rfl fun q _ => ?_)
  show Ideal.exp (Ideal.div
      (Host.dotGeneral (F := Ideal) dot_S10000x64_S64x10000_S10000x10000_1_0_0_1_n_n none e1
        (transpose S64x10000 [1, 0] e2 transposes_S10000x64_S64x10000_1_0) (ValueIdx.ix2 r q))
      (broadcastInDim S10000x10000 ![] bcast_S_S10000x10000 (constant (F := Ideal) S_ .f32 0x3E4CCCCD#32) (ValueIdx.ix2 r q))) = _
  rw [dotT_apply, broadcastInDim_apply _ bcast_S_S10000x10000 _ (ValueIdx.ix2 r q) (fun a => a.elim0) (fun a => a.elim0)]
  rfl

end R

section Both
variable [Cert.KernelIdeal.Facts₀]

theorem lossHalfR_eq (e1 e2 : FVec F Cert.ReferenceIdeal.S10000x64 .f32) :
    LossHalfR e1 e2 = LossHalfK e1 e2 (NegR e1 e2) := rfl

theorem lossHalf_rows (e1 e2 : FVec Ideal Cert.ReferenceIdeal.S10000x64 .f32) (neg : FVec Ideal Cert.ReferenceIdeal.S10000 .f32)
    (h1 : Cert.Spec.IsReal e1) (h2 : Cert.Spec.IsReal e2)
    (hneg : ∀ r : Fin 10000, neg (ValueIdx.ix1 r)
      = ∑ q : Fin 10000, Ideal.exp ((∑ d : Fin 64, e1 (ValueIdx.ix2 r d) * e2 (ValueIdx.ix2 q d))
          * ((67108864 / 13421773 : ℝ) : EReal))) :
    LossHalfK (F := Ideal) e1 e2 neg = LossHalfR e1 e2 := by
  rw [lossHalfR_eq]
  congr 1
  funext i
  obtain ⟨r, rfl⟩ : ∃ r : Fin 10000, i = ValueIdx.ix1 r := ⟨i 0, ValueIdx.eq_ix1 i⟩
  rw [hneg, negR_apply, Cert.Spec.lit_zero_add]
  exact Cert.Spec.row_sums_of_real Finset.univ Finset.univ (fun r d => e1 (ValueIdx.ix2 r d)) (fun q d => e2 (ValueIdx.ix2 q d))
    (fun r d => h1 _) (fun q d => h2 _) r

theorem lossHalf_cols (e1 e2 : FVec Ideal Cert.ReferenceIdeal.S10000x64 .f32) (neg2 : FVec Ideal Cert.ReferenceIdeal.S10000 .f32)
    (h1 : Cert.Spec.IsReal e1) (h2 : Cert.Spec.IsReal e2)
    (hneg : ∀ q : Fin 10000, neg2 (ValueIdx.ix1 q)
      = ∑ r : Fin 10000, Ideal.exp ((∑ d : Fin 64, e1 (ValueIdx.ix2 r d) * e2 (ValueIdx.ix2 q d))
          * ((67108864 / 13421773 : ℝ) : EReal))) :
    LossHalfK (F := Ideal) e2 e1 neg2 = LossHalfR e2 e1 := by
  rw [lossHalfR_eq]
  congr 1
  funext i
  obtain ⟨q, rfl⟩ : ∃ q : Fin 10000, i = ValueIdx.ix1 q := ⟨i 0, ValueIdx.eq_ix1 i⟩
  rw [hneg, negR_apply, Cert.Spec.lit_zero_add]
  exact Cert.Spec.col_sums_of_real Finset.univ Finset.univ (fun r d => e1 (ValueIdx.ix2 r d)) (fun q d => e2 (ValueIdx.ix2 q d))
    (fun r d => h1 _) (fun q d => h2 _) q

theorem loss_eq (e1 e2 : FVec Ideal Cert.ReferenceIdeal.S10000x64 .f32) (neg1 neg2 : FVec Ideal Cert.ReferenceIdeal.S10000 .f32)
    (h1 : Cert.Spec.IsReal e1) (h2 : Cert.Spec.IsReal e2)
    (hneg1 : ∀ r : Fin 10000, neg1 (ValueIdx.ix1 r)
      = ∑ q : Fin 10000, Ideal.exp ((∑ d : Fin 64, e1 (ValueIdx.ix2 r d) * e2 (ValueIdx.ix2 q d))
          * ((67108864 / 13421773 : ℝ) : EReal)))
    (hneg2 : ∀ q : Fin 10000, neg2 (ValueIdx.ix1 q)
      = ∑ r : Fin 10000, Ideal.exp ((∑ d : Fin 64, e1 (ValueIdx.ix2 r d) * e2 (ValueIdx.ix2 q d))
          * ((67108864 / 13421773 : ℝ) : EReal))) :
    mulf (constant (F := Ideal) Cert.KernelIdeal.S_ .f32 0x3F000000#32) (addf (LossHalfK e1 e2 neg1) (LossHalfK e2 e1 neg2))
      = mulf (constant (F := Ideal) Cert.ReferenceIdeal.S_ .f32 0x3F000000#32) (addf (LossHalfR e1 e2) (LossHalfR e2 e1)) := by
  rw [lossHalf_rows e1 e2 neg1 h1 h2 hneg1, lossHalf_cols e1 e2 neg2 h1 h2 hneg2]

theorem msgK_eq (mcat : FVec F Cert.KernelIdeal.S8000x192 .f32) (fw : FVec F Cert.KernelIdeal.S448x64 .f32)
    (fb : FVec F Cert.KernelIdeal.S64 .f32) (ue : FVec F Cert.KernelIdeal.S8000x64 .f32) :
    MsgK mcat fw fb ue = MsgR (Slice0K mcat) (Slice1K mcat) (Slice2K mcat) fw fb ue := rfl

theorem mean3K_eq (x0 x1 x2 : FVec Ideal Cert.KernelIdeal.S10000x64 .f32) : Mean3K (F := Ideal) x0 x1 x2 = Mean3R x0 x1 x2 := by
  funext i
  show Ideal.div ((x0 i + x1 i) + x2 i) _ = Ideal.div (((_ + x0 i) + x1 i) + x2 i) _
  rw [broadcastInDim_apply _ Cert.ReferenceIdeal.Facts₀.bcast_S_S10000x64 (constant (F := Ideal) Cert.ReferenceIdeal.S_ .f32 0x00000000#32) i
    (fun a => a.elim0) (fun a => a.elim0)]
  exact (Cert.Spec.mean3_acc (x0 i) (x1 i) (x2 i) _).symm

theorem closingK_eq (c0 m : FVec Ideal Cert.KernelIdeal.S10000x64 .f32) (hc : Cert.Spec.IsReal c0) (hm : Cert.Spec.IsReal m) :
    ClosingK (F := Ideal) c0 m = Mean3R c0 (addf m c0) (addf m (addf m c0)) := by
  funext i
  show c0 i + m i * _ = Ideal.div (((_ + c0 i) + (m i + c0 i)) + (m i + (m i + c0 i))) _
  rw [broadcastInDim_apply _ Cert.KernelIdeal.Facts₀.bcast_S_S10000x64 (constant (F := Ideal) Cert.KernelIdeal.S_ .f32 0x3F800000#32) i
      (fun a => a.elim0) (fun a => a.elim0),
    broadcastInDim_apply _ Cert.ReferenceIdeal.Facts₀.bcast_S_S10000x64 (constant (F := Ideal) Cert.ReferenceIdeal.S_ .f32 0x00000000#32) i
      (fun a => a.elim0) (fun a => a.elim0),
    broadcastInDim_apply _ Cert.ReferenceIdeal.Facts₀.bcast_S_S10000x64 (constant (F := Ideal) Cert.ReferenceIdeal.S_ .f32 0x40400000#32) i
      (fun a => a.elim0) (fun a => a.elim0)]
  exact (Cert.Spec.mean3_of_real (hc i) (hm i)).symm

end Both

end Cert.Bridge

end
-- ==== Proof.Pre.lean ====
import proofs.«417009_j23742579212955_2_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreFacts

open Idealize.ShloMosaic Cert.Pre_finite_inputs Cert.Pre_finite_inputs.Gen

instance : Subsingleton S_.Idx := ⟨fun a b => funext fun d => d.elim0⟩

def FinAll {s : Shape} {axes : List (Fin s.rank)} (hb : S_.BroadcastsInDim s (![] : Fin 0 → Fin s.rank))
    (hr : s.ReducesTo axes S_) (h0 : 0 < S_.numel) (x : FVec Ideal s .f32) : Prop :=
  Host.reduce IntOp.andi (cmpf .olt (Host.absf x) (broadcastInDim s ![] hb (constant S_ .f32 0x7F800000#32)))
    (constantI S_ 1 1#1) hr h0 ValueIdx.ix0 = 1#1

def RngAll {s : Shape} {axes : List (Fin s.rank)} (hb : S_.BroadcastsInDim s (![] : Fin 0 → Fin s.rank))
    (hr : s.ReducesTo axes S_) (h0 : 0 < S_.numel) (n : BitVec 32) (x : IVec s 32) : Prop :=
  Host.reduce IntOp.andi
    (andi (cmpi .sge x (broadcastInDim s ![] hb (constantI S_ 32 0#32))) (cmpi .slt x (broadcastInDim s ![] hb (constantI S_ 32 n))))
    (constantI S_ 1 1#1) hr h0 ValueIdx.ix0 = 1#1

theorem real_of_finAll {s : Shape} {axes : List (Fin s.rank)} {hb : S_.BroadcastsInDim s (![] : Fin 0 → Fin s.rank)}
    {hr : s.ReducesTo axes S_} {h0 : 0 < S_.numel} {x : FVec Ideal s .f32} (e : FinAll hb hr h0 x) (i : s.Idx) :
    ∃ r : ℝ, x i = (r : EReal) := by
  have hi := Host.reduce_andi_all _ _ hr h0 _ e i
  have top : Ideal.ofBits .f32 0x7F800000#32 = ⊤ := by simp [Ideal.ofBits, Ideal.ieee]
  simp only [cmpf, Host.absf, broadcastInDim, constant] at hi
  change Ideal.cmp .olt (max (x i) (-(x i))) (Ideal.ofBits .f32 0x7F800000#32) = 1#1 at hi
  rw [top] at hi
  have hlt : max (x i) (-(x i)) < ⊤ := by
    simpa only [Ideal.cmp, StableHlo.Predicate.ofBool_eq_one_iff, decide_eq_true_eq] using hi
  generalize x i = y at hlt ⊢
  induction y using EReal.rec with
  | bot => exact absurd hlt (by simp)
  | coe r => exact ⟨r, rfl⟩
  | top => exact absurd hlt (by simp)

theorem range_of_rngAll {s : Shape} {axes : List (Fin s.rank)} {hb : S_.BroadcastsInDim s (![] : Fin 0 → Fin s.rank)}
    {hr : s.ReducesTo axes S_} {h0 : 0 < S_.numel} {n : BitVec 32} {x : IVec s 32} (e : RngAll hb hr h0 n x) (i : s.Idx) :
    0 ≤ (x i).toInt ∧ (x i).toInt < n.toInt := by
  have hi := Host.reduce_andi_all _ _ hr h0 _ e i
  simp only [andi, cmpi, broadcastInDim, constantI] at hi
  rw [IntOp.andi_eq_one, IntOp.cmpi_sge, IntOp.cmpi_slt] at hi
  exact ⟨by simpa using hi.1, hi.2⟩

theorem toInt_10000 : (10000#32 : BitVec 32).toInt = 10000 := by decide
theorem toInt_8000 : (8000#32 : BitVec 32).toInt = 8000 := by decide

theorem andi_ix0 (x y : IVec S_ 1) : andi x y ValueIdx.ix0 = 1#1 ↔ x ValueIdx.ix0 = 1#1 ∧ y ValueIdx.ix0 = 1#1 :=
  IntOp.andi_eq_one

variable {a0 : FVec Ideal S10001x64 .f32} {a1 : FVec Ideal S8000x64 .f32} {a2 : FVec Ideal S64x64 .f32}
  {a3 : FVec Ideal S1x64 .f32} {a4 : FVec Ideal S64x64 .f32} {a5 : FVec Ideal S1x64 .f32} {a6 : FVec Ideal S64x64 .f32}
  {a7 : FVec Ideal S1x64 .f32} {a8 : FVec Ideal S448x64 .f32} {a9 : FVec Ideal S64 .f32} {a10 : FVec Ideal S320000 .f32}
  {a11 : FVec Ideal S320000 .f32} {a12 : FVec Ideal S320000 .f32} {a13 : FVec Ideal S400000 .f32}
  {a14 : FVec Ideal S400000 .f32} {a15 : IVec S320000 32} {a16 : IVec S320000 32} {a17 : IVec S320000 32}
  {a18 : IVec S320000 32} {a19 : IVec S320000 32} {a20 : IVec S320000 32} {a21 : IVec S400000 32}
  {a22 : IVec S400000 32} {a23 : IVec S400000 32} {a24 : IVec S400000 32} {a25 : IVec S4096 32}

structure Split (a0 : FVec Ideal S10001x64 .f32) (a1 : FVec Ideal S8000x64 .f32) (a2 : FVec Ideal S64x64 .f32)
    (a3 : FVec Ideal S1x64 .f32) (a4 : FVec Ideal S64x64 .f32) (a5 : FVec Ideal S1x64 .f32) (a6 : FVec Ideal S64x64 .f32)
    (a7 : FVec Ideal S1x64 .f32) (a8 : FVec Ideal S448x64 .f32) (a9 : FVec Ideal S64 .f32) (a10 : FVec Ideal S320000 .f32)
    (a11 : FVec Ideal S320000 .f32) (a12 : FVec Ideal S320000 .f32) (a13 : FVec Ideal S400000 .f32)
    (a14 : FVec Ideal S400000 .f32) (a15 : IVec S320000 32) (a16 : IVec S320000 32) (a17 : IVec S320000 32)
    (a18 : IVec S320000 32) (a19 : IVec S320000 32) (a20 : IVec S320000 32) (a21 : IVec S400000 32)
    (a22 : IVec S400000 32) (a23 : IVec S400000 32) (a24 : IVec S400000 32) : Prop where
  f0 : FinAll bcast_S_S10001x64 reducesTo_S10001x64_S_d0_1 h_S_ a0
  f1 : FinAll bcast_S_S8000x64 reducesTo_S8000x64_S_d0_1 h_S_ a1
  f2 : FinAll bcast_S_S64x64 reducesTo_S64x64_S_d0_1 h_S_ a2
  f3 : FinAll bcast_S_S1x64 reducesTo_S1x64_S_d0_1 h_S_ a3
  f4 : FinAll bcast_S_S64x64 reducesTo_S64x64_S_d0_1 h_S_ a4
  f5 : FinAll bcast_S_S1x64 reducesTo_S1x64_S_d0_1 h_S_ a5
  f6 : FinAll bcast_S_S64x64 reducesTo_S64x64_S_d0_1 h_S_ a6
  f7 : FinAll bcast_S_S1x64 reducesTo_S1x64_S_d0_1 h_S_ a7
  f8 : FinAll bcast_S_S448x64 reducesTo_S448x64_S_d0_1 h_S_ a8
  f9 : FinAll bcast_S_S64 reducesTo_S64_S_d0 h_S_ a9
  f10 : FinAll bcast_S_S320000 reducesTo_S320000_S_d0 h_S_ a10
  f11 : FinAll bcast_S_S320000 reducesTo_S320000_S_d0 h_S_ a11
  f12 : FinAll bcast_S_S320000 reducesTo_S320000_S_d0 h_S_ a12
  f13 : FinAll bcast_S_S400000 reducesTo_S400000_S_d0 h_S_ a13
  f14 : FinAll bcast_S_S400000 reducesTo_S400000_S_d0 h_S_ a14
  r15 : RngAll bcast_S_S320000 reducesTo_S320000_S_d0 h_S_ 10000#32 a15
  r16 : RngAll bcast_S_S320000 reducesTo_S320000_S_d0 h_S_ 10000#32 a16
  r17 : RngAll bcast_S_S320000 reducesTo_S320000_S_d0 h_S_ 10000#32 a17
  r18 : RngAll bcast_S_S320000 reducesTo_S320000_S_d0 h_S_ 10000#32 a18
  r19 : RngAll bcast_S_S320000 reducesTo_S320000_S_d0 h_S_ 10000#32 a19
  r20 : RngAll bcast_S_S320000 reducesTo_S320000_S_d0 h_S_ 10000#32 a20
  r21 : RngAll bcast_S_S400000 reducesTo_S400000_S_d0 h_S_ 8000#32 a21
  r22 : RngAll bcast_S_S400000 reducesTo_S400000_S_d0 h_S_ 10000#32 a22
  r23 : RngAll bcast_S_S400000 reducesTo_S400000_S_d0 h_S_ 10000#32 a23
  r24 : RngAll bcast_S_S400000 reducesTo_S400000_S_d0 h_S_ 8000#32 a24

variable (h : Cert.Pre_finite_inputs.fn (F := Ideal) a0 a1 a2 a3 a4 a5 a6 a7 a8 a9 a10 a11 a12 a13 a14 a15 a16 a17 a18 a19 a20
  a21 a22 a23 a24 a25 = (fun _ => 1#1))
include h

theorem split : Split a0 a1 a2 a3 a4 a5 a6 a7 a8 a9 a10 a11 a12 a13 a14 a15 a16 a17 a18 a19 a20 a21 a22 a23 a24 := by
  have e := congrFun h ValueIdx.ix0
  dsimp only [fn, fn_part1, fn_part2, fn_part3, fn_part4, fn_part5, fn_part6, fn_part7, fn_part8] at e
  simp only [andi_ix0] at e
  obtain ⟨⟨⟨⟨⟨⟨⟨⟨⟨⟨⟨⟨⟨⟨⟨⟨⟨⟨⟨⟨⟨⟨⟨⟨p0, p1⟩, p2⟩, p3⟩, p4⟩, p5⟩, p6⟩, p7⟩, p8⟩, p9⟩, p10⟩, p11⟩, p12⟩, p13⟩, p14⟩, p15⟩, p16⟩,
    p17⟩, p18⟩, p19⟩, p20⟩, p21⟩, p22⟩, p23⟩, p24⟩ := e
  exact ⟨p0, p1, p2, p3, p4, p5, p6, p7, p8, p9, p10, p11, p12, p13, p14, p15, p16, p17, p18, p19, p20, p21, p22, p23, p24⟩

theorem real_arg0 : ∀ i, ∃ r : ℝ, a0 i = (r : EReal) := real_of_finAll (split h).f0
theorem real_arg1 : ∀ i, ∃ r : ℝ, a1 i = (r : EReal) := real_of_finAll (split h).f1
theorem real_arg2 : ∀ i, ∃ r : ℝ, a2 i = (r : EReal) := real_of_finAll (split h).f2
theorem real_arg3 : ∀ i, ∃ r : ℝ, a3 i = (r : EReal) := real_of_finAll (split h).f3
theorem real_arg4 : ∀ i, ∃ r : ℝ, a4 i = (r : EReal) := real_of_finAll (split h).f4
theorem real_arg5 : ∀ i, ∃ r : ℝ, a5 i = (r : EReal) := real_of_finAll (split h).f5
theorem real_arg6 : ∀ i, ∃ r : ℝ, a6 i = (r : EReal) := real_of_finAll (split h).f6
theorem real_arg7 : ∀ i, ∃ r : ℝ, a7 i = (r : EReal) := real_of_finAll (split h).f7
theorem real_arg8 : ∀ i, ∃ r : ℝ, a8 i = (r : EReal) := real_of_finAll (split h).f8
theorem real_arg9 : ∀ i, ∃ r : ℝ, a9 i = (r : EReal) := real_of_finAll (split h).f9
theorem real_arg10 : ∀ i, ∃ r : ℝ, a10 i = (r : EReal) := real_of_finAll (split h).f10
theorem real_arg11 : ∀ i, ∃ r : ℝ, a11 i = (r : EReal) := real_of_finAll (split h).f11
theorem real_arg12 : ∀ i, ∃ r : ℝ, a12 i = (r : EReal) := real_of_finAll (split h).f12
theorem real_arg13 : ∀ i, ∃ r : ℝ, a13 i = (r : EReal) := real_of_finAll (split h).f13
theorem real_arg14 : ∀ i, ∃ r : ℝ, a14 i = (r : EReal) := real_of_finAll (split h).f14

theorem range_arg15 : ∀ i, 0 ≤ (a15 i).toInt ∧ (a15 i).toInt < 10000 := fun i => toInt_10000 ▸ range_of_rngAll (split h).r15 i
theorem range_arg16 : ∀ i, 0 ≤ (a16 i).toInt ∧ (a16 i).toInt < 10000 := fun i => toInt_10000 ▸ range_of_rngAll (split h).r16 i
theorem range_arg17 : ∀ i, 0 ≤ (a17 i).toInt ∧ (a17 i).toInt < 10000 := fun i => toInt_10000 ▸ range_of_rngAll (split h).r17 i
theorem range_arg18 : ∀ i, 0 ≤ (a18 i).toInt ∧ (a18 i).toInt < 10000 := fun i => toInt_10000 ▸ range_of_rngAll (split h).r18 i
theorem range_arg19 : ∀ i, 0 ≤ (a19 i).toInt ∧ (a19 i).toInt < 10000 := fun i => toInt_10000 ▸ range_of_rngAll (split h).r19 i
theorem range_arg20 : ∀ i, 0 ≤ (a20 i).toInt ∧ (a20 i).toInt < 10000 := fun i => toInt_10000 ▸ range_of_rngAll (split h).r20 i
theorem range_arg21 : ∀ i, 0 ≤ (a21 i).toInt ∧ (a21 i).toInt < 8000 := fun i => toInt_8000 ▸ range_of_rngAll (split h).r21 i
theorem range_arg22 : ∀ i, 0 ≤ (a22 i).toInt ∧ (a22 i).toInt < 10000 := fun i => toInt_10000 ▸ range_of_rngAll (split h).r22 i
theorem range_arg23 : ∀ i, 0 ≤ (a23 i).toInt ∧ (a23 i).toInt < 10000 := fun i => toInt_10000 ▸ range_of_rngAll (split h).r23 i
theorem range_arg24 : ∀ i, 0 ≤ (a24 i).toInt ∧ (a24 i).toInt < 8000 := fun i => toInt_8000 ▸ range_of_rngAll (split h).r24 i

end Cert.PreFacts

end
-- ==== Proof.Bridge.Top.lean ====
import proofs.«417009_j23742579212955_2_alg».proof.Proof.Bridge.KEqs
import proofs.«417009_j23742579212955_2_alg».proof.Proof.Bridge.RefStages
import proofs.«417009_j23742579212955_2_alg».proof.Proof.Bridge.RefReal
import proofs.«417009_j23742579212955_2_alg».proof.Proof.Bridge.SpmmRes
import proofs.«417009_j23742579212955_2_alg».proof.Proof.Bridge.L2
import proofs.«417009_j23742579212955_2_alg».proof.Proof.Bridge.Loss
import proofs.«417009_j23742579212955_2_alg».proof.Proof.Pre

set_option maxRecDepth 16384

noncomputable section

open scoped BigOperators

namespace Cert.Bridge

open Cert.KernelIdeal Cert.ReferenceIdeal.Read Idealize.ShloMosaic Idealize.ShloMosaic.TcCoe Idealize.SL.Sem
open Cert.Spec (IsReal)
open Cert.KernelIdeal.Facts₀ (bitsLt_bf16_f32)

structure Ctx (G : RegionFns) (X : Valuation τ sig (Elt Ideal))
    (a0 : FVec Ideal S10001x64 .f32) (a1 : FVec Ideal S8000x64 .f32) (a2 : FVec Ideal S64x64 .f32) (a3 : FVec Ideal S1x64 .f32)
    (a4 : FVec Ideal S64x64 .f32) (a5 : FVec Ideal S1x64 .f32) (a6 : FVec Ideal S64x64 .f32) (a7 : FVec Ideal S1x64 .f32)
    (a8 : FVec Ideal S448x64 .f32) (a9 : FVec Ideal S64 .f32) (a10 a11 a12 : FVec Ideal S320000 .f32)
    (a13 a14 : FVec Ideal S400000 .f32) (a15 a16 a17 a18 a19 a20 : IVec S320000 32) (a21 a22 a23 a24 : IVec S400000 32)
    (a25 : IVec S4096 32) : Prop where
  k : KEqs G X
  arg0 : X (Proc.devRef .tc main_arg0) = a0
  arg1 : X (Proc.devRef .tc main_arg1) = a1
  arg2 : X (Proc.devRef .tc main_arg2) = a2
  arg3 : X (Proc.devRef .tc main_arg3) = a3
  arg4 : X (Proc.devRef .tc main_arg4) = a4
  arg5 : X (Proc.devRef .tc main_arg5) = a5
  arg6 : X (Proc.devRef .tc main_arg6) = a6
  arg7 : X (Proc.devRef .tc main_arg7) = a7
  arg8 : X (Proc.devRef .tc main_arg8) = a8
  arg9 : X (Proc.devRef .tc main_arg9) = a9
  arg10 : X (Proc.devRef .tc main_arg10) = a10
  arg11 : X (Proc.devRef .tc main_arg11) = a11
  arg12 : X (Proc.devRef .tc main_arg12) = a12
  arg13 : X (Proc.devRef .tc main_arg13) = a13
  arg14 : X (Proc.devRef .tc main_arg14) = a14
  arg15 : X (Proc.devRef .tc main_arg15) = a15
  arg16 : X (Proc.devRef .tc main_arg16) = a16
  arg17 : X (Proc.devRef .tc main_arg17) = a17
  arg18 : X (Proc.devRef .tc main_arg18) = a18
  arg19 : X (Proc.devRef .tc main_arg19) = a19
  arg20 : X (Proc.devRef .tc main_arg20) = a20
  arg21 : X (Proc.devRef .tc main_arg21) = a21
  arg22 : X (Proc.devRef .tc main_arg22) = a22
  arg23 : X (Proc.devRef .tc main_arg23) = a23
  arg24 : X (Proc.devRef .tc main_arg24) = a24
  arg25 : X (Proc.devRef .tc main_arg25) = a25
  pre : Cert.Pre_finite_inputs.fn (F := Ideal) a0 a1 a2 a3 a4 a5 a6 a7 a8 a9 a10 a11 a12 a13 a14 a15 a16 a17 a18 a19 a20 a21 a22
    a23 a24 a25 = (fun _ => 1#1)
  g0 : ∀ pe w b, G.G0_3 pe w b = GateR pe w b
  g1 : ∀ pe w b, G.G1_3 pe w b = GateR pe w b
  g2 : ∀ pe w b, G.G2_3 pe w b = GateR pe w b
  g5 : ∀ (rows cols : IVec S320000 32) (vals : FVec Ideal S320000 .f32) (x : FVec Ideal S10000x64 .f32),
    (∀ i, 0 ≤ (rows i).toInt ∧ (rows i).toInt < 10000) → (∀ i, 0 ≤ (cols i).toInt ∧ (cols i).toInt < 10000) →
    IsReal vals → IsReal x →
    G.G5_2 (truncf .bf16 (DensePP rows cols vals) bitsLt_bf16_f32) (truncf .bf16 x bitsLt_bf16_f32) = SpmmPP rows cols vals x
  g7 : ∀ (rows cols : IVec S320000 32) (vals : FVec Ideal S320000 .f32) (x : FVec Ideal S10000x64 .f32),
    (∀ i, 0 ≤ (rows i).toInt ∧ (rows i).toInt < 10000) → (∀ i, 0 ≤ (cols i).toInt ∧ (cols i).toInt < 10000) →
    IsReal vals → IsReal x →
    G.G7_2 (truncf .bf16 (DensePP rows cols vals) bitsLt_bf16_f32) (truncf .bf16 x bitsLt_bf16_f32) = SpmmPP rows cols vals x
  g11_2 : ∀ (A B : FVec Ideal S10000x64 .bf16), IsReal A → IsReal B → ∀ r : Fin 10000,
    G.G11_2 (Named.named (F := Ideal) κ "inv_temp" (φ := .f32) 0x40A00000#32) A B (ValueIdx.ix2 r (0 : Fin 1))
      = ∑ q : Fin 10000, Ideal.exp ((∑ d : Fin 64, A (ValueIdx.ix2 r d) * B (ValueIdx.ix2 q d))
          * ((67108864 / 13421773 : ℝ) : EReal))
  g11_3 : ∀ (A B : FVec Ideal S10000x64 .bf16), IsReal A → IsReal B → ∀ q : Fin 10000,
    G.G11_3 (Named.named (F := Ideal) κ "inv_temp" (φ := .f32) 0x40A00000#32) A B (ValueIdx.ix2 q (0 : Fin 1))
      = ∑ r : Fin 10000, Ideal.exp ((∑ d : Fin 64, A (ValueIdx.ix2 r d) * B (ValueIdx.ix2 q d))
          * ((67108864 / 13421773 : ℝ) : EReal))

namespace Top1

variable {G : RegionFns} {X : Valuation τ sig (Elt Ideal)}
  {a0 : FVec Ideal S10001x64 .f32} {a1 : FVec Ideal S8000x64 .f32} {a2 : FVec Ideal S64x64 .f32} {a3 : FVec Ideal S1x64 .f32}
  {a4 : FVec Ideal S64x64 .f32} {a5 : FVec Ideal S1x64 .f32} {a6 : FVec Ideal S64x64 .f32} {a7 : FVec Ideal S1x64 .f32}
  {a8 : FVec Ideal S448x64 .f32} {a9 : FVec Ideal S64 .f32} {a10 a11 a12 : FVec Ideal S320000 .f32}
  {a13 a14 : FVec Ideal S400000 .f32} {a15 a16 a17 a18 a19 a20 : IVec S320000 32} {a21 a22 a23 a24 : IVec S400000 32}
  {a25 : IVec S4096 32}
  (c : Ctx G X a0 a1 a2 a3 a4 a5 a6 a7 a8 a9 a10 a11 a12 a13 a14 a15 a16 a17 a18 a19 a20 a21 a22 a23 a24 a25)
include c

local notation "V0" => val_main_v0 (F := Ideal) a0
local notation "V10" => val_main_v10 (F := Ideal) a0 a2 a3
local notation "V20" => val_main_v20 (F := Ideal) a0 a4 a5
local notation "V30" => val_main_v30 (F := Ideal) a0 a6 a7
local notation "V44" => val_main_v44 (F := Ideal) a0 a2 a3 a10 a15 a16
local notation "V58" => val_main_v58 (F := Ideal) a0 a2 a3 a10 a15 a16
local notation "V64" => val_main_v64 (F := Ideal) a0 a2 a3 a10 a15 a16
local notation "V77" => val_main_v77 (F := Ideal) a0 a4 a5 a12 a19 a20
local notation "V91" => val_main_v91 (F := Ideal) a0 a4 a5 a11 a12 a17 a18 a19 a20
local notation "V104" => val_main_v104 (F := Ideal) a0 a4 a5 a11 a12 a17 a18 a19 a20
local notation "V118" => val_main_v118 (F := Ideal) a0 a4 a5 a11 a12 a17 a18 a19 a20
local notation "V124" => val_main_v124 (F := Ideal) a0 a4 a5 a11 a12 a17 a18 a19 a20
local notation "V129" => val_main_v129 (F := Ideal) a0 a2 a3 a10 a15 a16
local notation "V134" => val_main_v134 (F := Ideal) a0 a4 a5 a11 a12 a17 a18 a19 a20
local notation "V176" => val_main_v176 (F := Ideal) a0 a2 a3 a4 a5 a10 a11 a12 a15 a16 a17 a18 a19 a20

theorem x0 : X (Proc.devRef .tc main_v0) = V0 := by
  rw [c.k.v0, c.arg0]; rfl

theorem r0 : IsReal V0 :=
  Cert.Spec.isReal_extractStridedSlice _ _ _ (Cert.PreFacts.real_arg0 c.pre)

theorem x1 : X (Proc.devRef .tc main_v1) = V10 := by
  rw [c.k.v1, x0 c, c.arg2, c.arg3, c.g0, v10_eq]

theorem x2 : X (Proc.devRef .tc main_v2) = V20 := by
  rw [c.k.v2, x0 c, c.arg4, c.arg5, c.g1, v20_eq]

theorem x3 : X (Proc.devRef .tc main_v3) = V30 := by
  rw [c.k.v3, x0 c, c.arg6, c.arg7, c.g2, v30_eq]

theorem r10 : IsReal V10 := by
  rw [v10_eq]; exact isReal_GateR (r0 c) (Cert.PreFacts.real_arg2 c.pre) (Cert.PreFacts.real_arg3 c.pre)

theorem r20 : IsReal V20 := by
  rw [v20_eq]; exact isReal_GateR (r0 c) (Cert.PreFacts.real_arg4 c.pre) (Cert.PreFacts.real_arg5 c.pre)

theorem r30 : IsReal V30 := by
  rw [v30_eq]; exact isReal_GateR (r0 c) (Cert.PreFacts.real_arg6 c.pre) (Cert.PreFacts.real_arg7 c.pre)

theorem x19 : X (Proc.devRef .tc main_v19) = truncf (F := Ideal) .bf16 (DensePP a15 a16 a10) bitsLt_bf16_f32 := by
  rw [c.k.v19, c.k.v18, c.k.v17, c.k.v15, c.k.v16, c.k.v9, c.k.v14, c.k.v6, c.k.v8, c.k.v11, c.k.v13, c.k.v5, c.k.v7, c.k.v10,
    c.k.v12, c.k.c, c.k.c_0, c.k.c_1, c.k.c_2, c.k.v4, c.k.cst, c.arg15, c.arg16, c.arg10]
  rfl

theorem x35 : X (Proc.devRef .tc main_v35) = truncf (F := Ideal) .bf16 (DensePP a19 a20 a12) bitsLt_bf16_f32 := by
  rw [c.k.v35, c.k.v34, c.k.v33, c.k.v31, c.k.v32, c.k.v25, c.k.v30, c.k.v22, c.k.v24, c.k.v27, c.k.v29, c.k.v21, c.k.v23,
    c.k.v26, c.k.v28, c.k.c_4, c.k.c_5, c.k.c_6, c.k.c_7, c.k.v20, c.k.cst_3, c.arg19, c.arg20, c.arg12]
  rfl

theorem x51 : X (Proc.devRef .tc main_v51) = truncf (F := Ideal) .bf16 (DensePP a17 a18 a11) bitsLt_bf16_f32 := by
  rw [c.k.v51, c.k.v50, c.k.v49, c.k.v47, c.k.v48, c.k.v41, c.k.v46, c.k.v38, c.k.v40, c.k.v43, c.k.v45, c.k.v37, c.k.v39,
    c.k.v42, c.k.v44, c.k.c_9, c.k.c_10, c.k.c_11, c.k.c_12, c.k.v36, c.k.cst_8, c.arg17, c.arg18, c.arg11]
  rfl

theorem x85 : X (Proc.devRef .tc main_v85) = V44 := by
  rw [c.k.v85, x19 c, c.k.v84, x1 c]
  exact (G3_3_spmm a15 a16 a10 V10 V10 (Cert.PreFacts.range_arg15 c.pre) (Cert.PreFacts.range_arg16 c.pre)
    (Cert.PreFacts.real_arg10 c.pre) (r10 c)).trans (by rw [v44_eq, v43_eq])

theorem r44 : IsReal V44 := by
  rw [v44_eq, v43_eq]; exact Cert.Spec.isReal_addf (isReal_SpmmPP _ _ (Cert.PreFacts.real_arg10 c.pre) (r10 c)) (r10 c)

theorem x88 : X (Proc.devRef .tc main_v88) = V58 := by
  rw [c.k.v88, x19 c, c.k.v87, x85 c]
  exact (G4_3_spmm a15 a16 a10 V44 V44 (Cert.PreFacts.range_arg15 c.pre) (Cert.PreFacts.range_arg16 c.pre)
    (Cert.PreFacts.real_arg10 c.pre) (r44 c)).trans (by rw [v58_eq, v57_eq])

theorem r58 : IsReal V58 := by
  rw [v58_eq, v57_eq]; exact Cert.Spec.isReal_addf (isReal_SpmmPP _ _ (Cert.PreFacts.real_arg10 c.pre) (r44 c)) (r44 c)

theorem x91 : X (Proc.devRef .tc main_v91) = V64 := by
  rw [c.k.v91, c.k.v89, c.k.v86, c.k.v90, c.k.cst_23, x1 c, x85 c, x88 c]
  exact (mean3K_eq V10 V44 V58).trans (v64_eq a0 a2 a3 a10 a15 a16).symm

theorem r64 : IsReal V64 := by
  rw [v64_eq]; exact isReal_Mean3R (r10 c) (r44 c) (r58 c)

theorem x93 : X (Proc.devRef .tc main_v93) = V77 := by
  rw [c.k.v93, x35 c, c.k.v92, x2 c]
  exact (c.g5 a19 a20 a12 V20 (Cert.PreFacts.range_arg19 c.pre) (Cert.PreFacts.range_arg20 c.pre)
    (Cert.PreFacts.real_arg12 c.pre) (r20 c)).trans (v77_eq a0 a4 a5 a12 a19 a20).symm

theorem r77 : IsReal V77 := by
  rw [v77_eq]; exact isReal_SpmmPP _ _ (Cert.PreFacts.real_arg12 c.pre) (r20 c)

theorem x95 : X (Proc.devRef .tc main_v95) = V91 := by
  rw [c.k.v95, x51 c, c.k.v94, x93 c, x2 c]
  exact (G6_3_spmm a17 a18 a11 V77 V20 (Cert.PreFacts.range_arg17 c.pre) (Cert.PreFacts.range_arg18 c.pre)
    (Cert.PreFacts.real_arg11 c.pre) (r77 c)).trans (by rw [v91_eq, v90_eq])

theorem r91 : IsReal V91 := by
  rw [v91_eq, v90_eq]; exact Cert.Spec.isReal_addf (isReal_SpmmPP _ _ (Cert.PreFacts.real_arg11 c.pre) (r77 c)) (r20 c)

theorem x98 : X (Proc.devRef .tc main_v98) = V104 := by
  rw [c.k.v98, x35 c, c.k.v97, x95 c]
  exact (c.g7 a19 a20 a12 V91 (Cert.PreFacts.range_arg19 c.pre) (Cert.PreFacts.range_arg20 c.pre)
    (Cert.PreFacts.real_arg12 c.pre) (r91 c)).trans (v104_eq a0 a4 a5 a11 a12 a17 a18 a19 a20).symm

theorem r104 : IsReal V104 := by
  rw [v104_eq]; exact isReal_SpmmPP _ _ (Cert.PreFacts.real_arg12 c.pre) (r91 c)

theorem x100 : X (Proc.devRef .tc main_v100) = V118 := by
  rw [c.k.v100, x51 c, c.k.v99, x98 c, x95 c]
  exact (G8_3_spmm a17 a18 a11 V104 V91 (Cert.PreFacts.range_arg17 c.pre) (Cert.PreFacts.range_arg18 c.pre)
    (Cert.PreFacts.real_arg11 c.pre) (r104 c)).trans (by rw [v118_eq, v117_eq])

theorem r118 : IsReal V118 := by
  rw [v118_eq, v117_eq]; exact Cert.Spec.isReal_addf (isReal_SpmmPP _ _ (Cert.PreFacts.real_arg11 c.pre) (r104 c)) (r91 c)

theorem x103 : X (Proc.devRef .tc main_v103) = V124 := by
  rw [c.k.v103, c.k.v101, c.k.v96, c.k.v102, c.k.cst_24, x2 c, x95 c, x100 c]
  exact (mean3K_eq V20 V91 V118).trans (v124_eq a0 a4 a5 a11 a12 a17 a18 a19 a20).symm

theorem r124 : IsReal V124 := by
  rw [v124_eq]; exact isReal_Mean3R (r20 c) (r91 c) (r118 c)

theorem x104 : X (Proc.devRef .tc main_v104) = V129 := by
  rw [c.k.v104, x91 c, G9_1_eq_L2R, v129_eq]

theorem x105 : X (Proc.devRef .tc main_v105) = V134 := by
  rw [c.k.v105, x103 c, G10_1_eq_L2R, v134_eq]

theorem r129 : IsReal V129 := by
  rw [v129_eq]; exact isReal_L2R (r64 c)

theorem r134 : IsReal V134 := by
  rw [v134_eq]; exact isReal_L2R (r124 c)

theorem x106 : X (Proc.devRef .tc main_v106) = truncf (F := Ideal) .bf16 V129 bitsLt_bf16_f32 := by
  rw [c.k.v106, x104 c]

theorem x107 : X (Proc.devRef .tc main_v107) = truncf (F := Ideal) .bf16 V134 bitsLt_bf16_f32 := by
  rw [c.k.v107, x105 c]

omit c in
theorem reshape_col (x : FVec Ideal S10000x1 .f32) (hc : S10000x1.ShapeCasts S10000) (r : Fin 10000) :
    shapeCast S10000 x hc (ValueIdx.ix1 r) = x (ValueIdx.ix2 r (0 : Fin 1)) := by
  refine shapeCast_apply x hc _ _ ?_
  rw [Shape.rowMajor_val_two, Shape.rowMajor_val_one]
  simp

theorem n1 (r : Fin 10000) : (X (Proc.devRef .tc main_v109) : FVec Ideal S10000 .f32) (ValueIdx.ix1 r)
    = ∑ q : Fin 10000, Ideal.exp ((∑ d : Fin 64, V129 (ValueIdx.ix2 r d) * V134 (ValueIdx.ix2 q d))
        * ((67108864 / 13421773 : ℝ) : EReal)) := by
  have e : (X (Proc.devRef .tc main_v109) : FVec Ideal S10000 .f32) (ValueIdx.ix1 r)
      = (X (Proc.devRef .tc main_v108_0) : FVec Ideal S10000x1 .f32) (ValueIdx.ix2 r (0 : Fin 1)) := by
    rw [c.k.v109]
    exact reshape_col _ _ r
  rw [e, c.k.v108_0, x106 c, x107 c]
  exact c.g11_2 _ _ (Cert.Spec.isReal_truncf _ (r129 c)) (Cert.Spec.isReal_truncf _ (r134 c)) r

theorem n2 (q : Fin 10000) : (X (Proc.devRef .tc main_v110) : FVec Ideal S10000 .f32) (ValueIdx.ix1 q)
    = ∑ r : Fin 10000, Ideal.exp ((∑ d : Fin 64, V129 (ValueIdx.ix2 r d) * V134 (ValueIdx.ix2 q d))
        * ((67108864 / 13421773 : ℝ) : EReal)) := by
  have e : (X (Proc.devRef .tc main_v110) : FVec Ideal S10000 .f32) (ValueIdx.ix1 q)
      = (X (Proc.devRef .tc main_v108_1) : FVec Ideal S10000x1 .f32) (ValueIdx.ix2 q (0 : Fin 1)) := by
    rw [c.k.v110]
    exact reshape_col _ _ q
  rw [e, c.k.v108_1, x106 c, x107 c]
  exact c.g11_3 _ _ (Cert.Spec.isReal_truncf _ (r129 c)) (Cert.Spec.isReal_truncf _ (r134 c)) q

theorem x124 : X (Proc.devRef .tc main_v124) = LossHalfK (F := Ideal) V129 V134 (X (Proc.devRef .tc main_v109)) := by
  rw [c.k.v124, c.k.v123, c.k.cst_30, c.k.v122, c.k.cst_29, c.k.v121, c.k.v120, c.k.v118, c.k.v119, c.k.cst_28, c.k.v115,
    c.k.v117, c.k.v116, c.k.cst_27, c.k.v114, c.k.v112, c.k.v113, c.k.cst_26, c.k.v111, c.k.cst_25, x104 c, x105 c]
  rfl

theorem x138 : X (Proc.devRef .tc main_v138) = LossHalfK (F := Ideal) V134 V129 (X (Proc.devRef .tc main_v110)) := by
  rw [c.k.v138, c.k.v137, c.k.cst_36, c.k.v136, c.k.cst_35, c.k.v135, c.k.v134, c.k.v132, c.k.v133, c.k.cst_34, c.k.v129,
    c.k.v131, c.k.v130, c.k.cst_33, c.k.v128, c.k.v126, c.k.v127, c.k.cst_32, c.k.v125, c.k.cst_31, x104 c, x105 c]
  rfl

theorem x140 : X (Proc.devRef .tc main_v140) = V176 := by
  rw [c.k.v140, c.k.cst_37, c.k.v139, x124 c, x138 c]
  exact (loss_eq V129 V134 _ _ (r129 c) (r134 c) (n1 c) (n2 c)).trans (by rw [v176_eq, v154_eq, v174_eq])

theorem half1 : (X (Proc.devRef .tc main_v3) = V30 ∧ IsReal V30) ∧ (X (Proc.devRef .tc main_v104) = V129 ∧ IsReal V129)
    ∧ (X (Proc.devRef .tc main_v105) = V134 ∧ IsReal V134) ∧ X (Proc.devRef .tc main_v140) = V176 :=
  ⟨⟨x3 c, r30 c⟩, ⟨x104 c, r129 c⟩, ⟨x105 c, r134 c⟩, x140 c⟩

end Top1

end Cert.Bridge

end
-- ==== Proof.Bridge.SpmmPlain.lean ====
import proofs.«417009_j23742579212955_2_alg».proof.Proof.Spec.Spmm
import proofs.«417009_j23742579212955_2_alg».proof.Proof.Bridge.RefStages
import proofs.«417009_j23742579212955_2_alg».proof.Proof.Bridge.SpmmRes

noncomputable section

open scoped BigOperators

namespace Cert.Bridge

open Cert.KernelIdeal Cert.KernelIdeal.Facts₀ Idealize.ShloMosaic Idealize.ShloMosaic.ValueIdx
open Cert.Spec

theorem zeros_apply {t : Shape} (h : (⟨0, ![]⟩ : Shape).BroadcastsInDim t ![]) (i : t.Idx) :
    broadcastInDim t ![] h (constant (F := Ideal) ⟨0, ![]⟩ .f32 0x00000000#32) i = 0 := by
  show Ideal.ofBits .f32 0x00000000#32 = 0
  rw [ofBits_f32_zero]
  rfl

theorem spmmPP_index (rows cols : IVec S320000 32) (vals : FVec Ideal S320000 .f32) (x : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x) (r : Fin 10000) (d : Fin 64) :
    ∑ c : Fin 10000, DensePP rows cols vals (ix2 r c) * x (ix2 c d) = SpmmPP rows cols vals x (ix2 r d) := by
  unfold DensePP SpmmPP
  exact spmm_printed (φ := .f32) (nO := 10000) (nI := 10000) (D := 64) (E := 320000)
    scatter_S10000x10000_S320000x2_S320000_n_01_01_1_wf
    Cert.ReferenceIdeal.Facts₀.scatter_S10000x64_S320000x1_S320000x64_1_0_0_1_wf
    Cert.ReferenceIdeal.Facts₀.gather_S10000x64_S320000x1_S320000x64_1_0_n_n_0_1_164_wf
    concatenates_S320000x1_S320000x1_S320000x2_d1 bcast_S320000_S320000x1_0 Cert.ReferenceIdeal.Facts₀.bcast_S320000x1_S320000x64_0_1
    _ (zeros_apply _) _ (zeros_apply _) rows cols _ _ _ (fun _ => rfl) (fun _ => rfl) (fun _ => rfl)
    hrows hcols vals x hvals hx r d

theorem spmmUP_index (rows cols : IVec S400000 32) (vals : FVec Ideal S400000 .f32) (x : FVec Ideal S10000x64 .f32)
    (hrows : ∀ i, 0 ≤ (rows i).toInt ∧ (rows i).toInt < 8000) (hcols : ∀ i, 0 ≤ (cols i).toInt ∧ (cols i).toInt < 10000)
    (hvals : IsReal vals) (hx : IsReal x) (r : Fin 8000) (d : Fin 64) :
    ∑ c : Fin 10000, DenseUP rows cols vals (ix2 r c) * x (ix2 c d) = SpmmUP rows cols vals x (ix2 r d) := by
  unfold DenseUP SpmmUP
  exact spmm_printed (φ := .f32) (nO := 8000) (nI := 10000) (D := 64) (E := 400000)
    scatter_S8000x10000_S400000x2_S400000_n_01_01_1_wf
    Cert.ReferenceIdeal.Facts₀.scatter_S8000x64_S400000x1_S400000x64_1_0_0_1_wf
    Cert.ReferenceIdeal.Facts₀.gather_S10000x64_S400000x1_S400000x64_1_0_n_n_0_1_164_wf
    concatenates_S400000x1_S400000x1_S400000x2_d1 bcast_S400000_S400000x1_0 Cert.ReferenceIdeal.Facts₀.bcast_S400000x1_S400000x64_0_1
    _ (zeros_apply _) _ (zeros_apply _) rows cols _ _ _ (fun _ => rfl) (fun _ => rfl) (fun _ => rfl)
    hrows hcols vals x hvals hx r d

theorem spmmPU_index (rows cols : IVec S400000 32) (vals : FVec Ideal S400000 .f32) (x : FVec Ideal S8000x64 .f32)
    (hrows : ∀ i, 0 ≤ (rows i).toInt ∧ (rows i).toInt < 10000) (hcols : ∀ i, 0 ≤ (cols i).toInt ∧ (cols i).toInt < 8000)
    (hvals : IsReal vals) (hx : IsReal x) (r : Fin 10000) (d : Fin 64) :
    ∑ c : Fin 8000, DensePU rows cols vals (ix2 r c) * x (ix2 c d) = SpmmPU rows cols vals x (ix2 r d) := by
  unfold DensePU SpmmPU
  exact spmm_printed (φ := .f32) (nO := 10000) (nI := 8000) (D := 64) (E := 400000)
    scatter_S10000x8000_S400000x2_S400000_n_01_01_1_wf
    Cert.ReferenceIdeal.Facts₀.scatter_S10000x64_S400000x1_S400000x64_1_0_0_1_wf
    Cert.ReferenceIdeal.Facts₀.gather_S8000x64_S400000x1_S400000x64_1_0_n_n_0_1_164_wf
    concatenates_S400000x1_S400000x1_S400000x2_d1 bcast_S400000_S400000x1_0 Cert.ReferenceIdeal.Facts₀.bcast_S400000x1_S400000x64_0_1
    _ (zeros_apply _) _ (zeros_apply _) rows cols _ _ _ (fun _ => rfl) (fun _ => rfl) (fun _ => rfl)
    hrows hcols vals x hvals hx r d

theorem spmmPP_of_product (rows cols : IVec S320000 32) (vals : FVec Ideal S320000 .f32) (x : FVec Ideal S10000x64 .f32)
    (out : FVec Ideal S10000x64 .f32)
    (hrows : ∀ i, 0 ≤ (rows i).toInt ∧ (rows i).toInt < 10000) (hcols : ∀ i, 0 ≤ (cols i).toInt ∧ (cols i).toInt < 10000)
    (hvals : IsReal vals) (hx : IsReal x)
    (hout : ∀ (r : Fin 10000) (d : Fin 64), out (ix2 r d) = ∑ c : Fin 10000,
      (truncf .bf16 (DensePP rows cols vals) bitsLt_bf16_f32) (ix2 r c) * (truncf .bf16 x bitsLt_bf16_f32) (ix2 c d)) :
    out = SpmmPP rows cols vals x := by
  funext j
  obtain ⟨r, d, rfl⟩ : ∃ r d, j = ix2 r d := ⟨j 0, j 1, eq_ix2 j⟩
  rw [hout r d]
  exact spmmPP_index rows cols vals x hrows hcols hvals hx r d

theorem spmmUP_of_product (rows cols : IVec S400000 32) (vals : FVec Ideal S400000 .f32) (x : FVec Ideal S10000x64 .f32)
    (out : FVec Ideal S8000x64 .f32)
    (hrows : ∀ i, 0 ≤ (rows i).toInt ∧ (rows i).toInt < 8000) (hcols : ∀ i, 0 ≤ (cols i).toInt ∧ (cols i).toInt < 10000)
    (hvals : IsReal vals) (hx : IsReal x)
    (hout : ∀ (r : Fin 8000) (d : Fin 64), out (ix2 r d) = ∑ c : Fin 10000,
      (truncf .bf16 (DenseUP rows cols vals) bitsLt_bf16_f32) (ix2 r c) * (truncf .bf16 x bitsLt_bf16_f32) (ix2 c d)) :
    out = SpmmUP rows cols vals x := by
  funext j
  obtain ⟨r, d, rfl⟩ : ∃ r d, j = ix2 r d := ⟨j 0, j 1, eq_ix2 j⟩
  rw [hout r d]
  exact spmmUP_index rows cols vals x hrows hcols hvals hx r d

theorem spmmPU_of_product (rows cols : IVec S400000 32) (vals : FVec Ideal S400000 .f32) (x : FVec Ideal S8000x64 .f32)
    (out : FVec Ideal S10000x64 .f32)
    (hrows : ∀ i, 0 ≤ (rows i).toInt ∧ (rows i).toInt < 10000) (hcols : ∀ i, 0 ≤ (cols i).toInt ∧ (cols i).toInt < 8000)
    (hvals : IsReal vals) (hx : IsReal x)
    (hout : ∀ (r : Fin 10000) (d : Fin 64), out (ix2 r d) = ∑ c : Fin 8000,
      (truncf .bf16 (DensePU rows cols vals) bitsLt_bf16_f32) (ix2 r c) * (truncf .bf16 x bitsLt_bf16_f32) (ix2 c d)) :
    out = SpmmPU rows cols vals x := by
  funext j
  obtain ⟨r, d, rfl⟩ : ∃ r d, j = ix2 r d := ⟨j 0, j 1, eq_ix2 j⟩
  rw [hout r d]
  exact spmmPU_index rows cols vals x hrows hcols hvals hx r d

theorem concat3_apply {α : Type} (x0 x1 x2 : S10000x64.Idx → α) (c : Fin 10000) (k : Fin 3) (d' : Fin 64) :
    concatenate S10000x192 1 [⟨S10000x64, x0⟩, ⟨S10000x64, x1⟩, ⟨S10000x64, x2⟩]
        concatenates_S10000x64_S10000x64_S10000x64_S10000x192_d1
        (ix2 c (⟨64 * k.val + d'.val, by have := k.isLt; have := d'.isLt; omega⟩ : Fin 192))
      = (![x0, x1, x2] k) (ix2 c d') := by
  have hk : k.val = 0 ∨ k.val = 1 ∨ k.val = 2 := by have := k.isLt; omega
  have hcoord : ∀ b : Fin 2, b.cast (rfl : S10000x64.rank = S10000x192.rank) ≠ (1 : Fin 2) →
      ((ix2 c d' : S10000x64.Idx) b).val
        = ((ix2 c (⟨64 * k.val + d'.val, by have := k.isLt; have := d'.isLt; omega⟩ : Fin 192) : S10000x192.Idx)
            (b.cast rfl)).val := by
    intro b hb
    match b with
    | ⟨0, _⟩ => rfl
    | ⟨1, _⟩ => exact absurd rfl hb
  rcases hk with h | h | h
  · obtain rfl : k = 0 := Fin.ext h
    exact concatenate_apply_piece (t := S10000x192) (1 : Fin 2) [⟨S10000x64, x0⟩, ⟨S10000x64, x1⟩, ⟨S10000x64, x2⟩]
      concatenates_S10000x64_S10000x64_S10000x64_S10000x192_d1
      (ix2 c (⟨64 * (0 : Fin 3).val + d'.val, by have := d'.isLt; omega⟩ : Fin 192))
      0 (by show (0 : ℕ) < 3; omega) S10000x64 x0 rfl rfl 0 rfl (ix2 c d') hcoord
      (by show 0 + d'.val = 64 * 0 + d'.val; omega)
  · obtain rfl : k = 1 := Fin.ext h
    exact concatenate_apply_piece (t := S10000x192) (1 : Fin 2) [⟨S10000x64, x0⟩, ⟨S10000x64, x1⟩, ⟨S10000x64, x2⟩]
      concatenates_S10000x64_S10000x64_S10000x64_S10000x192_d1
      (ix2 c (⟨64 * (1 : Fin 3).val + d'.val, by have := d'.isLt; omega⟩ : Fin 192))
      1 (by show (1 : ℕ) < 3; omega) S10000x64 x1 rfl rfl 64 rfl (ix2 c d') hcoord
      (by show 64 + d'.val = 64 * 1 + d'.val; omega)
  · obtain rfl : k = 2 := Fin.ext h
    exact concatenate_apply_piece (t := S10000x192) (1 : Fin 2) [⟨S10000x64, x0⟩, ⟨S10000x64, x1⟩, ⟨S10000x64, x2⟩]
      concatenates_S10000x64_S10000x64_S10000x64_S10000x192_d1
      (ix2 c (⟨64 * (2 : Fin 3).val + d'.val, by have := d'.isLt; omega⟩ : Fin 192))
      2 (by show (2 : ℕ) < 3; omega) S10000x64 x2 rfl rfl 128 rfl (ix2 c d') hcoord
      (by show 128 + d'.val = 64 * 2 + d'.val; omega)

theorem slice_cols_apply {α : Type} (out3 : S8000x192.Idx → α) (o : ℕ) (hs : S8000x192.Slices ![0, o] S8000x64)
    (ho : o + 64 ≤ 192) (r : Fin 8000) (d' : Fin 64) :
    extractStridedSlice S8000x64 ![0, o] out3 hs (ix2 r d')
      = out3 (ix2 r (⟨o + d'.val, by have := d'.isLt; omega⟩ : Fin 192)) := by
  unfold extractStridedSlice
  congr 1
  funext a
  apply Fin.ext
  match a with
  | ⟨0, _⟩ =>
    show 0 + r.val = r.val
    omega
  | ⟨1, _⟩ => rfl

theorem spmmUP_triple_of_product (rows cols : IVec S400000 32) (vals : FVec Ideal S400000 .f32)
    (x0 x1 x2 : FVec Ideal S10000x64 .f32) (out3 : FVec Ideal S8000x192 .f32)
    (hrows : ∀ i, 0 ≤ (rows i).toInt ∧ (rows i).toInt < 8000) (hcols : ∀ i, 0 ≤ (cols i).toInt ∧ (cols i).toInt < 10000)
    (hvals : IsReal vals) (hx0 : IsReal x0) (hx1 : IsReal x1) (hx2 : IsReal x2)
    (hout : ∀ (r : Fin 8000) (d : Fin 192), out3 (ix2 r d) = ∑ c : Fin 10000,
      (truncf .bf16 (DenseUP rows cols vals) bitsLt_bf16_f32) (ix2 r c)
        * (truncf .bf16 (concatenate S10000x192 1 [⟨S10000x64, x0⟩, ⟨S10000x64, x1⟩, ⟨S10000x64, x2⟩]
            concatenates_S10000x64_S10000x64_S10000x64_S10000x192_d1) bitsLt_bf16_f32) (ix2 c d)) :
    extractStridedSlice S8000x64 ![0, 0] out3 slices_S8000x192_S8000x64_0_0 = SpmmUP rows cols vals x0
      ∧ extractStridedSlice S8000x64 ![0, 64] out3 slices_S8000x192_S8000x64_0_64 = SpmmUP rows cols vals x1
      ∧ extractStridedSlice S8000x64 ![0, 128] out3 slices_S8000x192_S8000x64_0_128 = SpmmUP rows cols vals x2 := by
  have hxk : ∀ k : Fin 3, IsReal (![x0, x1, x2] k) := by
    intro k
    have hk : k.val = 0 ∨ k.val = 1 ∨ k.val = 2 := by have := k.isLt; omega
    rcases hk with h | h | h
    · obtain rfl : k = 0 := Fin.ext h
      exact hx0
    · obtain rfl : k = 1 := Fin.ext h
      exact hx1
    · obtain rfl : k = 2 := Fin.ext h
      exact hx2
  have piece : ∀ (k : Fin 3) (hs : S8000x192.Slices ![0, 64 * k.val] S8000x64),
      extractStridedSlice S8000x64 ![0, 64 * k.val] out3 hs = SpmmUP rows cols vals (![x0, x1, x2] k) := by
    intro k hs
    funext j
    obtain ⟨r, d', rfl⟩ : ∃ r d, j = ix2 r d := ⟨j 0, j 1, eq_ix2 j⟩
    rw [slice_cols_apply out3 (64 * k.val) hs (by have := k.isLt; omega) r d', hout r _,
      ← spmmUP_index rows cols vals (![x0, x1, x2] k) hrows hcols hvals (hxk k) r d']
    refine Finset.sum_congr rfl fun c _ => ?_
    show DenseUP rows cols vals (ix2 r c) * concatenate S10000x192 1 [⟨S10000x64, x0⟩, ⟨S10000x64, x1⟩, ⟨S10000x64, x2⟩]
        concatenates_S10000x64_S10000x64_S10000x64_S10000x192_d1
        (ix2 c (⟨64 * k.val + d'.val, by have := k.isLt; have := d'.isLt; omega⟩ : Fin 192)) = _
    rw [concat3_apply x0 x1 x2 c k d']
  exact ⟨piece 0 slices_S8000x192_S8000x64_0_0, piece 1 slices_S8000x192_S8000x64_0_64,
    piece 2 slices_S8000x192_S8000x64_0_128⟩

end Cert.Bridge

end
-- ==== Proof.Bridge.Top2.lean ====
import proofs.«417009_j23742579212955_2_alg».proof.Proof.Bridge.KEqs
import proofs.«417009_j23742579212955_2_alg».proof.Proof.Bridge.RefStages
import proofs.«417009_j23742579212955_2_alg».proof.Proof.Bridge.RefReal
import proofs.«417009_j23742579212955_2_alg».proof.Proof.Bridge.SpmmPlain
import proofs.«417009_j23742579212955_2_alg».proof.Proof.Bridge.L2
import proofs.«417009_j23742579212955_2_alg».proof.Proof.Bridge.Loss
import proofs.«417009_j23742579212955_2_alg».proof.Proof.Pre

set_option maxRecDepth 16384

noncomputable section

open scoped BigOperators

namespace Cert.Bridge

open Cert.KernelIdeal Cert.KernelIdeal.Facts₀ Cert.ReferenceIdeal.Read Idealize.ShloMosaic Idealize.ShloMosaic.TcCoe Idealize.SL.Sem
open Cert.Spec (IsReal)

structure Ctx2 (G : RegionFns) (X : Valuation τ sig (Elt Ideal))
    (a0 : FVec Ideal S10001x64 .f32) (a1 : FVec Ideal S8000x64 .f32) (a2 : FVec Ideal S64x64 .f32) (a3 : FVec Ideal S1x64 .f32)
    (a4 : FVec Ideal S64x64 .f32) (a5 : FVec Ideal S1x64 .f32) (a6 : FVec Ideal S64x64 .f32) (a7 : FVec Ideal S1x64 .f32)
    (a8 : FVec Ideal S448x64 .f32) (a9 : FVec Ideal S64 .f32) (a10 a11 a12 : FVec Ideal S320000 .f32)
    (a13 a14 : FVec Ideal S400000 .f32) (a15 a16 a17 a18 a19 a20 : IVec S320000 32) (a21 a22 a23 a24 : IVec S400000 32)
    (a25 : IVec S4096 32) : Prop where
  k : KEqs G X
  arg1 : X (Proc.devRef .tc main_arg1) = a1
  arg8 : X (Proc.devRef .tc main_arg8) = a8
  arg9 : X (Proc.devRef .tc main_arg9) = a9
  arg13 : X (Proc.devRef .tc main_arg13) = a13
  arg14 : X (Proc.devRef .tc main_arg14) = a14
  arg21 : X (Proc.devRef .tc main_arg21) = a21
  arg22 : X (Proc.devRef .tc main_arg22) = a22
  arg23 : X (Proc.devRef .tc main_arg23) = a23
  arg24 : X (Proc.devRef .tc main_arg24) = a24
  arg25 : X (Proc.devRef .tc main_arg25) = a25
  pre : Cert.Pre_finite_inputs.fn (F := Ideal) a0 a1 a2 a3 a4 a5 a6 a7 a8 a9 a10 a11 a12 a13 a14 a15 a16 a17 a18 a19 a20 a21 a22
    a23 a24 a25 = (fun _ => 1#1)
  x3 : X (Proc.devRef .tc main_v3) = val_main_v30 (F := Ideal) a0 a6 a7
  r30 : IsReal (val_main_v30 (F := Ideal) a0 a6 a7)
  x104 : X (Proc.devRef .tc main_v104) = val_main_v129 (F := Ideal) a0 a2 a3 a10 a15 a16
  r129 : IsReal (val_main_v129 (F := Ideal) a0 a2 a3 a10 a15 a16)
  x105 : X (Proc.devRef .tc main_v105) = val_main_v134 (F := Ideal) a0 a4 a5 a11 a12 a17 a18 a19 a20
  r134 : IsReal (val_main_v134 (F := Ideal) a0 a4 a5 a11 a12 a17 a18 a19 a20)
  g12 : ∀ (A : FVec Ideal S8000x10000 .bf16) (B : FVec Ideal S10000x192 .bf16) (r : Fin 8000) (d : Fin 192),
    G.G12_2 A B (ValueIdx.ix2 r d) = ∑ j : Fin 10000, A (ValueIdx.ix2 r j) * B (ValueIdx.ix2 j d)
  g13 : ∀ (A : FVec Ideal S10000x8000 .bf16) (B : FVec Ideal S8000x64 .bf16) (r : Fin 10000) (d : Fin 64),
    G.G13_2 A B (ValueIdx.ix2 r d) = ∑ j : Fin 8000, A (ValueIdx.ix2 r j) * B (ValueIdx.ix2 j d)
  g15 : ∀ (A : FVec Ideal S8000x10000 .bf16) (B : FVec Ideal S10000x64 .bf16) (r : Fin 8000) (d : Fin 64),
    G.G15_2 A B (ValueIdx.ix2 r d) = ∑ j : Fin 10000, A (ValueIdx.ix2 r j) * B (ValueIdx.ix2 j d)

namespace Top2

variable {G : RegionFns} {X : Valuation τ sig (Elt Ideal)}
  {a0 : FVec Ideal S10001x64 .f32} {a1 : FVec Ideal S8000x64 .f32} {a2 : FVec Ideal S64x64 .f32} {a3 : FVec Ideal S1x64 .f32}
  {a4 : FVec Ideal S64x64 .f32} {a5 : FVec Ideal S1x64 .f32} {a6 : FVec Ideal S64x64 .f32} {a7 : FVec Ideal S1x64 .f32}
  {a8 : FVec Ideal S448x64 .f32} {a9 : FVec Ideal S64 .f32} {a10 a11 a12 : FVec Ideal S320000 .f32}
  {a13 a14 : FVec Ideal S400000 .f32} {a15 a16 a17 a18 a19 a20 : IVec S320000 32} {a21 a22 a23 a24 : IVec S400000 32}
  {a25 : IVec S4096 32}
  (c : Ctx2 G X a0 a1 a2 a3 a4 a5 a6 a7 a8 a9 a10 a11 a12 a13 a14 a15 a16 a17 a18 a19 a20 a21 a22 a23 a24 a25)
include c

local notation "V30" => val_main_v30 (F := Ideal) a0 a6 a7
local notation "V129" => val_main_v129 (F := Ideal) a0 a2 a3 a10 a15 a16
local notation "V134" => val_main_v134 (F := Ideal) a0 a4 a5 a11 a12 a17 a18 a19 a20
local notation "V189" => val_main_v189 (F := Ideal) a0 a2 a3 a10 a13 a15 a16 a21 a22
local notation "V202" => val_main_v202 (F := Ideal) a0 a4 a5 a11 a12 a13 a17 a18 a19 a20 a21 a22
local notation "V215" => val_main_v215 (F := Ideal) a0 a6 a7 a13 a21 a22
local notation "V228" => val_main_v228 (F := Ideal) a0 a1 a2 a3 a4 a5 a6 a7 a8 a9 a10 a11 a12 a13 a15 a16 a17 a18 a19 a20 a21 a22
local notation "V241" => val_main_v241 (F := Ideal) a0 a1 a2 a3 a4 a5 a6 a7 a8 a9 a10 a11 a12 a13 a14 a15 a16 a17 a18 a19 a20 a21 a22 a23 a24
local notation "V242" => val_main_v242 (F := Ideal) a0 a1 a2 a3 a4 a5 a6 a7 a8 a9 a10 a11 a12 a13 a14 a15 a16 a17 a18 a19 a20 a21 a22 a23 a24
local notation "V255" => val_main_v255 (F := Ideal) a0 a2 a3 a10 a13 a15 a16 a21 a22
local notation "V268" => val_main_v268 (F := Ideal) a0 a4 a5 a11 a12 a13 a17 a18 a19 a20 a21 a22
local notation "V281" => val_main_v281 (F := Ideal) a0 a6 a7 a13 a21 a22
local notation "V294" => val_main_v294 (F := Ideal) a0 a1 a2 a3 a4 a5 a6 a7 a8 a9 a10 a11 a12 a13 a15 a16 a17 a18 a19 a20 a21 a22
local notation "V307" => val_main_v307 (F := Ideal) a0 a1 a2 a3 a4 a5 a6 a7 a8 a9 a10 a11 a12 a13 a14 a15 a16 a17 a18 a19 a20 a21 a22 a23 a24
local notation "V308" => val_main_v308 (F := Ideal) a0 a1 a2 a3 a4 a5 a6 a7 a8 a9 a10 a11 a12 a13 a14 a15 a16 a17 a18 a19 a20 a21 a22 a23 a24
local notation "V314" => val_main_v314 (F := Ideal) a0 a1 a2 a3 a4 a5 a6 a7 a8 a9 a10 a11 a12 a13 a14 a15 a16 a17 a18 a19 a20 a21 a22 a23 a24
local notation "V319" => val_main_v319 (F := Ideal) a0 a1 a2 a3 a4 a5 a6 a7 a8 a9 a10 a11 a12 a13 a14 a15 a16 a17 a18 a19 a20 a21 a22 a23 a24
local notation "V321" => val_main_v321 (F := Ideal) a0 a1 a2 a3 a4 a5 a6 a7 a8 a9 a10 a11 a12 a13 a14 a15 a16 a17 a18 a19 a20 a21 a22 a23 a24
local notation "V334" => val_main_v334 (F := Ideal) a0 a1 a2 a3 a4 a5 a6 a7 a8 a9 a10 a11 a12 a13 a14 a15 a16 a17 a18 a19 a20 a21 a22 a23 a24
local notation "V341" => val_main_v341 (F := Ideal) a0 a1 a2 a3 a4 a5 a6 a7 a8 a9 a10 a11 a12 a13 a14 a15 a16 a17 a18 a19 a20 a21 a22 a23 a24 a25
local notation "V346" => val_main_v346 (F := Ideal) a0 a1 a2 a3 a4 a5 a6 a7 a8 a9 a10 a11 a12 a13 a14 a15 a16 a17 a18 a19 a20 a21 a22 a23 a24 a25

theorem x67 : X (Proc.devRef .tc main_v67) = truncf .bf16 (DenseUP a21 a22 a13) bitsLt_bf16_f32 := by
  rw [c.k.v67, c.k.v66, c.k.v65, c.k.v63, c.k.v64, c.k.v57, c.k.v62, c.k.v54, c.k.v56, c.k.v59, c.k.v61, c.k.v53, c.k.v55, c.k.v58,
    c.k.v60, c.k.c_14, c.k.c_15, c.k.c_16, c.k.c_17, c.k.v52, c.k.cst_13, c.arg21, c.arg22, c.arg13]
  rfl

theorem x83 : X (Proc.devRef .tc main_v83) = truncf .bf16 (DensePU a23 a24 a14) bitsLt_bf16_f32 := by
  rw [c.k.v83, c.k.v82, c.k.v81, c.k.v79, c.k.v80, c.k.v73, c.k.v78, c.k.v70, c.k.v72, c.k.v75, c.k.v77, c.k.v69, c.k.v71, c.k.v74,
    c.k.v76, c.k.c_19, c.k.c_20, c.k.c_21, c.k.c_22, c.k.v68, c.k.cst_18, c.arg23, c.arg24, c.arg14]
  rfl

theorem x141 : X (Proc.devRef .tc main_v141)
    = concatenate S10000x192 1 [⟨S10000x64, V129⟩, ⟨S10000x64, V134⟩, ⟨S10000x64, V30⟩]
        concatenates_S10000x64_S10000x64_S10000x64_S10000x192_d1 := by
  have e : X (Proc.devRef .tc main_v141)
      = concatenate S10000x192 1 [⟨S10000x64, X (Proc.devRef .tc main_v104)⟩, ⟨S10000x64, X (Proc.devRef .tc main_v105)⟩,
          ⟨S10000x64, X (Proc.devRef .tc main_v3)⟩] concatenates_S10000x64_S10000x64_S10000x64_S10000x192_d1 := c.k.v141
  rw [e, c.x104, c.x105, c.x3]

theorem x143 : X (Proc.devRef .tc main_v143)
    = G.G12_2 (truncf .bf16 (DenseUP a21 a22 a13) bitsLt_bf16_f32)
        (truncf .bf16 (concatenate S10000x192 1 [⟨S10000x64, V129⟩, ⟨S10000x64, V134⟩, ⟨S10000x64, V30⟩]
          concatenates_S10000x64_S10000x64_S10000x64_S10000x192_d1) bitsLt_bf16_f32) := by
  rw [c.k.v143, x67 c, c.k.v142, x141 c]

theorem r189 : IsReal V189 := by
  rw [v189_eq]; exact isReal_SpmmUP _ _ (Cert.PreFacts.real_arg13 c.pre) c.r129
theorem r202 : IsReal V202 := by
  rw [v202_eq]; exact isReal_SpmmUP _ _ (Cert.PreFacts.real_arg13 c.pre) c.r134
theorem r215 : IsReal V215 := by
  rw [v215_eq]; exact isReal_SpmmUP _ _ (Cert.PreFacts.real_arg13 c.pre) c.r30

theorem slices : Slice0K (F := Ideal) (X (Proc.devRef .tc main_v143)) = V189
    ∧ Slice1K (F := Ideal) (X (Proc.devRef .tc main_v143)) = V202
    ∧ Slice2K (F := Ideal) (X (Proc.devRef .tc main_v143)) = V215 := by
  have h := spmmUP_triple_of_product a21 a22 a13 V129 V134 V30 (X (Proc.devRef .tc main_v143))
    (Cert.PreFacts.range_arg21 c.pre) (Cert.PreFacts.range_arg22 c.pre) (Cert.PreFacts.real_arg13 c.pre) c.r129 c.r134 c.r30
    (fun r d => by rw [x143 c]; exact c.g12 _ _ r d)
  exact ⟨h.1.trans (by rw [v189_eq]), h.2.1.trans (by rw [v202_eq]), h.2.2.trans (by rw [v215_eq])⟩

theorem x159K : X (Proc.devRef .tc main_v159) = MsgK (F := Ideal) (X (Proc.devRef .tc main_v143)) a8 a9 a1 := by
  have e152 : X (Proc.devRef .tc main_v152)
      = concatenate S8000x448 1 [⟨S8000x64, X (Proc.devRef .tc main_v144)⟩, ⟨S8000x64, X (Proc.devRef .tc main_v145)⟩,
          ⟨S8000x64, X (Proc.devRef .tc main_v146)⟩, ⟨S8000x64, X (Proc.devRef .tc main_v147)⟩,
          ⟨S8000x64, X (Proc.devRef .tc main_v148)⟩, ⟨S8000x64, X (Proc.devRef .tc main_v149)⟩,
          ⟨S8000x64, X (Proc.devRef .tc main_v151)⟩]
          concatenates_S8000x64_S8000x64_S8000x64_S8000x64_S8000x64_S8000x64_S8000x64_S8000x448_d1 := c.k.v152
  rw [c.k.v159, c.k.v157, c.k.v158, c.k.v156, c.k.v153, c.k.v155, c.k.v154, e152, c.k.v151, c.k.v150, c.k.v149, c.k.v148, c.k.v147,
    c.k.v144, c.k.v145, c.k.v146, c.arg8, c.arg9, c.arg1]
  rfl

theorem x159 : X (Proc.devRef .tc main_v159) = V228 := by
  rw [x159K c, msgK_eq, (slices c).1, (slices c).2.1, (slices c).2.2, v228_eq]

theorem r228 : IsReal V228 := by
  rw [v228_eq]
  exact isReal_MsgR (r189 c) (r202 c) (r215 c) (Cert.PreFacts.real_arg8 c.pre) (Cert.PreFacts.real_arg9 c.pre)
    (Cert.PreFacts.real_arg1 c.pre)

theorem x161 : X (Proc.devRef .tc main_v161) = V241 := by
  rw [c.k.v161, x83 c, c.k.v160, x159 c]
  refine Eq.trans (spmmPU_of_product a23 a24 a14 V228 _ (Cert.PreFacts.range_arg23 c.pre) (Cert.PreFacts.range_arg24 c.pre)
    (Cert.PreFacts.real_arg14 c.pre) (r228 c) ?_) (by rw [v241_eq])
  intro r d
  exact c.g13 _ _ r d

theorem r241 : IsReal V241 := by
  rw [v241_eq]; exact isReal_SpmmPU _ _ (Cert.PreFacts.real_arg14 c.pre) (r228 c)

theorem e255 : V255 = V189 := by rw [v255_eq, v189_eq]
theorem e268 : V268 = V202 := by rw [v268_eq, v202_eq]
theorem e281 : V281 = V215 := by rw [v281_eq, v215_eq]
theorem e294 : V294 = V228 := by rw [v294_eq, v228_eq, e255 c, e268 c, e281 c]
theorem e307 : V307 = V241 := by rw [v307_eq, v241_eq, e294 c]

theorem r242 : IsReal V242 := by
  rw [v242_eq]; exact Cert.Spec.isReal_addf (r241 c) c.r30
theorem r308 : IsReal V308 := by
  rw [v308_eq, e307 c]; exact Cert.Spec.isReal_addf (r241 c) (r242 c)
theorem r314 : IsReal V314 := by
  rw [v314_eq]; exact isReal_Mean3R c.r30 (r242 c) (r308 c)

theorem x164 : X (Proc.devRef .tc main_v164) = V314 := by
  rw [c.k.v164, c.k.v163, c.k.v162, c.k.cst_38, c.x3, x161 c]
  refine (closingK_eq V30 V241 c.r30 (r241 c)).trans ?_
  rw [v314_eq, v308_eq, v242_eq, e307 c]

theorem x167 : X (Proc.devRef .tc main_v167) = V321 := by
  rw [c.k.v167, c.k.v166, c.k.v165, x164 c, c.x104, c.x105, G14_1_eq_L2R, v321_eq, v319_eq]

theorem r321 : IsReal V321 := by
  rw [v321_eq, v319_eq]
  exact Cert.Spec.isReal_addf (Cert.Spec.isReal_addf (isReal_L2R (r314 c)) c.r129) c.r134

theorem x169 : X (Proc.devRef .tc main_v169) = V334 := by
  rw [c.k.v169, x67 c, c.k.v168, x167 c]
  refine Eq.trans (spmmUP_of_product a21 a22 a13 V321 _ (Cert.PreFacts.range_arg21 c.pre) (Cert.PreFacts.range_arg22 c.pre)
    (Cert.PreFacts.real_arg13 c.pre) (r321 c) ?_) (by rw [v334_eq])
  intro r d
  exact c.g15 _ _ r d

theorem x176 : X (Proc.devRef .tc main_v176) = V341 := by
  rw [c.k.v176, c.k.v175, c.k.v174, c.k.v171, c.k.v173, c.k.v170, c.k.v172, c.k.c_39, c.k.c_40, c.arg25, x169 c, v341_eq]
  rfl

theorem x177 : X (Proc.devRef .tc main_v177) = V346 := by
  rw [c.k.v177, x176 c, G16_1_eq_L2R4096, v346_eq]

end Top2

theorem top2 {G : RegionFns} {X : Valuation τ sig (Elt Ideal)}
    {a0 : FVec Ideal S10001x64 .f32} {a1 : FVec Ideal S8000x64 .f32} {a2 : FVec Ideal S64x64 .f32} {a3 : FVec Ideal S1x64 .f32}
    {a4 : FVec Ideal S64x64 .f32} {a5 : FVec Ideal S1x64 .f32} {a6 : FVec Ideal S64x64 .f32} {a7 : FVec Ideal S1x64 .f32}
    {a8 : FVec Ideal S448x64 .f32} {a9 : FVec Ideal S64 .f32} {a10 a11 a12 : FVec Ideal S320000 .f32}
    {a13 a14 : FVec Ideal S400000 .f32} {a15 a16 a17 a18 a19 a20 : IVec S320000 32} {a21 a22 a23 a24 : IVec S400000 32}
    {a25 : IVec S4096 32}
    (c : Ctx2 G X a0 a1 a2 a3 a4 a5 a6 a7 a8 a9 a10 a11 a12 a13 a14 a15 a16 a17 a18 a19 a20 a21 a22 a23 a24 a25) :
    X (Proc.devRef .tc main_v167) = val_main_v321 (F := Ideal) a0 a1 a2 a3 a4 a5 a6 a7 a8 a9 a10 a11 a12 a13 a14 a15 a16 a17 a18 a19 a20 a21 a22 a23 a24
      ∧ X (Proc.devRef .tc main_v177) = val_main_v346 (F := Ideal) a0 a1 a2 a3 a4 a5 a6 a7 a8 a9 a10 a11 a12 a13 a14 a15 a16 a17 a18 a19 a20 a21 a22 a23 a24 a25 :=
  ⟨Top2.x167 c, Top2.x177 c⟩

end Cert.Bridge

end
-- ==== Proof.Bridge.Gate.lean ====
import proofs.«417009_j23742579212955_2_alg».proof.Proof.Gen.KernelIdeal.Skeleton
import proofs.«417009_j23742579212955_2_alg».proof.Proof.Bridge.RefStages
import proofs.«417009_j23742579212955_2_alg».proof.Proof.Spec.Real
import Idealize.ShloMosaic.Lib.Pipeline.Value
import Idealize.ShloMosaic.PureOps.Ideal.Laws

noncomputable section

namespace Cert.Bridge

open Cert.KernelIdeal Cert.KernelIdeal.Facts₀ Idealize.ShloMosaic

theorem one_lit : Ideal.ofBits .f32 0x3F800000#32 = 1 := by
  rw [Cert.Spec.ofBits_f32_one]
  rfl

theorem bias_row_eq {α : Type} (b : S1x64.Idx → α) (hT : S1x64.Broadcasts S10000x64)
    (hD : S1x64.BroadcastsInDim S10000x64 (![0, 1] : Fin 2 → Fin S10000x64.rank)) (idx : S10000x64.Idx) :
    broadcastTo S10000x64 b hT idx = broadcastInDim S10000x64 ![0, 1] hD b idx := by
  unfold broadcastTo broadcastInDim
  congr 1
  funext a
  match a with
  | ⟨0, _⟩ => rfl
  | ⟨1, _⟩ => rfl

theorem gate0 (pe : Vec Ideal S10000x64 .f32) (w : Vec Ideal S64x64 .f32) (b : Vec Ideal S1x64 .f32) :
    Cert.KernelIdeal.Gen.k0_pay1 (F := Ideal) pe w b = GateR pe w b := by
  funext idx
  unfold Gen.k0_pay1 GateR
  rw [shapeCast_self]
  show pe idx * Ideal.logistic (FloatOps.matmul (F := Ideal) dot_S10000x64_S64x64_S10000x64_1_0_0_1_n_n none pe w
        (constant (F := Ideal) S10000x64 .f32 0x00000000#32) idx + broadcastTo S10000x64 b broadcasts_S1x64_S10000x64 idx)
      = pe idx * Ideal.div (Ideal.ofBits .f32 0x3F800000#32) (Ideal.ofBits .f32 0x3F800000#32
          + Ideal.exp (-(FloatOps.dotGeneral (F := Ideal) Cert.ReferenceIdeal.dot_S10000x64_S64x64_S10000x64_1_0_0_1_n_n none .single pe w idx
            + broadcastInDim S10000x64 ![0, 1] Cert.ReferenceIdeal.Facts₀.bcast_S1x64_S10000x64_0_1 b idx)))
  rw [Ideal.matmul_constant_zero_apply, Ideal.dotGeneral_apply, one_lit, bias_row_eq b broadcasts_S1x64_S10000x64
    Cert.ReferenceIdeal.Facts₀.bcast_S1x64_S10000x64_0_1]
  rfl

theorem gate1 (pe : Vec Ideal S10000x64 .f32) (w : Vec Ideal S64x64 .f32) (b : Vec Ideal S1x64 .f32) :
    Cert.KernelIdeal.Gen.k1_pay1 (F := Ideal) pe w b = GateR pe w b := by
  funext idx
  unfold Gen.k1_pay1 GateR
  rw [shapeCast_self]
  show pe idx * Ideal.logistic (FloatOps.matmul (F := Ideal) dot_S10000x64_S64x64_S10000x64_1_0_0_1_n_n none pe w
        (constant (F := Ideal) S10000x64 .f32 0x00000000#32) idx + broadcastTo S10000x64 b broadcasts_S1x64_S10000x64 idx)
      = pe idx * Ideal.div (Ideal.ofBits .f32 0x3F800000#32) (Ideal.ofBits .f32 0x3F800000#32
          + Ideal.exp (-(FloatOps.dotGeneral (F := Ideal) Cert.ReferenceIdeal.dot_S10000x64_S64x64_S10000x64_1_0_0_1_n_n none .single pe w idx
            + broadcastInDim S10000x64 ![0, 1] Cert.ReferenceIdeal.Facts₀.bcast_S1x64_S10000x64_0_1 b idx)))
  rw [Ideal.matmul_constant_zero_apply, Ideal.dotGeneral_apply, one_lit, bias_row_eq b broadcasts_S1x64_S10000x64
    Cert.ReferenceIdeal.Facts₀.bcast_S1x64_S10000x64_0_1]
  rfl

theorem gate2 (pe : Vec Ideal S10000x64 .f32) (w : Vec Ideal S64x64 .f32) (b : Vec Ideal S1x64 .f32) :
    Cert.KernelIdeal.Gen.k2_pay1 (F := Ideal) pe w b = GateR pe w b := by
  funext idx
  unfold Gen.k2_pay1 GateR
  rw [shapeCast_self]
  show pe idx * Ideal.logistic (FloatOps.matmul (F := Ideal) dot_S10000x64_S64x64_S10000x64_1_0_0_1_n_n none pe w
        (constant (F := Ideal) S10000x64 .f32 0x00000000#32) idx + broadcastTo S10000x64 b broadcasts_S1x64_S10000x64 idx)
      = pe idx * Ideal.div (Ideal.ofBits .f32 0x3F800000#32) (Ideal.ofBits .f32 0x3F800000#32
          + Ideal.exp (-(FloatOps.dotGeneral (F := Ideal) Cert.ReferenceIdeal.dot_S10000x64_S64x64_S10000x64_1_0_0_1_n_n none .single pe w idx
            + broadcastInDim S10000x64 ![0, 1] Cert.ReferenceIdeal.Facts₀.bcast_S1x64_S10000x64_0_1 b idx)))
  rw [Ideal.matmul_constant_zero_apply, Ideal.dotGeneral_apply, one_lit, bias_row_eq b broadcasts_S1x64_S10000x64
    Cert.ReferenceIdeal.Facts₀.bcast_S1x64_S10000x64_0_1]
  rfl

end Cert.Bridge

end
-- ==== Proof.KI.R11Apply.lean ====
import proofs.«417009_j23742579212955_2_alg».proof.Proof.KI.R11Defs
import proofs.«417009_j23742579212955_2_alg».proof.Proof.Spec.Real
import proofs.«417009_j23742579212955_2_alg».proof.Proof.Spec.Nce

set_option maxRecDepth 16384

noncomputable section

namespace Cert.KernelIdeal.Hand

open Cert.KernelIdeal Cert.KernelIdeal.Gen
open Idealize.ShloMosaic Idealize.ShloMosaic.TcCoe
open Idealize.SL Idealize.SL.Sem
open scoped BigOperators

abbrev D11 := dot_S400x64_S400x64_S400x400_1_1_0_0_n_n

abbrev col11 : D11.contr.Idx ≃ Fin 64 := ValueIdx.contrEquiv1 D11 64 rfl rfl

theorem D11_lhsIdx (a b : Fin 400) (k : D11.contr.Idx) :
    D11.lhsIdx (ValueIdx.ix2 a b) k = ValueIdx.ix2 a (col11 k) :=
  Shape.idx_ext₂ rfl rfl

theorem D11_rhsIdx (a b : Fin 400) (k : D11.contr.Idx) :
    D11.rhsIdx (ValueIdx.ix2 a b) k = ValueIdx.ix2 b (col11 k) :=
  Shape.idx_ext₂ rfl rfl

theorem E11_apply (s : Ideal .f32) (x y : Vec Ideal S400x64 .bf16) (a b : Fin 400) :
    E11 s x y (ValueIdx.ix2 a b) = Ideal.exp ((∑ d : Fin 64, x (ValueIdx.ix2 a d) * y (ValueIdx.ix2 b d)) * s) := by
  have h0 : E11 s x y (ValueIdx.ix2 a b)
      = Ideal.exp (FloatOps.matmul (F := Ideal) (φ₁ := .bf16) (φ₂ := .bf16) D11 none x y
          (constant S400x400 .f32 0x00000000#32) (ValueIdx.ix2 a b) * s) := by
    unfold E11
    simp only [shapeCast_self]
    rfl
  have h1 := Ideal.matmul_constant_zero_apply (φ₁ := .bf16) (φ₂ := .bf16) D11 none x y (ValueIdx.ix2 a b)
  have h2 : ∑ k : D11.contr.Idx, x (D11.lhsIdx (ValueIdx.ix2 a b) k) * y (D11.rhsIdx (ValueIdx.ix2 a b) k)
      = ∑ d : Fin 64, x (ValueIdx.ix2 a d) * y (ValueIdx.ix2 b d) :=
    (Finset.sum_congr rfl fun k _ =>
      congrArg₂ (· * ·) (congrArg x (D11_lhsIdx a b k)) (congrArg y (D11_rhsIdx a b k))).trans
      (col11.sum_comp (fun d => x (ValueIdx.ix2 a d) * y (ValueIdx.ix2 b d)))
  exact h0.trans (congrArg (fun z => Ideal.exp (z * s)) (h1.trans h2))

theorem rowSum11_apply (e : FVec Ideal S400x400 .f32) (a : Fin 400) :
    multiReduction (F := Ideal) .add [1] S400 e 0x00000000#32 reduces_S400x400_S400 (.inl rfl) rfl (ValueIdx.ix1 a)
      = ∑ b : Fin 400, e (ValueIdx.ix2 a b) :=
  (Ideal.multiReduction_add_single e _ reduces_S400x400_S400 (.inl rfl) rfl (ValueIdx.ix1 a)).trans
    (Finset.sum_congr rfl fun b _ => congrArg e (Shape.idx_ext₂ rfl rfl))

theorem rowStep11_apply (s : Ideal .f32) (x y : Vec Ideal S400x64 .bf16) (acc : Vec Ideal S400x1 .f32) (a : Fin 400) :
    rowStep11 s x y acc (ValueIdx.ix2 a 0) = acc (ValueIdx.ix2 a 0) + ∑ b : Fin 400, E11 s x y (ValueIdx.ix2 a b) := by
  have h0 : rowStep11 s x y acc (ValueIdx.ix2 a 0)
      = acc (ValueIdx.ix2 a 0) + shapeCast S400x1 (multiReduction (F := Ideal) .add [1] S400 (E11 s x y) 0x00000000#32
          reduces_S400x400_S400 (.inl rfl) rfl) shapeCasts_S400_S400x1 (ValueIdx.ix2 a 0) := by
    unfold rowStep11
    simp only [shapeCast_self]
    rfl
  have h1 := shapeCast_apply (multiReduction (F := Ideal) .add [1] S400 (E11 s x y) 0x00000000#32
      reduces_S400x400_S400 (.inl rfl) rfl) shapeCasts_S400_S400x1 (ValueIdx.ix2 a 0) (ValueIdx.ix1 a)
      (by rw [Shape.rowMajor_val_one, Shape.rowMajor_val_two]; simp)
  exact h0.trans (congrArg (acc (ValueIdx.ix2 a 0) + ·) (h1.trans (rowSum11_apply (E11 s x y) a)))

theorem tile11_apply (A : Vec Ideal S10000x64 .bf16) {k : ℕ} (hk : k < 25) (a : Fin 400) (d : Fin 64) :
    tile11 A k (ValueIdx.ix2 a d) = A (ValueIdx.ix2 (⟨400 * k + a.val, by omega⟩ : Fin 10000) d) :=
  congrArg A (Shape.idx_ext₂
    (show min (400 * k + a.val) 9999 = 400 * k + a.val from Nat.min_eq_left (by have := a.isLt; omega)) rfl)

theorem k11_pay1_apply (i : S400x1.Idx) : k11_pay1 (F := Ideal) i = 0 := by
  unfold k11_pay1
  simp only [shapeCast_self]
  exact Ideal.ofBits_zero_f32

theorem acc11_apply (s : Ideal .f32) (A B : Vec Ideal S10000x64 .bf16) (i j : ℕ) (a : Fin 400) :
    acc11 s A B i j (ValueIdx.ix2 a 0)
      = ∑ jj ∈ Finset.range (j + 1), ∑ b : Fin 400, E11 s (tile11 A i) (tile11 B jj) (ValueIdx.ix2 a b) := by
  induction j with
  | zero =>
    show rowStep11 s (tile11 A i) (tile11 B 0) (k11_pay1 (F := Ideal)) (ValueIdx.ix2 a 0) = _
    rw [rowStep11_apply, Finset.sum_range_one, k11_pay1_apply, zero_add]
  | succ j ih =>
    show rowStep11 s (tile11 A i) (tile11 B (j + 1)) (acc11 s A B i j) (ValueIdx.ix2 a 0) = _
    rw [rowStep11_apply, ih, Finset.sum_range_succ _ (j + 1)]

theorem G11_2_apply (s : Ideal .f32) (A B : Vec Ideal S10000x64 .bf16) (r : Fin 10000) :
    G11_2 s A B (ValueIdx.ix2 r 0)
      = ∑ q : Fin 10000, Ideal.exp ((∑ d : Fin 64, A (ValueIdx.ix2 r d) * B (ValueIdx.ix2 q d)) * s) := by
  have hr := r.isLt
  have h0 : G11_2 s A B (ValueIdx.ix2 r 0)
      = acc11 s A B (r.val / 400) 24 (ValueIdx.ix2 (⟨r.val % 400, Nat.mod_lt _ (by decide)⟩ : Fin 400) 0) := rfl
  have hA : ∀ d : Fin 64, tile11 A (r.val / 400) (ValueIdx.ix2 (⟨r.val % 400, Nat.mod_lt _ (by decide)⟩ : Fin 400) d)
      = A (ValueIdx.ix2 r d) := fun d =>
    (tile11_apply A (by omega) _ d).trans
      (congrArg (fun t => A (ValueIdx.ix2 t d)) (Fin.ext (Nat.div_add_mod r.val 400)))
  have hB : ∀ (j : Fin 25) (b : Fin 400) (d : Fin 64),
      tile11 B j.val (ValueIdx.ix2 b d) = B (ValueIdx.ix2 (⟨400 * j.val + b.val, by omega⟩ : Fin 10000) d) :=
    fun j b d => tile11_apply B j.isLt b d
  rw [h0, acc11_apply,
    ← Cert.Spec.sum_tiles (fun q => Ideal.exp ((∑ d : Fin 64, A (ValueIdx.ix2 r d) * B (ValueIdx.ix2 q d)) * s)),
    ← Fin.sum_univ_eq_sum_range (fun jj => ∑ b : Fin 400, E11 s (tile11 A (r.val / 400)) (tile11 B jj)
      (ValueIdx.ix2 (⟨r.val % 400, Nat.mod_lt _ (by decide)⟩ : Fin 400) b)) 25]
  refine Finset.sum_congr rfl fun j _ => Finset.sum_congr rfl fun b _ => ?_
  rw [E11_apply]
  simp only [hA, hB]

end Cert.KernelIdeal.Hand

end
-- ==== Proof.KI.R11ApplyCols.lean ====
import proofs.«417009_j23742579212955_2_alg».proof.Proof.KI.R11Defs
import proofs.«417009_j23742579212955_2_alg».proof.Proof.Spec.Nce
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.Sem
open scoped BigOperators

namespace Cols11

open ValueIdx

theorem E11_at (s : Ideal .f32) (x y : Vec Ideal S400x64 .bf16) (r l : Fin 400) :
    E11 s x y (ix2 r l) = Ideal.exp ((∑ d : Fin 64, x (ix2 r d) * y (ix2 l d)) * s) := by
  unfold E11
  rw [shapeCast_self, shapeCast_self]
  show Ideal.exp (FloatOps.matmul (F := Ideal) dot_S400x64_S400x64_S400x400_1_1_0_0_n_n none x y
    (constant (F := Ideal) S400x400 .f32 0x00000000#32) (ix2 r l) * s) = _
  rw [Ideal.matmul_constant_zero_apply]
  congr 2
  rw [← Equiv.sum_comp (contrEquiv1 dot_S400x64_S400x64_S400x400_1_1_0_0_n_n 64 rfl rfl).symm]
  refine Finset.sum_congr rfl fun d _ => ?_
  have hv := contrEquiv1_symm_val dot_S400x64_S400x64_S400x400_1_1_0_0_n_n 64 rfl rfl d
  congr 1
  · congr 1
    exact Shape.idx_ext₂ rfl hv
  · congr 1
    exact Shape.idx_ext₂ rfl hv

theorem colStep11_at (s : Ideal .f32) (x y : Vec Ideal S400x64 .bf16) (v : Vec Ideal S400x1 .f32) (l : Fin 400) :
    colStep11 s x y v (ix2 l (0 : Fin 1)) = v (ix2 l (0 : Fin 1)) + ∑ r : Fin 400, E11 s x y (ix2 r l) := by
  unfold colStep11
  rw [shapeCast_self]
  show v (ix2 l (0 : Fin 1)) + transpose S400x1 [1, 0] (shapeCast S1x400
    (multiReduction .add [0] S400 (E11 s x y) 0x00000000#32 reduces_S400x400_S400_2 (.inl rfl) rfl)
    shapeCasts_S400_S1x400) transposes_S1x400_p1_0_S400x1 (ix2 l (0 : Fin 1)) = _
  rw [transpose_ix2_apply, shapeCast_a_1a_apply]
  have hmr : multiReduction (F := Ideal) .add [0] S400 (E11 s x y) 0x00000000#32 reduces_S400x400_S400_2 (.inl rfl) rfl (ix1 l)
      = ∑ k : Fin (S400x400.size 0), E11 s x y (reduces_S400x400_S400_2.lift (ix1 l) k) :=
    Ideal.multiReduction_add_single (E11 s x y) _ reduces_S400x400_S400_2 (.inl rfl) rfl (ix1 l)
  refine (congrArg (v (ix2 l (0 : Fin 1)) + ·) hmr).trans ?_
  refine congrArg (v (ix2 l (0 : Fin 1)) + ·) (Finset.sum_congr rfl fun k _ => ?_)
  congr 1
  exact Shape.idx_ext₂ rfl rfl

theorem tile11_at (A : Vec Ideal S10000x64 .bf16) (k : ℕ) (hk : k < 25) (r' : Fin 400) (d : Fin 64) :
    tile11 A k (ix2 r' d) = A (ix2 (⟨400 * k + r'.val, by have := r'.isLt; omega⟩ : Fin 10000) d) := by
  unfold tile11
  congr 2
  apply Fin.ext
  show min (400 * k + r'.val) 9999 = 400 * k + r'.val
  have := r'.isLt
  omega

theorem o2Step11_at (s : Ideal .f32) (t : Fin cfg11.N) (x y : Vec Ideal S400x64 .bf16) (o : Vec Ideal S10000x1 .f32)
    (q : Fin 10000) :
    o2Step11 s (grid11.coords t) x y o (ix2 q (0 : Fin 1))
      = if q.val / 400 = t.val % 25 then
          o (ix2 q (0 : Fin 1)) + ∑ r : Fin 400, E11 s x y (ix2 r (⟨q.val % 400, Nat.mod_lt _ (by decide)⟩ : Fin 400))
        else o (ix2 q (0 : Fin 1)) := by
  have hoff := off_facts11 t
  have hoff0 : k11_off1 (grid11.coords t) 0 = 400 * (t.val % 25) := by rw [hoff]; rfl
  have hoff1 : k11_off1 (grid11.coords t) 1 = 0 := by rw [hoff]; rfl
  unfold o2Step11
  by_cases h : q.val / 400 = t.val % 25
  · rw [if_pos h]
    have hq : (ix2 q (0 : Fin 1) : S10000x1.Idx)
        = (r11_sl (grid11.coords t)).emb (ix2 (⟨q.val % 400, Nat.mod_lt _ (by decide)⟩ : Fin 400) (0 : Fin 1)) := by
      funext a
      apply Fin.ext
      rw [Rect.emb_apply]
      match a with
      | ⟨0, _⟩ =>
        show q.val = k11_off1 (grid11.coords t) 0 + 1 * (q.val % 400)
        rw [hoff0]; omega
      | ⟨1, _⟩ =>
        show 0 = k11_off1 (grid11.coords t) 1 + 1 * 0
        rw [hoff1]
    conv_lhs => rw [hq]
    rw [Rect.overlay_emb, colStep11_at]
    congr 1
    show o ((r11_sl (grid11.coords t)).emb (ix2 (⟨q.val % 400, Nat.mod_lt _ (by decide)⟩ : Fin 400) (0 : Fin 1))) = _
    rw [← hq]
  · rw [if_neg h]
    refine Rect.overlay_of_not_mem _ _ _ ?_
    intro hm
    have h0 := (Rect.mem_set_unit.mp hm) 0
    rw [hoff0] at h0
    have e0 : ((ix2 q (0 : Fin 1) : S10000x1.Idx) 0).val = q.val := rfl
    have e1 : S400x1.size 0 = 400 := rfl
    rw [e0, e1] at h0
    omega

def T (s : Ideal .f32) (A B : Vec Ideal S10000x64 .bf16) (j : ℕ) (l : Fin 400) (k : ℕ) : EReal :=
  ∑ r : Fin 400, E11 s (tile11 A k) (tile11 B j) (ix2 r l)

theorem pay2_at (i : S10000x1.Idx) : k11_pay2 (F := Ideal) i = 0 := by
  show Ideal.ofBits .f32 0x00000000#32 = 0
  exact Ideal.ofBits_zero_f32

theorem o2At11_at (s : Ideal .f32) (A B : Vec Ideal S10000x64 .bf16) (q : Fin 10000) :
    ∀ (n : ℕ) (h : n < cfg11.N), o2At11 s A B n h (ix2 q (0 : Fin 1))
      = ∑ m ∈ (Finset.range (n + 1)).filter (fun m => m % 25 = q.val / 400),
          T s A B (q.val / 400) ⟨q.val % 400, Nat.mod_lt _ (by decide)⟩ (m / 25) := by
  intro n
  induction n with
  | zero =>
    intro h
    show o2Step11 s (grid11.coords ⟨0, h⟩) (tile11 A (0 / 25)) (tile11 B (0 % 25)) (k11_pay2 (F := Ideal)) (ix2 q (0 : Fin 1)) = _
    rw [o2Step11_at, pay2_at]
    by_cases hq : q.val / 400 = (⟨0, h⟩ : Fin cfg11.N).val % 25
    · rw [if_pos hq]
      have hq' : q.val / 400 = 0 := hq
      have hf : (Finset.range (0 + 1)).filter (fun m => m % 25 = q.val / 400) = {0} := by
        rw [hq']; rfl
      rw [hf, Finset.sum_singleton, zero_add]
      unfold T
      rw [hq']
    · rw [if_neg hq]
      have hq' : ¬ q.val / 400 = 0 := hq
      have hf : (Finset.range (0 + 1)).filter (fun m => m % 25 = q.val / 400) = ∅ := by
        rw [Finset.filter_eq_empty_iff]
        intro m hm
        have : m = 0 := by simpa using hm
        subst this
        intro h0
        exact hq' h0.symm
      rw [hf, Finset.sum_empty]
  | succ n ih =>
    intro h
    show o2Step11 s (grid11.coords ⟨n + 1, h⟩) (tile11 A ((n + 1) / 25)) (tile11 B ((n + 1) % 25))
      (o2At11 s A B n (Nat.lt_of_succ_lt h)) (ix2 q (0 : Fin 1)) = _
    rw [o2Step11_at, ih (Nat.lt_of_succ_lt h), Finset.range_add_one (n := n + 1), Finset.filter_insert]
    by_cases hq : q.val / 400 = (⟨n + 1, h⟩ : Fin cfg11.N).val % 25
    · have hq' : q.val / 400 = (n + 1) % 25 := hq
      rw [if_pos hq, if_pos hq'.symm, Finset.sum_insert (by simp), add_comm]
      congr 1
      unfold T
      rw [hq']
    · have hq' : ¬ (n + 1) % 25 = q.val / 400 := fun e => hq e.symm
      rw [if_neg hq, if_neg hq']

end Cols11

theorem G11_3_apply (s : Ideal .f32) (A B : Vec Ideal S10000x64 .bf16) (q : Fin 10000) :
    G11_3 s A B (ValueIdx.ix2 q 0)
      = ∑ r : Fin 10000, Ideal.exp ((∑ d : Fin 64, A (ValueIdx.ix2 r d) * B (ValueIdx.ix2 q d)) * s) := by
  have hj : q.val / 400 < 25 := by have := q.isLt; omega
  unfold G11_3
  rw [Cols11.o2At11_at s A B q 624 (by decide)]
  have hbij : ∑ m ∈ (Finset.range (624 + 1)).filter (fun m => m % 25 = q.val / 400),
        Cols11.T s A B (q.val / 400) ⟨q.val % 400, Nat.mod_lt _ (by decide)⟩ (m / 25)
      = ∑ i ∈ Finset.range 25, Cols11.T s A B (q.val / 400) ⟨q.val % 400, Nat.mod_lt _ (by decide)⟩ i := by
    refine Finset.sum_nbij' (fun m => m / 25) (fun i => 25 * i + q.val / 400) ?_ ?_ ?_ ?_ ?_
    · intro m hm
      have h1 := Finset.mem_range.mp (Finset.mem_filter.mp hm).1
      exact Finset.mem_range.mpr (by omega)
    · intro i hi
      have h1 := Finset.mem_range.mp hi
      exact Finset.mem_filter.mpr ⟨Finset.mem_range.mpr (by omega), by omega⟩
    · intro m hm
      have h2 := (Finset.mem_filter.mp hm).2
      show 25 * (m / 25) + q.val / 400 = m
      omega
    · intro i hi
      show (25 * i + q.val / 400) / 25 = i
      omega
    · intro m hm
      rfl
  rw [hbij, ← Fin.sum_univ_eq_sum_range (fun i => Cols11.T s A B (q.val / 400) ⟨q.val % 400, Nat.mod_lt _ (by decide)⟩ i) 25,
    ← Cert.Spec.sum_tiles (fun r : Fin 10000 => Ideal.exp ((∑ d : Fin 64, A (ValueIdx.ix2 r d) * B (ValueIdx.ix2 q d)) * s))]
  refine Finset.sum_congr rfl fun i _ => ?_
  unfold Cols11.T
  refine Finset.sum_congr rfl fun r _ => ?_
  rw [Cols11.E11_at]
  congr 2
  refine Finset.sum_congr rfl fun d _ => ?_
  rw [Cols11.tile11_at A i.val i.isLt r d, Cols11.tile11_at B (q.val / 400) hj _ d]
  have hqq : (⟨400 * (q.val / 400) + q.val % 400, by have := q.isLt; omega⟩ : Fin 10000) = q :=
    Fin.ext (by show 400 * (q.val / 400) + q.val % 400 = q.val; omega)
  rw [hqq]

end Cert.KernelIdeal.Hand

end
-- ==== Proof.Bridge.Final.lean ====
import proofs.«417009_j23742579212955_2_alg».proof.Proof.Bridge.Top
import proofs.«417009_j23742579212955_2_alg».proof.Proof.Bridge.Top2
import proofs.«417009_j23742579212955_2_alg».proof.Proof.Bridge.Gfns
import proofs.«417009_j23742579212955_2_alg».proof.Proof.Bridge.Gate
import proofs.«417009_j23742579212955_2_alg».proof.Proof.Bridge.Consts
import proofs.«417009_j23742579212955_2_alg».proof.Proof.Bridge.SpmmPlain
import proofs.«417009_j23742579212955_2_alg».proof.Proof.KI.R05
import proofs.«417009_j23742579212955_2_alg».proof.Proof.KI.R07
import proofs.«417009_j23742579212955_2_alg».proof.Proof.KI.R12
import proofs.«417009_j23742579212955_2_alg».proof.Proof.KI.R13
import proofs.«417009_j23742579212955_2_alg».proof.Proof.KI.R15
import proofs.«417009_j23742579212955_2_alg».proof.Proof.KI.R11Apply
import proofs.«417009_j23742579212955_2_alg».proof.Proof.KI.R11ApplyCols

set_option maxRecDepth 16384

noncomputable section

open scoped BigOperators

namespace Cert.Bridge

open Cert.ReferenceIdeal.Read Idealize.ShloMosaic Idealize.ShloMosaic.TcCoe Idealize.SL.Sem
open Cert.Spec (IsReal)
open Cert.KernelIdeal.Facts₀ (bitsLt_bf16_f32)

theorem gfns_g0 (pe : FVec Ideal Cert.KernelIdeal.S10000x64 .f32) (w : FVec Ideal Cert.KernelIdeal.S64x64 .f32)
    (b : FVec Ideal Cert.KernelIdeal.S1x64 .f32) : Gfns.G0_3 pe w b = GateR pe w b := gate0 pe w b

theorem gfns_g1 (pe : FVec Ideal Cert.KernelIdeal.S10000x64 .f32) (w : FVec Ideal Cert.KernelIdeal.S64x64 .f32)
    (b : FVec Ideal Cert.KernelIdeal.S1x64 .f32) : Gfns.G1_3 pe w b = GateR pe w b := gate1 pe w b

theorem gfns_g2 (pe : FVec Ideal Cert.KernelIdeal.S10000x64 .f32) (w : FVec Ideal Cert.KernelIdeal.S64x64 .f32)
    (b : FVec Ideal Cert.KernelIdeal.S1x64 .f32) : Gfns.G2_3 pe w b = GateR pe w b := gate2 pe w b

theorem gfns_g5 (rows cols : IVec Cert.KernelIdeal.S320000 32) (vals : FVec Ideal Cert.KernelIdeal.S320000 .f32)
    (x : FVec Ideal Cert.KernelIdeal.S10000x64 .f32)
    (hr : ∀ i, 0 ≤ (rows i).toInt ∧ (rows i).toInt < 10000) (hc : ∀ i, 0 ≤ (cols i).toInt ∧ (cols i).toInt < 10000)
    (hv : IsReal vals) (hx : IsReal x) :
    Gfns.G5_2 (truncf .bf16 (DensePP rows cols vals) bitsLt_bf16_f32) (truncf .bf16 x bitsLt_bf16_f32) = SpmmPP rows cols vals x :=
  spmmPP_of_product rows cols vals x _ hr hc hv hx (fun r d => Cert.KernelIdeal.Hand.G5_2_apply _ _ r d)

theorem gfns_g7 (rows cols : IVec Cert.KernelIdeal.S320000 32) (vals : FVec Ideal Cert.KernelIdeal.S320000 .f32)
    (x : FVec Ideal Cert.KernelIdeal.S10000x64 .f32)
    (hr : ∀ i, 0 ≤ (rows i).toInt ∧ (rows i).toInt < 10000) (hc : ∀ i, 0 ≤ (cols i).toInt ∧ (cols i).toInt < 10000)
    (hv : IsReal vals) (hx : IsReal x) :
    Gfns.G7_2 (truncf .bf16 (DensePP rows cols vals) bitsLt_bf16_f32) (truncf .bf16 x bitsLt_bf16_f32) = SpmmPP rows cols vals x :=
  spmmPP_of_product rows cols vals x _ hr hc hv hx (fun r d => Cert.KernelIdeal.Hand.G7_2_apply _ _ r d)

theorem gfns_g11_2 (A B : FVec Ideal Cert.KernelIdeal.S10000x64 .bf16) (r : Fin 10000) :
    Gfns.G11_2 (Named.named (F := Ideal) Cert.KernelIdeal.κ "inv_temp" (φ := .f32) 0x40A00000#32) A B (ValueIdx.ix2 r (0 : Fin 1))
      = ∑ q : Fin 10000, Ideal.exp ((∑ d : Fin 64, A (ValueIdx.ix2 r d) * B (ValueIdx.ix2 q d))
          * ((67108864 / 13421773 : ℝ) : EReal)) :=
  (Cert.KernelIdeal.Hand.G11_2_apply _ A B r).trans (by rw [inv_temp_val])

theorem gfns_g11_3 (A B : FVec Ideal Cert.KernelIdeal.S10000x64 .bf16) (q : Fin 10000) :
    Gfns.G11_3 (Named.named (F := Ideal) Cert.KernelIdeal.κ "inv_temp" (φ := .f32) 0x40A00000#32) A B (ValueIdx.ix2 q (0 : Fin 1))
      = ∑ r : Fin 10000, Ideal.exp ((∑ d : Fin 64, A (ValueIdx.ix2 r d) * B (ValueIdx.ix2 q d))
          * ((67108864 / 13421773 : ℝ) : EReal)) :=
  (Cert.KernelIdeal.Hand.G11_3_apply _ A B q).trans (by rw [inv_temp_val])

theorem top (X : Valuation Cert.KernelIdeal.τ Cert.KernelIdeal.sig (Elt Ideal)) (h : KEqs Gfns X)
    (a0 : (⟨Cert.ReferenceIdeal.S10001x64, .f32⟩ : BufTy).Contents (Elt Ideal))
    (a1 : (⟨Cert.ReferenceIdeal.S8000x64, .f32⟩ : BufTy).Contents (Elt Ideal))
    (a2 : (⟨Cert.ReferenceIdeal.S64x64, .f32⟩ : BufTy).Contents (Elt Ideal))
    (a3 : (⟨Cert.ReferenceIdeal.S1x64, .f32⟩ : BufTy).Contents (Elt Ideal))
    (a4 : (⟨Cert.ReferenceIdeal.S64x64, .f32⟩ : BufTy).Contents (Elt Ideal))
    (a5 : (⟨Cert.ReferenceIdeal.S1x64, .f32⟩ : BufTy).Contents (Elt Ideal))
    (a6 : (⟨Cert.ReferenceIdeal.S64x64, .f32⟩ : BufTy).Contents (Elt Ideal))
    (a7 : (⟨Cert.ReferenceIdeal.S1x64, .f32⟩ : BufTy).Contents (Elt Ideal))
    (a8 : (⟨Cert.ReferenceIdeal.S448x64, .f32⟩ : BufTy).Contents (Elt Ideal))
    (a9 : (⟨Cert.ReferenceIdeal.S64, .f32⟩ : BufTy).Contents (Elt Ideal))
    (a10 : (⟨Cert.ReferenceIdeal.S320000, .f32⟩ : BufTy).Contents (Elt Ideal))
    (a11 : (⟨Cert.ReferenceIdeal.S320000, .f32⟩ : BufTy).Contents (Elt Ideal))
    (a12 : (⟨Cert.ReferenceIdeal.S320000, .f32⟩ : BufTy).Contents (Elt Ideal))
    (a13 : (⟨Cert.ReferenceIdeal.S400000, .f32⟩ : BufTy).Contents (Elt Ideal))
    (a14 : (⟨Cert.ReferenceIdeal.S400000, .f32⟩ : BufTy).Contents (Elt Ideal))
    (a15 : (⟨Cert.ReferenceIdeal.S320000, .i32⟩ : BufTy).Contents (Elt Ideal))
    (a16 : (⟨Cert.ReferenceIdeal.S320000, .i32⟩ : BufTy).Contents (Elt Ideal))
    (a17 : (⟨Cert.ReferenceIdeal.S320000, .i32⟩ : BufTy).Contents (Elt Ideal))
    (a18 : (⟨Cert.ReferenceIdeal.S320000, .i32⟩ : BufTy).Contents (Elt Ideal))
    (a19 : (⟨Cert.ReferenceIdeal.S320000, .i32⟩ : BufTy).Contents (Elt Ideal))
    (a20 : (⟨Cert.ReferenceIdeal.S320000, .i32⟩ : BufTy).Contents (Elt Ideal))
    (a21 : (⟨Cert.ReferenceIdeal.S400000, .i32⟩ : BufTy).Contents (Elt Ideal))
    (a22 : (⟨Cert.ReferenceIdeal.S400000, .i32⟩ : BufTy).Contents (Elt Ideal))
    (a23 : (⟨Cert.ReferenceIdeal.S400000, .i32⟩ : BufTy).Contents (Elt Ideal))
    (a24 : (⟨Cert.ReferenceIdeal.S400000, .i32⟩ : BufTy).Contents (Elt Ideal))
    (a25 : (⟨Cert.ReferenceIdeal.S4096, .i32⟩ : BufTy).Contents (Elt Ideal))
    (harg0 : X (Proc.devRef .tc Cert.KernelIdeal.main_arg0) = a0)
    (harg1 : X (Proc.devRef .tc Cert.KernelIdeal.main_arg1) = a1)
    (harg2 : X (Proc.devRef .tc Cert.KernelIdeal.main_arg2) = a2)
    (harg3 : X (Proc.devRef .tc Cert.KernelIdeal.main_arg3) = a3)
    (harg4 : X (Proc.devRef .tc Cert.KernelIdeal.main_arg4) = a4)
    (harg5 : X (Proc.devRef .tc Cert.KernelIdeal.main_arg5) = a5)
    (harg6 : X (Proc.devRef .tc Cert.KernelIdeal.main_arg6) = a6)
    (harg7 : X (Proc.devRef .tc Cert.KernelIdeal.main_arg7) = a7)
    (harg8 : X (Proc.devRef .tc Cert.KernelIdeal.main_arg8) = a8)
    (harg9 : X (Proc.devRef .tc Cert.KernelIdeal.main_arg9) = a9)
    (harg10 : X (Proc.devRef .tc Cert.KernelIdeal.main_arg10) = a10)
    (harg11 : X (Proc.devRef .tc Cert.KernelIdeal.main_arg11) = a11)
    (harg12 : X (Proc.devRef .tc Cert.KernelIdeal.main_arg12) = a12)
    (harg13 : X (Proc.devRef .tc Cert.KernelIdeal.main_arg13) = a13)
    (harg14 : X (Proc.devRef .tc Cert.KernelIdeal.main_arg14) = a14)
    (harg15 : X (Proc.devRef .tc Cert.KernelIdeal.main_arg15) = a15)
    (harg16 : X (Proc.devRef .tc Cert.KernelIdeal.main_arg16) = a16)
    (harg17 : X (Proc.devRef .tc Cert.KernelIdeal.main_arg17) = a17)
    (harg18 : X (Proc.devRef .tc Cert.KernelIdeal.main_arg18) = a18)
    (harg19 : X (Proc.devRef .tc Cert.KernelIdeal.main_arg19) = a19)
    (harg20 : X (Proc.devRef .tc Cert.KernelIdeal.main_arg20) = a20)
    (harg21 : X (Proc.devRef .tc Cert.KernelIdeal.main_arg21) = a21)
    (harg22 : X (Proc.devRef .tc Cert.KernelIdeal.main_arg22) = a22)
    (harg23 : X (Proc.devRef .tc Cert.KernelIdeal.main_arg23) = a23)
    (harg24 : X (Proc.devRef .tc Cert.KernelIdeal.main_arg24) = a24)
    (harg25 : X (Proc.devRef .tc Cert.KernelIdeal.main_arg25) = a25)
    (hpre : Cert.Pre_finite_inputs.fn (F := Ideal) a0 a1 a2 a3 a4 a5 a6 a7 a8 a9 a10 a11 a12 a13 a14 a15 a16 a17 a18 a19 a20 a21 a22 a23 a24 a25 = fun _ => 1#1) :
    X (Proc.devRef .tc Cert.KernelIdeal.main_v177) = val_main_v346 (F := Ideal) a0 a1 a2 a3 a4 a5 a6 a7 a8 a9 a10 a11 a12 a13 a14 a15 a16 a17 a18 a19 a20 a21 a22 a23 a24 a25
    ∧ X (Proc.devRef .tc Cert.KernelIdeal.main_v167) = val_main_v321 (F := Ideal) a0 a1 a2 a3 a4 a5 a6 a7 a8 a9 a10 a11 a12 a13 a14 a15 a16 a17 a18 a19 a20 a21 a22 a23 a24
    ∧ X (Proc.devRef .tc Cert.KernelIdeal.main_v140) = val_main_v176 (F := Ideal) a0 a2 a3 a4 a5 a10 a11 a12 a15 a16 a17 a18 a19 a20 := by
  have c1 : Ctx Gfns X a0 a1 a2 a3 a4 a5 a6 a7 a8 a9 a10 a11 a12 a13 a14 a15 a16 a17 a18 a19 a20 a21 a22 a23 a24 a25 :=
    { k := h, arg0 := harg0, arg1 := harg1, arg2 := harg2, arg3 := harg3, arg4 := harg4, arg5 := harg5, arg6 := harg6,
      arg7 := harg7, arg8 := harg8, arg9 := harg9, arg10 := harg10, arg11 := harg11, arg12 := harg12, arg13 := harg13,
      arg14 := harg14, arg15 := harg15, arg16 := harg16, arg17 := harg17, arg18 := harg18, arg19 := harg19, arg20 := harg20,
      arg21 := harg21, arg22 := harg22, arg23 := harg23, arg24 := harg24, arg25 := harg25, pre := hpre,
      g0 := gfns_g0, g1 := gfns_g1, g2 := gfns_g2, g5 := gfns_g5, g7 := gfns_g7,
      g11_2 := fun A B _ _ r => gfns_g11_2 A B r, g11_3 := fun A B _ _ q => gfns_g11_3 A B q }
  obtain ⟨⟨e3, r30⟩, ⟨e104, r129⟩, ⟨e105, r134⟩, e140⟩ := Top1.half1 c1
  have c2 : Ctx2 Gfns X a0 a1 a2 a3 a4 a5 a6 a7 a8 a9 a10 a11 a12 a13 a14 a15 a16 a17 a18 a19 a20 a21 a22 a23 a24 a25 :=
    { k := h, arg1 := harg1, arg8 := harg8, arg9 := harg9, arg13 := harg13, arg14 := harg14, arg21 := harg21, arg22 := harg22,
      arg23 := harg23, arg24 := harg24, arg25 := harg25, pre := hpre, x3 := e3, r30 := r30, x104 := e104, r129 := r129,
      x105 := e105, r134 := r134,
      g12 := fun A B r d => Cert.KernelIdeal.Hand.G12_2_apply A B r d,
      g13 := fun A B r d => Cert.KernelIdeal.Hand.G13_2_apply A B r d,
      g15 := fun A B r d => Cert.KernelIdeal.Hand.G15_2_apply A B r d }
  obtain ⟨e167, e177⟩ := top2 c2
  exact ⟨e177, e167, e140⟩

end Cert.Bridge

end
-- ==== Proof.Algebraic.lean ====
import proofs.«417009_j23742579212955_2_alg».proof.Defs
import proofs.«417009_j23742579212955_2_alg».proof.Proof.Gen.Pre_finite_inputs
import proofs.«417009_j23742579212955_2_alg».proof.Proof.Gen.ReferenceIdeal
import proofs.«417009_j23742579212955_2_alg».proof.Proof.Ref.Read
import proofs.«417009_j23742579212955_2_alg».proof.Proof.Ref.Run
import proofs.«417009_j23742579212955_2_alg».proof.Proof.KI.Chain
import proofs.«417009_j23742579212955_2_alg».proof.Proof.KI.Values3
import proofs.«417009_j23742579212955_2_alg».proof.Proof.Bridge.Final

noncomputable section

namespace Cert.Proof.Parts

open Idealize.ShloMosaic Idealize.ShloMosaic.TcCoe Idealize.SL.Sem
open Cert.ReferenceIdeal.Read (val_main_v346 val_main_v321 val_main_v176)
open Cert.KernelIdeal.Hand (Wlast run_main)

set_option maxHeartbeats 4000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => val_main_v346 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)),
    fun c => val_main_v321 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)),
    fun c => val_main_v176 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)), ?_, Cert.ReferenceIdeal.RefValue.ref_run m' ρ'⟩
  refine (θ_run _ _ _).mono (fun r h c => ?_) (run_main (F := Ideal) m ρ)
  obtain ⟨e0, e1, e2, e3, e4, e5, e6, e7, e8, e9, e10, e11, e12, e13, e14, e15, e16, e17, e18, e19, e20, e21, e22, e23, e24, e25⟩ := hagree c
  obtain ⟨h0, h1, h2⟩ := Cert.Bridge.top (Wlast (F := Ideal) m ρ c) (Cert.KernelIdeal.Hand.keqs m ρ c)
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))
    (Cert.KernelIdeal.Hand.Wlast_arg m ρ c Cert.KernelIdeal.main_arg0 (by decide)) (Cert.KernelIdeal.Hand.Wlast_arg m ρ c Cert.KernelIdeal.main_arg1 (by decide)) (Cert.KernelIdeal.Hand.Wlast_arg m ρ c Cert.KernelIdeal.main_arg2 (by decide)) (Cert.KernelIdeal.Hand.Wlast_arg m ρ c Cert.KernelIdeal.main_arg3 (by decide)) (Cert.KernelIdeal.Hand.Wlast_arg m ρ c Cert.KernelIdeal.main_arg4 (by decide)) (Cert.KernelIdeal.Hand.Wlast_arg m ρ c Cert.KernelIdeal.main_arg5 (by decide)) (Cert.KernelIdeal.Hand.Wlast_arg m ρ c Cert.KernelIdeal.main_arg6 (by decide)) (Cert.KernelIdeal.Hand.Wlast_arg m ρ c Cert.KernelIdeal.main_arg7 (by decide)) (Cert.KernelIdeal.Hand.Wlast_arg m ρ c Cert.KernelIdeal.main_arg8 (by decide)) (Cert.KernelIdeal.Hand.Wlast_arg m ρ c Cert.KernelIdeal.main_arg9 (by decide)) (Cert.KernelIdeal.Hand.Wlast_arg m ρ c Cert.KernelIdeal.main_arg10 (by decide)) (Cert.KernelIdeal.Hand.Wlast_arg m ρ c Cert.KernelIdeal.main_arg11 (by decide)) (Cert.KernelIdeal.Hand.Wlast_arg m ρ c Cert.KernelIdeal.main_arg12 (by decide)) (Cert.KernelIdeal.Hand.Wlast_arg m ρ c Cert.KernelIdeal.main_arg13 (by decide)) (Cert.KernelIdeal.Hand.Wlast_arg m ρ c Cert.KernelIdeal.main_arg14 (by decide)) (Cert.KernelIdeal.Hand.Wlast_arg m ρ c Cert.KernelIdeal.main_arg15 (by decide)) (Cert.KernelIdeal.Hand.Wlast_arg m ρ c Cert.KernelIdeal.main_arg16 (by decide)) (Cert.KernelIdeal.Hand.Wlast_arg m ρ c Cert.KernelIdeal.main_arg17 (by decide)) (Cert.KernelIdeal.Hand.Wlast_arg m ρ c Cert.KernelIdeal.main_arg18 (by decide)) (Cert.KernelIdeal.Hand.Wlast_arg m ρ c Cert.KernelIdeal.main_arg19 (by decide)) (Cert.KernelIdeal.Hand.Wlast_arg m ρ c Cert.KernelIdeal.main_arg20 (by decide)) (Cert.KernelIdeal.Hand.Wlast_arg m ρ c Cert.KernelIdeal.main_arg21 (by decide)) (Cert.KernelIdeal.Hand.Wlast_arg m ρ c Cert.KernelIdeal.main_arg22 (by decide)) (Cert.KernelIdeal.Hand.Wlast_arg m ρ c Cert.KernelIdeal.main_arg23 (by decide)) (Cert.KernelIdeal.Hand.Wlast_arg m ρ c Cert.KernelIdeal.main_arg24 (by decide)) (Cert.KernelIdeal.Hand.Wlast_arg m ρ c Cert.KernelIdeal.main_arg25 (by decide))
    (hpre c)
  refine ⟨(h c Cert.KernelIdeal.main_v177 (by decide)).trans (h0.trans ?_), (h c Cert.KernelIdeal.main_v167 (by decide)).trans (h1.trans ?_),
    (h c Cert.KernelIdeal.main_v140 (by decide)).trans (h2.trans ?_),
    (h c Cert.KernelIdeal.main_arg0 (by decide)).trans (Cert.KernelIdeal.Hand.Wlast_arg m ρ c Cert.KernelIdeal.main_arg0 (by decide)),
    (h c Cert.KernelIdeal.main_arg1 (by decide)).trans (Cert.KernelIdeal.Hand.Wlast_arg m ρ c Cert.KernelIdeal.main_arg1 (by decide)),
    (h c Cert.KernelIdeal.main_arg2 (by decide)).trans (Cert.KernelIdeal.Hand.Wlast_arg m ρ c Cert.KernelIdeal.main_arg2 (by decide)),
    (h c Cert.KernelIdeal.main_arg3 (by decide)).trans (Cert.KernelIdeal.Hand.Wlast_arg m ρ c Cert.KernelIdeal.main_arg3 (by decide)),
    (h c Cert.KernelIdeal.main_arg4 (by decide)).trans (Cert.KernelIdeal.Hand.Wlast_arg m ρ c Cert.KernelIdeal.main_arg4 (by decide)),
    (h c Cert.KernelIdeal.main_arg5 (by decide)).trans (Cert.KernelIdeal.Hand.Wlast_arg m ρ c Cert.KernelIdeal.main_arg5 (by decide)),
    (h c Cert.KernelIdeal.main_arg6 (by decide)).trans (Cert.KernelIdeal.Hand.Wlast_arg m ρ c Cert.KernelIdeal.main_arg6 (by decide)),
    (h c Cert.KernelIdeal.main_arg7 (by decide)).trans (Cert.KernelIdeal.Hand.Wlast_arg m ρ c Cert.KernelIdeal.main_arg7 (by decide)),
    (h c Cert.KernelIdeal.main_arg8 (by decide)).trans (Cert.KernelIdeal.Hand.Wlast_arg m ρ c Cert.KernelIdeal.main_arg8 (by decide)),
    (h c Cert.KernelIdeal.main_arg9 (by decide)).trans (Cert.KernelIdeal.Hand.Wlast_arg m ρ c Cert.KernelIdeal.main_arg9 (by decide)),
    (h c Cert.KernelIdeal.main_arg10 (by decide)).trans (Cert.KernelIdeal.Hand.Wlast_arg m ρ c Cert.KernelIdeal.main_arg10 (by decide)),
    (h c Cert.KernelIdeal.main_arg11 (by decide)).trans (Cert.KernelIdeal.Hand.Wlast_arg m ρ c Cert.KernelIdeal.main_arg11 (by decide)),
    (h c Cert.KernelIdeal.main_arg12 (by decide)).trans (Cert.KernelIdeal.Hand.Wlast_arg m ρ c Cert.KernelIdeal.main_arg12 (by decide)),
    (h c Cert.KernelIdeal.main_arg13 (by decide)).trans (Cert.KernelIdeal.Hand.Wlast_arg m ρ c Cert.KernelIdeal.main_arg13 (by decide)),
    (h c Cert.KernelIdeal.main_arg14 (by decide)).trans (Cert.KernelIdeal.Hand.Wlast_arg m ρ c Cert.KernelIdeal.main_arg14 (by decide)),
    (h c Cert.KernelIdeal.main_arg15 (by decide)).trans (Cert.KernelIdeal.Hand.Wlast_arg m ρ c Cert.KernelIdeal.main_arg15 (by decide)),
    (h c Cert.KernelIdeal.main_arg16 (by decide)).trans (Cert.KernelIdeal.Hand.Wlast_arg m ρ c Cert.KernelIdeal.main_arg16 (by decide)),
    (h c Cert.KernelIdeal.main_arg17 (by decide)).trans (Cert.KernelIdeal.Hand.Wlast_arg m ρ c Cert.KernelIdeal.main_arg17 (by decide)),
    (h c Cert.KernelIdeal.main_arg18 (by decide)).trans (Cert.KernelIdeal.Hand.Wlast_arg m ρ c Cert.KernelIdeal.main_arg18 (by decide)),
    (h c Cert.KernelIdeal.main_arg19 (by decide)).trans (Cert.KernelIdeal.Hand.Wlast_arg m ρ c Cert.KernelIdeal.main_arg19 (by decide)),
    (h c Cert.KernelIdeal.main_arg20 (by decide)).trans (Cert.KernelIdeal.Hand.Wlast_arg m ρ c Cert.KernelIdeal.main_arg20 (by decide)),
    (h c Cert.KernelIdeal.main_arg21 (by decide)).trans (Cert.KernelIdeal.Hand.Wlast_arg m ρ c Cert.KernelIdeal.main_arg21 (by decide)),
    (h c Cert.KernelIdeal.main_arg22 (by decide)).trans (Cert.KernelIdeal.Hand.Wlast_arg m ρ c Cert.KernelIdeal.main_arg22 (by decide)),
    (h c Cert.KernelIdeal.main_arg23 (by decide)).trans (Cert.KernelIdeal.Hand.Wlast_arg m ρ c Cert.KernelIdeal.main_arg23 (by decide)),
    (h c Cert.KernelIdeal.main_arg24 (by decide)).trans (Cert.KernelIdeal.Hand.Wlast_arg m ρ c Cert.KernelIdeal.main_arg24 (by decide)),
    (h c Cert.KernelIdeal.main_arg25 (by decide)).trans (Cert.KernelIdeal.Hand.Wlast_arg m ρ c Cert.KernelIdeal.main_arg25 (by decide))⟩
  · dsimp only; rw [e0, e1, e2, e3, e4, e5, e6, e7, e8, e9, e10, e11, e12, e13, e14, e15, e16, e17, e18, e19, e20, e21, e22, e23, e24, e25]
  · dsimp only; rw [e0, e1, e2, e3, e4, e5, e6, e7, e8, e9, e10, e11, e12, e13, e14, e15, e16, e17, e18, e19, e20, e21, e22, e23, e24]
  · dsimp only; rw [e0, e2, e3, e4, e5, e10, e11, e12, e15, e16, e17, e18, e19, e20]

end Cert.Proof.Parts

end
-- ==== Proof.lean ====
import proofs.«417009_j23742579212955_2_alg».proof.Defs
import proofs.«417009_j23742579212955_2_alg».proof.Proof.Gen.Kernel
import proofs.«417009_j23742579212955_2_alg».proof.Proof.Gen.KernelIdeal
import proofs.«417009_j23742579212955_2_alg».proof.Proof.Gen.ReferenceIdeal
import proofs.«417009_j23742579212955_2_alg».proof.Proof.Gen.Pre_finite_inputs
import proofs.«417009_j23742579212955_2_alg».proof.Proof.KB.Frame
import proofs.«417009_j23742579212955_2_alg».proof.Proof.KI.Frame
import proofs.«417009_j23742579212955_2_alg».proof.Proof.Ref.Run
import proofs.«417009_j23742579212955_2_alg».proof.Proof.Bridge.Consts
import proofs.«417009_j23742579212955_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Kernel.Hand.frame_p, Cert.KernelIdeal.Hand.frame_pi, Cert.ReferenceIdeal.RefValue.frame_ri,
    Cert.Bridge.preserves, Cert.Proof.Parts.algebraic⟩

end Cert.Proof

end
